-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_arg2)) (v1 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg2) = v0 c
          ∧ r.2.mem ((c.tc : Thread Cert.KernelIdeal.nD Cert.KernelIdeal.τ).loc Cert.KernelIdeal.main_v153) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg2) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x3 : Shape := ⟨2, ![32768, 3]⟩
abbrev S32768x64 : Shape := ⟨2, ![32768, 64]⟩
abbrev S8192x3 : Shape := ⟨2, ![8192, 3]⟩
abbrev S4 : Shape := ⟨1, ![4]⟩
abbrev S128x67 : Shape := ⟨2, ![128, 67]⟩
abbrev S128 : Shape := ⟨1, ![128]⟩
abbrev S128x128 : Shape := ⟨2, ![128, 128]⟩
abbrev S_ : Shape := ⟨0, ![]⟩

class Facts : Prop where
  bcast_S_S32768x3 : S_.BroadcastsInDim S32768x3 (![] : Fin 0 → Fin S32768x3.rank)
  reducesTo_S32768x3_S_d0_1 : S32768x3.ReducesTo [0, 1] S_
  h_S_ : 0 < S_.numel
  bcast_S_S32768x64 : S_.BroadcastsInDim S32768x64 (![] : Fin 0 → Fin S32768x64.rank)
  reducesTo_S32768x64_S_d0_1 : S32768x64.ReducesTo [0, 1] S_
  bcast_S_S8192x3 : S_.BroadcastsInDim S8192x3 (![] : Fin 0 → Fin S8192x3.rank)
  reducesTo_S8192x3_S_d0_1 : S8192x3.ReducesTo [0, 1] S_
  bcast_S_S128x67 : S_.BroadcastsInDim S128x67 (![] : Fin 0 → Fin S128x67.rank)
  reducesTo_S128x67_S_d0_1 : S128x67.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg13 : FVec F S128 .f32) (main_arg14 : FVec F S128x128 .f32) (main_arg15 : FVec F S128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_v63 main_v67

def fn_part2 {F : FTy → Type} [FloatOps F] (main_arg9 : FVec F S128 .f32) (main_arg10 : FVec F S128 .f32) (main_arg11 : FVec F S128x67 .f32) (main_arg12 : FVec F S128 .f32) (main_arg13 : FVec F S128 .f32) (main_arg14 : FVec F S128x128 .f32) (main_arg15 : FVec F S128 .f32) (main_arg16 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x67 .f32 := Host.absf main_arg11
  let main_cst_16 : FVec F S_ .f32 := constant S_ .f32 0x7F800000#32
  let main_v45 : FVec F S128x67 .f32 := broadcastInDim S128x67 ![] bcast_S_S128x67 main_cst_16
  let main_v46 : IVec S128x67 1 := cmpf .olt main_v44 main_v45
  let main_c_17 : IVec S_ 1 := constantI S_ 1 1#1
  let main_v47 : IVec S_ 1 := (fun x v => Host.reduce IntOp.andi x v reducesTo_S128x67_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128 .f32) (main_arg8 : FVec F S128x128 .f32) (main_arg9 : FVec F S128 .f32) (main_arg10 : FVec F S128 .f32) (main_arg11 : FVec F S128x67 .f32) (main_arg12 : FVec F S128 .f32) (main_arg13 : FVec F S128 .f32) (main_arg14 : FVec F S128x128 .f32) (main_arg15 : FVec F S128 .f32) (main_arg16 : FVec F S128 .f32) (main_v13 : IVec S_ 1) (main_v16 : IVec S128x67 1) : IVec S_ 1 :=
  let main_c_5 : IVec S_ 1 := constantI S_ 1 1#1
  let main_v17 : IVec S_ 1 := (fun x v => Host.reduce IntOp.andi x v reducesTo_S128x67_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S32768x3 .f32) (main_arg1 : FVec F S32768x64 .f32) (main_arg2 : FVec F S8192x3 .f32) (main_arg3 : IVec S4 32) (main_arg4 : IVec S4 32) (main_arg5 : FVec F S128x67 .f32) (main_arg6 : FVec F S128 .f32) (main_arg7 : FVec F S128 .f32) (main_arg8 : FVec F S128x128 .f32) (main_arg9 : FVec F S128 .f32) (main_arg10 : FVec F S128 .f32) (main_arg11 : FVec F S128x67 .f32) (main_arg12 : FVec F S128 .f32) (main_arg13 : FVec F S128 .f32) (main_arg14 : FVec F S128x128 .f32) (main_arg15 : FVec F S128 .f32) (main_arg16 : FVec F S128 .f32) : IVec S_ 1 :=
  let main_v0 : FVec F S32768x3 .f32 := Host.absf main_arg0
  let main_cst : FVec F S_ .f32 := constant S_ .f32 0x7F800000#32
  let main_v1 : FVec F S32768x3 .f32 := broadcastInDim S32768x3 ![] bcast_S_S32768x3 main_cst
  let main_v2 : IVec S32768x3 1 := cmpf .olt main_v0 main_v1
  let main_c : IVec S_ 1 := constantI S_ 1 1#1
  let main_v3 : IVec S_ 1 := (fun x v => Host.reduce IntOp.andi x v reducesTo_S32768x3_S_d0_1 h_S_) main_v2 main_c
  let main_v4 : FVec F S32768x64 .f32 := Host.absf main_arg1
  let main_cst_0 : FVec F S_ .f32 := constant S_ .f32 0x7F800000#32
  let main_v5 : FVec F S32768x64 .f32 := broadcastInDim S32768x64 ![] bcast_S_S32768x64 main_cst_0
  let main_v6 : IVec S32768x64 1 := cmpf .olt main_v4 main_v5
  let main_c_1 : IVec S_ 1 := constantI S_ 1 1#1
  let main_v7 : IVec S_ 1 := (fun x v => Host.reduce IntOp.andi x v reducesTo_S32768x64_S_d0_1 h_S_) main_v6 main_c_1
  let main_v8 : IVec S_ 1 := andi main_v3 main_v7
  let main_v9 : FVec F S8192x3 .f32 := Host.absf main_arg2
  let main_cst_2 : FVec F S_ .f32 := constant S_ .f32 0x7F800000#32
  let main_v10 : FVec F S8192x3 .f32 := broadcastInDim S8192x3 ![] bcast_S_S8192x3 main_cst_2
  let main_v11 : IVec S8192x3 1 := cmpf .olt main_v9 main_v10
  let main_c_3 : IVec S_ 1 := constantI S_ 1 1#1
  let main_v12 : IVec S_ 1 := (fun x v => Host.reduce IntOp.andi x v reducesTo_S8192x3_S_d0_1 h_S_) main_v11 main_c_3
  let main_v13 : IVec S_ 1 := andi main_v8 main_v12
  let main_v14 : FVec F S128x67 .f32 := Host.absf main_arg5
  let main_cst_4 : FVec F S_ .f32 := constant S_ .f32 0x7F800000#32
  let main_v15 : FVec F S128x67 .f32 := broadcastInDim S128x67 ![] bcast_S_S128x67 main_cst_4
  let main_v16 : IVec S128x67 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S32768x3 : Shape := ⟨2, ![32768, 3]⟩
abbrev S32768x64 : Shape := ⟨2, ![32768, 64]⟩
abbrev S8192x3 : Shape := ⟨2, ![8192, 3]⟩
abbrev S4 : Shape := ⟨1, ![4]⟩
abbrev S128x67 : Shape := ⟨2, ![128, 67]⟩
abbrev S128 : Shape := ⟨1, ![128]⟩
abbrev S128x128 : Shape := ⟨2, ![128, 128]⟩
abbrev S4x8192x3 : Shape := ⟨3, ![4, 8192, 3]⟩
abbrev S4x8192x64 : Shape := ⟨3, ![4, 8192, 64]⟩
abbrev S4x2048x3 : Shape := ⟨3, ![4, 2048, 3]⟩
abbrev S_ : Shape := ⟨0, ![]⟩
abbrev S4x2048 : Shape := ⟨2, ![4, 2048]⟩
abbrev S4x2048x1 : Shape := ⟨3, ![4, 2048, 1]⟩
abbrev S4x8192 : Shape := ⟨2, ![4, 8192]⟩
abbrev S4x1x8192 : Shape := ⟨3, ![4, 1, 8192]⟩
abbrev S4x2048x8192 : Shape := ⟨3, ![4, 2048, 8192]⟩
abbrev S8192 : Shape := ⟨1, ![8192]⟩
abbrev S1x1x8192 : Shape := ⟨3, ![1, 1, 8192]⟩
abbrev S4x2048x16 : Shape := ⟨3, ![4, 2048, 16]⟩
abbrev S4x2048x16x1 : Shape := ⟨4, ![4, 2048, 16, 1]⟩
abbrev S4x2048x16x3 : Shape := ⟨4, ![4, 2048, 16, 3]⟩
abbrev S4x2048x1x3 : Shape := ⟨4, ![4, 2048, 1, 3]⟩
abbrev S4x2048x16x64 : Shape := ⟨4, ![4, 2048, 16, 64]⟩
abbrev S4x2048x16x67 : Shape := ⟨4, ![4, 2048, 16, 67]⟩
abbrev S4x2048x1x1 : Shape := ⟨4, ![4, 2048, 1, 1]⟩
abbrev S8192x16x67 : Shape := ⟨3, ![8192, 16, 67]⟩
abbrev S67x128 : Shape := ⟨2, ![67, 128]⟩
abbrev S8192x16x128 : Shape := ⟨3, ![8192, 16, 128]⟩
abbrev S1x128 : Shape := ⟨2, ![1, 128]⟩
abbrev S512x16x67 : Shape := ⟨3, ![512, 16, 67]⟩
abbrev S512x16x128 : Shape := ⟨3, ![512, 16, 128]⟩
abbrev S2x128 : Shape := ⟨2, ![2, 128]⟩
abbrev S8192x67 : Shape := ⟨2, ![8192, 67]⟩
abbrev S8192x128 : Shape := ⟨2, ![8192, 128]⟩
abbrev S1x1x128 : Shape := ⟨3, ![1, 1, 128]⟩
abbrev S512x128 : Shape := ⟨2, ![512, 128]⟩
abbrev S512x1x128 : Shape := ⟨3, ![512, 1, 128]⟩
abbrev S4x2048x32 : Shape := ⟨3, ![4, 2048, 32]⟩
abbrev S4x2048x32x1 : Shape := ⟨4, ![4, 2048, 32, 1]⟩
abbrev S4x2048x32x3 : Shape := ⟨4, ![4, 2048, 32, 3]⟩
abbrev S4x2048x32x64 : Shape := ⟨4, ![4, 2048, 32, 64]⟩
abbrev S4x2048x32x67 : Shape := ⟨4, ![4, 2048, 32, 67]⟩
abbrev S8192x32x67 : Shape := ⟨3, ![8192, 32, 67]⟩
abbrev S8192x32x128 : Shape := ⟨3, ![8192, 32, 128]⟩
abbrev S256x32x67 : Shape := ⟨3, ![256, 32, 67]⟩
abbrev S256x32x128 : Shape := ⟨3, ![256, 32, 128]⟩
abbrev S256x128 : Shape := ⟨2, ![256, 128]⟩
abbrev S256x1x128 : Shape := ⟨3, ![256, 1, 128]⟩
abbrev S8192x256 : Shape := ⟨2, ![8192, 256]⟩

abbrev nBuf : Space → Nat
  | .hbm => 231
  | .vmem => 56
  | .smem => 0
  | _ => 0

abbrev hbmTy0_0 (i : Nat) : BufTy := match i % 128 with
  | 0 => ⟨S32768x3, .f32⟩
  | 1 => ⟨S32768x64, .f32⟩
  | 2 => ⟨S8192x3, .f32⟩
  | 3 => ⟨S4, .i32⟩
  | 4 => ⟨S4, .i32⟩
  | 5 => ⟨S128x67, .f32⟩
  | 6 => ⟨S128, .f32⟩
  | 7 => ⟨S128, .f32⟩
  | 8 => ⟨S128x128, .f32⟩
  | 9 => ⟨S128, .f32⟩
  | 10 => ⟨S128, .f32⟩
  | 11 => ⟨S128x67, .f32⟩
  | 12 => ⟨S128, .f32⟩
  | 13 => ⟨S128, .f32⟩
  | 14 => ⟨S128x128, .f32⟩
  | 15 => ⟨S128, .f32⟩
  | 16 => ⟨S128, .f32⟩
  | 17 => ⟨S4x8192x3, .f32⟩
  | 18 => ⟨S4x8192x64, .f32⟩
  | 19 => ⟨S4x2048x3, .f32⟩
  | 20 => ⟨S4x2048x3, .f32⟩
  | 21 => ⟨S_, .f32⟩
  | 22 => ⟨S4x2048, .f32⟩
  | 23 => ⟨S4x2048x1, .f32⟩
  | 24 => ⟨S4x8192x3, .f32⟩
  | 25 => ⟨S_, .f32⟩
  | 26 => ⟨S4x8192, .f32⟩
  | 27 => ⟨S4x1x8192, .f32⟩
  | 28 => ⟨S4x2048x8192, .f32⟩
  | 29 => ⟨S4x2048x8192, .f32⟩
  | 30 => ⟨S4x2048x8192, .f32⟩
  | 31 => ⟨S4x2048x8192, .f32⟩
  | 32 => ⟨S_, .f32⟩
  | 33 => ⟨S4x2048x8192, .f32⟩
  | 34 => ⟨S4x2048x8192, .f32⟩
  | 35 => ⟨S4x2048x8192, .f32⟩
  | 36 => ⟨S_, .f32⟩
  | 37 => ⟨S4x2048x8192, .f32⟩
  | 38 => ⟨S4x2048x8192, .i1⟩
  | 39 => ⟨S8192, .i32⟩
  | 40 => ⟨S1x1x8192, .i32⟩
  | 41 => ⟨S_, .i32⟩
  | 42 => ⟨S_, .i32⟩
  | 43 => ⟨S4x2048x8192, .i32⟩
  | 44 => ⟨S4x2048x8192, .i32⟩
  | 45 => ⟨S4x2048x8192, .i32⟩
  | 46 => ⟨S4x2048x8192, .i32⟩
  | 47 => ⟨S4x2048x16, .i32⟩
  | 48 => ⟨S_, .i32⟩
  | 49 => ⟨S4x2048x16, .i32⟩
  | 50 => ⟨S4x2048x16, .i1⟩
  | 51 => ⟨S4x2048x1, .i32⟩
  | 52 => ⟨S4x2048x16, .i32⟩
  | 53 => ⟨S4x2048x16, .i32⟩
  | 54 => ⟨S4x2048x1, .i1⟩
  | 55 => ⟨S4x2048, .i1⟩
  | 56 => ⟨S4x2048, .i1⟩
  | 57 => ⟨S4x2048x1, .i1⟩
  | 58 => ⟨S_, .i32⟩
  | 59 => ⟨S_, .i32⟩
  | 60 => ⟨S4x2048x16, .i1⟩
  | 61 => ⟨S4x2048x16, .i32⟩
  | 62 => ⟨S4x2048x16, .i32⟩
  | 63 => ⟨S_, .i32⟩
  | 64 => ⟨S4x2048x16, .i32⟩
  | 65 => ⟨S4x2048x16, .i1⟩
  | 66 => ⟨S_, .i32⟩
  | 67 => ⟨S4x2048x16, .i32⟩
  | 68 => ⟨S4x2048x16, .i32⟩
  | 69 => ⟨S4x2048x16, .i32⟩
  | 70 => ⟨S4x2048x16x1, .i32⟩
  | 71 => ⟨S4x2048x16x3, .f32⟩
  | 72 => ⟨S4x2048x1x3, .f32⟩
  | 73 => ⟨S4x2048x16x3, .f32⟩
  | 74 => ⟨S4x2048x16x3, .f32⟩
  | 75 => ⟨S_, .i32⟩
  | 76 => ⟨S4x2048x16, .i32⟩
  | 77 => ⟨S4x2048x16, .i1⟩
  | 78 => ⟨S_, .i32⟩
  | 79 => ⟨S4x2048x16, .i32⟩
  | 80 => ⟨S4x2048x16, .i32⟩
  | 81 => ⟨S4x2048x16, .i32⟩
  | 82 => ⟨S4x2048x16x1, .i32⟩
  | 83 => ⟨S4x2048x16x64, .f32⟩
  | 84 => ⟨S4x2048x16x67, .f32⟩
  | 85 => ⟨S4x2048x1x1, .i1⟩
  | 86 => ⟨S_, .f32⟩
  | 87 => ⟨S_, .f32⟩
  | 88 => ⟨S4x2048x16x67, .i1⟩
  | 89 => ⟨S4x2048x16x67, .f32⟩
  | 90 => ⟨S4x2048x16x67, .f32⟩
  | 91 => ⟨S8192x16x67, .f32⟩
  | 92 => ⟨S67x128, .f32⟩
  | 93 => ⟨S128x128, .f32⟩
  | 94 => ⟨S8192x16x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S1x128, .f32⟩
  | 105 => ⟨S1x1x128, .f32⟩
  | 106 => ⟨S1x1x128, .f32⟩
  | 107 => ⟨S1x1x128, .f32⟩
  | 108 => ⟨S1x1x128, .f32⟩
  | 109 => ⟨S8192x16x128, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S1x128, .f32⟩
  | 119 => ⟨S1x128, .f32⟩
  | 120 => ⟨S1x1x128, .f32⟩
  | 121 => ⟨S1x1x128, .f32⟩
  | 122 => ⟨S1x1x128, .f32⟩
  | 123 => ⟨S1x1x128, .f32⟩
  | 124 => ⟨S8192x128, .f32⟩
  | 125 => ⟨S4x2048x3, .f32⟩
  | 126 => ⟨S_, .f32⟩
  | 127 => ⟨S4x2048, .f32⟩
  | _ => ⟨S32768x3, .f32⟩

abbrev hbmTy0_1 (i : Nat) : BufTy := match i % 128 with
  | 0 => ⟨S4x2048x1, .f32⟩
  | 1 => ⟨S4x8192x3, .f32⟩
  | 2 => ⟨S_, .f32⟩
  | 3 => ⟨S4x8192, .f32⟩
  | 4 => ⟨S4x1x8192, .f32⟩
  | 5 => ⟨S4x2048x8192, .f32⟩
  | 6 => ⟨S4x2048x8192, .f32⟩
  | 7 => ⟨S4x2048x8192, .f32⟩
  | 8 => ⟨S4x2048x8192, .f32⟩
  | 9 => ⟨S_, .f32⟩
  | 10 => ⟨S4x2048x8192, .f32⟩
  | 11 => ⟨S4x2048x8192, .f32⟩
  | 12 => ⟨S4x2048x8192, .f32⟩
  | 13 => ⟨S_, .f32⟩
  | 14 => ⟨S4x2048x8192, .f32⟩
  | 15 => ⟨S4x2048x8192, .i1⟩
  | 16 => ⟨S8192, .i32⟩
  | 17 => ⟨S1x1x8192, .i32⟩
  | 18 => ⟨S_, .i32⟩
  | 19 => ⟨S_, .i32⟩
  | 20 => ⟨S4x2048x8192, .i32⟩
  | 21 => ⟨S4x2048x8192, .i32⟩
  | 22 => ⟨S4x2048x8192, .i32⟩
  | 23 => ⟨S4x2048x8192, .i32⟩
  | 24 => ⟨S4x2048x32, .i32⟩
  | 25 => ⟨S_, .i32⟩
  | 26 => ⟨S4x2048x32, .i32⟩
  | 27 => ⟨S4x2048x32, .i1⟩
  | 28 => ⟨S4x2048x1, .i32⟩
  | 29 => ⟨S4x2048x32, .i32⟩
  | 30 => ⟨S4x2048x32, .i32⟩
  | 31 => ⟨S4x2048x1, .i1⟩
  | 32 => ⟨S4x2048, .i1⟩
  | 33 => ⟨S4x2048, .i1⟩
  | 34 => ⟨S4x2048x1, .i1⟩
  | 35 => ⟨S_, .i32⟩
  | 36 => ⟨S_, .i32⟩
  | 37 => ⟨S4x2048x32, .i1⟩
  | 38 => ⟨S4x2048x32, .i32⟩
  | 39 => ⟨S4x2048x32, .i32⟩
  | 40 => ⟨S_, .i32⟩
  | 41 => ⟨S4x2048x32, .i32⟩
  | 42 => ⟨S4x2048x32, .i1⟩
  | 43 => ⟨S_, .i32⟩
  | 44 => ⟨S4x2048x32, .i32⟩
  | 45 => ⟨S4x2048x32, .i32⟩
  | 46 => ⟨S4x2048x32, .i32⟩
  | 47 => ⟨S4x2048x32x1, .i32⟩
  | 48 => ⟨S4x2048x32x3, .f32⟩
  | 49 => ⟨S4x2048x1x3, .f32⟩
  | 50 => ⟨S4x2048x32x3, .f32⟩
  | 51 => ⟨S4x2048x32x3, .f32⟩
  | 52 => ⟨S_, .i32⟩
  | 53 => ⟨S4x2048x32, .i32⟩
  | 54 => ⟨S4x2048x32, .i1⟩
  | 55 => ⟨S_, .i32⟩
  | 56 => ⟨S4x2048x32, .i32⟩
  | 57 => ⟨S4x2048x32, .i32⟩
  | 58 => ⟨S4x2048x32, .i32⟩
  | 59 => ⟨S4x2048x32x1, .i32⟩
  | 60 => ⟨S4x2048x32x64, .f32⟩
  | 61 => ⟨S4x2048x32x67, .f32⟩
  | 62 => ⟨S4x2048x1x1, .i1⟩
  | 63 => ⟨S_, .f32⟩
  | 64 => ⟨S_, .f32⟩
  | 65 => ⟨S4x2048x32x67, .i1⟩
  | 66 => ⟨S4x2048x32x67, .f32⟩
  | 67 => ⟨S4x2048x32x67, .f32⟩
  | 68 => ⟨S8192x32x67, .f32⟩
  | 69 => ⟨S67x128, .f32⟩
  | 70 => ⟨S128x128, .f32⟩
  | 71 => ⟨S8192x32x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S1x128, .f32⟩
  | 82 => ⟨S1x1x128, .f32⟩
  | 83 => ⟨S1x1x128, .f32⟩
  | 84 => ⟨S1x1x128, .f32⟩
  | 85 => ⟨S1x1x128, .f32⟩
  | 86 => ⟨S8192x32x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S1x128, .f32⟩
  | 96 => ⟨S1x128, .f32⟩
  | 97 => ⟨S1x1x128, .f32⟩
  | 98 => ⟨S1x1x128, .f32⟩
  | 99 => ⟨S1x1x128, .f32⟩
  | 100 => ⟨S1x1x128, .f32⟩
  | 101 => ⟨S8192x128, .f32⟩
  | 102 => ⟨S8192x256, .f32⟩
  | _ => ⟨S32768x3, .f32⟩

abbrev hbmTy (i : Nat) : BufTy := match i / 128 with
  | 0 => hbmTy0_0 i
  | 1 => hbmTy0_1 i
  | _ => ⟨S32768x3, .f32⟩

abbrev bufTy : (tb : Table) → Fin (tcTables nBuf tb) → BufTy
  | .hbm, ⟨i, _⟩ => hbmTy i
  | .local _ .vmem, ⟨0, _⟩ => ⟨S512x16x67, .f32⟩
  | .local _ .vmem, ⟨1, _⟩ => ⟨S512x16x67, .f32⟩
  | .local _ .vmem, ⟨2, _⟩ => ⟨S67x128, .f32⟩
  | .local _ .vmem, ⟨3, _⟩ => ⟨S512x16x128, .f32⟩
  | .local _ .vmem, ⟨4, _⟩ => ⟨S512x16x128, .f32⟩
  | .local _ .vmem, ⟨5, _⟩ => ⟨S1x128, .f32⟩
  | .local _ .vmem, ⟨6, _⟩ => ⟨S1x128, .f32⟩
  | .local _ .vmem, ⟨7, _⟩ => ⟨S2x128, .f32⟩
  | .local _ .vmem, ⟨8, _⟩ => ⟨S512x16x128, .f32⟩
  | .local _ .vmem, ⟨9, _⟩ => ⟨S512x16x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S128x128, .f32⟩
  | .local _ .vmem, ⟨15, _⟩ => ⟨S512x16x128, .f32⟩
  | .local _ .vmem, ⟨16, _⟩ => ⟨S512x16x128, .f32⟩
  | .local _ .vmem, ⟨17, _⟩ => ⟨S1x128, .f32⟩
  | .local _ .vmem, ⟨18, _⟩ => ⟨S1x128, .f32⟩
  | .local _ .vmem, ⟨19, _⟩ => ⟨S2x128, .f32⟩
  | .local _ .vmem, ⟨20, _⟩ => ⟨S512x16x128, .f32⟩
  | .local _ .vmem, ⟨21, _⟩ => ⟨S512x16x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S512x128, .f32⟩
  | .local _ .vmem, ⟨27, _⟩ => ⟨S512x128, .f32⟩
  | .local _ .vmem, ⟨28, _⟩ => ⟨S256x32x67, .f32⟩
  | .local _ .vmem, ⟨29, _⟩ => ⟨S256x32x67, .f32⟩
  | .local _ .vmem, ⟨30, _⟩ => ⟨S67x128, .f32⟩
  | .local _ .vmem, ⟨31, _⟩ => ⟨S256x32x128, .f32⟩
  | .local _ .vmem, ⟨32, _⟩ => ⟨S256x32x128, .f32⟩
  | .local _ .vmem, ⟨33, _⟩ => ⟨S1x128, .f32⟩
  | .local _ .vmem, ⟨34, _⟩ => ⟨S1x128, .f32⟩
  | .local _ .vmem, ⟨35, _⟩ => ⟨S2x128, .f32⟩
  | .local _ .vmem, ⟨36, _⟩ => ⟨S256x32x128, .f32⟩
  | .local _ .vmem, ⟨37, _⟩ => ⟨S256x32x128, .f32⟩
  | .local _ .vmem, ⟨38, _⟩ => ⟨S1x1x128, .f32⟩
  | .local _ .vmem, ⟨39, _⟩ => ⟨S1x1x128, .f32⟩
  | .local _ .vmem, ⟨40, _⟩ => ⟨S1x1x128, .f32⟩
  | .local _ .vmem, ⟨41, _⟩ => ⟨S1x1x128, .f32⟩
  | .local _ .vmem, ⟨42, _⟩ => ⟨S128x128, .f32⟩
  | .local _ .vmem, ⟨43, _⟩ => ⟨S256x32x128, .f32⟩
  | .local _ .vmem, ⟨44, _⟩ => ⟨S256x32x128, .f32⟩
  | .local _ .vmem, ⟨45, _⟩ => ⟨S1x128, .f32⟩
  | .local _ .vmem, ⟨46, _⟩ => ⟨S1x128, .f32⟩
  | .local _ .vmem, ⟨47, _⟩ => ⟨S2x128, .f32⟩
  | .local _ .vmem, ⟨48, _⟩ => ⟨S256x32x128, .f32⟩
  | .local _ .vmem, ⟨49, _⟩ => ⟨S256x32x128, .f32⟩
  | .local _ .vmem, ⟨50, _⟩ => ⟨S1x1x128, .f32⟩
  | .local _ .vmem, ⟨51, _⟩ => ⟨S1x1x128, .f32⟩
  | .local _ .vmem, ⟨52, _⟩ => ⟨S1x1x128, .f32⟩
  | .local _ .vmem, ⟨53, _⟩ => ⟨S1x1x128, .f32⟩
  | .local _ .vmem, ⟨54, _⟩ => ⟨S256x128, .f32⟩
  | .local _ .vmem, ⟨55, _⟩ => ⟨S256x128, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_call2_v0 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_4 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_v31 : Ref sig .tc := ⟨.hbm, 62, rfl⟩
abbrev main_c_5 : Ref sig .tc := ⟨.hbm, 63, rfl⟩
abbrev main_v32 : Ref sig .tc := ⟨.hbm, 64, rfl⟩
abbrev main_v33 : Ref sig .tc := ⟨.hbm, 65, rfl⟩
abbrev main_c_6 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_7 : Ref sig .tc := ⟨.hbm, 75, rfl⟩
abbrev main_v42 : Ref sig .tc := ⟨.hbm, 76, rfl⟩
abbrev main_v43 : Ref sig .tc := ⟨.hbm, 77, rfl⟩
abbrev main_c_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_9 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55_0 : Ref sig .tc := ⟨.hbm, 94, rfl⟩
abbrev main_v55_1 : Ref sig .tc := ⟨.hbm, 95, rfl⟩
abbrev main_v55_2 : Ref sig .tc := ⟨.hbm, 96, rfl⟩
abbrev main_cst_10 : Ref sig .tc := ⟨.hbm, 97, rfl⟩
abbrev main_v56 : Ref sig .tc := ⟨.hbm, 98, rfl⟩
abbrev main_v57 : Ref sig .tc := ⟨.hbm, 99, rfl⟩
abbrev main_cst_11 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66_0 : Ref sig .tc := ⟨.hbm, 109, rfl⟩
abbrev main_v66_1 : Ref sig .tc := ⟨.hbm, 110, rfl⟩
abbrev main_v66_2 : Ref sig .tc := ⟨.hbm, 111, rfl⟩
abbrev main_cst_12 : Ref sig .tc := ⟨.hbm, 112, rfl⟩
abbrev main_v67 : Ref sig .tc := ⟨.hbm, 113, rfl⟩
abbrev main_v68 : Ref sig .tc := ⟨.hbm, 114, rfl⟩
abbrev main_cst_13 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_14 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_15 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_16 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_17 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_c_18 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_c_19 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_call7_v0 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_c_20 : Ref sig .tc := ⟨.hbm, 163, rfl⟩
abbrev main_call8_v0 : Ref sig .tc := ⟨.hbm, 164, rfl⟩
abbrev main_call8_v1 : Ref sig .tc := ⟨.hbm, 165, rfl⟩
abbrev main_call8_v2 : Ref sig .tc := ⟨.hbm, 166, rfl⟩
abbrev main_v106 : Ref sig .tc := ⟨.hbm, 167, rfl⟩
abbrev main_c_21 : Ref sig .tc := ⟨.hbm, 168, rfl⟩
abbrev main_v107 : Ref sig .tc := ⟨.hbm, 169, rfl⟩
abbrev main_v108 : Ref sig .tc := ⟨.hbm, 170, rfl⟩
abbrev main_c_22 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_c_23 : Ref sig .tc := ⟨.hbm, 180, rfl⟩
abbrev main_v117 : Ref sig .tc := ⟨.hbm, 181, rfl⟩
abbrev main_v118 : Ref sig .tc := ⟨.hbm, 182, rfl⟩
abbrev main_c_24 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_cst_25 : Ref sig .tc := ⟨.hbm, 191, rfl⟩
abbrev main_call9_v0 : Ref sig .tc := ⟨.hbm, 192, rfl⟩
abbrev main_call9_v1 : Ref sig .tc := ⟨.hbm, 193, rfl⟩
abbrev main_call9_v2 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130_0 : Ref sig .tc := ⟨.hbm, 199, rfl⟩
abbrev main_v130_1 : Ref sig .tc := ⟨.hbm, 200, rfl⟩
abbrev main_v130_2 : Ref sig .tc := ⟨.hbm, 201, rfl⟩
abbrev main_cst_26 : Ref sig .tc := ⟨.hbm, 202, rfl⟩
abbrev main_v131 : Ref sig .tc := ⟨.hbm, 203, rfl⟩
abbrev main_v132 : Ref sig .tc := ⟨.hbm, 204, rfl⟩
abbrev main_cst_27 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141_0 : Ref sig .tc := ⟨.hbm, 214, rfl⟩
abbrev main_v141_1 : Ref sig .tc := ⟨.hbm, 215, rfl⟩
abbrev main_v141_2 : Ref sig .tc := ⟨.hbm, 216, rfl⟩
abbrev main_cst_28 : Ref sig .tc := ⟨.hbm, 217, rfl⟩
abbrev main_v142 : Ref sig .tc := ⟨.hbm, 218, rfl⟩
abbrev main_v143 : Ref sig .tc := ⟨.hbm, 219, rfl⟩
abbrev main_cst_29 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg8_0 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc4_stg7_0 : Ref sig .tc := ⟨.vmem, 45, rfl⟩
abbrev cc4_stg8_0 : Ref sig .tc := ⟨.vmem, 46, rfl⟩
abbrev cc4_scratch0 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem8_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem4_0 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc4_sem7_0 : DmaSem sig := 42
abbrev cc4_sem8_0 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v28 : BitVec 1 := Scalar.cmpi .eq arg0 c15_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x16x67 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S67x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v48 : BitVec 1 := Scalar.cmpi .eq arg0 c15_i32
  let v49 : BitVec 32 := Scalar.extui v48
  let c0_i32_31 : BitVec 32 := 0#32
  let v50 : BitVec 1 := Scalar.cmpi .ne v49 c0_i32_31
  v50

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x16x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x16x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def k3_cond2 (i : grid3.Coords) : BitVec 1 :=
  let arg0 : BitVec 32 := BitVec.ofNat 32 (i 0).val
  let c31_i32 : BitVec 32 := 31#32
  let v28 : BitVec 1 := Scalar.cmpi .eq arg0 c31_i32
  let v29 : BitVec 32 := Scalar.extui v28
  let c0_i32_17 : BitVec 32 := 0#32
  let v30 : BitVec 1 := Scalar.cmpi .ne v29 c0_i32_17
  v30

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x32x67 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S67x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x32x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![32], ![false]⟩

def k4_cond2 (i : grid4.Coords) : BitVec 1 :=
  let arg0 : BitVec 32 := BitVec.ofNat 32 (i 0).val
  let c31_i32 : BitVec 32 := 31#32
  let v48 : BitVec 1 := Scalar.cmpi .eq arg0 c31_i32
  let v49 : BitVec 32 := Scalar.extui v48
  let c0_i32_31 : BitVec 32 := 0#32
  let v50 : BitVec 1 := Scalar.cmpi .ne v49 c0_i32_31
  v50

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x32x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S256x32x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![32], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x32x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S256x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  shapeCasts_S32768x3_S4x8192x3 : S32768x3.ShapeCasts S4x8192x3
  shapeCasts_S32768x64_S4x8192x64 : S32768x64.ShapeCasts S4x8192x64
  shapeCasts_S8192x3_S4x2048x3 : S8192x3.ShapeCasts S4x2048x3
  reducesTo_S4x2048x3_S4x2048_d2 : S4x2048x3.ReducesTo [2] S4x2048
  h_S_ : 0 < S_.numel
  bcast_S4x2048_S4x2048x1_0_1 : S4x2048.BroadcastsInDim S4x2048x1 (![0, 1] : Fin 2 → Fin S4x2048x1.rank)
  reducesTo_S4x8192x3_S4x8192_d2 : S4x8192x3.ReducesTo [2] S4x8192
  bcast_S4x8192_S4x1x8192_0_2 : S4x8192.BroadcastsInDim S4x1x8192 (![0, 2] : Fin 2 → Fin S4x1x8192.rank)
  bcast_S4x2048x1_S4x2048x8192_0_1_2 : S4x2048x1.BroadcastsInDim S4x2048x8192 (![0, 1, 2] : Fin 3 → Fin S4x2048x8192.rank)
  bcast_S4x1x8192_S4x2048x8192_0_1_2 : S4x1x8192.BroadcastsInDim S4x2048x8192 (![0, 1, 2] : Fin 3 → Fin S4x2048x8192.rank)
  bcast_S_S4x2048x8192 : S_.BroadcastsInDim S4x2048x8192 (![] : Fin 0 → Fin S4x2048x8192.rank)
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  slices_S4x2048x8192_S4x2048x16_0_0_0 : S4x2048x8192.Slices ![0, 0, 0] S4x2048x16
  bcast_S_S4x2048x16 : S_.BroadcastsInDim S4x2048x16 (![] : Fin 0 → Fin S4x2048x16.rank)
  slices_S4x2048x16_S4x2048x1_0_0_0 : S4x2048x16.Slices ![0, 0, 0] S4x2048x1
  bcast_S4x2048x1_S4x2048x16_0_1_2 : S4x2048x1.BroadcastsInDim S4x2048x16 (![0, 1, 2] : Fin 3 → Fin S4x2048x16.rank)
  shapeCasts_S4x2048x1_S4x2048 : S4x2048x1.ShapeCasts S4x2048
  bcast_S4x2048x16_S4x2048x16x1_0_1_2 : S4x2048x16.BroadcastsInDim S4x2048x16x1 (![0, 1, 2] : Fin 3 → Fin S4x2048x16x1.rank)
  bcast_S4x2048x3_S4x2048x1x3_0_1_3 : S4x2048x3.BroadcastsInDim S4x2048x1x3 (![0, 1, 3] : Fin 3 → Fin S4x2048x1x3.rank)
  bcast_S4x2048x1x3_S4x2048x16x3_0_1_2_3 : S4x2048x1x3.BroadcastsInDim S4x2048x16x3 (![0, 1, 2, 3] : Fin 4 → Fin S4x2048x16x3.rank)
  concatenates_S4x2048x16x3_S4x2048x16x64_S4x2048x16x67_d3 : Shape.Concatenates [S4x2048x16x3, S4x2048x16x64] S4x2048x16x67 3
  bcast_S4x2048_S4x2048x1x1_0_1 : S4x2048.BroadcastsInDim S4x2048x1x1 (![0, 1] : Fin 2 → Fin S4x2048x1x1.rank)
  bcast_S4x2048x1x1_S4x2048x16x67_0_1_2_3 : S4x2048x1x1.BroadcastsInDim S4x2048x16x67 (![0, 1, 2, 3] : Fin 4 → Fin S4x2048x16x67.rank)
  bcast_S_S4x2048x16x67 : S_.BroadcastsInDim S4x2048x16x67 (![] : Fin 0 → Fin S4x2048x16x67.rank)
  shapeCasts_S4x2048x16x67_S8192x16x67 : S4x2048x16x67.ShapeCasts S8192x16x67
  transposes_S128x67_S67x128_1_0 : S128x67.Transposes [1, 0] S67x128
  transposes_S128x128_S128x128_1_0 : S128x128.Transposes [1, 0] S128x128
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S512x16x67_S512x16x67_0_0_0 : ∀ a, (![0, 0, 0] : Fin 3 → Nat) a + S512x16x67.size a ≤ S512x16x67.size a
  h_S512x16x67 : 0 < S512x16x67.numel
  shapeCasts_S512x16x67_S512x16x67 : S512x16x67.ShapeCasts S512x16x67
  shapeCasts_S512x16x67_S8192x67 : S512x16x67.ShapeCasts S8192x67
  bitsLt_bf16_f32 : FTy.bits .bf16 < FTy.bits .f32
  inb_S67x128_S67x128_0_0 : ∀ a, (![0, 0] : Fin 2 → Nat) a + S67x128.size a ≤ S67x128.size a
  h_S67x128 : 0 < S67x128.numel
  shapeCasts_S67x128_S67x128 : S67x128.ShapeCasts S67x128
  shapeCasts_S8192x128_S512x16x128 : S8192x128.ShapeCasts S512x16x128
  inb_S512x16x128_S512x16x128_0_0_0 : ∀ a, (![0, 0, 0] : Fin 3 → Nat) a + S512x16x128.size a ≤ S512x16x128.size a
  h_S512x16x128 : 0 < S512x16x128.numel
  reduces_S8192x128_S128 : S8192x128.Reduces [0] S128
  shapeCasts_S128_S1x128 : S128.ShapeCasts S1x128
  inb_S2x128_S1x128_0_0 : ∀ a, (![0, 0] : Fin 2 → Nat) a + S1x128.size a ≤ S2x128.size a
  h_S1x128 : 0 < S1x128.numel
  shapeCasts_S1x128_S1x128 : S1x128.ShapeCasts S1x128
  inb_S2x128_S1x128_1_0 : ∀ a, (![1, 0] : Fin 2 → Nat) a + S1x128.size a ≤ S2x128.size a
  inb_S1x128_S1x128_0_0 : ∀ a, (![0, 0] : Fin 2 → Nat) a + S1x128.size a ≤ S1x128.size a
  bcast_S_S1x128 : S_.BroadcastsInDim S1x128 (![] : Fin 0 → Fin S1x128.rank)
  shapeCasts_S1x128_S1x1x128 : S1x128.ShapeCasts S1x1x128
  shapeCasts_S128_S1x1x128 : S128.ShapeCasts S1x1x128
  shapeCasts_S512x16x128_S512x16x128 : S512x16x128.ShapeCasts S512x16x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  broadcasts_S1x1x128_S512x16x128 : S1x1x128.Broadcasts S512x16x128
  shapeCasts_S512x16x128_S8192x128 : S512x16x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S512x16x128_o0_0_0_S512x1x128 : S512x16x128.Slices ![0, 0, 0] S512x1x128
  shapeCasts_S512x1x128_S512x128 : S512x1x128.ShapeCasts S512x128
  slices_S512x16x128_o0_1_0_S512x1x128 : S512x16x128.Slices ![0, 1, 0] S512x1x128
  slices_S512x16x128_o0_2_0_S512x1x128 : S512x16x128.Slices ![0, 2, 0] S512x1x128
  slices_S512x16x128_o0_3_0_S512x1x128 : S512x16x128.Slices ![0, 3, 0] S512x1x128
  slices_S512x16x128_o0_4_0_S512x1x128 : S512x16x128.Slices ![0, 4, 0] S512x1x128
  slices_S512x16x128_o0_5_0_S512x1x128 : S512x16x128.Slices ![0, 5, 0] S512x1x128
  slices_S512x16x128_o0_6_0_S512x1x128 : S512x16x128.Slices ![0, 6, 0] S512x1x128
  slices_S512x16x128_o0_7_0_S512x1x128 : S512x16x128.Slices ![0, 7, 0] S512x1x128
  slices_S512x16x128_o0_8_0_S512x1x128 : S512x16x128.Slices ![0, 8, 0] S512x1x128
  slices_S512x16x128_o0_9_0_S512x1x128 : S512x16x128.Slices ![0, 9, 0] S512x1x128
  slices_S512x16x128_o0_10_0_S512x1x128 : S512x16x128.Slices ![0, 10, 0] S512x1x128
  slices_S512x16x128_o0_11_0_S512x1x128 : S512x16x128.Slices ![0, 11, 0] S512x1x128
  slices_S512x16x128_o0_12_0_S512x1x128 : S512x16x128.Slices ![0, 12, 0] S512x1x128
  slices_S512x16x128_o0_13_0_S512x1x128 : S512x16x128.Slices ![0, 13, 0] S512x1x128
  slices_S512x16x128_o0_14_0_S512x1x128 : S512x16x128.Slices ![0, 14, 0] S512x1x128
  slices_S512x16x128_o0_15_0_S512x1x128 : S512x16x128.Slices ![0, 15, 0] S512x1x128
  inb_S512x128_S512x128_0_0 : ∀ a, (![0, 0] : Fin 2 → Nat) a + S512x128.size a ≤ S512x128.size a
  h_S512x128 : 0 < S512x128.numel
  slices_S4x2048x8192_S4x2048x32_0_0_0 : S4x2048x8192.Slices ![0, 0, 0] S4x2048x32
  bcast_S_S4x2048x32 : S_.BroadcastsInDim S4x2048x32 (![] : Fin 0 → Fin S4x2048x32.rank)
  slices_S4x2048x32_S4x2048x1_0_0_0 : S4x2048x32.Slices ![0, 0, 0] S4x2048x1
  bcast_S4x2048x1_S4x2048x32_0_1_2 : S4x2048x1.BroadcastsInDim S4x2048x32 (![0, 1, 2] : Fin 3 → Fin S4x2048x32.rank)
  bcast_S4x2048x32_S4x2048x32x1_0_1_2 : S4x2048x32.BroadcastsInDim S4x2048x32x1 (![0, 1, 2] : Fin 3 → Fin S4x2048x32x1.rank)
  bcast_S4x2048x1x3_S4x2048x32x3_0_1_2_3 : S4x2048x1x3.BroadcastsInDim S4x2048x32x3 (![0, 1, 2, 3] : Fin 4 → Fin S4x2048x32x3.rank)
  concatenates_S4x2048x32x3_S4x2048x32x64_S4x2048x32x67_d3 : Shape.Concatenates [S4x2048x32x3, S4x2048x32x64] S4x2048x32x67 3
  bcast_S4x2048x1x1_S4x2048x32x67_0_1_2_3 : S4x2048x1x1.BroadcastsInDim S4x2048x32x67 (![0, 1, 2, 3] : Fin 4 → Fin S4x2048x32x67.rank)
  bcast_S_S4x2048x32x67 : S_.BroadcastsInDim S4x2048x32x67 (![] : Fin 0 → Fin S4x2048x32x67.rank)
  shapeCasts_S4x2048x32x67_S8192x32x67 : S4x2048x32x67.ShapeCasts S8192x32x67
  inb_S256x32x67_S256x32x67_0_0_0 : ∀ a, (![0, 0, 0] : Fin 3 → Nat) a + S256x32x67.size a ≤ S256x32x67.size a
  h_S256x32x67 : 0 < S256x32x67.numel
  shapeCasts_S256x32x67_S256x32x67 : S256x32x67.ShapeCasts S256x32x67
  shapeCasts_S256x32x67_S8192x67 : S256x32x67.ShapeCasts S8192x67
  shapeCasts_S8192x128_S256x32x128 : S8192x128.ShapeCasts S256x32x128
  inb_S256x32x128_S256x32x128_0_0_0 : ∀ a, (![0, 0, 0] : Fin 3 → Nat) a + S256x32x128.size a ≤ S256x32x128.size a
  h_S256x32x128 : 0 < S256x32x128.numel
  shapeCasts_S256x32x128_S256x32x128 : S256x32x128.ShapeCasts S256x32x128
  broadcasts_S1x1x128_S256x32x128 : S1x1x128.Broadcasts S256x32x128
  shapeCasts_S256x32x128_S8192x128 : S256x32x128.ShapeCasts S8192x128
  slices_S256x32x128_o0_0_0_S256x1x128 : S256x32x128.Slices ![0, 0, 0] S256x1x128
  shapeCasts_S256x1x128_S256x128 : S256x1x128.ShapeCasts S256x128
  slices_S256x32x128_o0_1_0_S256x1x128 : S256x32x128.Slices ![0, 1, 0] S256x1x128
  slices_S256x32x128_o0_2_0_S256x1x128 : S256x32x128.Slices ![0, 2, 0] S256x1x128
  slices_S256x32x128_o0_3_0_S256x1x128 : S256x32x128.Slices ![0, 3, 0] S256x1x128
  slices_S256x32x128_o0_4_0_S256x1x128 : S256x32x128.Slices ![0, 4, 0] S256x1x128
  slices_S256x32x128_o0_5_0_S256x1x128 : S256x32x128.Slices ![0, 5, 0] S256x1x128
  slices_S256x32x128_o0_6_0_S256x1x128 : S256x32x128.Slices ![0, 6, 0] S256x1x128
  slices_S256x32x128_o0_7_0_S256x1x128 : S256x32x128.Slices ![0, 7, 0] S256x1x128
  slices_S256x32x128_o0_8_0_S256x1x128 : S256x32x128.Slices ![0, 8, 0] S256x1x128
  slices_S256x32x128_o0_9_0_S256x1x128 : S256x32x128.Slices ![0, 9, 0] S256x1x128
  slices_S256x32x128_o0_10_0_S256x1x128 : S256x32x128.Slices ![0, 10, 0] S256x1x128
  slices_S256x32x128_o0_11_0_S256x1x128 : S256x32x128.Slices ![0, 11, 0] S256x1x128
  slices_S256x32x128_o0_12_0_S256x1x128 : S256x32x128.Slices ![0, 12, 0] S256x1x128
  slices_S256x32x128_o0_13_0_S256x1x128 : S256x32x128.Slices ![0, 13, 0] S256x1x128
  slices_S256x32x128_o0_14_0_S256x1x128 : S256x32x128.Slices ![0, 14, 0] S256x1x128
  slices_S256x32x128_o0_15_0_S256x1x128 : S256x32x128.Slices ![0, 15, 0] S256x1x128
  slices_S256x32x128_o0_16_0_S256x1x128 : S256x32x128.Slices ![0, 16, 0] S256x1x128
  slices_S256x32x128_o0_17_0_S256x1x128 : S256x32x128.Slices ![0, 17, 0] S256x1x128
  slices_S256x32x128_o0_18_0_S256x1x128 : S256x32x128.Slices ![0, 18, 0] S256x1x128
  slices_S256x32x128_o0_19_0_S256x1x128 : S256x32x128.Slices ![0, 19, 0] S256x1x128
  slices_S256x32x128_o0_20_0_S256x1x128 : S256x32x128.Slices ![0, 20, 0] S256x1x128
  slices_S256x32x128_o0_21_0_S256x1x128 : S256x32x128.Slices ![0, 21, 0] S256x1x128
  slices_S256x32x128_o0_22_0_S256x1x128 : S256x32x128.Slices ![0, 22, 0] S256x1x128
  slices_S256x32x128_o0_23_0_S256x1x128 : S256x32x128.Slices ![0, 23, 0] S256x1x128
  slices_S256x32x128_o0_24_0_S256x1x128 : S256x32x128.Slices ![0, 24, 0] S256x1x128
  slices_S256x32x128_o0_25_0_S256x1x128 : S256x32x128.Slices ![0, 25, 0] S256x1x128
  slices_S256x32x128_o0_26_0_S256x1x128 : S256x32x128.Slices ![0, 26, 0] S256x1x128
  slices_S256x32x128_o0_27_0_S256x1x128 : S256x32x128.Slices ![0, 27, 0] S256x1x128
  slices_S256x32x128_o0_28_0_S256x1x128 : S256x32x128.Slices ![0, 28, 0] S256x1x128
  slices_S256x32x128_o0_29_0_S256x1x128 : S256x32x128.Slices ![0, 29, 0] S256x1x128
  slices_S256x32x128_o0_30_0_S256x1x128 : S256x32x128.Slices ![0, 30, 0] S256x1x128
  slices_S256x32x128_o0_31_0_S256x1x128 : S256x32x128.Slices ![0, 31, 0] S256x1x128
  inb_S256x128_S256x128_0_0 : ∀ a, (![0, 0] : Fin 2 → Nat) a + S256x128.size a ≤ S256x128.size a
  h_S256x128 : 0 < S256x128.numel
  concatenates_S8192x128_S8192x128_S8192x256_d1 : Shape.Concatenates [S8192x128, S8192x128] S8192x256 1
  dot_S4x2048x3_S4x8192x3_S4x2048x8192_2_2_1_1_0_0_wf : DotDims.WF S4x2048x3 S4x8192x3 S4x2048x8192 [2] [2] [1] [1] [0] [0]
  gather_S4x8192x3_S4x2048x16x1_S4x2048x16x3_3_1_0_0_1_3_113_wf : GatherDims.WF S4x8192x3 S4x2048x16x1 S4x2048x16x3 [3] [1] [0] [1] [0] 3 ![1, 1, 3]
  gather_S4x8192x64_S4x2048x16x1_S4x2048x16x64_3_1_0_0_1_3_1164_wf : GatherDims.WF S4x8192x64 S4x2048x16x1 S4x2048x16x64 [3] [1] [0] [1] [0] 3 ![1, 1, 64]
  dot_S8192x67_S67x128_S8192x128_1_0_0_1_n_n_wf : DotDims.WF S8192x67 S67x128 S8192x128 [1] [0] [0] [1] [] []
  dot_S8192x128_S128x128_S8192x128_1_0_0_1_n_n_wf : DotDims.WF S8192x128 S128x128 S8192x128 [1] [0] [0] [1] [] []
  gather_S4x8192x3_S4x2048x32x1_S4x2048x32x3_3_1_0_0_1_3_113_wf : GatherDims.WF S4x8192x3 S4x2048x32x1 S4x2048x32x3 [3] [1] [0] [1] [0] 3 ![1, 1, 3]
  gather_S4x8192x64_S4x2048x32x1_S4x2048x32x64_3_1_0_0_1_3_1164_wf : GatherDims.WF S4x8192x64 S4x2048x32x1 S4x2048x32x64 [3] [1] [0] [1] [0] 3 ![1, 1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16x67.size a ≤ S8192x16x67.size a
  hwx0_0 : ∀ i : grid0.Coords, EltTy.bits .f32 = 32 ∨ (Rect.block (s := S8192x16x67) S512x16x67.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S67x128.size a ≤ S67x128.size a
  hwx0_1 : ∀ i : grid0.Coords, EltTy.bits .f32 = 32 ∨ (Rect.block (s := S67x128) S67x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16x128.size a ≤ S8192x16x128.size a
  hwx0_2 : ∀ i : grid0.Coords, EltTy.bits .f32 = 32 ∨ (Rect.block (s := S8192x16x128) S512x16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x16x128.size a ≤ S8192x16x128.size a
  hwx1_0 : ∀ i : grid1.Coords, EltTy.bits .f32 = 32 ∨ (Rect.block (s := S8192x16x128) S512x16x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S1x1x128.size a
  hwx1_1 : ∀ i : grid1.Coords, EltTy.bits .f32 = 32 ∨ (Rect.block (s := S1x1x128) S1x1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S1x1x128.size a
  hwx1_2 : ∀ i : grid1.Coords, EltTy.bits .f32 = 32 ∨ (Rect.block (s := S1x1x128) S1x1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S1x1x128.size a
  hwx1_3 : ∀ i : grid1.Coords, EltTy.bits .f32 = 32 ∨ (Rect.block (s := S1x1x128) S1x1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S1x1x128.size a
  hwx1_4 : ∀ i : grid1.Coords, EltTy.bits .f32 = 32 ∨ (Rect.block (s := S1x1x128) S1x1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x16x128.size a ≤ S8192x16x128.size a
  hwx1_6 : ∀ i : grid1.Coords, EltTy.bits .f32 = 32 ∨ (Rect.block (s := S8192x16x128) S512x16x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x16x128.size a ≤ S8192x16x128.size a
  hwx2_0 : ∀ i : grid2.Coords, EltTy.bits .f32 = 32 ∨ (Rect.block (s := S8192x16x128) S512x16x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1x128.size a ≤ S1x1x128.size a
  hwx2_1 : ∀ i : grid2.Coords, EltTy.bits .f32 = 32 ∨ (Rect.block (s := S1x1x128) S1x1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1x128.size a ≤ S1x1x128.size a
  hwx2_2 : ∀ i : grid2.Coords, EltTy.bits .f32 = 32 ∨ (Rect.block (s := S1x1x128) S1x1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1x128.size a ≤ S1x1x128.size a
  hwx2_3 : ∀ i : grid2.Coords, EltTy.bits .f32 = 32 ∨ (Rect.block (s := S1x1x128) S1x1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1x128.size a ≤ S1x1x128.size a
  hwx2_4 : ∀ i : grid2.Coords, EltTy.bits .f32 = 32 ∨ (Rect.block (s := S1x1x128) S1x1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S8192x128.size a
  hwx2_5 : ∀ i : grid2.Coords, EltTy.bits .f32 = 32 ∨ (Rect.block (s := S8192x128) S512x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x32x67.size a ≤ S8192x32x67.size a
  hwx3_0 : ∀ i : grid3.Coords, EltTy.bits .f32 = 32 ∨ (Rect.block (s := S8192x32x67) S256x32x67.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S67x128.size a ≤ S67x128.size a
  hwx3_1 : ∀ i : grid3.Coords, EltTy.bits .f32 = 32 ∨ (Rect.block (s := S67x128) S67x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x32x128.size a ≤ S8192x32x128.size a
  hwx3_2 : ∀ i : grid3.Coords, EltTy.bits .f32 = 32 ∨ (Rect.block (s := S8192x32x128) S256x32x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x32x128.size a ≤ S8192x32x128.size a
  hwx4_0 : ∀ i : grid4.Coords, EltTy.bits .f32 = 32 ∨ (Rect.block (s := S8192x32x128) S256x32x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1x128.size a ≤ S1x1x128.size a
  hwx4_1 : ∀ i : grid4.Coords, EltTy.bits .f32 = 32 ∨ (Rect.block (s := S1x1x128) S1x1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1x128.size a ≤ S1x1x128.size a
  hwx4_2 : ∀ i : grid4.Coords, EltTy.bits .f32 = 32 ∨ (Rect.block (s := S1x1x128) S1x1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1x128.size a ≤ S1x1x128.size a
  hwx4_3 : ∀ i : grid4.Coords, EltTy.bits .f32 = 32 ∨ (Rect.block (s := S1x1x128) S1x1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1x128.size a ≤ S1x1x128.size a
  hwx4_4 : ∀ i : grid4.Coords, EltTy.bits .f32 = 32 ∨ (Rect.block (s := S1x1x128) S1x1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S256x32x128.size a ≤ S8192x32x128.size a
  hwx4_6 : ∀ i : grid4.Coords, EltTy.bits .f32 = 32 ∨ (Rect.block (s := S8192x32x128) S256x32x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x32x128.size a ≤ S8192x32x128.size a
  hwx5_0 : ∀ i : grid5.Coords, EltTy.bits .f32 = 32 ∨ (Rect.block (s := S8192x32x128) S256x32x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1x128.size a ≤ S1x1x128.size a
  hwx5_1 : ∀ i : grid5.Coords, EltTy.bits .f32 = 32 ∨ (Rect.block (s := S1x1x128) S1x1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1x128.size a ≤ S1x1x128.size a
  hwx5_2 : ∀ i : grid5.Coords, EltTy.bits .f32 = 32 ∨ (Rect.block (s := S1x1x128) S1x1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1x128.size a ≤ S1x1x128.size a
  hwx5_3 : ∀ i : grid5.Coords, EltTy.bits .f32 = 32 ∨ (Rect.block (s := S1x1x128) S1x1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1x128.size a ≤ S1x1x128.size a
  hwx5_4 : ∀ i : grid5.Coords, EltTy.bits .f32 = 32 ∨ (Rect.block (s := S1x1x128) S1x1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S256x128.size a ≤ S8192x128.size a
  hwx5_5 : ∀ i : grid5.Coords, EltTy.bits .f32 = 32 ∨ (Rect.block (s := S8192x128) S256x128.size (cc5_transform_5 i) (hinb5_5 i)).WholeWords (EltTy.packing .f32)

variable [Facts₀]

def dot_S4x2048x3_S4x8192x3_S4x2048x8192_2_2_1_1_0_0 : DotDims S4x2048x3 S4x8192x3 S4x2048x8192 where
  lhsContracting := [2]
  rhsContracting := [2]
  lhsNonContracting := [1]
  rhsNonContracting := [1]
  lhsBatch := [0]
  rhsBatch := [0]
  wf := dot_S4x2048x3_S4x8192x3_S4x2048x8192_2_2_1_1_0_0_wf
def comparator_i32_d2 : BitVec 32 → BitVec 32 → BitVec 1 :=
  fun l r =>
    let v1 := IntOp.cmpi .slt l r
    v1
def gather_S4x8192x3_S4x2048x16x1_S4x2048x16x3_3_1_0_0_1_3_113 : GatherDims S4x8192x3 S4x2048x16x1 S4x2048x16x3 where
  offsetDims := [3]
  collapsedSliceDims := [1]
  operandBatchingDims := [0]
  startIndicesBatchingDims := [0]
  startIndexMap := [1]
  indexVectorDim := 3
  sliceSizes := ![1, 1, 3]
  wf := gather_S4x8192x3_S4x2048x16x1_S4x2048x16x3_3_1_0_0_1_3_113_wf
def gather_S4x8192x64_S4x2048x16x1_S4x2048x16x64_3_1_0_0_1_3_1164 : GatherDims S4x8192x64 S4x2048x16x1 S4x2048x16x64 where
  offsetDims := [3]
  collapsedSliceDims := [1]
  operandBatchingDims := [0]
  startIndicesBatchingDims := [0]
  startIndexMap := [1]
  indexVectorDim := 3
  sliceSizes := ![1, 1, 64]
  wf := gather_S4x8192x64_S4x2048x16x1_S4x2048x16x64_3_1_0_0_1_3_1164_wf
def dot_S8192x67_S67x128_S8192x128_1_0_0_1_n_n : DotDims S8192x67 S67x128 S8192x128 where
  lhsContracting := [1]
  rhsContracting := [0]
  lhsNonContracting := [0]
  rhsNonContracting := [1]
  lhsBatch := []
  rhsBatch := []
  wf := dot_S8192x67_S67x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S4x8192x3_S4x2048x32x1_S4x2048x32x3_3_1_0_0_1_3_113 : GatherDims S4x8192x3 S4x2048x32x1 S4x2048x32x3 where
  offsetDims := [3]
  collapsedSliceDims := [1]
  operandBatchingDims := [0]
  startIndicesBatchingDims := [0]
  startIndexMap := [1]
  indexVectorDim := 3
  sliceSizes := ![1, 1, 3]
  wf := gather_S4x8192x3_S4x2048x32x1_S4x2048x32x3_3_1_0_0_1_3_113_wf
def gather_S4x8192x64_S4x2048x32x1_S4x2048x32x64_3_1_0_0_1_3_1164 : GatherDims S4x8192x64 S4x2048x32x1 S4x2048x32x64 where
  offsetDims := [3]
  collapsedSliceDims := [1]
  operandBatchingDims := [0]
  startIndicesBatchingDims := [0]
  startIndexMap := [1]
  indexVectorDim := 3
  sliceSizes := ![1, 1, 64]
  wf := gather_S4x8192x64_S4x2048x32x1_S4x2048x32x64_3_1_0_0_1_3_1164_wf

abbrev win0_0 : Pipeline.Window sig grid0 :=
  Pipeline.Window.ofSpec (Memref.whole main_v52) S512x16x67.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S67x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v55_0) S512x16x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v55_1) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v55_2) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v55_0) S512x16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S1x1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1x1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S1x1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v66_0) S512x16x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v66_1) S1x128.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v66_2) S1x128.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v66_0) S512x16x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S1x1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S1x1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S1x1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S1x1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S512x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v127) S256x32x67.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v128) S67x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v130_0) S256x32x128.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v130_1) S1x128.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v130_2) S1x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun i => !(k3_cond2 i == 1#1) | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v130_0) S256x32x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v137) S1x1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v138) S1x1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v139) S1x1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v140) S1x1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v129) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v141_0) S256x32x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v141_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v141_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v141_0) S256x32x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v148) S1x1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v149) S1x1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v150) S1x1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v151) S1x1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v152) S256x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S32768x3 : Shape := ⟨2, ![32768, 3]⟩
abbrev S32768x64 : Shape := ⟨2, ![32768, 64]⟩
abbrev S8192x3 : Shape := ⟨2, ![8192, 3]⟩
abbrev S4 : Shape := ⟨1, ![4]⟩
abbrev S128x67 : Shape := ⟨2, ![128, 67]⟩
abbrev S128 : Shape := ⟨1, ![128]⟩
abbrev S128x128 : Shape := ⟨2, ![128, 128]⟩
abbrev S4x8192x3 : Shape := ⟨3, ![4, 8192, 3]⟩
abbrev S4x8192x64 : Shape := ⟨3, ![4, 8192, 64]⟩
abbrev S4x2048x3 : Shape := ⟨3, ![4, 2048, 3]⟩
abbrev S_ : Shape := ⟨0, ![]⟩
abbrev S4x2048 : Shape := ⟨2, ![4, 2048]⟩
abbrev S4x2048x1 : Shape := ⟨3, ![4, 2048, 1]⟩
abbrev S4x8192 : Shape := ⟨2, ![4, 8192]⟩
abbrev S4x1x8192 : Shape := ⟨3, ![4, 1, 8192]⟩
abbrev S4x2048x8192 : Shape := ⟨3, ![4, 2048, 8192]⟩
abbrev S8192 : Shape := ⟨1, ![8192]⟩
abbrev S1x1x8192 : Shape := ⟨3, ![1, 1, 8192]⟩
abbrev S4x2048x16 : Shape := ⟨3, ![4, 2048, 16]⟩
abbrev S4x2048x16x1 : Shape := ⟨4, ![4, 2048, 16, 1]⟩
abbrev S4x2048x16x3 : Shape := ⟨4, ![4, 2048, 16, 3]⟩
abbrev S4x2048x1x3 : Shape := ⟨4, ![4, 2048, 1, 3]⟩
abbrev S4x2048x16x64 : Shape := ⟨4, ![4, 2048, 16, 64]⟩
abbrev S4x2048x16x67 : Shape := ⟨4, ![4, 2048, 16, 67]⟩
abbrev S4x2048x1x1 : Shape := ⟨4, ![4, 2048, 1, 1]⟩
abbrev S8192x16x67 : Shape := ⟨3, ![8192, 16, 67]⟩
abbrev S8192x16x128 : Shape := ⟨3, ![8192, 16, 128]⟩
abbrev S1x1x128 : Shape := ⟨3, ![1, 1, 128]⟩
abbrev S8192x128 : Shape := ⟨2, ![8192, 128]⟩
abbrev S4x2048x32 : Shape := ⟨3, ![4, 2048, 32]⟩
abbrev S4x2048x32x1 : Shape := ⟨4, ![4, 2048, 32, 1]⟩
abbrev S4x2048x32x3 : Shape := ⟨4, ![4, 2048, 32, 3]⟩
abbrev S4x2048x32x64 : Shape := ⟨4, ![4, 2048, 32, 64]⟩
abbrev S4x2048x32x67 : Shape := ⟨4, ![4, 2048, 32, 67]⟩
abbrev S8192x32x67 : Shape := ⟨3, ![8192, 32, 67]⟩
abbrev S8192x32x128 : Shape := ⟨3, ![8192, 32, 128]⟩
abbrev S8192x256 : Shape := ⟨2, ![8192, 256]⟩

abbrev nBuf : Space → Nat
  | .hbm => 361
  | .vmem => 0
  | .smem => 0
  | _ => 0

abbrev hbmTy0_0 (i : Nat) : BufTy := match i % 128 with
  | 0 => ⟨S32768x3, .f32⟩
  | 1 => ⟨S32768x64, .f32⟩
  | 2 => ⟨S8192x3, .f32⟩
  | 3 => ⟨S4, .i32⟩
  | 4 => ⟨S4, .i32⟩
  | 5 => ⟨S128x67, .f32⟩
  | 6 => ⟨S128, .f32⟩
  | 7 => ⟨S128, .f32⟩
  | 8 => ⟨S128x128, .f32⟩
  | 9 => ⟨S128, .f32⟩
  | 10 => ⟨S128, .f32⟩
  | 11 => ⟨S128x67, .f32⟩
  | 12 => ⟨S128, .f32⟩
  | 13 => ⟨S128, .f32⟩
  | 14 => ⟨S128x128, .f32⟩
  | 15 => ⟨S128, .f32⟩
  | 16 => ⟨S128, .f32⟩
  | 17 => ⟨S4x8192x3, .f32⟩
  | 18 => ⟨S4x8192x64, .f32⟩
  | 19 => ⟨S4x2048x3, .f32⟩
  | 20 => ⟨S4x2048x3, .f32⟩
  | 21 => ⟨S_, .f32⟩
  | 22 => ⟨S4x2048, .f32⟩
  | 23 => ⟨S4x2048x1, .f32⟩
  | 24 => ⟨S4x8192x3, .f32⟩
  | 25 => ⟨S_, .f32⟩
  | 26 => ⟨S4x8192, .f32⟩
  | 27 => ⟨S4x1x8192, .f32⟩
  | 28 => ⟨S4x2048x8192, .f32⟩
  | 29 => ⟨S4x2048x8192, .f32⟩
  | 30 => ⟨S4x2048x8192, .f32⟩
  | 31 => ⟨S4x2048x8192, .f32⟩
  | 32 => ⟨S_, .f32⟩
  | 33 => ⟨S4x2048x8192, .f32⟩
  | 34 => ⟨S4x2048x8192, .f32⟩
  | 35 => ⟨S4x2048x8192, .f32⟩
  | 36 => ⟨S_, .f32⟩
  | 37 => ⟨S4x2048x8192, .f32⟩
  | 38 => ⟨S4x2048x8192, .i1⟩
  | 39 => ⟨S8192, .i32⟩
  | 40 => ⟨S1x1x8192, .i32⟩
  | 41 => ⟨S_, .i32⟩
  | 42 => ⟨S_, .i32⟩
  | 43 => ⟨S4x2048x8192, .i32⟩
  | 44 => ⟨S4x2048x8192, .i32⟩
  | 45 => ⟨S4x2048x8192, .i32⟩
  | 46 => ⟨S4x2048x8192, .i32⟩
  | 47 => ⟨S4x2048x16, .i32⟩
  | 48 => ⟨S_, .i32⟩
  | 49 => ⟨S4x2048x16, .i32⟩
  | 50 => ⟨S4x2048x16, .i1⟩
  | 51 => ⟨S4x2048x1, .i32⟩
  | 52 => ⟨S4x2048x16, .i32⟩
  | 53 => ⟨S4x2048x16, .i32⟩
  | 54 => ⟨S4x2048x1, .i1⟩
  | 55 => ⟨S4x2048, .i1⟩
  | 56 => ⟨S4x2048, .i1⟩
  | 57 => ⟨S4x2048x1, .i1⟩
  | 58 => ⟨S_, .i32⟩
  | 59 => ⟨S_, .i32⟩
  | 60 => ⟨S4x2048x16, .i1⟩
  | 61 => ⟨S4x2048x16, .i32⟩
  | 62 => ⟨S4x2048x16, .i32⟩
  | 63 => ⟨S_, .i32⟩
  | 64 => ⟨S4x2048x16, .i32⟩
  | 65 => ⟨S4x2048x16, .i1⟩
  | 66 => ⟨S_, .i32⟩
  | 67 => ⟨S4x2048x16, .i32⟩
  | 68 => ⟨S4x2048x16, .i32⟩
  | 69 => ⟨S4x2048x16, .i32⟩
  | 70 => ⟨S4x2048x16x1, .i32⟩
  | 71 => ⟨S4x2048x16x3, .f32⟩
  | 72 => ⟨S4x2048x1x3, .f32⟩
  | 73 => ⟨S4x2048x16x3, .f32⟩
  | 74 => ⟨S4x2048x16x3, .f32⟩
  | 75 => ⟨S_, .i32⟩
  | 76 => ⟨S4x2048x16, .i32⟩
  | 77 => ⟨S4x2048x16, .i1⟩
  | 78 => ⟨S_, .i32⟩
  | 79 => ⟨S4x2048x16, .i32⟩
  | 80 => ⟨S4x2048x16, .i32⟩
  | 81 => ⟨S4x2048x16, .i32⟩
  | 82 => ⟨S4x2048x16x1, .i32⟩
  | 83 => ⟨S4x2048x16x64, .f32⟩
  | 84 => ⟨S4x2048x16x67, .f32⟩
  | 85 => ⟨S4x2048x1x1, .i1⟩
  | 86 => ⟨S_, .f32⟩
  | 87 => ⟨S_, .f32⟩
  | 88 => ⟨S4x2048x16x67, .i1⟩
  | 89 => ⟨S4x2048x16x67, .f32⟩
  | 90 => ⟨S4x2048x16x67, .f32⟩
  | 91 => ⟨S8192x16x67, .f32⟩
  | 92 => ⟨S8192x16x128, .f32⟩
  | 93 => ⟨S_, .f32⟩
  | 94 => ⟨S128, .f32⟩
  | 95 => ⟨S_, .f32⟩
  | 96 => ⟨S128, .f32⟩
  | 97 => ⟨S128, .f32⟩
  | 98 => ⟨S_, .i32⟩
  | 99 => ⟨S_, .f32⟩
  | 100 => ⟨S128, .f32⟩
  | 101 => ⟨S1x1x128, .f32⟩
  | 102 => ⟨S_, .f32⟩
  | 103 => ⟨S1x1x128, .f32⟩
  | 104 => ⟨S1x1x128, .f32⟩
  | 105 => ⟨S8192x16x128, .f32⟩
  | 106 => ⟨S8192x16x128, .f32⟩
  | 107 => ⟨S8192x16x128, .f32⟩
  | 108 => ⟨S_, .f32⟩
  | 109 => ⟨S_, .f32⟩
  | 110 => ⟨S_, .f32⟩
  | 111 => ⟨S_, .f32⟩
  | 112 => ⟨S128, .f32⟩
  | 113 => ⟨S128, .f32⟩
  | 114 => ⟨S128, .f32⟩
  | 115 => ⟨S_, .f32⟩
  | 116 => ⟨S_, .i1⟩
  | 117 => ⟨S_, .f32⟩
  | 118 => ⟨S_, .f32⟩
  | 119 => ⟨S128, .f32⟩
  | 120 => ⟨S128, .f32⟩
  | 121 => ⟨S1x1x128, .f32⟩
  | 122 => ⟨S8192x16x128, .f32⟩
  | 123 => ⟨S8192x16x128, .f32⟩
  | 124 => ⟨S_, .f32⟩
  | 125 => ⟨S128, .f32⟩
  | 126 => ⟨S128, .f32⟩
  | 127 => ⟨S128, .f32⟩
  | _ => ⟨S32768x3, .f32⟩

abbrev hbmTy0_1 (i : Nat) : BufTy := match i % 128 with
  | 0 => ⟨S1x1x128, .f32⟩
  | 1 => ⟨S8192x16x128, .f32⟩
  | 2 => ⟨S8192x16x128, .f32⟩
  | 3 => ⟨S1x1x128, .f32⟩
  | 4 => ⟨S8192x16x128, .f32⟩
  | 5 => ⟨S8192x16x128, .f32⟩
  | 6 => ⟨S1x1x128, .f32⟩
  | 7 => ⟨S8192x16x128, .f32⟩
  | 8 => ⟨S8192x16x128, .f32⟩
  | 9 => ⟨S_, .f32⟩
  | 10 => ⟨S8192x16x128, .f32⟩
  | 11 => ⟨S8192x16x128, .f32⟩
  | 12 => ⟨S8192x16x128, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x1x128, .f32⟩
  | 22 => ⟨S_, .f32⟩
  | 23 => ⟨S1x1x128, .f32⟩
  | 24 => ⟨S1x1x128, .f32⟩
  | 25 => ⟨S8192x16x128, .f32⟩
  | 26 => ⟨S8192x16x128, .f32⟩
  | 27 => ⟨S8192x16x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S1x1x128, .f32⟩
  | 42 => ⟨S8192x16x128, .f32⟩
  | 43 => ⟨S8192x16x128, .f32⟩
  | 44 => ⟨S_, .f32⟩
  | 45 => ⟨S128, .f32⟩
  | 46 => ⟨S128, .f32⟩
  | 47 => ⟨S128, .f32⟩
  | 48 => ⟨S1x1x128, .f32⟩
  | 49 => ⟨S8192x16x128, .f32⟩
  | 50 => ⟨S8192x16x128, .f32⟩
  | 51 => ⟨S1x1x128, .f32⟩
  | 52 => ⟨S8192x16x128, .f32⟩
  | 53 => ⟨S8192x16x128, .f32⟩
  | 54 => ⟨S1x1x128, .f32⟩
  | 55 => ⟨S8192x16x128, .f32⟩
  | 56 => ⟨S8192x16x128, .f32⟩
  | 57 => ⟨S_, .f32⟩
  | 58 => ⟨S8192x16x128, .f32⟩
  | 59 => ⟨S8192x16x128, .f32⟩
  | 60 => ⟨S_, .f32⟩
  | 61 => ⟨S8192x128, .f32⟩
  | 62 => ⟨S4x2048x3, .f32⟩
  | 63 => ⟨S_, .f32⟩
  | 64 => ⟨S4x2048, .f32⟩
  | 65 => ⟨S4x2048x1, .f32⟩
  | 66 => ⟨S4x8192x3, .f32⟩
  | 67 => ⟨S_, .f32⟩
  | 68 => ⟨S4x8192, .f32⟩
  | 69 => ⟨S4x1x8192, .f32⟩
  | 70 => ⟨S4x2048x8192, .f32⟩
  | 71 => ⟨S4x2048x8192, .f32⟩
  | 72 => ⟨S4x2048x8192, .f32⟩
  | 73 => ⟨S4x2048x8192, .f32⟩
  | 74 => ⟨S_, .f32⟩
  | 75 => ⟨S4x2048x8192, .f32⟩
  | 76 => ⟨S4x2048x8192, .f32⟩
  | 77 => ⟨S4x2048x8192, .f32⟩
  | 78 => ⟨S_, .f32⟩
  | 79 => ⟨S4x2048x8192, .f32⟩
  | 80 => ⟨S4x2048x8192, .i1⟩
  | 81 => ⟨S8192, .i32⟩
  | 82 => ⟨S1x1x8192, .i32⟩
  | 83 => ⟨S_, .i32⟩
  | 84 => ⟨S_, .i32⟩
  | 85 => ⟨S4x2048x8192, .i32⟩
  | 86 => ⟨S4x2048x8192, .i32⟩
  | 87 => ⟨S4x2048x8192, .i32⟩
  | 88 => ⟨S4x2048x8192, .i32⟩
  | 89 => ⟨S4x2048x32, .i32⟩
  | 90 => ⟨S_, .i32⟩
  | 91 => ⟨S4x2048x32, .i32⟩
  | 92 => ⟨S4x2048x32, .i1⟩
  | 93 => ⟨S4x2048x1, .i32⟩
  | 94 => ⟨S4x2048x32, .i32⟩
  | 95 => ⟨S4x2048x32, .i32⟩
  | 96 => ⟨S4x2048x1, .i1⟩
  | 97 => ⟨S4x2048, .i1⟩
  | 98 => ⟨S4x2048, .i1⟩
  | 99 => ⟨S4x2048x1, .i1⟩
  | 100 => ⟨S_, .i32⟩
  | 101 => ⟨S_, .i32⟩
  | 102 => ⟨S4x2048x32, .i1⟩
  | 103 => ⟨S4x2048x32, .i32⟩
  | 104 => ⟨S4x2048x32, .i32⟩
  | 105 => ⟨S_, .i32⟩
  | 106 => ⟨S4x2048x32, .i32⟩
  | 107 => ⟨S4x2048x32, .i1⟩
  | 108 => ⟨S_, .i32⟩
  | 109 => ⟨S4x2048x32, .i32⟩
  | 110 => ⟨S4x2048x32, .i32⟩
  | 111 => ⟨S4x2048x32, .i32⟩
  | 112 => ⟨S4x2048x32x1, .i32⟩
  | 113 => ⟨S4x2048x32x3, .f32⟩
  | 114 => ⟨S4x2048x1x3, .f32⟩
  | 115 => ⟨S4x2048x32x3, .f32⟩
  | 116 => ⟨S4x2048x32x3, .f32⟩
  | 117 => ⟨S_, .i32⟩
  | 118 => ⟨S4x2048x32, .i32⟩
  | 119 => ⟨S4x2048x32, .i1⟩
  | 120 => ⟨S_, .i32⟩
  | 121 => ⟨S4x2048x32, .i32⟩
  | 122 => ⟨S4x2048x32, .i32⟩
  | 123 => ⟨S4x2048x32, .i32⟩
  | 124 => ⟨S4x2048x32x1, .i32⟩
  | 125 => ⟨S4x2048x32x64, .f32⟩
  | 126 => ⟨S4x2048x32x67, .f32⟩
  | 127 => ⟨S4x2048x1x1, .i1⟩
  | _ => ⟨S32768x3, .f32⟩

abbrev hbmTy0_2 (i : Nat) : BufTy := match i % 128 with
  | 0 => ⟨S_, .f32⟩
  | 1 => ⟨S_, .f32⟩
  | 2 => ⟨S4x2048x32x67, .i1⟩
  | 3 => ⟨S4x2048x32x67, .f32⟩
  | 4 => ⟨S4x2048x32x67, .f32⟩
  | 5 => ⟨S8192x32x67, .f32⟩
  | 6 => ⟨S8192x32x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x1x128, .f32⟩
  | 16 => ⟨S_, .f32⟩
  | 17 => ⟨S1x1x128, .f32⟩
  | 18 => ⟨S1x1x128, .f32⟩
  | 19 => ⟨S8192x32x128, .f32⟩
  | 20 => ⟨S8192x32x128, .f32⟩
  | 21 => ⟨S8192x32x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x1x128, .f32⟩
  | 36 => ⟨S8192x32x128, .f32⟩
  | 37 => ⟨S8192x32x128, .f32⟩
  | 38 => ⟨S_, .f32⟩
  | 39 => ⟨S128, .f32⟩
  | 40 => ⟨S128, .f32⟩
  | 41 => ⟨S128, .f32⟩
  | 42 => ⟨S1x1x128, .f32⟩
  | 43 => ⟨S8192x32x128, .f32⟩
  | 44 => ⟨S8192x32x128, .f32⟩
  | 45 => ⟨S1x1x128, .f32⟩
  | 46 => ⟨S8192x32x128, .f32⟩
  | 47 => ⟨S8192x32x128, .f32⟩
  | 48 => ⟨S1x1x128, .f32⟩
  | 49 => ⟨S8192x32x128, .f32⟩
  | 50 => ⟨S8192x32x128, .f32⟩
  | 51 => ⟨S_, .f32⟩
  | 52 => ⟨S8192x32x128, .f32⟩
  | 53 => ⟨S8192x32x128, .f32⟩
  | 54 => ⟨S8192x32x128, .f32⟩
  | 55 => ⟨S_, .f32⟩
  | 56 => ⟨S128, .f32⟩
  | 57 => ⟨S_, .f32⟩
  | 58 => ⟨S128, .f32⟩
  | 59 => ⟨S128, .f32⟩
  | 60 => ⟨S_, .i32⟩
  | 61 => ⟨S_, .f32⟩
  | 62 => ⟨S128, .f32⟩
  | 63 => ⟨S1x1x128, .f32⟩
  | 64 => ⟨S_, .f32⟩
  | 65 => ⟨S1x1x128, .f32⟩
  | 66 => ⟨S1x1x128, .f32⟩
  | 67 => ⟨S8192x32x128, .f32⟩
  | 68 => ⟨S8192x32x128, .f32⟩
  | 69 => ⟨S8192x32x128, .f32⟩
  | 70 => ⟨S_, .f32⟩
  | 71 => ⟨S_, .f32⟩
  | 72 => ⟨S_, .f32⟩
  | 73 => ⟨S_, .f32⟩
  | 74 => ⟨S128, .f32⟩
  | 75 => ⟨S128, .f32⟩
  | 76 => ⟨S128, .f32⟩
  | 77 => ⟨S_, .f32⟩
  | 78 => ⟨S_, .i1⟩
  | 79 => ⟨S_, .f32⟩
  | 80 => ⟨S_, .f32⟩
  | 81 => ⟨S128, .f32⟩
  | 82 => ⟨S128, .f32⟩
  | 83 => ⟨S1x1x128, .f32⟩
  | 84 => ⟨S8192x32x128, .f32⟩
  | 85 => ⟨S8192x32x128, .f32⟩
  | 86 => ⟨S_, .f32⟩
  | 87 => ⟨S128, .f32⟩
  | 88 => ⟨S128, .f32⟩
  | 89 => ⟨S128, .f32⟩
  | 90 => ⟨S1x1x128, .f32⟩
  | 91 => ⟨S8192x32x128, .f32⟩
  | 92 => ⟨S8192x32x128, .f32⟩
  | 93 => ⟨S1x1x128, .f32⟩
  | 94 => ⟨S8192x32x128, .f32⟩
  | 95 => ⟨S8192x32x128, .f32⟩
  | 96 => ⟨S1x1x128, .f32⟩
  | 97 => ⟨S8192x32x128, .f32⟩
  | 98 => ⟨S8192x32x128, .f32⟩
  | 99 => ⟨S_, .f32⟩
  | 100 => ⟨S8192x32x128, .f32⟩
  | 101 => ⟨S8192x32x128, .f32⟩
  | 102 => ⟨S_, .f32⟩
  | 103 => ⟨S8192x128, .f32⟩
  | 104 => ⟨S8192x256, .f32⟩
  | _ => ⟨S32768x3, .f32⟩

abbrev hbmTy (i : Nat) : BufTy := match i / 128 with
  | 0 => hbmTy0_0 i
  | 1 => hbmTy0_1 i
  | 2 => hbmTy0_2 i
  | _ => ⟨S32768x3, .f32⟩

abbrev bufTy : (tb : Table) → Fin (tcTables nBuf tb) → BufTy
  | .hbm, ⟨i, _⟩ => hbmTy i
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_call2_v0 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_4 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_v31 : Ref sig .tc := ⟨.hbm, 62, rfl⟩
abbrev main_c_5 : Ref sig .tc := ⟨.hbm, 63, rfl⟩
abbrev main_v32 : Ref sig .tc := ⟨.hbm, 64, rfl⟩
abbrev main_v33 : Ref sig .tc := ⟨.hbm, 65, rfl⟩
abbrev main_c_6 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_7 : Ref sig .tc := ⟨.hbm, 75, rfl⟩
abbrev main_v42 : Ref sig .tc := ⟨.hbm, 76, rfl⟩
abbrev main_v43 : Ref sig .tc := ⟨.hbm, 77, rfl⟩
abbrev main_c_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_9 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_10 : Ref sig .tc := ⟨.hbm, 93, rfl⟩
abbrev main_v54 : Ref sig .tc := ⟨.hbm, 94, rfl⟩
abbrev main_cst_11 : Ref sig .tc := ⟨.hbm, 95, rfl⟩
abbrev main_v55 : Ref sig .tc := ⟨.hbm, 96, rfl⟩
abbrev main_v56 : Ref sig .tc := ⟨.hbm, 97, rfl⟩
abbrev main_c_12 : Ref sig .tc := ⟨.hbm, 98, rfl⟩
abbrev main_call5_cst : Ref sig .tc := ⟨.hbm, 99, rfl⟩
abbrev main_call5_v0 : Ref sig .tc := ⟨.hbm, 100, rfl⟩
abbrev main_call5_v1 : Ref sig .tc := ⟨.hbm, 101, rfl⟩
abbrev main_call5_cst_0 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_call5_v5 : Ref sig .tc := ⟨.hbm, 106, rfl⟩
abbrev main_call5_v6 : Ref sig .tc := ⟨.hbm, 107, rfl⟩
abbrev main_call5_v7 : Ref sig .tc := ⟨.hbm, 108, rfl⟩
abbrev main_call5_cst_1 : Ref sig .tc := ⟨.hbm, 109, rfl⟩
abbrev main_call5_v8 : Ref sig .tc := ⟨.hbm, 110, rfl⟩
abbrev main_call5_cst_2 : Ref sig .tc := ⟨.hbm, 111, rfl⟩
abbrev main_call5_v9 : Ref sig .tc := ⟨.hbm, 112, rfl⟩
abbrev main_call5_v10 : Ref sig .tc := ⟨.hbm, 113, rfl⟩
abbrev main_call5_v11 : Ref sig .tc := ⟨.hbm, 114, rfl⟩
abbrev main_call5_cst_3 : Ref sig .tc := ⟨.hbm, 115, rfl⟩
abbrev main_call5_v12 : Ref sig .tc := ⟨.hbm, 116, rfl⟩
abbrev main_call5_cst_4 : Ref sig .tc := ⟨.hbm, 117, rfl⟩
abbrev main_call5_call0_v0 : Ref sig .tc := ⟨.hbm, 118, rfl⟩
abbrev main_call5_call0_v1 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_cst_13 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_call6_cst : Ref sig .tc := ⟨.hbm, 137, rfl⟩
abbrev main_call6_v0 : Ref sig .tc := ⟨.hbm, 138, rfl⟩
abbrev main_v73 : Ref sig .tc := ⟨.hbm, 139, rfl⟩
abbrev main_v74 : Ref sig .tc := ⟨.hbm, 140, rfl⟩
abbrev main_cst_14 : Ref sig .tc := ⟨.hbm, 141, rfl⟩
abbrev main_v75 : Ref sig .tc := ⟨.hbm, 142, rfl⟩
abbrev main_cst_15 : Ref sig .tc := ⟨.hbm, 143, rfl⟩
abbrev main_v76 : Ref sig .tc := ⟨.hbm, 144, rfl⟩
abbrev main_v77 : Ref sig .tc := ⟨.hbm, 145, rfl⟩
abbrev main_c_16 : Ref sig .tc := ⟨.hbm, 146, rfl⟩
abbrev main_call7_cst : Ref sig .tc := ⟨.hbm, 147, rfl⟩
abbrev main_call7_v0 : Ref sig .tc := ⟨.hbm, 148, rfl⟩
abbrev main_call7_v1 : Ref sig .tc := ⟨.hbm, 149, rfl⟩
abbrev main_call7_cst_0 : Ref sig .tc := ⟨.hbm, 150, rfl⟩
abbrev main_call7_v2 : Ref sig .tc := ⟨.hbm, 151, rfl⟩
abbrev main_call7_v3 : Ref sig .tc := ⟨.hbm, 152, rfl⟩
abbrev main_call7_v4 : Ref sig .tc := ⟨.hbm, 153, rfl⟩
abbrev main_call7_v5 : Ref sig .tc := ⟨.hbm, 154, rfl⟩
abbrev main_call7_v6 : Ref sig .tc := ⟨.hbm, 155, rfl⟩
abbrev main_call7_v7 : Ref sig .tc := ⟨.hbm, 156, rfl⟩
abbrev main_call7_cst_1 : Ref sig .tc := ⟨.hbm, 157, rfl⟩
abbrev main_call7_v8 : Ref sig .tc := ⟨.hbm, 158, rfl⟩
abbrev main_call7_cst_2 : Ref sig .tc := ⟨.hbm, 159, rfl⟩
abbrev main_call7_v9 : Ref sig .tc := ⟨.hbm, 160, rfl⟩
abbrev main_call7_v10 : Ref sig .tc := ⟨.hbm, 161, rfl⟩
abbrev main_call7_v11 : Ref sig .tc := ⟨.hbm, 162, rfl⟩
abbrev main_call7_cst_3 : Ref sig .tc := ⟨.hbm, 163, rfl⟩
abbrev main_call7_v12 : Ref sig .tc := ⟨.hbm, 164, rfl⟩
abbrev main_call7_cst_4 : Ref sig .tc := ⟨.hbm, 165, rfl⟩
abbrev main_call7_call0_v0 : Ref sig .tc := ⟨.hbm, 166, rfl⟩
abbrev main_call7_call0_v1 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_cst_17 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_call8_cst : Ref sig .tc := ⟨.hbm, 185, rfl⟩
abbrev main_call8_v0 : Ref sig .tc := ⟨.hbm, 186, rfl⟩
abbrev main_v94 : Ref sig .tc := ⟨.hbm, 187, rfl⟩
abbrev main_cst_18 : Ref sig .tc := ⟨.hbm, 188, rfl⟩
abbrev main_v95 : Ref sig .tc := ⟨.hbm, 189, rfl⟩
abbrev main_v96 : Ref sig .tc := ⟨.hbm, 190, rfl⟩
abbrev main_cst_19 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_cst_20 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_cst_21 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_cst_22 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_c_23 : Ref sig .tc := ⟨.hbm, 211, rfl⟩
abbrev main_call9_v0 : Ref sig .tc := ⟨.hbm, 212, rfl⟩
abbrev main_call9_v1 : Ref sig .tc := ⟨.hbm, 213, rfl⟩
abbrev main_call9_v2 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_c_24 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_call11_v0 : Ref sig .tc := ⟨.hbm, 222, rfl⟩
abbrev main_v119 : Ref sig .tc := ⟨.hbm, 223, rfl⟩
abbrev main_v120 : Ref sig .tc := ⟨.hbm, 224, rfl⟩
abbrev main_v121 : Ref sig .tc := ⟨.hbm, 225, rfl⟩
abbrev main_v122 : Ref sig .tc := ⟨.hbm, 226, rfl⟩
abbrev main_v123 : Ref sig .tc := ⟨.hbm, 227, rfl⟩
abbrev main_c_25 : Ref sig .tc := ⟨.hbm, 228, rfl⟩
abbrev main_call12_v0 : Ref sig .tc := ⟨.hbm, 229, rfl⟩
abbrev main_call12_v1 : Ref sig .tc := ⟨.hbm, 230, rfl⟩
abbrev main_call12_v2 : Ref sig .tc := ⟨.hbm, 231, rfl⟩
abbrev main_v124 : Ref sig .tc := ⟨.hbm, 232, rfl⟩
abbrev main_c_26 : Ref sig .tc := ⟨.hbm, 233, rfl⟩
abbrev main_v125 : Ref sig .tc := ⟨.hbm, 234, rfl⟩
abbrev main_v126 : Ref sig .tc := ⟨.hbm, 235, rfl⟩
abbrev main_c_27 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_c_28 : Ref sig .tc := ⟨.hbm, 245, rfl⟩
abbrev main_v135 : Ref sig .tc := ⟨.hbm, 246, rfl⟩
abbrev main_v136 : Ref sig .tc := ⟨.hbm, 247, rfl⟩
abbrev main_c_29 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_v140 : Ref sig .tc := ⟨.hbm, 252, rfl⟩
abbrev main_v141 : Ref sig .tc := ⟨.hbm, 253, rfl⟩
abbrev main_v142 : Ref sig .tc := ⟨.hbm, 254, rfl⟩
abbrev main_v143 : Ref sig .tc := ⟨.hbm, 255, rfl⟩
abbrev main_cst_30 : Ref sig .tc := ⟨.hbm, 256, rfl⟩
abbrev main_call13_v0 : Ref sig .tc := ⟨.hbm, 257, rfl⟩
abbrev main_call13_v1 : Ref sig .tc := ⟨.hbm, 258, rfl⟩
abbrev main_call13_v2 : Ref sig .tc := ⟨.hbm, 259, rfl⟩
abbrev main_v144 : Ref sig .tc := ⟨.hbm, 260, rfl⟩
abbrev main_v145 : Ref sig .tc := ⟨.hbm, 261, rfl⟩
abbrev main_v146 : Ref sig .tc := ⟨.hbm, 262, rfl⟩
abbrev main_cst_31 : Ref sig .tc := ⟨.hbm, 263, rfl⟩
abbrev main_v147 : Ref sig .tc := ⟨.hbm, 264, rfl⟩
abbrev main_cst_32 : Ref sig .tc := ⟨.hbm, 265, rfl⟩
abbrev main_v148 : Ref sig .tc := ⟨.hbm, 266, rfl⟩
abbrev main_v149 : Ref sig .tc := ⟨.hbm, 267, rfl⟩
abbrev main_c_33 : Ref sig .tc := ⟨.hbm, 268, rfl⟩
abbrev main_call14_cst : Ref sig .tc := ⟨.hbm, 269, rfl⟩
abbrev main_call14_v0 : Ref sig .tc := ⟨.hbm, 270, rfl⟩
abbrev main_call14_v1 : Ref sig .tc := ⟨.hbm, 271, rfl⟩
abbrev main_call14_cst_0 : Ref sig .tc := ⟨.hbm, 272, rfl⟩
abbrev main_call14_v2 : Ref sig .tc := ⟨.hbm, 273, rfl⟩
abbrev main_call14_v3 : Ref sig .tc := ⟨.hbm, 274, rfl⟩
abbrev main_call14_v4 : Ref sig .tc := ⟨.hbm, 275, rfl⟩
abbrev main_call14_v5 : Ref sig .tc := ⟨.hbm, 276, rfl⟩
abbrev main_call14_v6 : Ref sig .tc := ⟨.hbm, 277, rfl⟩
abbrev main_call14_v7 : Ref sig .tc := ⟨.hbm, 278, rfl⟩
abbrev main_call14_cst_1 : Ref sig .tc := ⟨.hbm, 279, rfl⟩
abbrev main_call14_v8 : Ref sig .tc := ⟨.hbm, 280, rfl⟩
abbrev main_call14_cst_2 : Ref sig .tc := ⟨.hbm, 281, rfl⟩
abbrev main_call14_v9 : Ref sig .tc := ⟨.hbm, 282, rfl⟩
abbrev main_call14_v10 : Ref sig .tc := ⟨.hbm, 283, rfl⟩
abbrev main_call14_v11 : Ref sig .tc := ⟨.hbm, 284, rfl⟩
abbrev main_call14_cst_3 : Ref sig .tc := ⟨.hbm, 285, rfl⟩
abbrev main_call14_v12 : Ref sig .tc := ⟨.hbm, 286, rfl⟩
abbrev main_call14_cst_4 : Ref sig .tc := ⟨.hbm, 287, rfl⟩
abbrev main_call14_call0_v0 : Ref sig .tc := ⟨.hbm, 288, rfl⟩
abbrev main_call14_call0_v1 : Ref sig .tc := ⟨.hbm, 289, rfl⟩
abbrev main_v150 : Ref sig .tc := ⟨.hbm, 290, rfl⟩
abbrev main_v151 : Ref sig .tc := ⟨.hbm, 291, rfl⟩
abbrev main_v152 : Ref sig .tc := ⟨.hbm, 292, rfl⟩
abbrev main_v153 : Ref sig .tc := ⟨.hbm, 293, rfl⟩
abbrev main_cst_34 : Ref sig .tc := ⟨.hbm, 294, rfl⟩
abbrev main_v154 : Ref sig .tc := ⟨.hbm, 295, rfl⟩
abbrev main_v155 : Ref sig .tc := ⟨.hbm, 296, rfl⟩
abbrev main_v156 : Ref sig .tc := ⟨.hbm, 297, rfl⟩
abbrev main_v157 : Ref sig .tc := ⟨.hbm, 298, rfl⟩
abbrev main_v158 : Ref sig .tc := ⟨.hbm, 299, rfl⟩
abbrev main_v159 : Ref sig .tc := ⟨.hbm, 300, rfl⟩
abbrev main_v160 : Ref sig .tc := ⟨.hbm, 301, rfl⟩
abbrev main_v161 : Ref sig .tc := ⟨.hbm, 302, rfl⟩
abbrev main_v162 : Ref sig .tc := ⟨.hbm, 303, rfl⟩
abbrev main_v163 : Ref sig .tc := ⟨.hbm, 304, rfl⟩
abbrev main_v164 : Ref sig .tc := ⟨.hbm, 305, rfl⟩
abbrev main_v165 : Ref sig .tc := ⟨.hbm, 306, rfl⟩
abbrev main_call15_cst : Ref sig .tc := ⟨.hbm, 307, rfl⟩
abbrev main_call15_v0 : Ref sig .tc := ⟨.hbm, 308, rfl⟩
abbrev main_v166 : Ref sig .tc := ⟨.hbm, 309, rfl⟩
abbrev main_v167 : Ref sig .tc := ⟨.hbm, 310, rfl⟩
abbrev main_cst_35 : Ref sig .tc := ⟨.hbm, 311, rfl⟩
abbrev main_v168 : Ref sig .tc := ⟨.hbm, 312, rfl⟩
abbrev main_cst_36 : Ref sig .tc := ⟨.hbm, 313, rfl⟩
abbrev main_v169 : Ref sig .tc := ⟨.hbm, 314, rfl⟩
abbrev main_v170 : Ref sig .tc := ⟨.hbm, 315, rfl⟩
abbrev main_c_37 : Ref sig .tc := ⟨.hbm, 316, rfl⟩
abbrev main_call16_cst : Ref sig .tc := ⟨.hbm, 317, rfl⟩
abbrev main_call16_v0 : Ref sig .tc := ⟨.hbm, 318, rfl⟩
abbrev main_call16_v1 : Ref sig .tc := ⟨.hbm, 319, rfl⟩
abbrev main_call16_cst_0 : Ref sig .tc := ⟨.hbm, 320, rfl⟩
abbrev main_call16_v2 : Ref sig .tc := ⟨.hbm, 321, rfl⟩
abbrev main_call16_v3 : Ref sig .tc := ⟨.hbm, 322, rfl⟩
abbrev main_call16_v4 : Ref sig .tc := ⟨.hbm, 323, rfl⟩
abbrev main_call16_v5 : Ref sig .tc := ⟨.hbm, 324, rfl⟩
abbrev main_call16_v6 : Ref sig .tc := ⟨.hbm, 325, rfl⟩
abbrev main_call16_v7 : Ref sig .tc := ⟨.hbm, 326, rfl⟩
abbrev main_call16_cst_1 : Ref sig .tc := ⟨.hbm, 327, rfl⟩
abbrev main_call16_v8 : Ref sig .tc := ⟨.hbm, 328, rfl⟩
abbrev main_call16_cst_2 : Ref sig .tc := ⟨.hbm, 329, rfl⟩
abbrev main_call16_v9 : Ref sig .tc := ⟨.hbm, 330, rfl⟩
abbrev main_call16_v10 : Ref sig .tc := ⟨.hbm, 331, rfl⟩
abbrev main_call16_v11 : Ref sig .tc := ⟨.hbm, 332, rfl⟩
abbrev main_call16_cst_3 : Ref sig .tc := ⟨.hbm, 333, rfl⟩
abbrev main_call16_v12 : Ref sig .tc := ⟨.hbm, 334, rfl⟩
abbrev main_call16_cst_4 : Ref sig .tc := ⟨.hbm, 335, rfl⟩
abbrev main_call16_call0_v0 : Ref sig .tc := ⟨.hbm, 336, rfl⟩
abbrev main_call16_call0_v1 : Ref sig .tc := ⟨.hbm, 337, rfl⟩
abbrev main_v171 : Ref sig .tc := ⟨.hbm, 338, rfl⟩
abbrev main_v172 : Ref sig .tc := ⟨.hbm, 339, rfl⟩
abbrev main_v173 : Ref sig .tc := ⟨.hbm, 340, rfl⟩
abbrev main_v174 : Ref sig .tc := ⟨.hbm, 341, rfl⟩
abbrev main_cst_38 : Ref sig .tc := ⟨.hbm, 342, rfl⟩
abbrev main_v175 : Ref sig .tc := ⟨.hbm, 343, rfl⟩
abbrev main_v176 : Ref sig .tc := ⟨.hbm, 344, rfl⟩
abbrev main_v177 : Ref sig .tc := ⟨.hbm, 345, rfl⟩
abbrev main_v178 : Ref sig .tc := ⟨.hbm, 346, rfl⟩
abbrev main_v179 : Ref sig .tc := ⟨.hbm, 347, rfl⟩
abbrev main_v180 : Ref sig .tc := ⟨.hbm, 348, rfl⟩
abbrev main_v181 : Ref sig .tc := ⟨.hbm, 349, rfl⟩
abbrev main_v182 : Ref sig .tc := ⟨.hbm, 350, rfl⟩
abbrev main_v183 : Ref sig .tc := ⟨.hbm, 351, rfl⟩
abbrev main_v184 : Ref sig .tc := ⟨.hbm, 352, rfl⟩
abbrev main_v185 : Ref sig .tc := ⟨.hbm, 353, rfl⟩
abbrev main_v186 : Ref sig .tc := ⟨.hbm, 354, rfl⟩
abbrev main_call17_cst : Ref sig .tc := ⟨.hbm, 355, rfl⟩
abbrev main_call17_v0 : Ref sig .tc := ⟨.hbm, 356, rfl⟩
abbrev main_v187 : Ref sig .tc := ⟨.hbm, 357, rfl⟩
abbrev main_cst_39 : Ref sig .tc := ⟨.hbm, 358, rfl⟩
abbrev main_v188 : Ref sig .tc := ⟨.hbm, 359, rfl⟩
abbrev main_v189 : Ref sig .tc := ⟨.hbm, 360, rfl⟩

abbrev nD : Nat := 1
abbrev τ : Topo := Topo.v7x

variable {F : FTy → Type} [FloatOps F]

class Facts₀ : Prop where
  shapeCasts_S32768x3_S4x8192x3 : S32768x3.ShapeCasts S4x8192x3
  shapeCasts_S32768x64_S4x8192x64 : S32768x64.ShapeCasts S4x8192x64
  shapeCasts_S8192x3_S4x2048x3 : S8192x3.ShapeCasts S4x2048x3
  reducesTo_S4x2048x3_S4x2048_d2 : S4x2048x3.ReducesTo [2] S4x2048
  h_S_ : 0 < S_.numel
  bcast_S4x2048_S4x2048x1_0_1 : S4x2048.BroadcastsInDim S4x2048x1 (![0, 1] : Fin 2 → Fin S4x2048x1.rank)
  reducesTo_S4x8192x3_S4x8192_d2 : S4x8192x3.ReducesTo [2] S4x8192
  bcast_S4x8192_S4x1x8192_0_2 : S4x8192.BroadcastsInDim S4x1x8192 (![0, 2] : Fin 2 → Fin S4x1x8192.rank)
  bcast_S4x2048x1_S4x2048x8192_0_1_2 : S4x2048x1.BroadcastsInDim S4x2048x8192 (![0, 1, 2] : Fin 3 → Fin S4x2048x8192.rank)
  bcast_S4x1x8192_S4x2048x8192_0_1_2 : S4x1x8192.BroadcastsInDim S4x2048x8192 (![0, 1, 2] : Fin 3 → Fin S4x2048x8192.rank)
  bcast_S_S4x2048x8192 : S_.BroadcastsInDim S4x2048x8192 (![] : Fin 0 → Fin S4x2048x8192.rank)
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  slices_S4x2048x8192_S4x2048x16_0_0_0 : S4x2048x8192.Slices ![0, 0, 0] S4x2048x16
  bcast_S_S4x2048x16 : S_.BroadcastsInDim S4x2048x16 (![] : Fin 0 → Fin S4x2048x16.rank)
  slices_S4x2048x16_S4x2048x1_0_0_0 : S4x2048x16.Slices ![0, 0, 0] S4x2048x1
  bcast_S4x2048x1_S4x2048x16_0_1_2 : S4x2048x1.BroadcastsInDim S4x2048x16 (![0, 1, 2] : Fin 3 → Fin S4x2048x16.rank)
  shapeCasts_S4x2048x1_S4x2048 : S4x2048x1.ShapeCasts S4x2048
  bcast_S4x2048x16_S4x2048x16x1_0_1_2 : S4x2048x16.BroadcastsInDim S4x2048x16x1 (![0, 1, 2] : Fin 3 → Fin S4x2048x16x1.rank)
  bcast_S4x2048x3_S4x2048x1x3_0_1_3 : S4x2048x3.BroadcastsInDim S4x2048x1x3 (![0, 1, 3] : Fin 3 → Fin S4x2048x1x3.rank)
  bcast_S4x2048x1x3_S4x2048x16x3_0_1_2_3 : S4x2048x1x3.BroadcastsInDim S4x2048x16x3 (![0, 1, 2, 3] : Fin 4 → Fin S4x2048x16x3.rank)
  concatenates_S4x2048x16x3_S4x2048x16x64_S4x2048x16x67_d3 : Shape.Concatenates [S4x2048x16x3, S4x2048x16x64] S4x2048x16x67 3
  bcast_S4x2048_S4x2048x1x1_0_1 : S4x2048.BroadcastsInDim S4x2048x1x1 (![0, 1] : Fin 2 → Fin S4x2048x1x1.rank)
  bcast_S4x2048x1x1_S4x2048x16x67_0_1_2_3 : S4x2048x1x1.BroadcastsInDim S4x2048x16x67 (![0, 1, 2, 3] : Fin 4 → Fin S4x2048x16x67.rank)
  bcast_S_S4x2048x16x67 : S_.BroadcastsInDim S4x2048x16x67 (![] : Fin 0 → Fin S4x2048x16x67.rank)
  shapeCasts_S4x2048x16x67_S8192x16x67 : S4x2048x16x67.ShapeCasts S8192x16x67
  reducesTo_S8192x16x128_S128_d0_1 : S8192x16x128.ReducesTo [0, 1] S128
  bcast_S_S128 : S_.BroadcastsInDim S128 (![] : Fin 0 → Fin S128.rank)
  bcast_S128_S1x1x128_2 : S128.BroadcastsInDim S1x1x128 (![2] : Fin 1 → Fin S1x1x128.rank)
  bcast_S_S1x1x128 : S_.BroadcastsInDim S1x1x128 (![] : Fin 0 → Fin S1x1x128.rank)
  bcast_S1x1x128_S8192x16x128_0_1_2 : S1x1x128.BroadcastsInDim S8192x16x128 (![0, 1, 2] : Fin 3 → Fin S8192x16x128.rank)
  bcast_S_S8192x16x128 : S_.BroadcastsInDim S8192x16x128 (![] : Fin 0 → Fin S8192x16x128.rank)
  reducesTo_S8192x16x128_S8192x128_d1 : S8192x16x128.ReducesTo [1] S8192x128
  slices_S4x2048x8192_S4x2048x32_0_0_0 : S4x2048x8192.Slices ![0, 0, 0] S4x2048x32
  bcast_S_S4x2048x32 : S_.BroadcastsInDim S4x2048x32 (![] : Fin 0 → Fin S4x2048x32.rank)
  slices_S4x2048x32_S4x2048x1_0_0_0 : S4x2048x32.Slices ![0, 0, 0] S4x2048x1
  bcast_S4x2048x1_S4x2048x32_0_1_2 : S4x2048x1.BroadcastsInDim S4x2048x32 (![0, 1, 2] : Fin 3 → Fin S4x2048x32.rank)
  bcast_S4x2048x32_S4x2048x32x1_0_1_2 : S4x2048x32.BroadcastsInDim S4x2048x32x1 (![0, 1, 2] : Fin 3 → Fin S4x2048x32x1.rank)
  bcast_S4x2048x1x3_S4x2048x32x3_0_1_2_3 : S4x2048x1x3.BroadcastsInDim S4x2048x32x3 (![0, 1, 2, 3] : Fin 4 → Fin S4x2048x32x3.rank)
  concatenates_S4x2048x32x3_S4x2048x32x64_S4x2048x32x67_d3 : Shape.Concatenates [S4x2048x32x3, S4x2048x32x64] S4x2048x32x67 3
  bcast_S4x2048x1x1_S4x2048x32x67_0_1_2_3 : S4x2048x1x1.BroadcastsInDim S4x2048x32x67 (![0, 1, 2, 3] : Fin 4 → Fin S4x2048x32x67.rank)
  bcast_S_S4x2048x32x67 : S_.BroadcastsInDim S4x2048x32x67 (![] : Fin 0 → Fin S4x2048x32x67.rank)
  shapeCasts_S4x2048x32x67_S8192x32x67 : S4x2048x32x67.ShapeCasts S8192x32x67
  reducesTo_S8192x32x128_S128_d0_1 : S8192x32x128.ReducesTo [0, 1] S128
  bcast_S1x1x128_S8192x32x128_0_1_2 : S1x1x128.BroadcastsInDim S8192x32x128 (![0, 1, 2] : Fin 3 → Fin S8192x32x128.rank)
  bcast_S_S8192x32x128 : S_.BroadcastsInDim S8192x32x128 (![] : Fin 0 → Fin S8192x32x128.rank)
  reducesTo_S8192x32x128_S8192x128_d1 : S8192x32x128.ReducesTo [1] S8192x128
  concatenates_S8192x128_S8192x128_S8192x256_d1 : Shape.Concatenates [S8192x128, S8192x128] S8192x256 1
  dot_S4x2048x3_S4x8192x3_S4x2048x8192_2_2_1_1_0_0_wf : DotDims.WF S4x2048x3 S4x8192x3 S4x2048x8192 [2] [2] [1] [1] [0] [0]
  gather_S4x8192x3_S4x2048x16x1_S4x2048x16x3_3_1_0_0_1_3_113_wf : GatherDims.WF S4x8192x3 S4x2048x16x1 S4x2048x16x3 [3] [1] [0] [1] [0] 3 ![1, 1, 3]
  gather_S4x8192x64_S4x2048x16x1_S4x2048x16x64_3_1_0_0_1_3_1164_wf : GatherDims.WF S4x8192x64 S4x2048x16x1 S4x2048x16x64 [3] [1] [0] [1] [0] 3 ![1, 1, 64]
  dot_S8192x16x67_S128x67_S8192x16x128_2_1_01_0_n_n_wf : DotDims.WF S8192x16x67 S128x67 S8192x16x128 [2] [1] [0, 1] [0] [] []
  dot_S8192x16x128_S128x128_S8192x16x128_2_1_01_0_n_n_wf : DotDims.WF S8192x16x128 S128x128 S8192x16x128 [2] [1] [0, 1] [0] [] []
  gather_S4x8192x3_S4x2048x32x1_S4x2048x32x3_3_1_0_0_1_3_113_wf : GatherDims.WF S4x8192x3 S4x2048x32x1 S4x2048x32x3 [3] [1] [0] [1] [0] 3 ![1, 1, 3]
  gather_S4x8192x64_S4x2048x32x1_S4x2048x32x64_3_1_0_0_1_3_1164_wf : GatherDims.WF S4x8192x64 S4x2048x32x1 S4x2048x32x64 [3] [1] [0] [1] [0] 3 ![1, 1, 64]
  dot_S8192x32x67_S128x67_S8192x32x128_2_1_01_0_n_n_wf : DotDims.WF S8192x32x67 S128x67 S8192x32x128 [2] [1] [0, 1] [0] [] []
  dot_S8192x32x128_S128x128_S8192x32x128_2_1_01_0_n_n_wf : DotDims.WF S8192x32x128 S128x128 S8192x32x128 [2] [1] [0, 1] [0] [] []

variable [Facts₀]

def dot_S4x2048x3_S4x8192x3_S4x2048x8192_2_2_1_1_0_0 : DotDims S4x2048x3 S4x8192x3 S4x2048x8192 where
  lhsContracting := [2]
  rhsContracting := [2]
  lhsNonContracting := [1]
  rhsNonContracting := [1]
  lhsBatch := [0]
  rhsBatch := [0]
  wf := dot_S4x2048x3_S4x8192x3_S4x2048x8192_2_2_1_1_0_0_wf
def comparator_i32_d2 : BitVec 32 → BitVec 32 → BitVec 1 :=
  fun l r =>
    let v1 := IntOp.cmpi .slt l r
    v1
def gather_S4x8192x3_S4x2048x16x1_S4x2048x16x3_3_1_0_0_1_3_113 : GatherDims S4x8192x3 S4x2048x16x1 S4x2048x16x3 where
  offsetDims := [3]
  collapsedSliceDims := [1]
  operandBatchingDims := [0]
  startIndicesBatchingDims := [0]
  startIndexMap := [1]
  indexVectorDim := 3
  sliceSizes := ![1, 1, 3]
  wf := gather_S4x8192x3_S4x2048x16x1_S4x2048x16x3_3_1_0_0_1_3_113_wf
def gather_S4x8192x64_S4x2048x16x1_S4x2048x16x64_3_1_0_0_1_3_1164 : GatherDims S4x8192x64 S4x2048x16x1 S4x2048x16x64 where
  offsetDims := [3]
  collapsedSliceDims := [1]
  operandBatchingDims := [0]
  startIndicesBatchingDims := [0]
  startIndexMap := [1]
  indexVectorDim := 3
  sliceSizes := ![1, 1, 64]
  wf := gather_S4x8192x64_S4x2048x16x1_S4x2048x16x64_3_1_0_0_1_3_1164_wf
def dot_S8192x16x67_S128x67_S8192x16x128_2_1_01_0_n_n : DotDims S8192x16x67 S128x67 S8192x16x128 where
  lhsContracting := [2]
  rhsContracting := [1]
  lhsNonContracting := [0, 1]
  rhsNonContracting := [0]
  lhsBatch := []
  rhsBatch := []
  wf := dot_S8192x16x67_S128x67_S8192x16x128_2_1_01_0_n_n_wf
def dot_S8192x16x128_S128x128_S8192x16x128_2_1_01_0_n_n : DotDims S8192x16x128 S128x128 S8192x16x128 where
  lhsContracting := [2]
  rhsContracting := [1]
  lhsNonContracting := [0, 1]
  rhsNonContracting := [0]
  lhsBatch := []
  rhsBatch := []
  wf := dot_S8192x16x128_S128x128_S8192x16x128_2_1_01_0_n_n_wf
def gather_S4x8192x3_S4x2048x32x1_S4x2048x32x3_3_1_0_0_1_3_113 : GatherDims S4x8192x3 S4x2048x32x1 S4x2048x32x3 where
  offsetDims := [3]
  collapsedSliceDims := [1]
  operandBatchingDims := [0]
  startIndicesBatchingDims := [0]
  startIndexMap := [1]
  indexVectorDim := 3
  sliceSizes := ![1, 1, 3]
  wf := gather_S4x8192x3_S4x2048x32x1_S4x2048x32x3_3_1_0_0_1_3_113_wf
def gather_S4x8192x64_S4x2048x32x1_S4x2048x32x64_3_1_0_0_1_3_1164 : GatherDims S4x8192x64 S4x2048x32x1 S4x2048x32x64 where
  offsetDims := [3]
  collapsedSliceDims := [1]
  operandBatchingDims := [0]
  startIndicesBatchingDims := [0]
  startIndexMap := [1]
  indexVectorDim := 3
  sliceSizes := ![1, 1, 64]
  wf := gather_S4x8192x64_S4x2048x32x1_S4x2048x32x64_3_1_0_0_1_3_1164_wf
def dot_S8192x32x67_S128x67_S8192x32x128_2_1_01_0_n_n : DotDims S8192x32x67 S128x67 S8192x32x128 where
  lhsContracting := [2]
  rhsContracting := [1]
  lhsNonContracting := [0, 1]
  rhsNonContracting := [0]
  lhsBatch := []
  rhsBatch := []
  wf := dot_S8192x32x67_S128x67_S8192x32x128_2_1_01_0_n_n_wf
def dot_S8192x32x128_S128x128_S8192x32x128_2_1_01_0_n_n : DotDims S8192x32x128 S128x128 S8192x32x128 where
  lhsContracting := [2]
  rhsContracting := [1]
  lhsNonContracting := [0, 1]
  rhsNonContracting := [0]
  lhsBatch := []
  rhsBatch := []
  wf := dot_S8192x32x128_S128x128_S8192x32x128_2_1_01_0_n_n_wf

class Facts : Prop extends Facts₀ where

variable [Facts]
-- ==== Proof.KbR0.lean ====
import proofs.«157081_j85761906966880_1_alg».proof.Proof.Gen.Kernel.Launch
import proofs.«157081_j85761906966880_1_alg».proof.Proof.Gen.Kernel.Skeleton
import proofs.«157081_j85761906966880_1_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Ring
import Idealize.ShloMosaic.Lib.Tactic

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev r0_condFirst (i : grid0.Coords) : Prop :=
  (Scalar.cmpi .ne (Scalar.extui (Scalar.cmpi .eq (BitVec.ofNat 32 (i 0).val) 0#32)) 0#32) = 1#1
theorem r0_hFirst : ∀ t : Fin cfg0.N, r0_condFirst (grid0.coords t) ↔ t.val % 16 = 0 :=
  (by decide +kernel : ∀ t : Fin grid0.N, r0_condFirst (grid0.coords t) ↔ t.val % 16 = 0)

abbrev r0_condLast (i : grid0.Coords) : Prop := k0_cond2 i = 1#1
theorem r0_hLast : ∀ t : Fin cfg0.N, r0_condLast (grid0.coords t) ↔ t.val % 16 = 15 :=
  (by decide +kernel : ∀ t : Fin grid0.N, r0_condLast (grid0.coords t) ↔ t.val % 16 = 15)

theorem r0_live0 : ∀ t : Fin cfg0.N, cfg0.idle 0 (grid0.coords t) = false := by decide +kernel
theorem r0_live1 : ∀ t : Fin cfg0.N, cfg0.idle 1 (grid0.coords t) = false := by decide +kernel
theorem r0_live2 : ∀ t : Fin cfg0.N, cfg0.idle 2 (grid0.coords t) = false := by decide +kernel
theorem r0_idle3 : ∀ t : Fin cfg0.N, ¬r0_condLast (grid0.coords t) → cfg0.idle 3 (grid0.coords t) = true := by decide +kernel
theorem r0_idle4 : ∀ t : Fin cfg0.N, ¬r0_condLast (grid0.coords t) → cfg0.idle 4 (grid0.coords t) = true := by decide +kernel
theorem r0_noFlush3 : ∀ t : Fin cfg0.N, ¬r0_condLast (grid0.coords t) → (cfg0.win 3).flush t = false := by decide +kernel
theorem r0_noFlush4 : ∀ t : Fin cfg0.N, ¬r0_condLast (grid0.coords t) → (cfg0.win 4).flush t = false := by decide +kernel
theorem r0_live3 : ∀ t : Fin cfg0.N, r0_condLast (grid0.coords t) → cfg0.idle 3 (grid0.coords t) = false := by decide +kernel
theorem r0_live4 : ∀ t : Fin cfg0.N, r0_condLast (grid0.coords t) → cfg0.idle 4 (grid0.coords t) = false := by decide +kernel

section
variable (c : Dev nD) (i : grid0.Coords) (arg1 : Memref sig .tc .vmem S512x16x67 .f32) (harg1 : arg1.IsWhole) (arg2 : Memref sig .tc .vmem S67x128 .f32) (harg2 : arg2.IsWhole) (arg3 : Memref sig .tc .vmem S512x16x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2x128 .f32) (harg6 : arg6.IsWhole)
set_option maxHeartbeats 1000000 in
noncomputable def r0_runA (hc0 : r0_condFirst i) (hc1 : ¬r0_condLast i) (x0 : Vec F S512x16x67 .f32) (x1 : Vec F S67x128 .f32) :
    Σ' (L2 : List (View.Piece (Elt F) S512x16x128 .f32)), { LS : List (View.Piece (Elt F) S2x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg1 harg1 arg2 harg2 arg3 harg3 arg4 harg4 arg5 harg5 arg6 harg6) K } := by
  refine ⟨?_, ?_, fun xi3 xi4 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, H3, H4, ⟨%ds, %fs, -, HS⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexact H3
    isplitl [H4]; · iexact H4
    iexists _; iexact HS

set_option maxHeartbeats 1000000 in
noncomputable def r0_runB (hc0 : ¬r0_condFirst i) (hc1 : ¬r0_condLast i) (x0 : Vec F S512x16x67 .f32) (x1 : Vec F S67x128 .f32) (xs : Vec F S2x128 .f32) :
    Σ' (L2 : List (View.Piece (Elt F) S512x16x128 .f32)), { LS : List (View.Piece (Elt F) S2x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ owns (c : Thread nD τ) arg5 fullShare xi4 ∗ owns (c : Thread nD τ) arg6 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg1 harg1 arg2 harg2 arg3 harg3 arg4 harg4 arg5 harg5 arg6 harg6) K } := by
  refine ⟨?_, ?_, fun xi3 xi4 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, H3, H4, ⟨%fs, %hfs, HS⟩, Hk⟩
    obtain rfl := harg1.eq_unread hf0; obtain rfl := harg2.eq_unread hf1; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexact H3
    isplitl [H4]; · iexact H4
    iexists _; iexact HS

set_option maxHeartbeats 1000000 in
noncomputable def r0_runC (hc0 : ¬r0_condFirst i) (hc1 : r0_condLast i) (x0 : Vec F S512x16x67 .f32) (x1 : Vec F S67x128 .f32) (xs : Vec F S2x128 .f32) :
    Σ' (L2 : List (View.Piece (Elt F) S512x16x128 .f32)) (L3 : List (View.Piece (Elt F) S1x128 .f32)) (L4 : List (View.Piece (Elt F) S1x128 .f32)),
      { LS : List (View.Piece (Elt F) S2x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d) ∗ owns (c : Thread nD τ) arg6 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg1 harg1 arg2 harg2 arg3 harg3 arg4 harg4 arg5 harg5 arg6 harg6) K } := by
  refine ⟨?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs, %hfs, HS⟩, Hk⟩
    obtain rfl := harg1.eq_unread hf0; obtain rfl := harg2.eq_unread hf1; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS

abbrev r0_VO2 : View sig .tc .vmem S512x16x128 .f32 := (Memref.whole cc0_stg2_0 : Memref sig .tc .vmem S512x16x128 .f32).view
abbrev r0_VO3 : View sig .tc .vmem S1x128 .f32 := (Memref.whole cc0_stg3_0 : Memref sig .tc .vmem S1x128 .f32).view
abbrev r0_VO4 : View sig .tc .vmem S1x128 .f32 := (Memref.whole cc0_stg4_0 : Memref sig .tc .vmem S1x128 .f32).view
abbrev r0_scM : Memref sig .tc .vmem S2x128 .f32 := Memref.whole cc0_scratch0
abbrev r0_VS : View sig .tc .vmem S2x128 .f32 := r0_scM.view
def r0_unread3 : Vec F S1x128 .f32 := r0_VO3.read (Elt F) r0_VO3.junk
def r0_unread4 : Vec F S1x128 .f32 := r0_VO4.read (Elt F) r0_VO4.junk

section
variable (hc0 : r0_condFirst i) (hc1 : ¬r0_condLast i) (x0 : Vec F S512x16x67 .f32) (x1 : Vec F S67x128 .f32)
include hc0 hc1
theorem r0_cover2_A (y : S512x16x128.Idx) :
    ∃ pc ∈ (r0_runA c i arg1 harg1 arg2 harg2 arg3 harg3 arg4 harg4 arg5 harg5 arg6 harg6 hc0 hc1 x0 x1).1, y ∈ pc.1.set :=
  View.cover_of_tiledL (r0_runA c i arg1 harg1 arg2 harg2 arg3 harg3 arg4 harg4 arg5 harg5 arg6 harg6 hc0 hc1 x0 x1).1 S512x16x128.size (by sl_kernel_rfl) y
def r0_out2_A : Vec F S512x16x128 .f32 :=
  r0_VO2.read (Elt F) (r0_VO2.writes (Elt F) r0_VO2.junk (r0_runA c i arg1 harg1 arg2 harg2 arg3 harg3 arg4 harg4 arg5 harg5 arg6 harg6 hc0 hc1 x0 x1).1)
theorem r0_scover_A (y : S2x128.Idx) :
    ∃ pc ∈ (r0_runA c i arg1 harg1 arg2 harg2 arg3 harg3 arg4 harg4 arg5 harg5 arg6 harg6 hc0 hc1 x0 x1).2.1, y ∈ pc.1.set :=
  View.cover_of_tiledL (r0_runA c i arg1 harg1 arg2 harg2 arg3 harg3 arg4 harg4 arg5 harg5 arg6 harg6 hc0 hc1 x0 x1).2.1 S1x128.size (by sl_kernel_rfl) y
def r0_sout_A : Vec F S2x128 .f32 :=
  r0_VS.read (Elt F) (r0_VS.writes (Elt F) r0_VS.junk (r0_runA c i arg1 harg1 arg2 harg2 arg3 harg3 arg4 harg4 arg5 harg5 arg6 harg6 hc0 hc1 x0 x1).2.1)

end
section
variable (hc0 : ¬r0_condFirst i) (hc1 : ¬r0_condLast i) (x0 : Vec F S512x16x67 .f32) (x1 : Vec F S67x128 .f32) (xs : Vec F S2x128 .f32)
include hc0 hc1
theorem r0_cover2_B (y : S512x16x128.Idx) :
    ∃ pc ∈ (r0_runB c i arg1 harg1 arg2 harg2 arg3 harg3 arg4 harg4 arg5 harg5 arg6 harg6 hc0 hc1 x0 x1 xs).1, y ∈ pc.1.set :=
  View.cover_of_tiledL (r0_runB c i arg1 harg1 arg2 harg2 arg3 harg3 arg4 harg4 arg5 harg5 arg6 harg6 hc0 hc1 x0 x1 xs).1 S512x16x128.size (by sl_kernel_rfl) y
def r0_out2_B : Vec F S512x16x128 .f32 :=
  r0_VO2.read (Elt F) (r0_VO2.writes (Elt F) r0_VO2.junk (r0_runB c i arg1 harg1 arg2 harg2 arg3 harg3 arg4 harg4 arg5 harg5 arg6 harg6 hc0 hc1 x0 x1 xs).1)
theorem r0_scover_B (y : S2x128.Idx) :
    ∃ pc ∈ (r0_runB c i arg1 harg1 arg2 harg2 arg3 harg3 arg4 harg4 arg5 harg5 arg6 harg6 hc0 hc1 x0 x1 xs).2.1, y ∈ pc.1.set :=
  View.cover_of_tiledL (r0_runB c i arg1 harg1 arg2 harg2 arg3 harg3 arg4 harg4 arg5 harg5 arg6 harg6 hc0 hc1 x0 x1 xs).2.1 S1x128.size (by sl_kernel_rfl) y
def r0_sout_B : Vec F S2x128 .f32 :=
  r0_VS.read (Elt F) (r0_VS.writes (Elt F) r0_VS.junk (r0_runB c i arg1 harg1 arg2 harg2 arg3 harg3 arg4 harg4 arg5 harg5 arg6 harg6 hc0 hc1 x0 x1 xs).2.1)

end
section
variable (hc0 : ¬r0_condFirst i) (hc1 : r0_condLast i) (x0 : Vec F S512x16x67 .f32) (x1 : Vec F S67x128 .f32) (xs : Vec F S2x128 .f32)
include hc0 hc1
theorem r0_cover2_C (y : S512x16x128.Idx) :
    ∃ pc ∈ (r0_runC c i arg1 harg1 arg2 harg2 arg3 harg3 arg4 harg4 arg5 harg5 arg6 harg6 hc0 hc1 x0 x1 xs).1, y ∈ pc.1.set :=
  View.cover_of_tiledL (r0_runC c i arg1 harg1 arg2 harg2 arg3 harg3 arg4 harg4 arg5 harg5 arg6 harg6 hc0 hc1 x0 x1 xs).1 S512x16x128.size (by sl_kernel_rfl) y
def r0_out2_C : Vec F S512x16x128 .f32 :=
  r0_VO2.read (Elt F) (r0_VO2.writes (Elt F) r0_VO2.junk (r0_runC c i arg1 harg1 arg2 harg2 arg3 harg3 arg4 harg4 arg5 harg5 arg6 harg6 hc0 hc1 x0 x1 xs).1)
theorem r0_scover_C (y : S2x128.Idx) :
    ∃ pc ∈ (r0_runC c i arg1 harg1 arg2 harg2 arg3 harg3 arg4 harg4 arg5 harg5 arg6 harg6 hc0 hc1 x0 x1 xs).2.2.2.1, y ∈ pc.1.set :=
  View.cover_of_tiledL (r0_runC c i arg1 harg1 arg2 harg2 arg3 harg3 arg4 harg4 arg5 harg5 arg6 harg6 hc0 hc1 x0 x1 xs).2.2.2.1 S1x128.size (by sl_kernel_rfl) y
def r0_sout_C : Vec F S2x128 .f32 :=
  r0_VS.read (Elt F) (r0_VS.writes (Elt F) r0_VS.junk (r0_runC c i arg1 harg1 arg2 harg2 arg3 harg3 arg4 harg4 arg5 harg5 arg6 harg6 hc0 hc1 x0 x1 xs).2.2.2.1)

theorem r0_cover3_C (y : S1x128.Idx) :
    ∃ pc ∈ (r0_runC c i arg1 harg1 arg2 harg2 arg3 harg3 arg4 harg4 arg5 harg5 arg6 harg6 hc0 hc1 x0 x1 xs).2.1, y ∈ pc.1.set :=
  View.cover_of_tiledL (r0_runC c i arg1 harg1 arg2 harg2 arg3 harg3 arg4 harg4 arg5 harg5 arg6 harg6 hc0 hc1 x0 x1 xs).2.1 S1x128.size (by sl_kernel_rfl) y
def r0_out3_C : Vec F S1x128 .f32 :=
  r0_VO3.read (Elt F) (r0_VO3.writes (Elt F) r0_VO3.junk (r0_runC c i arg1 harg1 arg2 harg2 arg3 harg3 arg4 harg4 arg5 harg5 arg6 harg6 hc0 hc1 x0 x1 xs).2.1)
theorem r0_cover4_C (y : S1x128.Idx) :
    ∃ pc ∈ (r0_runC c i arg1 harg1 arg2 harg2 arg3 harg3 arg4 harg4 arg5 harg5 arg6 harg6 hc0 hc1 x0 x1 xs).2.2.1, y ∈ pc.1.set :=
  View.cover_of_tiledL (r0_runC c i arg1 harg1 arg2 harg2 arg3 harg3 arg4 harg4 arg5 harg5 arg6 harg6 hc0 hc1 x0 x1 xs).2.2.1 S1x128.size (by sl_kernel_rfl) y
def r0_out4_C : Vec F S1x128 .f32 :=
  r0_VO4.read (Elt F) (r0_VO4.writes (Elt F) r0_VO4.junk (r0_runC c i arg1 harg1 arg2 harg2 arg3 harg3 arg4 harg4 arg5 harg5 arg6 harg6 hc0 hc1 x0 x1 xs).2.2.1)
end
end

def r0_blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_ms0 (t : Fin cfg0.N) : Memref sig .tc .vmem S512x16x67 .f32 := win0_0.stage (cfg0.slots t 0)
abbrev r0_hs0 (t : Fin cfg0.N) : (r0_ms0 t).IsWhole := hstage0_0 ((cfg0.slots t 0).cast nbuf0_0)
abbrev r0_ms1 (t : Fin cfg0.N) : Memref sig .tc .vmem S67x128 .f32 := win0_1.stage (cfg0.slots t 1)
abbrev r0_hs1 (t : Fin cfg0.N) : (r0_ms1 t).IsWhole := hstage0_1 ((cfg0.slots t 1).cast nbuf0_1)
abbrev r0_ms2 (t : Fin cfg0.N) : Memref sig .tc .vmem S512x16x128 .f32 := win0_2.stage (cfg0.slots t 2)
abbrev r0_hs2 (t : Fin cfg0.N) : (r0_ms2 t).IsWhole := hstage0_2 ((cfg0.slots t 2).cast nbuf0_2)
abbrev r0_ms3 (t : Fin cfg0.N) : Memref sig .tc .vmem S1x128 .f32 := win0_3.stage (cfg0.slots t 3)
abbrev r0_hs3 (t : Fin cfg0.N) : (r0_ms3 t).IsWhole := hstage0_3 ((cfg0.slots t 3).cast nbuf0_3)
abbrev r0_ms4 (t : Fin cfg0.N) : Memref sig .tc .vmem S1x128 .f32 := win0_4.stage (cfg0.slots t 4)
abbrev r0_hs4 (t : Fin cfg0.N) : (r0_ms4 t).IsWhole := hstage0_4 ((cfg0.slots t 4).cast nbuf0_4)

def r0_outsAt (c : Dev nD) : (n : ℕ) → n < cfg0.N → Vec F S512x16x128 .f32 × Vec F S1x128 .f32 × Vec F S1x128 .f32 × Vec F S2x128 .f32
  | 0, hn =>
    (r0_out2_A c (grid0.coords ⟨0, hn⟩) (r0_ms0 ⟨0, hn⟩) (r0_hs0 ⟨0, hn⟩) (r0_ms1 ⟨0, hn⟩) (r0_hs1 ⟨0, hn⟩) (r0_ms2 ⟨0, hn⟩) (r0_hs2 ⟨0, hn⟩) (r0_ms3 ⟨0, hn⟩) (r0_hs3 ⟨0, hn⟩) (r0_ms4 ⟨0, hn⟩) (r0_hs4 ⟨0, hn⟩) r0_scM (Memref.isWhole_whole _) ((r0_hFirst ⟨0, hn⟩).mpr (Nat.zero_mod _)) (fun h => (fun h => by (try dsimp only at h); omega) ((r0_hLast ⟨0, hn⟩).mp h)) (r0_blk V c 0 ⟨0, hn⟩) (r0_blk V c 1 ⟨0, hn⟩),
     r0_unread3, r0_unread4,
     r0_sout_A c (grid0.coords ⟨0, hn⟩) (r0_ms0 ⟨0, hn⟩) (r0_hs0 ⟨0, hn⟩) (r0_ms1 ⟨0, hn⟩) (r0_hs1 ⟨0, hn⟩) (r0_ms2 ⟨0, hn⟩) (r0_hs2 ⟨0, hn⟩) (r0_ms3 ⟨0, hn⟩) (r0_hs3 ⟨0, hn⟩) (r0_ms4 ⟨0, hn⟩) (r0_hs4 ⟨0, hn⟩) r0_scM (Memref.isWhole_whole _) ((r0_hFirst ⟨0, hn⟩).mpr (Nat.zero_mod _)) (fun h => (fun h => by (try dsimp only at h); omega) ((r0_hLast ⟨0, hn⟩).mp h)) (r0_blk V c 0 ⟨0, hn⟩) (r0_blk V c 1 ⟨0, hn⟩))
  | n + 1, hn =>
    if h1 : (n + 1) % 16 = 15 then
      (r0_out2_C c (grid0.coords ⟨n + 1, hn⟩) (r0_ms0 ⟨n + 1, hn⟩) (r0_hs0 ⟨n + 1, hn⟩) (r0_ms1 ⟨n + 1, hn⟩) (r0_hs1 ⟨n + 1, hn⟩) (r0_ms2 ⟨n + 1, hn⟩) (r0_hs2 ⟨n + 1, hn⟩) (r0_ms3 ⟨n + 1, hn⟩) (r0_hs3 ⟨n + 1, hn⟩) (r0_ms4 ⟨n + 1, hn⟩) (r0_hs4 ⟨n + 1, hn⟩) r0_scM (Memref.isWhole_whole _) (fun h => (fun h' => by have hN : n + 1 < 16 := lt_of_lt_of_eq hn (show cfg0.N = 16 from N_0); (try dsimp only at h'); omega) ((r0_hFirst ⟨n + 1, hn⟩).mp h)) ((r0_hLast ⟨n + 1, hn⟩).mpr h1) (r0_blk V c 0 ⟨n + 1, hn⟩) (r0_blk V c 1 ⟨n + 1, hn⟩) (r0_outsAt c n (Nat.lt_of_succ_lt hn)).2.2.2,
       r0_out3_C c (grid0.coords ⟨n + 1, hn⟩) (r0_ms0 ⟨n + 1, hn⟩) (r0_hs0 ⟨n + 1, hn⟩) (r0_ms1 ⟨n + 1, hn⟩) (r0_hs1 ⟨n + 1, hn⟩) (r0_ms2 ⟨n + 1, hn⟩) (r0_hs2 ⟨n + 1, hn⟩) (r0_ms3 ⟨n + 1, hn⟩) (r0_hs3 ⟨n + 1, hn⟩) (r0_ms4 ⟨n + 1, hn⟩) (r0_hs4 ⟨n + 1, hn⟩) r0_scM (Memref.isWhole_whole _) (fun h => (fun h' => by have hN : n + 1 < 16 := lt_of_lt_of_eq hn (show cfg0.N = 16 from N_0); (try dsimp only at h'); omega) ((r0_hFirst ⟨n + 1, hn⟩).mp h)) ((r0_hLast ⟨n + 1, hn⟩).mpr h1) (r0_blk V c 0 ⟨n + 1, hn⟩) (r0_blk V c 1 ⟨n + 1, hn⟩) (r0_outsAt c n (Nat.lt_of_succ_lt hn)).2.2.2,
       r0_out4_C c (grid0.coords ⟨n + 1, hn⟩) (r0_ms0 ⟨n + 1, hn⟩) (r0_hs0 ⟨n + 1, hn⟩) (r0_ms1 ⟨n + 1, hn⟩) (r0_hs1 ⟨n + 1, hn⟩) (r0_ms2 ⟨n + 1, hn⟩) (r0_hs2 ⟨n + 1, hn⟩) (r0_ms3 ⟨n + 1, hn⟩) (r0_hs3 ⟨n + 1, hn⟩) (r0_ms4 ⟨n + 1, hn⟩) (r0_hs4 ⟨n + 1, hn⟩) r0_scM (Memref.isWhole_whole _) (fun h => (fun h' => by have hN : n + 1 < 16 := lt_of_lt_of_eq hn (show cfg0.N = 16 from N_0); (try dsimp only at h'); omega) ((r0_hFirst ⟨n + 1, hn⟩).mp h)) ((r0_hLast ⟨n + 1, hn⟩).mpr h1) (r0_blk V c 0 ⟨n + 1, hn⟩) (r0_blk V c 1 ⟨n + 1, hn⟩) (r0_outsAt c n (Nat.lt_of_succ_lt hn)).2.2.2,
       r0_sout_C c (grid0.coords ⟨n + 1, hn⟩) (r0_ms0 ⟨n + 1, hn⟩) (r0_hs0 ⟨n + 1, hn⟩) (r0_ms1 ⟨n + 1, hn⟩) (r0_hs1 ⟨n + 1, hn⟩) (r0_ms2 ⟨n + 1, hn⟩) (r0_hs2 ⟨n + 1, hn⟩) (r0_ms3 ⟨n + 1, hn⟩) (r0_hs3 ⟨n + 1, hn⟩) (r0_ms4 ⟨n + 1, hn⟩) (r0_hs4 ⟨n + 1, hn⟩) r0_scM (Memref.isWhole_whole _) (fun h => (fun h' => by have hN : n + 1 < 16 := lt_of_lt_of_eq hn (show cfg0.N = 16 from N_0); (try dsimp only at h'); omega) ((r0_hFirst ⟨n + 1, hn⟩).mp h)) ((r0_hLast ⟨n + 1, hn⟩).mpr h1) (r0_blk V c 0 ⟨n + 1, hn⟩) (r0_blk V c 1 ⟨n + 1, hn⟩) (r0_outsAt c n (Nat.lt_of_succ_lt hn)).2.2.2)
    else
      (r0_out2_B c (grid0.coords ⟨n + 1, hn⟩) (r0_ms0 ⟨n + 1, hn⟩) (r0_hs0 ⟨n + 1, hn⟩) (r0_ms1 ⟨n + 1, hn⟩) (r0_hs1 ⟨n + 1, hn⟩) (r0_ms2 ⟨n + 1, hn⟩) (r0_hs2 ⟨n + 1, hn⟩) (r0_ms3 ⟨n + 1, hn⟩) (r0_hs3 ⟨n + 1, hn⟩) (r0_ms4 ⟨n + 1, hn⟩) (r0_hs4 ⟨n + 1, hn⟩) r0_scM (Memref.isWhole_whole _) (fun h => (fun h' => by have hN : n + 1 < 16 := lt_of_lt_of_eq hn (show cfg0.N = 16 from N_0); (try dsimp only at h'); omega) ((r0_hFirst ⟨n + 1, hn⟩).mp h)) (fun h => h1 ((r0_hLast ⟨n + 1, hn⟩).mp h)) (r0_blk V c 0 ⟨n + 1, hn⟩) (r0_blk V c 1 ⟨n + 1, hn⟩) (r0_outsAt c n (Nat.lt_of_succ_lt hn)).2.2.2,
       r0_unread3, r0_unread4,
       r0_sout_B c (grid0.coords ⟨n + 1, hn⟩) (r0_ms0 ⟨n + 1, hn⟩) (r0_hs0 ⟨n + 1, hn⟩) (r0_ms1 ⟨n + 1, hn⟩) (r0_hs1 ⟨n + 1, hn⟩) (r0_ms2 ⟨n + 1, hn⟩) (r0_hs2 ⟨n + 1, hn⟩) (r0_ms3 ⟨n + 1, hn⟩) (r0_hs3 ⟨n + 1, hn⟩) (r0_ms4 ⟨n + 1, hn⟩) (r0_hs4 ⟨n + 1, hn⟩) r0_scM (Memref.isWhole_whole _) (fun h => (fun h' => by have hN : n + 1 < 16 := lt_of_lt_of_eq hn (show cfg0.N = 16 from N_0); (try dsimp only at h'); omega) ((r0_hFirst ⟨n + 1, hn⟩).mp h)) (fun h => h1 ((r0_hLast ⟨n + 1, hn⟩).mp h)) (r0_blk V c 0 ⟨n + 1, hn⟩) (r0_blk V c 1 ⟨n + 1, hn⟩) (r0_outsAt c n (Nat.lt_of_succ_lt hn)).2.2.2)

theorem r0_outsAt_A (c : Dev nD) (t : Fin cfg0.N) (h0 : t.val % 16 = 0) (h1 : ¬t.val % 16 = 15) :
    r0_outsAt V c t.val t.isLt =
      (r0_out2_A c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) ((r0_hFirst t).mpr h0) (fun h => h1 ((r0_hLast t).mp h)) (r0_blk V c 0 t) (r0_blk V c 1 t),
       r0_unread3, r0_unread4,
       r0_sout_A c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) ((r0_hFirst t).mpr h0) (fun h => h1 ((r0_hLast t).mp h)) (r0_blk V c 0 t) (r0_blk V c 1 t)) := by
  obtain ⟨n, hn⟩ := t
  cases n with
  | zero => exact rfl
  | succ n => exact (by exfalso; have hN : n + 1 < 16 := lt_of_lt_of_eq hn (show cfg0.N = 16 from N_0); (try dsimp only at h0); omega)

theorem r0_outsAt_B (c : Dev nD) (t : Fin cfg0.N) (h0 : ¬t.val % 16 = 0) (h1 : ¬t.val % 16 = 15) :
    r0_outsAt V c t.val t.isLt =
      (r0_out2_B c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) (fun h => h1 ((r0_hLast t).mp h)) (r0_blk V c 0 t) (r0_blk V c 1 t) (r0_outsAt V c (t.val - 1) (Nat.lt_of_le_of_lt (Nat.sub_le _ _) t.isLt)).2.2.2,
       r0_unread3, r0_unread4,
       r0_sout_B c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) (fun h => h1 ((r0_hLast t).mp h)) (r0_blk V c 0 t) (r0_blk V c 1 t) (r0_outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

theorem r0_outsAt_C (c : Dev nD) (t : Fin cfg0.N) (h0 : ¬t.val % 16 = 0) (h1 : t.val % 16 = 15) :
    r0_outsAt V c t.val t.isLt =
      (r0_out2_C c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) ((r0_hLast t).mpr h1) (r0_blk V c 0 t) (r0_blk V c 1 t) (r0_outsAt V c (t.val - 1) (Nat.lt_of_le_of_lt (Nat.sub_le _ _) t.isLt)).2.2.2,
       r0_out3_C c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) ((r0_hLast t).mpr h1) (r0_blk V c 0 t) (r0_blk V c 1 t) (r0_outsAt V c (t.val - 1) (Nat.lt_of_le_of_lt (Nat.sub_le _ _) t.isLt)).2.2.2,
       r0_out4_C c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) ((r0_hLast t).mpr h1) (r0_blk V c 0 t) (r0_blk V c 1 t) (r0_outsAt V c (t.val - 1) (Nat.lt_of_le_of_lt (Nat.sub_le _ _) t.isLt)).2.2.2,
       r0_sout_C c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) ((r0_hLast t).mpr h1) (r0_blk V c 0 t) (r0_blk V c 1 t) (r0_outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

def r0_Phi (c : Dev nD) : (n : ℕ) → n ≤ cfg0.N → sProp 𝕄
  | 0, _ => iprop((∃ d, owns (c : Thread nD τ) r0_scM fullShare d)
      ∗ Pipeline.scopedRestBut (Ix := Unit) (Name := ℕ) (U := UR sig nD τ) (Lvl := ℕ) (Val := Elt F) spec0 c [cc0_scratch0])
  | n + 1, hn => iprop(owns (c : Thread nD τ) r0_scM fullShare ((r0_outsAt V c n hn).2.2.2)
      ∗ Pipeline.scopedRestBut (Ix := Unit) (Name := ℕ) (U := UR sig nD τ) (Lvl := ℕ) (Val := Elt F) spec0 c [cc0_scratch0])

theorem r0_Phi_zero (c : Dev nD) (n : ℕ) (h : n ≤ cfg0.N) (hz : n = 0) :
    r0_Phi V c n h = iprop((∃ d, owns (c : Thread nD τ) r0_scM fullShare d)
      ∗ Pipeline.scopedRestBut (Ix := Unit) (Name := ℕ) (U := UR sig nD τ) (Lvl := ℕ) (Val := Elt F) spec0 c [cc0_scratch0]) := by
  subst hz; rfl

theorem r0_Phi_succ (c : Dev nD) (n : ℕ) (hn : n < cfg0.N) :
    r0_Phi V c (n + 1) hn = iprop(owns (c : Thread nD τ) r0_scM fullShare ((r0_outsAt V c n hn).2.2.2)
      ∗ Pipeline.scopedRestBut (Ix := Unit) (Name := ℕ) (U := UR sig nD τ) (Lvl := ℕ) (Val := Elt F) spec0 c [cc0_scratch0]) := rfl

theorem r0_Phi_pos (c : Dev nD) (n : ℕ) (h : n ≤ cfg0.N) (hz : n ≠ 0) :
    r0_Phi V c n h = iprop(owns (c : Thread nD τ) r0_scM fullShare ((r0_outsAt V c (n - 1) (by omega)).2.2.2)
      ∗ Pipeline.scopedRestBut (Ix := Unit) (Name := ℕ) (U := UR sig nD τ) (Lvl := ℕ) (Val := Elt F) spec0 c [cc0_scratch0]) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => r0_blk V c 0 t
    | ⟨1, _⟩ => r0_blk V c 1 t
    | ⟨2, _⟩ => (r0_outsAt V c t.val t.isLt).1
    | ⟨3, _⟩ => (r0_outsAt V c t.val t.isLt).2.1
    | ⟨4, _⟩ => (r0_outsAt V c t.val t.isLt).2.2.1
  Φ t := r0_Phi V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem owed0 (c : Dev nD) (t) : (dat0 V c).owed t = 0 := rfl
theorem share0 (c : Dev nD) (w) : (dat0 V c).q w = fullShare := rfl

theorem r0_Phi_castSucc (c : Dev nD) (t : Fin cfg0.N) :
    (dat0 V c).Φ t.castSucc = r0_Phi V c t.val (Nat.le_of_lt t.isLt) := by
  dsimp only [dat0]; simp only [Fin.coe_castSucc]

theorem r0_after0 (c : Dev nD) (t : Fin cfg0.N) : (dat0 V c).after 0 t = r0_blk V c 0 t := by dsimp only [dat0]
theorem r0_after1 (c : Dev nD) (t : Fin cfg0.N) : (dat0 V c).after 1 t = r0_blk V c 1 t := by dsimp only [dat0]
theorem r0_after2 (c : Dev nD) (t : Fin cfg0.N) : (dat0 V c).after 2 t = (r0_outsAt V c t.val t.isLt).1 := by dsimp only [dat0]
theorem r0_after3 (c : Dev nD) (t : Fin cfg0.N) : (dat0 V c).after 3 t = (r0_outsAt V c t.val t.isLt).2.1 := by dsimp only [dat0]
theorem r0_after4 (c : Dev nD) (t : Fin cfg0.N) : (dat0 V c).after 4 t = (r0_outsAt V c t.val t.isLt).2.2.1 := by dsimp only [dat0]

theorem r0_before0 (c : Dev nD) (t : Fin cfg0.N) (d) : (dat0 V c).before 0 t d = r0_blk V c 0 t :=
  ((dat0 V c).before_in_eq_fetched 0 rfl (fun _ => rfl) (fun _ _ _ => rfl)
    (fun t => by rw [r0_after0]; unfold Dat.blockOf r0_blk; rw [A_eq0]; try rfl) t d).trans
    (by unfold Dat.fetched Dat.blockOf r0_blk; rw [A_eq0]; try rfl)
theorem r0_before1 (c : Dev nD) (t : Fin cfg0.N) (d) : (dat0 V c).before 1 t d = r0_blk V c 1 t :=
  ((dat0 V c).before_in_eq_fetched 1 rfl (fun _ => rfl) (fun _ _ _ => rfl)
    (fun t => by rw [r0_after1]; unfold Dat.blockOf r0_blk; rw [A_eq0]; try rfl) t d).trans
    (by unfold Dat.fetched Dat.blockOf r0_blk; rw [A_eq0]; try rfl)

def r0_bodyPre (c : Dev nD) (t : Fin cfg0.N) : sProp 𝕄 :=
  iprop((dat0 V c).Φ t.castSucc ∗ (dat0 V c).owesAt () t.castSucc
    ∗ (∃ d, owns (c : Thread nD τ) (r0_ms0 t) fullShare ((dat0 V c).before 0 t d))
    ∗ (∃ d, owns (c : Thread nD τ) (r0_ms1 t) fullShare ((dat0 V c).before 1 t d))
    ∗ (∃ d, owns (c : Thread nD τ) (r0_ms2 t) fullShare ((dat0 V c).before 2 t d))
    ∗ (∃ d, owns (c : Thread nD τ) (r0_ms3 t) fullShare ((dat0 V c).before 3 t d))
    ∗ (∃ d, owns (c : Thread nD τ) (r0_ms4 t) fullShare ((dat0 V c).before 4 t d)))

def r0_bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
theorem r0_sound_body (c : Dev nD) (t : Fin cfg0.N) :
    r0_bodyPre V c t ⊢ wp frame (wpE (defs₀ (F := F)) Variants.none c none) Set.univ (bodyAt0 t) (fun _ => r0_bodyPost V c t) := by
  unfold r0_bodyPre r0_bodyPost bodyAt0
  simp only [r0_before0, r0_before1]
  rw [show (dat0 V c).owesAt () t.succ = (dat0 V c).owesAt () t.castSucc from rfl]
  rw [show (dat0 V c).Φ t.succ = r0_Phi V c (t.val + 1) t.isLt from rfl, r0_Phi_succ]
  have hN : t.val < 16 := lt_of_lt_of_eq t.isLt (show cfg0.N = 16 from N_0)
  rw [show (dat0 V c).leavesExact 0 t = owns (c : Thread nD τ) (r0_ms0 t) fullShare ((dat0 V c).after 0 t) from by
    unfold Dat.leavesExact; rw [r0_live0 t], r0_after0]
  rw [show (dat0 V c).leavesExact 1 t = owns (c : Thread nD τ) (r0_ms1 t) fullShare ((dat0 V c).after 1 t) from by
    unfold Dat.leavesExact; rw [r0_live1 t], r0_after1]
  rw [show (dat0 V c).leavesExact 2 t = owns (c : Thread nD τ) (r0_ms2 t) fullShare ((dat0 V c).after 2 t) from by
    unfold Dat.leavesExact; rw [r0_live2 t], r0_after2]
  by_cases h0 : t.val % 16 = 0
  · have h1 : ¬t.val % 16 = 15 := by omega
    have hz : t.val = 0 := by omega
    rw [Dat.leavesExact_idle (dat0 V c) 3 t (r0_idle3 t (fun h => h1 ((r0_hLast t).mp h))) (r0_noFlush3 t (fun h => h1 ((r0_hLast t).mp h)))]
    rw [Dat.leavesExact_idle (dat0 V c) 4 t (r0_idle4 t (fun h => h1 ((r0_hLast t).mp h))) (r0_noFlush4 t (fun h => h1 ((r0_hLast t).mp h)))]
    rw [r0_outsAt_A V c t h0 h1]
    unfold r0_out2_A r0_sout_A; (try dsimp only)
    rw [r0_Phi_castSucc V c t, r0_Phi_zero V c _ _ hz]
    iintro ⟨⟨HS, HR⟩, Ho, ⟨%d0, H0⟩, ⟨%d1, H1⟩, ⟨%d2, H2⟩, ⟨%d3, H3⟩, ⟨%d4, H4⟩⟩
    iapply ((r0_runA c (grid0.coords t) _ _ _ _ _ _ _ _ _ _ _ _ ((r0_hFirst t).mpr h0) (fun h => h1 ((r0_hLast t).mp h)) (r0_blk V c 0 t) (r0_blk V c 1 t)).2.2 _ _ Set.univ _)
    isplitl [H0]; · iexact H0
    isplitl [H1]; · iexact H1
    isplitl [H2]; · iexists _; iexact H2
    isplitl [H3]; · iexact H3
    isplitl [H4]; · iexact H4
    isplitl [HS]; · iexact HS
    iintro ⟨H0, H1, ⟨%e2, H2⟩, H3, H4, ⟨%es, HS⟩⟩
    isplitl [HS HR]
    · isplitl [HS]
      · unfold owns; iexists _; isplitr
        swap; · iexact HS
        ipureintro; exact View.read_writes_of_cover _ _ _ _ _ (r0_scover_A c _ _ _ _ _ _ _ _ _ _ _ _ _ _ _ _ _)
      iexact HR
    isplitl [Ho]; · iexact Ho
    isplitl [H0]; · iexact H0
    isplitl [H1]; · iexact H1
    isplitl [H2]
    · unfold owns; iexists _; isplitr
      swap; · iexact H2
      ipureintro; exact View.read_writes_of_cover _ _ _ _ _ (r0_cover2_A c _ _ _ _ _ _ _ _ _ _ _ _ _ _ _ _ _)
    isplitl [H3]; · iexists _; iexact H3
    iexists _; iexact H4
  · have hz : t.val ≠ 0 := fun e => h0 (by rw [e])
    by_cases h1 : t.val % 16 = 15
    · rw [show (dat0 V c).leavesExact 3 t = owns (c : Thread nD τ) (r0_ms3 t) fullShare ((dat0 V c).after 3 t) from by
        unfold Dat.leavesExact; rw [r0_live3 t ((r0_hLast t).mpr h1)], r0_after3]
      rw [show (dat0 V c).leavesExact 4 t = owns (c : Thread nD τ) (r0_ms4 t) fullShare ((dat0 V c).after 4 t) from by
        unfold Dat.leavesExact; rw [r0_live4 t ((r0_hLast t).mpr h1)], r0_after4]
      rw [r0_outsAt_C V c t h0 h1]
      unfold r0_out2_C r0_out3_C r0_out4_C r0_sout_C; (try dsimp only)
      rw [r0_Phi_castSucc V c t, r0_Phi_pos V c _ _ hz]
      iintro ⟨⟨HS, HR⟩, Ho, ⟨%d0, H0⟩, ⟨%d1, H1⟩, ⟨%d2, H2⟩, ⟨%d3, H3⟩, ⟨%d4, H4⟩⟩
      iapply ((r0_runC c (grid0.coords t) _ _ _ _ _ _ _ _ _ _ _ _ (fun h => h0 ((r0_hFirst t).mp h)) ((r0_hLast t).mpr h1) (r0_blk V c 0 t) (r0_blk V c 1 t) _).2.2.2.2 Set.univ _)
      isplitl [H0]; · iexact H0
      isplitl [H1]; · iexact H1
      isplitl [H2]; · iexists _; iexact H2
      isplitl [H3]; · iexists _; iexact H3
      isplitl [H4]; · iexists _; iexact H4
      isplitl [HS]; · iexact HS
      iintro ⟨H0, H1, ⟨%e2, H2⟩, ⟨%e3, H3⟩, ⟨%e4, H4⟩, ⟨%es, HS⟩⟩
      isplitl [HS HR]
      · isplitl [HS]
        · unfold owns; iexists _; isplitr
          swap; · iexact HS
          ipureintro; exact View.read_writes_of_cover _ _ _ _ _ (r0_scover_C c _ _ _ _ _ _ _ _ _ _ _ _ _ _ _ _ _ _)
        iexact HR
      isplitl [Ho]; · iexact Ho
      isplitl [H0]; · iexact H0
      isplitl [H1]; · iexact H1
      isplitl [H2]
      · unfold owns; iexists _; isplitr
        swap; · iexact H2
        ipureintro; exact View.read_writes_of_cover _ _ _ _ _ (r0_cover2_C c _ _ _ _ _ _ _ _ _ _ _ _ _ _ _ _ _ _)
      isplitl [H3]
      · unfold owns; iexists _; isplitr
        swap; · iexact H3
        ipureintro; exact View.read_writes_of_cover _ _ _ _ _ (r0_cover3_C c _ _ _ _ _ _ _ _ _ _ _ _ _ _ _ _ _ _)
      unfold owns; iexists _; isplitr
      swap; · iexact H4
      ipureintro; exact View.read_writes_of_cover _ _ _ _ _ (r0_cover4_C c _ _ _ _ _ _ _ _ _ _ _ _ _ _ _ _ _ _)
    · rw [Dat.leavesExact_idle (dat0 V c) 3 t (r0_idle3 t (fun h => h1 ((r0_hLast t).mp h))) (r0_noFlush3 t (fun h => h1 ((r0_hLast t).mp h)))]
      rw [Dat.leavesExact_idle (dat0 V c) 4 t (r0_idle4 t (fun h => h1 ((r0_hLast t).mp h))) (r0_noFlush4 t (fun h => h1 ((r0_hLast t).mp h)))]
      rw [r0_outsAt_B V c t h0 h1]
      unfold r0_out2_B r0_sout_B; (try dsimp only)
      rw [r0_Phi_castSucc V c t, r0_Phi_pos V c _ _ hz]
      iintro ⟨⟨HS, HR⟩, Ho, ⟨%d0, H0⟩, ⟨%d1, H1⟩, ⟨%d2, H2⟩, ⟨%d3, H3⟩, ⟨%d4, H4⟩⟩
      iapply ((r0_runB c (grid0.coords t) _ _ _ _ _ _ _ _ _ _ _ _ (fun h => h0 ((r0_hFirst t).mp h)) (fun h => h1 ((r0_hLast t).mp h)) (r0_blk V c 0 t) (r0_blk V c 1 t) _).2.2 _ _ Set.univ _)
      isplitl [H0]; · iexact H0
      isplitl [H1]; · iexact H1
      isplitl [H2]; · iexists _; iexact H2
      isplitl [H3]; · iexact H3
      isplitl [H4]; · iexact H4
      isplitl [HS]; · iexact HS
      iintro ⟨H0, H1, ⟨%e2, H2⟩, H3, H4, ⟨%es, HS⟩⟩
      isplitl [HS HR]
      · isplitl [HS]
        · unfold owns; iexists _; isplitr
          swap; · iexact HS
          ipureintro; exact View.read_writes_of_cover _ _ _ _ _ (r0_scover_B c _ _ _ _ _ _ _ _ _ _ _ _ _ _ _ _ _ _)
        iexact HR
      isplitl [Ho]; · iexact Ho
      isplitl [H0]; · iexact H0
      isplitl [H1]; · iexact H1
      isplitl [H2]
      · unfold owns; iexists _; isplitr
        swap; · iexact H2
        ipureintro; exact View.read_writes_of_cover _ _ _ _ _ (r0_cover2_B c _ _ _ _ _ _ _ _ _ _ _ _ _ _ _ _ _ _)
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact r0_sound_body V c t

theorem phi0_in (c : Dev nD) : (Pipeline.scopedRest (Ix := Unit) (Name := ℕ) (U := UR sig nD τ) (Lvl := ℕ) (Val := Elt F) spec0 c : sProp 𝕄) ⊢ (dat0 V c).Φ 0 := by
  rw [show (dat0 V c).Φ 0 = r0_Phi V c 0 (Nat.zero_le _) from rfl, r0_Phi_zero V c 0 _ rfl, scopedRest0_split]
  simp only [r0_scM, owns_whole]
  exact Idealize.SL.BI.Entails.refl _

theorem phi0_out (c : Dev nD) : (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = r0_Phi V c (Fin.last cfg0.N).val (Nat.le_of_lt_succ (Fin.last cfg0.N).isLt) from rfl,
    r0_Phi_pos V c _ _ (by rw [Fin.val_last]; have : cfg0.N = 16 := N_0; omega), scopedRest0_split]
  simp only [r0_scM, owns_whole]
  iintro ⟨HS, HR⟩
  isplitl [HS]
  · iexists _; iexact HS
  iexact HR

end Cert.Kernel.Hand
end
-- ==== Proof.KbR1.lean ====
import proofs.«157081_j85761906966880_1_alg».proof.Proof.Gen.Kernel.Launch
import proofs.«157081_j85761906966880_1_alg».proof.Proof.Gen.Kernel.Skeleton
import proofs.«157081_j85761906966880_1_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem cond1_0_of (t : Fin cfg1.N) (h0 : t.val = 0) : cond1_0 (grid1.coords t) := (hcond1_0 t).mpr (by rw [h0])
theorem ncond1_0_of (t : Fin cfg1.N) (h0 : t.val ≠ 0) : ¬cond1_0 (grid1.coords t) := fun h => by
  have h' := (hcond1_0 t).mp h
  have hN : t.val < 16 := lt_of_lt_of_eq t.isLt (show cfg1.N = 16 from N_1)
  omega
theorem cond1_1_of (t : Fin cfg1.N) (h1 : t.val % 16 = 15) : cond1_1 (grid1.coords t) := (hcond1_1 t).mpr h1
theorem ncond1_1_of (t : Fin cfg1.N) (h1 : ¬t.val % 16 = 15) : ¬cond1_1 (grid1.coords t) := fun h => h1 ((hcond1_1 t).mp h)

theorem idleAt1_7 : ∀ t : Fin cfg1.N, ¬cond1_1 (grid1.coords t) → cfg1.idle 7 (grid1.coords t) = true := by decide +kernel
theorem idleAt1_8 : ∀ t : Fin cfg1.N, ¬cond1_1 (grid1.coords t) → cfg1.idle 8 (grid1.coords t) = true := by decide +kernel
theorem noFlush1_7 : ∀ t : Fin cfg1.N, ¬cond1_1 (grid1.coords t) → (cfg1.win 7).flush t = false := by decide +kernel
theorem noFlush1_8 : ∀ t : Fin cfg1.N, ¬cond1_1 (grid1.coords t) → (cfg1.win 8).flush t = false := by decide +kernel
theorem liveAt1_7 : ∀ t : Fin cfg1.N, cond1_1 (grid1.coords t) → cfg1.idle 7 (grid1.coords t) = false := by decide +kernel
theorem liveAt1_8 : ∀ t : Fin cfg1.N, cond1_1 (grid1.coords t) → cfg1.idle 8 (grid1.coords t) = false := by decide +kernel
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl

abbrev ms1_0 (t : Fin cfg1.N) : Memref sig .tc .vmem S512x16x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x16x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev scM1 : Memref sig .tc .vmem S2x128 .f32 := Memref.whole cc1_scratch0

theorem scopedRest1_eq (c : Dev nD) :
    (Pipeline.scopedRest (Ix := Unit) (Name := ℕ) (U := UR sig nD τ) (Lvl := ℕ) (Val := Elt F) spec1 c : sProp 𝕄)
      = iprop(iprop((∃ d, owns (c : Thread nD τ) scM1 fullShare d))
          ∗ Pipeline.scopedRestBut (Ix := Unit) (Name := ℕ) (U := UR sig nD τ) (Lvl := ℕ) (Val := Elt F) spec1 c [cc1_scratch0]) := by
  rw [scopedRest1_split]; simp only [scM1, owns_whole]; rfl

section
variable (c : Dev nD) (i : grid1.Coords) (arg1 : Memref sig .tc .vmem S512x16x128 .f32) (harg1 : arg1.IsWhole) (arg2 : Memref sig .tc .vmem S1x1x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128x128 .f32) (harg6 : arg6.IsWhole) (arg7 : Memref sig .tc .vmem S512x16x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2x128 .f32) (harg10 : arg10.IsWhole)
set_option maxHeartbeats 4000000 in
noncomputable def kernelRun1_A (hc0 : cond1_0 i) (hc1 : ¬cond1_1 i)
    (x0 : Vec F S512x16x128 .f32) (x1 x2 x3 x4 : Vec F S1x1x128 .f32) (x5 : Vec F S128x128 .f32) :
    Σ' (L6 : List (View.Piece (Elt F) S512x16x128 .f32)), { LS0 : List (View.Piece (Elt F) S2x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xi8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7 ∗ owns (c : Thread nD τ) arg9 fullShare xi8
                ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10) K } := by
  refine ⟨?_, ?_, fun xi7 xi8 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    iexists _; iexact HS0

set_option maxHeartbeats 4000000 in
noncomputable def kernelRun1_B (hc0 : ¬cond1_0 i) (hc1 : ¬cond1_1 i)
    (x0 : Vec F S512x16x128 .f32) (x1 x2 x3 x4 : Vec F S1x1x128 .f32) (x5 : Vec F S128x128 .f32) (xs0 : Vec F S2x128 .f32) :
    Σ' (L6 : List (View.Piece (Elt F) S512x16x128 .f32)), { LS0 : List (View.Piece (Elt F) S2x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xi8 ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7 ∗ owns (c : Thread nD τ) arg9 fullShare xi8
                ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10) K } := by
  refine ⟨?_, ?_, fun xi7 xi8 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    iexists _; iexact HS0

set_option maxHeartbeats 4000000 in
noncomputable def kernelRun1_C (hc0 : ¬cond1_0 i) (hc1 : cond1_1 i)
    (x0 : Vec F S512x16x128 .f32) (x1 x2 x3 x4 : Vec F S1x1x128 .f32) (x5 : Vec F S128x128 .f32) (xs0 : Vec F S2x128 .f32) :
    Σ' (L6 : List (View.Piece (Elt F) S512x16x128 .f32)) (L7 : List (View.Piece (Elt F) S1x128 .f32)) (L8 : List (View.Piece (Elt F) S1x128 .f32)), { LS0 : List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact HS0

section
variable (hc0 : cond1_0 i) (hc1 : ¬cond1_1 i) (x0 : Vec F S512x16x128 .f32) (x1 x2 x3 x4 : Vec F S1x1x128 .f32) (x5 : Vec F S128x128 .f32)
include hc0 hc1

theorem cover1_A_6 (y : S512x16x128.Idx) : ∃ pc ∈ (kernelRun1_A c i arg1 harg1 arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3 x4 x5).1 S512x16x128.size (by sl_kernel_rfl) y
theorem scover1_A (y : S2x128.Idx) : ∃ pc ∈ (kernelRun1_A c i arg1 harg1 arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3 x4 x5).2.1 S1x128.size (by sl_kernel_rfl) y
def out1_A_6 : Vec F S512x16x128 .f32 := View.canon (kernelRun1_A c i arg1 harg1 arg2 harg2 arg3 harg3 arg4 harg4 arg5 harg5 arg6 harg6 arg7 harg7 arg8 harg8 arg9 harg9 arg10 harg10 hc0 hc1 x0 x1 x2 x3 x4 x5).1
def sout1_A : Vec F S2x128 .f32 := View.canon (kernelRun1_A c i arg1 harg1 arg2 harg2 arg3 harg3 arg4 harg4 arg5 harg5 arg6 harg6 arg7 harg7 arg8 harg8 arg9 harg9 arg10 harg10 hc0 hc1 x0 x1 x2 x3 x4 x5).2.1

end
section
variable (hc0 : ¬cond1_0 i) (hc1 : ¬cond1_1 i) (x0 : Vec F S512x16x128 .f32) (x1 x2 x3 x4 : Vec F S1x1x128 .f32) (x5 : Vec F S128x128 .f32) (xs0 : Vec F S2x128 .f32)
include hc0 hc1
theorem cover1_B_6 (y : S512x16x128.Idx) : ∃ pc ∈ (kernelRun1_B c i arg1 harg1 arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 x4 x5 xs0).1 S512x16x128.size (by sl_kernel_rfl) y
theorem scover1_B (y : S2x128.Idx) : ∃ pc ∈ (kernelRun1_B c i arg1 harg1 arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 x4 x5 xs0).2.1 S1x128.size (by sl_kernel_rfl) y
def out1_B_6 : Vec F S512x16x128 .f32 := View.canon (kernelRun1_B c i arg1 harg1 arg2 harg2 arg3 harg3 arg4 harg4 arg5 harg5 arg6 harg6 arg7 harg7 arg8 harg8 arg9 harg9 arg10 harg10 hc0 hc1 x0 x1 x2 x3 x4 x5 xs0).1
def sout1_B : Vec F S2x128 .f32 := View.canon (kernelRun1_B c i arg1 harg1 arg2 harg2 arg3 harg3 arg4 harg4 arg5 harg5 arg6 harg6 arg7 harg7 arg8 harg8 arg9 harg9 arg10 harg10 hc0 hc1 x0 x1 x2 x3 x4 x5 xs0).2.1

end
section
variable (hc0 : ¬cond1_0 i) (hc1 : cond1_1 i) (x0 : Vec F S512x16x128 .f32) (x1 x2 x3 x4 : Vec F S1x1x128 .f32) (x5 : Vec F S128x128 .f32) (xs0 : Vec F S2x128 .f32)
include hc0 hc1
theorem cover1_C_6 (y : S512x16x128.Idx) : ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0).1 S512x16x128.size (by sl_kernel_rfl) y
theorem cover1_C_7 (y : S1x128.Idx) : ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0).2.1 S1x128.size (by sl_kernel_rfl) y
theorem cover1_C_8 (y : S1x128.Idx) : ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0).2.2.1 S1x128.size (by sl_kernel_rfl) y
theorem scover1_C (y : S2x128.Idx) : ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0).2.2.2.1 S1x128.size (by sl_kernel_rfl) y
def out1_C_6 : Vec F S512x16x128 .f32 := View.canon (kernelRun1_C c i arg1 harg1 arg2 harg2 arg3 harg3 arg4 harg4 arg5 harg5 arg6 harg6 arg7 harg7 arg8 harg8 arg9 harg9 arg10 harg10 hc0 hc1 x0 x1 x2 x3 x4 x5 xs0).1
def out1_C_7 : Vec F S1x128 .f32 := View.canon (kernelRun1_C c i arg1 harg1 arg2 harg2 arg3 harg3 arg4 harg4 arg5 harg5 arg6 harg6 arg7 harg7 arg8 harg8 arg9 harg9 arg10 harg10 hc0 hc1 x0 x1 x2 x3 x4 x5 xs0).2.1
def out1_C_8 : Vec F S1x128 .f32 := View.canon (kernelRun1_C c i arg1 harg1 arg2 harg2 arg3 harg3 arg4 harg4 arg5 harg5 arg6 harg6 arg7 harg7 arg8 harg8 arg9 harg9 arg10 harg10 hc0 hc1 x0 x1 x2 x3 x4 x5 xs0).2.2.1
def sout1_C : Vec F S2x128 .f32 := View.canon (kernelRun1_C c i arg1 harg1 arg2 harg2 arg3 harg3 arg4 harg4 arg5 harg5 arg6 harg6 arg7 harg7 arg8 harg8 arg9 harg9 arg10 harg10 hc0 hc1 x0 x1 x2 x3 x4 x5 xs0).2.2.2.1
end
end

def jnk1 : Vec F S1x128 .f32 := View.canon (Val := Elt F) (s := S1x128) (e := .f32) []

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

def outsAt1 (c : Dev nD) : (n : ℕ) → n < cfg1.N → Vec F S512x16x128 .f32 × Vec F S1x128 .f32 × Vec F S1x128 .f32 × Vec F S2x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) (cond1_0_of ⟨0, hn⟩ rfl) (ncond1_1_of ⟨0, hn⟩ (show ¬(0 % 16 = 15) from by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), jnk1, jnk1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) (cond1_0_of ⟨0, hn⟩ rfl) (ncond1_1_of ⟨0, hn⟩ (show ¬(0 % 16 = 15) from by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h1 : (n + 1) % 16 = 15 then
      (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (ncond1_0_of ⟨n + 1, hn⟩ (Nat.succ_ne_zero n)) (cond1_1_of ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (ncond1_0_of ⟨n + 1, hn⟩ (Nat.succ_ne_zero n)) (cond1_1_of ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2, out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (ncond1_0_of ⟨n + 1, hn⟩ (Nat.succ_ne_zero n)) (cond1_1_of ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (ncond1_0_of ⟨n + 1, hn⟩ (Nat.succ_ne_zero n)) (cond1_1_of ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2)
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (ncond1_0_of ⟨n + 1, hn⟩ (Nat.succ_ne_zero n)) (ncond1_1_of ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2, jnk1, jnk1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (ncond1_0_of ⟨n + 1, hn⟩ (Nat.succ_ne_zero n)) (ncond1_1_of ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2)

theorem outsAt1_A (c : Dev nD) (t : Fin cfg1.N) (h0 : t.val = 0) (h1 : ¬t.val % 16 = 15) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (cond1_0_of t h0) (ncond1_1_of t h1) (iblk1 V c 0 t) (iblk1 V c 1 t) (iblk1 V c 2 t) (iblk1 V c 3 t) (iblk1 V c 4 t) (iblk1 V c 5 t), jnk1, jnk1, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (cond1_0_of t h0) (ncond1_1_of t h1) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact absurd h0 (Nat.succ_ne_zero n)

theorem outsAt1_B (c : Dev nD) (t : Fin cfg1.N) (h0 : t.val ≠ 0) (h1 : ¬t.val % 16 = 15) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (ncond1_1_of t h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2, jnk1, jnk1, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (ncond1_1_of t h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

theorem outsAt1_C (c : Dev nD) (t : Fin cfg1.N) (h0 : t.val ≠ 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (cond1_1_of t h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (cond1_1_of t h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2, out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (cond1_1_of t h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (cond1_1_of t h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

def Phi1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) scM1 fullShare ((outsAt1 V c n hn).2.2.2) ∗ Pipeline.scopedRestBut (Ix := Unit) (Name := ℕ) (U := UR sig nD τ) (Lvl := ℕ) (Val := Elt F) spec1 c [cc1_scratch0])

theorem Phi1_zero (c : Dev nD) (n : ℕ) (h : n ≤ cfg1.N) (hz : n = 0) : Phi1 V c n h = Pipeline.scopedRest (Ix := Unit) (Name := ℕ) (U := UR sig nD τ) (Lvl := ℕ) (Val := Elt F) spec1 c := by
  subst hz; rfl
theorem Phi1_succ (c : Dev nD) (n : ℕ) (hn : n < cfg1.N) :
    Phi1 V c (n + 1) hn = iprop(owns (c : Thread nD τ) scM1 fullShare ((outsAt1 V c n hn).2.2.2) ∗ Pipeline.scopedRestBut (Ix := Unit) (Name := ℕ) (U := UR sig nD τ) (Lvl := ℕ) (Val := Elt F) spec1 c [cc1_scratch0]) := rfl
theorem Phi1_pos (c : Dev nD) (n : ℕ) (h : n ≤ cfg1.N) (hz : n ≠ 0) :
    Phi1 V c n h = iprop(owns (c : Thread nD τ) scM1 fullShare ((outsAt1 V c (n - 1) (by omega)).2.2.2) ∗ Pipeline.scopedRestBut (Ix := Unit) (Name := ℕ) (U := UR sig nD τ) (Lvl := ℕ) (Val := Elt F) spec1 c [cc1_scratch0]) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
    | ⟨8, _⟩ => (outsAt1 V c t.val t.isLt).2.2.1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem owed1 (c : Dev nD) (t) : (dat1 V c).owed t = 0 := rfl
theorem share1 (c : Dev nD) (w) : (dat1 V c).q w = fullShare := rfl

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem after1_8 (c : Dev nD) (t : Fin cfg1.N) : (dat1 V c).after 8 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val = 0
  · have h1 : ¬t.val % 16 = 15 := by omega
    rw [Dat.leavesExact_idle (dat1 V c) 7 t (idleAt1_7 t (ncond1_1_of t h1)) (noFlush1_7 t (ncond1_1_of t h1))]
    rw [Dat.leavesExact_idle (dat1 V c) 8 t (idleAt1_8 t (ncond1_1_of t h1)) (noFlush1_8 t (ncond1_1_of t h1))]
    rw [outsAt1_A V c t h0 h1]
    unfold out1_A_6 sout1_A; (try dsimp only)
    rw [Phi1_castSucc V c t, Phi1_zero V c _ _ h0, scopedRest1_eq]
    iintro ⟨⟨HS0, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (cond1_0_of t h0) (ncond1_1_of t h1) (iblk1 V c 0 t) (iblk1 V c 1 t) (iblk1 V c 2 t) (iblk1 V c 3 t) (iblk1 V c 4 t) (iblk1 V c 5 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    iintro ⟨H0, H1, H2, H3, H4, H5, ⟨%e6, H6⟩, H7, H8, ⟨%es0, HS0⟩⟩
    isplitl [HS0 Hr]
    · isplitl [HS0]
      · unfold owns; iexists _; isplitr
        swap; · iexact HS0
        ipureintro; exact View.read_writes_eq_canon _ _ _ (scover1_A c _ _ _ _ _ _ _ _ _ _ _ _ _ _ _ _ _ _ _ _ _ _ _ _ _ _ _ _ _)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover1_A_6 c _ _ _ _ _ _ _ _ _ _ _ _ _ _ _ _ _ _ _ _ _ _ _ _ _ _ _ _ _)
    isplitl [H7]; · iexists _; iexact H7
    iexists _; iexact H8
  · by_cases h1 : t.val % 16 = 15
    · rw [show (dat1 V c).leavesExact 7 t = owns (c : Thread nD τ) (ms1_7 t) fullShare ((dat1 V c).after 7 t) from by
        unfold Dat.leavesExact; rw [liveAt1_7 t (cond1_1_of t h1)], after1_7]
      rw [show (dat1 V c).leavesExact 8 t = owns (c : Thread nD τ) (ms1_8 t) fullShare ((dat1 V c).after 8 t) from by
        unfold Dat.leavesExact; rw [liveAt1_8 t (cond1_1_of t h1)], after1_8]
      rw [outsAt1_C V c t h0 h1]
      unfold out1_C_6 out1_C_7 out1_C_8 sout1_C; (try dsimp only)
      rw [Phi1_castSucc V c t, Phi1_pos V c _ _ h0]
      iintro ⟨⟨HS0, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (cond1_1_of t h1) (iblk1 V c 0 t) (iblk1 V c 1 t) (iblk1 V c 2 t) (iblk1 V c 3 t) (iblk1 V c 4 t) (iblk1 V c 5 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, ⟨%e6, H6⟩, ⟨%e7, H7⟩, ⟨%e8, H8⟩, ⟨%es0, HS0⟩⟩
      isplitl [HS0 Hr]
      · isplitl [HS0]
        · unfold owns; iexists _; isplitr
          swap; · iexact HS0
          ipureintro; exact View.read_writes_eq_canon _ _ _ (scover1_C c _ _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_eq_canon _ _ _ (cover1_C_6 c _ _ _ _ _ _ _ _ _ _ _ _ _ _ _ _ _ _ _ _ _ _ _ _ _ _ _ _ _ _)
      isplitl [H7]
      · unfold owns; iexists _; isplitr
        swap; · iexact H7
        ipureintro; exact View.read_writes_eq_canon _ _ _ (cover1_C_7 c _ _ _ _ _ _ _ _ _ _ _ _ _ _ _ _ _ _ _ _ _ _ _ _ _ _ _ _ _ _)
      unfold owns; iexists _; isplitr
      swap; · iexact H8
      ipureintro; exact View.read_writes_eq_canon _ _ _ (cover1_C_8 c _ _ _ _ _ _ _ _ _ _ _ _ _ _ _ _ _ _ _ _ _ _ _ _ _ _ _ _ _ _)
    · rw [Dat.leavesExact_idle (dat1 V c) 7 t (idleAt1_7 t (ncond1_1_of t h1)) (noFlush1_7 t (ncond1_1_of t h1))]
      rw [Dat.leavesExact_idle (dat1 V c) 8 t (idleAt1_8 t (ncond1_1_of t h1)) (noFlush1_8 t (ncond1_1_of t h1))]
      rw [outsAt1_B V c t h0 h1]
      unfold out1_B_6 sout1_B; (try dsimp only)
      rw [Phi1_castSucc V c t, Phi1_pos V c _ _ h0]
      iintro ⟨⟨HS0, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (ncond1_1_of t h1) (iblk1 V c 0 t) (iblk1 V c 1 t) (iblk1 V c 2 t) (iblk1 V c 3 t) (iblk1 V c 4 t) (iblk1 V c 5 t) _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      iintro ⟨H0, H1, H2, H3, H4, H5, ⟨%e6, H6⟩, H7, H8, ⟨%es0, HS0⟩⟩
      isplitl [HS0 Hr]
      · isplitl [HS0]
        · unfold owns; iexists _; isplitr
          swap; · iexact HS0
          ipureintro; exact View.read_writes_eq_canon _ _ _ (scover1_B c _ _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_eq_canon _ _ _ (cover1_B_6 c _ _ _ _ _ _ _ _ _ _ _ _ _ _ _ _ _ _ _ _ _ _ _ _ _ _ _ _ _ _)
      isplitl [H7]; · iexists _; iexact H7
      iexists _; iexact H8

theorem body_obligation1 (c : Dev nD) : BodyObligation (dat1 (F := F) V c) (defs₀ (F := F)) Variants.none () Set.univ := fun t => by
  rw [bigSep_W1, bigSep_W1]
  exact sound_body1 V c t

theorem phi1_in (c : Dev nD) : (Pipeline.scopedRest (Ix := Unit) (Name := ℕ) (U := UR sig nD τ) (Lvl := ℕ) (Val := Elt F) spec1 c : sProp 𝕄) ⊢ (dat1 V c).Φ 0 := by
  rw [show (dat1 V c).Φ 0 = Phi1 V c 0 (Nat.zero_le _) from rfl, Phi1_zero V c 0 _ rfl]

theorem phi1_out (c : Dev nD) : (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 16 := N_1; omega), scopedRest1_eq]
  iintro ⟨HS0, Hr⟩
  isplitl [HS0]
  · iexists _; iexact HS0
  iexact Hr

end Cert.Kernel.Hand
end
-- ==== Proof.KbR2.lean ====
import proofs.«157081_j85761906966880_1_alg».proof.Proof.Gen.Kernel.Launch
import proofs.«157081_j85761906966880_1_alg».proof.Proof.Gen.Kernel.Skeleton
import proofs.«157081_j85761906966880_1_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S512x16x128 := Rect.unit (s := S512x16x128) ![0, 0, 0] S512x16x128.size inb_S512x16x128_S512x16x128_0_0_0
abbrev r2_1 : Rect S1x1x128 := Rect.unit (s := S1x1x128) ![0, 0, 0] S1x1x128.size inb_S1x1x128_S1x1x128_0_0_0
abbrev r2_2 : Rect S512x128 := Rect.unit (s := S512x128) ![0, 0] S512x128.size inb_S512x128_S512x128_0_0

def out2_5 (x0 : Vec F S512x16x128 .f32) (x1 x2 x3 x4 : Vec F S1x1x128 .f32) : Vec F S512x128 .f32 :=
  View.canon [⟨r2_2, k2_pay1 (k2_pay2 (View.ld x0 r2_0) (View.ld x2 r2_1) (View.ld x3 r2_1) (View.ld x4 r2_1) (View.ld x1 r2_1))
    (k2_pay3 (View.ld x0 r2_0) (View.ld x2 r2_1) (View.ld x3 r2_1) (View.ld x4 r2_1) (View.ld x1 r2_1))⟩]

theorem cover2_5 (p0 : Vec F S512x128 .f32) (y : S512x128.Idx) :
    ∃ pc ∈ ([⟨r2_2, p0⟩] : List (View.Piece (Elt F) S512x128 .f32)), y ∈ pc.1.set :=
  View.cover_of_tiled [⟨r2_2, p0⟩] S512x128.size (by rfl) y

set_option maxHeartbeats 1000000 in
theorem sound_kernel2 (c : Dev nD) (E : Set ℕ) (i : grid2.Coords)
    (arg1 : Memref sig .tc .vmem S512x16x128 .f32) (harg1 : arg1.IsWhole)
    (arg2 : Memref sig .tc .vmem S1x1x128 .f32) (harg2 : arg2.IsWhole)
    (arg3 : Memref sig .tc .vmem S1x1x128 .f32) (harg3 : arg3.IsWhole)
    (arg4 : Memref sig .tc .vmem S1x1x128 .f32) (harg4 : arg4.IsWhole)
    (arg5 : Memref sig .tc .vmem S1x1x128 .f32) (harg5 : arg5.IsWhole)
    (arg6 : Memref sig .tc .vmem S512x128 .f32) (harg6 : arg6.IsWhole)
    (x0 : Vec F S512x16x128 .f32) (x1 x2 x3 x4 : Vec F S1x1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2_kernel i arg1 harg1 arg2 harg2 arg3 harg3 arg4 harg4 arg5 harg5 arg6 harg6) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.scopedRest spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

theorem owed2 (c : Dev nD) (t) : (dat2 V c).owed t = 0 := rfl
theorem share2 (c : Dev nD) (w) : (dat2 V c).q w = fullShare := rfl

theorem phi2_in (c : Dev nD) :
    (Pipeline.scopedRest (Ix := Unit) (Name := ℕ) (U := UR sig nD τ) (Lvl := ℕ) (Val := Elt F) spec2 c : sProp 𝕄) ⊢ (dat2 V c).Φ 0 := .rfl
theorem phi2_out (c : Dev nD) :
    (dat2 V c).Φ (Fin.last cfg2.N) ⊢ (Pipeline.scopedRest (Ix := Unit) (Name := ℕ) (U := UR sig nD τ) (Lvl := ℕ) (Val := Elt F) spec2 c : sProp 𝕄) := .rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Hand
end
-- ==== Proof.KbR3.lean ====
import proofs.«157081_j85761906966880_1_alg».proof.Proof.Gen.Kernel.Launch
import proofs.«157081_j85761906966880_1_alg».proof.Proof.Gen.Kernel.Skeleton
import proofs.«157081_j85761906966880_1_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Ring
import Idealize.ShloMosaic.Lib.Tactic

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev r3_condFirst (i : grid3.Coords) : Prop :=
  (Scalar.cmpi .ne (Scalar.extui (Scalar.cmpi .eq (BitVec.ofNat 32 (i 0).val) 0#32)) 0#32) = 1#1
theorem r3_hFirst : ∀ t : Fin cfg3.N, r3_condFirst (grid3.coords t) ↔ t.val % 32 = 0 :=
  (by decide +kernel : ∀ t : Fin grid3.N, r3_condFirst (grid3.coords t) ↔ t.val % 32 = 0)

abbrev r3_condLast (i : grid3.Coords) : Prop := k3_cond2 i = 1#1
theorem r3_hLast : ∀ t : Fin cfg3.N, r3_condLast (grid3.coords t) ↔ t.val % 32 = 31 :=
  (by decide +kernel : ∀ t : Fin grid3.N, r3_condLast (grid3.coords t) ↔ t.val % 32 = 31)

theorem r3_live0 : ∀ t : Fin cfg3.N, cfg3.idle 0 (grid3.coords t) = false := by decide +kernel
theorem r3_live1 : ∀ t : Fin cfg3.N, cfg3.idle 1 (grid3.coords t) = false := by decide +kernel
theorem r3_live2 : ∀ t : Fin cfg3.N, cfg3.idle 2 (grid3.coords t) = false := by decide +kernel
theorem r3_idle3 : ∀ t : Fin cfg3.N, ¬r3_condLast (grid3.coords t) → cfg3.idle 3 (grid3.coords t) = true := by decide +kernel
theorem r3_idle4 : ∀ t : Fin cfg3.N, ¬r3_condLast (grid3.coords t) → cfg3.idle 4 (grid3.coords t) = true := by decide +kernel
theorem r3_noFlush3 : ∀ t : Fin cfg3.N, ¬r3_condLast (grid3.coords t) → (cfg3.win 3).flush t = false := by decide +kernel
theorem r3_noFlush4 : ∀ t : Fin cfg3.N, ¬r3_condLast (grid3.coords t) → (cfg3.win 4).flush t = false := by decide +kernel
theorem r3_live3 : ∀ t : Fin cfg3.N, r3_condLast (grid3.coords t) → cfg3.idle 3 (grid3.coords t) = false := by decide +kernel
theorem r3_live4 : ∀ t : Fin cfg3.N, r3_condLast (grid3.coords t) → cfg3.idle 4 (grid3.coords t) = false := by decide +kernel

section
variable (c : Dev nD) (i : grid3.Coords) (arg1 : Memref sig .tc .vmem S256x32x67 .f32) (harg1 : arg1.IsWhole) (arg2 : Memref sig .tc .vmem S67x128 .f32) (harg2 : arg2.IsWhole) (arg3 : Memref sig .tc .vmem S256x32x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2x128 .f32) (harg6 : arg6.IsWhole)
set_option maxHeartbeats 1000000 in
noncomputable def r3_runA (hc0 : r3_condFirst i) (hc1 : ¬r3_condLast i) (x0 : Vec F S256x32x67 .f32) (x1 : Vec F S67x128 .f32) :
    Σ' (L2 : List (View.Piece (Elt F) S256x32x128 .f32)), { LS : List (View.Piece (Elt F) S2x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg1 harg1 arg2 harg2 arg3 harg3 arg4 harg4 arg5 harg5 arg6 harg6) K } := by
  refine ⟨?_, ?_, fun xi3 xi4 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%d2, %f2, -, H2⟩, H3, H4, ⟨%ds, %fs, -, HS⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexact H3
    isplitl [H4]; · iexact H4
    iexists _; iexact HS

set_option maxHeartbeats 1000000 in
noncomputable def r3_runB (hc0 : ¬r3_condFirst i) (hc1 : ¬r3_condLast i) (x0 : Vec F S256x32x67 .f32) (x1 : Vec F S67x128 .f32) (xs : Vec F S2x128 .f32) :
    Σ' (L2 : List (View.Piece (Elt F) S256x32x128 .f32)), { LS : List (View.Piece (Elt F) S2x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ owns (c : Thread nD τ) arg5 fullShare xi4 ∗ owns (c : Thread nD τ) arg6 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg1 harg1 arg2 harg2 arg3 harg3 arg4 harg4 arg5 harg5 arg6 harg6) K } := by
  refine ⟨?_, ?_, fun xi3 xi4 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%d2, %f2, -, H2⟩, H3, H4, ⟨%fs, %hfs, HS⟩, Hk⟩
    obtain rfl := harg1.eq_unread hf0; obtain rfl := harg2.eq_unread hf1; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexact H3
    isplitl [H4]; · iexact H4
    iexists _; iexact HS

set_option maxHeartbeats 1000000 in
noncomputable def r3_runC (hc0 : ¬r3_condFirst i) (hc1 : r3_condLast i) (x0 : Vec F S256x32x67 .f32) (x1 : Vec F S67x128 .f32) (xs : Vec F S2x128 .f32) :
    Σ' (L2 : List (View.Piece (Elt F) S256x32x128 .f32)) (L3 : List (View.Piece (Elt F) S1x128 .f32)) (L4 : List (View.Piece (Elt F) S1x128 .f32)),
      { LS : List (View.Piece (Elt F) S2x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d) ∗ owns (c : Thread nD τ) arg6 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg1 harg1 arg2 harg2 arg3 harg3 arg4 harg4 arg5 harg5 arg6 harg6) K } := by
  refine ⟨?_, ?_, ?_, ?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs, %hfs, HS⟩, Hk⟩
    obtain rfl := harg1.eq_unread hf0; obtain rfl := harg2.eq_unread hf1; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS

abbrev r3_VO2 : View sig .tc .vmem S256x32x128 .f32 := (Memref.whole cc3_stg2_0 : Memref sig .tc .vmem S256x32x128 .f32).view
abbrev r3_VO3 : View sig .tc .vmem S1x128 .f32 := (Memref.whole cc3_stg3_0 : Memref sig .tc .vmem S1x128 .f32).view
abbrev r3_VO4 : View sig .tc .vmem S1x128 .f32 := (Memref.whole cc3_stg4_0 : Memref sig .tc .vmem S1x128 .f32).view
abbrev r3_scM : Memref sig .tc .vmem S2x128 .f32 := Memref.whole cc3_scratch0
abbrev r3_VS : View sig .tc .vmem S2x128 .f32 := r3_scM.view
def r3_unread3 : Vec F S1x128 .f32 := r3_VO3.read (Elt F) r3_VO3.junk
def r3_unread4 : Vec F S1x128 .f32 := r3_VO4.read (Elt F) r3_VO4.junk

section
variable (hc0 : r3_condFirst i) (hc1 : ¬r3_condLast i) (x0 : Vec F S256x32x67 .f32) (x1 : Vec F S67x128 .f32)
include hc0 hc1
theorem r3_cover2_A (y : S256x32x128.Idx) :
    ∃ pc ∈ (r3_runA c i arg1 harg1 arg2 harg2 arg3 harg3 arg4 harg4 arg5 harg5 arg6 harg6 hc0 hc1 x0 x1).1, y ∈ pc.1.set :=
  View.cover_of_tiledL (r3_runA c i arg1 harg1 arg2 harg2 arg3 harg3 arg4 harg4 arg5 harg5 arg6 harg6 hc0 hc1 x0 x1).1 S256x32x128.size (by sl_kernel_rfl) y
def r3_out2_A : Vec F S256x32x128 .f32 :=
  r3_VO2.read (Elt F) (r3_VO2.writes (Elt F) r3_VO2.junk (r3_runA c i arg1 harg1 arg2 harg2 arg3 harg3 arg4 harg4 arg5 harg5 arg6 harg6 hc0 hc1 x0 x1).1)
theorem r3_scover_A (y : S2x128.Idx) :
    ∃ pc ∈ (r3_runA c i arg1 harg1 arg2 harg2 arg3 harg3 arg4 harg4 arg5 harg5 arg6 harg6 hc0 hc1 x0 x1).2.1, y ∈ pc.1.set :=
  View.cover_of_tiledL (r3_runA c i arg1 harg1 arg2 harg2 arg3 harg3 arg4 harg4 arg5 harg5 arg6 harg6 hc0 hc1 x0 x1).2.1 S1x128.size (by sl_kernel_rfl) y
def r3_sout_A : Vec F S2x128 .f32 :=
  r3_VS.read (Elt F) (r3_VS.writes (Elt F) r3_VS.junk (r3_runA c i arg1 harg1 arg2 harg2 arg3 harg3 arg4 harg4 arg5 harg5 arg6 harg6 hc0 hc1 x0 x1).2.1)

end
section
variable (hc0 : ¬r3_condFirst i) (hc1 : ¬r3_condLast i) (x0 : Vec F S256x32x67 .f32) (x1 : Vec F S67x128 .f32) (xs : Vec F S2x128 .f32)
include hc0 hc1
theorem r3_cover2_B (y : S256x32x128.Idx) :
    ∃ pc ∈ (r3_runB c i arg1 harg1 arg2 harg2 arg3 harg3 arg4 harg4 arg5 harg5 arg6 harg6 hc0 hc1 x0 x1 xs).1, y ∈ pc.1.set :=
  View.cover_of_tiledL (r3_runB c i arg1 harg1 arg2 harg2 arg3 harg3 arg4 harg4 arg5 harg5 arg6 harg6 hc0 hc1 x0 x1 xs).1 S256x32x128.size (by sl_kernel_rfl) y
def r3_out2_B : Vec F S256x32x128 .f32 :=
  r3_VO2.read (Elt F) (r3_VO2.writes (Elt F) r3_VO2.junk (r3_runB c i arg1 harg1 arg2 harg2 arg3 harg3 arg4 harg4 arg5 harg5 arg6 harg6 hc0 hc1 x0 x1 xs).1)
theorem r3_scover_B (y : S2x128.Idx) :
    ∃ pc ∈ (r3_runB c i arg1 harg1 arg2 harg2 arg3 harg3 arg4 harg4 arg5 harg5 arg6 harg6 hc0 hc1 x0 x1 xs).2.1, y ∈ pc.1.set :=
  View.cover_of_tiledL (r3_runB c i arg1 harg1 arg2 harg2 arg3 harg3 arg4 harg4 arg5 harg5 arg6 harg6 hc0 hc1 x0 x1 xs).2.1 S1x128.size (by sl_kernel_rfl) y
def r3_sout_B : Vec F S2x128 .f32 :=
  r3_VS.read (Elt F) (r3_VS.writes (Elt F) r3_VS.junk (r3_runB c i arg1 harg1 arg2 harg2 arg3 harg3 arg4 harg4 arg5 harg5 arg6 harg6 hc0 hc1 x0 x1 xs).2.1)

end
section
variable (hc0 : ¬r3_condFirst i) (hc1 : r3_condLast i) (x0 : Vec F S256x32x67 .f32) (x1 : Vec F S67x128 .f32) (xs : Vec F S2x128 .f32)
include hc0 hc1
theorem r3_cover2_C (y : S256x32x128.Idx) :
    ∃ pc ∈ (r3_runC c i arg1 harg1 arg2 harg2 arg3 harg3 arg4 harg4 arg5 harg5 arg6 harg6 hc0 hc1 x0 x1 xs).1, y ∈ pc.1.set :=
  View.cover_of_tiledL (r3_runC c i arg1 harg1 arg2 harg2 arg3 harg3 arg4 harg4 arg5 harg5 arg6 harg6 hc0 hc1 x0 x1 xs).1 S256x32x128.size (by sl_kernel_rfl) y
def r3_out2_C : Vec F S256x32x128 .f32 :=
  r3_VO2.read (Elt F) (r3_VO2.writes (Elt F) r3_VO2.junk (r3_runC c i arg1 harg1 arg2 harg2 arg3 harg3 arg4 harg4 arg5 harg5 arg6 harg6 hc0 hc1 x0 x1 xs).1)
theorem r3_scover_C (y : S2x128.Idx) :
    ∃ pc ∈ (r3_runC c i arg1 harg1 arg2 harg2 arg3 harg3 arg4 harg4 arg5 harg5 arg6 harg6 hc0 hc1 x0 x1 xs).2.2.2.1, y ∈ pc.1.set :=
  View.cover_of_tiledL (r3_runC c i arg1 harg1 arg2 harg2 arg3 harg3 arg4 harg4 arg5 harg5 arg6 harg6 hc0 hc1 x0 x1 xs).2.2.2.1 S1x128.size (by sl_kernel_rfl) y
def r3_sout_C : Vec F S2x128 .f32 :=
  r3_VS.read (Elt F) (r3_VS.writes (Elt F) r3_VS.junk (r3_runC c i arg1 harg1 arg2 harg2 arg3 harg3 arg4 harg4 arg5 harg5 arg6 harg6 hc0 hc1 x0 x1 xs).2.2.2.1)

theorem r3_cover3_C (y : S1x128.Idx) :
    ∃ pc ∈ (r3_runC c i arg1 harg1 arg2 harg2 arg3 harg3 arg4 harg4 arg5 harg5 arg6 harg6 hc0 hc1 x0 x1 xs).2.1, y ∈ pc.1.set :=
  View.cover_of_tiledL (r3_runC c i arg1 harg1 arg2 harg2 arg3 harg3 arg4 harg4 arg5 harg5 arg6 harg6 hc0 hc1 x0 x1 xs).2.1 S1x128.size (by sl_kernel_rfl) y
def r3_out3_C : Vec F S1x128 .f32 :=
  r3_VO3.read (Elt F) (r3_VO3.writes (Elt F) r3_VO3.junk (r3_runC c i arg1 harg1 arg2 harg2 arg3 harg3 arg4 harg4 arg5 harg5 arg6 harg6 hc0 hc1 x0 x1 xs).2.1)
theorem r3_cover4_C (y : S1x128.Idx) :
    ∃ pc ∈ (r3_runC c i arg1 harg1 arg2 harg2 arg3 harg3 arg4 harg4 arg5 harg5 arg6 harg6 hc0 hc1 x0 x1 xs).2.2.1, y ∈ pc.1.set :=
  View.cover_of_tiledL (r3_runC c i arg1 harg1 arg2 harg2 arg3 harg3 arg4 harg4 arg5 harg5 arg6 harg6 hc0 hc1 x0 x1 xs).2.2.1 S1x128.size (by sl_kernel_rfl) y
def r3_out4_C : Vec F S1x128 .f32 :=
  r3_VO4.read (Elt F) (r3_VO4.writes (Elt F) r3_VO4.junk (r3_runC c i arg1 harg1 arg2 harg2 arg3 harg3 arg4 harg4 arg5 harg5 arg6 harg6 hc0 hc1 x0 x1 xs).2.2.1)
end
end

def r3_blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_ms0 (t : Fin cfg3.N) : Memref sig .tc .vmem S256x32x67 .f32 := win3_0.stage (cfg3.slots t 0)
abbrev r3_hs0 (t : Fin cfg3.N) : (r3_ms0 t).IsWhole := hstage3_0 ((cfg3.slots t 0).cast nbuf3_0)
abbrev r3_ms1 (t : Fin cfg3.N) : Memref sig .tc .vmem S67x128 .f32 := win3_1.stage (cfg3.slots t 1)
abbrev r3_hs1 (t : Fin cfg3.N) : (r3_ms1 t).IsWhole := hstage3_1 ((cfg3.slots t 1).cast nbuf3_1)
abbrev r3_ms2 (t : Fin cfg3.N) : Memref sig .tc .vmem S256x32x128 .f32 := win3_2.stage (cfg3.slots t 2)
abbrev r3_hs2 (t : Fin cfg3.N) : (r3_ms2 t).IsWhole := hstage3_2 ((cfg3.slots t 2).cast nbuf3_2)
abbrev r3_ms3 (t : Fin cfg3.N) : Memref sig .tc .vmem S1x128 .f32 := win3_3.stage (cfg3.slots t 3)
abbrev r3_hs3 (t : Fin cfg3.N) : (r3_ms3 t).IsWhole := hstage3_3 ((cfg3.slots t 3).cast nbuf3_3)
abbrev r3_ms4 (t : Fin cfg3.N) : Memref sig .tc .vmem S1x128 .f32 := win3_4.stage (cfg3.slots t 4)
abbrev r3_hs4 (t : Fin cfg3.N) : (r3_ms4 t).IsWhole := hstage3_4 ((cfg3.slots t 4).cast nbuf3_4)

def r3_outsAt (c : Dev nD) : (n : ℕ) → n < cfg3.N → Vec F S256x32x128 .f32 × Vec F S1x128 .f32 × Vec F S1x128 .f32 × Vec F S2x128 .f32
  | 0, hn =>
    (r3_out2_A c (grid3.coords ⟨0, hn⟩) (r3_ms0 ⟨0, hn⟩) (r3_hs0 ⟨0, hn⟩) (r3_ms1 ⟨0, hn⟩) (r3_hs1 ⟨0, hn⟩) (r3_ms2 ⟨0, hn⟩) (r3_hs2 ⟨0, hn⟩) (r3_ms3 ⟨0, hn⟩) (r3_hs3 ⟨0, hn⟩) (r3_ms4 ⟨0, hn⟩) (r3_hs4 ⟨0, hn⟩) r3_scM (Memref.isWhole_whole _) ((r3_hFirst ⟨0, hn⟩).mpr (Nat.zero_mod _)) (fun h => (fun h => by (try dsimp only at h); omega) ((r3_hLast ⟨0, hn⟩).mp h)) (r3_blk V c 0 ⟨0, hn⟩) (r3_blk V c 1 ⟨0, hn⟩),
     r3_unread3, r3_unread4,
     r3_sout_A c (grid3.coords ⟨0, hn⟩) (r3_ms0 ⟨0, hn⟩) (r3_hs0 ⟨0, hn⟩) (r3_ms1 ⟨0, hn⟩) (r3_hs1 ⟨0, hn⟩) (r3_ms2 ⟨0, hn⟩) (r3_hs2 ⟨0, hn⟩) (r3_ms3 ⟨0, hn⟩) (r3_hs3 ⟨0, hn⟩) (r3_ms4 ⟨0, hn⟩) (r3_hs4 ⟨0, hn⟩) r3_scM (Memref.isWhole_whole _) ((r3_hFirst ⟨0, hn⟩).mpr (Nat.zero_mod _)) (fun h => (fun h => by (try dsimp only at h); omega) ((r3_hLast ⟨0, hn⟩).mp h)) (r3_blk V c 0 ⟨0, hn⟩) (r3_blk V c 1 ⟨0, hn⟩))
  | n + 1, hn =>
    if h1 : (n + 1) % 32 = 31 then
      (r3_out2_C c (grid3.coords ⟨n + 1, hn⟩) (r3_ms0 ⟨n + 1, hn⟩) (r3_hs0 ⟨n + 1, hn⟩) (r3_ms1 ⟨n + 1, hn⟩) (r3_hs1 ⟨n + 1, hn⟩) (r3_ms2 ⟨n + 1, hn⟩) (r3_hs2 ⟨n + 1, hn⟩) (r3_ms3 ⟨n + 1, hn⟩) (r3_hs3 ⟨n + 1, hn⟩) (r3_ms4 ⟨n + 1, hn⟩) (r3_hs4 ⟨n + 1, hn⟩) r3_scM (Memref.isWhole_whole _) (fun h => (fun h' => by have hN : n + 1 < 32 := lt_of_lt_of_eq hn (show cfg3.N = 32 from N_3); (try dsimp only at h'); omega) ((r3_hFirst ⟨n + 1, hn⟩).mp h)) ((r3_hLast ⟨n + 1, hn⟩).mpr h1) (r3_blk V c 0 ⟨n + 1, hn⟩) (r3_blk V c 1 ⟨n + 1, hn⟩) (r3_outsAt c n (Nat.lt_of_succ_lt hn)).2.2.2,
       r3_out3_C c (grid3.coords ⟨n + 1, hn⟩) (r3_ms0 ⟨n + 1, hn⟩) (r3_hs0 ⟨n + 1, hn⟩) (r3_ms1 ⟨n + 1, hn⟩) (r3_hs1 ⟨n + 1, hn⟩) (r3_ms2 ⟨n + 1, hn⟩) (r3_hs2 ⟨n + 1, hn⟩) (r3_ms3 ⟨n + 1, hn⟩) (r3_hs3 ⟨n + 1, hn⟩) (r3_ms4 ⟨n + 1, hn⟩) (r3_hs4 ⟨n + 1, hn⟩) r3_scM (Memref.isWhole_whole _) (fun h => (fun h' => by have hN : n + 1 < 32 := lt_of_lt_of_eq hn (show cfg3.N = 32 from N_3); (try dsimp only at h'); omega) ((r3_hFirst ⟨n + 1, hn⟩).mp h)) ((r3_hLast ⟨n + 1, hn⟩).mpr h1) (r3_blk V c 0 ⟨n + 1, hn⟩) (r3_blk V c 1 ⟨n + 1, hn⟩) (r3_outsAt c n (Nat.lt_of_succ_lt hn)).2.2.2,
       r3_out4_C c (grid3.coords ⟨n + 1, hn⟩) (r3_ms0 ⟨n + 1, hn⟩) (r3_hs0 ⟨n + 1, hn⟩) (r3_ms1 ⟨n + 1, hn⟩) (r3_hs1 ⟨n + 1, hn⟩) (r3_ms2 ⟨n + 1, hn⟩) (r3_hs2 ⟨n + 1, hn⟩) (r3_ms3 ⟨n + 1, hn⟩) (r3_hs3 ⟨n + 1, hn⟩) (r3_ms4 ⟨n + 1, hn⟩) (r3_hs4 ⟨n + 1, hn⟩) r3_scM (Memref.isWhole_whole _) (fun h => (fun h' => by have hN : n + 1 < 32 := lt_of_lt_of_eq hn (show cfg3.N = 32 from N_3); (try dsimp only at h'); omega) ((r3_hFirst ⟨n + 1, hn⟩).mp h)) ((r3_hLast ⟨n + 1, hn⟩).mpr h1) (r3_blk V c 0 ⟨n + 1, hn⟩) (r3_blk V c 1 ⟨n + 1, hn⟩) (r3_outsAt c n (Nat.lt_of_succ_lt hn)).2.2.2,
       r3_sout_C c (grid3.coords ⟨n + 1, hn⟩) (r3_ms0 ⟨n + 1, hn⟩) (r3_hs0 ⟨n + 1, hn⟩) (r3_ms1 ⟨n + 1, hn⟩) (r3_hs1 ⟨n + 1, hn⟩) (r3_ms2 ⟨n + 1, hn⟩) (r3_hs2 ⟨n + 1, hn⟩) (r3_ms3 ⟨n + 1, hn⟩) (r3_hs3 ⟨n + 1, hn⟩) (r3_ms4 ⟨n + 1, hn⟩) (r3_hs4 ⟨n + 1, hn⟩) r3_scM (Memref.isWhole_whole _) (fun h => (fun h' => by have hN : n + 1 < 32 := lt_of_lt_of_eq hn (show cfg3.N = 32 from N_3); (try dsimp only at h'); omega) ((r3_hFirst ⟨n + 1, hn⟩).mp h)) ((r3_hLast ⟨n + 1, hn⟩).mpr h1) (r3_blk V c 0 ⟨n + 1, hn⟩) (r3_blk V c 1 ⟨n + 1, hn⟩) (r3_outsAt c n (Nat.lt_of_succ_lt hn)).2.2.2)
    else
      (r3_out2_B c (grid3.coords ⟨n + 1, hn⟩) (r3_ms0 ⟨n + 1, hn⟩) (r3_hs0 ⟨n + 1, hn⟩) (r3_ms1 ⟨n + 1, hn⟩) (r3_hs1 ⟨n + 1, hn⟩) (r3_ms2 ⟨n + 1, hn⟩) (r3_hs2 ⟨n + 1, hn⟩) (r3_ms3 ⟨n + 1, hn⟩) (r3_hs3 ⟨n + 1, hn⟩) (r3_ms4 ⟨n + 1, hn⟩) (r3_hs4 ⟨n + 1, hn⟩) r3_scM (Memref.isWhole_whole _) (fun h => (fun h' => by have hN : n + 1 < 32 := lt_of_lt_of_eq hn (show cfg3.N = 32 from N_3); (try dsimp only at h'); omega) ((r3_hFirst ⟨n + 1, hn⟩).mp h)) (fun h => h1 ((r3_hLast ⟨n + 1, hn⟩).mp h)) (r3_blk V c 0 ⟨n + 1, hn⟩) (r3_blk V c 1 ⟨n + 1, hn⟩) (r3_outsAt c n (Nat.lt_of_succ_lt hn)).2.2.2,
       r3_unread3, r3_unread4,
       r3_sout_B c (grid3.coords ⟨n + 1, hn⟩) (r3_ms0 ⟨n + 1, hn⟩) (r3_hs0 ⟨n + 1, hn⟩) (r3_ms1 ⟨n + 1, hn⟩) (r3_hs1 ⟨n + 1, hn⟩) (r3_ms2 ⟨n + 1, hn⟩) (r3_hs2 ⟨n + 1, hn⟩) (r3_ms3 ⟨n + 1, hn⟩) (r3_hs3 ⟨n + 1, hn⟩) (r3_ms4 ⟨n + 1, hn⟩) (r3_hs4 ⟨n + 1, hn⟩) r3_scM (Memref.isWhole_whole _) (fun h => (fun h' => by have hN : n + 1 < 32 := lt_of_lt_of_eq hn (show cfg3.N = 32 from N_3); (try dsimp only at h'); omega) ((r3_hFirst ⟨n + 1, hn⟩).mp h)) (fun h => h1 ((r3_hLast ⟨n + 1, hn⟩).mp h)) (r3_blk V c 0 ⟨n + 1, hn⟩) (r3_blk V c 1 ⟨n + 1, hn⟩) (r3_outsAt c n (Nat.lt_of_succ_lt hn)).2.2.2)

theorem r3_outsAt_A (c : Dev nD) (t : Fin cfg3.N) (h0 : t.val % 32 = 0) (h1 : ¬t.val % 32 = 31) :
    r3_outsAt V c t.val t.isLt =
      (r3_out2_A c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) ((r3_hFirst t).mpr h0) (fun h => h1 ((r3_hLast t).mp h)) (r3_blk V c 0 t) (r3_blk V c 1 t),
       r3_unread3, r3_unread4,
       r3_sout_A c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) ((r3_hFirst t).mpr h0) (fun h => h1 ((r3_hLast t).mp h)) (r3_blk V c 0 t) (r3_blk V c 1 t)) := by
  obtain ⟨n, hn⟩ := t
  cases n with
  | zero => exact rfl
  | succ n => exact (by exfalso; have hN : n + 1 < 32 := lt_of_lt_of_eq hn (show cfg3.N = 32 from N_3); (try dsimp only at h0); omega)

theorem r3_outsAt_B (c : Dev nD) (t : Fin cfg3.N) (h0 : ¬t.val % 32 = 0) (h1 : ¬t.val % 32 = 31) :
    r3_outsAt V c t.val t.isLt =
      (r3_out2_B c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) (fun h => h1 ((r3_hLast t).mp h)) (r3_blk V c 0 t) (r3_blk V c 1 t) (r3_outsAt V c (t.val - 1) (Nat.lt_of_le_of_lt (Nat.sub_le _ _) t.isLt)).2.2.2,
       r3_unread3, r3_unread4,
       r3_sout_B c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) (fun h => h1 ((r3_hLast t).mp h)) (r3_blk V c 0 t) (r3_blk V c 1 t) (r3_outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

theorem r3_outsAt_C (c : Dev nD) (t : Fin cfg3.N) (h0 : ¬t.val % 32 = 0) (h1 : t.val % 32 = 31) :
    r3_outsAt V c t.val t.isLt =
      (r3_out2_C c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) ((r3_hLast t).mpr h1) (r3_blk V c 0 t) (r3_blk V c 1 t) (r3_outsAt V c (t.val - 1) (Nat.lt_of_le_of_lt (Nat.sub_le _ _) t.isLt)).2.2.2,
       r3_out3_C c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) ((r3_hLast t).mpr h1) (r3_blk V c 0 t) (r3_blk V c 1 t) (r3_outsAt V c (t.val - 1) (Nat.lt_of_le_of_lt (Nat.sub_le _ _) t.isLt)).2.2.2,
       r3_out4_C c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) ((r3_hLast t).mpr h1) (r3_blk V c 0 t) (r3_blk V c 1 t) (r3_outsAt V c (t.val - 1) (Nat.lt_of_le_of_lt (Nat.sub_le _ _) t.isLt)).2.2.2,
       r3_sout_C c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) ((r3_hLast t).mpr h1) (r3_blk V c 0 t) (r3_blk V c 1 t) (r3_outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

def r3_Phi (c : Dev nD) : (n : ℕ) → n ≤ cfg3.N → sProp 𝕄
  | 0, _ => iprop((∃ d, owns (c : Thread nD τ) r3_scM fullShare d)
      ∗ Pipeline.scopedRestBut (Ix := Unit) (Name := ℕ) (U := UR sig nD τ) (Lvl := ℕ) (Val := Elt F) spec3 c [cc3_scratch0])
  | n + 1, hn => iprop(owns (c : Thread nD τ) r3_scM fullShare ((r3_outsAt V c n hn).2.2.2)
      ∗ Pipeline.scopedRestBut (Ix := Unit) (Name := ℕ) (U := UR sig nD τ) (Lvl := ℕ) (Val := Elt F) spec3 c [cc3_scratch0])

theorem r3_Phi_zero (c : Dev nD) (n : ℕ) (h : n ≤ cfg3.N) (hz : n = 0) :
    r3_Phi V c n h = iprop((∃ d, owns (c : Thread nD τ) r3_scM fullShare d)
      ∗ Pipeline.scopedRestBut (Ix := Unit) (Name := ℕ) (U := UR sig nD τ) (Lvl := ℕ) (Val := Elt F) spec3 c [cc3_scratch0]) := by
  subst hz; rfl

theorem r3_Phi_succ (c : Dev nD) (n : ℕ) (hn : n < cfg3.N) :
    r3_Phi V c (n + 1) hn = iprop(owns (c : Thread nD τ) r3_scM fullShare ((r3_outsAt V c n hn).2.2.2)
      ∗ Pipeline.scopedRestBut (Ix := Unit) (Name := ℕ) (U := UR sig nD τ) (Lvl := ℕ) (Val := Elt F) spec3 c [cc3_scratch0]) := rfl

theorem r3_Phi_pos (c : Dev nD) (n : ℕ) (h : n ≤ cfg3.N) (hz : n ≠ 0) :
    r3_Phi V c n h = iprop(owns (c : Thread nD τ) r3_scM fullShare ((r3_outsAt V c (n - 1) (by omega)).2.2.2)
      ∗ Pipeline.scopedRestBut (Ix := Unit) (Name := ℕ) (U := UR sig nD τ) (Lvl := ℕ) (Val := Elt F) spec3 c [cc3_scratch0]) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => r3_blk V c 0 t
    | ⟨1, _⟩ => r3_blk V c 1 t
    | ⟨2, _⟩ => (r3_outsAt V c t.val t.isLt).1
    | ⟨3, _⟩ => (r3_outsAt V c t.val t.isLt).2.1
    | ⟨4, _⟩ => (r3_outsAt V c t.val t.isLt).2.2.1
  Φ t := r3_Phi V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem owed3 (c : Dev nD) (t) : (dat3 V c).owed t = 0 := rfl
theorem share3 (c : Dev nD) (w) : (dat3 V c).q w = fullShare := rfl

theorem r3_Phi_castSucc (c : Dev nD) (t : Fin cfg3.N) :
    (dat3 V c).Φ t.castSucc = r3_Phi V c t.val (Nat.le_of_lt t.isLt) := by
  dsimp only [dat3]; simp only [Fin.coe_castSucc]

theorem r3_after0 (c : Dev nD) (t : Fin cfg3.N) : (dat3 V c).after 0 t = r3_blk V c 0 t := by dsimp only [dat3]
theorem r3_after1 (c : Dev nD) (t : Fin cfg3.N) : (dat3 V c).after 1 t = r3_blk V c 1 t := by dsimp only [dat3]
theorem r3_after2 (c : Dev nD) (t : Fin cfg3.N) : (dat3 V c).after 2 t = (r3_outsAt V c t.val t.isLt).1 := by dsimp only [dat3]
theorem r3_after3 (c : Dev nD) (t : Fin cfg3.N) : (dat3 V c).after 3 t = (r3_outsAt V c t.val t.isLt).2.1 := by dsimp only [dat3]
theorem r3_after4 (c : Dev nD) (t : Fin cfg3.N) : (dat3 V c).after 4 t = (r3_outsAt V c t.val t.isLt).2.2.1 := by dsimp only [dat3]

theorem r3_before0 (c : Dev nD) (t : Fin cfg3.N) (d) : (dat3 V c).before 0 t d = r3_blk V c 0 t :=
  ((dat3 V c).before_in_eq_fetched 0 rfl (fun _ => rfl) (fun _ _ _ => rfl)
    (fun t => by rw [r3_after0]; unfold Dat.blockOf r3_blk; rw [A_eq3]; try rfl) t d).trans
    (by unfold Dat.fetched Dat.blockOf r3_blk; rw [A_eq3]; try rfl)
theorem r3_before1 (c : Dev nD) (t : Fin cfg3.N) (d) : (dat3 V c).before 1 t d = r3_blk V c 1 t :=
  ((dat3 V c).before_in_eq_fetched 1 rfl (fun _ => rfl) (fun _ _ _ => rfl)
    (fun t => by rw [r3_after1]; unfold Dat.blockOf r3_blk; rw [A_eq3]; try rfl) t d).trans
    (by unfold Dat.fetched Dat.blockOf r3_blk; rw [A_eq3]; try rfl)

def r3_bodyPre (c : Dev nD) (t : Fin cfg3.N) : sProp 𝕄 :=
  iprop((dat3 V c).Φ t.castSucc ∗ (dat3 V c).owesAt () t.castSucc
    ∗ (∃ d, owns (c : Thread nD τ) (r3_ms0 t) fullShare ((dat3 V c).before 0 t d))
    ∗ (∃ d, owns (c : Thread nD τ) (r3_ms1 t) fullShare ((dat3 V c).before 1 t d))
    ∗ (∃ d, owns (c : Thread nD τ) (r3_ms2 t) fullShare ((dat3 V c).before 2 t d))
    ∗ (∃ d, owns (c : Thread nD τ) (r3_ms3 t) fullShare ((dat3 V c).before 3 t d))
    ∗ (∃ d, owns (c : Thread nD τ) (r3_ms4 t) fullShare ((dat3 V c).before 4 t d)))

def r3_bodyPost (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t)

set_option maxHeartbeats 4800000 in
theorem r3_sound_body (c : Dev nD) (t : Fin cfg3.N) :
    r3_bodyPre V c t ⊢ wp frame (wpE (defs₀ (F := F)) Variants.none c none) Set.univ (bodyAt3 t) (fun _ => r3_bodyPost V c t) := by
  unfold r3_bodyPre r3_bodyPost bodyAt3
  simp only [r3_before0, r3_before1]
  rw [show (dat3 V c).owesAt () t.succ = (dat3 V c).owesAt () t.castSucc from rfl]
  rw [show (dat3 V c).Φ t.succ = r3_Phi V c (t.val + 1) t.isLt from rfl, r3_Phi_succ]
  have hN : t.val < 32 := lt_of_lt_of_eq t.isLt (show cfg3.N = 32 from N_3)
  rw [show (dat3 V c).leavesExact 0 t = owns (c : Thread nD τ) (r3_ms0 t) fullShare ((dat3 V c).after 0 t) from by
    unfold Dat.leavesExact; rw [r3_live0 t], r3_after0]
  rw [show (dat3 V c).leavesExact 1 t = owns (c : Thread nD τ) (r3_ms1 t) fullShare ((dat3 V c).after 1 t) from by
    unfold Dat.leavesExact; rw [r3_live1 t], r3_after1]
  rw [show (dat3 V c).leavesExact 2 t = owns (c : Thread nD τ) (r3_ms2 t) fullShare ((dat3 V c).after 2 t) from by
    unfold Dat.leavesExact; rw [r3_live2 t], r3_after2]
  by_cases h0 : t.val % 32 = 0
  · have h1 : ¬t.val % 32 = 31 := by omega
    have hz : t.val = 0 := by omega
    rw [Dat.leavesExact_idle (dat3 V c) 3 t (r3_idle3 t (fun h => h1 ((r3_hLast t).mp h))) (r3_noFlush3 t (fun h => h1 ((r3_hLast t).mp h)))]
    rw [Dat.leavesExact_idle (dat3 V c) 4 t (r3_idle4 t (fun h => h1 ((r3_hLast t).mp h))) (r3_noFlush4 t (fun h => h1 ((r3_hLast t).mp h)))]
    rw [r3_outsAt_A V c t h0 h1]
    unfold r3_out2_A r3_sout_A; (try dsimp only)
    rw [r3_Phi_castSucc V c t, r3_Phi_zero V c _ _ hz]
    iintro ⟨⟨HS, HR⟩, Ho, ⟨%d0, H0⟩, ⟨%d1, H1⟩, ⟨%d2, H2⟩, ⟨%d3, H3⟩, ⟨%d4, H4⟩⟩
    iapply ((r3_runA c (grid3.coords t) _ _ _ _ _ _ _ _ _ _ _ _ ((r3_hFirst t).mpr h0) (fun h => h1 ((r3_hLast t).mp h)) (r3_blk V c 0 t) (r3_blk V c 1 t)).2.2 _ _ Set.univ _)
    isplitl [H0]; · iexact H0
    isplitl [H1]; · iexact H1
    isplitl [H2]; · iexists _; iexact H2
    isplitl [H3]; · iexact H3
    isplitl [H4]; · iexact H4
    isplitl [HS]; · iexact HS
    iintro ⟨H0, H1, ⟨%e2, H2⟩, H3, H4, ⟨%es, HS⟩⟩
    isplitl [HS HR]
    · isplitl [HS]
      · unfold owns; iexists _; isplitr
        swap; · iexact HS
        ipureintro; exact View.read_writes_of_cover _ _ _ _ _ (r3_scover_A c _ _ _ _ _ _ _ _ _ _ _ _ _ _ _ _ _)
      iexact HR
    isplitl [Ho]; · iexact Ho
    isplitl [H0]; · iexact H0
    isplitl [H1]; · iexact H1
    isplitl [H2]
    · unfold owns; iexists _; isplitr
      swap; · iexact H2
      ipureintro; exact View.read_writes_of_cover _ _ _ _ _ (r3_cover2_A c _ _ _ _ _ _ _ _ _ _ _ _ _ _ _ _ _)
    isplitl [H3]; · iexists _; iexact H3
    iexists _; iexact H4
  · have hz : t.val ≠ 0 := fun e => h0 (by rw [e])
    by_cases h1 : t.val % 32 = 31
    · rw [show (dat3 V c).leavesExact 3 t = owns (c : Thread nD τ) (r3_ms3 t) fullShare ((dat3 V c).after 3 t) from by
        unfold Dat.leavesExact; rw [r3_live3 t ((r3_hLast t).mpr h1)], r3_after3]
      rw [show (dat3 V c).leavesExact 4 t = owns (c : Thread nD τ) (r3_ms4 t) fullShare ((dat3 V c).after 4 t) from by
        unfold Dat.leavesExact; rw [r3_live4 t ((r3_hLast t).mpr h1)], r3_after4]
      rw [r3_outsAt_C V c t h0 h1]
      unfold r3_out2_C r3_out3_C r3_out4_C r3_sout_C; (try dsimp only)
      rw [r3_Phi_castSucc V c t, r3_Phi_pos V c _ _ hz]
      iintro ⟨⟨HS, HR⟩, Ho, ⟨%d0, H0⟩, ⟨%d1, H1⟩, ⟨%d2, H2⟩, ⟨%d3, H3⟩, ⟨%d4, H4⟩⟩
      iapply ((r3_runC c (grid3.coords t) _ _ _ _ _ _ _ _ _ _ _ _ (fun h => h0 ((r3_hFirst t).mp h)) ((r3_hLast t).mpr h1) (r3_blk V c 0 t) (r3_blk V c 1 t) _).2.2.2.2 Set.univ _)
      isplitl [H0]; · iexact H0
      isplitl [H1]; · iexact H1
      isplitl [H2]; · iexists _; iexact H2
      isplitl [H3]; · iexists _; iexact H3
      isplitl [H4]; · iexists _; iexact H4
      isplitl [HS]; · iexact HS
      iintro ⟨H0, H1, ⟨%e2, H2⟩, ⟨%e3, H3⟩, ⟨%e4, H4⟩, ⟨%es, HS⟩⟩
      isplitl [HS HR]
      · isplitl [HS]
        · unfold owns; iexists _; isplitr
          swap; · iexact HS
          ipureintro; exact View.read_writes_of_cover _ _ _ _ _ (r3_scover_C c _ _ _ _ _ _ _ _ _ _ _ _ _ _ _ _ _ _)
        iexact HR
      isplitl [Ho]; · iexact Ho
      isplitl [H0]; · iexact H0
      isplitl [H1]; · iexact H1
      isplitl [H2]
      · unfold owns; iexists _; isplitr
        swap; · iexact H2
        ipureintro; exact View.read_writes_of_cover _ _ _ _ _ (r3_cover2_C c _ _ _ _ _ _ _ _ _ _ _ _ _ _ _ _ _ _)
      isplitl [H3]
      · unfold owns; iexists _; isplitr
        swap; · iexact H3
        ipureintro; exact View.read_writes_of_cover _ _ _ _ _ (r3_cover3_C c _ _ _ _ _ _ _ _ _ _ _ _ _ _ _ _ _ _)
      unfold owns; iexists _; isplitr
      swap; · iexact H4
      ipureintro; exact View.read_writes_of_cover _ _ _ _ _ (r3_cover4_C c _ _ _ _ _ _ _ _ _ _ _ _ _ _ _ _ _ _)
    · rw [Dat.leavesExact_idle (dat3 V c) 3 t (r3_idle3 t (fun h => h1 ((r3_hLast t).mp h))) (r3_noFlush3 t (fun h => h1 ((r3_hLast t).mp h)))]
      rw [Dat.leavesExact_idle (dat3 V c) 4 t (r3_idle4 t (fun h => h1 ((r3_hLast t).mp h))) (r3_noFlush4 t (fun h => h1 ((r3_hLast t).mp h)))]
      rw [r3_outsAt_B V c t h0 h1]
      unfold r3_out2_B r3_sout_B; (try dsimp only)
      rw [r3_Phi_castSucc V c t, r3_Phi_pos V c _ _ hz]
      iintro ⟨⟨HS, HR⟩, Ho, ⟨%d0, H0⟩, ⟨%d1, H1⟩, ⟨%d2, H2⟩, ⟨%d3, H3⟩, ⟨%d4, H4⟩⟩
      iapply ((r3_runB c (grid3.coords t) _ _ _ _ _ _ _ _ _ _ _ _ (fun h => h0 ((r3_hFirst t).mp h)) (fun h => h1 ((r3_hLast t).mp h)) (r3_blk V c 0 t) (r3_blk V c 1 t) _).2.2 _ _ Set.univ _)
      isplitl [H0]; · iexact H0
      isplitl [H1]; · iexact H1
      isplitl [H2]; · iexists _; iexact H2
      isplitl [H3]; · iexact H3
      isplitl [H4]; · iexact H4
      isplitl [HS]; · iexact HS
      iintro ⟨H0, H1, ⟨%e2, H2⟩, H3, H4, ⟨%es, HS⟩⟩
      isplitl [HS HR]
      · isplitl [HS]
        · unfold owns; iexists _; isplitr
          swap; · iexact HS
          ipureintro; exact View.read_writes_of_cover _ _ _ _ _ (r3_scover_B c _ _ _ _ _ _ _ _ _ _ _ _ _ _ _ _ _ _)
        iexact HR
      isplitl [Ho]; · iexact Ho
      isplitl [H0]; · iexact H0
      isplitl [H1]; · iexact H1
      isplitl [H2]
      · unfold owns; iexists _; isplitr
        swap; · iexact H2
        ipureintro; exact View.read_writes_of_cover _ _ _ _ _ (r3_cover2_B c _ _ _ _ _ _ _ _ _ _ _ _ _ _ _ _ _ _)
      isplitl [H3]; · iexists _; iexact H3
      iexists _; iexact H4

theorem body_obligation3 (c : Dev nD) : BodyObligation (dat3 (F := F) V c) (defs₀ (F := F)) Variants.none () Set.univ := fun t => by
  rw [bigSep_W3, bigSep_W3]
  exact r3_sound_body V c t

theorem phi3_in (c : Dev nD) : (Pipeline.scopedRest (Ix := Unit) (Name := ℕ) (U := UR sig nD τ) (Lvl := ℕ) (Val := Elt F) spec3 c : sProp 𝕄) ⊢ (dat3 V c).Φ 0 := by
  rw [show (dat3 V c).Φ 0 = r3_Phi V c 0 (Nat.zero_le _) from rfl, r3_Phi_zero V c 0 _ rfl, scopedRest3_split]
  simp only [r3_scM, owns_whole]
  exact Idealize.SL.BI.Entails.refl _

theorem phi3_out (c : Dev nD) : (dat3 V c).Φ (Fin.last cfg3.N) ⊢ (Pipeline.scopedRest (Ix := Unit) (Name := ℕ) (U := UR sig nD τ) (Lvl := ℕ) (Val := Elt F) spec3 c : sProp 𝕄) := by
  rw [show (dat3 V c).Φ (Fin.last cfg3.N) = r3_Phi V c (Fin.last cfg3.N).val (Nat.le_of_lt_succ (Fin.last cfg3.N).isLt) from rfl,
    r3_Phi_pos V c _ _ (by rw [Fin.val_last]; have : cfg3.N = 32 := N_3; omega), scopedRest3_split]
  simp only [r3_scM, owns_whole]
  iintro ⟨HS, HR⟩
  isplitl [HS]
  · iexists _; iexact HS
  iexact HR

end Cert.Kernel.Hand
end
-- ==== Proof.KbR4.lean ====
import proofs.«157081_j85761906966880_1_alg».proof.Proof.Gen.Kernel.Launch
import proofs.«157081_j85761906966880_1_alg».proof.Proof.Gen.Kernel.Skeleton
import proofs.«157081_j85761906966880_1_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 32 = 0 :=
  (by decide +kernel : ∀ t : Fin grid4.N, cond4_0 (grid4.coords t) ↔ t.val % 32 = 0)
abbrev cond4_1 (i : grid4.Coords) : Prop := k4_cond2 i = 1#1
theorem hcond4_1 : ∀ t : Fin cfg4.N, cond4_1 (grid4.coords t) ↔ t.val % 32 = 31 :=
  (by decide +kernel : ∀ t : Fin grid4.N, cond4_1 (grid4.coords t) ↔ t.val % 32 = 31)

theorem cond4_0_of (t : Fin cfg4.N) (h0 : t.val = 0) : cond4_0 (grid4.coords t) := (hcond4_0 t).mpr (by rw [h0])
theorem ncond4_0_of (t : Fin cfg4.N) (h0 : t.val ≠ 0) : ¬cond4_0 (grid4.coords t) := fun h => by
  have h' := (hcond4_0 t).mp h
  have hN : t.val < 32 := lt_of_lt_of_eq t.isLt (show cfg4.N = 32 from N_4)
  omega
theorem cond4_1_of (t : Fin cfg4.N) (h1 : t.val % 32 = 31) : cond4_1 (grid4.coords t) := (hcond4_1 t).mpr h1
theorem ncond4_1_of (t : Fin cfg4.N) (h1 : ¬t.val % 32 = 31) : ¬cond4_1 (grid4.coords t) := fun h => h1 ((hcond4_1 t).mp h)

theorem idleAt4_7 : ∀ t : Fin cfg4.N, ¬cond4_1 (grid4.coords t) → cfg4.idle 7 (grid4.coords t) = true := by decide +kernel
theorem idleAt4_8 : ∀ t : Fin cfg4.N, ¬cond4_1 (grid4.coords t) → cfg4.idle 8 (grid4.coords t) = true := by decide +kernel
theorem noFlush4_7 : ∀ t : Fin cfg4.N, ¬cond4_1 (grid4.coords t) → (cfg4.win 7).flush t = false := by decide +kernel
theorem noFlush4_8 : ∀ t : Fin cfg4.N, ¬cond4_1 (grid4.coords t) → (cfg4.win 8).flush t = false := by decide +kernel
theorem liveAt4_7 : ∀ t : Fin cfg4.N, cond4_1 (grid4.coords t) → cfg4.idle 7 (grid4.coords t) = false := by decide +kernel
theorem liveAt4_8 : ∀ t : Fin cfg4.N, cond4_1 (grid4.coords t) → cfg4.idle 8 (grid4.coords t) = false := by decide +kernel
theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl
theorem liveAt4_6 : ∀ t : Fin cfg4.N, cfg4.idle 6 (grid4.coords t) = false := fun _ => rfl

abbrev ms4_0 (t : Fin cfg4.N) : Memref sig .tc .vmem S256x32x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S128x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S256x32x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
abbrev scM4 : Memref sig .tc .vmem S2x128 .f32 := Memref.whole cc4_scratch0

theorem scopedRest4_eq (c : Dev nD) :
    (Pipeline.scopedRest (Ix := Unit) (Name := ℕ) (U := UR sig nD τ) (Lvl := ℕ) (Val := Elt F) spec4 c : sProp 𝕄)
      = iprop(iprop((∃ d, owns (c : Thread nD τ) scM4 fullShare d))
          ∗ Pipeline.scopedRestBut (Ix := Unit) (Name := ℕ) (U := UR sig nD τ) (Lvl := ℕ) (Val := Elt F) spec4 c [cc4_scratch0]) := by
  rw [scopedRest4_split]; simp only [scM4, owns_whole]; rfl

section
variable (c : Dev nD) (i : grid4.Coords) (arg1 : Memref sig .tc .vmem S256x32x128 .f32) (harg1 : arg1.IsWhole) (arg2 : Memref sig .tc .vmem S1x1x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128x128 .f32) (harg6 : arg6.IsWhole) (arg7 : Memref sig .tc .vmem S256x32x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2x128 .f32) (harg10 : arg10.IsWhole)
set_option maxHeartbeats 4000000 in
noncomputable def kernelRun4_A (hc0 : cond4_0 i) (hc1 : ¬cond4_1 i)
    (x0 : Vec F S256x32x128 .f32) (x1 x2 x3 x4 : Vec F S1x1x128 .f32) (x5 : Vec F S128x128 .f32) :
    Σ' (L6 : List (View.Piece (Elt F) S256x32x128 .f32)), { LS0 : List (View.Piece (Elt F) S2x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xi8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7 ∗ owns (c : Thread nD τ) arg9 fullShare xi8
                ∗ (∃ f, arg10.view.loc (c : Thread nD τ) ↦[arg10.view.set]{fullShare} arg10.view.writes (Elt F) f LS0)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10) K } := by
  refine ⟨?_, ?_, fun xi7 xi8 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    iexists _; iexact HS0

set_option maxHeartbeats 4000000 in
noncomputable def kernelRun4_B (hc0 : ¬cond4_0 i) (hc1 : ¬cond4_1 i)
    (x0 : Vec F S256x32x128 .f32) (x1 x2 x3 x4 : Vec F S1x1x128 .f32) (x5 : Vec F S128x128 .f32) (xs0 : Vec F S2x128 .f32) :
    Σ' (L6 : List (View.Piece (Elt F) S256x32x128 .f32)), { LS0 : List (View.Piece (Elt F) S2x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xi8 ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7 ∗ owns (c : Thread nD τ) arg9 fullShare xi8
                ∗ (∃ f, arg10.view.loc (c : Thread nD τ) ↦[arg10.view.set]{fullShare} arg10.view.writes (Elt F) f LS0)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10) K } := by
  refine ⟨?_, ?_, fun xi7 xi8 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    iexists _; iexact HS0

set_option maxHeartbeats 4000000 in
noncomputable def kernelRun4_C (hc0 : ¬cond4_0 i) (hc1 : cond4_1 i)
    (x0 : Vec F S256x32x128 .f32) (x1 x2 x3 x4 : Vec F S1x1x128 .f32) (x5 : Vec F S128x128 .f32) (xs0 : Vec F S2x128 .f32) :
    Σ' (L6 : List (View.Piece (Elt F) S256x32x128 .f32)) (L7 : List (View.Piece (Elt F) S1x128 .f32)) (L8 : List (View.Piece (Elt F) S1x128 .f32)), { LS0 : List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f LS0)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact HS0

section
variable (hc0 : cond4_0 i) (hc1 : ¬cond4_1 i) (x0 : Vec F S256x32x128 .f32) (x1 x2 x3 x4 : Vec F S1x1x128 .f32) (x5 : Vec F S128x128 .f32)
include hc0 hc1

theorem cover4_A_6 (y : S256x32x128.Idx) : ∃ pc ∈ (kernelRun4_A c i arg1 harg1 arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4 x5).1 S256x32x128.size (by sl_kernel_rfl) y
theorem scover4_A (y : S2x128.Idx) : ∃ pc ∈ (kernelRun4_A c i arg1 harg1 arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4 x5).2.1 S1x128.size (by sl_kernel_rfl) y
def out4_A_6 : Vec F S256x32x128 .f32 := View.canon (kernelRun4_A c i arg1 harg1 arg2 harg2 arg3 harg3 arg4 harg4 arg5 harg5 arg6 harg6 arg7 harg7 arg8 harg8 arg9 harg9 arg10 harg10 hc0 hc1 x0 x1 x2 x3 x4 x5).1
def sout4_A : Vec F S2x128 .f32 := View.canon (kernelRun4_A c i arg1 harg1 arg2 harg2 arg3 harg3 arg4 harg4 arg5 harg5 arg6 harg6 arg7 harg7 arg8 harg8 arg9 harg9 arg10 harg10 hc0 hc1 x0 x1 x2 x3 x4 x5).2.1

end
section
variable (hc0 : ¬cond4_0 i) (hc1 : ¬cond4_1 i) (x0 : Vec F S256x32x128 .f32) (x1 x2 x3 x4 : Vec F S1x1x128 .f32) (x5 : Vec F S128x128 .f32) (xs0 : Vec F S2x128 .f32)
include hc0 hc1
theorem cover4_B_6 (y : S256x32x128.Idx) : ∃ pc ∈ (kernelRun4_B c i arg1 harg1 arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 x5 xs0).1 S256x32x128.size (by sl_kernel_rfl) y
theorem scover4_B (y : S2x128.Idx) : ∃ pc ∈ (kernelRun4_B c i arg1 harg1 arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 x5 xs0).2.1 S1x128.size (by sl_kernel_rfl) y
def out4_B_6 : Vec F S256x32x128 .f32 := View.canon (kernelRun4_B c i arg1 harg1 arg2 harg2 arg3 harg3 arg4 harg4 arg5 harg5 arg6 harg6 arg7 harg7 arg8 harg8 arg9 harg9 arg10 harg10 hc0 hc1 x0 x1 x2 x3 x4 x5 xs0).1
def sout4_B : Vec F S2x128 .f32 := View.canon (kernelRun4_B c i arg1 harg1 arg2 harg2 arg3 harg3 arg4 harg4 arg5 harg5 arg6 harg6 arg7 harg7 arg8 harg8 arg9 harg9 arg10 harg10 hc0 hc1 x0 x1 x2 x3 x4 x5 xs0).2.1

end
section
variable (hc0 : ¬cond4_0 i) (hc1 : cond4_1 i) (x0 : Vec F S256x32x128 .f32) (x1 x2 x3 x4 : Vec F S1x1x128 .f32) (x5 : Vec F S128x128 .f32) (xs0 : Vec F S2x128 .f32)
include hc0 hc1
theorem cover4_C_6 (y : S256x32x128.Idx) : ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0).1 S256x32x128.size (by sl_kernel_rfl) y
theorem cover4_C_7 (y : S1x128.Idx) : ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0).2.1 S1x128.size (by sl_kernel_rfl) y
theorem cover4_C_8 (y : S1x128.Idx) : ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0).2.2.1 S1x128.size (by sl_kernel_rfl) y
theorem scover4_C (y : S2x128.Idx) : ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0).2.2.2.1 S1x128.size (by sl_kernel_rfl) y
def out4_C_6 : Vec F S256x32x128 .f32 := View.canon (kernelRun4_C c i arg1 harg1 arg2 harg2 arg3 harg3 arg4 harg4 arg5 harg5 arg6 harg6 arg7 harg7 arg8 harg8 arg9 harg9 arg10 harg10 hc0 hc1 x0 x1 x2 x3 x4 x5 xs0).1
def out4_C_7 : Vec F S1x128 .f32 := View.canon (kernelRun4_C c i arg1 harg1 arg2 harg2 arg3 harg3 arg4 harg4 arg5 harg5 arg6 harg6 arg7 harg7 arg8 harg8 arg9 harg9 arg10 harg10 hc0 hc1 x0 x1 x2 x3 x4 x5 xs0).2.1
def out4_C_8 : Vec F S1x128 .f32 := View.canon (kernelRun4_C c i arg1 harg1 arg2 harg2 arg3 harg3 arg4 harg4 arg5 harg5 arg6 harg6 arg7 harg7 arg8 harg8 arg9 harg9 arg10 harg10 hc0 hc1 x0 x1 x2 x3 x4 x5 xs0).2.2.1
def sout4_C : Vec F S2x128 .f32 := View.canon (kernelRun4_C c i arg1 harg1 arg2 harg2 arg3 harg3 arg4 harg4 arg5 harg5 arg6 harg6 arg7 harg7 arg8 harg8 arg9 harg9 arg10 harg10 hc0 hc1 x0 x1 x2 x3 x4 x5 xs0).2.2.2.1
end
end

def jnk4 : Vec F S1x128 .f32 := View.canon (Val := Elt F) (s := S1x128) (e := .f32) []

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

def outsAt4 (c : Dev nD) : (n : ℕ) → n < cfg4.N → Vec F S256x32x128 .f32 × Vec F S1x128 .f32 × Vec F S1x128 .f32 × Vec F S2x128 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4 (Memref.isWhole_whole _) (cond4_0_of ⟨0, hn⟩ rfl) (ncond4_1_of ⟨0, hn⟩ (show ¬(0 % 32 = 31) from by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), jnk4, jnk4, sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4 (Memref.isWhole_whole _) (cond4_0_of ⟨0, hn⟩ rfl) (ncond4_1_of ⟨0, hn⟩ (show ¬(0 % 32 = 31) from by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h1 : (n + 1) % 32 = 31 then
      (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) (ncond4_0_of ⟨n + 1, hn⟩ (Nat.succ_ne_zero n)) (cond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2, out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) (ncond4_0_of ⟨n + 1, hn⟩ (Nat.succ_ne_zero n)) (cond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2, out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) (ncond4_0_of ⟨n + 1, hn⟩ (Nat.succ_ne_zero n)) (cond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2, sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) (ncond4_0_of ⟨n + 1, hn⟩ (Nat.succ_ne_zero n)) (cond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2)
    else
      (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) (ncond4_0_of ⟨n + 1, hn⟩ (Nat.succ_ne_zero n)) (ncond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2, jnk4, jnk4, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) (ncond4_0_of ⟨n + 1, hn⟩ (Nat.succ_ne_zero n)) (ncond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2)

theorem outsAt4_A (c : Dev nD) (t : Fin cfg4.N) (h0 : t.val = 0) (h1 : ¬t.val % 32 = 31) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (cond4_0_of t h0) (ncond4_1_of t h1) (iblk4 V c 0 t) (iblk4 V c 1 t) (iblk4 V c 2 t) (iblk4 V c 3 t) (iblk4 V c 4 t) (iblk4 V c 5 t), jnk4, jnk4, sout4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (cond4_0_of t h0) (ncond4_1_of t h1) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact absurd h0 (Nat.succ_ne_zero n)

theorem outsAt4_B (c : Dev nD) (t : Fin cfg4.N) (h0 : t.val ≠ 0) (h1 : ¬t.val % 32 = 31) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (ncond4_1_of t h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2, jnk4, jnk4, sout4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (ncond4_1_of t h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2) := by
  obtain ⟨n, hn⟩ := t
  cases n with
  | zero => exact absurd rfl h0
  | succ n => exact (dif_neg h1).trans rfl

theorem outsAt4_C (c : Dev nD) (t : Fin cfg4.N) (h0 : t.val ≠ 0) (h1 : t.val % 32 = 31) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (cond4_1_of t h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2, out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (cond4_1_of t h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2, out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (cond4_1_of t h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2, sout4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (cond4_1_of t h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2) := by
  obtain ⟨n, hn⟩ := t
  cases n with
  | zero => exact absurd rfl h0
  | succ n => exact (dif_pos h1).trans rfl

def Phi4 (c : Dev nD) : (n : ℕ) → n ≤ cfg4.N → sProp 𝕄
  | 0, _ => Pipeline.scopedRest (Ix := Unit) (Name := ℕ) (U := UR sig nD τ) (Lvl := ℕ) (Val := Elt F) spec4 c
  | n + 1, hn => iprop(owns (c : Thread nD τ) scM4 fullShare ((outsAt4 V c n hn).2.2.2) ∗ Pipeline.scopedRestBut (Ix := Unit) (Name := ℕ) (U := UR sig nD τ) (Lvl := ℕ) (Val := Elt F) spec4 c [cc4_scratch0])

theorem Phi4_zero (c : Dev nD) (n : ℕ) (h : n ≤ cfg4.N) (hz : n = 0) : Phi4 V c n h = Pipeline.scopedRest (Ix := Unit) (Name := ℕ) (U := UR sig nD τ) (Lvl := ℕ) (Val := Elt F) spec4 c := by
  subst hz; rfl
theorem Phi4_succ (c : Dev nD) (n : ℕ) (hn : n < cfg4.N) :
    Phi4 V c (n + 1) hn = iprop(owns (c : Thread nD τ) scM4 fullShare ((outsAt4 V c n hn).2.2.2) ∗ Pipeline.scopedRestBut (Ix := Unit) (Name := ℕ) (U := UR sig nD τ) (Lvl := ℕ) (Val := Elt F) spec4 c [cc4_scratch0]) := rfl
theorem Phi4_pos (c : Dev nD) (n : ℕ) (h : n ≤ cfg4.N) (hz : n ≠ 0) :
    Phi4 V c n h = iprop(owns (c : Thread nD τ) scM4 fullShare ((outsAt4 V c (n - 1) (by omega)).2.2.2) ∗ Pipeline.scopedRestBut (Ix := Unit) (Name := ℕ) (U := UR sig nD τ) (Lvl := ℕ) (Val := Elt F) spec4 c [cc4_scratch0]) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2.1
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem owed4 (c : Dev nD) (t) : (dat4 V c).owed t = 0 := rfl
theorem share4 (c : Dev nD) (w) : (dat4 V c).q w = fullShare := rfl

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = Phi4 V c (t.val + 1) t.isLt from rfl, Phi4_succ]
  have hN : t.val < 32 := lt_of_lt_of_eq t.isLt (show cfg4.N = 32 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  rw [show (dat4 V c).leavesExact 6 t = owns (c : Thread nD τ) (ms4_6 t) fullShare ((dat4 V c).after 6 t) from by
    unfold Dat.leavesExact; rw [liveAt4_6 t], after4_6]
  by_cases h0 : t.val = 0
  · have h1 : ¬t.val % 32 = 31 := by omega
    rw [Dat.leavesExact_idle (dat4 V c) 7 t (idleAt4_7 t (ncond4_1_of t h1)) (noFlush4_7 t (ncond4_1_of t h1))]
    rw [Dat.leavesExact_idle (dat4 V c) 8 t (idleAt4_8 t (ncond4_1_of t h1)) (noFlush4_8 t (ncond4_1_of t h1))]
    rw [outsAt4_A V c t h0 h1]
    unfold out4_A_6 sout4_A; (try dsimp only)
    rw [Phi4_castSucc V c t, Phi4_zero V c _ _ h0, scopedRest4_eq]
    iintro ⟨⟨HS0, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (cond4_0_of t h0) (ncond4_1_of t h1) (iblk4 V c 0 t) (iblk4 V c 1 t) (iblk4 V c 2 t) (iblk4 V c 3 t) (iblk4 V c 4 t) (iblk4 V c 5 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    iintro ⟨H0, H1, H2, H3, H4, H5, ⟨%e6, H6⟩, H7, H8, ⟨%es0, HS0⟩⟩
    isplitl [HS0 Hr]
    · isplitl [HS0]
      · unfold owns; iexists _; isplitr
        swap; · iexact HS0
        ipureintro; exact View.read_writes_eq_canon _ _ _ (scover4_A c _ _ _ _ _ _ _ _ _ _ _ _ _ _ _ _ _ _ _ _ _ _ _ _ _ _ _ _ _)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover4_A_6 c _ _ _ _ _ _ _ _ _ _ _ _ _ _ _ _ _ _ _ _ _ _ _ _ _ _ _ _ _)
    isplitl [H7]; · iexists _; iexact H7
    iexists _; iexact H8
  · by_cases h1 : t.val % 32 = 31
    · rw [show (dat4 V c).leavesExact 7 t = owns (c : Thread nD τ) (ms4_7 t) fullShare ((dat4 V c).after 7 t) from by
        unfold Dat.leavesExact; rw [liveAt4_7 t (cond4_1_of t h1)], after4_7]
      rw [show (dat4 V c).leavesExact 8 t = owns (c : Thread nD τ) (ms4_8 t) fullShare ((dat4 V c).after 8 t) from by
        unfold Dat.leavesExact; rw [liveAt4_8 t (cond4_1_of t h1)], after4_8]
      rw [outsAt4_C V c t h0 h1]
      unfold out4_C_6 out4_C_7 out4_C_8 sout4_C; (try dsimp only)
      rw [Phi4_castSucc V c t, Phi4_pos V c _ _ h0]
      iintro ⟨⟨HS0, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (cond4_1_of t h1) (iblk4 V c 0 t) (iblk4 V c 1 t) (iblk4 V c 2 t) (iblk4 V c 3 t) (iblk4 V c 4 t) (iblk4 V c 5 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, ⟨%e6, H6⟩, ⟨%e7, H7⟩, ⟨%e8, H8⟩, ⟨%es0, HS0⟩⟩
      isplitl [HS0 Hr]
      · isplitl [HS0]
        · unfold owns; iexists _; isplitr
          swap; · iexact HS0
          ipureintro; exact View.read_writes_eq_canon _ _ _ (scover4_C c _ _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_eq_canon _ _ _ (cover4_C_6 c _ _ _ _ _ _ _ _ _ _ _ _ _ _ _ _ _ _ _ _ _ _ _ _ _ _ _ _ _ _)
      isplitl [H7]
      · unfold owns; iexists _; isplitr
        swap; · iexact H7
        ipureintro; exact View.read_writes_eq_canon _ _ _ (cover4_C_7 c _ _ _ _ _ _ _ _ _ _ _ _ _ _ _ _ _ _ _ _ _ _ _ _ _ _ _ _ _ _)
      unfold owns; iexists _; isplitr
      swap; · iexact H8
      ipureintro; exact View.read_writes_eq_canon _ _ _ (cover4_C_8 c _ _ _ _ _ _ _ _ _ _ _ _ _ _ _ _ _ _ _ _ _ _ _ _ _ _ _ _ _ _)
    · rw [Dat.leavesExact_idle (dat4 V c) 7 t (idleAt4_7 t (ncond4_1_of t h1)) (noFlush4_7 t (ncond4_1_of t h1))]
      rw [Dat.leavesExact_idle (dat4 V c) 8 t (idleAt4_8 t (ncond4_1_of t h1)) (noFlush4_8 t (ncond4_1_of t h1))]
      rw [outsAt4_B V c t h0 h1]
      unfold out4_B_6 sout4_B; (try dsimp only)
      rw [Phi4_castSucc V c t, Phi4_pos V c _ _ h0]
      iintro ⟨⟨HS0, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (ncond4_1_of t h1) (iblk4 V c 0 t) (iblk4 V c 1 t) (iblk4 V c 2 t) (iblk4 V c 3 t) (iblk4 V c 4 t) (iblk4 V c 5 t) _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      iintro ⟨H0, H1, H2, H3, H4, H5, ⟨%e6, H6⟩, H7, H8, ⟨%es0, HS0⟩⟩
      isplitl [HS0 Hr]
      · isplitl [HS0]
        · unfold owns; iexists _; isplitr
          swap; · iexact HS0
          ipureintro; exact View.read_writes_eq_canon _ _ _ (scover4_B c _ _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_eq_canon _ _ _ (cover4_B_6 c _ _ _ _ _ _ _ _ _ _ _ _ _ _ _ _ _ _ _ _ _ _ _ _ _ _ _ _ _ _)
      isplitl [H7]; · iexists _; iexact H7
      iexists _; iexact H8

theorem body_obligation4 (c : Dev nD) : BodyObligation (dat4 (F := F) V c) (defs₀ (F := F)) Variants.none () Set.univ := fun t => by
  rw [bigSep_W4, bigSep_W4]
  exact sound_body4 V c t

theorem phi4_in (c : Dev nD) : (Pipeline.scopedRest (Ix := Unit) (Name := ℕ) (U := UR sig nD τ) (Lvl := ℕ) (Val := Elt F) spec4 c : sProp 𝕄) ⊢ (dat4 V c).Φ 0 := by
  rw [show (dat4 V c).Φ 0 = Phi4 V c 0 (Nat.zero_le _) from rfl, Phi4_zero V c 0 _ rfl]

theorem phi4_out (c : Dev nD) : (dat4 V c).Φ (Fin.last cfg4.N) ⊢ (Pipeline.scopedRest (Ix := Unit) (Name := ℕ) (U := UR sig nD τ) (Lvl := ℕ) (Val := Elt F) spec4 c : sProp 𝕄) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 32 := N_4; omega), scopedRest4_eq]
  iintro ⟨HS0, Hr⟩
  isplitl [HS0]
  · iexists _; iexact HS0
  iexact Hr

end Cert.Kernel.Hand
end
-- ==== Proof.KbR5.lean ====
import proofs.«157081_j85761906966880_1_alg».proof.Proof.Gen.Kernel.Launch
import proofs.«157081_j85761906966880_1_alg».proof.Proof.Gen.Kernel.Skeleton
import proofs.«157081_j85761906966880_1_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S256x32x128 := Rect.unit (s := S256x32x128) ![0, 0, 0] S256x32x128.size inb_S256x32x128_S256x32x128_0_0_0
abbrev r5_1 : Rect S1x1x128 := Rect.unit (s := S1x1x128) ![0, 0, 0] S1x1x128.size inb_S1x1x128_S1x1x128_0_0_0
abbrev r5_2 : Rect S256x128 := Rect.unit (s := S256x128) ![0, 0] S256x128.size inb_S256x128_S256x128_0_0

def out5_5 (x0 : Vec F S256x32x128 .f32) (x1 x2 x3 x4 : Vec F S1x1x128 .f32) : Vec F S256x128 .f32 :=
  View.canon [⟨r5_2, k5_pay1 (k5_pay2 (View.ld x0 r5_0) (View.ld x2 r5_1) (View.ld x3 r5_1) (View.ld x4 r5_1) (View.ld x1 r5_1))
    (k5_pay4 (k5_pay2 (View.ld x0 r5_0) (View.ld x2 r5_1) (View.ld x3 r5_1) (View.ld x4 r5_1) (View.ld x1 r5_1))
      (k5_pay3 (View.ld x0 r5_0) (View.ld x2 r5_1) (View.ld x3 r5_1) (View.ld x4 r5_1) (View.ld x1 r5_1)))⟩]

theorem cover5_5 (p0 : Vec F S256x128 .f32) (y : S256x128.Idx) :
    ∃ pc ∈ ([⟨r5_2, p0⟩] : List (View.Piece (Elt F) S256x128 .f32)), y ∈ pc.1.set :=
  View.cover_of_tiled [⟨r5_2, p0⟩] S256x128.size (by rfl) y

set_option maxHeartbeats 1000000 in
theorem sound_kernel5 (c : Dev nD) (E : Set ℕ) (i : grid5.Coords)
    (arg1 : Memref sig .tc .vmem S256x32x128 .f32) (harg1 : arg1.IsWhole)
    (arg2 : Memref sig .tc .vmem S1x1x128 .f32) (harg2 : arg2.IsWhole)
    (arg3 : Memref sig .tc .vmem S1x1x128 .f32) (harg3 : arg3.IsWhole)
    (arg4 : Memref sig .tc .vmem S1x1x128 .f32) (harg4 : arg4.IsWhole)
    (arg5 : Memref sig .tc .vmem S1x1x128 .f32) (harg5 : arg5.IsWhole)
    (arg6 : Memref sig .tc .vmem S256x128 .f32) (harg6 : arg6.IsWhole)
    (x0 : Vec F S256x32x128 .f32) (x1 x2 x3 x4 : Vec F S1x1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5_kernel i arg1 harg1 arg2 harg2 arg3 harg3 arg4 harg4 arg5 harg5 arg6 harg6) K := by
  simp only [cc5_kernel_eq_skeleton]; unfold cc5_kernel_skel
  simp only [k5_part1_eq_skeleton, k5_part2_eq_skeleton]; unfold k5_part1_skel k5_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.scopedRest spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

theorem owed5 (c : Dev nD) (t) : (dat5 V c).owed t = 0 := rfl
theorem share5 (c : Dev nD) (w) : (dat5 V c).q w = fullShare := rfl

theorem phi5_in (c : Dev nD) :
    (Pipeline.scopedRest (Ix := Unit) (Name := ℕ) (U := UR sig nD τ) (Lvl := ℕ) (Val := Elt F) spec5 c : sProp 𝕄) ⊢ (dat5 V c).Φ 0 := .rfl
theorem phi5_out (c : Dev nD) :
    (dat5 V c).Φ (Fin.last cfg5.N) ⊢ (Pipeline.scopedRest (Ix := Unit) (Name := ℕ) (U := UR sig nD τ) (Lvl := ℕ) (Val := Elt F) spec5 c : sProp 𝕄) := .rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.Kernel.Hand
end
-- ==== Proof.KbStage.lean ====
import proofs.«157081_j85761906966880_1_alg».proof.Proof.Gen.Kernel.Regions
import proofs.«157081_j85761906966880_1_alg».proof.Proof.KbR0
import proofs.«157081_j85761906966880_1_alg».proof.Proof.KbR1
import proofs.«157081_j85761906966880_1_alg».proof.Proof.KbR2
import proofs.«157081_j85761906966880_1_alg».proof.Proof.KbR3
import proofs.«157081_j85761906966880_1_alg».proof.Proof.KbR4
import proofs.«157081_j85761906966880_1_alg».proof.Proof.KbR5
import Idealize.ShloMosaic.Lib.Pipeline.FrameSuffix
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

def X11 (c : Dev nD) : Valuation τ sig (Elt F) :=
  Pipeline.withArrays spec0 c (V10 m c) fun w => (dat0 (rd (V10 m)) c).arrAt w cfg0.N
def outsA : Outs (F := F) := fun _ r c => X11 m c (Proc.devRef .tc r)
def X13 (c : Dev nD) : Valuation τ sig (Elt F) :=
  Pipeline.withArrays spec1 c (V12 m (outsA m) c) fun w => (dat1 (rd (V12 m (outsA m))) c).arrAt w cfg1.N
def outsB : Outs (F := F) := fun J r c => if J = 11 then X11 m c (Proc.devRef .tc r) else X13 m c (Proc.devRef .tc r)
def X15 (c : Dev nD) : Valuation τ sig (Elt F) :=
  Pipeline.withArrays spec2 c (V14 m (outsB m) c) fun w => (dat2 (rd (V14 m (outsB m))) c).arrAt w cfg2.N
def outsC : Outs (F := F) := fun J r c => if J = 11 then X11 m c (Proc.devRef .tc r) else if J = 13 then X13 m c (Proc.devRef .tc r)
  else X15 m c (Proc.devRef .tc r)
def X26 (c : Dev nD) : Valuation τ sig (Elt F) :=
  Pipeline.withArrays spec3 c (V25 m (outsC m) c) fun w => (dat3 (rd (V25 m (outsC m))) c).arrAt w cfg3.N
def outsD : Outs (F := F) := fun J r c => if J = 11 then X11 m c (Proc.devRef .tc r) else if J = 13 then X13 m c (Proc.devRef .tc r)
  else if J = 15 then X15 m c (Proc.devRef .tc r) else X26 m c (Proc.devRef .tc r)
def X28 (c : Dev nD) : Valuation τ sig (Elt F) :=
  Pipeline.withArrays spec4 c (V27 m (outsD m) c) fun w => (dat4 (rd (V27 m (outsD m))) c).arrAt w cfg4.N
def outsE : Outs (F := F) := fun J r c => if J = 11 then X11 m c (Proc.devRef .tc r) else if J = 13 then X13 m c (Proc.devRef .tc r)
  else if J = 15 then X15 m c (Proc.devRef .tc r) else if J = 26 then X26 m c (Proc.devRef .tc r) else X28 m c (Proc.devRef .tc r)
def X30 (c : Dev nD) : Valuation τ sig (Elt F) :=
  Pipeline.withArrays spec5 c (V29 m (outsE m) c) fun w => (dat5 (rd (V29 m (outsE m))) c).arrAt w cfg5.N
def outs : Outs (F := F) := fun J r c => if J = 11 then X11 m c (Proc.devRef .tc r) else if J = 13 then X13 m c (Proc.devRef .tc r)
  else if J = 15 then X15 m c (Proc.devRef .tc r) else if J = 26 then X26 m c (Proc.devRef .tc r)
  else if J = 28 then X28 m c (Proc.devRef .tc r) else X30 m c (Proc.devRef .tc r)

local macro "outs_eq" : tactic =>
  `(tactic| (simp only [outs, outsA, outsB, outsC, outsD, outsE, Nat.reduceEqDiff, ↓reduceIte]))

theorem V12_outs (c : Dev nD) : V12 m (outs m) c = V12 m (outsA m) c := by
  unfold V12 V11; outs_eq
theorem V14_outs (c : Dev nD) : V14 m (outs m) c = V14 m (outsB m) c := by
  unfold V14 V13 V12 V11; outs_eq
theorem V25_outs (c : Dev nD) : V25 m (outs m) c = V25 m (outsC m) c := by
  unfold V25 V24 V23 V22 V21 V20 V19 V18 V17 V16 V15 V14 V13 V12 V11; outs_eq
theorem V27_outs (c : Dev nD) : V27 m (outs m) c = V27 m (outsD m) c := by
  unfold V27 V26 V25 V24 V23 V22 V21 V20 V19 V18 V17 V16 V15 V14 V13 V12 V11; outs_eq
theorem V29_outs (c : Dev nD) : V29 m (outs m) c = V29 m (outsE m) c := by
  unfold V29 V28 V27 V26 V25 V24 V23 V22 V21 V20 V19 V18 V17 V16 V15 V14 V13 V12 V11; outs_eq
theorem outs_11 (r : Ref sig .tc) (c : Dev nD) : outs m 11 r c = X11 m c (Proc.devRef .tc r) := by outs_eq
theorem outs_13 (r : Ref sig .tc) (c : Dev nD) : outs m 13 r c = X13 m c (Proc.devRef .tc r) := by outs_eq
theorem outs_15 (r : Ref sig .tc) (c : Dev nD) : outs m 15 r c = X15 m c (Proc.devRef .tc r) := by outs_eq
theorem outs_26 (r : Ref sig .tc) (c : Dev nD) : outs m 26 r c = X26 m c (Proc.devRef .tc r) := by outs_eq
theorem outs_28 (r : Ref sig .tc) (c : Dev nD) : outs m 28 r c = X28 m c (Proc.devRef .tc r) := by outs_eq
theorem outs_30 (r : Ref sig .tc) (c : Dev nD) : outs m 30 r c = X30 m c (Proc.devRef .tc r) := by outs_eq

def pdats : (p : Fin 6) → (c : Dev nD) → Dat τ (Elt F) Unit ℕ (UR sig nD τ) ℕ (cfgs p) c
  | ⟨0, _⟩ => fun c => dat0 (rd (V10 m)) c
  | ⟨1, _⟩ => fun c => dat1 (rd (V12 m (outsA m))) c
  | ⟨2, _⟩ => fun c => dat2 (rd (V14 m (outsB m))) c
  | ⟨3, _⟩ => fun c => dat3 (rd (V25 m (outsC m))) c
  | ⟨4, _⟩ => fun c => dat4 (rd (V27 m (outsD m))) c
  | ⟨5, _⟩ => fun c => dat5 (rd (V29 m (outsE m))) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem last_chain (c : Dev nD) :
    (iprop(StableHlo.held (c : Thread nD τ) (Pipeline.ucRefs τ sig) (V31 m (outs m) c) ∗ R c) : sProp 𝕄)
      ⊢ iprop(iprop(StableHlo.held (c : Thread nD τ) (Pipeline.ucRefs τ sig) (V31 m (outs m) c) ∗ ∃ r, prngReg c r)
          ∗ ∃ W, owes (c : Thread nD τ) (0 : CellTallies nD τ sig Unit) W) :=
  sep_assoc.2

end Cert.Kernel.Hand

end
-- ==== Proof.KbReg.lean ====
import proofs.«157081_j85761906966880_1_alg».proof.Proof.KbStage

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem upd₀ {V : Valuation τ sig (Elt F)} (a b d : Ref sig .tc) {x y z} (hb : a ≠ b) (hd : a ≠ d) :
    Function.update (Function.update (Function.update V (Proc.devRef .tc a) x) (Proc.devRef .tc b) y) (Proc.devRef .tc d) z (Proc.devRef .tc a) = x := by
  rw [Function.update_of_ne (StableHlo.devRef_ne_of_ne hd), Function.update_of_ne (StableHlo.devRef_ne_of_ne hb), Function.update_self]

theorem upd₁ {V : Valuation τ sig (Elt F)} (b d : Ref sig .tc) {y z} (hd : b ≠ d) :
    Function.update (Function.update V (Proc.devRef .tc b) y) (Proc.devRef .tc d) z (Proc.devRef .tc b) = y := by
  rw [Function.update_of_ne (StableHlo.devRef_ne_of_ne hd), Function.update_self]

theorem upd₂ {V : Valuation τ sig (Elt F)} (d : Ref sig .tc) {z} : Function.update V (Proc.devRef .tc d) z (Proc.devRef .tc d) = z :=
  Function.update_self ..

set_option backward.isDefEq.respectTransparency.types false in
/-- An input array is never written and distinct windows have distinct arrays: the exit contents need only be given at the output arrays and off them. -/
def regOf {p : Fin 6} (la : Pipeline.LaunchFacts (nD := nD) (τ := τ) cfgs p) (Vi Vd Vo : Dev nD → Valuation τ sig (Elt F))
    (hV : ∀ c, Vi c = Vd c) (hb : ∀ c, BodyObligation (pdats m p c) (defs₀ (F := F)) Variants.none () Set.univ)
    (ho : ∀ c t, (pdats m p c).owed t = 0) (hrec : ∀ c x, x ∈ (pdats m p c).recorded 0) (hq : ∀ c w, (pdats m p c).q w = fullShare)
    (hA : ∀ c w, (pdats m p c).A w = rd Vd c (Pipeline.arrRef (cfgs p).spec w))
    (hΦ₀ : ∀ c, (Pipeline.scopedRest (Ix := Unit) (Name := ℕ) (U := UR sig nD τ) (Lvl := ℕ) (Val := Elt F) (cfgs p).spec c : sProp 𝕄) ⊢ (pdats m p c).Φ 0)
    (hΦₙ : ∀ c, (pdats m p c).Φ (Fin.last (cfgs p).N) ⊢ (Pipeline.scopedRest (Ix := Unit) (Name := ℕ) (U := UR sig nD τ) (Lvl := ℕ) (Val := Elt F) (cfgs p).spec c : sProp 𝕄))
    (hO : ∀ c w, (pdats m p c).arrAt w (cfgs p).N = rd Vo c (Pipeline.arrRef (cfgs p).spec w) ∨ ((cfgs p).win w).isOut = false)
    (hr : ∀ c b, (∀ w, ((cfgs p).win w).isOut = true → Pipeline.arrRef (cfgs p).spec w ≠ b) → rd Vo c b = rd Vd c b) :
    RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Vi c) ∗ R c)
  post c := iprop(StableHlo.held (c : Thread nD τ) (Pipeline.ucRefs τ sig) (Vo c) ∗ R c)
  X _ := BI.emp
  Y _ := BI.emp
  Z c := iprop(Pipeline.unscopedRest (Ix := Unit) (Name := ℕ) (U := UR sig nD τ) (Lvl := ℕ) (cfgs p).spec c (rd Vd c) ∗ ∃ r, prngReg c r)
  hentry c := by
    rw [Pipeline.ownSems0_none, hV c]
    have hsplit := Pipeline.arrays_of_unscopedBufs (p := p) (pcfgs (F := F)) adm (pdats m) la.win la.arr_whole c
      ((pdats m p c).share_full (hq c)) (rd Vd c) (hA c)
    rw [Pipeline.unscopedBufs_held] at hsplit
    rw [show (pdats m p c).owesAt () 0 = Pipeline.owesWithin c (0 : CellTallies nD τ sig Unit) ((pdats m p c).bound () 0) from by
      unfold Pipeline.Dat.owesAt; rw [ho c 0]]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, HO⟩; iexists W; isplitr; · ipureintro; exact fun _ _ => Or.inl (hrec c _)
      iexact HO
    isplitr; · iempintro
    isplitl [Hrest]; · iexact Hrest
    iexact Hp
  hin c := by
    iintro ⟨-, -, Hr⟩
    iapply (hΦ₀ c); iexact Hr
  hout c := by
    rw [Pipeline.ownSems0_none]
    iintro H
    ihave Hr := (hΦₙ c) $$ H
    isplitr; · iempintro
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m) ((pdats m p c).share_full (hq c))
      (rd Vd c) (rd Vo c) ((pdats m p c).arrAt · (cfgs p).N)
      (fun w => (hO c w).elim id fun hw => ((pdats m p c).arrAt_in w hw _).trans ((hA c w).trans
        (hr c _ fun w' hw' e => by cases la.win.arr_inj e; exact Bool.false_ne_true (hw.symm.trans hw')).symm))
      (fun b hb => hr c b fun w _ e => hb (Finset.mem_image.mpr ⟨w, Finset.mem_univ _, e⟩))
    rw [Pipeline.unscopedBufs_held] at hjoin
    rw [show (pdats m p c).owesAt () (Fin.last _) = Pipeline.owesWithin c (0 : CellTallies nD τ sig Unit) ((pdats m p c).bound () (Fin.last _)) from by
      unfold Pipeline.Dat.owesAt; rw [ho c _]]
    iintro ⟨Ha, HO, -, Hrest, Hp⟩
    imodintro
    isplitl [Ha Hrest]
    · iapply hjoin; isplitl [Ha] <;> iassumption
    isplitl [Hp]; · iexact Hp
    unfold Pipeline.owesWithin
    icases HO with ⟨%W, -, HO⟩; iexists W; iexact HO

theorem X11_main_v55_0 (c : Dev nD) : X11 m c (Proc.devRef .tc main_v55_0) = (dat0 (rd (V10 m)) c).arrAt 2 cfg0.N :=
  Pipeline.withArrays_arr spec0 launch0.win.arr_inj c _ _ 2
theorem X11_main_v55_1 (c : Dev nD) : X11 m c (Proc.devRef .tc main_v55_1) = (dat0 (rd (V10 m)) c).arrAt 3 cfg0.N :=
  Pipeline.withArrays_arr spec0 launch0.win.arr_inj c _ _ 3
theorem X11_main_v55_2 (c : Dev nD) : X11 m c (Proc.devRef .tc main_v55_2) = (dat0 (rd (V10 m)) c).arrAt 4 cfg0.N :=
  Pipeline.withArrays_arr spec0 launch0.win.arr_inj c _ _ 4

def reg0 : RegionSeg (pcfgs (F := F)) adm (pdats m) () defs₀ 𝒱₀ L lv 0 :=
  regOf m launch0 (V10 m) (V10 m) (V11 m (outs m)) (fun _ => rfl) (body_obligation0 _) (owed0 _) (fun _ _ => trivial) (share0 _) (A_eq0 _)
    (phi0_in _) (phi0_out _)
    (fun c (w : Fin 5) => by
      fin_cases w
      exacts [.inr rfl, .inr rfl,
        .inl ((X11_main_v55_0 m c).symm.trans ((upd₀ main_v55_0 main_v55_1 main_v55_2 (by decide) (by decide)).trans (outs_11 m main_v55_0 c)).symm),
        .inl ((X11_main_v55_1 m c).symm.trans ((upd₁ main_v55_1 main_v55_2 (by decide)).trans (outs_11 m main_v55_1 c)).symm),
        .inl ((X11_main_v55_2 m c).symm.trans ((upd₂ main_v55_2).trans (outs_11 m main_v55_2 c)).symm)])
    fun c b h => (V11_of m _ c b (by
      simp only [List.mem_cons, List.not_mem_nil, _root_.or_false]
      rintro (rfl | rfl | rfl)
      exacts [h (2 : Fin 5) rfl rfl, h (3 : Fin 5) rfl rfl, h (4 : Fin 5) rfl rfl]))

theorem X13_main_v66_0 (c : Dev nD) : X13 m c (Proc.devRef .tc main_v66_0) = (dat1 (rd (V12 m (outsA m))) c).arrAt 6 cfg1.N :=
  Pipeline.withArrays_arr spec1 launch1.win.arr_inj c _ _ 6
theorem X13_main_v66_1 (c : Dev nD) : X13 m c (Proc.devRef .tc main_v66_1) = (dat1 (rd (V12 m (outsA m))) c).arrAt 7 cfg1.N :=
  Pipeline.withArrays_arr spec1 launch1.win.arr_inj c _ _ 7
theorem X13_main_v66_2 (c : Dev nD) : X13 m c (Proc.devRef .tc main_v66_2) = (dat1 (rd (V12 m (outsA m))) c).arrAt 8 cfg1.N :=
  Pipeline.withArrays_arr spec1 launch1.win.arr_inj c _ _ 8

def reg1 : RegionSeg (pcfgs (F := F)) adm (pdats m) () defs₀ 𝒱₀ L lv 1 :=
  regOf m launch1 (V12 m (outs m)) (V12 m (outsA m)) (V13 m (outs m)) (V12_outs m) (body_obligation1 _) (owed1 _) (fun _ _ => trivial) (share1 _) (A_eq1 _)
    (phi1_in _) (phi1_out _)
    (fun c (w : Fin 9) => by
      fin_cases w
      exacts [.inr rfl, .inr rfl, .inr rfl, .inr rfl, .inr rfl, .inr rfl,
        .inl ((X13_main_v66_0 m c).symm.trans ((upd₀ main_v66_0 main_v66_1 main_v66_2 (by decide) (by decide)).trans (outs_13 m main_v66_0 c)).symm),
        .inl ((X13_main_v66_1 m c).symm.trans ((upd₁ main_v66_1 main_v66_2 (by decide)).trans (outs_13 m main_v66_1 c)).symm),
        .inl ((X13_main_v66_2 m c).symm.trans ((upd₂ main_v66_2).trans (outs_13 m main_v66_2 c)).symm)])
    fun c b h => (V13_of m _ c b (by
      simp only [List.mem_cons, List.not_mem_nil, _root_.or_false]
      rintro (rfl | rfl | rfl)
      exacts [h (6 : Fin 9) rfl rfl, h (7 : Fin 9) rfl rfl, h (8 : Fin 9) rfl rfl])).trans (congrFun (V12_outs m c) _)

theorem X15_main_v77 (c : Dev nD) : X15 m c (Proc.devRef .tc main_v77) = (dat2 (rd (V14 m (outsB m))) c).arrAt 5 cfg2.N :=
  Pipeline.withArrays_arr spec2 launch2.win.arr_inj c _ _ 5

def reg2 : RegionSeg (pcfgs (F := F)) adm (pdats m) () defs₀ 𝒱₀ L lv 2 :=
  regOf m launch2 (V14 m (outs m)) (V14 m (outsB m)) (V15 m (outs m)) (V14_outs m) (body_obligation2 _) (owed2 _) (fun _ _ => trivial) (share2 _) (A_eq2 _)
    (phi2_in _) (phi2_out _)
    (fun c (w : Fin 6) => by
      fin_cases w
      exacts [.inr rfl, .inr rfl, .inr rfl, .inr rfl, .inr rfl,
        .inl ((X15_main_v77 m c).symm.trans ((upd₂ main_v77).trans (outs_15 m main_v77 c)).symm)])
    fun c b h => (V15_of m _ c b (by
      simp only [List.mem_cons, List.not_mem_nil, _root_.or_false]
      rintro (rfl)
      exacts [h (5 : Fin 6) rfl rfl])).trans (congrFun (V14_outs m c) _)

theorem X26_main_v130_0 (c : Dev nD) : X26 m c (Proc.devRef .tc main_v130_0) = (dat3 (rd (V25 m (outsC m))) c).arrAt 2 cfg3.N :=
  Pipeline.withArrays_arr spec3 launch3.win.arr_inj c _ _ 2
theorem X26_main_v130_1 (c : Dev nD) : X26 m c (Proc.devRef .tc main_v130_1) = (dat3 (rd (V25 m (outsC m))) c).arrAt 3 cfg3.N :=
  Pipeline.withArrays_arr spec3 launch3.win.arr_inj c _ _ 3
theorem X26_main_v130_2 (c : Dev nD) : X26 m c (Proc.devRef .tc main_v130_2) = (dat3 (rd (V25 m (outsC m))) c).arrAt 4 cfg3.N :=
  Pipeline.withArrays_arr spec3 launch3.win.arr_inj c _ _ 4

def reg3 : RegionSeg (pcfgs (F := F)) adm (pdats m) () defs₀ 𝒱₀ L lv 3 :=
  regOf m launch3 (V25 m (outs m)) (V25 m (outsC m)) (V26 m (outs m)) (V25_outs m) (body_obligation3 _) (owed3 _) (fun _ _ => trivial) (share3 _) (A_eq3 _)
    (phi3_in _) (phi3_out _)
    (fun c (w : Fin 5) => by
      fin_cases w
      exacts [.inr rfl, .inr rfl,
        .inl ((X26_main_v130_0 m c).symm.trans ((upd₀ main_v130_0 main_v130_1 main_v130_2 (by decide) (by decide)).trans (outs_26 m main_v130_0 c)).symm),
        .inl ((X26_main_v130_1 m c).symm.trans ((upd₁ main_v130_1 main_v130_2 (by decide)).trans (outs_26 m main_v130_1 c)).symm),
        .inl ((X26_main_v130_2 m c).symm.trans ((upd₂ main_v130_2).trans (outs_26 m main_v130_2 c)).symm)])
    fun c b h => (V26_of m _ c b (by
      simp only [List.mem_cons, List.not_mem_nil, _root_.or_false]
      rintro (rfl | rfl | rfl)
      exacts [h (2 : Fin 5) rfl rfl, h (3 : Fin 5) rfl rfl, h (4 : Fin 5) rfl rfl])).trans (congrFun (V25_outs m c) _)

theorem X28_main_v141_0 (c : Dev nD) : X28 m c (Proc.devRef .tc main_v141_0) = (dat4 (rd (V27 m (outsD m))) c).arrAt 6 cfg4.N :=
  Pipeline.withArrays_arr spec4 launch4.win.arr_inj c _ _ 6
theorem X28_main_v141_1 (c : Dev nD) : X28 m c (Proc.devRef .tc main_v141_1) = (dat4 (rd (V27 m (outsD m))) c).arrAt 7 cfg4.N :=
  Pipeline.withArrays_arr spec4 launch4.win.arr_inj c _ _ 7
theorem X28_main_v141_2 (c : Dev nD) : X28 m c (Proc.devRef .tc main_v141_2) = (dat4 (rd (V27 m (outsD m))) c).arrAt 8 cfg4.N :=
  Pipeline.withArrays_arr spec4 launch4.win.arr_inj c _ _ 8

def reg4 : RegionSeg (pcfgs (F := F)) adm (pdats m) () defs₀ 𝒱₀ L lv 4 :=
  regOf m launch4 (V27 m (outs m)) (V27 m (outsD m)) (V28 m (outs m)) (V27_outs m) (body_obligation4 _) (owed4 _) (fun _ _ => trivial) (share4 _) (A_eq4 _)
    (phi4_in _) (phi4_out _)
    (fun c (w : Fin 9) => by
      fin_cases w
      exacts [.inr rfl, .inr rfl, .inr rfl, .inr rfl, .inr rfl, .inr rfl,
        .inl ((X28_main_v141_0 m c).symm.trans ((upd₀ main_v141_0 main_v141_1 main_v141_2 (by decide) (by decide)).trans (outs_28 m main_v141_0 c)).symm),
        .inl ((X28_main_v141_1 m c).symm.trans ((upd₁ main_v141_1 main_v141_2 (by decide)).trans (outs_28 m main_v141_1 c)).symm),
        .inl ((X28_main_v141_2 m c).symm.trans ((upd₂ main_v141_2).trans (outs_28 m main_v141_2 c)).symm)])
    fun c b h => (V28_of m _ c b (by
      simp only [List.mem_cons, List.not_mem_nil, _root_.or_false]
      rintro (rfl | rfl | rfl)
      exacts [h (6 : Fin 9) rfl rfl, h (7 : Fin 9) rfl rfl, h (8 : Fin 9) rfl rfl])).trans (congrFun (V27_outs m c) _)

theorem X30_main_v152 (c : Dev nD) : X30 m c (Proc.devRef .tc main_v152) = (dat5 (rd (V29 m (outsE m))) c).arrAt 5 cfg5.N :=
  Pipeline.withArrays_arr spec5 launch5.win.arr_inj c _ _ 5

def reg5 : RegionSeg (pcfgs (F := F)) adm (pdats m) () defs₀ 𝒱₀ L lv 5 :=
  regOf m launch5 (V29 m (outs m)) (V29 m (outsE m)) (V30 m (outs m)) (V29_outs m) (body_obligation5 _) (owed5 _) (fun _ _ => trivial) (share5 _) (A_eq5 _)
    (phi5_in _) (phi5_out _)
    (fun c (w : Fin 6) => by
      fin_cases w
      exacts [.inr rfl, .inr rfl, .inr rfl, .inr rfl, .inr rfl,
        .inl ((X30_main_v152 m c).symm.trans ((upd₂ main_v152).trans (outs_30 m main_v152 c)).symm)])
    fun c b h => (V30_of m _ c b (by
      simp only [List.mem_cons, List.not_mem_nil, _root_.or_false]
      rintro (rfl)
      exacts [h (5 : Fin 6) rfl rfl])).trans (congrFun (V29_outs m c) _)

end Cert.Kernel.Hand

end
-- ==== Proof.KbRun.lean ====
import proofs.«157081_j85761906966880_1_alg».proof.Proof.KbReg

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V31 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m) (reg5 m))
    (fun c Q => by
      rewrite [main_chain c, Seg.run_eq_chain,
        show (segs m (outs m) 𝒱₀ L lv (fun _ c => R c) () (pdats m) (reg0 m) (reg1 m) (reg2 m) (reg3 m) (reg4 m) (reg5 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          StableHlo.seq hostOps3_7,
          StableHlo.seq hostOps3_8,
          StableHlo.seq hostOps3_9,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V31 m (outs m) c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl,
      last_chain m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V31 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V31 m (outs m) c) s')
      isplitl [Hh] <;> iassumption)
    (hQ := fun s h => h)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (V31_main_arg0 m _ c),
     (h c _ (mem_uc main_arg1 (by decide))).trans (V31_main_arg1 m _ c),
     (h c _ (mem_uc main_arg2 (by decide))).trans (V31_main_arg2 m _ c),
     (h c _ (mem_uc main_arg3 (by decide))).trans (V31_main_arg3 m _ c),
     (h c _ (mem_uc main_arg4 (by decide))).trans (V31_main_arg4 m _ c),
     (h c _ (mem_uc main_arg5 (by decide))).trans (V31_main_arg5 m _ c),
     (h c _ (mem_uc main_arg6 (by decide))).trans (V31_main_arg6 m _ c),
     (h c _ (mem_uc main_arg7 (by decide))).trans (V31_main_arg7 m _ c),
     (h c _ (mem_uc main_arg8 (by decide))).trans (V31_main_arg8 m _ c),
     (h c _ (mem_uc main_arg9 (by decide))).trans (V31_main_arg9 m _ c),
     (h c _ (mem_uc main_arg10 (by decide))).trans (V31_main_arg10 m _ c),
     (h c _ (mem_uc main_arg11 (by decide))).trans (V31_main_arg11 m _ c),
     (h c _ (mem_uc main_arg12 (by decide))).trans (V31_main_arg12 m _ c),
     (h c _ (mem_uc main_arg13 (by decide))).trans (V31_main_arg13 m _ c),
     (h c _ (mem_uc main_arg14 (by decide))).trans (V31_main_arg14 m _ c),
     (h c _ (mem_uc main_arg15 (by decide))).trans (V31_main_arg15 m _ c),
     (h c _ (mem_uc main_arg16 (by decide))).trans (V31_main_arg16 m _ c)⟩)
    (run_all m ρ)

end Cert.Kernel.Hand

end
-- ==== Proof.KiR0.lean ====
import proofs.«157081_j85761906966880_1_alg».proof.Proof.Gen.KernelIdeal.Launch
import proofs.«157081_j85761906966880_1_alg».proof.Proof.Gen.KernelIdeal.Skeleton
import proofs.«157081_j85761906966880_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Ring
import Idealize.ShloMosaic.Lib.Tactic

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev r0_condFirst (i : grid0.Coords) : Prop :=
  (Scalar.cmpi .ne (Scalar.extui (Scalar.cmpi .eq (BitVec.ofNat 32 (i 0).val) 0#32)) 0#32) = 1#1
theorem r0_hFirst : ∀ t : Fin cfg0.N, r0_condFirst (grid0.coords t) ↔ t.val % 16 = 0 :=
  (by decide +kernel : ∀ t : Fin grid0.N, r0_condFirst (grid0.coords t) ↔ t.val % 16 = 0)

abbrev r0_condLast (i : grid0.Coords) : Prop := k0_cond2 i = 1#1
theorem r0_hLast : ∀ t : Fin cfg0.N, r0_condLast (grid0.coords t) ↔ t.val % 16 = 15 :=
  (by decide +kernel : ∀ t : Fin grid0.N, r0_condLast (grid0.coords t) ↔ t.val % 16 = 15)

theorem r0_live0 : ∀ t : Fin cfg0.N, cfg0.idle 0 (grid0.coords t) = false := by decide +kernel
theorem r0_live1 : ∀ t : Fin cfg0.N, cfg0.idle 1 (grid0.coords t) = false := by decide +kernel
theorem r0_live2 : ∀ t : Fin cfg0.N, cfg0.idle 2 (grid0.coords t) = false := by decide +kernel
theorem r0_idle3 : ∀ t : Fin cfg0.N, ¬r0_condLast (grid0.coords t) → cfg0.idle 3 (grid0.coords t) = true := by decide +kernel
theorem r0_idle4 : ∀ t : Fin cfg0.N, ¬r0_condLast (grid0.coords t) → cfg0.idle 4 (grid0.coords t) = true := by decide +kernel
theorem r0_noFlush3 : ∀ t : Fin cfg0.N, ¬r0_condLast (grid0.coords t) → (cfg0.win 3).flush t = false := by decide +kernel
theorem r0_noFlush4 : ∀ t : Fin cfg0.N, ¬r0_condLast (grid0.coords t) → (cfg0.win 4).flush t = false := by decide +kernel
theorem r0_live3 : ∀ t : Fin cfg0.N, r0_condLast (grid0.coords t) → cfg0.idle 3 (grid0.coords t) = false := by decide +kernel
theorem r0_live4 : ∀ t : Fin cfg0.N, r0_condLast (grid0.coords t) → cfg0.idle 4 (grid0.coords t) = false := by decide +kernel

section
variable (c : Dev nD) (i : grid0.Coords) (arg1 : Memref sig .tc .vmem S512x16x67 .f32) (harg1 : arg1.IsWhole) (arg2 : Memref sig .tc .vmem S67x128 .f32) (harg2 : arg2.IsWhole) (arg3 : Memref sig .tc .vmem S512x16x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2x128 .f32) (harg6 : arg6.IsWhole)
set_option maxHeartbeats 1000000 in
noncomputable def r0_runA (hc0 : r0_condFirst i) (hc1 : ¬r0_condLast i) (x0 : Vec F S512x16x67 .f32) (x1 : Vec F S67x128 .f32) :
    Σ' (L2 : List (View.Piece (Elt F) S512x16x128 .f32)), { LS : List (View.Piece (Elt F) S2x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg1 harg1 arg2 harg2 arg3 harg3 arg4 harg4 arg5 harg5 arg6 harg6) K } := by
  refine ⟨?_, ?_, fun xi3 xi4 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, H3, H4, ⟨%ds, %fs, -, HS⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexact H3
    isplitl [H4]; · iexact H4
    iexists _; iexact HS

set_option maxHeartbeats 1000000 in
noncomputable def r0_runB (hc0 : ¬r0_condFirst i) (hc1 : ¬r0_condLast i) (x0 : Vec F S512x16x67 .f32) (x1 : Vec F S67x128 .f32) (xs : Vec F S2x128 .f32) :
    Σ' (L2 : List (View.Piece (Elt F) S512x16x128 .f32)), { LS : List (View.Piece (Elt F) S2x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ owns (c : Thread nD τ) arg5 fullShare xi4 ∗ owns (c : Thread nD τ) arg6 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg1 harg1 arg2 harg2 arg3 harg3 arg4 harg4 arg5 harg5 arg6 harg6) K } := by
  refine ⟨?_, ?_, fun xi3 xi4 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, H3, H4, ⟨%fs, %hfs, HS⟩, Hk⟩
    obtain rfl := harg1.eq_unread hf0; obtain rfl := harg2.eq_unread hf1; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexact H3
    isplitl [H4]; · iexact H4
    iexists _; iexact HS

set_option maxHeartbeats 1000000 in
noncomputable def r0_runC (hc0 : ¬r0_condFirst i) (hc1 : r0_condLast i) (x0 : Vec F S512x16x67 .f32) (x1 : Vec F S67x128 .f32) (xs : Vec F S2x128 .f32) :
    Σ' (L2 : List (View.Piece (Elt F) S512x16x128 .f32)) (L3 : List (View.Piece (Elt F) S1x128 .f32)) (L4 : List (View.Piece (Elt F) S1x128 .f32)),
      { LS : List (View.Piece (Elt F) S2x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d) ∗ owns (c : Thread nD τ) arg6 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg1 harg1 arg2 harg2 arg3 harg3 arg4 harg4 arg5 harg5 arg6 harg6) K } := by
  refine ⟨?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs, %hfs, HS⟩, Hk⟩
    obtain rfl := harg1.eq_unread hf0; obtain rfl := harg2.eq_unread hf1; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS

abbrev r0_VO2 : View sig .tc .vmem S512x16x128 .f32 := (Memref.whole cc0_stg2_0 : Memref sig .tc .vmem S512x16x128 .f32).view
abbrev r0_VO3 : View sig .tc .vmem S1x128 .f32 := (Memref.whole cc0_stg3_0 : Memref sig .tc .vmem S1x128 .f32).view
abbrev r0_VO4 : View sig .tc .vmem S1x128 .f32 := (Memref.whole cc0_stg4_0 : Memref sig .tc .vmem S1x128 .f32).view
abbrev r0_scM : Memref sig .tc .vmem S2x128 .f32 := Memref.whole cc0_scratch0
abbrev r0_VS : View sig .tc .vmem S2x128 .f32 := r0_scM.view
def r0_unread3 : Vec F S1x128 .f32 := r0_VO3.read (Elt F) r0_VO3.junk
def r0_unread4 : Vec F S1x128 .f32 := r0_VO4.read (Elt F) r0_VO4.junk

section
variable (hc0 : r0_condFirst i) (hc1 : ¬r0_condLast i) (x0 : Vec F S512x16x67 .f32) (x1 : Vec F S67x128 .f32)
include hc0 hc1
theorem r0_cover2_A (y : S512x16x128.Idx) :
    ∃ pc ∈ (r0_runA c i arg1 harg1 arg2 harg2 arg3 harg3 arg4 harg4 arg5 harg5 arg6 harg6 hc0 hc1 x0 x1).1, y ∈ pc.1.set :=
  View.cover_of_tiledL (r0_runA c i arg1 harg1 arg2 harg2 arg3 harg3 arg4 harg4 arg5 harg5 arg6 harg6 hc0 hc1 x0 x1).1 S512x16x128.size (by sl_kernel_rfl) y
def r0_out2_A : Vec F S512x16x128 .f32 :=
  r0_VO2.read (Elt F) (r0_VO2.writes (Elt F) r0_VO2.junk (r0_runA c i arg1 harg1 arg2 harg2 arg3 harg3 arg4 harg4 arg5 harg5 arg6 harg6 hc0 hc1 x0 x1).1)
theorem r0_scover_A (y : S2x128.Idx) :
    ∃ pc ∈ (r0_runA c i arg1 harg1 arg2 harg2 arg3 harg3 arg4 harg4 arg5 harg5 arg6 harg6 hc0 hc1 x0 x1).2.1, y ∈ pc.1.set :=
  View.cover_of_tiledL (r0_runA c i arg1 harg1 arg2 harg2 arg3 harg3 arg4 harg4 arg5 harg5 arg6 harg6 hc0 hc1 x0 x1).2.1 S1x128.size (by sl_kernel_rfl) y
def r0_sout_A : Vec F S2x128 .f32 :=
  r0_VS.read (Elt F) (r0_VS.writes (Elt F) r0_VS.junk (r0_runA c i arg1 harg1 arg2 harg2 arg3 harg3 arg4 harg4 arg5 harg5 arg6 harg6 hc0 hc1 x0 x1).2.1)

end
section
variable (hc0 : ¬r0_condFirst i) (hc1 : ¬r0_condLast i) (x0 : Vec F S512x16x67 .f32) (x1 : Vec F S67x128 .f32) (xs : Vec F S2x128 .f32)
include hc0 hc1
theorem r0_cover2_B (y : S512x16x128.Idx) :
    ∃ pc ∈ (r0_runB c i arg1 harg1 arg2 harg2 arg3 harg3 arg4 harg4 arg5 harg5 arg6 harg6 hc0 hc1 x0 x1 xs).1, y ∈ pc.1.set :=
  View.cover_of_tiledL (r0_runB c i arg1 harg1 arg2 harg2 arg3 harg3 arg4 harg4 arg5 harg5 arg6 harg6 hc0 hc1 x0 x1 xs).1 S512x16x128.size (by sl_kernel_rfl) y
def r0_out2_B : Vec F S512x16x128 .f32 :=
  r0_VO2.read (Elt F) (r0_VO2.writes (Elt F) r0_VO2.junk (r0_runB c i arg1 harg1 arg2 harg2 arg3 harg3 arg4 harg4 arg5 harg5 arg6 harg6 hc0 hc1 x0 x1 xs).1)
theorem r0_scover_B (y : S2x128.Idx) :
    ∃ pc ∈ (r0_runB c i arg1 harg1 arg2 harg2 arg3 harg3 arg4 harg4 arg5 harg5 arg6 harg6 hc0 hc1 x0 x1 xs).2.1, y ∈ pc.1.set :=
  View.cover_of_tiledL (r0_runB c i arg1 harg1 arg2 harg2 arg3 harg3 arg4 harg4 arg5 harg5 arg6 harg6 hc0 hc1 x0 x1 xs).2.1 S1x128.size (by sl_kernel_rfl) y
def r0_sout_B : Vec F S2x128 .f32 :=
  r0_VS.read (Elt F) (r0_VS.writes (Elt F) r0_VS.junk (r0_runB c i arg1 harg1 arg2 harg2 arg3 harg3 arg4 harg4 arg5 harg5 arg6 harg6 hc0 hc1 x0 x1 xs).2.1)

end
section
variable (hc0 : ¬r0_condFirst i) (hc1 : r0_condLast i) (x0 : Vec F S512x16x67 .f32) (x1 : Vec F S67x128 .f32) (xs : Vec F S2x128 .f32)
include hc0 hc1
theorem r0_cover2_C (y : S512x16x128.Idx) :
    ∃ pc ∈ (r0_runC c i arg1 harg1 arg2 harg2 arg3 harg3 arg4 harg4 arg5 harg5 arg6 harg6 hc0 hc1 x0 x1 xs).1, y ∈ pc.1.set :=
  View.cover_of_tiledL (r0_runC c i arg1 harg1 arg2 harg2 arg3 harg3 arg4 harg4 arg5 harg5 arg6 harg6 hc0 hc1 x0 x1 xs).1 S512x16x128.size (by sl_kernel_rfl) y
def r0_out2_C : Vec F S512x16x128 .f32 :=
  r0_VO2.read (Elt F) (r0_VO2.writes (Elt F) r0_VO2.junk (r0_runC c i arg1 harg1 arg2 harg2 arg3 harg3 arg4 harg4 arg5 harg5 arg6 harg6 hc0 hc1 x0 x1 xs).1)
theorem r0_scover_C (y : S2x128.Idx) :
    ∃ pc ∈ (r0_runC c i arg1 harg1 arg2 harg2 arg3 harg3 arg4 harg4 arg5 harg5 arg6 harg6 hc0 hc1 x0 x1 xs).2.2.2.1, y ∈ pc.1.set :=
  View.cover_of_tiledL (r0_runC c i arg1 harg1 arg2 harg2 arg3 harg3 arg4 harg4 arg5 harg5 arg6 harg6 hc0 hc1 x0 x1 xs).2.2.2.1 S1x128.size (by sl_kernel_rfl) y
def r0_sout_C : Vec F S2x128 .f32 :=
  r0_VS.read (Elt F) (r0_VS.writes (Elt F) r0_VS.junk (r0_runC c i arg1 harg1 arg2 harg2 arg3 harg3 arg4 harg4 arg5 harg5 arg6 harg6 hc0 hc1 x0 x1 xs).2.2.2.1)

theorem r0_cover3_C (y : S1x128.Idx) :
    ∃ pc ∈ (r0_runC c i arg1 harg1 arg2 harg2 arg3 harg3 arg4 harg4 arg5 harg5 arg6 harg6 hc0 hc1 x0 x1 xs).2.1, y ∈ pc.1.set :=
  View.cover_of_tiledL (r0_runC c i arg1 harg1 arg2 harg2 arg3 harg3 arg4 harg4 arg5 harg5 arg6 harg6 hc0 hc1 x0 x1 xs).2.1 S1x128.size (by sl_kernel_rfl) y
def r0_out3_C : Vec F S1x128 .f32 :=
  r0_VO3.read (Elt F) (r0_VO3.writes (Elt F) r0_VO3.junk (r0_runC c i arg1 harg1 arg2 harg2 arg3 harg3 arg4 harg4 arg5 harg5 arg6 harg6 hc0 hc1 x0 x1 xs).2.1)
theorem r0_cover4_C (y : S1x128.Idx) :
    ∃ pc ∈ (r0_runC c i arg1 harg1 arg2 harg2 arg3 harg3 arg4 harg4 arg5 harg5 arg6 harg6 hc0 hc1 x0 x1 xs).2.2.1, y ∈ pc.1.set :=
  View.cover_of_tiledL (r0_runC c i arg1 harg1 arg2 harg2 arg3 harg3 arg4 harg4 arg5 harg5 arg6 harg6 hc0 hc1 x0 x1 xs).2.2.1 S1x128.size (by sl_kernel_rfl) y
def r0_out4_C : Vec F S1x128 .f32 :=
  r0_VO4.read (Elt F) (r0_VO4.writes (Elt F) r0_VO4.junk (r0_runC c i arg1 harg1 arg2 harg2 arg3 harg3 arg4 harg4 arg5 harg5 arg6 harg6 hc0 hc1 x0 x1 xs).2.2.1)
end
end

def r0_blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_ms0 (t : Fin cfg0.N) : Memref sig .tc .vmem S512x16x67 .f32 := win0_0.stage (cfg0.slots t 0)
abbrev r0_hs0 (t : Fin cfg0.N) : (r0_ms0 t).IsWhole := hstage0_0 ((cfg0.slots t 0).cast nbuf0_0)
abbrev r0_ms1 (t : Fin cfg0.N) : Memref sig .tc .vmem S67x128 .f32 := win0_1.stage (cfg0.slots t 1)
abbrev r0_hs1 (t : Fin cfg0.N) : (r0_ms1 t).IsWhole := hstage0_1 ((cfg0.slots t 1).cast nbuf0_1)
abbrev r0_ms2 (t : Fin cfg0.N) : Memref sig .tc .vmem S512x16x128 .f32 := win0_2.stage (cfg0.slots t 2)
abbrev r0_hs2 (t : Fin cfg0.N) : (r0_ms2 t).IsWhole := hstage0_2 ((cfg0.slots t 2).cast nbuf0_2)
abbrev r0_ms3 (t : Fin cfg0.N) : Memref sig .tc .vmem S1x128 .f32 := win0_3.stage (cfg0.slots t 3)
abbrev r0_hs3 (t : Fin cfg0.N) : (r0_ms3 t).IsWhole := hstage0_3 ((cfg0.slots t 3).cast nbuf0_3)
abbrev r0_ms4 (t : Fin cfg0.N) : Memref sig .tc .vmem S1x128 .f32 := win0_4.stage (cfg0.slots t 4)
abbrev r0_hs4 (t : Fin cfg0.N) : (r0_ms4 t).IsWhole := hstage0_4 ((cfg0.slots t 4).cast nbuf0_4)

def r0_outsAt (c : Dev nD) : (n : ℕ) → n < cfg0.N → Vec F S512x16x128 .f32 × Vec F S1x128 .f32 × Vec F S1x128 .f32 × Vec F S2x128 .f32
  | 0, hn =>
    (r0_out2_A c (grid0.coords ⟨0, hn⟩) (r0_ms0 ⟨0, hn⟩) (r0_hs0 ⟨0, hn⟩) (r0_ms1 ⟨0, hn⟩) (r0_hs1 ⟨0, hn⟩) (r0_ms2 ⟨0, hn⟩) (r0_hs2 ⟨0, hn⟩) (r0_ms3 ⟨0, hn⟩) (r0_hs3 ⟨0, hn⟩) (r0_ms4 ⟨0, hn⟩) (r0_hs4 ⟨0, hn⟩) r0_scM (Memref.isWhole_whole _) ((r0_hFirst ⟨0, hn⟩).mpr (Nat.zero_mod _)) (fun h => (fun h => by (try dsimp only at h); omega) ((r0_hLast ⟨0, hn⟩).mp h)) (r0_blk V c 0 ⟨0, hn⟩) (r0_blk V c 1 ⟨0, hn⟩),
     r0_unread3, r0_unread4,
     r0_sout_A c (grid0.coords ⟨0, hn⟩) (r0_ms0 ⟨0, hn⟩) (r0_hs0 ⟨0, hn⟩) (r0_ms1 ⟨0, hn⟩) (r0_hs1 ⟨0, hn⟩) (r0_ms2 ⟨0, hn⟩) (r0_hs2 ⟨0, hn⟩) (r0_ms3 ⟨0, hn⟩) (r0_hs3 ⟨0, hn⟩) (r0_ms4 ⟨0, hn⟩) (r0_hs4 ⟨0, hn⟩) r0_scM (Memref.isWhole_whole _) ((r0_hFirst ⟨0, hn⟩).mpr (Nat.zero_mod _)) (fun h => (fun h => by (try dsimp only at h); omega) ((r0_hLast ⟨0, hn⟩).mp h)) (r0_blk V c 0 ⟨0, hn⟩) (r0_blk V c 1 ⟨0, hn⟩))
  | n + 1, hn =>
    if h1 : (n + 1) % 16 = 15 then
      (r0_out2_C c (grid0.coords ⟨n + 1, hn⟩) (r0_ms0 ⟨n + 1, hn⟩) (r0_hs0 ⟨n + 1, hn⟩) (r0_ms1 ⟨n + 1, hn⟩) (r0_hs1 ⟨n + 1, hn⟩) (r0_ms2 ⟨n + 1, hn⟩) (r0_hs2 ⟨n + 1, hn⟩) (r0_ms3 ⟨n + 1, hn⟩) (r0_hs3 ⟨n + 1, hn⟩) (r0_ms4 ⟨n + 1, hn⟩) (r0_hs4 ⟨n + 1, hn⟩) r0_scM (Memref.isWhole_whole _) (fun h => (fun h' => by have hN : n + 1 < 16 := lt_of_lt_of_eq hn (show cfg0.N = 16 from N_0); (try dsimp only at h'); omega) ((r0_hFirst ⟨n + 1, hn⟩).mp h)) ((r0_hLast ⟨n + 1, hn⟩).mpr h1) (r0_blk V c 0 ⟨n + 1, hn⟩) (r0_blk V c 1 ⟨n + 1, hn⟩) (r0_outsAt c n (Nat.lt_of_succ_lt hn)).2.2.2,
       r0_out3_C c (grid0.coords ⟨n + 1, hn⟩) (r0_ms0 ⟨n + 1, hn⟩) (r0_hs0 ⟨n + 1, hn⟩) (r0_ms1 ⟨n + 1, hn⟩) (r0_hs1 ⟨n + 1, hn⟩) (r0_ms2 ⟨n + 1, hn⟩) (r0_hs2 ⟨n + 1, hn⟩) (r0_ms3 ⟨n + 1, hn⟩) (r0_hs3 ⟨n + 1, hn⟩) (r0_ms4 ⟨n + 1, hn⟩) (r0_hs4 ⟨n + 1, hn⟩) r0_scM (Memref.isWhole_whole _) (fun h => (fun h' => by have hN : n + 1 < 16 := lt_of_lt_of_eq hn (show cfg0.N = 16 from N_0); (try dsimp only at h'); omega) ((r0_hFirst ⟨n + 1, hn⟩).mp h)) ((r0_hLast ⟨n + 1, hn⟩).mpr h1) (r0_blk V c 0 ⟨n + 1, hn⟩) (r0_blk V c 1 ⟨n + 1, hn⟩) (r0_outsAt c n (Nat.lt_of_succ_lt hn)).2.2.2,
       r0_out4_C c (grid0.coords ⟨n + 1, hn⟩) (r0_ms0 ⟨n + 1, hn⟩) (r0_hs0 ⟨n + 1, hn⟩) (r0_ms1 ⟨n + 1, hn⟩) (r0_hs1 ⟨n + 1, hn⟩) (r0_ms2 ⟨n + 1, hn⟩) (r0_hs2 ⟨n + 1, hn⟩) (r0_ms3 ⟨n + 1, hn⟩) (r0_hs3 ⟨n + 1, hn⟩) (r0_ms4 ⟨n + 1, hn⟩) (r0_hs4 ⟨n + 1, hn⟩) r0_scM (Memref.isWhole_whole _) (fun h => (fun h' => by have hN : n + 1 < 16 := lt_of_lt_of_eq hn (show cfg0.N = 16 from N_0); (try dsimp only at h'); omega) ((r0_hFirst ⟨n + 1, hn⟩).mp h)) ((r0_hLast ⟨n + 1, hn⟩).mpr h1) (r0_blk V c 0 ⟨n + 1, hn⟩) (r0_blk V c 1 ⟨n + 1, hn⟩) (r0_outsAt c n (Nat.lt_of_succ_lt hn)).2.2.2,
       r0_sout_C c (grid0.coords ⟨n + 1, hn⟩) (r0_ms0 ⟨n + 1, hn⟩) (r0_hs0 ⟨n + 1, hn⟩) (r0_ms1 ⟨n + 1, hn⟩) (r0_hs1 ⟨n + 1, hn⟩) (r0_ms2 ⟨n + 1, hn⟩) (r0_hs2 ⟨n + 1, hn⟩) (r0_ms3 ⟨n + 1, hn⟩) (r0_hs3 ⟨n + 1, hn⟩) (r0_ms4 ⟨n + 1, hn⟩) (r0_hs4 ⟨n + 1, hn⟩) r0_scM (Memref.isWhole_whole _) (fun h => (fun h' => by have hN : n + 1 < 16 := lt_of_lt_of_eq hn (show cfg0.N = 16 from N_0); (try dsimp only at h'); omega) ((r0_hFirst ⟨n + 1, hn⟩).mp h)) ((r0_hLast ⟨n + 1, hn⟩).mpr h1) (r0_blk V c 0 ⟨n + 1, hn⟩) (r0_blk V c 1 ⟨n + 1, hn⟩) (r0_outsAt c n (Nat.lt_of_succ_lt hn)).2.2.2)
    else
      (r0_out2_B c (grid0.coords ⟨n + 1, hn⟩) (r0_ms0 ⟨n + 1, hn⟩) (r0_hs0 ⟨n + 1, hn⟩) (r0_ms1 ⟨n + 1, hn⟩) (r0_hs1 ⟨n + 1, hn⟩) (r0_ms2 ⟨n + 1, hn⟩) (r0_hs2 ⟨n + 1, hn⟩) (r0_ms3 ⟨n + 1, hn⟩) (r0_hs3 ⟨n + 1, hn⟩) (r0_ms4 ⟨n + 1, hn⟩) (r0_hs4 ⟨n + 1, hn⟩) r0_scM (Memref.isWhole_whole _) (fun h => (fun h' => by have hN : n + 1 < 16 := lt_of_lt_of_eq hn (show cfg0.N = 16 from N_0); (try dsimp only at h'); omega) ((r0_hFirst ⟨n + 1, hn⟩).mp h)) (fun h => h1 ((r0_hLast ⟨n + 1, hn⟩).mp h)) (r0_blk V c 0 ⟨n + 1, hn⟩) (r0_blk V c 1 ⟨n + 1, hn⟩) (r0_outsAt c n (Nat.lt_of_succ_lt hn)).2.2.2,
       r0_unread3, r0_unread4,
       r0_sout_B c (grid0.coords ⟨n + 1, hn⟩) (r0_ms0 ⟨n + 1, hn⟩) (r0_hs0 ⟨n + 1, hn⟩) (r0_ms1 ⟨n + 1, hn⟩) (r0_hs1 ⟨n + 1, hn⟩) (r0_ms2 ⟨n + 1, hn⟩) (r0_hs2 ⟨n + 1, hn⟩) (r0_ms3 ⟨n + 1, hn⟩) (r0_hs3 ⟨n + 1, hn⟩) (r0_ms4 ⟨n + 1, hn⟩) (r0_hs4 ⟨n + 1, hn⟩) r0_scM (Memref.isWhole_whole _) (fun h => (fun h' => by have hN : n + 1 < 16 := lt_of_lt_of_eq hn (show cfg0.N = 16 from N_0); (try dsimp only at h'); omega) ((r0_hFirst ⟨n + 1, hn⟩).mp h)) (fun h => h1 ((r0_hLast ⟨n + 1, hn⟩).mp h)) (r0_blk V c 0 ⟨n + 1, hn⟩) (r0_blk V c 1 ⟨n + 1, hn⟩) (r0_outsAt c n (Nat.lt_of_succ_lt hn)).2.2.2)

theorem r0_outsAt_A (c : Dev nD) (t : Fin cfg0.N) (h0 : t.val % 16 = 0) (h1 : ¬t.val % 16 = 15) :
    r0_outsAt V c t.val t.isLt =
      (r0_out2_A c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) ((r0_hFirst t).mpr h0) (fun h => h1 ((r0_hLast t).mp h)) (r0_blk V c 0 t) (r0_blk V c 1 t),
       r0_unread3, r0_unread4,
       r0_sout_A c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) ((r0_hFirst t).mpr h0) (fun h => h1 ((r0_hLast t).mp h)) (r0_blk V c 0 t) (r0_blk V c 1 t)) := by
  obtain ⟨n, hn⟩ := t
  cases n with
  | zero => exact rfl
  | succ n => exact (by exfalso; have hN : n + 1 < 16 := lt_of_lt_of_eq hn (show cfg0.N = 16 from N_0); (try dsimp only at h0); omega)

theorem r0_outsAt_B (c : Dev nD) (t : Fin cfg0.N) (h0 : ¬t.val % 16 = 0) (h1 : ¬t.val % 16 = 15) :
    r0_outsAt V c t.val t.isLt =
      (r0_out2_B c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) (fun h => h1 ((r0_hLast t).mp h)) (r0_blk V c 0 t) (r0_blk V c 1 t) (r0_outsAt V c (t.val - 1) (Nat.lt_of_le_of_lt (Nat.sub_le _ _) t.isLt)).2.2.2,
       r0_unread3, r0_unread4,
       r0_sout_B c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) (fun h => h1 ((r0_hLast t).mp h)) (r0_blk V c 0 t) (r0_blk V c 1 t) (r0_outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

theorem r0_outsAt_C (c : Dev nD) (t : Fin cfg0.N) (h0 : ¬t.val % 16 = 0) (h1 : t.val % 16 = 15) :
    r0_outsAt V c t.val t.isLt =
      (r0_out2_C c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) ((r0_hLast t).mpr h1) (r0_blk V c 0 t) (r0_blk V c 1 t) (r0_outsAt V c (t.val - 1) (Nat.lt_of_le_of_lt (Nat.sub_le _ _) t.isLt)).2.2.2,
       r0_out3_C c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) ((r0_hLast t).mpr h1) (r0_blk V c 0 t) (r0_blk V c 1 t) (r0_outsAt V c (t.val - 1) (Nat.lt_of_le_of_lt (Nat.sub_le _ _) t.isLt)).2.2.2,
       r0_out4_C c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) ((r0_hLast t).mpr h1) (r0_blk V c 0 t) (r0_blk V c 1 t) (r0_outsAt V c (t.val - 1) (Nat.lt_of_le_of_lt (Nat.sub_le _ _) t.isLt)).2.2.2,
       r0_sout_C c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) ((r0_hLast t).mpr h1) (r0_blk V c 0 t) (r0_blk V c 1 t) (r0_outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

def r0_Phi (c : Dev nD) : (n : ℕ) → n ≤ cfg0.N → sProp 𝕄
  | 0, _ => iprop((∃ d, owns (c : Thread nD τ) r0_scM fullShare d)
      ∗ Pipeline.scopedRestBut (Ix := Unit) (Name := ℕ) (U := UR sig nD τ) (Lvl := ℕ) (Val := Elt F) spec0 c [cc0_scratch0])
  | n + 1, hn => iprop(owns (c : Thread nD τ) r0_scM fullShare ((r0_outsAt V c n hn).2.2.2)
      ∗ Pipeline.scopedRestBut (Ix := Unit) (Name := ℕ) (U := UR sig nD τ) (Lvl := ℕ) (Val := Elt F) spec0 c [cc0_scratch0])

theorem r0_Phi_zero (c : Dev nD) (n : ℕ) (h : n ≤ cfg0.N) (hz : n = 0) :
    r0_Phi V c n h = iprop((∃ d, owns (c : Thread nD τ) r0_scM fullShare d)
      ∗ Pipeline.scopedRestBut (Ix := Unit) (Name := ℕ) (U := UR sig nD τ) (Lvl := ℕ) (Val := Elt F) spec0 c [cc0_scratch0]) := by
  subst hz; rfl

theorem r0_Phi_succ (c : Dev nD) (n : ℕ) (hn : n < cfg0.N) :
    r0_Phi V c (n + 1) hn = iprop(owns (c : Thread nD τ) r0_scM fullShare ((r0_outsAt V c n hn).2.2.2)
      ∗ Pipeline.scopedRestBut (Ix := Unit) (Name := ℕ) (U := UR sig nD τ) (Lvl := ℕ) (Val := Elt F) spec0 c [cc0_scratch0]) := rfl

theorem r0_Phi_pos (c : Dev nD) (n : ℕ) (h : n ≤ cfg0.N) (hz : n ≠ 0) :
    r0_Phi V c n h = iprop(owns (c : Thread nD τ) r0_scM fullShare ((r0_outsAt V c (n - 1) (by omega)).2.2.2)
      ∗ Pipeline.scopedRestBut (Ix := Unit) (Name := ℕ) (U := UR sig nD τ) (Lvl := ℕ) (Val := Elt F) spec0 c [cc0_scratch0]) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => r0_blk V c 0 t
    | ⟨1, _⟩ => r0_blk V c 1 t
    | ⟨2, _⟩ => (r0_outsAt V c t.val t.isLt).1
    | ⟨3, _⟩ => (r0_outsAt V c t.val t.isLt).2.1
    | ⟨4, _⟩ => (r0_outsAt V c t.val t.isLt).2.2.1
  Φ t := r0_Phi V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem owed0 (c : Dev nD) (t) : (dat0 V c).owed t = 0 := rfl
theorem share0 (c : Dev nD) (w) : (dat0 V c).q w = fullShare := rfl

theorem r0_Phi_castSucc (c : Dev nD) (t : Fin cfg0.N) :
    (dat0 V c).Φ t.castSucc = r0_Phi V c t.val (Nat.le_of_lt t.isLt) := by
  dsimp only [dat0]; simp only [Fin.coe_castSucc]

theorem r0_after0 (c : Dev nD) (t : Fin cfg0.N) : (dat0 V c).after 0 t = r0_blk V c 0 t := by dsimp only [dat0]
theorem r0_after1 (c : Dev nD) (t : Fin cfg0.N) : (dat0 V c).after 1 t = r0_blk V c 1 t := by dsimp only [dat0]
theorem r0_after2 (c : Dev nD) (t : Fin cfg0.N) : (dat0 V c).after 2 t = (r0_outsAt V c t.val t.isLt).1 := by dsimp only [dat0]
theorem r0_after3 (c : Dev nD) (t : Fin cfg0.N) : (dat0 V c).after 3 t = (r0_outsAt V c t.val t.isLt).2.1 := by dsimp only [dat0]
theorem r0_after4 (c : Dev nD) (t : Fin cfg0.N) : (dat0 V c).after 4 t = (r0_outsAt V c t.val t.isLt).2.2.1 := by dsimp only [dat0]

theorem r0_before0 (c : Dev nD) (t : Fin cfg0.N) (d) : (dat0 V c).before 0 t d = r0_blk V c 0 t :=
  ((dat0 V c).before_in_eq_fetched 0 rfl (fun _ => rfl) (fun _ _ _ => rfl)
    (fun t => by rw [r0_after0]; unfold Dat.blockOf r0_blk; rw [A_eq0]; try rfl) t d).trans
    (by unfold Dat.fetched Dat.blockOf r0_blk; rw [A_eq0]; try rfl)
theorem r0_before1 (c : Dev nD) (t : Fin cfg0.N) (d) : (dat0 V c).before 1 t d = r0_blk V c 1 t :=
  ((dat0 V c).before_in_eq_fetched 1 rfl (fun _ => rfl) (fun _ _ _ => rfl)
    (fun t => by rw [r0_after1]; unfold Dat.blockOf r0_blk; rw [A_eq0]; try rfl) t d).trans
    (by unfold Dat.fetched Dat.blockOf r0_blk; rw [A_eq0]; try rfl)

def r0_bodyPre (c : Dev nD) (t : Fin cfg0.N) : sProp 𝕄 :=
  iprop((dat0 V c).Φ t.castSucc ∗ (dat0 V c).owesAt () t.castSucc
    ∗ (∃ d, owns (c : Thread nD τ) (r0_ms0 t) fullShare ((dat0 V c).before 0 t d))
    ∗ (∃ d, owns (c : Thread nD τ) (r0_ms1 t) fullShare ((dat0 V c).before 1 t d))
    ∗ (∃ d, owns (c : Thread nD τ) (r0_ms2 t) fullShare ((dat0 V c).before 2 t d))
    ∗ (∃ d, owns (c : Thread nD τ) (r0_ms3 t) fullShare ((dat0 V c).before 3 t d))
    ∗ (∃ d, owns (c : Thread nD τ) (r0_ms4 t) fullShare ((dat0 V c).before 4 t d)))

def r0_bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
theorem r0_sound_body (c : Dev nD) (t : Fin cfg0.N) :
    r0_bodyPre V c t ⊢ wp frame (wpE (defs₀ (F := F)) Variants.none c none) Set.univ (bodyAt0 t) (fun _ => r0_bodyPost V c t) := by
  unfold r0_bodyPre r0_bodyPost bodyAt0
  simp only [r0_before0, r0_before1]
  rw [show (dat0 V c).owesAt () t.succ = (dat0 V c).owesAt () t.castSucc from rfl]
  rw [show (dat0 V c).Φ t.succ = r0_Phi V c (t.val + 1) t.isLt from rfl, r0_Phi_succ]
  have hN : t.val < 16 := lt_of_lt_of_eq t.isLt (show cfg0.N = 16 from N_0)
  rw [show (dat0 V c).leavesExact 0 t = owns (c : Thread nD τ) (r0_ms0 t) fullShare ((dat0 V c).after 0 t) from by
    unfold Dat.leavesExact; rw [r0_live0 t], r0_after0]
  rw [show (dat0 V c).leavesExact 1 t = owns (c : Thread nD τ) (r0_ms1 t) fullShare ((dat0 V c).after 1 t) from by
    unfold Dat.leavesExact; rw [r0_live1 t], r0_after1]
  rw [show (dat0 V c).leavesExact 2 t = owns (c : Thread nD τ) (r0_ms2 t) fullShare ((dat0 V c).after 2 t) from by
    unfold Dat.leavesExact; rw [r0_live2 t], r0_after2]
  by_cases h0 : t.val % 16 = 0
  · have h1 : ¬t.val % 16 = 15 := by omega
    have hz : t.val = 0 := by omega
    rw [Dat.leavesExact_idle (dat0 V c) 3 t (r0_idle3 t (fun h => h1 ((r0_hLast t).mp h))) (r0_noFlush3 t (fun h => h1 ((r0_hLast t).mp h)))]
    rw [Dat.leavesExact_idle (dat0 V c) 4 t (r0_idle4 t (fun h => h1 ((r0_hLast t).mp h))) (r0_noFlush4 t (fun h => h1 ((r0_hLast t).mp h)))]
    rw [r0_outsAt_A V c t h0 h1]
    unfold r0_out2_A r0_sout_A; (try dsimp only)
    rw [r0_Phi_castSucc V c t, r0_Phi_zero V c _ _ hz]
    iintro ⟨⟨HS, HR⟩, Ho, ⟨%d0, H0⟩, ⟨%d1, H1⟩, ⟨%d2, H2⟩, ⟨%d3, H3⟩, ⟨%d4, H4⟩⟩
    iapply ((r0_runA c (grid0.coords t) _ _ _ _ _ _ _ _ _ _ _ _ ((r0_hFirst t).mpr h0) (fun h => h1 ((r0_hLast t).mp h)) (r0_blk V c 0 t) (r0_blk V c 1 t)).2.2 _ _ Set.univ _)
    isplitl [H0]; · iexact H0
    isplitl [H1]; · iexact H1
    isplitl [H2]; · iexists _; iexact H2
    isplitl [H3]; · iexact H3
    isplitl [H4]; · iexact H4
    isplitl [HS]; · iexact HS
    iintro ⟨H0, H1, ⟨%e2, H2⟩, H3, H4, ⟨%es, HS⟩⟩
    isplitl [HS HR]
    · isplitl [HS]
      · unfold owns; iexists _; isplitr
        swap; · iexact HS
        ipureintro; exact View.read_writes_of_cover _ _ _ _ _ (r0_scover_A c _ _ _ _ _ _ _ _ _ _ _ _ _ _ _ _ _)
      iexact HR
    isplitl [Ho]; · iexact Ho
    isplitl [H0]; · iexact H0
    isplitl [H1]; · iexact H1
    isplitl [H2]
    · unfold owns; iexists _; isplitr
      swap; · iexact H2
      ipureintro; exact View.read_writes_of_cover _ _ _ _ _ (r0_cover2_A c _ _ _ _ _ _ _ _ _ _ _ _ _ _ _ _ _)
    isplitl [H3]; · iexists _; iexact H3
    iexists _; iexact H4
  · have hz : t.val ≠ 0 := fun e => h0 (by rw [e])
    by_cases h1 : t.val % 16 = 15
    · rw [show (dat0 V c).leavesExact 3 t = owns (c : Thread nD τ) (r0_ms3 t) fullShare ((dat0 V c).after 3 t) from by
        unfold Dat.leavesExact; rw [r0_live3 t ((r0_hLast t).mpr h1)], r0_after3]
      rw [show (dat0 V c).leavesExact 4 t = owns (c : Thread nD τ) (r0_ms4 t) fullShare ((dat0 V c).after 4 t) from by
        unfold Dat.leavesExact; rw [r0_live4 t ((r0_hLast t).mpr h1)], r0_after4]
      rw [r0_outsAt_C V c t h0 h1]
      unfold r0_out2_C r0_out3_C r0_out4_C r0_sout_C; (try dsimp only)
      rw [r0_Phi_castSucc V c t, r0_Phi_pos V c _ _ hz]
      iintro ⟨⟨HS, HR⟩, Ho, ⟨%d0, H0⟩, ⟨%d1, H1⟩, ⟨%d2, H2⟩, ⟨%d3, H3⟩, ⟨%d4, H4⟩⟩
      iapply ((r0_runC c (grid0.coords t) _ _ _ _ _ _ _ _ _ _ _ _ (fun h => h0 ((r0_hFirst t).mp h)) ((r0_hLast t).mpr h1) (r0_blk V c 0 t) (r0_blk V c 1 t) _).2.2.2.2 Set.univ _)
      isplitl [H0]; · iexact H0
      isplitl [H1]; · iexact H1
      isplitl [H2]; · iexists _; iexact H2
      isplitl [H3]; · iexists _; iexact H3
      isplitl [H4]; · iexists _; iexact H4
      isplitl [HS]; · iexact HS
      iintro ⟨H0, H1, ⟨%e2, H2⟩, ⟨%e3, H3⟩, ⟨%e4, H4⟩, ⟨%es, HS⟩⟩
      isplitl [HS HR]
      · isplitl [HS]
        · unfold owns; iexists _; isplitr
          swap; · iexact HS
          ipureintro; exact View.read_writes_of_cover _ _ _ _ _ (r0_scover_C c _ _ _ _ _ _ _ _ _ _ _ _ _ _ _ _ _ _)
        iexact HR
      isplitl [Ho]; · iexact Ho
      isplitl [H0]; · iexact H0
      isplitl [H1]; · iexact H1
      isplitl [H2]
      · unfold owns; iexists _; isplitr
        swap; · iexact H2
        ipureintro; exact View.read_writes_of_cover _ _ _ _ _ (r0_cover2_C c _ _ _ _ _ _ _ _ _ _ _ _ _ _ _ _ _ _)
      isplitl [H3]
      · unfold owns; iexists _; isplitr
        swap; · iexact H3
        ipureintro; exact View.read_writes_of_cover _ _ _ _ _ (r0_cover3_C c _ _ _ _ _ _ _ _ _ _ _ _ _ _ _ _ _ _)
      unfold owns; iexists _; isplitr
      swap; · iexact H4
      ipureintro; exact View.read_writes_of_cover _ _ _ _ _ (r0_cover4_C c _ _ _ _ _ _ _ _ _ _ _ _ _ _ _ _ _ _)
    · rw [Dat.leavesExact_idle (dat0 V c) 3 t (r0_idle3 t (fun h => h1 ((r0_hLast t).mp h))) (r0_noFlush3 t (fun h => h1 ((r0_hLast t).mp h)))]
      rw [Dat.leavesExact_idle (dat0 V c) 4 t (r0_idle4 t (fun h => h1 ((r0_hLast t).mp h))) (r0_noFlush4 t (fun h => h1 ((r0_hLast t).mp h)))]
      rw [r0_outsAt_B V c t h0 h1]
      unfold r0_out2_B r0_sout_B; (try dsimp only)
      rw [r0_Phi_castSucc V c t, r0_Phi_pos V c _ _ hz]
      iintro ⟨⟨HS, HR⟩, Ho, ⟨%d0, H0⟩, ⟨%d1, H1⟩, ⟨%d2, H2⟩, ⟨%d3, H3⟩, ⟨%d4, H4⟩⟩
      iapply ((r0_runB c (grid0.coords t) _ _ _ _ _ _ _ _ _ _ _ _ (fun h => h0 ((r0_hFirst t).mp h)) (fun h => h1 ((r0_hLast t).mp h)) (r0_blk V c 0 t) (r0_blk V c 1 t) _).2.2 _ _ Set.univ _)
      isplitl [H0]; · iexact H0
      isplitl [H1]; · iexact H1
      isplitl [H2]; · iexists _; iexact H2
      isplitl [H3]; · iexact H3
      isplitl [H4]; · iexact H4
      isplitl [HS]; · iexact HS
      iintro ⟨H0, H1, ⟨%e2, H2⟩, H3, H4, ⟨%es, HS⟩⟩
      isplitl [HS HR]
      · isplitl [HS]
        · unfold owns; iexists _; isplitr
          swap; · iexact HS
          ipureintro; exact View.read_writes_of_cover _ _ _ _ _ (r0_scover_B c _ _ _ _ _ _ _ _ _ _ _ _ _ _ _ _ _ _)
        iexact HR
      isplitl [Ho]; · iexact Ho
      isplitl [H0]; · iexact H0
      isplitl [H1]; · iexact H1
      isplitl [H2]
      · unfold owns; iexists _; isplitr
        swap; · iexact H2
        ipureintro; exact View.read_writes_of_cover _ _ _ _ _ (r0_cover2_B c _ _ _ _ _ _ _ _ _ _ _ _ _ _ _ _ _ _)
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact r0_sound_body V c t

theorem phi0_in (c : Dev nD) : (Pipeline.scopedRest (Ix := Unit) (Name := ℕ) (U := UR sig nD τ) (Lvl := ℕ) (Val := Elt F) spec0 c : sProp 𝕄) ⊢ (dat0 V c).Φ 0 := by
  rw [show (dat0 V c).Φ 0 = r0_Phi V c 0 (Nat.zero_le _) from rfl, r0_Phi_zero V c 0 _ rfl, scopedRest0_split]
  simp only [r0_scM, owns_whole]
  exact Idealize.SL.BI.Entails.refl _

theorem phi0_out (c : Dev nD) : (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = r0_Phi V c (Fin.last cfg0.N).val (Nat.le_of_lt_succ (Fin.last cfg0.N).isLt) from rfl,
    r0_Phi_pos V c _ _ (by rw [Fin.val_last]; have : cfg0.N = 16 := N_0; omega), scopedRest0_split]
  simp only [r0_scM, owns_whole]
  iintro ⟨HS, HR⟩
  isplitl [HS]
  · iexists _; iexact HS
  iexact HR

end Cert.KernelIdeal.Hand
end
-- ==== Proof.KiR1.lean ====
import proofs.«157081_j85761906966880_1_alg».proof.Proof.Gen.KernelIdeal.Launch
import proofs.«157081_j85761906966880_1_alg».proof.Proof.Gen.KernelIdeal.Skeleton
import proofs.«157081_j85761906966880_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem cond1_0_of (t : Fin cfg1.N) (h0 : t.val = 0) : cond1_0 (grid1.coords t) := (hcond1_0 t).mpr (by rw [h0])
theorem ncond1_0_of (t : Fin cfg1.N) (h0 : t.val ≠ 0) : ¬cond1_0 (grid1.coords t) := fun h => by
  have h' := (hcond1_0 t).mp h
  have hN : t.val < 16 := lt_of_lt_of_eq t.isLt (show cfg1.N = 16 from N_1)
  omega
theorem cond1_1_of (t : Fin cfg1.N) (h1 : t.val % 16 = 15) : cond1_1 (grid1.coords t) := (hcond1_1 t).mpr h1
theorem ncond1_1_of (t : Fin cfg1.N) (h1 : ¬t.val % 16 = 15) : ¬cond1_1 (grid1.coords t) := fun h => h1 ((hcond1_1 t).mp h)

theorem idleAt1_7 : ∀ t : Fin cfg1.N, ¬cond1_1 (grid1.coords t) → cfg1.idle 7 (grid1.coords t) = true := by decide +kernel
theorem idleAt1_8 : ∀ t : Fin cfg1.N, ¬cond1_1 (grid1.coords t) → cfg1.idle 8 (grid1.coords t) = true := by decide +kernel
theorem noFlush1_7 : ∀ t : Fin cfg1.N, ¬cond1_1 (grid1.coords t) → (cfg1.win 7).flush t = false := by decide +kernel
theorem noFlush1_8 : ∀ t : Fin cfg1.N, ¬cond1_1 (grid1.coords t) → (cfg1.win 8).flush t = false := by decide +kernel
theorem liveAt1_7 : ∀ t : Fin cfg1.N, cond1_1 (grid1.coords t) → cfg1.idle 7 (grid1.coords t) = false := by decide +kernel
theorem liveAt1_8 : ∀ t : Fin cfg1.N, cond1_1 (grid1.coords t) → cfg1.idle 8 (grid1.coords t) = false := by decide +kernel
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl

abbrev ms1_0 (t : Fin cfg1.N) : Memref sig .tc .vmem S512x16x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x16x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev scM1 : Memref sig .tc .vmem S2x128 .f32 := Memref.whole cc1_scratch0

theorem scopedRest1_eq (c : Dev nD) :
    (Pipeline.scopedRest (Ix := Unit) (Name := ℕ) (U := UR sig nD τ) (Lvl := ℕ) (Val := Elt F) spec1 c : sProp 𝕄)
      = iprop(iprop((∃ d, owns (c : Thread nD τ) scM1 fullShare d))
          ∗ Pipeline.scopedRestBut (Ix := Unit) (Name := ℕ) (U := UR sig nD τ) (Lvl := ℕ) (Val := Elt F) spec1 c [cc1_scratch0]) := by
  rw [scopedRest1_split]; simp only [scM1, owns_whole]; rfl

section
variable (c : Dev nD) (i : grid1.Coords) (arg1 : Memref sig .tc .vmem S512x16x128 .f32) (harg1 : arg1.IsWhole) (arg2 : Memref sig .tc .vmem S1x1x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128x128 .f32) (harg6 : arg6.IsWhole) (arg7 : Memref sig .tc .vmem S512x16x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2x128 .f32) (harg10 : arg10.IsWhole)
set_option maxHeartbeats 4000000 in
noncomputable def kernelRun1_A (hc0 : cond1_0 i) (hc1 : ¬cond1_1 i)
    (x0 : Vec F S512x16x128 .f32) (x1 x2 x3 x4 : Vec F S1x1x128 .f32) (x5 : Vec F S128x128 .f32) :
    Σ' (L6 : List (View.Piece (Elt F) S512x16x128 .f32)), { LS0 : List (View.Piece (Elt F) S2x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xi8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7 ∗ owns (c : Thread nD τ) arg9 fullShare xi8
                ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10) K } := by
  refine ⟨?_, ?_, fun xi7 xi8 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    iexists _; iexact HS0

set_option maxHeartbeats 4000000 in
noncomputable def kernelRun1_B (hc0 : ¬cond1_0 i) (hc1 : ¬cond1_1 i)
    (x0 : Vec F S512x16x128 .f32) (x1 x2 x3 x4 : Vec F S1x1x128 .f32) (x5 : Vec F S128x128 .f32) (xs0 : Vec F S2x128 .f32) :
    Σ' (L6 : List (View.Piece (Elt F) S512x16x128 .f32)), { LS0 : List (View.Piece (Elt F) S2x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xi8 ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7 ∗ owns (c : Thread nD τ) arg9 fullShare xi8
                ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10) K } := by
  refine ⟨?_, ?_, fun xi7 xi8 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    iexists _; iexact HS0

set_option maxHeartbeats 4000000 in
noncomputable def kernelRun1_C (hc0 : ¬cond1_0 i) (hc1 : cond1_1 i)
    (x0 : Vec F S512x16x128 .f32) (x1 x2 x3 x4 : Vec F S1x1x128 .f32) (x5 : Vec F S128x128 .f32) (xs0 : Vec F S2x128 .f32) :
    Σ' (L6 : List (View.Piece (Elt F) S512x16x128 .f32)) (L7 : List (View.Piece (Elt F) S1x128 .f32)) (L8 : List (View.Piece (Elt F) S1x128 .f32)), { LS0 : List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact HS0

section
variable (hc0 : cond1_0 i) (hc1 : ¬cond1_1 i) (x0 : Vec F S512x16x128 .f32) (x1 x2 x3 x4 : Vec F S1x1x128 .f32) (x5 : Vec F S128x128 .f32)
include hc0 hc1

theorem cover1_A_6 (y : S512x16x128.Idx) : ∃ pc ∈ (kernelRun1_A c i arg1 harg1 arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3 x4 x5).1 S512x16x128.size (by sl_kernel_rfl) y
theorem scover1_A (y : S2x128.Idx) : ∃ pc ∈ (kernelRun1_A c i arg1 harg1 arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3 x4 x5).2.1 S1x128.size (by sl_kernel_rfl) y
def out1_A_6 : Vec F S512x16x128 .f32 := View.canon (kernelRun1_A c i arg1 harg1 arg2 harg2 arg3 harg3 arg4 harg4 arg5 harg5 arg6 harg6 arg7 harg7 arg8 harg8 arg9 harg9 arg10 harg10 hc0 hc1 x0 x1 x2 x3 x4 x5).1
def sout1_A : Vec F S2x128 .f32 := View.canon (kernelRun1_A c i arg1 harg1 arg2 harg2 arg3 harg3 arg4 harg4 arg5 harg5 arg6 harg6 arg7 harg7 arg8 harg8 arg9 harg9 arg10 harg10 hc0 hc1 x0 x1 x2 x3 x4 x5).2.1

end
section
variable (hc0 : ¬cond1_0 i) (hc1 : ¬cond1_1 i) (x0 : Vec F S512x16x128 .f32) (x1 x2 x3 x4 : Vec F S1x1x128 .f32) (x5 : Vec F S128x128 .f32) (xs0 : Vec F S2x128 .f32)
include hc0 hc1
theorem cover1_B_6 (y : S512x16x128.Idx) : ∃ pc ∈ (kernelRun1_B c i arg1 harg1 arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 x4 x5 xs0).1 S512x16x128.size (by sl_kernel_rfl) y
theorem scover1_B (y : S2x128.Idx) : ∃ pc ∈ (kernelRun1_B c i arg1 harg1 arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 x4 x5 xs0).2.1 S1x128.size (by sl_kernel_rfl) y
def out1_B_6 : Vec F S512x16x128 .f32 := View.canon (kernelRun1_B c i arg1 harg1 arg2 harg2 arg3 harg3 arg4 harg4 arg5 harg5 arg6 harg6 arg7 harg7 arg8 harg8 arg9 harg9 arg10 harg10 hc0 hc1 x0 x1 x2 x3 x4 x5 xs0).1
def sout1_B : Vec F S2x128 .f32 := View.canon (kernelRun1_B c i arg1 harg1 arg2 harg2 arg3 harg3 arg4 harg4 arg5 harg5 arg6 harg6 arg7 harg7 arg8 harg8 arg9 harg9 arg10 harg10 hc0 hc1 x0 x1 x2 x3 x4 x5 xs0).2.1

end
section
variable (hc0 : ¬cond1_0 i) (hc1 : cond1_1 i) (x0 : Vec F S512x16x128 .f32) (x1 x2 x3 x4 : Vec F S1x1x128 .f32) (x5 : Vec F S128x128 .f32) (xs0 : Vec F S2x128 .f32)
include hc0 hc1
theorem cover1_C_6 (y : S512x16x128.Idx) : ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0).1 S512x16x128.size (by sl_kernel_rfl) y
theorem cover1_C_7 (y : S1x128.Idx) : ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0).2.1 S1x128.size (by sl_kernel_rfl) y
theorem cover1_C_8 (y : S1x128.Idx) : ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0).2.2.1 S1x128.size (by sl_kernel_rfl) y
theorem scover1_C (y : S2x128.Idx) : ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 xs0).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 xs0).2.2.2.1 S1x128.size (by sl_kernel_rfl) y
def out1_C_6 : Vec F S512x16x128 .f32 := View.canon (kernelRun1_C c i arg1 harg1 arg2 harg2 arg3 harg3 arg4 harg4 arg5 harg5 arg6 harg6 arg7 harg7 arg8 harg8 arg9 harg9 arg10 harg10 hc0 hc1 x0 x1 x2 x3 x4 x5 xs0).1
def out1_C_7 : Vec F S1x128 .f32 := View.canon (kernelRun1_C c i arg1 harg1 arg2 harg2 arg3 harg3 arg4 harg4 arg5 harg5 arg6 harg6 arg7 harg7 arg8 harg8 arg9 harg9 arg10 harg10 hc0 hc1 x0 x1 x2 x3 x4 x5 xs0).2.1
def out1_C_8 : Vec F S1x128 .f32 := View.canon (kernelRun1_C c i arg1 harg1 arg2 harg2 arg3 harg3 arg4 harg4 arg5 harg5 arg6 harg6 arg7 harg7 arg8 harg8 arg9 harg9 arg10 harg10 hc0 hc1 x0 x1 x2 x3 x4 x5 xs0).2.2.1
def sout1_C : Vec F S2x128 .f32 := View.canon (kernelRun1_C c i arg1 harg1 arg2 harg2 arg3 harg3 arg4 harg4 arg5 harg5 arg6 harg6 arg7 harg7 arg8 harg8 arg9 harg9 arg10 harg10 hc0 hc1 x0 x1 x2 x3 x4 x5 xs0).2.2.2.1
end
end

def jnk1 : Vec F S1x128 .f32 := View.canon (Val := Elt F) (s := S1x128) (e := .f32) []

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

def outsAt1 (c : Dev nD) : (n : ℕ) → n < cfg1.N → Vec F S512x16x128 .f32 × Vec F S1x128 .f32 × Vec F S1x128 .f32 × Vec F S2x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) (cond1_0_of ⟨0, hn⟩ rfl) (ncond1_1_of ⟨0, hn⟩ (show ¬(0 % 16 = 15) from by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), jnk1, jnk1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) (cond1_0_of ⟨0, hn⟩ rfl) (ncond1_1_of ⟨0, hn⟩ (show ¬(0 % 16 = 15) from by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h1 : (n + 1) % 16 = 15 then
      (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (ncond1_0_of ⟨n + 1, hn⟩ (Nat.succ_ne_zero n)) (cond1_1_of ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (ncond1_0_of ⟨n + 1, hn⟩ (Nat.succ_ne_zero n)) (cond1_1_of ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2, out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (ncond1_0_of ⟨n + 1, hn⟩ (Nat.succ_ne_zero n)) (cond1_1_of ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (ncond1_0_of ⟨n + 1, hn⟩ (Nat.succ_ne_zero n)) (cond1_1_of ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2)
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (ncond1_0_of ⟨n + 1, hn⟩ (Nat.succ_ne_zero n)) (ncond1_1_of ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2, jnk1, jnk1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (ncond1_0_of ⟨n + 1, hn⟩ (Nat.succ_ne_zero n)) (ncond1_1_of ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2)

theorem outsAt1_A (c : Dev nD) (t : Fin cfg1.N) (h0 : t.val = 0) (h1 : ¬t.val % 16 = 15) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (cond1_0_of t h0) (ncond1_1_of t h1) (iblk1 V c 0 t) (iblk1 V c 1 t) (iblk1 V c 2 t) (iblk1 V c 3 t) (iblk1 V c 4 t) (iblk1 V c 5 t), jnk1, jnk1, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (cond1_0_of t h0) (ncond1_1_of t h1) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact absurd h0 (Nat.succ_ne_zero n)

theorem outsAt1_B (c : Dev nD) (t : Fin cfg1.N) (h0 : t.val ≠ 0) (h1 : ¬t.val % 16 = 15) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (ncond1_1_of t h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2, jnk1, jnk1, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (ncond1_1_of t h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

theorem outsAt1_C (c : Dev nD) (t : Fin cfg1.N) (h0 : t.val ≠ 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (cond1_1_of t h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (cond1_1_of t h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2, out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (cond1_1_of t h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (cond1_1_of t h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

def Phi1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) scM1 fullShare ((outsAt1 V c n hn).2.2.2) ∗ Pipeline.scopedRestBut (Ix := Unit) (Name := ℕ) (U := UR sig nD τ) (Lvl := ℕ) (Val := Elt F) spec1 c [cc1_scratch0])

theorem Phi1_zero (c : Dev nD) (n : ℕ) (h : n ≤ cfg1.N) (hz : n = 0) : Phi1 V c n h = Pipeline.scopedRest (Ix := Unit) (Name := ℕ) (U := UR sig nD τ) (Lvl := ℕ) (Val := Elt F) spec1 c := by
  subst hz; rfl
theorem Phi1_succ (c : Dev nD) (n : ℕ) (hn : n < cfg1.N) :
    Phi1 V c (n + 1) hn = iprop(owns (c : Thread nD τ) scM1 fullShare ((outsAt1 V c n hn).2.2.2) ∗ Pipeline.scopedRestBut (Ix := Unit) (Name := ℕ) (U := UR sig nD τ) (Lvl := ℕ) (Val := Elt F) spec1 c [cc1_scratch0]) := rfl
theorem Phi1_pos (c : Dev nD) (n : ℕ) (h : n ≤ cfg1.N) (hz : n ≠ 0) :
    Phi1 V c n h = iprop(owns (c : Thread nD τ) scM1 fullShare ((outsAt1 V c (n - 1) (by omega)).2.2.2) ∗ Pipeline.scopedRestBut (Ix := Unit) (Name := ℕ) (U := UR sig nD τ) (Lvl := ℕ) (Val := Elt F) spec1 c [cc1_scratch0]) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
    | ⟨8, _⟩ => (outsAt1 V c t.val t.isLt).2.2.1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem owed1 (c : Dev nD) (t) : (dat1 V c).owed t = 0 := rfl
theorem share1 (c : Dev nD) (w) : (dat1 V c).q w = fullShare := rfl

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem after1_8 (c : Dev nD) (t : Fin cfg1.N) : (dat1 V c).after 8 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val = 0
  · have h1 : ¬t.val % 16 = 15 := by omega
    rw [Dat.leavesExact_idle (dat1 V c) 7 t (idleAt1_7 t (ncond1_1_of t h1)) (noFlush1_7 t (ncond1_1_of t h1))]
    rw [Dat.leavesExact_idle (dat1 V c) 8 t (idleAt1_8 t (ncond1_1_of t h1)) (noFlush1_8 t (ncond1_1_of t h1))]
    rw [outsAt1_A V c t h0 h1]
    unfold out1_A_6 sout1_A; (try dsimp only)
    rw [Phi1_castSucc V c t, Phi1_zero V c _ _ h0, scopedRest1_eq]
    iintro ⟨⟨HS0, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (cond1_0_of t h0) (ncond1_1_of t h1) (iblk1 V c 0 t) (iblk1 V c 1 t) (iblk1 V c 2 t) (iblk1 V c 3 t) (iblk1 V c 4 t) (iblk1 V c 5 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    iintro ⟨H0, H1, H2, H3, H4, H5, ⟨%e6, H6⟩, H7, H8, ⟨%es0, HS0⟩⟩
    isplitl [HS0 Hr]
    · isplitl [HS0]
      · unfold owns; iexists _; isplitr
        swap; · iexact HS0
        ipureintro; exact View.read_writes_eq_canon _ _ _ (scover1_A c _ _ _ _ _ _ _ _ _ _ _ _ _ _ _ _ _ _ _ _ _ _ _ _ _ _ _ _ _)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover1_A_6 c _ _ _ _ _ _ _ _ _ _ _ _ _ _ _ _ _ _ _ _ _ _ _ _ _ _ _ _ _)
    isplitl [H7]; · iexists _; iexact H7
    iexists _; iexact H8
  · by_cases h1 : t.val % 16 = 15
    · rw [show (dat1 V c).leavesExact 7 t = owns (c : Thread nD τ) (ms1_7 t) fullShare ((dat1 V c).after 7 t) from by
        unfold Dat.leavesExact; rw [liveAt1_7 t (cond1_1_of t h1)], after1_7]
      rw [show (dat1 V c).leavesExact 8 t = owns (c : Thread nD τ) (ms1_8 t) fullShare ((dat1 V c).after 8 t) from by
        unfold Dat.leavesExact; rw [liveAt1_8 t (cond1_1_of t h1)], after1_8]
      rw [outsAt1_C V c t h0 h1]
      unfold out1_C_6 out1_C_7 out1_C_8 sout1_C; (try dsimp only)
      rw [Phi1_castSucc V c t, Phi1_pos V c _ _ h0]
      iintro ⟨⟨HS0, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (cond1_1_of t h1) (iblk1 V c 0 t) (iblk1 V c 1 t) (iblk1 V c 2 t) (iblk1 V c 3 t) (iblk1 V c 4 t) (iblk1 V c 5 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, ⟨%e6, H6⟩, ⟨%e7, H7⟩, ⟨%e8, H8⟩, ⟨%es0, HS0⟩⟩
      isplitl [HS0 Hr]
      · isplitl [HS0]
        · unfold owns; iexists _; isplitr
          swap; · iexact HS0
          ipureintro; exact View.read_writes_eq_canon _ _ _ (scover1_C c _ _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_eq_canon _ _ _ (cover1_C_6 c _ _ _ _ _ _ _ _ _ _ _ _ _ _ _ _ _ _ _ _ _ _ _ _ _ _ _ _ _ _)
      isplitl [H7]
      · unfold owns; iexists _; isplitr
        swap; · iexact H7
        ipureintro; exact View.read_writes_eq_canon _ _ _ (cover1_C_7 c _ _ _ _ _ _ _ _ _ _ _ _ _ _ _ _ _ _ _ _ _ _ _ _ _ _ _ _ _ _)
      unfold owns; iexists _; isplitr
      swap; · iexact H8
      ipureintro; exact View.read_writes_eq_canon _ _ _ (cover1_C_8 c _ _ _ _ _ _ _ _ _ _ _ _ _ _ _ _ _ _ _ _ _ _ _ _ _ _ _ _ _ _)
    · rw [Dat.leavesExact_idle (dat1 V c) 7 t (idleAt1_7 t (ncond1_1_of t h1)) (noFlush1_7 t (ncond1_1_of t h1))]
      rw [Dat.leavesExact_idle (dat1 V c) 8 t (idleAt1_8 t (ncond1_1_of t h1)) (noFlush1_8 t (ncond1_1_of t h1))]
      rw [outsAt1_B V c t h0 h1]
      unfold out1_B_6 sout1_B; (try dsimp only)
      rw [Phi1_castSucc V c t, Phi1_pos V c _ _ h0]
      iintro ⟨⟨HS0, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (ncond1_1_of t h1) (iblk1 V c 0 t) (iblk1 V c 1 t) (iblk1 V c 2 t) (iblk1 V c 3 t) (iblk1 V c 4 t) (iblk1 V c 5 t) _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      iintro ⟨H0, H1, H2, H3, H4, H5, ⟨%e6, H6⟩, H7, H8, ⟨%es0, HS0⟩⟩
      isplitl [HS0 Hr]
      · isplitl [HS0]
        · unfold owns; iexists _; isplitr
          swap; · iexact HS0
          ipureintro; exact View.read_writes_eq_canon _ _ _ (scover1_B c _ _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_eq_canon _ _ _ (cover1_B_6 c _ _ _ _ _ _ _ _ _ _ _ _ _ _ _ _ _ _ _ _ _ _ _ _ _ _ _ _ _ _)
      isplitl [H7]; · iexists _; iexact H7
      iexists _; iexact H8

theorem body_obligation1 (c : Dev nD) : BodyObligation (dat1 (F := F) V c) (defs₀ (F := F)) Variants.none () Set.univ := fun t => by
  rw [bigSep_W1, bigSep_W1]
  exact sound_body1 V c t

theorem phi1_in (c : Dev nD) : (Pipeline.scopedRest (Ix := Unit) (Name := ℕ) (U := UR sig nD τ) (Lvl := ℕ) (Val := Elt F) spec1 c : sProp 𝕄) ⊢ (dat1 V c).Φ 0 := by
  rw [show (dat1 V c).Φ 0 = Phi1 V c 0 (Nat.zero_le _) from rfl, Phi1_zero V c 0 _ rfl]

theorem phi1_out (c : Dev nD) : (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 16 := N_1; omega), scopedRest1_eq]
  iintro ⟨HS0, Hr⟩
  isplitl [HS0]
  · iexists _; iexact HS0
  iexact Hr

end Cert.KernelIdeal.Hand
end
-- ==== Proof.KiR2.lean ====
import proofs.«157081_j85761906966880_1_alg».proof.Proof.Gen.KernelIdeal.Launch
import proofs.«157081_j85761906966880_1_alg».proof.Proof.Gen.KernelIdeal.Skeleton
import proofs.«157081_j85761906966880_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S512x16x128 := Rect.unit (s := S512x16x128) ![0, 0, 0] S512x16x128.size inb_S512x16x128_S512x16x128_0_0_0
abbrev r2_1 : Rect S1x1x128 := Rect.unit (s := S1x1x128) ![0, 0, 0] S1x1x128.size inb_S1x1x128_S1x1x128_0_0_0
abbrev r2_2 : Rect S512x128 := Rect.unit (s := S512x128) ![0, 0] S512x128.size inb_S512x128_S512x128_0_0

def out2_5 (x0 : Vec F S512x16x128 .f32) (x1 x2 x3 x4 : Vec F S1x1x128 .f32) : Vec F S512x128 .f32 :=
  View.canon [⟨r2_2, k2_pay1 (k2_pay2 (View.ld x0 r2_0) (View.ld x2 r2_1) (View.ld x3 r2_1) (View.ld x4 r2_1) (View.ld x1 r2_1))
    (k2_pay3 (View.ld x0 r2_0) (View.ld x2 r2_1) (View.ld x3 r2_1) (View.ld x4 r2_1) (View.ld x1 r2_1))⟩]

theorem cover2_5 (p0 : Vec F S512x128 .f32) (y : S512x128.Idx) :
    ∃ pc ∈ ([⟨r2_2, p0⟩] : List (View.Piece (Elt F) S512x128 .f32)), y ∈ pc.1.set :=
  View.cover_of_tiled [⟨r2_2, p0⟩] S512x128.size (by rfl) y

set_option maxHeartbeats 1000000 in
theorem sound_kernel2 (c : Dev nD) (E : Set ℕ) (i : grid2.Coords)
    (arg1 : Memref sig .tc .vmem S512x16x128 .f32) (harg1 : arg1.IsWhole)
    (arg2 : Memref sig .tc .vmem S1x1x128 .f32) (harg2 : arg2.IsWhole)
    (arg3 : Memref sig .tc .vmem S1x1x128 .f32) (harg3 : arg3.IsWhole)
    (arg4 : Memref sig .tc .vmem S1x1x128 .f32) (harg4 : arg4.IsWhole)
    (arg5 : Memref sig .tc .vmem S1x1x128 .f32) (harg5 : arg5.IsWhole)
    (arg6 : Memref sig .tc .vmem S512x128 .f32) (harg6 : arg6.IsWhole)
    (x0 : Vec F S512x16x128 .f32) (x1 x2 x3 x4 : Vec F S1x1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2_kernel i arg1 harg1 arg2 harg2 arg3 harg3 arg4 harg4 arg5 harg5 arg6 harg6) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.scopedRest spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

theorem owed2 (c : Dev nD) (t) : (dat2 V c).owed t = 0 := rfl
theorem share2 (c : Dev nD) (w) : (dat2 V c).q w = fullShare := rfl

theorem phi2_in (c : Dev nD) :
    (Pipeline.scopedRest (Ix := Unit) (Name := ℕ) (U := UR sig nD τ) (Lvl := ℕ) (Val := Elt F) spec2 c : sProp 𝕄) ⊢ (dat2 V c).Φ 0 := .rfl
theorem phi2_out (c : Dev nD) :
    (dat2 V c).Φ (Fin.last cfg2.N) ⊢ (Pipeline.scopedRest (Ix := Unit) (Name := ℕ) (U := UR sig nD τ) (Lvl := ℕ) (Val := Elt F) spec2 c : sProp 𝕄) := .rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand
end
-- ==== Proof.KiR3.lean ====
import proofs.«157081_j85761906966880_1_alg».proof.Proof.Gen.KernelIdeal.Launch
import proofs.«157081_j85761906966880_1_alg».proof.Proof.Gen.KernelIdeal.Skeleton
import proofs.«157081_j85761906966880_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Ring
import Idealize.ShloMosaic.Lib.Tactic

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev r3_condFirst (i : grid3.Coords) : Prop :=
  (Scalar.cmpi .ne (Scalar.extui (Scalar.cmpi .eq (BitVec.ofNat 32 (i 0).val) 0#32)) 0#32) = 1#1
theorem r3_hFirst : ∀ t : Fin cfg3.N, r3_condFirst (grid3.coords t) ↔ t.val % 32 = 0 :=
  (by decide +kernel : ∀ t : Fin grid3.N, r3_condFirst (grid3.coords t) ↔ t.val % 32 = 0)

abbrev r3_condLast (i : grid3.Coords) : Prop := k3_cond2 i = 1#1
theorem r3_hLast : ∀ t : Fin cfg3.N, r3_condLast (grid3.coords t) ↔ t.val % 32 = 31 :=
  (by decide +kernel : ∀ t : Fin grid3.N, r3_condLast (grid3.coords t) ↔ t.val % 32 = 31)

theorem r3_live0 : ∀ t : Fin cfg3.N, cfg3.idle 0 (grid3.coords t) = false := by decide +kernel
theorem r3_live1 : ∀ t : Fin cfg3.N, cfg3.idle 1 (grid3.coords t) = false := by decide +kernel
theorem r3_live2 : ∀ t : Fin cfg3.N, cfg3.idle 2 (grid3.coords t) = false := by decide +kernel
theorem r3_idle3 : ∀ t : Fin cfg3.N, ¬r3_condLast (grid3.coords t) → cfg3.idle 3 (grid3.coords t) = true := by decide +kernel
theorem r3_idle4 : ∀ t : Fin cfg3.N, ¬r3_condLast (grid3.coords t) → cfg3.idle 4 (grid3.coords t) = true := by decide +kernel
theorem r3_noFlush3 : ∀ t : Fin cfg3.N, ¬r3_condLast (grid3.coords t) → (cfg3.win 3).flush t = false := by decide +kernel
theorem r3_noFlush4 : ∀ t : Fin cfg3.N, ¬r3_condLast (grid3.coords t) → (cfg3.win 4).flush t = false := by decide +kernel
theorem r3_live3 : ∀ t : Fin cfg3.N, r3_condLast (grid3.coords t) → cfg3.idle 3 (grid3.coords t) = false := by decide +kernel
theorem r3_live4 : ∀ t : Fin cfg3.N, r3_condLast (grid3.coords t) → cfg3.idle 4 (grid3.coords t) = false := by decide +kernel

section
variable (c : Dev nD) (i : grid3.Coords) (arg1 : Memref sig .tc .vmem S256x32x67 .f32) (harg1 : arg1.IsWhole) (arg2 : Memref sig .tc .vmem S67x128 .f32) (harg2 : arg2.IsWhole) (arg3 : Memref sig .tc .vmem S256x32x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2x128 .f32) (harg6 : arg6.IsWhole)
set_option maxHeartbeats 1000000 in
noncomputable def r3_runA (hc0 : r3_condFirst i) (hc1 : ¬r3_condLast i) (x0 : Vec F S256x32x67 .f32) (x1 : Vec F S67x128 .f32) :
    Σ' (L2 : List (View.Piece (Elt F) S256x32x128 .f32)), { LS : List (View.Piece (Elt F) S2x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg1 harg1 arg2 harg2 arg3 harg3 arg4 harg4 arg5 harg5 arg6 harg6) K } := by
  refine ⟨?_, ?_, fun xi3 xi4 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%d2, %f2, -, H2⟩, H3, H4, ⟨%ds, %fs, -, HS⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexact H3
    isplitl [H4]; · iexact H4
    iexists _; iexact HS

set_option maxHeartbeats 1000000 in
noncomputable def r3_runB (hc0 : ¬r3_condFirst i) (hc1 : ¬r3_condLast i) (x0 : Vec F S256x32x67 .f32) (x1 : Vec F S67x128 .f32) (xs : Vec F S2x128 .f32) :
    Σ' (L2 : List (View.Piece (Elt F) S256x32x128 .f32)), { LS : List (View.Piece (Elt F) S2x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ owns (c : Thread nD τ) arg5 fullShare xi4 ∗ owns (c : Thread nD τ) arg6 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg1 harg1 arg2 harg2 arg3 harg3 arg4 harg4 arg5 harg5 arg6 harg6) K } := by
  refine ⟨?_, ?_, fun xi3 xi4 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%d2, %f2, -, H2⟩, H3, H4, ⟨%fs, %hfs, HS⟩, Hk⟩
    obtain rfl := harg1.eq_unread hf0; obtain rfl := harg2.eq_unread hf1; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexact H3
    isplitl [H4]; · iexact H4
    iexists _; iexact HS

set_option maxHeartbeats 1000000 in
noncomputable def r3_runC (hc0 : ¬r3_condFirst i) (hc1 : r3_condLast i) (x0 : Vec F S256x32x67 .f32) (x1 : Vec F S67x128 .f32) (xs : Vec F S2x128 .f32) :
    Σ' (L2 : List (View.Piece (Elt F) S256x32x128 .f32)) (L3 : List (View.Piece (Elt F) S1x128 .f32)) (L4 : List (View.Piece (Elt F) S1x128 .f32)),
      { LS : List (View.Piece (Elt F) S2x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d) ∗ owns (c : Thread nD τ) arg6 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg1 harg1 arg2 harg2 arg3 harg3 arg4 harg4 arg5 harg5 arg6 harg6) K } := by
  refine ⟨?_, ?_, ?_, ?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs, %hfs, HS⟩, Hk⟩
    obtain rfl := harg1.eq_unread hf0; obtain rfl := harg2.eq_unread hf1; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS

abbrev r3_VO2 : View sig .tc .vmem S256x32x128 .f32 := (Memref.whole cc3_stg2_0 : Memref sig .tc .vmem S256x32x128 .f32).view
abbrev r3_VO3 : View sig .tc .vmem S1x128 .f32 := (Memref.whole cc3_stg3_0 : Memref sig .tc .vmem S1x128 .f32).view
abbrev r3_VO4 : View sig .tc .vmem S1x128 .f32 := (Memref.whole cc3_stg4_0 : Memref sig .tc .vmem S1x128 .f32).view
abbrev r3_scM : Memref sig .tc .vmem S2x128 .f32 := Memref.whole cc3_scratch0
abbrev r3_VS : View sig .tc .vmem S2x128 .f32 := r3_scM.view
def r3_unread3 : Vec F S1x128 .f32 := r3_VO3.read (Elt F) r3_VO3.junk
def r3_unread4 : Vec F S1x128 .f32 := r3_VO4.read (Elt F) r3_VO4.junk

section
variable (hc0 : r3_condFirst i) (hc1 : ¬r3_condLast i) (x0 : Vec F S256x32x67 .f32) (x1 : Vec F S67x128 .f32)
include hc0 hc1
theorem r3_cover2_A (y : S256x32x128.Idx) :
    ∃ pc ∈ (r3_runA c i arg1 harg1 arg2 harg2 arg3 harg3 arg4 harg4 arg5 harg5 arg6 harg6 hc0 hc1 x0 x1).1, y ∈ pc.1.set :=
  View.cover_of_tiledL (r3_runA c i arg1 harg1 arg2 harg2 arg3 harg3 arg4 harg4 arg5 harg5 arg6 harg6 hc0 hc1 x0 x1).1 S256x32x128.size (by sl_kernel_rfl) y
def r3_out2_A : Vec F S256x32x128 .f32 :=
  r3_VO2.read (Elt F) (r3_VO2.writes (Elt F) r3_VO2.junk (r3_runA c i arg1 harg1 arg2 harg2 arg3 harg3 arg4 harg4 arg5 harg5 arg6 harg6 hc0 hc1 x0 x1).1)
theorem r3_scover_A (y : S2x128.Idx) :
    ∃ pc ∈ (r3_runA c i arg1 harg1 arg2 harg2 arg3 harg3 arg4 harg4 arg5 harg5 arg6 harg6 hc0 hc1 x0 x1).2.1, y ∈ pc.1.set :=
  View.cover_of_tiledL (r3_runA c i arg1 harg1 arg2 harg2 arg3 harg3 arg4 harg4 arg5 harg5 arg6 harg6 hc0 hc1 x0 x1).2.1 S1x128.size (by sl_kernel_rfl) y
def r3_sout_A : Vec F S2x128 .f32 :=
  r3_VS.read (Elt F) (r3_VS.writes (Elt F) r3_VS.junk (r3_runA c i arg1 harg1 arg2 harg2 arg3 harg3 arg4 harg4 arg5 harg5 arg6 harg6 hc0 hc1 x0 x1).2.1)

end
section
variable (hc0 : ¬r3_condFirst i) (hc1 : ¬r3_condLast i) (x0 : Vec F S256x32x67 .f32) (x1 : Vec F S67x128 .f32) (xs : Vec F S2x128 .f32)
include hc0 hc1
theorem r3_cover2_B (y : S256x32x128.Idx) :
    ∃ pc ∈ (r3_runB c i arg1 harg1 arg2 harg2 arg3 harg3 arg4 harg4 arg5 harg5 arg6 harg6 hc0 hc1 x0 x1 xs).1, y ∈ pc.1.set :=
  View.cover_of_tiledL (r3_runB c i arg1 harg1 arg2 harg2 arg3 harg3 arg4 harg4 arg5 harg5 arg6 harg6 hc0 hc1 x0 x1 xs).1 S256x32x128.size (by sl_kernel_rfl) y
def r3_out2_B : Vec F S256x32x128 .f32 :=
  r3_VO2.read (Elt F) (r3_VO2.writes (Elt F) r3_VO2.junk (r3_runB c i arg1 harg1 arg2 harg2 arg3 harg3 arg4 harg4 arg5 harg5 arg6 harg6 hc0 hc1 x0 x1 xs).1)
theorem r3_scover_B (y : S2x128.Idx) :
    ∃ pc ∈ (r3_runB c i arg1 harg1 arg2 harg2 arg3 harg3 arg4 harg4 arg5 harg5 arg6 harg6 hc0 hc1 x0 x1 xs).2.1, y ∈ pc.1.set :=
  View.cover_of_tiledL (r3_runB c i arg1 harg1 arg2 harg2 arg3 harg3 arg4 harg4 arg5 harg5 arg6 harg6 hc0 hc1 x0 x1 xs).2.1 S1x128.size (by sl_kernel_rfl) y
def r3_sout_B : Vec F S2x128 .f32 :=
  r3_VS.read (Elt F) (r3_VS.writes (Elt F) r3_VS.junk (r3_runB c i arg1 harg1 arg2 harg2 arg3 harg3 arg4 harg4 arg5 harg5 arg6 harg6 hc0 hc1 x0 x1 xs).2.1)

end
section
variable (hc0 : ¬r3_condFirst i) (hc1 : r3_condLast i) (x0 : Vec F S256x32x67 .f32) (x1 : Vec F S67x128 .f32) (xs : Vec F S2x128 .f32)
include hc0 hc1
theorem r3_cover2_C (y : S256x32x128.Idx) :
    ∃ pc ∈ (r3_runC c i arg1 harg1 arg2 harg2 arg3 harg3 arg4 harg4 arg5 harg5 arg6 harg6 hc0 hc1 x0 x1 xs).1, y ∈ pc.1.set :=
  View.cover_of_tiledL (r3_runC c i arg1 harg1 arg2 harg2 arg3 harg3 arg4 harg4 arg5 harg5 arg6 harg6 hc0 hc1 x0 x1 xs).1 S256x32x128.size (by sl_kernel_rfl) y
def r3_out2_C : Vec F S256x32x128 .f32 :=
  r3_VO2.read (Elt F) (r3_VO2.writes (Elt F) r3_VO2.junk (r3_runC c i arg1 harg1 arg2 harg2 arg3 harg3 arg4 harg4 arg5 harg5 arg6 harg6 hc0 hc1 x0 x1 xs).1)
theorem r3_scover_C (y : S2x128.Idx) :
    ∃ pc ∈ (r3_runC c i arg1 harg1 arg2 harg2 arg3 harg3 arg4 harg4 arg5 harg5 arg6 harg6 hc0 hc1 x0 x1 xs).2.2.2.1, y ∈ pc.1.set :=
  View.cover_of_tiledL (r3_runC c i arg1 harg1 arg2 harg2 arg3 harg3 arg4 harg4 arg5 harg5 arg6 harg6 hc0 hc1 x0 x1 xs).2.2.2.1 S1x128.size (by sl_kernel_rfl) y
def r3_sout_C : Vec F S2x128 .f32 :=
  r3_VS.read (Elt F) (r3_VS.writes (Elt F) r3_VS.junk (r3_runC c i arg1 harg1 arg2 harg2 arg3 harg3 arg4 harg4 arg5 harg5 arg6 harg6 hc0 hc1 x0 x1 xs).2.2.2.1)

theorem r3_cover3_C (y : S1x128.Idx) :
    ∃ pc ∈ (r3_runC c i arg1 harg1 arg2 harg2 arg3 harg3 arg4 harg4 arg5 harg5 arg6 harg6 hc0 hc1 x0 x1 xs).2.1, y ∈ pc.1.set :=
  View.cover_of_tiledL (r3_runC c i arg1 harg1 arg2 harg2 arg3 harg3 arg4 harg4 arg5 harg5 arg6 harg6 hc0 hc1 x0 x1 xs).2.1 S1x128.size (by sl_kernel_rfl) y
def r3_out3_C : Vec F S1x128 .f32 :=
  r3_VO3.read (Elt F) (r3_VO3.writes (Elt F) r3_VO3.junk (r3_runC c i arg1 harg1 arg2 harg2 arg3 harg3 arg4 harg4 arg5 harg5 arg6 harg6 hc0 hc1 x0 x1 xs).2.1)
theorem r3_cover4_C (y : S1x128.Idx) :
    ∃ pc ∈ (r3_runC c i arg1 harg1 arg2 harg2 arg3 harg3 arg4 harg4 arg5 harg5 arg6 harg6 hc0 hc1 x0 x1 xs).2.2.1, y ∈ pc.1.set :=
  View.cover_of_tiledL (r3_runC c i arg1 harg1 arg2 harg2 arg3 harg3 arg4 harg4 arg5 harg5 arg6 harg6 hc0 hc1 x0 x1 xs).2.2.1 S1x128.size (by sl_kernel_rfl) y
def r3_out4_C : Vec F S1x128 .f32 :=
  r3_VO4.read (Elt F) (r3_VO4.writes (Elt F) r3_VO4.junk (r3_runC c i arg1 harg1 arg2 harg2 arg3 harg3 arg4 harg4 arg5 harg5 arg6 harg6 hc0 hc1 x0 x1 xs).2.2.1)
end
end

def r3_blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_ms0 (t : Fin cfg3.N) : Memref sig .tc .vmem S256x32x67 .f32 := win3_0.stage (cfg3.slots t 0)
abbrev r3_hs0 (t : Fin cfg3.N) : (r3_ms0 t).IsWhole := hstage3_0 ((cfg3.slots t 0).cast nbuf3_0)
abbrev r3_ms1 (t : Fin cfg3.N) : Memref sig .tc .vmem S67x128 .f32 := win3_1.stage (cfg3.slots t 1)
abbrev r3_hs1 (t : Fin cfg3.N) : (r3_ms1 t).IsWhole := hstage3_1 ((cfg3.slots t 1).cast nbuf3_1)
abbrev r3_ms2 (t : Fin cfg3.N) : Memref sig .tc .vmem S256x32x128 .f32 := win3_2.stage (cfg3.slots t 2)
abbrev r3_hs2 (t : Fin cfg3.N) : (r3_ms2 t).IsWhole := hstage3_2 ((cfg3.slots t 2).cast nbuf3_2)
abbrev r3_ms3 (t : Fin cfg3.N) : Memref sig .tc .vmem S1x128 .f32 := win3_3.stage (cfg3.slots t 3)
abbrev r3_hs3 (t : Fin cfg3.N) : (r3_ms3 t).IsWhole := hstage3_3 ((cfg3.slots t 3).cast nbuf3_3)
abbrev r3_ms4 (t : Fin cfg3.N) : Memref sig .tc .vmem S1x128 .f32 := win3_4.stage (cfg3.slots t 4)
abbrev r3_hs4 (t : Fin cfg3.N) : (r3_ms4 t).IsWhole := hstage3_4 ((cfg3.slots t 4).cast nbuf3_4)

def r3_outsAt (c : Dev nD) : (n : ℕ) → n < cfg3.N → Vec F S256x32x128 .f32 × Vec F S1x128 .f32 × Vec F S1x128 .f32 × Vec F S2x128 .f32
  | 0, hn =>
    (r3_out2_A c (grid3.coords ⟨0, hn⟩) (r3_ms0 ⟨0, hn⟩) (r3_hs0 ⟨0, hn⟩) (r3_ms1 ⟨0, hn⟩) (r3_hs1 ⟨0, hn⟩) (r3_ms2 ⟨0, hn⟩) (r3_hs2 ⟨0, hn⟩) (r3_ms3 ⟨0, hn⟩) (r3_hs3 ⟨0, hn⟩) (r3_ms4 ⟨0, hn⟩) (r3_hs4 ⟨0, hn⟩) r3_scM (Memref.isWhole_whole _) ((r3_hFirst ⟨0, hn⟩).mpr (Nat.zero_mod _)) (fun h => (fun h => by (try dsimp only at h); omega) ((r3_hLast ⟨0, hn⟩).mp h)) (r3_blk V c 0 ⟨0, hn⟩) (r3_blk V c 1 ⟨0, hn⟩),
     r3_unread3, r3_unread4,
     r3_sout_A c (grid3.coords ⟨0, hn⟩) (r3_ms0 ⟨0, hn⟩) (r3_hs0 ⟨0, hn⟩) (r3_ms1 ⟨0, hn⟩) (r3_hs1 ⟨0, hn⟩) (r3_ms2 ⟨0, hn⟩) (r3_hs2 ⟨0, hn⟩) (r3_ms3 ⟨0, hn⟩) (r3_hs3 ⟨0, hn⟩) (r3_ms4 ⟨0, hn⟩) (r3_hs4 ⟨0, hn⟩) r3_scM (Memref.isWhole_whole _) ((r3_hFirst ⟨0, hn⟩).mpr (Nat.zero_mod _)) (fun h => (fun h => by (try dsimp only at h); omega) ((r3_hLast ⟨0, hn⟩).mp h)) (r3_blk V c 0 ⟨0, hn⟩) (r3_blk V c 1 ⟨0, hn⟩))
  | n + 1, hn =>
    if h1 : (n + 1) % 32 = 31 then
      (r3_out2_C c (grid3.coords ⟨n + 1, hn⟩) (r3_ms0 ⟨n + 1, hn⟩) (r3_hs0 ⟨n + 1, hn⟩) (r3_ms1 ⟨n + 1, hn⟩) (r3_hs1 ⟨n + 1, hn⟩) (r3_ms2 ⟨n + 1, hn⟩) (r3_hs2 ⟨n + 1, hn⟩) (r3_ms3 ⟨n + 1, hn⟩) (r3_hs3 ⟨n + 1, hn⟩) (r3_ms4 ⟨n + 1, hn⟩) (r3_hs4 ⟨n + 1, hn⟩) r3_scM (Memref.isWhole_whole _) (fun h => (fun h' => by have hN : n + 1 < 32 := lt_of_lt_of_eq hn (show cfg3.N = 32 from N_3); (try dsimp only at h'); omega) ((r3_hFirst ⟨n + 1, hn⟩).mp h)) ((r3_hLast ⟨n + 1, hn⟩).mpr h1) (r3_blk V c 0 ⟨n + 1, hn⟩) (r3_blk V c 1 ⟨n + 1, hn⟩) (r3_outsAt c n (Nat.lt_of_succ_lt hn)).2.2.2,
       r3_out3_C c (grid3.coords ⟨n + 1, hn⟩) (r3_ms0 ⟨n + 1, hn⟩) (r3_hs0 ⟨n + 1, hn⟩) (r3_ms1 ⟨n + 1, hn⟩) (r3_hs1 ⟨n + 1, hn⟩) (r3_ms2 ⟨n + 1, hn⟩) (r3_hs2 ⟨n + 1, hn⟩) (r3_ms3 ⟨n + 1, hn⟩) (r3_hs3 ⟨n + 1, hn⟩) (r3_ms4 ⟨n + 1, hn⟩) (r3_hs4 ⟨n + 1, hn⟩) r3_scM (Memref.isWhole_whole _) (fun h => (fun h' => by have hN : n + 1 < 32 := lt_of_lt_of_eq hn (show cfg3.N = 32 from N_3); (try dsimp only at h'); omega) ((r3_hFirst ⟨n + 1, hn⟩).mp h)) ((r3_hLast ⟨n + 1, hn⟩).mpr h1) (r3_blk V c 0 ⟨n + 1, hn⟩) (r3_blk V c 1 ⟨n + 1, hn⟩) (r3_outsAt c n (Nat.lt_of_succ_lt hn)).2.2.2,
       r3_out4_C c (grid3.coords ⟨n + 1, hn⟩) (r3_ms0 ⟨n + 1, hn⟩) (r3_hs0 ⟨n + 1, hn⟩) (r3_ms1 ⟨n + 1, hn⟩) (r3_hs1 ⟨n + 1, hn⟩) (r3_ms2 ⟨n + 1, hn⟩) (r3_hs2 ⟨n + 1, hn⟩) (r3_ms3 ⟨n + 1, hn⟩) (r3_hs3 ⟨n + 1, hn⟩) (r3_ms4 ⟨n + 1, hn⟩) (r3_hs4 ⟨n + 1, hn⟩) r3_scM (Memref.isWhole_whole _) (fun h => (fun h' => by have hN : n + 1 < 32 := lt_of_lt_of_eq hn (show cfg3.N = 32 from N_3); (try dsimp only at h'); omega) ((r3_hFirst ⟨n + 1, hn⟩).mp h)) ((r3_hLast ⟨n + 1, hn⟩).mpr h1) (r3_blk V c 0 ⟨n + 1, hn⟩) (r3_blk V c 1 ⟨n + 1, hn⟩) (r3_outsAt c n (Nat.lt_of_succ_lt hn)).2.2.2,
       r3_sout_C c (grid3.coords ⟨n + 1, hn⟩) (r3_ms0 ⟨n + 1, hn⟩) (r3_hs0 ⟨n + 1, hn⟩) (r3_ms1 ⟨n + 1, hn⟩) (r3_hs1 ⟨n + 1, hn⟩) (r3_ms2 ⟨n + 1, hn⟩) (r3_hs2 ⟨n + 1, hn⟩) (r3_ms3 ⟨n + 1, hn⟩) (r3_hs3 ⟨n + 1, hn⟩) (r3_ms4 ⟨n + 1, hn⟩) (r3_hs4 ⟨n + 1, hn⟩) r3_scM (Memref.isWhole_whole _) (fun h => (fun h' => by have hN : n + 1 < 32 := lt_of_lt_of_eq hn (show cfg3.N = 32 from N_3); (try dsimp only at h'); omega) ((r3_hFirst ⟨n + 1, hn⟩).mp h)) ((r3_hLast ⟨n + 1, hn⟩).mpr h1) (r3_blk V c 0 ⟨n + 1, hn⟩) (r3_blk V c 1 ⟨n + 1, hn⟩) (r3_outsAt c n (Nat.lt_of_succ_lt hn)).2.2.2)
    else
      (r3_out2_B c (grid3.coords ⟨n + 1, hn⟩) (r3_ms0 ⟨n + 1, hn⟩) (r3_hs0 ⟨n + 1, hn⟩) (r3_ms1 ⟨n + 1, hn⟩) (r3_hs1 ⟨n + 1, hn⟩) (r3_ms2 ⟨n + 1, hn⟩) (r3_hs2 ⟨n + 1, hn⟩) (r3_ms3 ⟨n + 1, hn⟩) (r3_hs3 ⟨n + 1, hn⟩) (r3_ms4 ⟨n + 1, hn⟩) (r3_hs4 ⟨n + 1, hn⟩) r3_scM (Memref.isWhole_whole _) (fun h => (fun h' => by have hN : n + 1 < 32 := lt_of_lt_of_eq hn (show cfg3.N = 32 from N_3); (try dsimp only at h'); omega) ((r3_hFirst ⟨n + 1, hn⟩).mp h)) (fun h => h1 ((r3_hLast ⟨n + 1, hn⟩).mp h)) (r3_blk V c 0 ⟨n + 1, hn⟩) (r3_blk V c 1 ⟨n + 1, hn⟩) (r3_outsAt c n (Nat.lt_of_succ_lt hn)).2.2.2,
       r3_unread3, r3_unread4,
       r3_sout_B c (grid3.coords ⟨n + 1, hn⟩) (r3_ms0 ⟨n + 1, hn⟩) (r3_hs0 ⟨n + 1, hn⟩) (r3_ms1 ⟨n + 1, hn⟩) (r3_hs1 ⟨n + 1, hn⟩) (r3_ms2 ⟨n + 1, hn⟩) (r3_hs2 ⟨n + 1, hn⟩) (r3_ms3 ⟨n + 1, hn⟩) (r3_hs3 ⟨n + 1, hn⟩) (r3_ms4 ⟨n + 1, hn⟩) (r3_hs4 ⟨n + 1, hn⟩) r3_scM (Memref.isWhole_whole _) (fun h => (fun h' => by have hN : n + 1 < 32 := lt_of_lt_of_eq hn (show cfg3.N = 32 from N_3); (try dsimp only at h'); omega) ((r3_hFirst ⟨n + 1, hn⟩).mp h)) (fun h => h1 ((r3_hLast ⟨n + 1, hn⟩).mp h)) (r3_blk V c 0 ⟨n + 1, hn⟩) (r3_blk V c 1 ⟨n + 1, hn⟩) (r3_outsAt c n (Nat.lt_of_succ_lt hn)).2.2.2)

theorem r3_outsAt_A (c : Dev nD) (t : Fin cfg3.N) (h0 : t.val % 32 = 0) (h1 : ¬t.val % 32 = 31) :
    r3_outsAt V c t.val t.isLt =
      (r3_out2_A c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) ((r3_hFirst t).mpr h0) (fun h => h1 ((r3_hLast t).mp h)) (r3_blk V c 0 t) (r3_blk V c 1 t),
       r3_unread3, r3_unread4,
       r3_sout_A c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) ((r3_hFirst t).mpr h0) (fun h => h1 ((r3_hLast t).mp h)) (r3_blk V c 0 t) (r3_blk V c 1 t)) := by
  obtain ⟨n, hn⟩ := t
  cases n with
  | zero => exact rfl
  | succ n => exact (by exfalso; have hN : n + 1 < 32 := lt_of_lt_of_eq hn (show cfg3.N = 32 from N_3); (try dsimp only at h0); omega)

theorem r3_outsAt_B (c : Dev nD) (t : Fin cfg3.N) (h0 : ¬t.val % 32 = 0) (h1 : ¬t.val % 32 = 31) :
    r3_outsAt V c t.val t.isLt =
      (r3_out2_B c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) (fun h => h1 ((r3_hLast t).mp h)) (r3_blk V c 0 t) (r3_blk V c 1 t) (r3_outsAt V c (t.val - 1) (Nat.lt_of_le_of_lt (Nat.sub_le _ _) t.isLt)).2.2.2,
       r3_unread3, r3_unread4,
       r3_sout_B c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) (fun h => h1 ((r3_hLast t).mp h)) (r3_blk V c 0 t) (r3_blk V c 1 t) (r3_outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

theorem r3_outsAt_C (c : Dev nD) (t : Fin cfg3.N) (h0 : ¬t.val % 32 = 0) (h1 : t.val % 32 = 31) :
    r3_outsAt V c t.val t.isLt =
      (r3_out2_C c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) ((r3_hLast t).mpr h1) (r3_blk V c 0 t) (r3_blk V c 1 t) (r3_outsAt V c (t.val - 1) (Nat.lt_of_le_of_lt (Nat.sub_le _ _) t.isLt)).2.2.2,
       r3_out3_C c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) ((r3_hLast t).mpr h1) (r3_blk V c 0 t) (r3_blk V c 1 t) (r3_outsAt V c (t.val - 1) (Nat.lt_of_le_of_lt (Nat.sub_le _ _) t.isLt)).2.2.2,
       r3_out4_C c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) ((r3_hLast t).mpr h1) (r3_blk V c 0 t) (r3_blk V c 1 t) (r3_outsAt V c (t.val - 1) (Nat.lt_of_le_of_lt (Nat.sub_le _ _) t.isLt)).2.2.2,
       r3_sout_C c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) ((r3_hLast t).mpr h1) (r3_blk V c 0 t) (r3_blk V c 1 t) (r3_outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

def r3_Phi (c : Dev nD) : (n : ℕ) → n ≤ cfg3.N → sProp 𝕄
  | 0, _ => iprop((∃ d, owns (c : Thread nD τ) r3_scM fullShare d)
      ∗ Pipeline.scopedRestBut (Ix := Unit) (Name := ℕ) (U := UR sig nD τ) (Lvl := ℕ) (Val := Elt F) spec3 c [cc3_scratch0])
  | n + 1, hn => iprop(owns (c : Thread nD τ) r3_scM fullShare ((r3_outsAt V c n hn).2.2.2)
      ∗ Pipeline.scopedRestBut (Ix := Unit) (Name := ℕ) (U := UR sig nD τ) (Lvl := ℕ) (Val := Elt F) spec3 c [cc3_scratch0])

theorem r3_Phi_zero (c : Dev nD) (n : ℕ) (h : n ≤ cfg3.N) (hz : n = 0) :
    r3_Phi V c n h = iprop((∃ d, owns (c : Thread nD τ) r3_scM fullShare d)
      ∗ Pipeline.scopedRestBut (Ix := Unit) (Name := ℕ) (U := UR sig nD τ) (Lvl := ℕ) (Val := Elt F) spec3 c [cc3_scratch0]) := by
  subst hz; rfl

theorem r3_Phi_succ (c : Dev nD) (n : ℕ) (hn : n < cfg3.N) :
    r3_Phi V c (n + 1) hn = iprop(owns (c : Thread nD τ) r3_scM fullShare ((r3_outsAt V c n hn).2.2.2)
      ∗ Pipeline.scopedRestBut (Ix := Unit) (Name := ℕ) (U := UR sig nD τ) (Lvl := ℕ) (Val := Elt F) spec3 c [cc3_scratch0]) := rfl

theorem r3_Phi_pos (c : Dev nD) (n : ℕ) (h : n ≤ cfg3.N) (hz : n ≠ 0) :
    r3_Phi V c n h = iprop(owns (c : Thread nD τ) r3_scM fullShare ((r3_outsAt V c (n - 1) (by omega)).2.2.2)
      ∗ Pipeline.scopedRestBut (Ix := Unit) (Name := ℕ) (U := UR sig nD τ) (Lvl := ℕ) (Val := Elt F) spec3 c [cc3_scratch0]) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => r3_blk V c 0 t
    | ⟨1, _⟩ => r3_blk V c 1 t
    | ⟨2, _⟩ => (r3_outsAt V c t.val t.isLt).1
    | ⟨3, _⟩ => (r3_outsAt V c t.val t.isLt).2.1
    | ⟨4, _⟩ => (r3_outsAt V c t.val t.isLt).2.2.1
  Φ t := r3_Phi V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem owed3 (c : Dev nD) (t) : (dat3 V c).owed t = 0 := rfl
theorem share3 (c : Dev nD) (w) : (dat3 V c).q w = fullShare := rfl

theorem r3_Phi_castSucc (c : Dev nD) (t : Fin cfg3.N) :
    (dat3 V c).Φ t.castSucc = r3_Phi V c t.val (Nat.le_of_lt t.isLt) := by
  dsimp only [dat3]; simp only [Fin.coe_castSucc]

theorem r3_after0 (c : Dev nD) (t : Fin cfg3.N) : (dat3 V c).after 0 t = r3_blk V c 0 t := by dsimp only [dat3]
theorem r3_after1 (c : Dev nD) (t : Fin cfg3.N) : (dat3 V c).after 1 t = r3_blk V c 1 t := by dsimp only [dat3]
theorem r3_after2 (c : Dev nD) (t : Fin cfg3.N) : (dat3 V c).after 2 t = (r3_outsAt V c t.val t.isLt).1 := by dsimp only [dat3]
theorem r3_after3 (c : Dev nD) (t : Fin cfg3.N) : (dat3 V c).after 3 t = (r3_outsAt V c t.val t.isLt).2.1 := by dsimp only [dat3]
theorem r3_after4 (c : Dev nD) (t : Fin cfg3.N) : (dat3 V c).after 4 t = (r3_outsAt V c t.val t.isLt).2.2.1 := by dsimp only [dat3]

theorem r3_before0 (c : Dev nD) (t : Fin cfg3.N) (d) : (dat3 V c).before 0 t d = r3_blk V c 0 t :=
  ((dat3 V c).before_in_eq_fetched 0 rfl (fun _ => rfl) (fun _ _ _ => rfl)
    (fun t => by rw [r3_after0]; unfold Dat.blockOf r3_blk; rw [A_eq3]; try rfl) t d).trans
    (by unfold Dat.fetched Dat.blockOf r3_blk; rw [A_eq3]; try rfl)
theorem r3_before1 (c : Dev nD) (t : Fin cfg3.N) (d) : (dat3 V c).before 1 t d = r3_blk V c 1 t :=
  ((dat3 V c).before_in_eq_fetched 1 rfl (fun _ => rfl) (fun _ _ _ => rfl)
    (fun t => by rw [r3_after1]; unfold Dat.blockOf r3_blk; rw [A_eq3]; try rfl) t d).trans
    (by unfold Dat.fetched Dat.blockOf r3_blk; rw [A_eq3]; try rfl)

def r3_bodyPre (c : Dev nD) (t : Fin cfg3.N) : sProp 𝕄 :=
  iprop((dat3 V c).Φ t.castSucc ∗ (dat3 V c).owesAt () t.castSucc
    ∗ (∃ d, owns (c : Thread nD τ) (r3_ms0 t) fullShare ((dat3 V c).before 0 t d))
    ∗ (∃ d, owns (c : Thread nD τ) (r3_ms1 t) fullShare ((dat3 V c).before 1 t d))
    ∗ (∃ d, owns (c : Thread nD τ) (r3_ms2 t) fullShare ((dat3 V c).before 2 t d))
    ∗ (∃ d, owns (c : Thread nD τ) (r3_ms3 t) fullShare ((dat3 V c).before 3 t d))
    ∗ (∃ d, owns (c : Thread nD τ) (r3_ms4 t) fullShare ((dat3 V c).before 4 t d)))

def r3_bodyPost (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t)

set_option maxHeartbeats 4800000 in
theorem r3_sound_body (c : Dev nD) (t : Fin cfg3.N) :
    r3_bodyPre V c t ⊢ wp frame (wpE (defs₀ (F := F)) Variants.none c none) Set.univ (bodyAt3 t) (fun _ => r3_bodyPost V c t) := by
  unfold r3_bodyPre r3_bodyPost bodyAt3
  simp only [r3_before0, r3_before1]
  rw [show (dat3 V c).owesAt () t.succ = (dat3 V c).owesAt () t.castSucc from rfl]
  rw [show (dat3 V c).Φ t.succ = r3_Phi V c (t.val + 1) t.isLt from rfl, r3_Phi_succ]
  have hN : t.val < 32 := lt_of_lt_of_eq t.isLt (show cfg3.N = 32 from N_3)
  rw [show (dat3 V c).leavesExact 0 t = owns (c : Thread nD τ) (r3_ms0 t) fullShare ((dat3 V c).after 0 t) from by
    unfold Dat.leavesExact; rw [r3_live0 t], r3_after0]
  rw [show (dat3 V c).leavesExact 1 t = owns (c : Thread nD τ) (r3_ms1 t) fullShare ((dat3 V c).after 1 t) from by
    unfold Dat.leavesExact; rw [r3_live1 t], r3_after1]
  rw [show (dat3 V c).leavesExact 2 t = owns (c : Thread nD τ) (r3_ms2 t) fullShare ((dat3 V c).after 2 t) from by
    unfold Dat.leavesExact; rw [r3_live2 t], r3_after2]
  by_cases h0 : t.val % 32 = 0
  · have h1 : ¬t.val % 32 = 31 := by omega
    have hz : t.val = 0 := by omega
    rw [Dat.leavesExact_idle (dat3 V c) 3 t (r3_idle3 t (fun h => h1 ((r3_hLast t).mp h))) (r3_noFlush3 t (fun h => h1 ((r3_hLast t).mp h)))]
    rw [Dat.leavesExact_idle (dat3 V c) 4 t (r3_idle4 t (fun h => h1 ((r3_hLast t).mp h))) (r3_noFlush4 t (fun h => h1 ((r3_hLast t).mp h)))]
    rw [r3_outsAt_A V c t h0 h1]
    unfold r3_out2_A r3_sout_A; (try dsimp only)
    rw [r3_Phi_castSucc V c t, r3_Phi_zero V c _ _ hz]
    iintro ⟨⟨HS, HR⟩, Ho, ⟨%d0, H0⟩, ⟨%d1, H1⟩, ⟨%d2, H2⟩, ⟨%d3, H3⟩, ⟨%d4, H4⟩⟩
    iapply ((r3_runA c (grid3.coords t) _ _ _ _ _ _ _ _ _ _ _ _ ((r3_hFirst t).mpr h0) (fun h => h1 ((r3_hLast t).mp h)) (r3_blk V c 0 t) (r3_blk V c 1 t)).2.2 _ _ Set.univ _)
    isplitl [H0]; · iexact H0
    isplitl [H1]; · iexact H1
    isplitl [H2]; · iexists _; iexact H2
    isplitl [H3]; · iexact H3
    isplitl [H4]; · iexact H4
    isplitl [HS]; · iexact HS
    iintro ⟨H0, H1, ⟨%e2, H2⟩, H3, H4, ⟨%es, HS⟩⟩
    isplitl [HS HR]
    · isplitl [HS]
      · unfold owns; iexists _; isplitr
        swap; · iexact HS
        ipureintro; exact View.read_writes_of_cover _ _ _ _ _ (r3_scover_A c _ _ _ _ _ _ _ _ _ _ _ _ _ _ _ _ _)
      iexact HR
    isplitl [Ho]; · iexact Ho
    isplitl [H0]; · iexact H0
    isplitl [H1]; · iexact H1
    isplitl [H2]
    · unfold owns; iexists _; isplitr
      swap; · iexact H2
      ipureintro; exact View.read_writes_of_cover _ _ _ _ _ (r3_cover2_A c _ _ _ _ _ _ _ _ _ _ _ _ _ _ _ _ _)
    isplitl [H3]; · iexists _; iexact H3
    iexists _; iexact H4
  · have hz : t.val ≠ 0 := fun e => h0 (by rw [e])
    by_cases h1 : t.val % 32 = 31
    · rw [show (dat3 V c).leavesExact 3 t = owns (c : Thread nD τ) (r3_ms3 t) fullShare ((dat3 V c).after 3 t) from by
        unfold Dat.leavesExact; rw [r3_live3 t ((r3_hLast t).mpr h1)], r3_after3]
      rw [show (dat3 V c).leavesExact 4 t = owns (c : Thread nD τ) (r3_ms4 t) fullShare ((dat3 V c).after 4 t) from by
        unfold Dat.leavesExact; rw [r3_live4 t ((r3_hLast t).mpr h1)], r3_after4]
      rw [r3_outsAt_C V c t h0 h1]
      unfold r3_out2_C r3_out3_C r3_out4_C r3_sout_C; (try dsimp only)
      rw [r3_Phi_castSucc V c t, r3_Phi_pos V c _ _ hz]
      iintro ⟨⟨HS, HR⟩, Ho, ⟨%d0, H0⟩, ⟨%d1, H1⟩, ⟨%d2, H2⟩, ⟨%d3, H3⟩, ⟨%d4, H4⟩⟩
      iapply ((r3_runC c (grid3.coords t) _ _ _ _ _ _ _ _ _ _ _ _ (fun h => h0 ((r3_hFirst t).mp h)) ((r3_hLast t).mpr h1) (r3_blk V c 0 t) (r3_blk V c 1 t) _).2.2.2.2 Set.univ _)
      isplitl [H0]; · iexact H0
      isplitl [H1]; · iexact H1
      isplitl [H2]; · iexists _; iexact H2
      isplitl [H3]; · iexists _; iexact H3
      isplitl [H4]; · iexists _; iexact H4
      isplitl [HS]; · iexact HS
      iintro ⟨H0, H1, ⟨%e2, H2⟩, ⟨%e3, H3⟩, ⟨%e4, H4⟩, ⟨%es, HS⟩⟩
      isplitl [HS HR]
      · isplitl [HS]
        · unfold owns; iexists _; isplitr
          swap; · iexact HS
          ipureintro; exact View.read_writes_of_cover _ _ _ _ _ (r3_scover_C c _ _ _ _ _ _ _ _ _ _ _ _ _ _ _ _ _ _)
        iexact HR
      isplitl [Ho]; · iexact Ho
      isplitl [H0]; · iexact H0
      isplitl [H1]; · iexact H1
      isplitl [H2]
      · unfold owns; iexists _; isplitr
        swap; · iexact H2
        ipureintro; exact View.read_writes_of_cover _ _ _ _ _ (r3_cover2_C c _ _ _ _ _ _ _ _ _ _ _ _ _ _ _ _ _ _)
      isplitl [H3]
      · unfold owns; iexists _; isplitr
        swap; · iexact H3
        ipureintro; exact View.read_writes_of_cover _ _ _ _ _ (r3_cover3_C c _ _ _ _ _ _ _ _ _ _ _ _ _ _ _ _ _ _)
      unfold owns; iexists _; isplitr
      swap; · iexact H4
      ipureintro; exact View.read_writes_of_cover _ _ _ _ _ (r3_cover4_C c _ _ _ _ _ _ _ _ _ _ _ _ _ _ _ _ _ _)
    · rw [Dat.leavesExact_idle (dat3 V c) 3 t (r3_idle3 t (fun h => h1 ((r3_hLast t).mp h))) (r3_noFlush3 t (fun h => h1 ((r3_hLast t).mp h)))]
      rw [Dat.leavesExact_idle (dat3 V c) 4 t (r3_idle4 t (fun h => h1 ((r3_hLast t).mp h))) (r3_noFlush4 t (fun h => h1 ((r3_hLast t).mp h)))]
      rw [r3_outsAt_B V c t h0 h1]
      unfold r3_out2_B r3_sout_B; (try dsimp only)
      rw [r3_Phi_castSucc V c t, r3_Phi_pos V c _ _ hz]
      iintro ⟨⟨HS, HR⟩, Ho, ⟨%d0, H0⟩, ⟨%d1, H1⟩, ⟨%d2, H2⟩, ⟨%d3, H3⟩, ⟨%d4, H4⟩⟩
      iapply ((r3_runB c (grid3.coords t) _ _ _ _ _ _ _ _ _ _ _ _ (fun h => h0 ((r3_hFirst t).mp h)) (fun h => h1 ((r3_hLast t).mp h)) (r3_blk V c 0 t) (r3_blk V c 1 t) _).2.2 _ _ Set.univ _)
      isplitl [H0]; · iexact H0
      isplitl [H1]; · iexact H1
      isplitl [H2]; · iexists _; iexact H2
      isplitl [H3]; · iexact H3
      isplitl [H4]; · iexact H4
      isplitl [HS]; · iexact HS
      iintro ⟨H0, H1, ⟨%e2, H2⟩, H3, H4, ⟨%es, HS⟩⟩
      isplitl [HS HR]
      · isplitl [HS]
        · unfold owns; iexists _; isplitr
          swap; · iexact HS
          ipureintro; exact View.read_writes_of_cover _ _ _ _ _ (r3_scover_B c _ _ _ _ _ _ _ _ _ _ _ _ _ _ _ _ _ _)
        iexact HR
      isplitl [Ho]; · iexact Ho
      isplitl [H0]; · iexact H0
      isplitl [H1]; · iexact H1
      isplitl [H2]
      · unfold owns; iexists _; isplitr
        swap; · iexact H2
        ipureintro; exact View.read_writes_of_cover _ _ _ _ _ (r3_cover2_B c _ _ _ _ _ _ _ _ _ _ _ _ _ _ _ _ _ _)
      isplitl [H3]; · iexists _; iexact H3
      iexists _; iexact H4

theorem body_obligation3 (c : Dev nD) : BodyObligation (dat3 (F := F) V c) (defs₀ (F := F)) Variants.none () Set.univ := fun t => by
  rw [bigSep_W3, bigSep_W3]
  exact r3_sound_body V c t

theorem phi3_in (c : Dev nD) : (Pipeline.scopedRest (Ix := Unit) (Name := ℕ) (U := UR sig nD τ) (Lvl := ℕ) (Val := Elt F) spec3 c : sProp 𝕄) ⊢ (dat3 V c).Φ 0 := by
  rw [show (dat3 V c).Φ 0 = r3_Phi V c 0 (Nat.zero_le _) from rfl, r3_Phi_zero V c 0 _ rfl, scopedRest3_split]
  simp only [r3_scM, owns_whole]
  exact Idealize.SL.BI.Entails.refl _

theorem phi3_out (c : Dev nD) : (dat3 V c).Φ (Fin.last cfg3.N) ⊢ (Pipeline.scopedRest (Ix := Unit) (Name := ℕ) (U := UR sig nD τ) (Lvl := ℕ) (Val := Elt F) spec3 c : sProp 𝕄) := by
  rw [show (dat3 V c).Φ (Fin.last cfg3.N) = r3_Phi V c (Fin.last cfg3.N).val (Nat.le_of_lt_succ (Fin.last cfg3.N).isLt) from rfl,
    r3_Phi_pos V c _ _ (by rw [Fin.val_last]; have : cfg3.N = 32 := N_3; omega), scopedRest3_split]
  simp only [r3_scM, owns_whole]
  iintro ⟨HS, HR⟩
  isplitl [HS]
  · iexists _; iexact HS
  iexact HR

end Cert.KernelIdeal.Hand
end
-- ==== Proof.KiR4.lean ====
import proofs.«157081_j85761906966880_1_alg».proof.Proof.Gen.KernelIdeal.Launch
import proofs.«157081_j85761906966880_1_alg».proof.Proof.Gen.KernelIdeal.Skeleton
import proofs.«157081_j85761906966880_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 32 = 0 :=
  (by decide +kernel : ∀ t : Fin grid4.N, cond4_0 (grid4.coords t) ↔ t.val % 32 = 0)
abbrev cond4_1 (i : grid4.Coords) : Prop := k4_cond2 i = 1#1
theorem hcond4_1 : ∀ t : Fin cfg4.N, cond4_1 (grid4.coords t) ↔ t.val % 32 = 31 :=
  (by decide +kernel : ∀ t : Fin grid4.N, cond4_1 (grid4.coords t) ↔ t.val % 32 = 31)

theorem cond4_0_of (t : Fin cfg4.N) (h0 : t.val = 0) : cond4_0 (grid4.coords t) := (hcond4_0 t).mpr (by rw [h0])
theorem ncond4_0_of (t : Fin cfg4.N) (h0 : t.val ≠ 0) : ¬cond4_0 (grid4.coords t) := fun h => by
  have h' := (hcond4_0 t).mp h
  have hN : t.val < 32 := lt_of_lt_of_eq t.isLt (show cfg4.N = 32 from N_4)
  omega
theorem cond4_1_of (t : Fin cfg4.N) (h1 : t.val % 32 = 31) : cond4_1 (grid4.coords t) := (hcond4_1 t).mpr h1
theorem ncond4_1_of (t : Fin cfg4.N) (h1 : ¬t.val % 32 = 31) : ¬cond4_1 (grid4.coords t) := fun h => h1 ((hcond4_1 t).mp h)

theorem idleAt4_7 : ∀ t : Fin cfg4.N, ¬cond4_1 (grid4.coords t) → cfg4.idle 7 (grid4.coords t) = true := by decide +kernel
theorem idleAt4_8 : ∀ t : Fin cfg4.N, ¬cond4_1 (grid4.coords t) → cfg4.idle 8 (grid4.coords t) = true := by decide +kernel
theorem noFlush4_7 : ∀ t : Fin cfg4.N, ¬cond4_1 (grid4.coords t) → (cfg4.win 7).flush t = false := by decide +kernel
theorem noFlush4_8 : ∀ t : Fin cfg4.N, ¬cond4_1 (grid4.coords t) → (cfg4.win 8).flush t = false := by decide +kernel
theorem liveAt4_7 : ∀ t : Fin cfg4.N, cond4_1 (grid4.coords t) → cfg4.idle 7 (grid4.coords t) = false := by decide +kernel
theorem liveAt4_8 : ∀ t : Fin cfg4.N, cond4_1 (grid4.coords t) → cfg4.idle 8 (grid4.coords t) = false := by decide +kernel
theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl
theorem liveAt4_6 : ∀ t : Fin cfg4.N, cfg4.idle 6 (grid4.coords t) = false := fun _ => rfl

abbrev ms4_0 (t : Fin cfg4.N) : Memref sig .tc .vmem S256x32x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S128x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S256x32x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
abbrev scM4 : Memref sig .tc .vmem S2x128 .f32 := Memref.whole cc4_scratch0

theorem scopedRest4_eq (c : Dev nD) :
    (Pipeline.scopedRest (Ix := Unit) (Name := ℕ) (U := UR sig nD τ) (Lvl := ℕ) (Val := Elt F) spec4 c : sProp 𝕄)
      = iprop(iprop((∃ d, owns (c : Thread nD τ) scM4 fullShare d))
          ∗ Pipeline.scopedRestBut (Ix := Unit) (Name := ℕ) (U := UR sig nD τ) (Lvl := ℕ) (Val := Elt F) spec4 c [cc4_scratch0]) := by
  rw [scopedRest4_split]; simp only [scM4, owns_whole]; rfl

section
variable (c : Dev nD) (i : grid4.Coords) (arg1 : Memref sig .tc .vmem S256x32x128 .f32) (harg1 : arg1.IsWhole) (arg2 : Memref sig .tc .vmem S1x1x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128x128 .f32) (harg6 : arg6.IsWhole) (arg7 : Memref sig .tc .vmem S256x32x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2x128 .f32) (harg10 : arg10.IsWhole)
set_option maxHeartbeats 4000000 in
noncomputable def kernelRun4_A (hc0 : cond4_0 i) (hc1 : ¬cond4_1 i)
    (x0 : Vec F S256x32x128 .f32) (x1 x2 x3 x4 : Vec F S1x1x128 .f32) (x5 : Vec F S128x128 .f32) :
    Σ' (L6 : List (View.Piece (Elt F) S256x32x128 .f32)), { LS0 : List (View.Piece (Elt F) S2x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xi8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7 ∗ owns (c : Thread nD τ) arg9 fullShare xi8
                ∗ (∃ f, arg10.view.loc (c : Thread nD τ) ↦[arg10.view.set]{fullShare} arg10.view.writes (Elt F) f LS0)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10) K } := by
  refine ⟨?_, ?_, fun xi7 xi8 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    iexists _; iexact HS0

set_option maxHeartbeats 4000000 in
noncomputable def kernelRun4_B (hc0 : ¬cond4_0 i) (hc1 : ¬cond4_1 i)
    (x0 : Vec F S256x32x128 .f32) (x1 x2 x3 x4 : Vec F S1x1x128 .f32) (x5 : Vec F S128x128 .f32) (xs0 : Vec F S2x128 .f32) :
    Σ' (L6 : List (View.Piece (Elt F) S256x32x128 .f32)), { LS0 : List (View.Piece (Elt F) S2x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xi8 ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7 ∗ owns (c : Thread nD τ) arg9 fullShare xi8
                ∗ (∃ f, arg10.view.loc (c : Thread nD τ) ↦[arg10.view.set]{fullShare} arg10.view.writes (Elt F) f LS0)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10) K } := by
  refine ⟨?_, ?_, fun xi7 xi8 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    iexists _; iexact HS0

set_option maxHeartbeats 4000000 in
noncomputable def kernelRun4_C (hc0 : ¬cond4_0 i) (hc1 : cond4_1 i)
    (x0 : Vec F S256x32x128 .f32) (x1 x2 x3 x4 : Vec F S1x1x128 .f32) (x5 : Vec F S128x128 .f32) (xs0 : Vec F S2x128 .f32) :
    Σ' (L6 : List (View.Piece (Elt F) S256x32x128 .f32)) (L7 : List (View.Piece (Elt F) S1x128 .f32)) (L8 : List (View.Piece (Elt F) S1x128 .f32)), { LS0 : List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f LS0)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact HS0

section
variable (hc0 : cond4_0 i) (hc1 : ¬cond4_1 i) (x0 : Vec F S256x32x128 .f32) (x1 x2 x3 x4 : Vec F S1x1x128 .f32) (x5 : Vec F S128x128 .f32)
include hc0 hc1

theorem cover4_A_6 (y : S256x32x128.Idx) : ∃ pc ∈ (kernelRun4_A c i arg1 harg1 arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4 x5).1 S256x32x128.size (by sl_kernel_rfl) y
theorem scover4_A (y : S2x128.Idx) : ∃ pc ∈ (kernelRun4_A c i arg1 harg1 arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4 x5).2.1 S1x128.size (by sl_kernel_rfl) y
def out4_A_6 : Vec F S256x32x128 .f32 := View.canon (kernelRun4_A c i arg1 harg1 arg2 harg2 arg3 harg3 arg4 harg4 arg5 harg5 arg6 harg6 arg7 harg7 arg8 harg8 arg9 harg9 arg10 harg10 hc0 hc1 x0 x1 x2 x3 x4 x5).1
def sout4_A : Vec F S2x128 .f32 := View.canon (kernelRun4_A c i arg1 harg1 arg2 harg2 arg3 harg3 arg4 harg4 arg5 harg5 arg6 harg6 arg7 harg7 arg8 harg8 arg9 harg9 arg10 harg10 hc0 hc1 x0 x1 x2 x3 x4 x5).2.1

end
section
variable (hc0 : ¬cond4_0 i) (hc1 : ¬cond4_1 i) (x0 : Vec F S256x32x128 .f32) (x1 x2 x3 x4 : Vec F S1x1x128 .f32) (x5 : Vec F S128x128 .f32) (xs0 : Vec F S2x128 .f32)
include hc0 hc1
theorem cover4_B_6 (y : S256x32x128.Idx) : ∃ pc ∈ (kernelRun4_B c i arg1 harg1 arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 x5 xs0).1 S256x32x128.size (by sl_kernel_rfl) y
theorem scover4_B (y : S2x128.Idx) : ∃ pc ∈ (kernelRun4_B c i arg1 harg1 arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 x5 xs0).2.1 S1x128.size (by sl_kernel_rfl) y
def out4_B_6 : Vec F S256x32x128 .f32 := View.canon (kernelRun4_B c i arg1 harg1 arg2 harg2 arg3 harg3 arg4 harg4 arg5 harg5 arg6 harg6 arg7 harg7 arg8 harg8 arg9 harg9 arg10 harg10 hc0 hc1 x0 x1 x2 x3 x4 x5 xs0).1
def sout4_B : Vec F S2x128 .f32 := View.canon (kernelRun4_B c i arg1 harg1 arg2 harg2 arg3 harg3 arg4 harg4 arg5 harg5 arg6 harg6 arg7 harg7 arg8 harg8 arg9 harg9 arg10 harg10 hc0 hc1 x0 x1 x2 x3 x4 x5 xs0).2.1

end
section
variable (hc0 : ¬cond4_0 i) (hc1 : cond4_1 i) (x0 : Vec F S256x32x128 .f32) (x1 x2 x3 x4 : Vec F S1x1x128 .f32) (x5 : Vec F S128x128 .f32) (xs0 : Vec F S2x128 .f32)
include hc0 hc1
theorem cover4_C_6 (y : S256x32x128.Idx) : ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0).1 S256x32x128.size (by sl_kernel_rfl) y
theorem cover4_C_7 (y : S1x128.Idx) : ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0).2.1 S1x128.size (by sl_kernel_rfl) y
theorem cover4_C_8 (y : S1x128.Idx) : ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0).2.2.1 S1x128.size (by sl_kernel_rfl) y
theorem scover4_C (y : S2x128.Idx) : ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 xs0).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 xs0).2.2.2.1 S1x128.size (by sl_kernel_rfl) y
def out4_C_6 : Vec F S256x32x128 .f32 := View.canon (kernelRun4_C c i arg1 harg1 arg2 harg2 arg3 harg3 arg4 harg4 arg5 harg5 arg6 harg6 arg7 harg7 arg8 harg8 arg9 harg9 arg10 harg10 hc0 hc1 x0 x1 x2 x3 x4 x5 xs0).1
def out4_C_7 : Vec F S1x128 .f32 := View.canon (kernelRun4_C c i arg1 harg1 arg2 harg2 arg3 harg3 arg4 harg4 arg5 harg5 arg6 harg6 arg7 harg7 arg8 harg8 arg9 harg9 arg10 harg10 hc0 hc1 x0 x1 x2 x3 x4 x5 xs0).2.1
def out4_C_8 : Vec F S1x128 .f32 := View.canon (kernelRun4_C c i arg1 harg1 arg2 harg2 arg3 harg3 arg4 harg4 arg5 harg5 arg6 harg6 arg7 harg7 arg8 harg8 arg9 harg9 arg10 harg10 hc0 hc1 x0 x1 x2 x3 x4 x5 xs0).2.2.1
def sout4_C : Vec F S2x128 .f32 := View.canon (kernelRun4_C c i arg1 harg1 arg2 harg2 arg3 harg3 arg4 harg4 arg5 harg5 arg6 harg6 arg7 harg7 arg8 harg8 arg9 harg9 arg10 harg10 hc0 hc1 x0 x1 x2 x3 x4 x5 xs0).2.2.2.1
end
end

def jnk4 : Vec F S1x128 .f32 := View.canon (Val := Elt F) (s := S1x128) (e := .f32) []

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

def outsAt4 (c : Dev nD) : (n : ℕ) → n < cfg4.N → Vec F S256x32x128 .f32 × Vec F S1x128 .f32 × Vec F S1x128 .f32 × Vec F S2x128 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4 (Memref.isWhole_whole _) (cond4_0_of ⟨0, hn⟩ rfl) (ncond4_1_of ⟨0, hn⟩ (show ¬(0 % 32 = 31) from by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), jnk4, jnk4, sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4 (Memref.isWhole_whole _) (cond4_0_of ⟨0, hn⟩ rfl) (ncond4_1_of ⟨0, hn⟩ (show ¬(0 % 32 = 31) from by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h1 : (n + 1) % 32 = 31 then
      (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) (ncond4_0_of ⟨n + 1, hn⟩ (Nat.succ_ne_zero n)) (cond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2, out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) (ncond4_0_of ⟨n + 1, hn⟩ (Nat.succ_ne_zero n)) (cond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2, out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) (ncond4_0_of ⟨n + 1, hn⟩ (Nat.succ_ne_zero n)) (cond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2, sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) (ncond4_0_of ⟨n + 1, hn⟩ (Nat.succ_ne_zero n)) (cond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2)
    else
      (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) (ncond4_0_of ⟨n + 1, hn⟩ (Nat.succ_ne_zero n)) (ncond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2, jnk4, jnk4, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) (ncond4_0_of ⟨n + 1, hn⟩ (Nat.succ_ne_zero n)) (ncond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2)

theorem outsAt4_A (c : Dev nD) (t : Fin cfg4.N) (h0 : t.val = 0) (h1 : ¬t.val % 32 = 31) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (cond4_0_of t h0) (ncond4_1_of t h1) (iblk4 V c 0 t) (iblk4 V c 1 t) (iblk4 V c 2 t) (iblk4 V c 3 t) (iblk4 V c 4 t) (iblk4 V c 5 t), jnk4, jnk4, sout4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (cond4_0_of t h0) (ncond4_1_of t h1) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact absurd h0 (Nat.succ_ne_zero n)

theorem outsAt4_B (c : Dev nD) (t : Fin cfg4.N) (h0 : t.val ≠ 0) (h1 : ¬t.val % 32 = 31) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (ncond4_1_of t h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2, jnk4, jnk4, sout4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (ncond4_1_of t h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2) := by
  obtain ⟨n, hn⟩ := t
  cases n with
  | zero => exact absurd rfl h0
  | succ n => exact (dif_neg h1).trans rfl

theorem outsAt4_C (c : Dev nD) (t : Fin cfg4.N) (h0 : t.val ≠ 0) (h1 : t.val % 32 = 31) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (cond4_1_of t h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2, out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (cond4_1_of t h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2, out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (cond4_1_of t h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2, sout4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (cond4_1_of t h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2) := by
  obtain ⟨n, hn⟩ := t
  cases n with
  | zero => exact absurd rfl h0
  | succ n => exact (dif_pos h1).trans rfl

def Phi4 (c : Dev nD) : (n : ℕ) → n ≤ cfg4.N → sProp 𝕄
  | 0, _ => Pipeline.scopedRest (Ix := Unit) (Name := ℕ) (U := UR sig nD τ) (Lvl := ℕ) (Val := Elt F) spec4 c
  | n + 1, hn => iprop(owns (c : Thread nD τ) scM4 fullShare ((outsAt4 V c n hn).2.2.2) ∗ Pipeline.scopedRestBut (Ix := Unit) (Name := ℕ) (U := UR sig nD τ) (Lvl := ℕ) (Val := Elt F) spec4 c [cc4_scratch0])

theorem Phi4_zero (c : Dev nD) (n : ℕ) (h : n ≤ cfg4.N) (hz : n = 0) : Phi4 V c n h = Pipeline.scopedRest (Ix := Unit) (Name := ℕ) (U := UR sig nD τ) (Lvl := ℕ) (Val := Elt F) spec4 c := by
  subst hz; rfl
theorem Phi4_succ (c : Dev nD) (n : ℕ) (hn : n < cfg4.N) :
    Phi4 V c (n + 1) hn = iprop(owns (c : Thread nD τ) scM4 fullShare ((outsAt4 V c n hn).2.2.2) ∗ Pipeline.scopedRestBut (Ix := Unit) (Name := ℕ) (U := UR sig nD τ) (Lvl := ℕ) (Val := Elt F) spec4 c [cc4_scratch0]) := rfl
theorem Phi4_pos (c : Dev nD) (n : ℕ) (h : n ≤ cfg4.N) (hz : n ≠ 0) :
    Phi4 V c n h = iprop(owns (c : Thread nD τ) scM4 fullShare ((outsAt4 V c (n - 1) (by omega)).2.2.2) ∗ Pipeline.scopedRestBut (Ix := Unit) (Name := ℕ) (U := UR sig nD τ) (Lvl := ℕ) (Val := Elt F) spec4 c [cc4_scratch0]) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2.1
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem owed4 (c : Dev nD) (t) : (dat4 V c).owed t = 0 := rfl
theorem share4 (c : Dev nD) (w) : (dat4 V c).q w = fullShare := rfl

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = Phi4 V c (t.val + 1) t.isLt from rfl, Phi4_succ]
  have hN : t.val < 32 := lt_of_lt_of_eq t.isLt (show cfg4.N = 32 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  rw [show (dat4 V c).leavesExact 6 t = owns (c : Thread nD τ) (ms4_6 t) fullShare ((dat4 V c).after 6 t) from by
    unfold Dat.leavesExact; rw [liveAt4_6 t], after4_6]
  by_cases h0 : t.val = 0
  · have h1 : ¬t.val % 32 = 31 := by omega
    rw [Dat.leavesExact_idle (dat4 V c) 7 t (idleAt4_7 t (ncond4_1_of t h1)) (noFlush4_7 t (ncond4_1_of t h1))]
    rw [Dat.leavesExact_idle (dat4 V c) 8 t (idleAt4_8 t (ncond4_1_of t h1)) (noFlush4_8 t (ncond4_1_of t h1))]
    rw [outsAt4_A V c t h0 h1]
    unfold out4_A_6 sout4_A; (try dsimp only)
    rw [Phi4_castSucc V c t, Phi4_zero V c _ _ h0, scopedRest4_eq]
    iintro ⟨⟨HS0, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (cond4_0_of t h0) (ncond4_1_of t h1) (iblk4 V c 0 t) (iblk4 V c 1 t) (iblk4 V c 2 t) (iblk4 V c 3 t) (iblk4 V c 4 t) (iblk4 V c 5 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    iintro ⟨H0, H1, H2, H3, H4, H5, ⟨%e6, H6⟩, H7, H8, ⟨%es0, HS0⟩⟩
    isplitl [HS0 Hr]
    · isplitl [HS0]
      · unfold owns; iexists _; isplitr
        swap; · iexact HS0
        ipureintro; exact View.read_writes_eq_canon _ _ _ (scover4_A c _ _ _ _ _ _ _ _ _ _ _ _ _ _ _ _ _ _ _ _ _ _ _ _ _ _ _ _ _)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover4_A_6 c _ _ _ _ _ _ _ _ _ _ _ _ _ _ _ _ _ _ _ _ _ _ _ _ _ _ _ _ _)
    isplitl [H7]; · iexists _; iexact H7
    iexists _; iexact H8
  · by_cases h1 : t.val % 32 = 31
    · rw [show (dat4 V c).leavesExact 7 t = owns (c : Thread nD τ) (ms4_7 t) fullShare ((dat4 V c).after 7 t) from by
        unfold Dat.leavesExact; rw [liveAt4_7 t (cond4_1_of t h1)], after4_7]
      rw [show (dat4 V c).leavesExact 8 t = owns (c : Thread nD τ) (ms4_8 t) fullShare ((dat4 V c).after 8 t) from by
        unfold Dat.leavesExact; rw [liveAt4_8 t (cond4_1_of t h1)], after4_8]
      rw [outsAt4_C V c t h0 h1]
      unfold out4_C_6 out4_C_7 out4_C_8 sout4_C; (try dsimp only)
      rw [Phi4_castSucc V c t, Phi4_pos V c _ _ h0]
      iintro ⟨⟨HS0, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (cond4_1_of t h1) (iblk4 V c 0 t) (iblk4 V c 1 t) (iblk4 V c 2 t) (iblk4 V c 3 t) (iblk4 V c 4 t) (iblk4 V c 5 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, ⟨%e6, H6⟩, ⟨%e7, H7⟩, ⟨%e8, H8⟩, ⟨%es0, HS0⟩⟩
      isplitl [HS0 Hr]
      · isplitl [HS0]
        · unfold owns; iexists _; isplitr
          swap; · iexact HS0
          ipureintro; exact View.read_writes_eq_canon _ _ _ (scover4_C c _ _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_eq_canon _ _ _ (cover4_C_6 c _ _ _ _ _ _ _ _ _ _ _ _ _ _ _ _ _ _ _ _ _ _ _ _ _ _ _ _ _ _)
      isplitl [H7]
      · unfold owns; iexists _; isplitr
        swap; · iexact H7
        ipureintro; exact View.read_writes_eq_canon _ _ _ (cover4_C_7 c _ _ _ _ _ _ _ _ _ _ _ _ _ _ _ _ _ _ _ _ _ _ _ _ _ _ _ _ _ _)
      unfold owns; iexists _; isplitr
      swap; · iexact H8
      ipureintro; exact View.read_writes_eq_canon _ _ _ (cover4_C_8 c _ _ _ _ _ _ _ _ _ _ _ _ _ _ _ _ _ _ _ _ _ _ _ _ _ _ _ _ _ _)
    · rw [Dat.leavesExact_idle (dat4 V c) 7 t (idleAt4_7 t (ncond4_1_of t h1)) (noFlush4_7 t (ncond4_1_of t h1))]
      rw [Dat.leavesExact_idle (dat4 V c) 8 t (idleAt4_8 t (ncond4_1_of t h1)) (noFlush4_8 t (ncond4_1_of t h1))]
      rw [outsAt4_B V c t h0 h1]
      unfold out4_B_6 sout4_B; (try dsimp only)
      rw [Phi4_castSucc V c t, Phi4_pos V c _ _ h0]
      iintro ⟨⟨HS0, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (ncond4_1_of t h1) (iblk4 V c 0 t) (iblk4 V c 1 t) (iblk4 V c 2 t) (iblk4 V c 3 t) (iblk4 V c 4 t) (iblk4 V c 5 t) _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      iintro ⟨H0, H1, H2, H3, H4, H5, ⟨%e6, H6⟩, H7, H8, ⟨%es0, HS0⟩⟩
      isplitl [HS0 Hr]
      · isplitl [HS0]
        · unfold owns; iexists _; isplitr
          swap; · iexact HS0
          ipureintro; exact View.read_writes_eq_canon _ _ _ (scover4_B c _ _ _ _ _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_eq_canon _ _ _ (cover4_B_6 c _ _ _ _ _ _ _ _ _ _ _ _ _ _ _ _ _ _ _ _ _ _ _ _ _ _ _ _ _ _)
      isplitl [H7]; · iexists _; iexact H7
      iexists _; iexact H8

theorem body_obligation4 (c : Dev nD) : BodyObligation (dat4 (F := F) V c) (defs₀ (F := F)) Variants.none () Set.univ := fun t => by
  rw [bigSep_W4, bigSep_W4]
  exact sound_body4 V c t

theorem phi4_in (c : Dev nD) : (Pipeline.scopedRest (Ix := Unit) (Name := ℕ) (U := UR sig nD τ) (Lvl := ℕ) (Val := Elt F) spec4 c : sProp 𝕄) ⊢ (dat4 V c).Φ 0 := by
  rw [show (dat4 V c).Φ 0 = Phi4 V c 0 (Nat.zero_le _) from rfl, Phi4_zero V c 0 _ rfl]

theorem phi4_out (c : Dev nD) : (dat4 V c).Φ (Fin.last cfg4.N) ⊢ (Pipeline.scopedRest (Ix := Unit) (Name := ℕ) (U := UR sig nD τ) (Lvl := ℕ) (Val := Elt F) spec4 c : sProp 𝕄) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 32 := N_4; omega), scopedRest4_eq]
  iintro ⟨HS0, Hr⟩
  isplitl [HS0]
  · iexists _; iexact HS0
  iexact Hr

end Cert.KernelIdeal.Hand
end
-- ==== Proof.KiR5.lean ====
import proofs.«157081_j85761906966880_1_alg».proof.Proof.Gen.KernelIdeal.Launch
import proofs.«157081_j85761906966880_1_alg».proof.Proof.Gen.KernelIdeal.Skeleton
import proofs.«157081_j85761906966880_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S256x32x128 := Rect.unit (s := S256x32x128) ![0, 0, 0] S256x32x128.size inb_S256x32x128_S256x32x128_0_0_0
abbrev r5_1 : Rect S1x1x128 := Rect.unit (s := S1x1x128) ![0, 0, 0] S1x1x128.size inb_S1x1x128_S1x1x128_0_0_0
abbrev r5_2 : Rect S256x128 := Rect.unit (s := S256x128) ![0, 0] S256x128.size inb_S256x128_S256x128_0_0

def out5_5 (x0 : Vec F S256x32x128 .f32) (x1 x2 x3 x4 : Vec F S1x1x128 .f32) : Vec F S256x128 .f32 :=
  View.canon [⟨r5_2, k5_pay1 (k5_pay2 (View.ld x0 r5_0) (View.ld x2 r5_1) (View.ld x3 r5_1) (View.ld x4 r5_1) (View.ld x1 r5_1))
    (k5_pay4 (k5_pay2 (View.ld x0 r5_0) (View.ld x2 r5_1) (View.ld x3 r5_1) (View.ld x4 r5_1) (View.ld x1 r5_1))
      (k5_pay3 (View.ld x0 r5_0) (View.ld x2 r5_1) (View.ld x3 r5_1) (View.ld x4 r5_1) (View.ld x1 r5_1)))⟩]

theorem cover5_5 (p0 : Vec F S256x128 .f32) (y : S256x128.Idx) :
    ∃ pc ∈ ([⟨r5_2, p0⟩] : List (View.Piece (Elt F) S256x128 .f32)), y ∈ pc.1.set :=
  View.cover_of_tiled [⟨r5_2, p0⟩] S256x128.size (by rfl) y

set_option maxHeartbeats 1000000 in
theorem sound_kernel5 (c : Dev nD) (E : Set ℕ) (i : grid5.Coords)
    (arg1 : Memref sig .tc .vmem S256x32x128 .f32) (harg1 : arg1.IsWhole)
    (arg2 : Memref sig .tc .vmem S1x1x128 .f32) (harg2 : arg2.IsWhole)
    (arg3 : Memref sig .tc .vmem S1x1x128 .f32) (harg3 : arg3.IsWhole)
    (arg4 : Memref sig .tc .vmem S1x1x128 .f32) (harg4 : arg4.IsWhole)
    (arg5 : Memref sig .tc .vmem S1x1x128 .f32) (harg5 : arg5.IsWhole)
    (arg6 : Memref sig .tc .vmem S256x128 .f32) (harg6 : arg6.IsWhole)
    (x0 : Vec F S256x32x128 .f32) (x1 x2 x3 x4 : Vec F S1x1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5_kernel i arg1 harg1 arg2 harg2 arg3 harg3 arg4 harg4 arg5 harg5 arg6 harg6) K := by
  simp only [cc5_kernel_eq_skeleton]; unfold cc5_kernel_skel
  simp only [k5_part1_eq_skeleton, k5_part2_eq_skeleton]; unfold k5_part1_skel k5_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.scopedRest spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

theorem owed5 (c : Dev nD) (t) : (dat5 V c).owed t = 0 := rfl
theorem share5 (c : Dev nD) (w) : (dat5 V c).q w = fullShare := rfl

theorem phi5_in (c : Dev nD) :
    (Pipeline.scopedRest (Ix := Unit) (Name := ℕ) (U := UR sig nD τ) (Lvl := ℕ) (Val := Elt F) spec5 c : sProp 𝕄) ⊢ (dat5 V c).Φ 0 := .rfl
theorem phi5_out (c : Dev nD) :
    (dat5 V c).Φ (Fin.last cfg5.N) ⊢ (Pipeline.scopedRest (Ix := Unit) (Name := ℕ) (U := UR sig nD τ) (Lvl := ℕ) (Val := Elt F) spec5 c : sProp 𝕄) := .rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.KernelIdeal.Hand
end
-- ==== Proof.KiStage.lean ====
import proofs.«157081_j85761906966880_1_alg».proof.Proof.Gen.KernelIdeal.Regions
import proofs.«157081_j85761906966880_1_alg».proof.Proof.KiR0
import proofs.«157081_j85761906966880_1_alg».proof.Proof.KiR1
import proofs.«157081_j85761906966880_1_alg».proof.Proof.KiR2
import proofs.«157081_j85761906966880_1_alg».proof.Proof.KiR3
import proofs.«157081_j85761906966880_1_alg».proof.Proof.KiR4
import proofs.«157081_j85761906966880_1_alg».proof.Proof.KiR5
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

def X11 (c : Dev nD) : Valuation τ sig (Elt F) :=
  Pipeline.withArrays spec0 c (V10 m c) fun w => (dat0 (rd (V10 m)) c).arrAt w cfg0.N
def outsA : Outs (F := F) := fun _ r c => X11 m c (Proc.devRef .tc r)
def X13 (c : Dev nD) : Valuation τ sig (Elt F) :=
  Pipeline.withArrays spec1 c (V12 m (outsA m) c) fun w => (dat1 (rd (V12 m (outsA m))) c).arrAt w cfg1.N
def outsB : Outs (F := F) := fun J r c => if J = 11 then X11 m c (Proc.devRef .tc r) else X13 m c (Proc.devRef .tc r)
def X15 (c : Dev nD) : Valuation τ sig (Elt F) :=
  Pipeline.withArrays spec2 c (V14 m (outsB m) c) fun w => (dat2 (rd (V14 m (outsB m))) c).arrAt w cfg2.N
def outsC : Outs (F := F) := fun J r c => if J = 11 then X11 m c (Proc.devRef .tc r) else if J = 13 then X13 m c (Proc.devRef .tc r)
  else X15 m c (Proc.devRef .tc r)
def X26 (c : Dev nD) : Valuation τ sig (Elt F) :=
  Pipeline.withArrays spec3 c (V25 m (outsC m) c) fun w => (dat3 (rd (V25 m (outsC m))) c).arrAt w cfg3.N
def outsD : Outs (F := F) := fun J r c => if J = 11 then X11 m c (Proc.devRef .tc r) else if J = 13 then X13 m c (Proc.devRef .tc r)
  else if J = 15 then X15 m c (Proc.devRef .tc r) else X26 m c (Proc.devRef .tc r)
def X28 (c : Dev nD) : Valuation τ sig (Elt F) :=
  Pipeline.withArrays spec4 c (V27 m (outsD m) c) fun w => (dat4 (rd (V27 m (outsD m))) c).arrAt w cfg4.N
def outsE : Outs (F := F) := fun J r c => if J = 11 then X11 m c (Proc.devRef .tc r) else if J = 13 then X13 m c (Proc.devRef .tc r)
  else if J = 15 then X15 m c (Proc.devRef .tc r) else if J = 26 then X26 m c (Proc.devRef .tc r) else X28 m c (Proc.devRef .tc r)
def X30 (c : Dev nD) : Valuation τ sig (Elt F) :=
  Pipeline.withArrays spec5 c (V29 m (outsE m) c) fun w => (dat5 (rd (V29 m (outsE m))) c).arrAt w cfg5.N
def outs : Outs (F := F) := fun J r c => if J = 11 then X11 m c (Proc.devRef .tc r) else if J = 13 then X13 m c (Proc.devRef .tc r)
  else if J = 15 then X15 m c (Proc.devRef .tc r) else if J = 26 then X26 m c (Proc.devRef .tc r)
  else if J = 28 then X28 m c (Proc.devRef .tc r) else X30 m c (Proc.devRef .tc r)

local macro "outs_eq" : tactic =>
  `(tactic| (simp only [outs, outsA, outsB, outsC, outsD, outsE, Nat.reduceEqDiff, ↓reduceIte]))

theorem V12_outs (c : Dev nD) : V12 m (outs m) c = V12 m (outsA m) c := by
  unfold V12 V11; outs_eq
theorem V14_outs (c : Dev nD) : V14 m (outs m) c = V14 m (outsB m) c := by
  unfold V14 V13 V12 V11; outs_eq
theorem V25_outs (c : Dev nD) : V25 m (outs m) c = V25 m (outsC m) c := by
  unfold V25 V24 V23 V22 V21 V20 V19 V18 V17 V16 V15 V14 V13 V12 V11; outs_eq
theorem V27_outs (c : Dev nD) : V27 m (outs m) c = V27 m (outsD m) c := by
  unfold V27 V26 V25 V24 V23 V22 V21 V20 V19 V18 V17 V16 V15 V14 V13 V12 V11; outs_eq
theorem V29_outs (c : Dev nD) : V29 m (outs m) c = V29 m (outsE m) c := by
  unfold V29 V28 V27 V26 V25 V24 V23 V22 V21 V20 V19 V18 V17 V16 V15 V14 V13 V12 V11; outs_eq
theorem outs_11 (r : Ref sig .tc) (c : Dev nD) : outs m 11 r c = X11 m c (Proc.devRef .tc r) := by outs_eq
theorem outs_13 (r : Ref sig .tc) (c : Dev nD) : outs m 13 r c = X13 m c (Proc.devRef .tc r) := by outs_eq
theorem outs_15 (r : Ref sig .tc) (c : Dev nD) : outs m 15 r c = X15 m c (Proc.devRef .tc r) := by outs_eq
theorem outs_26 (r : Ref sig .tc) (c : Dev nD) : outs m 26 r c = X26 m c (Proc.devRef .tc r) := by outs_eq
theorem outs_28 (r : Ref sig .tc) (c : Dev nD) : outs m 28 r c = X28 m c (Proc.devRef .tc r) := by outs_eq
theorem outs_30 (r : Ref sig .tc) (c : Dev nD) : outs m 30 r c = X30 m c (Proc.devRef .tc r) := by outs_eq

def pdats : (p : Fin 6) → (c : Dev nD) → Dat τ (Elt F) Unit ℕ (UR sig nD τ) ℕ (cfgs p) c
  | ⟨0, _⟩ => fun c => dat0 (rd (V10 m)) c
  | ⟨1, _⟩ => fun c => dat1 (rd (V12 m (outsA m))) c
  | ⟨2, _⟩ => fun c => dat2 (rd (V14 m (outsB m))) c
  | ⟨3, _⟩ => fun c => dat3 (rd (V25 m (outsC m))) c
  | ⟨4, _⟩ => fun c => dat4 (rd (V27 m (outsD m))) c
  | ⟨5, _⟩ => fun c => dat5 (rd (V29 m (outsE m))) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem last_chain (c : Dev nD) :
    (iprop(StableHlo.held (c : Thread nD τ) (Pipeline.ucRefs τ sig) (V31 m (outs m) c) ∗ R c) : sProp 𝕄)
      ⊢ iprop(iprop(StableHlo.held (c : Thread nD τ) (Pipeline.ucRefs τ sig) (V31 m (outs m) c) ∗ ∃ r, prngReg c r)
          ∗ ∃ W, owes (c : Thread nD τ) (0 : CellTallies nD τ sig Unit) W) :=
  sep_assoc.2

end Cert.KernelIdeal.Hand

end
-- ==== Proof.KiReg.lean ====
import proofs.«157081_j85761906966880_1_alg».proof.Proof.KiStage

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem upd₀ {V : Valuation τ sig (Elt F)} (a b d : Ref sig .tc) {x y z} (hb : a ≠ b) (hd : a ≠ d) :
    Function.update (Function.update (Function.update V (Proc.devRef .tc a) x) (Proc.devRef .tc b) y) (Proc.devRef .tc d) z (Proc.devRef .tc a) = x := by
  rw [Function.update_of_ne (StableHlo.devRef_ne_of_ne hd), Function.update_of_ne (StableHlo.devRef_ne_of_ne hb), Function.update_self]

theorem upd₁ {V : Valuation τ sig (Elt F)} (b d : Ref sig .tc) {y z} (hd : b ≠ d) :
    Function.update (Function.update V (Proc.devRef .tc b) y) (Proc.devRef .tc d) z (Proc.devRef .tc b) = y := by
  rw [Function.update_of_ne (StableHlo.devRef_ne_of_ne hd), Function.update_self]

theorem upd₂ {V : Valuation τ sig (Elt F)} (d : Ref sig .tc) {z} : Function.update V (Proc.devRef .tc d) z (Proc.devRef .tc d) = z :=
  Function.update_self ..

set_option backward.isDefEq.respectTransparency.types false in
/-- An input array is never written and distinct windows have distinct arrays: the exit contents need only be given at the output arrays and off them. -/
def regOf {p : Fin 6} (la : Pipeline.LaunchFacts (nD := nD) (τ := τ) cfgs p) (Vi Vd Vo : Dev nD → Valuation τ sig (Elt F))
    (hV : ∀ c, Vi c = Vd c) (hb : ∀ c, BodyObligation (pdats m p c) (defs₀ (F := F)) Variants.none () Set.univ)
    (ho : ∀ c t, (pdats m p c).owed t = 0) (hrec : ∀ c x, x ∈ (pdats m p c).recorded 0) (hq : ∀ c w, (pdats m p c).q w = fullShare)
    (hA : ∀ c w, (pdats m p c).A w = rd Vd c (Pipeline.arrRef (cfgs p).spec w))
    (hΦ₀ : ∀ c, (Pipeline.scopedRest (Ix := Unit) (Name := ℕ) (U := UR sig nD τ) (Lvl := ℕ) (Val := Elt F) (cfgs p).spec c : sProp 𝕄) ⊢ (pdats m p c).Φ 0)
    (hΦₙ : ∀ c, (pdats m p c).Φ (Fin.last (cfgs p).N) ⊢ (Pipeline.scopedRest (Ix := Unit) (Name := ℕ) (U := UR sig nD τ) (Lvl := ℕ) (Val := Elt F) (cfgs p).spec c : sProp 𝕄))
    (hO : ∀ c w, (pdats m p c).arrAt w (cfgs p).N = rd Vo c (Pipeline.arrRef (cfgs p).spec w) ∨ ((cfgs p).win w).isOut = false)
    (hr : ∀ c b, (∀ w, ((cfgs p).win w).isOut = true → Pipeline.arrRef (cfgs p).spec w ≠ b) → rd Vo c b = rd Vd c b) :
    RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Vi c) ∗ R c)
  post c := iprop(StableHlo.held (c : Thread nD τ) (Pipeline.ucRefs τ sig) (Vo c) ∗ R c)
  X _ := BI.emp
  Y _ := BI.emp
  Z c := iprop(Pipeline.unscopedRest (Ix := Unit) (Name := ℕ) (U := UR sig nD τ) (Lvl := ℕ) (cfgs p).spec c (rd Vd c) ∗ ∃ r, prngReg c r)
  hentry c := by
    rw [Pipeline.ownSems0_none, hV c]
    have hsplit := Pipeline.arrays_of_unscopedBufs (p := p) (pcfgs (F := F)) adm (pdats m) la.win la.arr_whole c
      ((pdats m p c).share_full (hq c)) (rd Vd c) (hA c)
    rw [Pipeline.unscopedBufs_held] at hsplit
    rw [show (pdats m p c).owesAt () 0 = Pipeline.owesWithin c (0 : CellTallies nD τ sig Unit) ((pdats m p c).bound () 0) from by
      unfold Pipeline.Dat.owesAt; rw [ho c 0]]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, HO⟩; iexists W; isplitr; · ipureintro; exact fun _ _ => Or.inl (hrec c _)
      iexact HO
    isplitr; · iempintro
    isplitl [Hrest]; · iexact Hrest
    iexact Hp
  hin c := by
    iintro ⟨-, -, Hr⟩
    iapply (hΦ₀ c); iexact Hr
  hout c := by
    rw [Pipeline.ownSems0_none]
    iintro H
    ihave Hr := (hΦₙ c) $$ H
    isplitr; · iempintro
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m) ((pdats m p c).share_full (hq c))
      (rd Vd c) (rd Vo c) ((pdats m p c).arrAt · (cfgs p).N)
      (fun w => (hO c w).elim id fun hw => ((pdats m p c).arrAt_in w hw _).trans ((hA c w).trans
        (hr c _ fun w' hw' e => by cases la.win.arr_inj e; exact Bool.false_ne_true (hw.symm.trans hw')).symm))
      (fun b hb => hr c b fun w _ e => hb (Finset.mem_image.mpr ⟨w, Finset.mem_univ _, e⟩))
    rw [Pipeline.unscopedBufs_held] at hjoin
    rw [show (pdats m p c).owesAt () (Fin.last _) = Pipeline.owesWithin c (0 : CellTallies nD τ sig Unit) ((pdats m p c).bound () (Fin.last _)) from by
      unfold Pipeline.Dat.owesAt; rw [ho c _]]
    iintro ⟨Ha, HO, -, Hrest, Hp⟩
    imodintro
    isplitl [Ha Hrest]
    · iapply hjoin; isplitl [Ha] <;> iassumption
    isplitl [Hp]; · iexact Hp
    unfold Pipeline.owesWithin
    icases HO with ⟨%W, -, HO⟩; iexists W; iexact HO

theorem X11_main_v55_0 (c : Dev nD) : X11 m c (Proc.devRef .tc main_v55_0) = (dat0 (rd (V10 m)) c).arrAt 2 cfg0.N :=
  Pipeline.withArrays_arr spec0 launch0.win.arr_inj c _ _ 2
theorem X11_main_v55_1 (c : Dev nD) : X11 m c (Proc.devRef .tc main_v55_1) = (dat0 (rd (V10 m)) c).arrAt 3 cfg0.N :=
  Pipeline.withArrays_arr spec0 launch0.win.arr_inj c _ _ 3
theorem X11_main_v55_2 (c : Dev nD) : X11 m c (Proc.devRef .tc main_v55_2) = (dat0 (rd (V10 m)) c).arrAt 4 cfg0.N :=
  Pipeline.withArrays_arr spec0 launch0.win.arr_inj c _ _ 4

def reg0 : RegionSeg (pcfgs (F := F)) adm (pdats m) () defs₀ 𝒱₀ L lv 0 :=
  regOf m launch0 (V10 m) (V10 m) (V11 m (outs m)) (fun _ => rfl) (body_obligation0 _) (owed0 _) (fun _ _ => trivial) (share0 _) (A_eq0 _)
    (phi0_in _) (phi0_out _)
    (fun c (w : Fin 5) => by
      fin_cases w
      exacts [.inr rfl, .inr rfl,
        .inl ((X11_main_v55_0 m c).symm.trans ((upd₀ main_v55_0 main_v55_1 main_v55_2 (by decide) (by decide)).trans (outs_11 m main_v55_0 c)).symm),
        .inl ((X11_main_v55_1 m c).symm.trans ((upd₁ main_v55_1 main_v55_2 (by decide)).trans (outs_11 m main_v55_1 c)).symm),
        .inl ((X11_main_v55_2 m c).symm.trans ((upd₂ main_v55_2).trans (outs_11 m main_v55_2 c)).symm)])
    fun c b h => (V11_of m _ c b (by
      simp only [List.mem_cons, List.not_mem_nil, _root_.or_false]
      rintro (rfl | rfl | rfl)
      exacts [h (2 : Fin 5) rfl rfl, h (3 : Fin 5) rfl rfl, h (4 : Fin 5) rfl rfl]))

theorem X13_main_v66_0 (c : Dev nD) : X13 m c (Proc.devRef .tc main_v66_0) = (dat1 (rd (V12 m (outsA m))) c).arrAt 6 cfg1.N :=
  Pipeline.withArrays_arr spec1 launch1.win.arr_inj c _ _ 6
theorem X13_main_v66_1 (c : Dev nD) : X13 m c (Proc.devRef .tc main_v66_1) = (dat1 (rd (V12 m (outsA m))) c).arrAt 7 cfg1.N :=
  Pipeline.withArrays_arr spec1 launch1.win.arr_inj c _ _ 7
theorem X13_main_v66_2 (c : Dev nD) : X13 m c (Proc.devRef .tc main_v66_2) = (dat1 (rd (V12 m (outsA m))) c).arrAt 8 cfg1.N :=
  Pipeline.withArrays_arr spec1 launch1.win.arr_inj c _ _ 8

def reg1 : RegionSeg (pcfgs (F := F)) adm (pdats m) () defs₀ 𝒱₀ L lv 1 :=
  regOf m launch1 (V12 m (outs m)) (V12 m (outsA m)) (V13 m (outs m)) (V12_outs m) (body_obligation1 _) (owed1 _) (fun _ _ => trivial) (share1 _) (A_eq1 _)
    (phi1_in _) (phi1_out _)
    (fun c (w : Fin 9) => by
      fin_cases w
      exacts [.inr rfl, .inr rfl, .inr rfl, .inr rfl, .inr rfl, .inr rfl,
        .inl ((X13_main_v66_0 m c).symm.trans ((upd₀ main_v66_0 main_v66_1 main_v66_2 (by decide) (by decide)).trans (outs_13 m main_v66_0 c)).symm),
        .inl ((X13_main_v66_1 m c).symm.trans ((upd₁ main_v66_1 main_v66_2 (by decide)).trans (outs_13 m main_v66_1 c)).symm),
        .inl ((X13_main_v66_2 m c).symm.trans ((upd₂ main_v66_2).trans (outs_13 m main_v66_2 c)).symm)])
    fun c b h => (V13_of m _ c b (by
      simp only [List.mem_cons, List.not_mem_nil, _root_.or_false]
      rintro (rfl | rfl | rfl)
      exacts [h (6 : Fin 9) rfl rfl, h (7 : Fin 9) rfl rfl, h (8 : Fin 9) rfl rfl])).trans (congrFun (V12_outs m c) _)

theorem X15_main_v77 (c : Dev nD) : X15 m c (Proc.devRef .tc main_v77) = (dat2 (rd (V14 m (outsB m))) c).arrAt 5 cfg2.N :=
  Pipeline.withArrays_arr spec2 launch2.win.arr_inj c _ _ 5

def reg2 : RegionSeg (pcfgs (F := F)) adm (pdats m) () defs₀ 𝒱₀ L lv 2 :=
  regOf m launch2 (V14 m (outs m)) (V14 m (outsB m)) (V15 m (outs m)) (V14_outs m) (body_obligation2 _) (owed2 _) (fun _ _ => trivial) (share2 _) (A_eq2 _)
    (phi2_in _) (phi2_out _)
    (fun c (w : Fin 6) => by
      fin_cases w
      exacts [.inr rfl, .inr rfl, .inr rfl, .inr rfl, .inr rfl,
        .inl ((X15_main_v77 m c).symm.trans ((upd₂ main_v77).trans (outs_15 m main_v77 c)).symm)])
    fun c b h => (V15_of m _ c b (by
      simp only [List.mem_cons, List.not_mem_nil, _root_.or_false]
      rintro (rfl)
      exacts [h (5 : Fin 6) rfl rfl])).trans (congrFun (V14_outs m c) _)

theorem X26_main_v130_0 (c : Dev nD) : X26 m c (Proc.devRef .tc main_v130_0) = (dat3 (rd (V25 m (outsC m))) c).arrAt 2 cfg3.N :=
  Pipeline.withArrays_arr spec3 launch3.win.arr_inj c _ _ 2
theorem X26_main_v130_1 (c : Dev nD) : X26 m c (Proc.devRef .tc main_v130_1) = (dat3 (rd (V25 m (outsC m))) c).arrAt 3 cfg3.N :=
  Pipeline.withArrays_arr spec3 launch3.win.arr_inj c _ _ 3
theorem X26_main_v130_2 (c : Dev nD) : X26 m c (Proc.devRef .tc main_v130_2) = (dat3 (rd (V25 m (outsC m))) c).arrAt 4 cfg3.N :=
  Pipeline.withArrays_arr spec3 launch3.win.arr_inj c _ _ 4

def reg3 : RegionSeg (pcfgs (F := F)) adm (pdats m) () defs₀ 𝒱₀ L lv 3 :=
  regOf m launch3 (V25 m (outs m)) (V25 m (outsC m)) (V26 m (outs m)) (V25_outs m) (body_obligation3 _) (owed3 _) (fun _ _ => trivial) (share3 _) (A_eq3 _)
    (phi3_in _) (phi3_out _)
    (fun c (w : Fin 5) => by
      fin_cases w
      exacts [.inr rfl, .inr rfl,
        .inl ((X26_main_v130_0 m c).symm.trans ((upd₀ main_v130_0 main_v130_1 main_v130_2 (by decide) (by decide)).trans (outs_26 m main_v130_0 c)).symm),
        .inl ((X26_main_v130_1 m c).symm.trans ((upd₁ main_v130_1 main_v130_2 (by decide)).trans (outs_26 m main_v130_1 c)).symm),
        .inl ((X26_main_v130_2 m c).symm.trans ((upd₂ main_v130_2).trans (outs_26 m main_v130_2 c)).symm)])
    fun c b h => (V26_of m _ c b (by
      simp only [List.mem_cons, List.not_mem_nil, _root_.or_false]
      rintro (rfl | rfl | rfl)
      exacts [h (2 : Fin 5) rfl rfl, h (3 : Fin 5) rfl rfl, h (4 : Fin 5) rfl rfl])).trans (congrFun (V25_outs m c) _)

theorem X28_main_v141_0 (c : Dev nD) : X28 m c (Proc.devRef .tc main_v141_0) = (dat4 (rd (V27 m (outsD m))) c).arrAt 6 cfg4.N :=
  Pipeline.withArrays_arr spec4 launch4.win.arr_inj c _ _ 6
theorem X28_main_v141_1 (c : Dev nD) : X28 m c (Proc.devRef .tc main_v141_1) = (dat4 (rd (V27 m (outsD m))) c).arrAt 7 cfg4.N :=
  Pipeline.withArrays_arr spec4 launch4.win.arr_inj c _ _ 7
theorem X28_main_v141_2 (c : Dev nD) : X28 m c (Proc.devRef .tc main_v141_2) = (dat4 (rd (V27 m (outsD m))) c).arrAt 8 cfg4.N :=
  Pipeline.withArrays_arr spec4 launch4.win.arr_inj c _ _ 8

def reg4 : RegionSeg (pcfgs (F := F)) adm (pdats m) () defs₀ 𝒱₀ L lv 4 :=
  regOf m launch4 (V27 m (outs m)) (V27 m (outsD m)) (V28 m (outs m)) (V27_outs m) (body_obligation4 _) (owed4 _) (fun _ _ => trivial) (share4 _) (A_eq4 _)
    (phi4_in _) (phi4_out _)
    (fun c (w : Fin 9) => by
      fin_cases w
      exacts [.inr rfl, .inr rfl, .inr rfl, .inr rfl, .inr rfl, .inr rfl,
        .inl ((X28_main_v141_0 m c).symm.trans ((upd₀ main_v141_0 main_v141_1 main_v141_2 (by decide) (by decide)).trans (outs_28 m main_v141_0 c)).symm),
        .inl ((X28_main_v141_1 m c).symm.trans ((upd₁ main_v141_1 main_v141_2 (by decide)).trans (outs_28 m main_v141_1 c)).symm),
        .inl ((X28_main_v141_2 m c).symm.trans ((upd₂ main_v141_2).trans (outs_28 m main_v141_2 c)).symm)])
    fun c b h => (V28_of m _ c b (by
      simp only [List.mem_cons, List.not_mem_nil, _root_.or_false]
      rintro (rfl | rfl | rfl)
      exacts [h (6 : Fin 9) rfl rfl, h (7 : Fin 9) rfl rfl, h (8 : Fin 9) rfl rfl])).trans (congrFun (V27_outs m c) _)

theorem X30_main_v152 (c : Dev nD) : X30 m c (Proc.devRef .tc main_v152) = (dat5 (rd (V29 m (outsE m))) c).arrAt 5 cfg5.N :=
  Pipeline.withArrays_arr spec5 launch5.win.arr_inj c _ _ 5

def reg5 : RegionSeg (pcfgs (F := F)) adm (pdats m) () defs₀ 𝒱₀ L lv 5 :=
  regOf m launch5 (V29 m (outs m)) (V29 m (outsE m)) (V30 m (outs m)) (V29_outs m) (body_obligation5 _) (owed5 _) (fun _ _ => trivial) (share5 _) (A_eq5 _)
    (phi5_in _) (phi5_out _)
    (fun c (w : Fin 6) => by
      fin_cases w
      exacts [.inr rfl, .inr rfl, .inr rfl, .inr rfl, .inr rfl,
        .inl ((X30_main_v152 m c).symm.trans ((upd₂ main_v152).trans (outs_30 m main_v152 c)).symm)])
    fun c b h => (V30_of m _ c b (by
      simp only [List.mem_cons, List.not_mem_nil, _root_.or_false]
      rintro (rfl)
      exacts [h (5 : Fin 6) rfl rfl])).trans (congrFun (V29_outs m c) _)

end Cert.KernelIdeal.Hand

end
-- ==== Proof.KiRun.lean ====
import proofs.«157081_j85761906966880_1_alg».proof.Proof.KiReg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V31 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m) (reg5 m))
    (fun c Q => by
      rewrite [main_chain c, Seg.run_eq_chain,
        show (segs m (outs m) 𝒱₀ L lv (fun _ c => R c) () (pdats m) (reg0 m) (reg1 m) (reg2 m) (reg3 m) (reg4 m) (reg5 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          StableHlo.seq hostOps3_7,
          StableHlo.seq hostOps3_8,
          StableHlo.seq hostOps3_9,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V31 m (outs m) c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl,
      last_chain m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V31 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V31 m (outs m) c) s')
      isplitl [Hh] <;> iassumption)
    (hQ := fun s h => h)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (V31_main_arg0 m _ c),
     (h c _ (mem_uc main_arg1 (by decide))).trans (V31_main_arg1 m _ c),
     (h c _ (mem_uc main_arg2 (by decide))).trans (V31_main_arg2 m _ c),
     (h c _ (mem_uc main_arg3 (by decide))).trans (V31_main_arg3 m _ c),
     (h c _ (mem_uc main_arg4 (by decide))).trans (V31_main_arg4 m _ c),
     (h c _ (mem_uc main_arg5 (by decide))).trans (V31_main_arg5 m _ c),
     (h c _ (mem_uc main_arg6 (by decide))).trans (V31_main_arg6 m _ c),
     (h c _ (mem_uc main_arg7 (by decide))).trans (V31_main_arg7 m _ c),
     (h c _ (mem_uc main_arg8 (by decide))).trans (V31_main_arg8 m _ c),
     (h c _ (mem_uc main_arg9 (by decide))).trans (V31_main_arg9 m _ c),
     (h c _ (mem_uc main_arg10 (by decide))).trans (V31_main_arg10 m _ c),
     (h c _ (mem_uc main_arg11 (by decide))).trans (V31_main_arg11 m _ c),
     (h c _ (mem_uc main_arg12 (by decide))).trans (V31_main_arg12 m _ c),
     (h c _ (mem_uc main_arg13 (by decide))).trans (V31_main_arg13 m _ c),
     (h c _ (mem_uc main_arg14 (by decide))).trans (V31_main_arg14 m _ c),
     (h c _ (mem_uc main_arg15 (by decide))).trans (V31_main_arg15 m _ c),
     (h c _ (mem_uc main_arg16 (by decide))).trans (V31_main_arg16 m _ c)⟩)
    (run_all m ρ)

end Cert.KernelIdeal.Hand

end
-- ==== Proof.KiHost.lean ====
import proofs.«157081_j85761906966880_1_alg».proof.Proof.Gen.KernelIdeal.Regions
import Idealize.ShloMosaic.Lib.StableHlo.Run

set_option maxRecDepth 1660

noncomputable section

namespace Cert.KernelIdeal.HandVal

open Idealize.ShloMosaic Idealize.ShloMosaic.TcCoe
open Idealize.ShloMosaic.StableHlo
open Cert.KernelIdeal.Gen

variable {F : FTy → Type} [FloatOps F]

local macro "stretch_value" : tactic =>
  `(tactic| (after_results_simp <;> (try simp only [TRef.ofBuf, TRef.toBuf, cast_eq]) <;> rfl))

-- |q|² + |p|² - 2 q·p is below the squared radius, the radius given by its bits
def k_within (r2 : BitVec 32) (v0 : FVec F S4x8192x3 .f32) (v2 : FVec F S4x2048x3 .f32) : IVec S4x2048x8192 1 :=
  cmpf .olt
    (subf
      (addf
        (broadcastInDim S4x2048x8192 ![0, 1, 2] bcast_S4x2048x1_S4x2048x8192_0_1_2
          (broadcastInDim S4x2048x1 ![0, 1] bcast_S4x2048_S4x2048x1_0_1
            (Host.reduceAdd (mulf v2 v2) (constant S_ .f32 0x00000000#32) reducesTo_S4x2048x3_S4x2048_d2 h_S_)))
        (broadcastInDim S4x2048x8192 ![0, 1, 2] bcast_S4x1x8192_S4x2048x8192_0_1_2
          (broadcastInDim S4x1x8192 ![0, 2] bcast_S4x8192_S4x1x8192_0_2
            (Host.reduceAdd (mulf v0 v0) (constant S_ .f32 0x00000000#32) reducesTo_S4x8192x3_S4x8192_d2 h_S_))))
      (mulf (broadcastInDim S4x2048x8192 ![] bcast_S_S4x2048x8192 (constant S_ .f32 0x40000000#32))
        (Host.dotGeneral dot_S4x2048x3_S4x8192x3_S4x2048x8192_2_2_1_1_0_0 none v2 v0)))
    (broadcastInDim S4x2048x8192 ![] bcast_S_S4x2048x8192 (constant S_ .f32 r2))

def k_ball_0 (xyz : FVec F S32768x3 .f32) (nw : FVec F S8192x3 .f32) : IVec S4x2048x8192 1 :=
  k_within 0x3D23D70A#32 (shapeCast S4x8192x3 xyz shapeCasts_S32768x3_S4x8192x3)
    (shapeCast S4x2048x3 nw shapeCasts_S8192x3_S4x2048x3)

-- the keys "position if in the ball, else 8192", sorted along the point axis
def k_keys (ball : IVec S4x2048x8192 1) : IVec S4x2048x8192 32 :=
  Host.sort S4x2048x8192 2 comparator_i32_d2
    (select ball
      (broadcastInDim S4x2048x8192 ![0, 1, 2] bcast_S1x1x8192_S4x2048x8192_0_1_2
        (broadcastInDim S1x1x8192 ![2] bcast_S8192_S1x1x8192_2 (iotaInDim S8192 32 0)))
      (broadcastInDim S4x2048x8192 ![] bcast_S_S4x2048x8192 (constantI S_ 32 8192#32)))

def k_near_0 (ball : IVec S4x2048x8192 1) : IVec S4x2048x16 32 :=
  extractStridedSlice S4x2048x16 ![0, 0, 0] (k_keys ball) slices_S4x2048x8192_S4x2048x16_0_0_0

def k_empty_0 (near : IVec S4x2048x16 32) : IVec S4x2048 1 :=
  let v23 : IVec S4x2048x16 32 := broadcastInDim S4x2048x16 ![] bcast_S_S4x2048x16 (constantI S_ 32 8192#32)
  let v24 : IVec S4x2048x16 1 := cmpi .slt near v23
  let v27 : IVec S4x2048x1 1 := extractStridedSlice S4x2048x1 ![0, 0, 0] v24 slices_S4x2048x16_S4x2048x1_0_0_0
  let v28 : IVec S4x2048 1 := shapeCast S4x2048 v27 shapeCasts_S4x2048x1_S4x2048
  noti v28

def k_idx_0 (near : IVec S4x2048x16 32) : IVec S4x2048x16 32 :=
  let v23 : IVec S4x2048x16 32 := broadcastInDim S4x2048x16 ![] bcast_S_S4x2048x16 (constantI S_ 32 8192#32)
  let v24 : IVec S4x2048x16 1 := cmpi .slt near v23
  let v25 : IVec S4x2048x1 32 := extractStridedSlice S4x2048x1 ![0, 0, 0] near slices_S4x2048x16_S4x2048x1_0_0_0
  let v26 : IVec S4x2048x16 32 :=
    select v24 near (broadcastInDim S4x2048x16 ![0, 1, 2] bcast_S4x2048x1_S4x2048x16_0_1_2 v25)
  let v30 : IVec S4x2048x1 1 := broadcastInDim S4x2048x1 ![0, 1] bcast_S4x2048_S4x2048x1_0_1 (k_empty_0 near)
  select (broadcastInDim S4x2048x16 ![0, 1, 2] bcast_S4x2048x1_S4x2048x16_0_1_2 v30)
    (broadcastInDim S4x2048x16 ![] bcast_S_S4x2048x16 (constantI S_ 32 0#32)) v26

-- a negative position counts from the end
def k_wrap_0 (i : IVec S4x2048x16 32) : IVec S4x2048x16x1 32 :=
  broadcastInDim S4x2048x16x1 ![0, 1, 2] bcast_S4x2048x16_S4x2048x16x1_0_1_2
    (select (cmpi .slt i (broadcastInDim S4x2048x16 ![] bcast_S_S4x2048x16 (constantI S_ 32 0#32)))
      (addi i (broadcastInDim S4x2048x16 ![] bcast_S_S4x2048x16 (constantI S_ 32 8192#32))) i)

-- gathered coordinates relative to the query point beside the gathered features, zero where the ball is empty
def k_grp_0 (v0 : FVec F S4x8192x3 .f32) (v1 : FVec F S4x8192x64 .f32) (v2 : FVec F S4x2048x3 .f32)
    (idx : IVec S4x2048x16 32) (empty : IVec S4x2048 1) : FVec F S8192x16x67 .f32 :=
  let v41 : FVec F S4x2048x16x3 .f32 :=
    subf (Host.gather gather_S4x8192x3_S4x2048x16x1_S4x2048x16x3_3_1_0_0_1_3_113 v0 (k_wrap_0 idx))
      (broadcastInDim S4x2048x16x3 ![0, 1, 2, 3] bcast_S4x2048x1x3_S4x2048x16x3_0_1_2_3
        (broadcastInDim S4x2048x1x3 ![0, 1, 3] bcast_S4x2048x3_S4x2048x1x3_0_1_3 v2))
  let v48 : FVec F S4x2048x16x64 .f32 :=
    Host.gather gather_S4x8192x64_S4x2048x16x1_S4x2048x16x64_3_1_0_0_1_3_1164 v1 (k_wrap_0 idx)
  shapeCast S8192x16x67
    (select
      (broadcastInDim S4x2048x16x67 ![0, 1, 2, 3] bcast_S4x2048x1x1_S4x2048x16x67_0_1_2_3
        (broadcastInDim S4x2048x1x1 ![0, 1] bcast_S4x2048_S4x2048x1x1_0_1 empty))
      (broadcastInDim S4x2048x16x67 ![] bcast_S_S4x2048x16x67 (constant S_ .f32 0x00000000#32))
      (concatenate S4x2048x16x67 3 [⟨S4x2048x16x3, v41⟩, ⟨S4x2048x16x64, v48⟩]
        concatenates_S4x2048x16x3_S4x2048x16x64_S4x2048x16x67_d3))
    shapeCasts_S4x2048x16x67_S8192x16x67

def k_group_0 (xyz : FVec F S32768x3 .f32) (feat : FVec F S32768x64 .f32) (nw : FVec F S8192x3 .f32)
    (idx : IVec S4x2048x16 32) (empty : IVec S4x2048 1) : FVec F S8192x16x67 .f32 :=
  k_grp_0 (shapeCast S4x8192x3 xyz shapeCasts_S32768x3_S4x8192x3) (shapeCast S4x8192x64 feat shapeCasts_S32768x64_S4x8192x64)
    (shapeCast S4x2048x3 nw shapeCasts_S8192x3_S4x2048x3) idx empty

def k_g0 (xyz : FVec F S32768x3 .f32) (feat : FVec F S32768x64 .f32) (nw : FVec F S8192x3 .f32) :
    FVec F S8192x16x67 .f32 :=
  k_group_0 xyz feat nw (k_idx_0 (k_near_0 (k_ball_0 xyz nw))) (k_empty_0 (k_near_0 (k_ball_0 xyz nw)))

section Carried

variable (m : (ℓ : Loc nD τ sig) → Buf (Elt F) ℓ) (outs : Outs (F := F)) (c : Dev nD)

theorem nmem_l {α : Type} {a : α} {s t : List α} (h : a ∉ s ++ t) : a ∉ s := fun hs => h (List.mem_append_left t hs)
theorem nmem_r {α : Type} {a : α} {s t : List α} (h : a ∉ s ++ t) : a ∉ t := fun ht => h (List.mem_append_right s ht)

abbrev wr7 : List (Ref sig .tc) :=
  hostOps0_1_W ++ (hostOps0_2_W ++ (hostOps0_3_W ++ (hostOps0_4_W ++ (hostOps0_5_W ++ hostOps0_6_W))))
abbrev wr9 : List (Ref sig .tc) := wr7 ++ (hostOps0_7_W ++ hostOps0_8_W)
abbrev wr11 : List (Ref sig .tc) := wr9 ++ (hostOps0_9_W ++ [main_v55_0, main_v55_1, main_v55_2])
abbrev wr13 : List (Ref sig .tc) := wr11 ++ (hostOps1_W ++ [main_v66_0, main_v66_1, main_v66_2])
abbrev wr15 : List (Ref sig .tc) := wr13 ++ (hostOps2_W ++ [main_v77])
abbrev wr22 : List (Ref sig .tc) :=
  wr15 ++ (hostOps3_W ++ (hostOps3_1_W ++ (hostOps3_2_W ++ (hostOps3_3_W ++ (hostOps3_4_W ++ (hostOps3_5_W ++ hostOps3_6_W))))))
abbrev wr24 : List (Ref sig .tc) := wr22 ++ (hostOps3_7_W ++ hostOps3_8_W)
abbrev wr26 : List (Ref sig .tc) := wr24 ++ (hostOps3_9_W ++ [main_v130_0, main_v130_1, main_v130_2])
abbrev wr28 : List (Ref sig .tc) := wr26 ++ (hostOps4_W ++ [main_v141_0, main_v141_1, main_v141_2])

theorem V7_eq_V1 (r : Ref sig .tc) (h : r ∉ wr7) : V7 m c r = V1 m c r :=
  have t2 := nmem_r h
  have t3 := nmem_r t2
  have t4 := nmem_r t3
  have t5 := nmem_r t4
  (V7_of m c r (nmem_r t5)).trans <| (V6_of m c r (nmem_l t5)).trans <| (V5_of m c r (nmem_l t4)).trans <|
  (V4_of m c r (nmem_l t3)).trans <| (V3_of m c r (nmem_l t2)).trans <| V2_of m c r (nmem_l h)

theorem V9_eq_V1 (r : Ref sig .tc) (h : r ∉ wr9) : V9 m c r = V1 m c r :=
  (V9_of m c r (nmem_r (nmem_r h))).trans <| (V8_of m c r (nmem_l (nmem_r h))).trans <| V7_eq_V1 m c r (nmem_l h)

theorem V11_eq_V1 (r : Ref sig .tc) (h : r ∉ wr11) : V11 m outs c r = V1 m c r :=
  (V11_of m outs c r (nmem_r (nmem_r h))).trans <| (V10_of m c r (nmem_l (nmem_r h))).trans <| V9_eq_V1 m c r (nmem_l h)

theorem V13_eq_V1 (r : Ref sig .tc) (h : r ∉ wr13) : V13 m outs c r = V1 m c r :=
  (V13_of m outs c r (nmem_r (nmem_r h))).trans <| (V12_of m outs c r (nmem_l (nmem_r h))).trans <|
  V11_eq_V1 m outs c r (nmem_l h)

theorem V15_eq_V1 (r : Ref sig .tc) (h : r ∉ wr15) : V15 m outs c r = V1 m c r :=
  (V15_of m outs c r (nmem_r (nmem_r h))).trans <| (V14_of m outs c r (nmem_l (nmem_r h))).trans <|
  V13_eq_V1 m outs c r (nmem_l h)

theorem V22_eq_V1 (r : Ref sig .tc) (h : r ∉ wr22) : V22 m outs c r = V1 m c r :=
  have t0 := nmem_r h
  have t1 := nmem_r t0
  have t2 := nmem_r t1
  have t3 := nmem_r t2
  have t4 := nmem_r t3
  have t5 := nmem_r t4
  (V22_of m outs c r (nmem_r t5)).trans <| (V21_of m outs c r (nmem_l t5)).trans <| (V20_of m outs c r (nmem_l t4)).trans <|
  (V19_of m outs c r (nmem_l t3)).trans <| (V18_of m outs c r (nmem_l t2)).trans <| (V17_of m outs c r (nmem_l t1)).trans <|
  (V16_of m outs c r (nmem_l t0)).trans <| V15_eq_V1 m outs c r (nmem_l h)

theorem V24_eq_V1 (r : Ref sig .tc) (h : r ∉ wr24) : V24 m outs c r = V1 m c r :=
  (V24_of m outs c r (nmem_r (nmem_r h))).trans <| (V23_of m outs c r (nmem_l (nmem_r h))).trans <|
  V22_eq_V1 m outs c r (nmem_l h)

theorem V26_eq_V1 (r : Ref sig .tc) (h : r ∉ wr26) : V26 m outs c r = V1 m c r :=
  (V26_of m outs c r (nmem_r (nmem_r h))).trans <| (V25_of m outs c r (nmem_l (nmem_r h))).trans <|
  V24_eq_V1 m outs c r (nmem_l h)

theorem V28_eq_V1 (r : Ref sig .tc) (h : r ∉ wr28) : V28 m outs c r = V1 m c r :=
  (V28_of m outs c r (nmem_r (nmem_r h))).trans <| (V27_of m outs c r (nmem_l (nmem_r h))).trans <|
  V26_eq_V1 m outs c r (nmem_l h)

theorem V1_launch (r : Ref sig .tc) (h : r ∉ hostOps0_W) : V1 m c r = m ((c : Thread nD τ).loc r) :=
  (V1_of m c r h).trans rfl

end Carried

section Chain0

variable (m : (ℓ : Loc nD τ sig) → Buf (Elt F) ℓ) (c : Dev nD)

set_option quotPrecheck false in
local notation "xyzA" => m ((c : Thread nD τ).loc main_arg0)
set_option quotPrecheck false in
local notation "featA" => m ((c : Thread nD τ).loc main_arg1)
set_option quotPrecheck false in
local notation "nwA" => m ((c : Thread nD τ).loc main_arg2)
set_option quotPrecheck false in
local notation "near0" => k_near_0 (k_ball_0 xyzA nwA)

theorem V1_v0 : V1 m c main_v0 = shapeCast S4x8192x3 (xyzA : FVec F S32768x3 .f32) shapeCasts_S32768x3_S4x8192x3 := by
  stretch_value
theorem V1_v1 : V1 m c main_v1 = shapeCast S4x8192x64 (featA : FVec F S32768x64 .f32) shapeCasts_S32768x64_S4x8192x64 := by
  stretch_value
theorem V1_v2 : V1 m c main_v2 = shapeCast S4x2048x3 (nwA : FVec F S8192x3 .f32) shapeCasts_S8192x3_S4x2048x3 := by
  stretch_value

theorem V7_v29 : V7 m c main_v29 = k_empty_0 near0 := by stretch_value

theorem V7_v31 : V7 m c main_v31 = k_idx_0 near0 := by stretch_value

theorem tail0 (W : Valuation τ sig (Elt F)) :
    StableHlo.after hostOps0_9 (StableHlo.after hostOps0_8 (StableHlo.after hostOps0_7 W)) main_v52
      = k_grp_0 (W main_v0) (W main_v1) (W main_v2) (W main_v31) (W main_v29) := by
  stretch_value

theorem V10_v52 : V10 m c main_v52 = k_g0 xyzA featA nwA := by
  rw [show V10 m c main_v52 = _ from tail0 (V7 m c), V7_v31 m c, V7_v29 m c,
    (V7_eq_V1 m c main_v0 (by decide)).trans (V1_v0 m c), (V7_eq_V1 m c main_v1 (by decide)).trans (V1_v1 m c),
    (V7_eq_V1 m c main_v2 (by decide)).trans (V1_v2 m c)]
  rfl

theorem V10_v53 : V10 m c main_v53
    = transpose S67x128 [1, 0] (m ((c : Thread nD τ).loc main_arg5) : FVec F S128x67 .f32) transposes_S128x67_S67x128_1_0 := by
  stretch_value

theorem V10_v54 : V10 m c main_v54
    = transpose S128x128 [1, 0] (m ((c : Thread nD τ).loc main_arg8) : FVec F S128x128 .f32) transposes_S128x128_S128x128_1_0 := by
  stretch_value

end Chain0

def k_mean (n : BitVec 32) (s : FVec F S1x128 .f32) : FVec F S1x1x128 .f32 :=
  shapeCast S1x1x128 (Host.divf s (broadcastInDim S1x128 ![] bcast_S_S1x128 (constant S_ .f32 n))) shapeCasts_S1x128_S1x1x128

def k_var (n : BitVec 32) (s ss : FVec F S1x128 .f32) : FVec F S1x1x128 .f32 :=
  shapeCast S1x1x128
    (subf (Host.divf ss (broadcastInDim S1x128 ![] bcast_S_S1x128 (constant S_ .f32 n)))
      (mulf (Host.divf s (broadcastInDim S1x128 ![] bcast_S_S1x128 (constant S_ .f32 n)))
        (Host.divf s (broadcastInDim S1x128 ![] bcast_S_S1x128 (constant S_ .f32 n)))))
    shapeCasts_S1x128_S1x1x128

section Entries

variable (m : (ℓ : Loc nD τ sig) → Buf (Elt F) ℓ) (outs : Outs (F := F)) (c : Dev nD)

-- of three updates at distinct points, each point reads its own value
theorem upd_a {V : Valuation τ sig (Elt F)} {a b d : Ref sig .tc} (x y z) (hb : a ≠ b) (hd : a ≠ d) :
    Function.update (Function.update (Function.update V a x) b y) d z a = x := by
  rw [Function.update_of_ne (devRef_ne_of_ne hd), Function.update_of_ne (devRef_ne_of_ne hb), Function.update_self]

theorem upd_b {V : Valuation τ sig (Elt F)} {a b d : Ref sig .tc} (x y z) (hd : b ≠ d) :
    Function.update (Function.update (Function.update V a x) b y) d z b = y := by
  rw [Function.update_of_ne (devRef_ne_of_ne hd), Function.update_self]

theorem V11_v55_1 : V11 m outs c main_v55_1 = outs 11 main_v55_1 c := upd_b _ _ _ (by decide)
theorem V11_v55_2 : V11 m outs c main_v55_2 = outs 11 main_v55_2 c := Function.update_self _ _ _

theorem V12_v55_0 : V12 m outs c main_v55_0 = outs 11 main_v55_0 c :=
  (V12_of m outs c main_v55_0 (by decide)).trans (upd_a _ _ _ (by decide) (by decide))

theorem V12_v62 : V12 m outs c main_v62 = k_mean 0x48000000#32 (outs 11 main_v55_1 c) := by
  rw [← V11_v55_1 m outs c]; stretch_value

theorem V12_v63 : V12 m outs c main_v63 = k_var 0x48000000#32 (outs 11 main_v55_1 c) (outs 11 main_v55_2 c) := by
  rw [← V11_v55_1 m outs c, ← V11_v55_2 m outs c]; stretch_value

theorem V12_v64 : V12 m outs c main_v64
    = shapeCast S1x1x128 (m ((c : Thread nD τ).loc main_arg6) : FVec F S128 .f32) shapeCasts_S128_S1x1x128 := by
  rw [← (V11_eq_V1 m outs c main_arg6 (by decide)).trans (V1_launch m c main_arg6 (by decide))]; stretch_value

theorem V12_v65 : V12 m outs c main_v65
    = shapeCast S1x1x128 (m ((c : Thread nD τ).loc main_arg7) : FVec F S128 .f32) shapeCasts_S128_S1x1x128 := by
  rw [← (V11_eq_V1 m outs c main_arg7 (by decide)).trans (V1_launch m c main_arg7 (by decide))]; stretch_value

theorem V12_v54 : V12 m outs c main_v54
    = transpose S128x128 [1, 0] (m ((c : Thread nD τ).loc main_arg8) : FVec F S128x128 .f32) transposes_S128x128_S128x128_1_0 :=
  (V12_of m outs c main_v54 (by decide)).trans <| (V11_of m outs c main_v54 (by decide)).trans <| V10_v54 m c

theorem V13_v66_1 : V13 m outs c main_v66_1 = outs 13 main_v66_1 c := upd_b _ _ _ (by decide)
theorem V13_v66_2 : V13 m outs c main_v66_2 = outs 13 main_v66_2 c := Function.update_self _ _ _

theorem V14_v66_0 : V14 m outs c main_v66_0 = outs 13 main_v66_0 c :=
  (V14_of m outs c main_v66_0 (by decide)).trans (upd_a _ _ _ (by decide) (by decide))

theorem V14_v73 : V14 m outs c main_v73 = k_mean 0x48000000#32 (outs 13 main_v66_1 c) := by
  rw [← V13_v66_1 m outs c]; stretch_value

theorem V14_v74 : V14 m outs c main_v74 = k_var 0x48000000#32 (outs 13 main_v66_1 c) (outs 13 main_v66_2 c) := by
  rw [← V13_v66_1 m outs c, ← V13_v66_2 m outs c]; stretch_value

theorem V14_v75 : V14 m outs c main_v75
    = shapeCast S1x1x128 (m ((c : Thread nD τ).loc main_arg9) : FVec F S128 .f32) shapeCasts_S128_S1x1x128 := by
  rw [← (V13_eq_V1 m outs c main_arg9 (by decide)).trans (V1_launch m c main_arg9 (by decide))]; stretch_value

theorem V14_v76 : V14 m outs c main_v76
    = shapeCast S1x1x128 (m ((c : Thread nD τ).loc main_arg10) : FVec F S128 .f32) shapeCasts_S128_S1x1x128 := by
  rw [← (V13_eq_V1 m outs c main_arg10 (by decide)).trans (V1_launch m c main_arg10 (by decide))]; stretch_value

theorem V25_v128 : V25 m outs c main_v128
    = transpose S67x128 [1, 0] (m ((c : Thread nD τ).loc main_arg11) : FVec F S128x67 .f32) transposes_S128x67_S67x128_1_0 := by
  rw [← (V24_eq_V1 m outs c main_arg11 (by decide)).trans (V1_launch m c main_arg11 (by decide))]; stretch_value

theorem V25_v129 : V25 m outs c main_v129
    = transpose S128x128 [1, 0] (m ((c : Thread nD τ).loc main_arg14) : FVec F S128x128 .f32) transposes_S128x128_S128x128_1_0 := by
  rw [← (V24_eq_V1 m outs c main_arg14 (by decide)).trans (V1_launch m c main_arg14 (by decide))]; stretch_value

theorem V26_v130_1 : V26 m outs c main_v130_1 = outs 26 main_v130_1 c := upd_b _ _ _ (by decide)
theorem V26_v130_2 : V26 m outs c main_v130_2 = outs 26 main_v130_2 c := Function.update_self _ _ _

theorem V27_v130_0 : V27 m outs c main_v130_0 = outs 26 main_v130_0 c :=
  (V27_of m outs c main_v130_0 (by decide)).trans (upd_a _ _ _ (by decide) (by decide))

theorem V27_v137 : V27 m outs c main_v137 = k_mean 0x48800000#32 (outs 26 main_v130_1 c) := by
  rw [← V26_v130_1 m outs c]; stretch_value

theorem V27_v138 : V27 m outs c main_v138 = k_var 0x48800000#32 (outs 26 main_v130_1 c) (outs 26 main_v130_2 c) := by
  rw [← V26_v130_1 m outs c, ← V26_v130_2 m outs c]; stretch_value

theorem V27_v139 : V27 m outs c main_v139
    = shapeCast S1x1x128 (m ((c : Thread nD τ).loc main_arg12) : FVec F S128 .f32) shapeCasts_S128_S1x1x128 := by
  rw [← (V26_eq_V1 m outs c main_arg12 (by decide)).trans (V1_launch m c main_arg12 (by decide))]; stretch_value

theorem V27_v140 : V27 m outs c main_v140
    = shapeCast S1x1x128 (m ((c : Thread nD τ).loc main_arg13) : FVec F S128 .f32) shapeCasts_S128_S1x1x128 := by
  rw [← (V26_eq_V1 m outs c main_arg13 (by decide)).trans (V1_launch m c main_arg13 (by decide))]; stretch_value

theorem V27_v129 : V27 m outs c main_v129
    = transpose S128x128 [1, 0] (m ((c : Thread nD τ).loc main_arg14) : FVec F S128x128 .f32) transposes_S128x128_S128x128_1_0 :=
  (V27_of m outs c main_v129 (by decide)).trans <| (V26_of m outs c main_v129 (by decide)).trans <| V25_v129 m outs c

theorem V28_v141_1 : V28 m outs c main_v141_1 = outs 28 main_v141_1 c := upd_b _ _ _ (by decide)
theorem V28_v141_2 : V28 m outs c main_v141_2 = outs 28 main_v141_2 c := Function.update_self _ _ _

theorem V29_v141_0 : V29 m outs c main_v141_0 = outs 28 main_v141_0 c :=
  (V29_of m outs c main_v141_0 (by decide)).trans (upd_a _ _ _ (by decide) (by decide))

theorem V29_v148 : V29 m outs c main_v148 = k_mean 0x48800000#32 (outs 28 main_v141_1 c) := by
  rw [← V28_v141_1 m outs c]; stretch_value

theorem V29_v149 : V29 m outs c main_v149 = k_var 0x48800000#32 (outs 28 main_v141_1 c) (outs 28 main_v141_2 c) := by
  rw [← V28_v141_1 m outs c, ← V28_v141_2 m outs c]; stretch_value

theorem V29_v150 : V29 m outs c main_v150
    = shapeCast S1x1x128 (m ((c : Thread nD τ).loc main_arg15) : FVec F S128 .f32) shapeCasts_S128_S1x1x128 := by
  rw [← (V28_eq_V1 m outs c main_arg15 (by decide)).trans (V1_launch m c main_arg15 (by decide))]; stretch_value

theorem V29_v151 : V29 m outs c main_v151
    = shapeCast S1x1x128 (m ((c : Thread nD τ).loc main_arg16) : FVec F S128 .f32) shapeCasts_S128_S1x1x128 := by
  rw [← (V28_eq_V1 m outs c main_arg16 (by decide)).trans (V1_launch m c main_arg16 (by decide))]; stretch_value

theorem V30_v77 : V30 m outs c main_v77 = outs 15 main_v77 c :=
  (V30_of m outs c main_v77 (by decide)).trans <| (V29_of m outs c main_v77 (by decide)).trans <|
  (V28_of m outs c main_v77 (by decide)).trans <| (V27_of m outs c main_v77 (by decide)).trans <|
  (V26_of m outs c main_v77 (by decide)).trans <| (V25_of m outs c main_v77 (by decide)).trans <|
  (V24_of m outs c main_v77 (by decide)).trans <| (V23_of m outs c main_v77 (by decide)).trans <|
  (V22_of m outs c main_v77 (by decide)).trans <| (V21_of m outs c main_v77 (by decide)).trans <|
  (V20_of m outs c main_v77 (by decide)).trans <| (V19_of m outs c main_v77 (by decide)).trans <|
  (V18_of m outs c main_v77 (by decide)).trans <| (V17_of m outs c main_v77 (by decide)).trans <|
  (V16_of m outs c main_v77 (by decide)).trans <| Function.update_self _ _ _

theorem ops6_v153 (W : Valuation τ sig (Elt F)) : StableHlo.after hostOps6 W main_v153
    = concatenate S8192x256 1 [⟨S8192x128, (W main_v77 : FVec F S8192x128 .f32)⟩, ⟨S8192x128, (W main_v152 : FVec F S8192x128 .f32)⟩]
        concatenates_S8192x128_S8192x128_S8192x256_d1 := by
  dsimp only [hostOps6]; after_results

theorem V31_v153 : V31 m outs c main_v153
    = concatenate S8192x256 1 [⟨S8192x128, outs 15 main_v77 c⟩, ⟨S8192x128, outs 30 main_v152 c⟩]
        concatenates_S8192x128_S8192x128_S8192x256_d1 := by
  refine (ops6_v153 (V30 m outs c)).trans ?_
  rw [V30_v77 m outs c, show V30 m outs c main_v152 = _ from Function.update_self _ _ _]

end Entries

end Cert.KernelIdeal.HandVal

end
-- ==== Proof.LibConsts.lean ====
import Idealize.ShloMosaic.PureOps.Ideal
import Idealize.ShloMosaic.PureOps.Ideal.Laws
import Mathlib.Tactic.NormNum
import Mathlib.Tactic.Positivity

namespace Cert.Lib

open Idealize.ShloMosaic

theorem ofBits_f32_131072 : Ideal.ofBits .f32 0x48000000#32 = ((131072 : ℝ) : EReal) := by
  simp [Ideal.ofBits, Ideal.ieee, -EReal.coe_mul] <;> norm_num

theorem ofBits_f32_262144 : Ideal.ofBits .f32 0x48800000#32 = ((262144 : ℝ) : EReal) := by
  simp [Ideal.ofBits, Ideal.ieee, -EReal.coe_mul] <;> norm_num

-- The pattern's value is 10995116 · 2⁻⁴⁰.
theorem ofBits_f32_eps_pos : ∃ ε : ℝ, 0 < ε ∧ Ideal.ofBits .f32 0x3727C5AC#32 = (ε : EReal) := by
  refine ⟨10995116 * (2 : ℝ) ^ (-40 : ℤ), by positivity, ?_⟩
  simp [Ideal.ofBits, Ideal.ieee, -EReal.coe_mul] <;> norm_num

end Cert.Lib
-- ==== Proof.KiHostApply.lean ====
import proofs.«157081_j85761906966880_1_alg».proof.Proof.KiHost
import proofs.«157081_j85761906966880_1_alg».proof.Proof.LibConsts
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.HandVal

open Idealize.ShloMosaic Idealize.ShloMosaic.TcCoe Idealize.ShloMosaic.ValueIdx
open Idealize.ShloMosaic.StableHlo
open Cert.KernelIdeal.Gen

theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

theorem k_mean_apply (n : BitVec 32) (r : ℝ) (hn : Ideal.ofBits .f32 n = (r : EReal)) (s : FVec Ideal S1x128 .f32)
    (b : Fin 128) :
    k_mean (F := Ideal) n s (ix3 0 0 b) = Ideal.div (s (ix2 0 b)) (r : EReal) := by
  unfold k_mean
  rw [shapeCast_ab_1ab_apply, hostDivf_apply, broadcastInDim_scalar_apply, constant_apply, hn]

theorem k_var_apply (n : BitVec 32) (r : ℝ) (hn : Ideal.ofBits .f32 n = (r : EReal)) (s ss : FVec Ideal S1x128 .f32)
    (b : Fin 128) :
    k_var (F := Ideal) n s ss (ix3 0 0 b)
      = Ideal.div (ss (ix2 0 b)) (r : EReal) - Ideal.div (s (ix2 0 b)) (r : EReal) * Ideal.div (s (ix2 0 b)) (r : EReal) := by
  unfold k_var
  rw [shapeCast_ab_1ab_apply, subf_apply, mulf_apply, hostDivf_apply, hostDivf_apply, broadcastInDim_scalar_apply,
    constant_apply, hn]

theorem concat_cols_left {α : Type} (x y : (⟨2, ![8192, 128]⟩ : Shape).Idx → α)
    (h : Shape.Concatenates [(⟨2, ![8192, 128]⟩ : Shape), ⟨2, ![8192, 128]⟩] ⟨2, ![8192, 256]⟩ 1) (a : Fin 8192) (b : Fin 128) :
    concatenate ⟨2, ![8192, 256]⟩ 1 [⟨⟨2, ![8192, 128]⟩, x⟩, ⟨⟨2, ![8192, 128]⟩, y⟩] h (ix2 a (⟨b.val, by omega⟩ : Fin 256))
      = x (ix2 a b) := by
  refine concatenate_pair_apply_left 1 x y h _ rfl (ix2 a b) ?_
  intro d
  match d with
  | ⟨0, _⟩ => rfl
  | ⟨1, _⟩ => rfl

theorem concat_cols_right {α : Type} (x y : (⟨2, ![8192, 128]⟩ : Shape).Idx → α)
    (h : Shape.Concatenates [(⟨2, ![8192, 128]⟩ : Shape), ⟨2, ![8192, 128]⟩] ⟨2, ![8192, 256]⟩ 1) (a : Fin 8192) (b : Fin 128) :
    concatenate ⟨2, ![8192, 256]⟩ 1 [⟨⟨2, ![8192, 128]⟩, x⟩, ⟨⟨2, ![8192, 128]⟩, y⟩] h (ix2 a (⟨b.val + 128, by omega⟩ : Fin 256))
      = y (ix2 a b) := by
  refine concatenate_pair_apply_right 1 x y h _ rfl rfl (ix2 a b) ?_ ?_
  · intro d hd
    match d with
    | ⟨0, _⟩ => rfl
    | ⟨1, _⟩ => exact absurd rfl hd
  · rfl

theorem cnt_0 : Ideal.ofBits .f32 0x48000000#32 = ((131072 : ℝ) : EReal) := Cert.Lib.ofBits_f32_131072
theorem cnt_1 : Ideal.ofBits .f32 0x48800000#32 = ((262144 : ℝ) : EReal) := Cert.Lib.ofBits_f32_262144

end Cert.KernelIdeal.HandVal

end
-- ==== Proof.KiHost1.lean ====
import proofs.«157081_j85761906966880_1_alg».proof.Proof.KiHost

set_option maxRecDepth 1660

noncomputable section

namespace Cert.KernelIdeal.HandVal

open Idealize.ShloMosaic Idealize.ShloMosaic.TcCoe
open Idealize.ShloMosaic.StableHlo
open Cert.KernelIdeal.Gen

variable {F : FTy → Type} [FloatOps F]

local macro "stretch_value" : tactic =>
  `(tactic| (after_results_simp <;> (try simp only [TRef.ofBuf, TRef.toBuf, cast_eq]) <;> rfl))

def k_ball_1 (xyz : FVec F S32768x3 .f32) (nw : FVec F S8192x3 .f32) : IVec S4x2048x8192 1 :=
  k_within 0x3E23D70A#32 (shapeCast S4x8192x3 xyz shapeCasts_S32768x3_S4x8192x3)
    (shapeCast S4x2048x3 nw shapeCasts_S8192x3_S4x2048x3)

def k_near_1 (ball : IVec S4x2048x8192 1) : IVec S4x2048x32 32 :=
  extractStridedSlice S4x2048x32 ![0, 0, 0] (k_keys ball) slices_S4x2048x8192_S4x2048x32_0_0_0

def k_empty_1 (near : IVec S4x2048x32 32) : IVec S4x2048 1 :=
  let v98 : IVec S4x2048x32 32 := broadcastInDim S4x2048x32 ![] bcast_S_S4x2048x32 (constantI S_ 32 8192#32)
  let v99 : IVec S4x2048x32 1 := cmpi .slt near v98
  let v102 : IVec S4x2048x1 1 := extractStridedSlice S4x2048x1 ![0, 0, 0] v99 slices_S4x2048x32_S4x2048x1_0_0_0
  let v103 : IVec S4x2048 1 := shapeCast S4x2048 v102 shapeCasts_S4x2048x1_S4x2048
  noti v103

def k_idx_1 (near : IVec S4x2048x32 32) : IVec S4x2048x32 32 :=
  let v98 : IVec S4x2048x32 32 := broadcastInDim S4x2048x32 ![] bcast_S_S4x2048x32 (constantI S_ 32 8192#32)
  let v99 : IVec S4x2048x32 1 := cmpi .slt near v98
  let v100 : IVec S4x2048x1 32 := extractStridedSlice S4x2048x1 ![0, 0, 0] near slices_S4x2048x32_S4x2048x1_0_0_0
  let v101 : IVec S4x2048x32 32 :=
    select v99 near (broadcastInDim S4x2048x32 ![0, 1, 2] bcast_S4x2048x1_S4x2048x32_0_1_2 v100)
  let v105 : IVec S4x2048x1 1 := broadcastInDim S4x2048x1 ![0, 1] bcast_S4x2048_S4x2048x1_0_1 (k_empty_1 near)
  select (broadcastInDim S4x2048x32 ![0, 1, 2] bcast_S4x2048x1_S4x2048x32_0_1_2 v105)
    (broadcastInDim S4x2048x32 ![] bcast_S_S4x2048x32 (constantI S_ 32 0#32)) v101

-- a negative position counts from the end
def k_wrap_1 (i : IVec S4x2048x32 32) : IVec S4x2048x32x1 32 :=
  broadcastInDim S4x2048x32x1 ![0, 1, 2] bcast_S4x2048x32_S4x2048x32x1_0_1_2
    (select (cmpi .slt i (broadcastInDim S4x2048x32 ![] bcast_S_S4x2048x32 (constantI S_ 32 0#32)))
      (addi i (broadcastInDim S4x2048x32 ![] bcast_S_S4x2048x32 (constantI S_ 32 8192#32))) i)

def k_grp_1 (v0 : FVec F S4x8192x3 .f32) (v1 : FVec F S4x8192x64 .f32) (v2 : FVec F S4x2048x3 .f32)
    (idx : IVec S4x2048x32 32) (empty : IVec S4x2048 1) : FVec F S8192x32x67 .f32 :=
  let v116 : FVec F S4x2048x32x3 .f32 :=
    subf (Host.gather gather_S4x8192x3_S4x2048x32x1_S4x2048x32x3_3_1_0_0_1_3_113 v0 (k_wrap_1 idx))
      (broadcastInDim S4x2048x32x3 ![0, 1, 2, 3] bcast_S4x2048x1x3_S4x2048x32x3_0_1_2_3
        (broadcastInDim S4x2048x1x3 ![0, 1, 3] bcast_S4x2048x3_S4x2048x1x3_0_1_3 v2))
  let v123 : FVec F S4x2048x32x64 .f32 :=
    Host.gather gather_S4x8192x64_S4x2048x32x1_S4x2048x32x64_3_1_0_0_1_3_1164 v1 (k_wrap_1 idx)
  shapeCast S8192x32x67
    (select
      (broadcastInDim S4x2048x32x67 ![0, 1, 2, 3] bcast_S4x2048x1x1_S4x2048x32x67_0_1_2_3
        (broadcastInDim S4x2048x1x1 ![0, 1] bcast_S4x2048_S4x2048x1x1_0_1 empty))
      (broadcastInDim S4x2048x32x67 ![] bcast_S_S4x2048x32x67 (constant S_ .f32 0x00000000#32))
      (concatenate S4x2048x32x67 3 [⟨S4x2048x32x3, v116⟩, ⟨S4x2048x32x64, v123⟩]
        concatenates_S4x2048x32x3_S4x2048x32x64_S4x2048x32x67_d3))
    shapeCasts_S4x2048x32x67_S8192x32x67

def k_group_1 (xyz : FVec F S32768x3 .f32) (feat : FVec F S32768x64 .f32) (nw : FVec F S8192x3 .f32)
    (idx : IVec S4x2048x32 32) (empty : IVec S4x2048 1) : FVec F S8192x32x67 .f32 :=
  k_grp_1 (shapeCast S4x8192x3 xyz shapeCasts_S32768x3_S4x8192x3) (shapeCast S4x8192x64 feat shapeCasts_S32768x64_S4x8192x64)
    (shapeCast S4x2048x3 nw shapeCasts_S8192x3_S4x2048x3) idx empty

def k_g1 (xyz : FVec F S32768x3 .f32) (feat : FVec F S32768x64 .f32) (nw : FVec F S8192x3 .f32) :
    FVec F S8192x32x67 .f32 :=
  k_group_1 xyz feat nw (k_idx_1 (k_near_1 (k_ball_1 xyz nw))) (k_empty_1 (k_near_1 (k_ball_1 xyz nw)))

section Chain1

variable (m : (ℓ : Loc nD τ sig) → Buf (Elt F) ℓ) (outs : Outs (F := F)) (c : Dev nD)

set_option quotPrecheck false in
local notation "xyzA" => m ((c : Thread nD τ).loc main_arg0)
set_option quotPrecheck false in
local notation "featA" => m ((c : Thread nD τ).loc main_arg1)
set_option quotPrecheck false in
local notation "nwA" => m ((c : Thread nD τ).loc main_arg2)

abbrev upto22 (W : Valuation τ sig (Elt F)) : Valuation τ sig (Elt F) :=
  StableHlo.after hostOps3_6 (StableHlo.after hostOps3_5 (StableHlo.after hostOps3_4 (StableHlo.after hostOps3_3
    (StableHlo.after hostOps3_2 (StableHlo.after hostOps3_1 (StableHlo.after hostOps3 W))))))

theorem idx1 (W : Valuation τ sig (Elt F)) :
    upto22 W main_v106 = k_idx_1 (k_near_1 (k_within 0x3E23D70A#32 (W main_v0) (W main_v2))) := by
  stretch_value

theorem empty1 (W : Valuation τ sig (Elt F)) :
    upto22 W main_v104 = k_empty_1 (k_near_1 (k_within 0x3E23D70A#32 (W main_v0) (W main_v2))) := by
  stretch_value

theorem tail1 (W : Valuation τ sig (Elt F)) :
    StableHlo.after hostOps3_9 (StableHlo.after hostOps3_8 (StableHlo.after hostOps3_7 W)) main_v127
      = k_grp_1 (W main_v0) (W main_v1) (W main_v2) (W main_v106) (W main_v104) := by
  stretch_value

theorem V25_v127 : V25 m outs c main_v127 = k_g1 xyzA featA nwA := by
  rw [show V25 m outs c main_v127 = _ from tail1 (V22 m outs c), show V22 m outs c main_v106 = _ from idx1 (V15 m outs c),
    show V22 m outs c main_v104 = _ from empty1 (V15 m outs c),
    (V22_eq_V1 m outs c main_v0 (by decide)).trans (V1_v0 m c), (V22_eq_V1 m outs c main_v1 (by decide)).trans (V1_v1 m c),
    (V22_eq_V1 m outs c main_v2 (by decide)).trans (V1_v2 m c),
    (V15_eq_V1 m outs c main_v0 (by decide)).trans (V1_v0 m c), (V15_eq_V1 m outs c main_v2 (by decide)).trans (V1_v2 m c)]
  rfl

end Chain1

end Cert.KernelIdeal.HandVal

end
-- ==== Proof.RefStages0.lean ====
import proofs.«157081_j85761906966880_1_alg».proof.ReferenceIdeal

noncomputable section

namespace Cert.ReferenceIdeal.Hand

open Idealize.ShloMosaic
open Cert.ReferenceIdeal Cert.ReferenceIdeal.Facts₀ Cert.ReferenceIdeal.Facts

variable {F : FTy → Type} [FloatOps F] [Facts]

def r_ball_0 (xyz : FVec F S32768x3 .f32) (nw : FVec F S8192x3 .f32) : IVec S4x2048x8192 1 :=
  let v0 : FVec F S4x8192x3 .f32 := shapeCast S4x8192x3 xyz shapeCasts_S32768x3_S4x8192x3
  let v2 : FVec F S4x2048x3 .f32 := shapeCast S4x2048x3 nw shapeCasts_S8192x3_S4x2048x3
  let v3 : FVec F S4x2048x3 .f32 := mulf v2 v2
  let v4 : FVec F S4x2048 .f32 := Host.reduceAdd v3 (constant S_ .f32 0x00000000#32) reducesTo_S4x2048x3_S4x2048_d2 h_S_
  let v5 : FVec F S4x2048x1 .f32 := broadcastInDim S4x2048x1 ![0, 1] bcast_S4x2048_S4x2048x1_0_1 v4
  let v6 : FVec F S4x8192x3 .f32 := mulf v0 v0
  let v7 : FVec F S4x8192 .f32 := Host.reduceAdd v6 (constant S_ .f32 0x00000000#32) reducesTo_S4x8192x3_S4x8192_d2 h_S_
  let v8 : FVec F S4x1x8192 .f32 := broadcastInDim S4x1x8192 ![0, 2] bcast_S4x8192_S4x1x8192_0_2 v7
  let v9 : FVec F S4x2048x8192 .f32 := broadcastInDim S4x2048x8192 ![0, 1, 2] bcast_S4x2048x1_S4x2048x8192_0_1_2 v5
  let v10 : FVec F S4x2048x8192 .f32 := broadcastInDim S4x2048x8192 ![0, 1, 2] bcast_S4x1x8192_S4x2048x8192_0_1_2 v8
  let v11 : FVec F S4x2048x8192 .f32 := addf v9 v10
  let v12 : FVec F S4x2048x8192 .f32 := Host.dotGeneral dot_S4x2048x3_S4x8192x3_S4x2048x8192_2_2_1_1_0_0 none v2 v0
  let v13 : FVec F S4x2048x8192 .f32 := broadcastInDim S4x2048x8192 ![] bcast_S_S4x2048x8192 (constant S_ .f32 0x40000000#32)
  let v14 : FVec F S4x2048x8192 .f32 := mulf v13 v12
  let v15 : FVec F S4x2048x8192 .f32 := subf v11 v14
  let v16 : FVec F S4x2048x8192 .f32 := broadcastInDim S4x2048x8192 ![] bcast_S_S4x2048x8192 (constant S_ .f32 0x3D23D70A#32)
  cmpf .olt v15 v16

def r_near_0 (ball : IVec S4x2048x8192 1) : IVec S4x2048x16 32 :=
  let v18 : IVec S8192 32 := iotaInDim S8192 32 0
  let v19 : IVec S1x1x8192 32 := broadcastInDim S1x1x8192 ![2] bcast_S8192_S1x1x8192_2 v18
  let w1 : IVec S4x2048x8192 32 := broadcastInDim S4x2048x8192 ![0, 1, 2] bcast_S1x1x8192_S4x2048x8192_0_1_2 v19
  let w2 : IVec S4x2048x8192 32 := broadcastInDim S4x2048x8192 ![] bcast_S_S4x2048x8192 (constantI S_ 32 8192#32)
  let v20 : IVec S4x2048x8192 32 := select ball w1 w2
  let v21 : IVec S4x2048x8192 32 := Host.sort S4x2048x8192 2 comparator_i32_d2 v20
  extractStridedSlice S4x2048x16 ![0, 0, 0] v21 slices_S4x2048x8192_S4x2048x16_0_0_0

def r_empty_0 (near : IVec S4x2048x16 32) : IVec S4x2048 1 :=
  let v23 : IVec S4x2048x16 32 := broadcastInDim S4x2048x16 ![] bcast_S_S4x2048x16 (constantI S_ 32 8192#32)
  let v24 : IVec S4x2048x16 1 := cmpi .slt near v23
  let v27 : IVec S4x2048x1 1 := extractStridedSlice S4x2048x1 ![0, 0, 0] v24 slices_S4x2048x16_S4x2048x1_0_0_0
  let v28 : IVec S4x2048 1 := shapeCast S4x2048 v27 shapeCasts_S4x2048x1_S4x2048
  noti v28

def r_idx_0 (near : IVec S4x2048x16 32) : IVec S4x2048x16 32 :=
  let v23 : IVec S4x2048x16 32 := broadcastInDim S4x2048x16 ![] bcast_S_S4x2048x16 (constantI S_ 32 8192#32)
  let v24 : IVec S4x2048x16 1 := cmpi .slt near v23
  let v25 : IVec S4x2048x1 32 := extractStridedSlice S4x2048x1 ![0, 0, 0] near slices_S4x2048x16_S4x2048x1_0_0_0
  let v26 : IVec S4x2048x16 32 :=
    select v24 near (broadcastInDim S4x2048x16 ![0, 1, 2] bcast_S4x2048x1_S4x2048x16_0_1_2 v25)
  let v30 : IVec S4x2048x1 1 := broadcastInDim S4x2048x1 ![0, 1] bcast_S4x2048_S4x2048x1_0_1 (r_empty_0 near)
  select (broadcastInDim S4x2048x16 ![0, 1, 2] bcast_S4x2048x1_S4x2048x16_0_1_2 v30)
    (broadcastInDim S4x2048x16 ![] bcast_S_S4x2048x16 (constantI S_ 32 0#32)) v26

def r_group_0 (xyz : FVec F S32768x3 .f32) (feat : FVec F S32768x64 .f32) (nw : FVec F S8192x3 .f32)
    (idx : IVec S4x2048x16 32) (empty : IVec S4x2048 1) : FVec F S8192x16x67 .f32 :=
  let v0 : FVec F S4x8192x3 .f32 := shapeCast S4x8192x3 xyz shapeCasts_S32768x3_S4x8192x3
  let v1 : FVec F S4x8192x64 .f32 := shapeCast S4x8192x64 feat shapeCasts_S32768x64_S4x8192x64
  let v2 : FVec F S4x2048x3 .f32 := shapeCast S4x2048x3 nw shapeCasts_S8192x3_S4x2048x3
  let v32 : IVec S4x2048x16 32 := broadcastInDim S4x2048x16 ![] bcast_S_S4x2048x16 (constantI S_ 32 0#32)
  let v33 : IVec S4x2048x16 1 := cmpi .slt idx v32
  let v34 : IVec S4x2048x16 32 := broadcastInDim S4x2048x16 ![] bcast_S_S4x2048x16 (constantI S_ 32 8192#32)
  let v35 : IVec S4x2048x16 32 := addi idx v34
  let v36 : IVec S4x2048x16 32 := select v33 v35 idx
  let v37 : IVec S4x2048x16x1 32 := broadcastInDim S4x2048x16x1 ![0, 1, 2] bcast_S4x2048x16_S4x2048x16x1_0_1_2 v36
  let v38 : FVec F S4x2048x16x3 .f32 := Host.gather gather_S4x8192x3_S4x2048x16x1_S4x2048x16x3_3_1_0_0_1_3_113 v0 v37
  let v39 : FVec F S4x2048x1x3 .f32 := broadcastInDim S4x2048x1x3 ![0, 1, 3] bcast_S4x2048x3_S4x2048x1x3_0_1_3 v2
  let v40 : FVec F S4x2048x16x3 .f32 := broadcastInDim S4x2048x16x3 ![0, 1, 2, 3] bcast_S4x2048x1x3_S4x2048x16x3_0_1_2_3 v39
  let v41 : FVec F S4x2048x16x3 .f32 := subf v38 v40
  let v42 : IVec S4x2048x16 32 := broadcastInDim S4x2048x16 ![] bcast_S_S4x2048x16 (constantI S_ 32 0#32)
  let v43 : IVec S4x2048x16 1 := cmpi .slt idx v42
  let v44 : IVec S4x2048x16 32 := broadcastInDim S4x2048x16 ![] bcast_S_S4x2048x16 (constantI S_ 32 8192#32)
  let v45 : IVec S4x2048x16 32 := addi idx v44
  let v46 : IVec S4x2048x16 32 := select v43 v45 idx
  let v47 : IVec S4x2048x16x1 32 := broadcastInDim S4x2048x16x1 ![0, 1, 2] bcast_S4x2048x16_S4x2048x16x1_0_1_2 v46
  let v48 : FVec F S4x2048x16x64 .f32 := Host.gather gather_S4x8192x64_S4x2048x16x1_S4x2048x16x64_3_1_0_0_1_3_1164 v1 v47
  let v49 : FVec F S4x2048x16x67 .f32 :=
    concatenate S4x2048x16x67 3 [⟨S4x2048x16x3, v41⟩, ⟨S4x2048x16x64, v48⟩] concatenates_S4x2048x16x3_S4x2048x16x64_S4x2048x16x67_d3
  let v50 : IVec S4x2048x1x1 1 := broadcastInDim S4x2048x1x1 ![0, 1] bcast_S4x2048_S4x2048x1x1_0_1 empty
  let v51 : FVec F S4x2048x16x67 .f32 :=
    select (broadcastInDim S4x2048x16x67 ![0, 1, 2, 3] bcast_S4x2048x1x1_S4x2048x16x67_0_1_2_3 v50)
      (broadcastInDim S4x2048x16x67 ![] bcast_S_S4x2048x16x67 (constant S_ .f32 0x00000000#32)) v49
  shapeCast S8192x16x67 v51 shapeCasts_S4x2048x16x67_S8192x16x67

def r_g0 (xyz : FVec F S32768x3 .f32) (feat : FVec F S32768x64 .f32) (nw : FVec F S8192x3 .f32) :
    FVec F S8192x16x67 .f32 :=
  r_group_0 xyz feat nw (r_idx_0 (r_near_0 (r_ball_0 xyz nw))) (r_empty_0 (r_near_0 (r_ball_0 xyz nw)))

def r_h1_0 (g : FVec F S8192x16x67 .f32) (w : FVec F S128x67 .f32) : FVec F S8192x16x128 .f32 :=
  Host.dotGeneral dot_S8192x16x67_S128x67_S8192x16x128_2_1_01_0_n_n none g w

def r_h2_0 (a : FVec F S8192x16x128 .f32) (w : FVec F S128x128 .f32) : FVec F S8192x16x128 .f32 :=
  Host.dotGeneral dot_S8192x16x128_S128x128_S8192x16x128_2_1_01_0_n_n none a w

def r_mean_0 (h : FVec F S8192x16x128 .f32) : FVec F S128 .f32 :=
  Host.divf (Host.reduceAdd h (constant S_ .f32 0x00000000#32) reducesTo_S8192x16x128_S128_d0_1 h_S_)
    (broadcastInDim S128 ![] bcast_S_S128 (constant S_ .f32 0x48000000#32))

def r_var_0 (h : FVec F S8192x16x128 .f32) : FVec F S128 .f32 :=
  let v0 : FVec F S128 .f32 := Host.reduceAdd h (constant S_ .f32 0x00000000#32) reducesTo_S8192x16x128_S128_d0_1 h_S_
  let v1 : FVec F S1x1x128 .f32 := broadcastInDim S1x1x128 ![2] bcast_S128_S1x1x128_2 v0
  let v2 : FVec F S1x1x128 .f32 := broadcastInDim S1x1x128 ![] bcast_S_S1x1x128 (constant S_ .f32 0x48000000#32)
  let v3 : FVec F S1x1x128 .f32 := Host.divf v1 v2
  let v4 : FVec F S8192x16x128 .f32 := broadcastInDim S8192x16x128 ![0, 1, 2] bcast_S1x1x128_S8192x16x128_0_1_2 v3
  let v5 : FVec F S8192x16x128 .f32 := subf h v4
  let v6 : FVec F S8192x16x128 .f32 := mulf v5 v5
  let v7 : FVec F S_ .f32 := sitofp .f32 (constantI S_ 32 0#32)
  let v8 : FVec F S_ .f32 := subf (constant S_ .f32 0x48000000#32) v7
  let v9 : FVec F S128 .f32 := Host.reduceAdd v6 (constant S_ .f32 0x00000000#32) reducesTo_S8192x16x128_S128_d0_1 h_S_
  let v10 : FVec F S128 .f32 := broadcastInDim S128 ![] bcast_S_S128 v8
  let v11 : FVec F S128 .f32 := Host.divf v9 v10
  let v12 : IVec S_ 1 := cmpf .ogt v8 (constant S_ .f32 0x00000000#32)
  select (broadcastInDim S128 ![] bcast_S_S128 v12) v11
    (broadcastInDim S128 ![] bcast_S_S128 (constant S_ .f32 0x7FC00000#32))

def r_act_0 (h : FVec F S8192x16x128 .f32) (mean var gamma beta : FVec F S128 .f32) : FVec F S8192x16x128 .f32 :=
  let m1 : FVec F S1x1x128 .f32 := broadcastInDim S1x1x128 ![2] bcast_S128_S1x1x128_2 mean
  let m2 : FVec F S8192x16x128 .f32 := broadcastInDim S8192x16x128 ![0, 1, 2] bcast_S1x1x128_S8192x16x128_0_1_2 m1
  let d : FVec F S8192x16x128 .f32 := subf h m2
  let e : FVec F S128 .f32 := broadcastInDim S128 ![] bcast_S_S128 (constant S_ .f32 0x3727C5AC#32)
  let r : FVec F S128 .f32 := Host.rsqrt (addf var e)
  let r1 : FVec F S1x1x128 .f32 := broadcastInDim S1x1x128 ![2] bcast_S128_S1x1x128_2 r
  let r2 : FVec F S8192x16x128 .f32 := broadcastInDim S8192x16x128 ![0, 1, 2] bcast_S1x1x128_S8192x16x128_0_1_2 r1
  let p : FVec F S8192x16x128 .f32 := mulf d r2
  let g1 : FVec F S1x1x128 .f32 := broadcastInDim S1x1x128 ![2] bcast_S128_S1x1x128_2 gamma
  let g2 : FVec F S8192x16x128 .f32 := broadcastInDim S8192x16x128 ![0, 1, 2] bcast_S1x1x128_S8192x16x128_0_1_2 g1
  let q : FVec F S8192x16x128 .f32 := mulf p g2
  let b1 : FVec F S1x1x128 .f32 := broadcastInDim S1x1x128 ![2] bcast_S128_S1x1x128_2 beta
  let b2 : FVec F S8192x16x128 .f32 := broadcastInDim S8192x16x128 ![0, 1, 2] bcast_S1x1x128_S8192x16x128_0_1_2 b1
  let t : FVec F S8192x16x128 .f32 := addf q b2
  maximumf t (broadcastInDim S8192x16x128 ![] bcast_S_S8192x16x128 (constant S_ .f32 0x00000000#32))

def r_out_0 (a : FVec F S8192x16x128 .f32) : FVec F S8192x128 .f32 :=
  Host.reduce FloatOps.maximumf a (constant S_ .f32 0xFF800000#32) reducesTo_S8192x16x128_S8192x128_d1 h_S_

def r_bn_0 (h : FVec F S8192x16x128 .f32) (gamma beta : FVec F S128 .f32) : FVec F S8192x16x128 .f32 :=
  r_act_0 h (r_mean_0 h) (r_var_0 h) gamma beta

def r_tail_0 (g : FVec F S8192x16x67 .f32) (w0 : FVec F S128x67 .f32) (g0 b0 : FVec F S128 .f32)
    (w1 : FVec F S128x128 .f32) (g1 b1 : FVec F S128 .f32) : FVec F S8192x128 .f32 :=
  r_out_0 (r_bn_0 (r_h2_0 (r_bn_0 (r_h1_0 g w0) g0 b0) w1) g1 b1)

end Cert.ReferenceIdeal.Hand

end
-- ==== Proof.RefStages1.lean ====
import proofs.«157081_j85761906966880_1_alg».proof.ReferenceIdeal

noncomputable section

namespace Cert.ReferenceIdeal.Hand

open Idealize.ShloMosaic
open Cert.ReferenceIdeal Cert.ReferenceIdeal.Facts₀ Cert.ReferenceIdeal.Facts

variable {F : FTy → Type} [FloatOps F] [Facts]

def r_ball_1 (xyz : FVec F S32768x3 .f32) (nw : FVec F S8192x3 .f32) : IVec S4x2048x8192 1 :=
  let v0 : FVec F S4x8192x3 .f32 := shapeCast S4x8192x3 xyz shapeCasts_S32768x3_S4x8192x3
  let v2 : FVec F S4x2048x3 .f32 := shapeCast S4x2048x3 nw shapeCasts_S8192x3_S4x2048x3
  let v3 : FVec F S4x2048x3 .f32 := mulf v2 v2
  let v4 : FVec F S4x2048 .f32 := Host.reduceAdd v3 (constant S_ .f32 0x00000000#32) reducesTo_S4x2048x3_S4x2048_d2 h_S_
  let v5 : FVec F S4x2048x1 .f32 := broadcastInDim S4x2048x1 ![0, 1] bcast_S4x2048_S4x2048x1_0_1 v4
  let v6 : FVec F S4x8192x3 .f32 := mulf v0 v0
  let v7 : FVec F S4x8192 .f32 := Host.reduceAdd v6 (constant S_ .f32 0x00000000#32) reducesTo_S4x8192x3_S4x8192_d2 h_S_
  let v8 : FVec F S4x1x8192 .f32 := broadcastInDim S4x1x8192 ![0, 2] bcast_S4x8192_S4x1x8192_0_2 v7
  let v9 : FVec F S4x2048x8192 .f32 := broadcastInDim S4x2048x8192 ![0, 1, 2] bcast_S4x2048x1_S4x2048x8192_0_1_2 v5
  let v10 : FVec F S4x2048x8192 .f32 := broadcastInDim S4x2048x8192 ![0, 1, 2] bcast_S4x1x8192_S4x2048x8192_0_1_2 v8
  let v11 : FVec F S4x2048x8192 .f32 := addf v9 v10
  let v12 : FVec F S4x2048x8192 .f32 := Host.dotGeneral dot_S4x2048x3_S4x8192x3_S4x2048x8192_2_2_1_1_0_0 none v2 v0
  let v13 : FVec F S4x2048x8192 .f32 := broadcastInDim S4x2048x8192 ![] bcast_S_S4x2048x8192 (constant S_ .f32 0x40000000#32)
  let v14 : FVec F S4x2048x8192 .f32 := mulf v13 v12
  let v15 : FVec F S4x2048x8192 .f32 := subf v11 v14
  let v16 : FVec F S4x2048x8192 .f32 := broadcastInDim S4x2048x8192 ![] bcast_S_S4x2048x8192 (constant S_ .f32 0x3E23D70A#32)
  cmpf .olt v15 v16

def r_near_1 (ball : IVec S4x2048x8192 1) : IVec S4x2048x32 32 :=
  let v18 : IVec S8192 32 := iotaInDim S8192 32 0
  let v19 : IVec S1x1x8192 32 := broadcastInDim S1x1x8192 ![2] bcast_S8192_S1x1x8192_2 v18
  let w1 : IVec S4x2048x8192 32 := broadcastInDim S4x2048x8192 ![0, 1, 2] bcast_S1x1x8192_S4x2048x8192_0_1_2 v19
  let w2 : IVec S4x2048x8192 32 := broadcastInDim S4x2048x8192 ![] bcast_S_S4x2048x8192 (constantI S_ 32 8192#32)
  let v20 : IVec S4x2048x8192 32 := select ball w1 w2
  let v21 : IVec S4x2048x8192 32 := Host.sort S4x2048x8192 2 comparator_i32_d2 v20
  extractStridedSlice S4x2048x32 ![0, 0, 0] v21 slices_S4x2048x8192_S4x2048x32_0_0_0

def r_empty_1 (near : IVec S4x2048x32 32) : IVec S4x2048 1 :=
  let v23 : IVec S4x2048x32 32 := broadcastInDim S4x2048x32 ![] bcast_S_S4x2048x32 (constantI S_ 32 8192#32)
  let v24 : IVec S4x2048x32 1 := cmpi .slt near v23
  let v27 : IVec S4x2048x1 1 := extractStridedSlice S4x2048x1 ![0, 0, 0] v24 slices_S4x2048x32_S4x2048x1_0_0_0
  let v28 : IVec S4x2048 1 := shapeCast S4x2048 v27 shapeCasts_S4x2048x1_S4x2048
  noti v28

def r_idx_1 (near : IVec S4x2048x32 32) : IVec S4x2048x32 32 :=
  let v23 : IVec S4x2048x32 32 := broadcastInDim S4x2048x32 ![] bcast_S_S4x2048x32 (constantI S_ 32 8192#32)
  let v24 : IVec S4x2048x32 1 := cmpi .slt near v23
  let v25 : IVec S4x2048x1 32 := extractStridedSlice S4x2048x1 ![0, 0, 0] near slices_S4x2048x32_S4x2048x1_0_0_0
  let v26 : IVec S4x2048x32 32 :=
    select v24 near (broadcastInDim S4x2048x32 ![0, 1, 2] bcast_S4x2048x1_S4x2048x32_0_1_2 v25)
  let v30 : IVec S4x2048x1 1 := broadcastInDim S4x2048x1 ![0, 1] bcast_S4x2048_S4x2048x1_0_1 (r_empty_1 near)
  select (broadcastInDim S4x2048x32 ![0, 1, 2] bcast_S4x2048x1_S4x2048x32_0_1_2 v30)
    (broadcastInDim S4x2048x32 ![] bcast_S_S4x2048x32 (constantI S_ 32 0#32)) v26

def r_group_1 (xyz : FVec F S32768x3 .f32) (feat : FVec F S32768x64 .f32) (nw : FVec F S8192x3 .f32)
    (idx : IVec S4x2048x32 32) (empty : IVec S4x2048 1) : FVec F S8192x32x67 .f32 :=
  let v0 : FVec F S4x8192x3 .f32 := shapeCast S4x8192x3 xyz shapeCasts_S32768x3_S4x8192x3
  let v1 : FVec F S4x8192x64 .f32 := shapeCast S4x8192x64 feat shapeCasts_S32768x64_S4x8192x64
  let v2 : FVec F S4x2048x3 .f32 := shapeCast S4x2048x3 nw shapeCasts_S8192x3_S4x2048x3
  let v32 : IVec S4x2048x32 32 := broadcastInDim S4x2048x32 ![] bcast_S_S4x2048x32 (constantI S_ 32 0#32)
  let v33 : IVec S4x2048x32 1 := cmpi .slt idx v32
  let v34 : IVec S4x2048x32 32 := broadcastInDim S4x2048x32 ![] bcast_S_S4x2048x32 (constantI S_ 32 8192#32)
  let v35 : IVec S4x2048x32 32 := addi idx v34
  let v36 : IVec S4x2048x32 32 := select v33 v35 idx
  let v37 : IVec S4x2048x32x1 32 := broadcastInDim S4x2048x32x1 ![0, 1, 2] bcast_S4x2048x32_S4x2048x32x1_0_1_2 v36
  let v38 : FVec F S4x2048x32x3 .f32 := Host.gather gather_S4x8192x3_S4x2048x32x1_S4x2048x32x3_3_1_0_0_1_3_113 v0 v37
  let v39 : FVec F S4x2048x1x3 .f32 := broadcastInDim S4x2048x1x3 ![0, 1, 3] bcast_S4x2048x3_S4x2048x1x3_0_1_3 v2
  let v40 : FVec F S4x2048x32x3 .f32 := broadcastInDim S4x2048x32x3 ![0, 1, 2, 3] bcast_S4x2048x1x3_S4x2048x32x3_0_1_2_3 v39
  let v41 : FVec F S4x2048x32x3 .f32 := subf v38 v40
  let v42 : IVec S4x2048x32 32 := broadcastInDim S4x2048x32 ![] bcast_S_S4x2048x32 (constantI S_ 32 0#32)
  let v43 : IVec S4x2048x32 1 := cmpi .slt idx v42
  let v44 : IVec S4x2048x32 32 := broadcastInDim S4x2048x32 ![] bcast_S_S4x2048x32 (constantI S_ 32 8192#32)
  let v45 : IVec S4x2048x32 32 := addi idx v44
  let v46 : IVec S4x2048x32 32 := select v43 v45 idx
  let v47 : IVec S4x2048x32x1 32 := broadcastInDim S4x2048x32x1 ![0, 1, 2] bcast_S4x2048x32_S4x2048x32x1_0_1_2 v46
  let v48 : FVec F S4x2048x32x64 .f32 := Host.gather gather_S4x8192x64_S4x2048x32x1_S4x2048x32x64_3_1_0_0_1_3_1164 v1 v47
  let v49 : FVec F S4x2048x32x67 .f32 :=
    concatenate S4x2048x32x67 3 [⟨S4x2048x32x3, v41⟩, ⟨S4x2048x32x64, v48⟩] concatenates_S4x2048x32x3_S4x2048x32x64_S4x2048x32x67_d3
  let v50 : IVec S4x2048x1x1 1 := broadcastInDim S4x2048x1x1 ![0, 1] bcast_S4x2048_S4x2048x1x1_0_1 empty
  let v51 : FVec F S4x2048x32x67 .f32 :=
    select (broadcastInDim S4x2048x32x67 ![0, 1, 2, 3] bcast_S4x2048x1x1_S4x2048x32x67_0_1_2_3 v50)
      (broadcastInDim S4x2048x32x67 ![] bcast_S_S4x2048x32x67 (constant S_ .f32 0x00000000#32)) v49
  shapeCast S8192x32x67 v51 shapeCasts_S4x2048x32x67_S8192x32x67

def r_g1 (xyz : FVec F S32768x3 .f32) (feat : FVec F S32768x64 .f32) (nw : FVec F S8192x3 .f32) :
    FVec F S8192x32x67 .f32 :=
  r_group_1 xyz feat nw (r_idx_1 (r_near_1 (r_ball_1 xyz nw))) (r_empty_1 (r_near_1 (r_ball_1 xyz nw)))

def r_h1_1 (g : FVec F S8192x32x67 .f32) (w : FVec F S128x67 .f32) : FVec F S8192x32x128 .f32 :=
  Host.dotGeneral dot_S8192x32x67_S128x67_S8192x32x128_2_1_01_0_n_n none g w

def r_h2_1 (a : FVec F S8192x32x128 .f32) (w : FVec F S128x128 .f32) : FVec F S8192x32x128 .f32 :=
  Host.dotGeneral dot_S8192x32x128_S128x128_S8192x32x128_2_1_01_0_n_n none a w

def r_mean_1 (h : FVec F S8192x32x128 .f32) : FVec F S128 .f32 :=
  Host.divf (Host.reduceAdd h (constant S_ .f32 0x00000000#32) reducesTo_S8192x32x128_S128_d0_1 h_S_)
    (broadcastInDim S128 ![] bcast_S_S128 (constant S_ .f32 0x48800000#32))

def r_var_1 (h : FVec F S8192x32x128 .f32) : FVec F S128 .f32 :=
  let v0 : FVec F S128 .f32 := Host.reduceAdd h (constant S_ .f32 0x00000000#32) reducesTo_S8192x32x128_S128_d0_1 h_S_
  let v1 : FVec F S1x1x128 .f32 := broadcastInDim S1x1x128 ![2] bcast_S128_S1x1x128_2 v0
  let v2 : FVec F S1x1x128 .f32 := broadcastInDim S1x1x128 ![] bcast_S_S1x1x128 (constant S_ .f32 0x48800000#32)
  let v3 : FVec F S1x1x128 .f32 := Host.divf v1 v2
  let v4 : FVec F S8192x32x128 .f32 := broadcastInDim S8192x32x128 ![0, 1, 2] bcast_S1x1x128_S8192x32x128_0_1_2 v3
  let v5 : FVec F S8192x32x128 .f32 := subf h v4
  let v6 : FVec F S8192x32x128 .f32 := mulf v5 v5
  let v7 : FVec F S_ .f32 := sitofp .f32 (constantI S_ 32 0#32)
  let v8 : FVec F S_ .f32 := subf (constant S_ .f32 0x48800000#32) v7
  let v9 : FVec F S128 .f32 := Host.reduceAdd v6 (constant S_ .f32 0x00000000#32) reducesTo_S8192x32x128_S128_d0_1 h_S_
  let v10 : FVec F S128 .f32 := broadcastInDim S128 ![] bcast_S_S128 v8
  let v11 : FVec F S128 .f32 := Host.divf v9 v10
  let v12 : IVec S_ 1 := cmpf .ogt v8 (constant S_ .f32 0x00000000#32)
  select (broadcastInDim S128 ![] bcast_S_S128 v12) v11
    (broadcastInDim S128 ![] bcast_S_S128 (constant S_ .f32 0x7FC00000#32))

def r_act_1 (h : FVec F S8192x32x128 .f32) (mean var gamma beta : FVec F S128 .f32) : FVec F S8192x32x128 .f32 :=
  let m1 : FVec F S1x1x128 .f32 := broadcastInDim S1x1x128 ![2] bcast_S128_S1x1x128_2 mean
  let m2 : FVec F S8192x32x128 .f32 := broadcastInDim S8192x32x128 ![0, 1, 2] bcast_S1x1x128_S8192x32x128_0_1_2 m1
  let d : FVec F S8192x32x128 .f32 := subf h m2
  let e : FVec F S128 .f32 := broadcastInDim S128 ![] bcast_S_S128 (constant S_ .f32 0x3727C5AC#32)
  let r : FVec F S128 .f32 := Host.rsqrt (addf var e)
  let r1 : FVec F S1x1x128 .f32 := broadcastInDim S1x1x128 ![2] bcast_S128_S1x1x128_2 r
  let r2 : FVec F S8192x32x128 .f32 := broadcastInDim S8192x32x128 ![0, 1, 2] bcast_S1x1x128_S8192x32x128_0_1_2 r1
  let p : FVec F S8192x32x128 .f32 := mulf d r2
  let g1 : FVec F S1x1x128 .f32 := broadcastInDim S1x1x128 ![2] bcast_S128_S1x1x128_2 gamma
  let g2 : FVec F S8192x32x128 .f32 := broadcastInDim S8192x32x128 ![0, 1, 2] bcast_S1x1x128_S8192x32x128_0_1_2 g1
  let q : FVec F S8192x32x128 .f32 := mulf p g2
  let b1 : FVec F S1x1x128 .f32 := broadcastInDim S1x1x128 ![2] bcast_S128_S1x1x128_2 beta
  let b2 : FVec F S8192x32x128 .f32 := broadcastInDim S8192x32x128 ![0, 1, 2] bcast_S1x1x128_S8192x32x128_0_1_2 b1
  let t : FVec F S8192x32x128 .f32 := addf q b2
  maximumf t (broadcastInDim S8192x32x128 ![] bcast_S_S8192x32x128 (constant S_ .f32 0x00000000#32))

def r_out_1 (a : FVec F S8192x32x128 .f32) : FVec F S8192x128 .f32 :=
  Host.reduce FloatOps.maximumf a (constant S_ .f32 0xFF800000#32) reducesTo_S8192x32x128_S8192x128_d1 h_S_

def r_bn_1 (h : FVec F S8192x32x128 .f32) (gamma beta : FVec F S128 .f32) : FVec F S8192x32x128 .f32 :=
  r_act_1 h (r_mean_1 h) (r_var_1 h) gamma beta

def r_tail_1 (g : FVec F S8192x32x67 .f32) (w0 : FVec F S128x67 .f32) (g0 b0 : FVec F S128 .f32)
    (w1 : FVec F S128x128 .f32) (g1 b1 : FVec F S128 .f32) : FVec F S8192x128 .f32 :=
  r_out_1 (r_bn_1 (r_h2_1 (r_bn_1 (r_h1_1 g w0) g0 b0) w1) g1 b1)

end Cert.ReferenceIdeal.Hand

end
-- ==== Proof.SharedChain.lean ====
import proofs.«157081_j85761906966880_1_alg».proof.Proof.KiHost
import proofs.«157081_j85761906966880_1_alg».proof.Proof.KiHost1
import proofs.«157081_j85761906966880_1_alg».proof.Proof.RefStages0
import proofs.«157081_j85761906966880_1_alg».proof.Proof.RefStages1

noncomputable section

namespace Cert.Bridge

open Idealize.ShloMosaic
open Cert.KernelIdeal.HandVal Cert.ReferenceIdeal.Hand

variable {F : FTy → Type} [FloatOps F] [Cert.ReferenceIdeal.Facts]
  (xyz : FVec F ⟨2, ![32768, 3]⟩ .f32) (feat : FVec F ⟨2, ![32768, 64]⟩ .f32) (nw : FVec F ⟨2, ![8192, 3]⟩ .f32)

-- Both programs build the grouped input by the same operations at the same shapes, so the two unfold to one term.
theorem g0_eq : k_g0 xyz feat nw = r_g0 xyz feat nw := rfl

theorem g1_eq : k_g1 xyz feat nw = r_g1 xyz feat nw := rfl

end Cert.Bridge

end
-- ==== Proof.KiVal0.lean ====
import proofs.«157081_j85761906966880_1_alg».proof.Proof.KiR0
import Idealize.ShloMosaic.Lib.Pipeline.Value
import Idealize.ShloMosaic.Lib.ValueIdx
import Idealize.ShloMosaic.PureOps.Ideal.Laws

set_option maxRecDepth 16384

noncomputable section
namespace Cert.KernelIdeal.HandVal
open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx
open scoped BigOperators

abbrev r0_D := dot_S8192x67_S67x128_S8192x128_1_0_0_1_n_n

theorem r0_lhs0 (y : S8192x128.Idx) (q : r0_D.contr.Idx) : (r0_D.lhsIdx y q 0 : ℕ) = y 0 := by
  simp [DotDims.lhsIdx, r0_D, dot_S8192x67_S67x128_S8192x128_1_0_0_1_n_n]; rfl
theorem r0_lhs1 (y : S8192x128.Idx) (q : r0_D.contr.Idx) : (r0_D.lhsIdx y q 1 : ℕ) = q ⟨0, by decide⟩ := by
  simp [DotDims.lhsIdx, r0_D, dot_S8192x67_S67x128_S8192x128_1_0_0_1_n_n]; rfl
theorem r0_rhs0 (y : S8192x128.Idx) (q : r0_D.contr.Idx) : (r0_D.rhsIdx y q 0 : ℕ) = q ⟨0, by decide⟩ := by
  simp [DotDims.rhsIdx, r0_D, dot_S8192x67_S67x128_S8192x128_1_0_0_1_n_n]; rfl
theorem r0_rhs1 (y : S8192x128.Idx) (q : r0_D.contr.Idx) : (r0_D.rhsIdx y q 1 : ℕ) = y 1 := by
  simp [DotDims.rhsIdx, r0_D, dot_S8192x67_S67x128_S8192x128_1_0_0_1_n_n]; rfl

def r0_contr : r0_D.contr.Idx ≃ Fin 67 := contrEquiv1 r0_D 67 (by decide) (by decide)
theorem r0_contr_val (q : r0_D.contr.Idx) : (r0_contr q).val = (q ⟨0, by decide⟩).val := rfl

theorem r0_pay2_apply (x0 : Vec Ideal S512x16x67 .f32) (x1 : Vec Ideal S67x128 .f32) (a : Fin 512) (j : Fin 16) (o : Fin 128)
    (r : Fin 8192) (hr : r.val = 16 * a.val + j.val) :
    k0_pay2 x0 x1 (ix2 r o) = ∑ k : Fin 67, x0 (ix3 a j k) * x1 (ix2 k o) := by
  unfold k0_pay2
  refine (Ideal.matmul_constant_zero_apply r0_D none _ _ (ix2 r o)).trans ?_
  refine Fintype.sum_equiv r0_contr _ _ fun q => ?_
  have e0 : (truncf .bf16 (shapeCast S8192x67 (shapeCast S512x16x67 x0 shapeCasts_S512x16x67_S512x16x67) shapeCasts_S512x16x67_S8192x67) bitsLt_bf16_f32 : FVec Ideal S8192x67 .bf16)
      (r0_D.lhsIdx (ix2 r o) q) = x0 (ix3 a j (r0_contr q)) := by
    show shapeCast S8192x67 (shapeCast S512x16x67 x0 shapeCasts_S512x16x67_S512x16x67) shapeCasts_S512x16x67_S8192x67 (r0_D.lhsIdx (ix2 r o) q) = _
    rw [shapeCast_self]
    refine shapeCast_apply x0 _ _ (ix3 a j (r0_contr q)) ?_
    rw [Shape.rowMajor_val_three, Shape.rowMajor_val_two, r0_lhs0, r0_lhs1, r0_contr_val]
    show (a.val * 16 + j.val) * 67 + _ = r.val * 67 + _
    rw [hr]; ring
  have e1 : (truncf .bf16 (shapeCast S67x128 x1 shapeCasts_S67x128_S67x128) bitsLt_bf16_f32 : FVec Ideal S67x128 .bf16)
      (r0_D.rhsIdx (ix2 r o) q) = x1 (ix2 (r0_contr q) o) := by
    show shapeCast S67x128 x1 shapeCasts_S67x128_S67x128 (r0_D.rhsIdx (ix2 r o) q) = _
    rw [shapeCast_self]
    exact congrArg x1 (Shape.idx_ext₂ (by rw [r0_rhs0, r0_contr_val]) (by rw [r0_rhs1]))
  exact congrArg₂ (· * ·) e0 e1

theorem r0_pay4_apply (x0 : Vec Ideal S512x16x67 .f32) (x1 : Vec Ideal S67x128 .f32) (v : Vec Ideal S1x128 .f32) (o : Fin 128) :
    k0_pay4 x0 x1 v (ix2 0 o) = v (ix2 0 o) + ∑ r : Fin 8192, k0_pay2 x0 x1 (ix2 r o) := by
  unfold k0_pay4
  rw [shapeCast_self]
  show v (ix2 0 o) + shapeCast S1x128 (multiReduction .add [0] S128 (k0_pay2 x0 x1) 0x00000000#32 reduces_S8192x128_S128 (.inl rfl) rfl) shapeCasts_S128_S1x128 (ix2 0 o) = _
  congr 1
  refine (shapeCast_apply _ shapeCasts_S128_S1x128 (ix2 0 o) (ix1 o) (by rw [Shape.rowMajor_val_one, Shape.rowMajor_val_two]; simp)).trans ?_
  exact Ideal.multiReduction_add_single (k0_pay2 x0 x1) _ reduces_S8192x128_S128 (.inl rfl) rfl (ix1 o)

theorem r0_pay5_apply (x0 : Vec Ideal S512x16x67 .f32) (x1 : Vec Ideal S67x128 .f32) (v : Vec Ideal S1x128 .f32) (o : Fin 128) :
    k0_pay5 x0 x1 v (ix2 0 o) = v (ix2 0 o) + ∑ r : Fin 8192, k0_pay2 x0 x1 (ix2 r o) * k0_pay2 x0 x1 (ix2 r o) := by
  unfold k0_pay5
  rw [shapeCast_self]
  show v (ix2 0 o) + shapeCast S1x128 (multiReduction .add [0] S128 (mulf (k0_pay2 x0 x1) (k0_pay2 x0 x1)) 0x00000000#32 reduces_S8192x128_S128 (.inl rfl) rfl) shapeCasts_S128_S1x128 (ix2 0 o) = _
  congr 1
  refine (shapeCast_apply _ shapeCasts_S128_S1x128 (ix2 0 o) (ix1 o) (by rw [Shape.rowMajor_val_one, Shape.rowMajor_val_two]; simp)).trans ?_
  exact Ideal.multiReduction_add_single (mulf (k0_pay2 x0 x1) (k0_pay2 x0 x1)) _ reduces_S8192x128_S128 (.inl rfl) rfl (ix1 o)

theorem r0_pay1_apply (y : S2x128.Idx) : (k0_pay1 : FVec Ideal S2x128 .f32) y = 0 := by
  unfold k0_pay1
  rw [shapeCast_self]
  show Ideal.ofBits .f32 0x00000000#32 = 0
  exact Ideal.ofBits_zero_f32

section Rows
variable {Val : EltTy → Type} [∀ e, Nonempty (Val e)]

abbrev r0_row0 : Rect S2x128 := Rect.unit (s := S2x128) ![0, 0] S1x128.size inb_S2x128_S1x128_0_0
abbrev r0_row1 : Rect S2x128 := Rect.unit (s := S2x128) ![1, 0] S1x128.size inb_S2x128_S1x128_1_0

theorem r0_row0_idx (o : Fin 128) : r0_row0.idx (ix2 0 o) = ix2 0 o :=
  Shape.idx_ext₂ (by simp [Rect.unit]) (by simp [Rect.unit])
theorem r0_row1_idx (o : Fin 128) : r0_row1.idx (ix2 0 o) = ix2 1 o :=
  Shape.idx_ext₂ (by simp [Rect.unit]) (by simp [Rect.unit])

theorem r0_canon_at1 (w1 : r0_row1.shape.Idx → Val .f32) (L : List (View.Piece Val S2x128 .f32)) (o : Fin 128) :
    View.canon (⟨r0_row1, w1⟩ :: L) (ix2 1 o) = w1 (ix2 0 o) := by
  rw [← r0_row1_idx o]; exact View.canon_cons_emb r0_row1 w1 L (ix2 0 o)

theorem r0_not_mem_row1 (o : Fin 128) :
    (ix2 0 o : S2x128.Idx) ∉ (Rect.unit (s := S2x128) ![1, 0] S1x128.size inb_S2x128_S1x128_1_0).set := by
  intro h
  have h0 : (1 : ℕ) ≤ 0 := (Rect.mem_set_unit.mp h 0).1
  omega
theorem r0_not_mem_row0 (o : Fin 128) :
    (ix2 1 o : S2x128.Idx) ∉ (Rect.unit (s := S2x128) ![0, 0] S1x128.size inb_S2x128_S1x128_0_0).set := by
  intro h
  have h0 : (1 : ℕ) < 0 + 1 := (Rect.mem_set_unit.mp h 0).2
  omega

theorem r0_canon_at0 (w1 : r0_row1.shape.Idx → Val .f32) (w0 : r0_row0.shape.Idx → Val .f32) (L : List (View.Piece Val S2x128 .f32)) (o : Fin 128) :
    View.canon (⟨r0_row1, w1⟩ :: ⟨r0_row0, w0⟩ :: L) (ix2 0 o) = w0 (ix2 0 o) := by
  rw [View.canon_cons_of_not_mem (⟨r0_row1, w1⟩ : View.Piece Val S2x128 .f32) (⟨r0_row0, w0⟩ :: L) (r0_not_mem_row1 o)]
  rw [← r0_row0_idx o]; exact View.canon_cons_emb r0_row0 w0 L (ix2 0 o)

theorem r0_canon_skip0 (w0 : r0_row0.shape.Idx → Val .f32) (L : List (View.Piece Val S2x128 .f32)) (o : Fin 128) :
    View.canon (⟨r0_row0, w0⟩ :: L) (ix2 1 o) = View.canon L (ix2 1 o) :=
  View.canon_cons_of_not_mem (⟨r0_row0, w0⟩ : View.Piece Val S2x128 .f32) L (r0_not_mem_row0 o)
end Rows

theorem r0_hz3 : (![0, 0, 0] : Fin 3 → Nat) = fun _ => 0 := funext fun a => by fin_cases a <;> rfl
theorem r0_hz2 : (![0, 0] : Fin 2 → Nat) = fun _ => 0 := funext fun a => by fin_cases a <;> rfl

section AnyFloat
variable {F : FTy → Type} [FloatOps F]

section
variable (c : Dev nD) (i : grid0.Coords) (arg1 : Memref sig .tc .vmem S512x16x67 .f32) (harg1 : arg1.IsWhole) (arg2 : Memref sig .tc .vmem S67x128 .f32) (harg2 : arg2.IsWhole) (arg3 : Memref sig .tc .vmem S512x16x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2x128 .f32) (harg6 : arg6.IsWhole)
theorem r0_out2_A_eq (hc0 : r0_condFirst i) (hc1 : ¬r0_condLast i) (x0 : Vec F S512x16x67 .f32) (x1 : Vec F S67x128 .f32) :
    r0_out2_A c i arg1 harg1 arg2 harg2 arg3 harg3 arg4 harg4 arg5 harg5 arg6 harg6 hc0 hc1 x0 x1 = k0_pay3 x0 x1 := by
  unfold r0_out2_A
  rw [View.read_writes_eq_canon _ _ _ (r0_cover2_A c i arg1 harg1 arg2 harg2 arg3 harg3 arg4 harg4 arg5 harg5 arg6 harg6 hc0 hc1 x0 x1)]
  unfold r0_runA
  dsimp only
  sl_unfold_words
  rw [View.canon_unit_zero r0_hz3]
  simp only [View.readAt_eq_ld, harg1.read_unread, harg2.read_unread, harg6.read_unread, View.ld_unit_zero (S := S512x16x67) r0_hz3, View.ld_unit_zero (S := S67x128) r0_hz2]

theorem r0_out2_B_eq (hc0 : ¬r0_condFirst i) (hc1 : ¬r0_condLast i) (x0 : Vec F S512x16x67 .f32) (x1 : Vec F S67x128 .f32) (xs : Vec F S2x128 .f32) :
    r0_out2_B c i arg1 harg1 arg2 harg2 arg3 harg3 arg4 harg4 arg5 harg5 arg6 harg6 hc0 hc1 x0 x1 xs = k0_pay3 x0 x1 := by
  unfold r0_out2_B
  rw [View.read_writes_eq_canon _ _ _ (r0_cover2_B c i arg1 harg1 arg2 harg2 arg3 harg3 arg4 harg4 arg5 harg5 arg6 harg6 hc0 hc1 x0 x1 xs)]
  unfold r0_runB
  dsimp only
  sl_unfold_words
  rw [View.canon_unit_zero r0_hz3]
  simp only [View.readAt_eq_ld, harg1.read_unread, harg2.read_unread, harg6.read_unread, View.ld_unit_zero (S := S512x16x67) r0_hz3, View.ld_unit_zero (S := S67x128) r0_hz2]

theorem r0_out2_C_eq (hc0 : ¬r0_condFirst i) (hc1 : r0_condLast i) (x0 : Vec F S512x16x67 .f32) (x1 : Vec F S67x128 .f32) (xs : Vec F S2x128 .f32) :
    r0_out2_C c i arg1 harg1 arg2 harg2 arg3 harg3 arg4 harg4 arg5 harg5 arg6 harg6 hc0 hc1 x0 x1 xs = k0_pay3 x0 x1 := by
  unfold r0_out2_C
  rw [View.read_writes_eq_canon _ _ _ (r0_cover2_C c i arg1 harg1 arg2 harg2 arg3 harg3 arg4 harg4 arg5 harg5 arg6 harg6 hc0 hc1 x0 x1 xs)]
  unfold r0_runC
  dsimp only
  sl_unfold_words
  rw [View.canon_unit_zero r0_hz3]
  simp only [View.readAt_eq_ld, harg1.read_unread, harg2.read_unread, harg6.read_unread, View.ld_unit_zero (S := S512x16x67) r0_hz3, View.ld_unit_zero (S := S67x128) r0_hz2]
end

end AnyFloat

section
variable (c : Dev nD) (i : grid0.Coords) (arg1 : Memref sig .tc .vmem S512x16x67 .f32) (harg1 : arg1.IsWhole) (arg2 : Memref sig .tc .vmem S67x128 .f32) (harg2 : arg2.IsWhole) (arg3 : Memref sig .tc .vmem S512x16x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2x128 .f32) (harg6 : arg6.IsWhole)
theorem r0_sout_A_at0 (hc0 : r0_condFirst i) (hc1 : ¬r0_condLast i) (x0 : Vec Ideal S512x16x67 .f32) (x1 : Vec Ideal S67x128 .f32) (o : Fin 128) :
    r0_sout_A c i arg1 harg1 arg2 harg2 arg3 harg3 arg4 harg4 arg5 harg5 arg6 harg6 hc0 hc1 x0 x1 (ix2 0 o) = ∑ r : Fin 8192, k0_pay2 x0 x1 (ix2 r o) := by
  unfold r0_sout_A
  rw [View.read_writes_eq_canon _ _ _ (r0_scover_A c i arg1 harg1 arg2 harg2 arg3 harg3 arg4 harg4 arg5 harg5 arg6 harg6 hc0 hc1 x0 x1)]
  unfold r0_runA
  dsimp only
  sl_unfold_words
  simp only [View.readAt_eq_ld, harg1.read_unread, harg2.read_unread, harg6.read_unread, View.ld_unit_zero (S := S512x16x67) r0_hz3, View.ld_unit_zero (S := S67x128) r0_hz2]
  refine (r0_canon_at0 _ _ _ o).trans ?_
  refine (r0_pay4_apply x0 x1 _ o).trans ?_
  rw [View.readCov_eq_canon']
  show View.canon _ (r0_row0.idx (ix2 0 o)) + _ = _
  rw [r0_row0_idx, View.canon_unit_zero r0_hz2, r0_pay1_apply, zero_add]

theorem r0_sout_A_at1 (hc0 : r0_condFirst i) (hc1 : ¬r0_condLast i) (x0 : Vec Ideal S512x16x67 .f32) (x1 : Vec Ideal S67x128 .f32) (o : Fin 128) :
    r0_sout_A c i arg1 harg1 arg2 harg2 arg3 harg3 arg4 harg4 arg5 harg5 arg6 harg6 hc0 hc1 x0 x1 (ix2 1 o) = ∑ r : Fin 8192, k0_pay2 x0 x1 (ix2 r o) * k0_pay2 x0 x1 (ix2 r o) := by
  unfold r0_sout_A
  rw [View.read_writes_eq_canon _ _ _ (r0_scover_A c i arg1 harg1 arg2 harg2 arg3 harg3 arg4 harg4 arg5 harg5 arg6 harg6 hc0 hc1 x0 x1)]
  unfold r0_runA
  dsimp only
  sl_unfold_words
  simp only [View.readAt_eq_ld, harg1.read_unread, harg2.read_unread, harg6.read_unread, View.ld_unit_zero (S := S512x16x67) r0_hz3, View.ld_unit_zero (S := S67x128) r0_hz2]
  refine (r0_canon_at1 _ _ o).trans ?_
  refine (r0_pay5_apply x0 x1 _ o).trans ?_
  rw [View.readCov_eq_canon']
  show View.canon _ (r0_row1.idx (ix2 0 o)) + _ = _
  rw [r0_row1_idx, r0_canon_skip0, View.canon_unit_zero r0_hz2, r0_pay1_apply, zero_add]

theorem r0_sout_B_at0 (hc0 : ¬r0_condFirst i) (hc1 : ¬r0_condLast i) (x0 : Vec Ideal S512x16x67 .f32) (x1 : Vec Ideal S67x128 .f32) (xs : Vec Ideal S2x128 .f32) (o : Fin 128) :
    r0_sout_B c i arg1 harg1 arg2 harg2 arg3 harg3 arg4 harg4 arg5 harg5 arg6 harg6 hc0 hc1 x0 x1 xs (ix2 0 o) = xs (ix2 0 o) + ∑ r : Fin 8192, k0_pay2 x0 x1 (ix2 r o) := by
  unfold r0_sout_B
  rw [View.read_writes_eq_canon _ _ _ (r0_scover_B c i arg1 harg1 arg2 harg2 arg3 harg3 arg4 harg4 arg5 harg5 arg6 harg6 hc0 hc1 x0 x1 xs)]
  unfold r0_runB
  dsimp only
  sl_unfold_words
  simp only [View.readAt_eq_ld, harg1.read_unread, harg2.read_unread, harg6.read_unread, View.ld_unit_zero (S := S512x16x67) r0_hz3, View.ld_unit_zero (S := S67x128) r0_hz2]
  refine (r0_canon_at0 _ _ _ o).trans ?_
  refine (r0_pay4_apply x0 x1 _ o).trans ?_
  show xs (r0_row0.idx (ix2 0 o)) + _ = _
  rw [r0_row0_idx]

theorem r0_sout_B_at1 (hc0 : ¬r0_condFirst i) (hc1 : ¬r0_condLast i) (x0 : Vec Ideal S512x16x67 .f32) (x1 : Vec Ideal S67x128 .f32) (xs : Vec Ideal S2x128 .f32) (o : Fin 128) :
    r0_sout_B c i arg1 harg1 arg2 harg2 arg3 harg3 arg4 harg4 arg5 harg5 arg6 harg6 hc0 hc1 x0 x1 xs (ix2 1 o) = xs (ix2 1 o) + ∑ r : Fin 8192, k0_pay2 x0 x1 (ix2 r o) * k0_pay2 x0 x1 (ix2 r o) := by
  unfold r0_sout_B
  rw [View.read_writes_eq_canon _ _ _ (r0_scover_B c i arg1 harg1 arg2 harg2 arg3 harg3 arg4 harg4 arg5 harg5 arg6 harg6 hc0 hc1 x0 x1 xs)]
  unfold r0_runB
  dsimp only
  sl_unfold_words
  simp only [View.readAt_eq_ld, harg1.read_unread, harg2.read_unread, harg6.read_unread, View.ld_unit_zero (S := S512x16x67) r0_hz3, View.ld_unit_zero (S := S67x128) r0_hz2]
  refine (r0_canon_at1 _ _ o).trans ?_
  refine (r0_pay5_apply x0 x1 _ o).trans ?_
  show xs (r0_row1.idx (ix2 0 o)) + _ = _
  rw [r0_row1_idx]

theorem r0_sout_C_at0 (hc0 : ¬r0_condFirst i) (hc1 : r0_condLast i) (x0 : Vec Ideal S512x16x67 .f32) (x1 : Vec Ideal S67x128 .f32) (xs : Vec Ideal S2x128 .f32) (o : Fin 128) :
    r0_sout_C c i arg1 harg1 arg2 harg2 arg3 harg3 arg4 harg4 arg5 harg5 arg6 harg6 hc0 hc1 x0 x1 xs (ix2 0 o) = xs (ix2 0 o) + ∑ r : Fin 8192, k0_pay2 x0 x1 (ix2 r o) := by
  unfold r0_sout_C
  rw [View.read_writes_eq_canon _ _ _ (r0_scover_C c i arg1 harg1 arg2 harg2 arg3 harg3 arg4 harg4 arg5 harg5 arg6 harg6 hc0 hc1 x0 x1 xs)]
  unfold r0_runC
  dsimp only
  sl_unfold_words
  simp only [View.readAt_eq_ld, harg1.read_unread, harg2.read_unread, harg6.read_unread, View.ld_unit_zero (S := S512x16x67) r0_hz3, View.ld_unit_zero (S := S67x128) r0_hz2]
  refine (r0_canon_at0 _ _ _ o).trans ?_
  refine (r0_pay4_apply x0 x1 _ o).trans ?_
  show xs (r0_row0.idx (ix2 0 o)) + _ = _
  rw [r0_row0_idx]

theorem r0_sout_C_at1 (hc0 : ¬r0_condFirst i) (hc1 : r0_condLast i) (x0 : Vec Ideal S512x16x67 .f32) (x1 : Vec Ideal S67x128 .f32) (xs : Vec Ideal S2x128 .f32) (o : Fin 128) :
    r0_sout_C c i arg1 harg1 arg2 harg2 arg3 harg3 arg4 harg4 arg5 harg5 arg6 harg6 hc0 hc1 x0 x1 xs (ix2 1 o) = xs (ix2 1 o) + ∑ r : Fin 8192, k0_pay2 x0 x1 (ix2 r o) * k0_pay2 x0 x1 (ix2 r o) := by
  unfold r0_sout_C
  rw [View.read_writes_eq_canon _ _ _ (r0_scover_C c i arg1 harg1 arg2 harg2 arg3 harg3 arg4 harg4 arg5 harg5 arg6 harg6 hc0 hc1 x0 x1 xs)]
  unfold r0_runC
  dsimp only
  sl_unfold_words
  simp only [View.readAt_eq_ld, harg1.read_unread, harg2.read_unread, harg6.read_unread, View.ld_unit_zero (S := S512x16x67) r0_hz3, View.ld_unit_zero (S := S67x128) r0_hz2]
  refine (r0_canon_at1 _ _ o).trans ?_
  refine (r0_pay5_apply x0 x1 _ o).trans ?_
  show xs (r0_row1.idx (ix2 0 o)) + _ = _
  rw [r0_row1_idx]

theorem r0_out3_C_at (hc0 : ¬r0_condFirst i) (hc1 : r0_condLast i) (x0 : Vec Ideal S512x16x67 .f32) (x1 : Vec Ideal S67x128 .f32) (xs : Vec Ideal S2x128 .f32) (o : Fin 128) :
    r0_out3_C c i arg1 harg1 arg2 harg2 arg3 harg3 arg4 harg4 arg5 harg5 arg6 harg6 hc0 hc1 x0 x1 xs (ix2 0 o) = xs (ix2 0 o) + ∑ r : Fin 8192, k0_pay2 x0 x1 (ix2 r o) := by
  unfold r0_out3_C
  rw [View.read_writes_eq_canon _ _ _ (r0_cover3_C c i arg1 harg1 arg2 harg2 arg3 harg3 arg4 harg4 arg5 harg5 arg6 harg6 hc0 hc1 x0 x1 xs)]
  unfold r0_runC
  dsimp only
  sl_unfold_words
  simp only [View.readAt_eq_ld, harg1.read_unread, harg2.read_unread, harg6.read_unread, View.ld_unit_zero (S := S512x16x67) r0_hz3, View.ld_unit_zero (S := S67x128) r0_hz2]
  rw [View.canon_unit_zero r0_hz2, View.readCov_eq_canon']
  show View.canon _ (r0_row0.idx (ix2 0 o)) = _
  rw [r0_row0_idx]
  refine (r0_canon_at0 _ _ _ o).trans ?_
  refine (r0_pay4_apply x0 x1 _ o).trans ?_
  show xs (r0_row0.idx (ix2 0 o)) + _ = _
  rw [r0_row0_idx]

theorem r0_out4_C_at (hc0 : ¬r0_condFirst i) (hc1 : r0_condLast i) (x0 : Vec Ideal S512x16x67 .f32) (x1 : Vec Ideal S67x128 .f32) (xs : Vec Ideal S2x128 .f32) (o : Fin 128) :
    r0_out4_C c i arg1 harg1 arg2 harg2 arg3 harg3 arg4 harg4 arg5 harg5 arg6 harg6 hc0 hc1 x0 x1 xs (ix2 0 o) = xs (ix2 1 o) + ∑ r : Fin 8192, k0_pay2 x0 x1 (ix2 r o) * k0_pay2 x0 x1 (ix2 r o) := by
  unfold r0_out4_C
  rw [View.read_writes_eq_canon _ _ _ (r0_cover4_C c i arg1 harg1 arg2 harg2 arg3 harg3 arg4 harg4 arg5 harg5 arg6 harg6 hc0 hc1 x0 x1 xs)]
  unfold r0_runC
  dsimp only
  sl_unfold_words
  simp only [View.readAt_eq_ld, harg1.read_unread, harg2.read_unread, harg6.read_unread, View.ld_unit_zero (S := S512x16x67) r0_hz3, View.ld_unit_zero (S := S67x128) r0_hz2]
  rw [View.canon_unit_zero r0_hz2, View.readCov_eq_canon']
  show View.canon _ (r0_row1.idx (ix2 0 o)) = _
  rw [r0_row1_idx]
  refine (r0_canon_at1 _ _ o).trans ?_
  refine (r0_pay5_apply x0 x1 _ o).trans ?_
  show xs (r0_row1.idx (ix2 0 o)) + _ = _
  rw [r0_row1_idx]
end

section Value
variable (V : (c : Dev nD) → (b : Ref sig .tc) → Buf (Elt Ideal) ((c : Thread nD τ).loc b))

abbrev r0_gArr (c : Dev nD) : Vec Ideal S8192x16x67 .f32 := V c main_v52
abbrev r0_wArr (c : Dev nD) : Vec Ideal S67x128 .f32 := V c main_v53
def r0_conv (c : Dev nD) (p : Fin 8192) (j : Fin 16) (o : Fin 128) : EReal :=
  ∑ k : Fin 67, r0_gArr V c (ix3 p j k) * r0_wArr V c (ix2 k o)

abbrev r0_gBlk (c : Dev nD) (t : Fin cfg0.N) : Vec Ideal S512x16x67 .f32 := r0_blk V c 0 t
abbrev r0_wBlk (c : Dev nD) (t : Fin cfg0.N) : Vec Ideal S67x128 .f32 := r0_blk V c 1 t

theorem r0_index0 : ∀ t : Fin grid0.N, win0_0.index t 0 = t.val ∧ win0_0.index t 1 = 0 ∧ win0_0.index t 2 = 0 := by decide +kernel
theorem r0_index1 : ∀ t : Fin grid0.N, win0_1.index t 0 = 0 ∧ win0_1.index t 1 = 0 := by decide +kernel
theorem r0_index2 : ∀ t : Fin grid0.N, win0_2.index t 0 = t.val ∧ win0_2.index t 1 = 0 ∧ win0_2.index t 2 = 0 := by decide +kernel
theorem r0_index3 : ∀ t : Fin grid0.N, win0_3.index t 0 = 0 ∧ win0_3.index t 1 = 0 := by decide +kernel
theorem r0_index4 : ∀ t : Fin grid0.N, win0_4.index t 0 = 0 ∧ win0_4.index t 1 = 0 := by decide +kernel

theorem r0_gBlk_apply (c : Dev nD) (t : Fin cfg0.N) (a : Fin 512) (j : Fin 16) (k : Fin 67) (p : Fin 8192)
    (hp : p.val = 512 * t.val + a.val) : r0_gBlk V c t (ix3 a j k) = r0_gArr V c (ix3 p j k) := by
  have hi := r0_index0 t
  unfold r0_gBlk r0_blk
  rw [View.read_apply]
  show V c main_v52 _ = V c main_v52 _
  congr 1
  funext x
  apply Fin.ext
  match x with
  | ⟨0, _⟩ => show win0_0.index t 0 * 512 + 1 * a.val = p.val; rw [hi.1, hp]; omega
  | ⟨1, _⟩ => show win0_0.index t 1 * 16 + 1 * j.val = j.val; rw [hi.2.1]; omega
  | ⟨2, _⟩ => show win0_0.index t 2 * 67 + 1 * k.val = k.val; rw [hi.2.2]; omega

theorem r0_wBlk_apply (c : Dev nD) (t : Fin cfg0.N) (k : Fin 67) (o : Fin 128) :
    r0_wBlk V c t (ix2 k o) = r0_wArr V c (ix2 k o) := by
  have hi := r0_index1 t
  unfold r0_wBlk r0_blk
  rw [View.read_apply]
  show V c main_v53 _ = V c main_v53 _
  congr 1
  funext x
  apply Fin.ext
  match x with
  | ⟨0, _⟩ => show win0_1.index t 0 * 67 + 1 * k.val = k.val; rw [hi.1]; omega
  | ⟨1, _⟩ => show win0_1.index t 1 * 128 + 1 * o.val = o.val; rw [hi.2]; omega

theorem r0_prod_apply (c : Dev nD) (t : Fin cfg0.N) (a : Fin 512) (j : Fin 16) (o : Fin 128) (r : Fin 8192) (p : Fin 8192)
    (hr : r.val = 16 * a.val + j.val) (hp : p.val = 512 * t.val + a.val) :
    k0_pay2 (r0_gBlk V c t) (r0_wBlk V c t) (ix2 r o) = r0_conv V c p j o := by
  rw [r0_pay2_apply (r0_gBlk V c t) (r0_wBlk V c t) a j o r hr]
  unfold r0_conv
  exact Finset.sum_congr rfl fun k _ => by rw [r0_gBlk_apply V c t a j k p hp, r0_wBlk_apply V c t k o]

def r0_S (c : Dev nD) (n : ℕ) (o : Fin 128) : EReal :=
  if h : n < cfg0.N then ∑ r : Fin 8192, k0_pay2 (r0_gBlk V c ⟨n, h⟩) (r0_wBlk V c ⟨n, h⟩) (ix2 r o) else 0
def r0_Q (c : Dev nD) (n : ℕ) (o : Fin 128) : EReal :=
  if h : n < cfg0.N then ∑ r : Fin 8192, k0_pay2 (r0_gBlk V c ⟨n, h⟩) (r0_wBlk V c ⟨n, h⟩) (ix2 r o) * k0_pay2 (r0_gBlk V c ⟨n, h⟩) (r0_wBlk V c ⟨n, h⟩) (ix2 r o) else 0

theorem r0_S_at (c : Dev nD) (t : Fin cfg0.N) (o : Fin 128) :
    r0_S V c t.val o = ∑ r : Fin 8192, k0_pay2 (r0_gBlk V c t) (r0_wBlk V c t) (ix2 r o) := by
  unfold r0_S; rw [dif_pos t.isLt]
theorem r0_Q_at (c : Dev nD) (t : Fin cfg0.N) (o : Fin 128) :
    r0_Q V c t.val o = ∑ r : Fin 8192, k0_pay2 (r0_gBlk V c t) (r0_wBlk V c t) (ix2 r o) * k0_pay2 (r0_gBlk V c t) (r0_wBlk V c t) (ix2 r o) := by
  unfold r0_Q; rw [dif_pos t.isLt]

theorem r0_acc_first (c : Dev nD) (t : Fin cfg0.N) (h0 : t.val % 16 = 0) (h1 : ¬t.val % 16 = 15) (o : Fin 128) :
    (r0_outsAt V c t.val t.isLt).2.2.2 (ix2 0 o) = r0_S V c t.val o
    ∧ (r0_outsAt V c t.val t.isLt).2.2.2 (ix2 1 o) = r0_Q V c t.val o := by
  rw [r0_outsAt_A V c t h0 h1, r0_S_at, r0_Q_at]
  dsimp only
  exact ⟨r0_sout_A_at0 c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) ((r0_hFirst t).mpr h0) (fun h => h1 ((r0_hLast t).mp h)) (r0_gBlk V c t) (r0_wBlk V c t) o,
    r0_sout_A_at1 c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) ((r0_hFirst t).mpr h0) (fun h => h1 ((r0_hLast t).mp h)) (r0_gBlk V c t) (r0_wBlk V c t) o⟩

theorem r0_acc_mid (c : Dev nD) (t : Fin cfg0.N) (h0 : ¬t.val % 16 = 0) (h1 : ¬t.val % 16 = 15) (o : Fin 128) :
    (r0_outsAt V c t.val t.isLt).2.2.2 (ix2 0 o) = (r0_outsAt V c (t.val - 1) (Nat.lt_of_le_of_lt (Nat.sub_le _ _) t.isLt)).2.2.2 (ix2 0 o) + r0_S V c t.val o
    ∧ (r0_outsAt V c t.val t.isLt).2.2.2 (ix2 1 o) = (r0_outsAt V c (t.val - 1) (Nat.lt_of_le_of_lt (Nat.sub_le _ _) t.isLt)).2.2.2 (ix2 1 o) + r0_Q V c t.val o := by
  rw [r0_outsAt_B V c t h0 h1, r0_S_at, r0_Q_at]
  dsimp only
  exact ⟨r0_sout_B_at0 c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) (fun h => h1 ((r0_hLast t).mp h)) (r0_gBlk V c t) (r0_wBlk V c t) (r0_outsAt V c (t.val - 1) (Nat.lt_of_le_of_lt (Nat.sub_le _ _) t.isLt)).2.2.2 o,
    r0_sout_B_at1 c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) (fun h => h1 ((r0_hLast t).mp h)) (r0_gBlk V c t) (r0_wBlk V c t) (r0_outsAt V c (t.val - 1) (Nat.lt_of_le_of_lt (Nat.sub_le _ _) t.isLt)).2.2.2 o⟩

theorem r0_acc_last (c : Dev nD) (t : Fin cfg0.N) (h0 : ¬t.val % 16 = 0) (h1 : t.val % 16 = 15) (o : Fin 128) :
    ((r0_outsAt V c t.val t.isLt).2.2.2 (ix2 0 o) = (r0_outsAt V c (t.val - 1) (Nat.lt_of_le_of_lt (Nat.sub_le _ _) t.isLt)).2.2.2 (ix2 0 o) + r0_S V c t.val o
    ∧ (r0_outsAt V c t.val t.isLt).2.2.2 (ix2 1 o) = (r0_outsAt V c (t.val - 1) (Nat.lt_of_le_of_lt (Nat.sub_le _ _) t.isLt)).2.2.2 (ix2 1 o) + r0_Q V c t.val o)
    ∧ ((r0_outsAt V c t.val t.isLt).2.1 (ix2 0 o) = (r0_outsAt V c (t.val - 1) (Nat.lt_of_le_of_lt (Nat.sub_le _ _) t.isLt)).2.2.2 (ix2 0 o) + r0_S V c t.val o
    ∧ (r0_outsAt V c t.val t.isLt).2.2.1 (ix2 0 o) = (r0_outsAt V c (t.val - 1) (Nat.lt_of_le_of_lt (Nat.sub_le _ _) t.isLt)).2.2.2 (ix2 1 o) + r0_Q V c t.val o) := by
  rw [r0_outsAt_C V c t h0 h1, r0_S_at, r0_Q_at]
  dsimp only
  exact ⟨⟨r0_sout_C_at0 c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) ((r0_hLast t).mpr h1) (r0_gBlk V c t) (r0_wBlk V c t) (r0_outsAt V c (t.val - 1) (Nat.lt_of_le_of_lt (Nat.sub_le _ _) t.isLt)).2.2.2 o,
    r0_sout_C_at1 c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) ((r0_hLast t).mpr h1) (r0_gBlk V c t) (r0_wBlk V c t) (r0_outsAt V c (t.val - 1) (Nat.lt_of_le_of_lt (Nat.sub_le _ _) t.isLt)).2.2.2 o⟩,
    r0_out3_C_at c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) ((r0_hLast t).mpr h1) (r0_gBlk V c t) (r0_wBlk V c t) (r0_outsAt V c (t.val - 1) (Nat.lt_of_le_of_lt (Nat.sub_le _ _) t.isLt)).2.2.2 o,
    r0_out4_C_at c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) ((r0_hLast t).mpr h1) (r0_gBlk V c t) (r0_wBlk V c t) (r0_outsAt V c (t.val - 1) (Nat.lt_of_le_of_lt (Nat.sub_le _ _) t.isLt)).2.2.2 o⟩

theorem r0_acc_eq (c : Dev nD) (o : Fin 128) : ∀ (n : ℕ) (hn : n < cfg0.N),
    (r0_outsAt V c n hn).2.2.2 (ix2 0 o) = ∑ m ∈ Finset.range (n + 1), r0_S V c m o
    ∧ (r0_outsAt V c n hn).2.2.2 (ix2 1 o) = ∑ m ∈ Finset.range (n + 1), r0_Q V c m o
  | 0, hn => by
    have h := r0_acc_first V c ⟨0, hn⟩ (Nat.zero_mod _) (by show ¬0 % 16 = 15; decide) o
    rw [Finset.sum_range_one, Finset.sum_range_one]
    exact h
  | n + 1, hn => by
    have hN : n + 1 < 16 := lt_of_lt_of_eq hn (show cfg0.N = 16 from N_0)
    have ih := r0_acc_eq c o n (Nat.lt_of_succ_lt hn)
    have h0 : ¬(⟨n + 1, hn⟩ : Fin cfg0.N).val % 16 = 0 := by dsimp only; omega
    rw [Finset.sum_range_succ _ (n + 1), Finset.sum_range_succ _ (n + 1), ← ih.1, ← ih.2]
    by_cases h1 : (n + 1) % 16 = 15
    · exact (r0_acc_last V c ⟨n + 1, hn⟩ h0 h1 o).1
    · exact r0_acc_mid V c ⟨n + 1, hn⟩ h0 h1 o

theorem r0_sum_rows (f : Fin 8192 → EReal) :
    ∑ r : Fin 8192, f r = ∑ a : Fin 512, ∑ j : Fin 16, f ⟨16 * a.val + j.val, by have := a.isLt; have := j.isLt; omega⟩ := by
  refine (Equiv.sum_comp (finProdFinEquiv : Fin 512 × Fin 16 ≃ Fin (512 * 16)) (fun r => f r)).symm.trans ?_
  rw [Fintype.sum_prod_type]
  refine Finset.sum_congr rfl fun a _ => Finset.sum_congr rfl fun j _ => congrArg f (Fin.ext ?_)
  show j.val + 16 * a.val = 16 * a.val + j.val
  omega

theorem r0_sum_points (f : Fin 8192 → EReal) :
    ∑ p : Fin 8192, f p = ∑ t : Fin 16, ∑ a : Fin 512, f ⟨512 * t.val + a.val, by have := t.isLt; have := a.isLt; omega⟩ := by
  refine (Equiv.sum_comp (finProdFinEquiv : Fin 16 × Fin 512 ≃ Fin (16 * 512)) (fun p => f p)).symm.trans ?_
  rw [Fintype.sum_prod_type]
  refine Finset.sum_congr rfl fun t _ => Finset.sum_congr rfl fun a _ => congrArg f (Fin.ext ?_)
  show a.val + 512 * t.val = 512 * t.val + a.val
  omega

theorem r0_S_conv (c : Dev nD) (m : ℕ) (hm : m < 16) (o : Fin 128) :
    r0_S V c m o = ∑ a : Fin 512, ∑ j : Fin 16, r0_conv V c ⟨512 * m + a.val, by have := a.isLt; omega⟩ j o := by
  have hm' : m < cfg0.N := lt_of_lt_of_eq hm (show cfg0.N = 16 from N_0).symm
  rw [r0_S_at V c ⟨m, hm'⟩ o, r0_sum_rows]
  exact Finset.sum_congr rfl fun a _ => Finset.sum_congr rfl fun j _ =>
    r0_prod_apply V c ⟨m, hm'⟩ a j o ⟨16 * a.val + j.val, by have := a.isLt; have := j.isLt; omega⟩
      ⟨512 * m + a.val, by have := a.isLt; omega⟩ rfl rfl
theorem r0_Q_conv (c : Dev nD) (m : ℕ) (hm : m < 16) (o : Fin 128) :
    r0_Q V c m o = ∑ a : Fin 512, ∑ j : Fin 16,
      r0_conv V c ⟨512 * m + a.val, by have := a.isLt; omega⟩ j o * r0_conv V c ⟨512 * m + a.val, by have := a.isLt; omega⟩ j o := by
  have hm' : m < cfg0.N := lt_of_lt_of_eq hm (show cfg0.N = 16 from N_0).symm
  rw [r0_Q_at V c ⟨m, hm'⟩ o, r0_sum_rows]
  exact Finset.sum_congr rfl fun a _ => Finset.sum_congr rfl fun j _ => by
    rw [r0_prod_apply V c ⟨m, hm'⟩ a j o ⟨16 * a.val + j.val, by have := a.isLt; have := j.isLt; omega⟩
      ⟨512 * m + a.val, by have := a.isLt; omega⟩ rfl rfl]

theorem r0_total_S (c : Dev nD) (o : Fin 128) :
    ∑ m ∈ Finset.range 16, r0_S V c m o = ∑ p : Fin 8192, ∑ j : Fin 16, r0_conv V c p j o := by
  rw [r0_sum_points (fun p => ∑ j : Fin 16, r0_conv V c p j o), Finset.sum_range]
  exact Finset.sum_congr rfl fun t _ => r0_S_conv V c t.val t.isLt o
theorem r0_total_Q (c : Dev nD) (o : Fin 128) :
    ∑ m ∈ Finset.range 16, r0_Q V c m o = ∑ p : Fin 8192, ∑ j : Fin 16, r0_conv V c p j o * r0_conv V c p j o := by
  rw [r0_sum_points (fun p => ∑ j : Fin 16, r0_conv V c p j o * r0_conv V c p j o), Finset.sum_range]
  exact Finset.sum_congr rfl fun t _ => r0_Q_conv V c t.val t.isLt o

theorem r0_last_rows (c : Dev nD) (t : Fin cfg0.N) (h1 : t.val % 16 = 15) (o : Fin 128) :
    (r0_outsAt V c t.val t.isLt).2.1 (ix2 0 o) = ∑ p : Fin 8192, ∑ j : Fin 16, r0_conv V c p j o
    ∧ (r0_outsAt V c t.val t.isLt).2.2.1 (ix2 0 o) = ∑ p : Fin 8192, ∑ j : Fin 16, r0_conv V c p j o * r0_conv V c p j o := by
  have hN : t.val < 16 := lt_of_lt_of_eq t.isLt (show cfg0.N = 16 from N_0)
  have h15 : t.val = 15 := by omega
  have h0 : ¬t.val % 16 = 0 := by omega
  have hl := (r0_acc_last V c t h0 h1 o).2
  have ih := r0_acc_eq V c o (t.val - 1) (Nat.lt_of_le_of_lt (Nat.sub_le _ _) t.isLt)
  rw [hl.1, hl.2, ih.1, ih.2, ← r0_total_S, ← r0_total_Q]
  rw [show t.val - 1 + 1 = 15 from by omega, h15]
  exact ⟨(Finset.sum_range_succ _ 15).symm, (Finset.sum_range_succ _ 15).symm⟩

theorem r0_block_rows (c : Dev nD) (t : Fin cfg0.N) (a : Fin 512) (j : Fin 16) (o : Fin 128) (p : Fin 8192)
    (hp : p.val = 512 * t.val + a.val) : (r0_outsAt V c t.val t.isLt).1 (ix3 a j o) = r0_conv V c p j o := by
  have hN : t.val < 16 := lt_of_lt_of_eq t.isLt (show cfg0.N = 16 from N_0)
  have key : ∀ X : Vec Ideal S512x16x128 .f32, X = k0_pay3 (r0_gBlk V c t) (r0_wBlk V c t) → X (ix3 a j o) = r0_conv V c p j o := by
    intro X hX
    rw [hX]
    unfold k0_pay3
    refine (shapeCast_apply (k0_pay2 (r0_gBlk V c t) (r0_wBlk V c t)) shapeCasts_S8192x128_S512x16x128 (ix3 a j o)
      (ix2 ⟨16 * a.val + j.val, by have := a.isLt; have := j.isLt; omega⟩ o)
      (by rw [Shape.rowMajor_val_two, Shape.rowMajor_val_three]; show (16 * a.val + j.val) * 128 + o.val = (a.val * 16 + j.val) * 128 + o.val; ring)).trans ?_
    exact r0_prod_apply V c t a j o _ p rfl hp
  by_cases h0 : t.val % 16 = 0
  · have h1 : ¬t.val % 16 = 15 := by omega
    rw [r0_outsAt_A V c t h0 h1]; dsimp only
    exact key _ (r0_out2_A_eq c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) ((r0_hFirst t).mpr h0) (fun h => h1 ((r0_hLast t).mp h)) (r0_gBlk V c t) (r0_wBlk V c t))
  · by_cases h1 : t.val % 16 = 15
    · rw [r0_outsAt_C V c t h0 h1]; dsimp only
      exact key _ (r0_out2_C_eq c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) ((r0_hLast t).mpr h1) (r0_gBlk V c t) (r0_wBlk V c t) (r0_outsAt V c (t.val - 1) (Nat.lt_of_le_of_lt (Nat.sub_le _ _) t.isLt)).2.2.2)
    · rw [r0_outsAt_B V c t h0 h1]; dsimp only
      exact key _ (r0_out2_B_eq c (grid0.coords t) (r0_ms0 t) (r0_hs0 t) (r0_ms1 t) (r0_hs1 t) (r0_ms2 t) (r0_hs2 t) (r0_ms3 t) (r0_hs3 t) (r0_ms4 t) (r0_hs4 t) r0_scM (Memref.isWhole_whole _) (fun h => h0 ((r0_hFirst t).mp h)) (fun h => h1 ((r0_hLast t).mp h)) (r0_gBlk V c t) (r0_wBlk V c t) (r0_outsAt V c (t.val - 1) (Nat.lt_of_le_of_lt (Nat.sub_le _ _) t.isLt)).2.2.2)

theorem val0_in0 (c : Dev nD) : (dat0 (F := Ideal) V c).arrAt 0 cfg0.N = V c main_v52 :=
  ((dat0 V c).arrAt_in 0 rfl _).trans (A_eq0 V c 0)
theorem val0_in1 (c : Dev nD) : (dat0 (F := Ideal) V c).arrAt 1 cfg0.N = V c main_v53 :=
  ((dat0 V c).arrAt_in 1 rfl _).trans (A_eq0 V c 1)

def r0_G2 (c : Dev nD) : Vec Ideal S8192x16x128 .f32 := fun i => r0_conv V c (i 0) (i 1) (i 2)
def r0_G3 (c : Dev nD) : Vec Ideal S1x128 .f32 := fun i => ∑ p : Fin 8192, ∑ j : Fin 16, r0_conv V c p j (i 1)
def r0_G4 (c : Dev nD) : Vec Ideal S1x128 .f32 := fun i => ∑ p : Fin 8192, ∑ j : Fin 16, r0_conv V c p j (i 1) * r0_conv V c p j (i 1)

theorem r0_xsize2 : ∀ t : Fin grid0.N, win0_2.xsize (grid0.coords t) 0 = 512 ∧ win0_2.xsize (grid0.coords t) 1 = 16 ∧ win0_2.xsize (grid0.coords t) 2 = 128 := by decide +kernel
theorem r0_xsize3 : ∀ t : Fin grid0.N, win0_3.xsize (grid0.coords t) 0 = 1 ∧ win0_3.xsize (grid0.coords t) 1 = 128 := by decide +kernel
theorem r0_xsize4 : ∀ t : Fin grid0.N, win0_4.xsize (grid0.coords t) 0 = 1 ∧ win0_4.xsize (grid0.coords t) 1 = 128 := by decide +kernel

theorem r0_G2_at (c : Dev nD) (t : Fin cfg0.N) (a : Fin 512) (j : Fin 16) (o : Fin 128) (i : S8192x16x128.Idx)
    (h0 : (i 0).val = 512 * t.val + a.val) (h1 : (i 1).val = j.val) (h2 : (i 2).val = o.val) :
    (r0_outsAt V c t.val t.isLt).1 (ix3 a j o) = r0_G2 V c i := by
  unfold r0_G2
  rw [r0_block_rows V c t a j o (i 0) h0, show i 1 = j from Fin.ext h1, show i 2 = o from Fin.ext h2]
theorem r0_G3_at (c : Dev nD) (t : Fin cfg0.N) (h : t.val % 16 = 15) (o : Fin 128) (i : S1x128.Idx) (h1 : (i 1).val = o.val) :
    (r0_outsAt V c t.val t.isLt).2.1 (ix2 0 o) = r0_G3 V c i := by
  unfold r0_G3
  rw [(r0_last_rows V c t h o).1, show i 1 = o from Fin.ext h1]
theorem r0_G4_at (c : Dev nD) (t : Fin cfg0.N) (h : t.val % 16 = 15) (o : Fin 128) (i : S1x128.Idx) (h1 : (i 1).val = o.val) :
    (r0_outsAt V c t.val t.isLt).2.2.1 (ix2 0 o) = r0_G4 V c i := by
  unfold r0_G4
  rw [(r0_last_rows V c t h o).2, show i 1 = o from Fin.ext h1]

theorem r0_flushed2 (c : Dev nD) (t : Fin cfg0.N) (hf : (cfg0.win 2).flush t = true) :
    (dat0 V c).flushed 2 t = ((cfg0.win 2).blk t).view.read (Elt Ideal) (r0_G2 V c) := by
  have hi := r0_index2 t
  show (cfg0.win 2).cut (grid0.coords t) ((dat0 V c).after 2 t) = _
  rw [r0_after2]
  refine funext fun (y : S512x16x128.Idx) => ?_
  rw [View.read_apply]
  obtain ⟨a, j, o, rfl⟩ : ∃ (a : Fin 512) (j : Fin 16) (o : Fin 128), y = ix3 a j o := ⟨y 0, y 1, y 2, eq_ix3 y⟩
  show (r0_outsAt V c t.val t.isLt).1 (ix3 a j o) = r0_G2 V c _
  exact r0_G2_at V c t a j o _
    (by show win0_2.index t 0 * 512 + 1 * a.val = 512 * t.val + a.val; rw [hi.1]; omega)
    (by show win0_2.index t 1 * 16 + 1 * j.val = j.val; rw [hi.2.1]; omega)
    (by show win0_2.index t 2 * 128 + 1 * o.val = o.val; rw [hi.2.2]; omega)

theorem r0_mem2 (c : Dev nD) (i : ((cfg0.win 2).arr.view.loc (c.tc : Thread nD τ)).2.ty.Idx) (t : Fin cfg0.N)
    (ht : 512 * t.val ≤ (i 0 : Nat) ∧ (i 0 : Nat) < 512 * t.val + 512) : i ∈ ((cfg0.win 2).blk t).view.set := by
  have h1 : (i 1 : Nat) < 16 := (i 1).isLt
  have h2 : (i 2 : Nat) < 128 := (i 2).isLt
  have hi := r0_index2 t
  have hx := r0_xsize2 t
  show i ∈ ((View.whole main_v55_0).slice (win0_2.rect t)).set
  rw [View.set_slice_whole, Rect.mem_set_unit]
  intro x
  match x with
  | ⟨0, _⟩ => show win0_2.index t 0 * win0_2.size 0 ≤ (i 0 : Nat) ∧ (i 0 : Nat) < win0_2.index t 0 * win0_2.size 0 + win0_2.xsize (grid0.coords t) 0
              rw [hi.1, hx.1, show win0_2.size 0 = 512 from rfl]; omega
  | ⟨1, _⟩ => show win0_2.index t 1 * win0_2.size 1 ≤ (i 1 : Nat) ∧ (i 1 : Nat) < win0_2.index t 1 * win0_2.size 1 + win0_2.xsize (grid0.coords t) 1
              rw [hi.2.1, hx.2.1]; omega
  | ⟨2, _⟩ => show win0_2.index t 2 * win0_2.size 2 ≤ (i 2 : Nat) ∧ (i 2 : Nat) < win0_2.index t 2 * win0_2.size 2 + win0_2.xsize (grid0.coords t) 2
              rw [hi.2.2, hx.2.2]; omega
theorem r0_cover2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 8192 := (i 0).isLt
  exact ⟨⟨(i 0 : Nat) / 512, by have hN : cfg0.N = 16 := N_0; omega⟩, flush0_2 _, r0_mem2 c i ⟨(i 0 : Nat) / 512, by have hN : cfg0.N = 16 := N_0; omega⟩ (by dsimp only; omega)⟩

theorem val0_h (c : Dev nD) (p : Fin 8192) (j : Fin 16) (o : Fin 128) :
    ((dat0 (F := Ideal) V c).arrAt 2 cfg0.N : Vec Ideal S8192x16x128 .f32) (ix3 p j o) = r0_conv V c p j o := by
  rw [(dat0 V c).arrAt_eq_of_cover 2 (r0_G2 V c) (r0_flushed2 V c) (r0_cover2 c)]
  rfl

theorem r0_flushed3 (c : Dev nD) (t : Fin cfg0.N) (hf : (cfg0.win 3).flush t = true) :
    (dat0 V c).flushed 3 t = ((cfg0.win 3).blk t).view.read (Elt Ideal) (r0_G3 V c) := by
  have hi := r0_index3 t
  have h15 := (flush0_3 t).mp hf
  show (cfg0.win 3).cut (grid0.coords t) ((dat0 V c).after 3 t) = _
  rw [r0_after3]
  refine funext fun (y : S1x128.Idx) => ?_
  rw [View.read_apply]
  obtain ⟨y0, o, rfl⟩ : ∃ (y0 : Fin 1) (o : Fin 128), y = ix2 y0 o := ⟨y 0, y 1, eq_ix2 y⟩
  obtain rfl : y0 = 0 := Subsingleton.elim _ _
  show (r0_outsAt V c t.val t.isLt).2.1 (ix2 0 o) = r0_G3 V c _
  exact r0_G3_at V c t h15 o _ (by show win0_3.index t 1 * 128 + 1 * o.val = o.val; rw [hi.2]; omega)
theorem r0_flushed4 (c : Dev nD) (t : Fin cfg0.N) (hf : (cfg0.win 4).flush t = true) :
    (dat0 V c).flushed 4 t = ((cfg0.win 4).blk t).view.read (Elt Ideal) (r0_G4 V c) := by
  have hi := r0_index4 t
  have h15 := (flush0_4 t).mp hf
  show (cfg0.win 4).cut (grid0.coords t) ((dat0 V c).after 4 t) = _
  rw [r0_after4]
  refine funext fun (y : S1x128.Idx) => ?_
  rw [View.read_apply]
  obtain ⟨y0, o, rfl⟩ : ∃ (y0 : Fin 1) (o : Fin 128), y = ix2 y0 o := ⟨y 0, y 1, eq_ix2 y⟩
  obtain rfl : y0 = 0 := Subsingleton.elim _ _
  show (r0_outsAt V c t.val t.isLt).2.2.1 (ix2 0 o) = r0_G4 V c _
  exact r0_G4_at V c t h15 o _ (by show win0_4.index t 1 * 128 + 1 * o.val = o.val; rw [hi.2]; omega)

theorem r0_mem3 (c : Dev nD) (i : ((cfg0.win 3).arr.view.loc (c.tc : Thread nD τ)).2.ty.Idx) (t : Fin cfg0.N) :
    i ∈ ((cfg0.win 3).blk t).view.set := by
  have h0 : (i 0 : Nat) < 1 := (i 0).isLt
  have h1 : (i 1 : Nat) < 128 := (i 1).isLt
  have hi := r0_index3 t
  have hx := r0_xsize3 t
  show i ∈ ((View.whole main_v55_1).slice (win0_3.rect t)).set
  rw [View.set_slice_whole, Rect.mem_set_unit]
  intro x
  match x with
  | ⟨0, _⟩ => show win0_3.index t 0 * win0_3.size 0 ≤ (i 0 : Nat) ∧ (i 0 : Nat) < win0_3.index t 0 * win0_3.size 0 + win0_3.xsize (grid0.coords t) 0
              rw [hi.1, hx.1]; omega
  | ⟨1, _⟩ => show win0_3.index t 1 * win0_3.size 1 ≤ (i 1 : Nat) ∧ (i 1 : Nat) < win0_3.index t 1 * win0_3.size 1 + win0_3.xsize (grid0.coords t) 1
              rw [hi.2, hx.2]; omega
theorem r0_cover3 (c : Dev nD) (i : ((cfg0.win 3).arr.view.loc (c.tc : Thread nD τ)).2.ty.Idx) :
    ∃ t : Fin cfg0.N, (cfg0.win 3).flush t = true ∧ i ∈ ((cfg0.win 3).blk t).view.set :=
  ⟨⟨15, by have hN : cfg0.N = 16 := N_0; omega⟩, (flush0_3 _).mpr rfl, r0_mem3 c i _⟩
theorem r0_mem4 (c : Dev nD) (i : ((cfg0.win 4).arr.view.loc (c.tc : Thread nD τ)).2.ty.Idx) (t : Fin cfg0.N) :
    i ∈ ((cfg0.win 4).blk t).view.set := by
  have h0 : (i 0 : Nat) < 1 := (i 0).isLt
  have h1 : (i 1 : Nat) < 128 := (i 1).isLt
  have hi := r0_index4 t
  have hx := r0_xsize4 t
  show i ∈ ((View.whole main_v55_2).slice (win0_4.rect t)).set
  rw [View.set_slice_whole, Rect.mem_set_unit]
  intro x
  match x with
  | ⟨0, _⟩ => show win0_4.index t 0 * win0_4.size 0 ≤ (i 0 : Nat) ∧ (i 0 : Nat) < win0_4.index t 0 * win0_4.size 0 + win0_4.xsize (grid0.coords t) 0
              rw [hi.1, hx.1]; omega
  | ⟨1, _⟩ => show win0_4.index t 1 * win0_4.size 1 ≤ (i 1 : Nat) ∧ (i 1 : Nat) < win0_4.index t 1 * win0_4.size 1 + win0_4.xsize (grid0.coords t) 1
              rw [hi.2, hx.2]; omega
theorem r0_cover4 (c : Dev nD) (i : ((cfg0.win 4).arr.view.loc (c.tc : Thread nD τ)).2.ty.Idx) :
    ∃ t : Fin cfg0.N, (cfg0.win 4).flush t = true ∧ i ∈ ((cfg0.win 4).blk t).view.set :=
  ⟨⟨15, by have hN : cfg0.N = 16 := N_0; omega⟩, (flush0_4 _).mpr rfl, r0_mem4 c i _⟩

theorem val0_sum (c : Dev nD) (o : Fin 128) :
    ((dat0 (F := Ideal) V c).arrAt 3 cfg0.N : Vec Ideal S1x128 .f32) (ix2 0 o) = ∑ p : Fin 8192, ∑ j : Fin 16, r0_conv V c p j o := by
  rw [(dat0 V c).arrAt_eq_of_cover 3 (r0_G3 V c) (r0_flushed3 V c) (r0_cover3 c)]
  rfl
theorem val0_sumsq (c : Dev nD) (o : Fin 128) :
    ((dat0 (F := Ideal) V c).arrAt 4 cfg0.N : Vec Ideal S1x128 .f32) (ix2 0 o) = ∑ p : Fin 8192, ∑ j : Fin 16, r0_conv V c p j o * r0_conv V c p j o := by
  rw [(dat0 V c).arrAt_eq_of_cover 4 (r0_G4 V c) (r0_flushed4 V c) (r0_cover4 c)]
  rfl

end Value

end Cert.KernelIdeal.HandVal
end
-- ==== Proof.RefIdx.lean ====
import Idealize.ShloMosaic.Lib.ValueIdx
import Idealize.ShloMosaic.Lib.IdealHost
import Idealize.ShloMosaic.Lib.Pipeline.Value
import Idealize.ShloMosaic.PureOps.Ideal.Laws

open scoped BigOperators

noncomputable section

namespace Cert.ReferenceIdeal.Hand

open Idealize.ShloMosaic Idealize.ShloMosaic.ValueIdx

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

theorem dot_mnc_oc_apply {M N K O : Nat} {φ₁ φ₂ : FTy}
    (w : DotDims.WF ⟨3, ![M, N, K]⟩ ⟨2, ![O, K]⟩ ⟨3, ![M, N, O]⟩ [2] [1] [0, 1] [0] [] [])
    (prec : Option ContractPrecision) (A : FVec Ideal ⟨3, ![M, N, K]⟩ φ₁) (B : FVec Ideal ⟨2, ![O, K]⟩ φ₂)
    (m : Fin M) (n : Fin N) (o : Fin O) :
    Host.dotGeneral (⟨[2], [1], [0, 1], [0], [], [], w⟩ : DotDims _ _ _) prec A B (ix3 m n o)
      = ∑ c : Fin K, A (ix3 m n c) * B (ix2 o c) := by
  show FloatOps.dotGeneral _ prec _ A B (ix3 m n o) = _
  rw [Ideal.dotGeneral_apply,
    ← Equiv.sum_comp (contrEquiv1 (⟨[2], [1], [0, 1], [0], [], [], w⟩ : DotDims _ _ _) K rfl rfl).symm]
  refine Finset.sum_congr rfl fun c _ => ?_
  have c3 := contrEquiv1_symm_val
    (⟨[2], [1], [0, 1], [0], [], [], w⟩ : DotDims ⟨3, ![M, N, K]⟩ ⟨2, ![O, K]⟩ ⟨3, ![M, N, O]⟩) K rfl rfl c
  have l3 : (⟨[2], [1], [0, 1], [0], [], [], w⟩ : DotDims ⟨3, ![M, N, K]⟩ ⟨2, ![O, K]⟩ ⟨3, ![M, N, O]⟩).lhsIdx (ix3 m n o)
      ((contrEquiv1 _ K rfl rfl).symm c) = ix3 m n c := by
    funext ax; apply Fin.ext
    match ax with
    | ⟨0, _⟩ | ⟨1, _⟩ => simp [DotDims.lhsIdx]; rfl
    | ⟨2, _⟩ => simp [DotDims.lhsIdx]; exact c3
  have r3 : (⟨[2], [1], [0, 1], [0], [], [], w⟩ : DotDims ⟨3, ![M, N, K]⟩ ⟨2, ![O, K]⟩ ⟨3, ![M, N, O]⟩).rhsIdx (ix3 m n o)
      ((contrEquiv1 _ K rfl rfl).symm c) = ix2 o c := by
    funext ax; apply Fin.ext
    match ax with
    | ⟨0, _⟩ => simp [DotDims.rhsIdx]; rfl
    | ⟨1, _⟩ => simp [DotDims.rhsIdx]; exact c3
  rw [l3, r3]

-- the sum over the two leading axes, from zero, at a channel: the double sum over those axes
theorem hostReduceAdd_01_apply {M N O : Nat} {u : Shape} (h : (⟨3, ![M, N, O]⟩ : Shape).ReducesTo [0, 1] ⟨1, ![O]⟩)
    (hu : 0 < u.numel) (x : FVec Ideal ⟨3, ![M, N, O]⟩ .f32) (o : Fin O) :
    Host.reduceAdd x (constant (F := Ideal) u .f32 0x00000000#32) h hu (ix1 o) = ∑ m : Fin M, ∑ n : Fin N, x (ix3 m n o) := by
  rw [hostReduceAdd_apply, constant_apply, Ideal.ofBits_zero_f32]
  unfold Ideal.hostReduceAdd
  rw [zero_add, Finset.sum_filter, sum_idx3]
  refine Finset.sum_congr rfl fun m _ => Finset.sum_congr rfl fun n _ => ?_
  have key : ∀ c : Fin O, (h.drop (ix3 m n c) = ix1 o) ↔ c = o := fun c =>
    ⟨fun e => Fin.ext (congrArg (fun j => (j 0).val) e), fun e => e ▸ eq_ix1 _⟩
  simp only [key, Finset.sum_ite_eq', Finset.mem_univ, if_true]

theorem hostReduce_max_1_apply {M N O : Nat} (h' : (⟨3, ![M, N, O]⟩ : Shape).ReducesTo [1] ⟨2, ![M, O]⟩)
    (h : (⟨3, ![M, N, O]⟩ : Shape).Reduces [1] ⟨2, ![M, O]⟩) {u : Shape} (hu : 0 < u.numel)
    (x : FVec Ideal ⟨3, ![M, N, O]⟩ .f32) (init : u.Idx → Ideal .f32) (m : Fin M) (o : Fin O) :
    Host.reduce FloatOps.maximumf x init h' hu (ix2 m o)
      = (Finset.univ : Finset (Fin N)).fold max (init (Shape.Idx.first hu)) (fun n => x (ix3 m n o)) := by
  rw [Host.reduce_eq_fold_single FloatOps.maximumf x init h' h hu (ix2 m o)]
  have hf : (x ∘ h.lift (ix2 m o)) = fun n : Fin N => x (ix3 m n o) := funext fun n => congrArg x (eq_ix3 _)
  rw [hf]
  rfl

theorem bcast_111_apply {M N O : Nat} {α : Type}
    (h2 : (⟨3, ![1, 1, O]⟩ : Shape).BroadcastsInDim ⟨3, ![M, N, O]⟩ (![0, 1, 2] : Fin 3 → Fin 3))
    (x : (⟨3, ![1, 1, O]⟩ : Shape).Idx → α) (m : Fin M) (n : Fin N) (o : Fin O) :
    broadcastInDim ⟨3, ![M, N, O]⟩ ![0, 1, 2] h2 x (ix3 m n o) = x (ix3 0 0 o) := by
  refine broadcastInDim_apply _ h2 x _ _ fun a => ?_
  match a with
  | ⟨0, _⟩ | ⟨1, _⟩ => simp
  | ⟨2, _⟩ =>
    by_cases hO : O = 1
    · subst hO; simp
    · simp [hO]

theorem bcast_2_apply {O : Nat} {α : Type}
    (h1 : (⟨1, ![O]⟩ : Shape).BroadcastsInDim ⟨3, ![1, 1, O]⟩ (![2] : Fin 1 → Fin 3))
    (v : (⟨1, ![O]⟩ : Shape).Idx → α) (a b : Fin 1) (o : Fin O) :
    broadcastInDim ⟨3, ![1, 1, O]⟩ ![2] h1 v (ix3 a b o) = v (ix1 o) := by
  refine broadcastInDim_apply _ h1 v _ _ fun c => ?_
  match c with
  | ⟨0, _⟩ =>
    by_cases hO : O = 1
    · subst hO; simp
    · simp [hO]

theorem bcast_chan_apply {M N O : Nat} {α : Type}
    (h1 : (⟨1, ![O]⟩ : Shape).BroadcastsInDim ⟨3, ![1, 1, O]⟩ (![2] : Fin 1 → Fin 3))
    (h2 : (⟨3, ![1, 1, O]⟩ : Shape).BroadcastsInDim ⟨3, ![M, N, O]⟩ (![0, 1, 2] : Fin 3 → Fin 3))
    (v : (⟨1, ![O]⟩ : Shape).Idx → α) (m : Fin M) (n : Fin N) (o : Fin O) :
    broadcastInDim ⟨3, ![M, N, O]⟩ ![0, 1, 2] h2 (broadcastInDim ⟨3, ![1, 1, O]⟩ ![2] h1 v) (ix3 m n o) = v (ix1 o) := by
  rw [bcast_111_apply, bcast_2_apply]

theorem ofBits_neg_inf_f32 : Ideal.ofBits .f32 0xFF800000#32 = ⊥ := by
  simp [Ideal.ofBits, Ideal.ieee]

theorem ddof_guard (cnt : BitVec 32) (r : ℝ) (hr : 0 < r) (hc : Ideal.ofBits .f32 cnt = (r : EReal)) :
    cmpf .ogt (subf (constant (F := Ideal) ⟨0, ![]⟩ .f32 cnt) (sitofp .f32 (constantI ⟨0, ![]⟩ 32 0#32)))
        (constant (F := Ideal) ⟨0, ![]⟩ .f32 0x00000000#32) ix0 = 1#1 ∧
      subf (constant (F := Ideal) ⟨0, ![]⟩ .f32 cnt) (sitofp .f32 (constantI ⟨0, ![]⟩ 32 0#32)) ix0 = (r : EReal) := by
  have h0 : (sitofp (F := Ideal) .f32 (constantI ⟨0, ![]⟩ 32 0#32)) ix0 = 0 := by
    show (((0#32 : BitVec 32).toInt : ℝ) : EReal) = 0
    simp
  rw [cmpf_apply, subf_apply, h0, constant_apply, constant_apply, hc, Ideal.ofBits_zero_f32, sub_zero]
  exact ⟨by show Ideal.cmp .ogt (r : EReal) 0 = 1#1; simp [Ideal.cmp, EReal.coe_pos.mpr hr], rfl⟩

end Cert.ReferenceIdeal.Hand

end
-- ==== Proof.RefApply0.lean ====
import proofs.«157081_j85761906966880_1_alg».proof.Proof.RefStages0
import proofs.«157081_j85761906966880_1_alg».proof.Proof.RefIdx

open scoped BigOperators

noncomputable section

namespace Cert.ReferenceIdeal.Hand

open Idealize.ShloMosaic Idealize.ShloMosaic.ValueIdx
open Cert.ReferenceIdeal Cert.ReferenceIdeal.Facts₀ Cert.ReferenceIdeal.Facts

variable [Facts]

theorem r_cnt_0 : Ideal.ofBits .f32 0x48000000#32 = ((131072 : ℝ) : EReal) := by
  simp [Ideal.ofBits, Ideal.ieee, -EReal.coe_mul]; norm_num

theorem r_h1_0_apply (g : FVec Ideal S8192x16x67 .f32) (w : FVec Ideal S128x67 .f32) (m : Fin 8192) (n : Fin 16) (o : Fin 128) :
    r_h1_0 g w (ix3 m n o) = ∑ c : Fin 67, g (ix3 m n c) * w (ix2 o c) :=
  dot_mnc_oc_apply _ none g w m n o

theorem r_h2_0_apply (a : FVec Ideal S8192x16x128 .f32) (w : FVec Ideal S128x128 .f32) (m : Fin 8192) (n : Fin 16) (o : Fin 128) :
    r_h2_0 a w (ix3 m n o) = ∑ c : Fin 128, a (ix3 m n c) * w (ix2 o c) :=
  dot_mnc_oc_apply _ none a w m n o

theorem r_mean_0_apply (h : FVec Ideal S8192x16x128 .f32) (o : Fin 128) :
    r_mean_0 h (ix1 o) = Ideal.div (∑ m : Fin 8192, ∑ n : Fin 16, h (ix3 m n o)) ((131072 : ℝ) : EReal) := by
  rw [r_mean_0, hostDivf_apply, hostReduceAdd_01_apply, broadcastInDim_scalar_apply, constant_apply, r_cnt_0]

theorem r_var_0_apply (h : FVec Ideal S8192x16x128 .f32) (o : Fin 128) :
    r_var_0 h (ix1 o)
      = Ideal.div (∑ m : Fin 8192, ∑ n : Fin 16,
          (h (ix3 m n o) - r_mean_0 h (ix1 o)) * (h (ix3 m n o) - r_mean_0 h (ix1 o))) ((131072 : ℝ) : EReal) := by
  obtain ⟨hg, hd⟩ := ddof_guard 0x48000000#32 131072 (by norm_num) r_cnt_0
  show select _ _ _ (ix1 o) = _
  rw [select_apply, broadcastInDim_scalar_apply, hg, select_one, hostDivf_apply, broadcastInDim_scalar_apply, hd,
    hostReduceAdd_01_apply]
  refine congrArg (fun s => Ideal.div s ((131072 : ℝ) : EReal)) ?_
  refine Finset.sum_congr rfl fun m _ => Finset.sum_congr rfl fun n _ => ?_
  rw [mulf_apply, subf_apply, bcast_111_apply, hostDivf_apply, bcast_2_apply, broadcastInDim_scalar_apply]
  rfl

theorem r_act_0_apply (h : FVec Ideal S8192x16x128 .f32) (mean var gamma beta : FVec Ideal S128 .f32)
    (m : Fin 8192) (n : Fin 16) (o : Fin 128) :
    r_act_0 h mean var gamma beta (ix3 m n o)
      = max ((h (ix3 m n o) - mean (ix1 o)) * Ideal.rsqrt (var (ix1 o) + Ideal.ofBits .f32 0x3727C5AC#32) * gamma (ix1 o)
          + beta (ix1 o)) 0 := by
  show maximumf _ _ (ix3 m n o) = _
  rw [maximumf_apply, addf_apply, mulf_apply, mulf_apply, subf_apply, bcast_chan_apply, bcast_chan_apply, bcast_chan_apply,
    bcast_chan_apply, broadcastInDim_scalar_apply, constant_apply, Ideal.ofBits_zero_f32]
  rfl

theorem r_out_0_apply (a : FVec Ideal S8192x16x128 .f32) (m : Fin 8192) (o : Fin 128) :
    r_out_0 a (ix2 m o)
      = (Finset.univ : Finset (Fin 16)).fold max (Ideal.ofBits .f32 0xFF800000#32) (fun n => a (ix3 m n o)) :=
  hostReduce_max_1_apply _ (by decide) _ a _ m o

theorem r_bn_0_eq (h : FVec Ideal S8192x16x128 .f32) (gamma beta : FVec Ideal S128 .f32) :
    r_bn_0 h gamma beta = r_act_0 h (r_mean_0 h) (r_var_0 h) gamma beta := rfl

theorem r_tail_0_eq (g : FVec Ideal S8192x16x67 .f32) (w0 : FVec Ideal S128x67 .f32) (g0 b0 : FVec Ideal S128 .f32)
    (w1 : FVec Ideal S128x128 .f32) (g1 b1 : FVec Ideal S128 .f32) :
    r_tail_0 g w0 g0 b0 w1 g1 b1 = r_out_0 (r_bn_0 (r_h2_0 (r_bn_0 (r_h1_0 g w0) g0 b0) w1) g1 b1) := rfl

end Cert.ReferenceIdeal.Hand

end
-- ==== Proof.Bridge0R0.lean ====
import proofs.«157081_j85761906966880_1_alg».proof.Proof.KiVal0
import proofs.«157081_j85761906966880_1_alg».proof.Proof.RefApply0
import Idealize.ShloMosaic.Lib.ValueIdx
open scoped BigOperators
noncomputable section

namespace Cert.Bridge

open Cert.KernelIdeal Cert.KernelIdeal.Hand Cert.KernelIdeal.HandVal
open Idealize.ShloMosaic Idealize.ShloMosaic.TcCoe
open Idealize.ShloMosaic.ValueIdx
open Cert.ReferenceIdeal.Hand

variable [Cert.ReferenceIdeal.Facts]
variable (V : (c : Dev nD) → (b : Ref sig .tc) → Buf (Elt Ideal) ((c : Thread nD τ).loc b))
  (c : Dev nD) (g : FVec Ideal S8192x16x67 .f32) (w : FVec Ideal S128x67 .f32)
  (hg : V c main_v52 = g)
  (hw : ∀ (k : Fin 67) (o : Fin 128), (V c main_v53 : Vec Ideal S67x128 .f32) (ix2 k o) = w (ix2 o k))
include hg hw

-- Term by term over the 67 features the two contractions read the same entries.
theorem r0_conv_eq (p : Fin 8192) (j : Fin 16) (o : Fin 128) :
    r0_conv V c p j o = r_h1_0 g w (ix3 p j o) := by
  subst hg
  rw [r_h1_0_apply]
  exact Finset.sum_congr rfl fun k _ => by rw [← hw]

theorem bridge0_r0_h (p : Fin 8192) (j : Fin 16) (o : Fin 128) :
    ((dat0 (F := Ideal) V c).arrAt 2 cfg0.N : Vec Ideal S8192x16x128 .f32) (ix3 p j o) = r_h1_0 g w (ix3 p j o) :=
  (val0_h V c p j o).trans (r0_conv_eq V c g w hg hw p j o)

theorem bridge0_r0_sum (o : Fin 128) :
    ((dat0 (F := Ideal) V c).arrAt 3 cfg0.N : Vec Ideal S1x128 .f32) (ix2 0 o)
      = ∑ p : Fin 8192, ∑ j : Fin 16, r_h1_0 g w (ix3 p j o) := by
  rw [val0_sum]; simp only [r0_conv_eq V c g w hg hw]

theorem bridge0_r0_sumsq (o : Fin 128) :
    ((dat0 (F := Ideal) V c).arrAt 4 cfg0.N : Vec Ideal S1x128 .f32) (ix2 0 o)
      = ∑ p : Fin 8192, ∑ j : Fin 16, r_h1_0 g w (ix3 p j o) * r_h1_0 g w (ix3 p j o) := by
  rw [val0_sumsq]; simp only [r0_conv_eq V c g w hg hw]

end Cert.Bridge

end
-- ==== Proof.KiVal1.lean ====
import proofs.«157081_j85761906966880_1_alg».proof.Proof.KiR1
import Idealize.ShloMosaic.Lib.Pipeline.Value
import Idealize.ShloMosaic.Lib.ValueIdx
import Idealize.ShloMosaic.PureOps.Ideal.Laws
set_option maxRecDepth 16384
noncomputable section
namespace Cert.KernelIdeal.HandVal
open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

abbrev hact1 (c : Dev nD) : S8192x16x128.Idx → EReal := V c main_v55_0
abbrev mean1 (c : Dev nD) : S1x1x128.Idx → EReal := V c main_v62
abbrev var1 (c : Dev nD) : S1x1x128.Idx → EReal := V c main_v63
abbrev gamma1 (c : Dev nD) : S1x1x128.Idx → EReal := V c main_v64
abbrev beta1 (c : Dev nD) : S1x1x128.Idx → EReal := V c main_v65
abbrev wgt1 (c : Dev nD) : S128x128.Idx → EReal := V c main_v54

def scale1 (c : Dev nD) (k : Fin 128) : EReal :=
  gamma1 V c (ix3 0 0 k) * Ideal.rsqrt (var1 V c (ix3 0 0 k) + Ideal.ofBits .f32 0x3727C5AC#32)
def shift1 (c : Dev nD) (k : Fin 128) : EReal :=
  beta1 V c (ix3 0 0 k) - mean1 V c (ix3 0 0 k) * scale1 V c k
def act1 (c : Dev nD) (r : Fin 8192) (n : Fin 16) (k : Fin 128) : EReal :=
  max (hact1 V c (ix3 r n k) * scale1 V c k + shift1 V c k) (Ideal.ofBits .f32 0x00000000#32)
def conv1 (c : Dev nD) (r : Fin 8192) (n : Fin 16) (ch : Fin 128) : EReal :=
  ∑ k : Fin 128, act1 V c r n k * wgt1 V c (ix2 k ch)

theorem mm1_apply (A : FVec Ideal S8192x128 .bf16) (B : FVec Ideal S128x128 .bf16) (a : Fin 8192) (b : Fin 128) :
    matmul dot_S8192x128_S128x128_S8192x128_1_0_0_1_n_n none A B (constant S8192x128 .f32 0x00000000#32) (ix2 a b)
      = ∑ k : Fin 128, A (ix2 a k) * B (ix2 k b) := by
  show FloatOps.matmul dot_S8192x128_S128x128_S8192x128_1_0_0_1_n_n none A B (constant S8192x128 .f32 0x00000000#32) (ix2 a b) = _
  rw [Ideal.matmul_constant_zero_apply,
    ← Equiv.sum_comp (contrEquiv1 dot_S8192x128_S128x128_S8192x128_1_0_0_1_n_n 128 rfl rfl).symm]
  refine Finset.sum_congr rfl fun k _ => ?_
  have c2 := contrEquiv1_symm_val dot_S8192x128_S128x128_S8192x128_1_0_0_1_n_n 128 rfl rfl k
  have l2 : dot_S8192x128_S128x128_S8192x128_1_0_0_1_n_n.lhsIdx (ix2 a b) ((contrEquiv1 _ 128 rfl rfl).symm k) = ix2 a k := by
    funext ax; apply Fin.ext
    match ax with
    | ⟨0, _⟩ => simp [DotDims.lhsIdx, dot_S8192x128_S128x128_S8192x128_1_0_0_1_n_n]; rfl
    | ⟨1, _⟩ => simp [DotDims.lhsIdx, dot_S8192x128_S128x128_S8192x128_1_0_0_1_n_n]; exact c2
  have r2 : dot_S8192x128_S128x128_S8192x128_1_0_0_1_n_n.rhsIdx (ix2 a b) ((contrEquiv1 _ 128 rfl rfl).symm k) = ix2 k b := by
    funext ax; apply Fin.ext
    match ax with
    | ⟨0, _⟩ => simp [DotDims.rhsIdx, dot_S8192x128_S128x128_S8192x128_1_0_0_1_n_n]; exact c2
    | ⟨1, _⟩ => simp [DotDims.rhsIdx, dot_S8192x128_S128x128_S8192x128_1_0_0_1_n_n]; rfl
  rw [l2, r2]

def sc1 (x2 x3 : Vec Ideal S1x1x128 .f32) (k : Fin 128) : EReal :=
  x3 (ix3 0 0 k) * Ideal.rsqrt (x2 (ix3 0 0 k) + Ideal.ofBits .f32 0x3727C5AC#32)
def sh1 (x1 x2 x3 x4 : Vec Ideal S1x1x128 .f32) (k : Fin 128) : EReal :=
  x4 (ix3 0 0 k) - x1 (ix3 0 0 k) * sc1 x2 x3 k

theorem pay1_4_apply (x0 : Vec Ideal S512x16x128 .f32) (x1 x2 x3 x4 : Vec Ideal S1x1x128 .f32) (x5 : Vec Ideal S128x128 .f32)
    (p : Fin 512) (n : Fin 16) (q : Fin 8192) (hq : q.val = 16 * p.val + n.val) (ch : Fin 128) :
    k1_pay4 x0 x2 x3 x4 x1 x5 (ix2 q ch)
      = ∑ k : Fin 128, max (x0 (ix3 p n k) * sc1 x2 x3 k + sh1 x1 x2 x3 x4 k) (Ideal.ofBits .f32 0x00000000#32) * x5 (ix2 k ch) := by
  unfold k1_pay4
  simp only [shapeCast_self]
  refine (mm1_apply _ _ q ch).trans ?_
  refine Finset.sum_congr rfl fun k _ => ?_
  refine congrArg₂ (· * ·) ?_ rfl
  refine (truncf_apply _ bitsLt_bf16_f32 (ix2 q k)).trans ?_
  refine (shapeCast_apply _ shapeCasts_S512x16x128_S8192x128 (ix2 q k) (ix3 p n k) ?_).trans ?_
  · rw [Shape.rowMajor_val_three, Shape.rowMajor_val_two]
    show (p.val * 16 + n.val) * 128 + k.val = q.val * 128 + k.val
    rw [hq]; ring
  · have b1 : ∀ (v : Vec Ideal S1x1x128 .f32), broadcastTo S512x16x128 v broadcasts_S1x1x128_S512x16x128 (ix3 p n k) = v (ix3 0 0 k) := fun v =>
      broadcastTo_apply v broadcasts_S1x1x128_S512x16x128 (ix3 p n k) (ix3 0 0 k) (fun a => by
        match a with
        | ⟨0, _⟩ => rfl
        | ⟨1, _⟩ => rfl
        | ⟨2, _⟩ => rfl)
    simp only [maximumf_apply, addf_apply, mulf_apply, subf_apply]
    rw [b1, b1]
    rfl

theorem pay1_5_apply (x0 : Vec Ideal S512x16x128 .f32) (x1 x2 x3 x4 : Vec Ideal S1x1x128 .f32) (x5 : Vec Ideal S128x128 .f32)
    (p : Fin 512) (n : Fin 16) (ch : Fin 128) :
    k1_pay5 x0 x2 x3 x4 x1 x5 (ix3 p n ch)
      = ∑ k : Fin 128, max (x0 (ix3 p n k) * sc1 x2 x3 k + sh1 x1 x2 x3 x4 k) (Ideal.ofBits .f32 0x00000000#32) * x5 (ix2 k ch) := by
  unfold k1_pay5
  refine (shapeCast_apply _ shapeCasts_S8192x128_S512x16x128 (ix3 p n ch)
    (ix2 (⟨16 * p.val + n.val, by have := p.isLt; have := n.isLt; omega⟩ : Fin 8192) ch) ?_).trans ?_
  · rw [Shape.rowMajor_val_two, Shape.rowMajor_val_three]
    show (16 * p.val + n.val) * 128 + ch.val = (p.val * 16 + n.val) * 128 + ch.val
    ring
  · exact pay1_4_apply x0 x1 x2 x3 x4 x5 p n _ rfl ch

theorem lift1_eq (ch : Fin 128) (q : Fin 8192) :
    reduces_S8192x128_S128.lift (ix1 ch) q = ix2 q ch := by
  funext a; apply Fin.ext
  match a with
  | ⟨0, _⟩ => rfl
  | ⟨1, _⟩ => rfl

theorem pay1_1_apply (P : FVec Ideal S8192x128 .f32) (v : Vec Ideal S1x128 .f32) (ch : Fin 128) :
    k1_pay1 P v (ix2 0 ch) = v (ix2 0 ch) + ∑ q : Fin 8192, P (ix2 q ch) := by
  unfold k1_pay1
  simp only [shapeCast_self]
  refine (addf_apply _ _ _).trans ?_
  refine congrArg (v (ix2 0 ch) + ·) ?_
  refine (shapeCast_apply _ shapeCasts_S128_S1x128 (ix2 0 ch) (ix1 ch) ?_).trans ?_
  · rw [Shape.rowMajor_val_one, Shape.rowMajor_val_two]
    show ch.val = 0 * 128 + ch.val
    omega
  · refine (Ideal.multiReduction_add_single P _ reduces_S8192x128_S128 _ _ (ix1 ch)).trans ?_
    exact Finset.sum_congr rfl fun q _ => congrArg P (lift1_eq ch q)

theorem pay1_2_apply (P : FVec Ideal S8192x128 .f32) (v : Vec Ideal S1x128 .f32) (ch : Fin 128) :
    k1_pay2 P v (ix2 0 ch) = v (ix2 0 ch) + ∑ q : Fin 8192, P (ix2 q ch) * P (ix2 q ch) := by
  unfold k1_pay2
  simp only [shapeCast_self]
  refine (addf_apply _ _ _).trans ?_
  refine congrArg (v (ix2 0 ch) + ·) ?_
  refine (shapeCast_apply _ shapeCasts_S128_S1x128 (ix2 0 ch) (ix1 ch) ?_).trans ?_
  · rw [Shape.rowMajor_val_one, Shape.rowMajor_val_two]
    show ch.val = 0 * 128 + ch.val
    omega
  · refine (Ideal.multiReduction_add_single (mulf P P) _ reduces_S8192x128_S128 _ _ (ix1 ch)).trans ?_
    exact Finset.sum_congr rfl fun q _ => (congrArg (mulf P P) (lift1_eq ch q)).trans (mulf_apply P P (ix2 q ch))

theorem sum_flat1 (G : Fin 8192 → EReal) :
    ∑ q : Fin 8192, G q = ∑ p : Fin 512, ∑ n : Fin 16, G ⟨16 * p.val + n.val, by have := p.isLt; have := n.isLt; omega⟩ := by
  rw [← (finProdFinEquiv (m := 512) (n := 16)).sum_comp G, Fintype.sum_prod_type]
  refine Finset.sum_congr rfl fun p _ => Finset.sum_congr rfl fun n _ => congrArg G (Fin.ext ?_)
  show n.val + 16 * p.val = 16 * p.val + n.val
  omega

theorem sum_rows1 (H : Fin 8192 → EReal) :
    ∑ t : Fin 16, ∑ p : Fin 512, H ⟨512 * t.val + p.val, by have := t.isLt; have := p.isLt; omega⟩ = ∑ r : Fin 8192, H r := by
  rw [← (finProdFinEquiv (m := 16) (n := 512)).sum_comp H, Fintype.sum_prod_type]
  refine Finset.sum_congr rfl fun t _ => Finset.sum_congr rfl fun p _ => congrArg H (Fin.ext ?_)
  show 512 * t.val + p.val = p.val + 512 * t.val
  omega

variable {Val : EltTy → Type}

abbrev rect1_r0 : Rect S2x128 := Rect.unit (s := S2x128) ![0, 0] S1x128.size inb_S2x128_S1x128_0_0
abbrev rect1_r1 : Rect S2x128 := Rect.unit (s := S2x128) ![1, 0] S1x128.size inb_S2x128_S1x128_1_0

theorem emb1_r0 (ch : Fin 128) : rect1_r0.emb (ix2 0 ch) = ix2 0 ch := by
  funext a; apply Fin.ext
  match a with
  | ⟨0, _⟩ => rfl
  | ⟨1, _⟩ => show 0 + 1 * ch.val = ch.val; omega
theorem emb1_r1 (ch : Fin 128) : rect1_r1.emb (ix2 0 ch) = ix2 1 ch := by
  funext a; apply Fin.ext
  match a with
  | ⟨0, _⟩ => rfl
  | ⟨1, _⟩ => show 0 + 1 * ch.val = ch.val; omega
theorem nmem1_r1 (ch : Fin 128) : (ix2 0 ch : S2x128.Idx) ∉ rect1_r1.set := by
  rw [Rect.mem_set_unit]
  intro h
  exact absurd (h 0).1 (show ¬((1 : ℕ) ≤ 0) from by decide)
theorem nmem1_r0 (ch : Fin 128) : (ix2 1 ch : S2x128.Idx) ∉ rect1_r0.set := by
  rw [Rect.mem_set_unit]
  intro h
  exact absurd (h 0).2 (show ¬((1 : ℕ) < 0 + 1) from by decide)
theorem ld1_r0 (X : S2x128.Idx → Val .f32) (ch : Fin 128) : View.ld X rect1_r0 (ix2 0 ch) = X (ix2 0 ch) :=
  congrArg X (emb1_r0 ch)
theorem ld1_r1 (X : S2x128.Idx → Val .f32) (ch : Fin 128) : View.ld X rect1_r1 (ix2 0 ch) = X (ix2 1 ch) :=
  congrArg X (emb1_r1 ch)

theorem hz1_2 : (![0, 0] : Fin 2 → Nat) = fun _ => 0 := funext fun a => by fin_cases a <;> rfl
theorem hz1_3 : (![0, 0, 0] : Fin 3 → Nat) = fun _ => 0 := funext fun a => by fin_cases a <;> rfl

theorem canon1_rows_0 (w1 w0 : S1x128.Idx → Elt Ideal .f32) (L : List (View.Piece (Elt Ideal) S2x128 .f32)) (ch : Fin 128) :
    View.canon ((⟨rect1_r1, w1⟩ : View.Piece (Elt Ideal) S2x128 .f32) :: ⟨rect1_r0, w0⟩ :: L) (ix2 0 ch) = w0 (ix2 0 ch) := by
  refine (View.canon_cons_of_not_mem (⟨rect1_r1, w1⟩ : View.Piece (Elt Ideal) S2x128 .f32) (⟨rect1_r0, w0⟩ :: L) (nmem1_r1 ch)).trans ?_
  exact (congrArg (View.canon ((⟨rect1_r0, w0⟩ : View.Piece (Elt Ideal) S2x128 .f32) :: L)) (emb1_r0 ch).symm).trans
    (View.canon_cons_emb (Val := Elt Ideal) rect1_r0 w0 L (ix2 0 ch))
theorem canon1_rows_1 (w1 w0 : S1x128.Idx → Elt Ideal .f32) (L : List (View.Piece (Elt Ideal) S2x128 .f32)) (ch : Fin 128) :
    View.canon ((⟨rect1_r1, w1⟩ : View.Piece (Elt Ideal) S2x128 .f32) :: ⟨rect1_r0, w0⟩ :: L) (ix2 1 ch) = w1 (ix2 0 ch) := by
  exact (congrArg (View.canon ((⟨rect1_r1, w1⟩ : View.Piece (Elt Ideal) S2x128 .f32) :: ⟨rect1_r0, w0⟩ :: L)) (emb1_r1 ch).symm).trans
    (View.canon_cons_emb (Val := Elt Ideal) rect1_r1 w1 (⟨rect1_r0, w0⟩ :: L) (ix2 0 ch))

section
variable (c : Dev nD) (i : grid1.Coords) (arg1 : Memref sig .tc .vmem S512x16x128 .f32) (harg1 : arg1.IsWhole) (arg2 : Memref sig .tc .vmem S1x1x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128x128 .f32) (harg6 : arg6.IsWhole) (arg7 : Memref sig .tc .vmem S512x16x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2x128 .f32) (harg10 : arg10.IsWhole)
theorem piece1_A_6 (hc0 : cond1_0 i) (hc1 : ¬cond1_1 i) (x0 : Vec Ideal S512x16x128 .f32) (x1 x2 x3 x4 : Vec Ideal S1x1x128 .f32) (x5 : Vec Ideal S128x128 .f32) : out1_A_6 c i arg1 harg1 arg2 harg2 arg3 harg3 arg4 harg4 arg5 harg5 arg6 harg6 arg7 harg7 arg8 harg8 arg9 harg9 arg10 harg10 hc0 hc1 x0 x1 x2 x3 x4 x5 = k1_pay5 x0 x2 x3 x4 x1 x5 := by
  unfold out1_A_6 kernelRun1_A
  dsimp only
  sl_unfold_words
  rw [View.canon_unit_zero hz1_3]
  simp only [View.readAt_eq_ld, harg1.read_unread, harg2.read_unread, harg3.read_unread, harg4.read_unread, harg5.read_unread, harg6.read_unread,
    View.ld_unit_zero (S := S512x16x128) hz1_3, View.ld_unit_zero (S := S1x1x128) hz1_3, View.ld_unit_zero (S := S128x128) hz1_2]
theorem piece1_B_6 (hc0 : ¬cond1_0 i) (hc1 : ¬cond1_1 i) (x0 : Vec Ideal S512x16x128 .f32) (x1 x2 x3 x4 : Vec Ideal S1x1x128 .f32) (x5 : Vec Ideal S128x128 .f32) (xs0 : Vec Ideal S2x128 .f32) : out1_B_6 c i arg1 harg1 arg2 harg2 arg3 harg3 arg4 harg4 arg5 harg5 arg6 harg6 arg7 harg7 arg8 harg8 arg9 harg9 arg10 harg10 hc0 hc1 x0 x1 x2 x3 x4 x5 xs0 = k1_pay5 x0 x2 x3 x4 x1 x5 := by
  unfold out1_B_6 kernelRun1_B
  dsimp only
  sl_unfold_words
  rw [View.canon_unit_zero hz1_3]
  simp only [View.readAt_eq_ld, harg1.read_unread, harg2.read_unread, harg3.read_unread, harg4.read_unread, harg5.read_unread, harg6.read_unread,
    View.ld_unit_zero (S := S512x16x128) hz1_3, View.ld_unit_zero (S := S1x1x128) hz1_3, View.ld_unit_zero (S := S128x128) hz1_2]
theorem piece1_C_6 (hc0 : ¬cond1_0 i) (hc1 : cond1_1 i) (x0 : Vec Ideal S512x16x128 .f32) (x1 x2 x3 x4 : Vec Ideal S1x1x128 .f32) (x5 : Vec Ideal S128x128 .f32) (xs0 : Vec Ideal S2x128 .f32) : out1_C_6 c i arg1 harg1 arg2 harg2 arg3 harg3 arg4 harg4 arg5 harg5 arg6 harg6 arg7 harg7 arg8 harg8 arg9 harg9 arg10 harg10 hc0 hc1 x0 x1 x2 x3 x4 x5 xs0 = k1_pay5 x0 x2 x3 x4 x1 x5 := by
  unfold out1_C_6 kernelRun1_C
  dsimp only
  sl_unfold_words
  rw [View.canon_unit_zero hz1_3]
  simp only [View.readAt_eq_ld, harg1.read_unread, harg2.read_unread, harg3.read_unread, harg4.read_unread, harg5.read_unread, harg6.read_unread,
    View.ld_unit_zero (S := S512x16x128) hz1_3, View.ld_unit_zero (S := S1x1x128) hz1_3, View.ld_unit_zero (S := S128x128) hz1_2]

section
variable (hc0 : ¬cond1_0 i) (hc1 : ¬cond1_1 i) (x0 : Vec Ideal S512x16x128 .f32) (x1 x2 x3 x4 : Vec Ideal S1x1x128 .f32) (x5 : Vec Ideal S128x128 .f32) (xs0 : Vec Ideal S2x128 .f32)
include hc0 hc1
theorem piece1_B_s0 (ch : Fin 128) :
    sout1_B c i arg1 harg1 arg2 harg2 arg3 harg3 arg4 harg4 arg5 harg5 arg6 harg6 arg7 harg7 arg8 harg8 arg9 harg9 arg10 harg10 hc0 hc1 x0 x1 x2 x3 x4 x5 xs0 (ix2 0 ch) = xs0 (ix2 0 ch) + ∑ q : Fin 8192, k1_pay4 x0 x2 x3 x4 x1 x5 (ix2 q ch) := by
  unfold sout1_B kernelRun1_B
  dsimp only
  sl_unfold_words
  refine (canon1_rows_0 _ _ _ ch).trans ?_
  refine (pay1_1_apply _ _ ch).trans ?_
  simp only [View.readAt_eq_ld, harg1.read_unread, harg2.read_unread, harg3.read_unread, harg4.read_unread, harg5.read_unread, harg6.read_unread, harg10.read_unread,
    View.ld_unit_zero (S := S512x16x128) hz1_3, View.ld_unit_zero (S := S1x1x128) hz1_3, View.ld_unit_zero (S := S128x128) hz1_2]
  rw [ld1_r0]
theorem piece1_B_s1 (ch : Fin 128) :
    sout1_B c i arg1 harg1 arg2 harg2 arg3 harg3 arg4 harg4 arg5 harg5 arg6 harg6 arg7 harg7 arg8 harg8 arg9 harg9 arg10 harg10 hc0 hc1 x0 x1 x2 x3 x4 x5 xs0 (ix2 1 ch) = xs0 (ix2 1 ch) + ∑ q : Fin 8192, k1_pay4 x0 x2 x3 x4 x1 x5 (ix2 q ch) * k1_pay4 x0 x2 x3 x4 x1 x5 (ix2 q ch) := by
  unfold sout1_B kernelRun1_B
  dsimp only
  sl_unfold_words
  refine (canon1_rows_1 _ _ _ ch).trans ?_
  refine (pay1_2_apply _ _ ch).trans ?_
  simp only [View.readAt_eq_ld, harg1.read_unread, harg2.read_unread, harg3.read_unread, harg4.read_unread, harg5.read_unread, harg6.read_unread, harg10.read_unread,
    View.ld_unit_zero (S := S512x16x128) hz1_3, View.ld_unit_zero (S := S1x1x128) hz1_3, View.ld_unit_zero (S := S128x128) hz1_2]
  rw [ld1_r1]
end
section
variable (hc0 : ¬cond1_0 i) (hc1 : cond1_1 i) (x0 : Vec Ideal S512x16x128 .f32) (x1 x2 x3 x4 : Vec Ideal S1x1x128 .f32) (x5 : Vec Ideal S128x128 .f32) (xs0 : Vec Ideal S2x128 .f32)
include hc0 hc1
theorem piece1_C_s0 (ch : Fin 128) :
    sout1_C c i arg1 harg1 arg2 harg2 arg3 harg3 arg4 harg4 arg5 harg5 arg6 harg6 arg7 harg7 arg8 harg8 arg9 harg9 arg10 harg10 hc0 hc1 x0 x1 x2 x3 x4 x5 xs0 (ix2 0 ch) = xs0 (ix2 0 ch) + ∑ q : Fin 8192, k1_pay4 x0 x2 x3 x4 x1 x5 (ix2 q ch) := by
  unfold sout1_C kernelRun1_C
  dsimp only
  sl_unfold_words
  refine (canon1_rows_0 _ _ _ ch).trans ?_
  refine (pay1_1_apply _ _ ch).trans ?_
  simp only [View.readAt_eq_ld, harg1.read_unread, harg2.read_unread, harg3.read_unread, harg4.read_unread, harg5.read_unread, harg6.read_unread, harg10.read_unread,
    View.ld_unit_zero (S := S512x16x128) hz1_3, View.ld_unit_zero (S := S1x1x128) hz1_3, View.ld_unit_zero (S := S128x128) hz1_2]
  rw [ld1_r0]
theorem piece1_C_s1 (ch : Fin 128) :
    sout1_C c i arg1 harg1 arg2 harg2 arg3 harg3 arg4 harg4 arg5 harg5 arg6 harg6 arg7 harg7 arg8 harg8 arg9 harg9 arg10 harg10 hc0 hc1 x0 x1 x2 x3 x4 x5 xs0 (ix2 1 ch) = xs0 (ix2 1 ch) + ∑ q : Fin 8192, k1_pay4 x0 x2 x3 x4 x1 x5 (ix2 q ch) * k1_pay4 x0 x2 x3 x4 x1 x5 (ix2 q ch) := by
  unfold sout1_C kernelRun1_C
  dsimp only
  sl_unfold_words
  refine (canon1_rows_1 _ _ _ ch).trans ?_
  refine (pay1_2_apply _ _ ch).trans ?_
  simp only [View.readAt_eq_ld, harg1.read_unread, harg2.read_unread, harg3.read_unread, harg4.read_unread, harg5.read_unread, harg6.read_unread, harg10.read_unread,
    View.ld_unit_zero (S := S512x16x128) hz1_3, View.ld_unit_zero (S := S1x1x128) hz1_3, View.ld_unit_zero (S := S128x128) hz1_2]
  rw [ld1_r1]

theorem piece1_C_7 (ch : Fin 128) : out1_C_7 c i arg1 harg1 arg2 harg2 arg3 harg3 arg4 harg4 arg5 harg5 arg6 harg6 arg7 harg7 arg8 harg8 arg9 harg9 arg10 harg10 hc0 hc1 x0 x1 x2 x3 x4 x5 xs0 (ix2 0 ch) = sout1_C c i arg1 harg1 arg2 harg2 arg3 harg3 arg4 harg4 arg5 harg5 arg6 harg6 arg7 harg7 arg8 harg8 arg9 harg9 arg10 harg10 hc0 hc1 x0 x1 x2 x3 x4 x5 xs0 (ix2 0 ch) := by
  unfold out1_C_7 sout1_C kernelRun1_C
  dsimp only
  sl_unfold_words
  refine (congrFun (View.canon_unit_zero (S := S1x128) hz1_2 _ _) (ix2 0 ch)).trans ?_
  refine (congrFun (View.readCov_eq_canon' _ _ _) _).trans ?_
  exact congrArg _ (emb1_r0 ch)
theorem piece1_C_8 (ch : Fin 128) : out1_C_8 c i arg1 harg1 arg2 harg2 arg3 harg3 arg4 harg4 arg5 harg5 arg6 harg6 arg7 harg7 arg8 harg8 arg9 harg9 arg10 harg10 hc0 hc1 x0 x1 x2 x3 x4 x5 xs0 (ix2 0 ch) = sout1_C c i arg1 harg1 arg2 harg2 arg3 harg3 arg4 harg4 arg5 harg5 arg6 harg6 arg7 harg7 arg8 harg8 arg9 harg9 arg10 harg10 hc0 hc1 x0 x1 x2 x3 x4 x5 xs0 (ix2 1 ch) := by
  unfold out1_C_8 sout1_C kernelRun1_C
  dsimp only
  sl_unfold_words
  refine (congrFun (View.canon_unit_zero (S := S1x128) hz1_2 _ _) (ix2 0 ch)).trans ?_
  refine (congrFun (View.readCov_eq_canon' _ _ _) _).trans ?_
  exact congrArg _ (emb1_r1 ch)

end
theorem pay1_3_apply (j : S2x128.Idx) : k1_pay3 (F := Ideal) j = Ideal.ofBits .f32 0x00000000#32 := by
  unfold k1_pay3
  simp only [shapeCast_self]
  rfl

section
variable (hc0 : cond1_0 i) (hc1 : ¬cond1_1 i) (x0 : Vec Ideal S512x16x128 .f32) (x1 x2 x3 x4 : Vec Ideal S1x1x128 .f32) (x5 : Vec Ideal S128x128 .f32)
include hc0 hc1
theorem piece1_A_s0 (ch : Fin 128) :
    sout1_A c i arg1 harg1 arg2 harg2 arg3 harg3 arg4 harg4 arg5 harg5 arg6 harg6 arg7 harg7 arg8 harg8 arg9 harg9 arg10 harg10 hc0 hc1 x0 x1 x2 x3 x4 x5 (ix2 0 ch) = Ideal.ofBits .f32 0x00000000#32 + ∑ q : Fin 8192, k1_pay4 x0 x2 x3 x4 x1 x5 (ix2 q ch) := by
  unfold sout1_A kernelRun1_A
  dsimp only
  sl_unfold_words
  refine (canon1_rows_0 _ _ _ ch).trans ?_
  refine (pay1_1_apply _ _ ch).trans ?_
  simp only [View.readAt_eq_ld, harg1.read_unread, harg2.read_unread, harg3.read_unread, harg4.read_unread, harg5.read_unread, harg6.read_unread,
    View.ld_unit_zero (S := S512x16x128) hz1_3, View.ld_unit_zero (S := S1x1x128) hz1_3, View.ld_unit_zero (S := S128x128) hz1_2]
  refine congrArg (· + _) ?_
  refine (congrFun (View.readCov_eq_canon' _ _ _) _).trans ?_
  refine (congrFun (View.canon_unit_zero (S := S2x128) hz1_2 _ _) _).trans ?_
  exact pay1_3_apply _
theorem piece1_A_s1 (ch : Fin 128) :
    sout1_A c i arg1 harg1 arg2 harg2 arg3 harg3 arg4 harg4 arg5 harg5 arg6 harg6 arg7 harg7 arg8 harg8 arg9 harg9 arg10 harg10 hc0 hc1 x0 x1 x2 x3 x4 x5 (ix2 1 ch) = Ideal.ofBits .f32 0x00000000#32 + ∑ q : Fin 8192, k1_pay4 x0 x2 x3 x4 x1 x5 (ix2 q ch) * k1_pay4 x0 x2 x3 x4 x1 x5 (ix2 q ch) := by
  unfold sout1_A kernelRun1_A
  dsimp only
  sl_unfold_words
  refine (canon1_rows_1 _ _ _ ch).trans ?_
  refine (pay1_2_apply _ _ ch).trans ?_
  simp only [View.readAt_eq_ld, harg1.read_unread, harg2.read_unread, harg3.read_unread, harg4.read_unread, harg5.read_unread, harg6.read_unread,
    View.ld_unit_zero (S := S512x16x128) hz1_3, View.ld_unit_zero (S := S1x1x128) hz1_3, View.ld_unit_zero (S := S128x128) hz1_2]
  refine congrArg (· + _) ?_
  refine (congrFun (View.readCov_eq_canon' _ _ _) _).trans ?_
  refine (congrArg _ (emb1_r1 ch)).trans ?_
  refine (View.canon_cons_of_not_mem _ _ (nmem1_r0 ch)).trans ?_
  refine (congrFun (View.canon_unit_zero (S := S2x128) hz1_2 _ _) _).trans ?_
  exact pay1_3_apply _
end
end

abbrev xb1_0 (c : Dev nD) (t : Fin cfg1.N) : Vec Ideal S512x16x128 .f32 := iblk1 V c 0 t
abbrev xb1_1 (c : Dev nD) (t : Fin cfg1.N) : Vec Ideal S1x1x128 .f32 := iblk1 V c 1 t
abbrev xb1_2 (c : Dev nD) (t : Fin cfg1.N) : Vec Ideal S1x1x128 .f32 := iblk1 V c 2 t
abbrev xb1_3 (c : Dev nD) (t : Fin cfg1.N) : Vec Ideal S1x1x128 .f32 := iblk1 V c 3 t
abbrev xb1_4 (c : Dev nD) (t : Fin cfg1.N) : Vec Ideal S1x1x128 .f32 := iblk1 V c 4 t
abbrev xb1_5 (c : Dev nD) (t : Fin cfg1.N) : Vec Ideal S128x128 .f32 := iblk1 V c 5 t

theorem idx1_0 : ∀ t : Fin cfg1.N, win1_0.index t 0 = t.val ∧ win1_0.index t 1 = 0 ∧ win1_0.index t 2 = 0 := by decide +kernel
theorem idx1_1 : ∀ t : Fin cfg1.N, win1_1.index t 0 = 0 ∧ win1_1.index t 1 = 0 ∧ win1_1.index t 2 = 0 := by decide +kernel
theorem idx1_2 : ∀ t : Fin cfg1.N, win1_2.index t 0 = 0 ∧ win1_2.index t 1 = 0 ∧ win1_2.index t 2 = 0 := by decide +kernel
theorem idx1_3 : ∀ t : Fin cfg1.N, win1_3.index t 0 = 0 ∧ win1_3.index t 1 = 0 ∧ win1_3.index t 2 = 0 := by decide +kernel
theorem idx1_4 : ∀ t : Fin cfg1.N, win1_4.index t 0 = 0 ∧ win1_4.index t 1 = 0 ∧ win1_4.index t 2 = 0 := by decide +kernel
theorem idx1_5 : ∀ t : Fin cfg1.N, win1_5.index t 0 = 0 ∧ win1_5.index t 1 = 0 := by decide +kernel
theorem idx1_6 : ∀ t : Fin cfg1.N, win1_6.index t 0 = t.val ∧ win1_6.index t 1 = 0 ∧ win1_6.index t 2 = 0 := by decide +kernel
theorem idx1_7 : ∀ t : Fin cfg1.N, win1_7.index t 0 = 0 ∧ win1_7.index t 1 = 0 := by decide +kernel
theorem idx1_8 : ∀ t : Fin cfg1.N, win1_8.index t 0 = 0 ∧ win1_8.index t 1 = 0 := by decide +kernel

theorem tlt1 (t : Fin cfg1.N) : t.val < 16 := lt_of_lt_of_eq t.isLt (show cfg1.N = 16 from N_1)

abbrev row1 (t : Fin cfg1.N) (p : Fin 512) : Fin 8192 := ⟨512 * t.val + p.val, by have := tlt1 t; have := p.isLt; omega⟩

theorem xb1_0_apply (c : Dev nD) (t : Fin cfg1.N) (p : Fin 512) (n : Fin 16) (k : Fin 128) :
    xb1_0 V c t (ix3 p n k) = hact1 V c (ix3 (row1 t p) n k) := by
  show iblk1 V c 0 t (ix3 p n k) = _
  unfold iblk1
  rw [View.read_apply]
  show V c main_v55_0 _ = V c main_v55_0 _
  congr 1
  funext a
  apply Fin.ext
  match a with
  | ⟨0, _⟩ => show win1_0.index t 0 * 512 + 1 * p.val = 512 * t.val + p.val; rw [(idx1_0 t).1]; omega
  | ⟨1, _⟩ => show win1_0.index t 1 * 16 + 1 * n.val = n.val; rw [(idx1_0 t).2.1]; omega
  | ⟨2, _⟩ => show win1_0.index t 2 * 128 + 1 * k.val = k.val; rw [(idx1_0 t).2.2]; omega

theorem xb1_1_eq (c : Dev nD) (t : Fin cfg1.N) : xb1_1 V c t = mean1 V c := by
  funext j
  show iblk1 V c 1 t j = _
  unfold iblk1
  rw [View.read_apply]
  show V c main_v62 _ = V c main_v62 _
  congr 1
  funext a
  apply Fin.ext
  match a with
  | ⟨0, _⟩ => show win1_1.index t 0 * 1 + 1 * (j 0).val = (j 0).val; rw [(idx1_1 t).1]; omega
  | ⟨1, _⟩ => show win1_1.index t 1 * 1 + 1 * (j 1).val = (j 1).val; rw [(idx1_1 t).2.1]; omega
  | ⟨2, _⟩ => show win1_1.index t 2 * 128 + 1 * (j 2).val = (j 2).val; rw [(idx1_1 t).2.2]; omega
theorem xb1_2_eq (c : Dev nD) (t : Fin cfg1.N) : xb1_2 V c t = var1 V c := by
  funext j
  show iblk1 V c 2 t j = _
  unfold iblk1
  rw [View.read_apply]
  show V c main_v63 _ = V c main_v63 _
  congr 1
  funext a
  apply Fin.ext
  match a with
  | ⟨0, _⟩ => show win1_2.index t 0 * 1 + 1 * (j 0).val = (j 0).val; rw [(idx1_2 t).1]; omega
  | ⟨1, _⟩ => show win1_2.index t 1 * 1 + 1 * (j 1).val = (j 1).val; rw [(idx1_2 t).2.1]; omega
  | ⟨2, _⟩ => show win1_2.index t 2 * 128 + 1 * (j 2).val = (j 2).val; rw [(idx1_2 t).2.2]; omega
theorem xb1_3_eq (c : Dev nD) (t : Fin cfg1.N) : xb1_3 V c t = gamma1 V c := by
  funext j
  show iblk1 V c 3 t j = _
  unfold iblk1
  rw [View.read_apply]
  show V c main_v64 _ = V c main_v64 _
  congr 1
  funext a
  apply Fin.ext
  match a with
  | ⟨0, _⟩ => show win1_3.index t 0 * 1 + 1 * (j 0).val = (j 0).val; rw [(idx1_3 t).1]; omega
  | ⟨1, _⟩ => show win1_3.index t 1 * 1 + 1 * (j 1).val = (j 1).val; rw [(idx1_3 t).2.1]; omega
  | ⟨2, _⟩ => show win1_3.index t 2 * 128 + 1 * (j 2).val = (j 2).val; rw [(idx1_3 t).2.2]; omega
theorem xb1_4_eq (c : Dev nD) (t : Fin cfg1.N) : xb1_4 V c t = beta1 V c := by
  funext j
  show iblk1 V c 4 t j = _
  unfold iblk1
  rw [View.read_apply]
  show V c main_v65 _ = V c main_v65 _
  congr 1
  funext a
  apply Fin.ext
  match a with
  | ⟨0, _⟩ => show win1_4.index t 0 * 1 + 1 * (j 0).val = (j 0).val; rw [(idx1_4 t).1]; omega
  | ⟨1, _⟩ => show win1_4.index t 1 * 1 + 1 * (j 1).val = (j 1).val; rw [(idx1_4 t).2.1]; omega
  | ⟨2, _⟩ => show win1_4.index t 2 * 128 + 1 * (j 2).val = (j 2).val; rw [(idx1_4 t).2.2]; omega
theorem xb1_5_eq (c : Dev nD) (t : Fin cfg1.N) : xb1_5 V c t = wgt1 V c := by
  funext j
  show iblk1 V c 5 t j = _
  unfold iblk1
  rw [View.read_apply]
  show V c main_v54 _ = V c main_v54 _
  congr 1
  funext a
  apply Fin.ext
  match a with
  | ⟨0, _⟩ => show win1_5.index t 0 * 128 + 1 * (j 0).val = (j 0).val; rw [(idx1_5 t).1]; omega
  | ⟨1, _⟩ => show win1_5.index t 1 * 128 + 1 * (j 1).val = (j 1).val; rw [(idx1_5 t).2]; omega

abbrev blkP1 (c : Dev nD) (t : Fin cfg1.N) : FVec Ideal S8192x128 .f32 :=
  k1_pay4 (xb1_0 V c t) (xb1_2 V c t) (xb1_3 V c t) (xb1_4 V c t) (xb1_1 V c t) (xb1_5 V c t)

theorem blkP1_apply (c : Dev nD) (t : Fin cfg1.N) (p : Fin 512) (n : Fin 16) (q : Fin 8192) (hq : q.val = 16 * p.val + n.val) (ch : Fin 128) :
    blkP1 V c t (ix2 q ch) = conv1 V c (row1 t p) n ch := by
  refine (pay1_4_apply _ _ _ _ _ _ p n q hq ch).trans ?_
  unfold conv1 act1 shift1 scale1 sh1 sc1
  refine Finset.sum_congr rfl fun k _ => ?_
  rw [xb1_0_apply, xb1_1_eq, xb1_2_eq, xb1_3_eq, xb1_4_eq, xb1_5_eq]

theorem blk1_5_apply (c : Dev nD) (t : Fin cfg1.N) (p : Fin 512) (n : Fin 16) (ch : Fin 128) :
    k1_pay5 (xb1_0 V c t) (xb1_2 V c t) (xb1_3 V c t) (xb1_4 V c t) (xb1_1 V c t) (xb1_5 V c t) (ix3 p n ch)
      = conv1 V c (row1 t p) n ch := by
  refine (pay1_5_apply _ _ _ _ _ _ p n ch).trans ?_
  unfold conv1 act1 shift1 scale1 sh1 sc1
  refine Finset.sum_congr rfl fun k _ => ?_
  rw [xb1_0_apply, xb1_1_eq, xb1_2_eq, xb1_3_eq, xb1_4_eq, xb1_5_eq]

theorem out1_6_eq (c : Dev nD) (t : Fin cfg1.N) :
    (outsAt1 V c t.val t.isLt).1
      = k1_pay5 (xb1_0 V c t) (xb1_2 V c t) (xb1_3 V c t) (xb1_4 V c t) (xb1_1 V c t) (xb1_5 V c t) := by
  have hN := tlt1 t
  by_cases h0 : t.val = 0
  · have h1 : ¬t.val % 16 = 15 := by omega
    rw [outsAt1_A V c t h0 h1]; dsimp only
    exact piece1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (cond1_0_of t h0) (ncond1_1_of t h1) (iblk1 V c 0 t) (iblk1 V c 1 t) (iblk1 V c 2 t) (iblk1 V c 3 t) (iblk1 V c 4 t) (iblk1 V c 5 t)
  · by_cases h1 : t.val % 16 = 15
    · rw [outsAt1_C V c t h0 h1]; dsimp only
      exact piece1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (cond1_1_of t h1) (iblk1 V c 0 t) (iblk1 V c 1 t) (iblk1 V c 2 t) (iblk1 V c 3 t) (iblk1 V c 4 t) (iblk1 V c 5 t) _
    · rw [outsAt1_B V c t h0 h1]; dsimp only
      exact piece1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (ncond1_0_of t h0) (ncond1_1_of t h1) (iblk1 V c 0 t) (iblk1 V c 1 t) (iblk1 V c 2 t) (iblk1 V c 3 t) (iblk1 V c 4 t) (iblk1 V c 5 t) _

abbrev G1_6 (c : Dev nD) : S8192x16x128.Idx → EReal := fun i => conv1 V c (i 0) (i 1) (i 2)

theorem xsz1_6 : ∀ t : Fin cfg1.N, win1_6.xsize (grid1.coords t) 0 = 512 ∧ win1_6.xsize (grid1.coords t) 1 = 16 ∧ win1_6.xsize (grid1.coords t) 2 = 128 := by decide +kernel

theorem flushed1_6 (c : Dev nD) (t : Fin cfg1.N) (hf : (cfg1.win 6).flush t = true) :
    (dat1 (F := Ideal) V c).flushed 6 t = ((cfg1.win 6).blk t).view.read (Elt Ideal) (G1_6 V c) := by
  show (cfg1.win 6).cut (grid1.coords t) ((dat1 (F := Ideal) V c).after 6 t) = _
  rw [after1_6, out1_6_eq]
  refine funext fun (y : S512x16x128.Idx) => ?_
  rw [View.read_apply]
  refine ((congrArg _ (eq_ix3 y)).trans (blk1_5_apply V c t (y 0) (y 1) (y 2))).trans ?_
  show conv1 V c _ _ _ = conv1 V c _ _ _
  congr 1
  · apply Fin.ext
    show 512 * t.val + (y 0).val = win1_6.index t 0 * 512 + 1 * (y 0).val
    rw [(idx1_6 t).1]; omega
  · apply Fin.ext
    show (y 1).val = win1_6.index t 1 * 16 + 1 * (y 1).val
    rw [(idx1_6 t).2.1]; omega
  · apply Fin.ext
    show (y 2).val = win1_6.index t 2 * 128 + 1 * (y 2).val
    rw [(idx1_6 t).2.2]; omega

theorem cov1_6 (c : Dev nD) (i : ((cfg1.win 6).arr.view.loc (c.tc : Thread nD τ)).2.ty.Idx) : ∃ t : Fin cfg1.N, (cfg1.win 6).flush t = true ∧ i ∈ ((cfg1.win 6).blk t).view.set := by
  have h0 : (i 0 : Nat) < 8192 := (i 0).isLt
  have h1 : (i 1 : Nat) < 16 := (i 1).isLt
  have h2 : (i 2 : Nat) < 128 := (i 2).isLt
  have hlt : (i 0 : Nat) / 512 < cfg1.N := by rw [show cfg1.N = 16 from N_1]; omega
  refine ⟨⟨(i 0 : Nat) / 512, hlt⟩, flush1_6 _, ?_⟩
  show i ∈ ((View.whole main_v66_0).slice (win1_6.rect ⟨(i 0 : Nat) / 512, hlt⟩)).set
  rw [View.set_slice_whole, Rect.mem_set_unit]
  intro a
  match a with
  | ⟨0, _⟩ =>
    show win1_6.index _ 0 * win1_6.size 0 ≤ (i 0 : Nat) ∧ (i 0 : Nat) < win1_6.index _ 0 * win1_6.size 0 + win1_6.xsize (grid1.coords _) 0
    rw [(idx1_6 _).1, (xsz1_6 _).1, show win1_6.size 0 = 512 from rfl]; dsimp only; omega
  | ⟨1, _⟩ =>
    show win1_6.index _ 1 * win1_6.size 1 ≤ (i 1 : Nat) ∧ (i 1 : Nat) < win1_6.index _ 1 * win1_6.size 1 + win1_6.xsize (grid1.coords _) 1
    rw [(idx1_6 _).2.1, (xsz1_6 _).2.1]; omega
  | ⟨2, _⟩ =>
    show win1_6.index _ 2 * win1_6.size 2 ≤ (i 2 : Nat) ∧ (i 2 : Nat) < win1_6.index _ 2 * win1_6.size 2 + win1_6.xsize (grid1.coords _) 2
    rw [(idx1_6 _).2.2, (xsz1_6 _).2.2]; omega

def rsum1 (c : Dev nD) (ch : Fin 128) (s : ℕ) : EReal :=
  if h : s < cfg1.N then ∑ q : Fin 8192, blkP1 V c ⟨s, h⟩ (ix2 q ch) else 0
def rsq1 (c : Dev nD) (ch : Fin 128) (s : ℕ) : EReal :=
  if h : s < cfg1.N then ∑ q : Fin 8192, blkP1 V c ⟨s, h⟩ (ix2 q ch) * blkP1 V c ⟨s, h⟩ (ix2 q ch) else 0

theorem acc1_eq (c : Dev nD) (ch : Fin 128) : ∀ (n : ℕ) (hn : n < cfg1.N),
    (outsAt1 V c n hn).2.2.2 (ix2 0 ch) = ∑ s ∈ Finset.range (n + 1), rsum1 V c ch s
    ∧ (outsAt1 V c n hn).2.2.2 (ix2 1 ch) = ∑ s ∈ Finset.range (n + 1), rsq1 V c ch s
  | 0, hn => by
    have e := outsAt1_A V c ⟨0, hn⟩ rfl (show ¬(0 % 16 = 15) from by decide)
    rw [show outsAt1 V c 0 hn = outsAt1 V c (⟨0, hn⟩ : Fin cfg1.N).val (⟨0, hn⟩ : Fin cfg1.N).isLt from rfl, e]
    dsimp only
    rw [Finset.sum_range_one, Finset.sum_range_one,
      show rsum1 V c ch 0 = ∑ q : Fin 8192, blkP1 V c ⟨0, hn⟩ (ix2 q ch) from dif_pos hn,
      show rsq1 V c ch 0 = ∑ q : Fin 8192, blkP1 V c ⟨0, hn⟩ (ix2 q ch) * blkP1 V c ⟨0, hn⟩ (ix2 q ch) from dif_pos hn]
    refine ⟨?_, ?_⟩
    · refine (piece1_A_s0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) _ _ (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) ch).trans ?_
      exact (congrArg (· + _) Ideal.ofBits_zero_f32).trans (zero_add _)
    · refine (piece1_A_s1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) _ _ (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) ch).trans ?_
      exact (congrArg (· + _) Ideal.ofBits_zero_f32).trans (zero_add _)
  | n + 1, hn => by
    obtain ⟨ih0, ih1⟩ := acc1_eq c ch n (Nat.lt_of_succ_lt hn)
    have hr : rsum1 V c ch (n + 1) = ∑ q : Fin 8192, blkP1 V c ⟨n + 1, hn⟩ (ix2 q ch) := dif_pos hn
    have hs : rsq1 V c ch (n + 1) = ∑ q : Fin 8192, blkP1 V c ⟨n + 1, hn⟩ (ix2 q ch) * blkP1 V c ⟨n + 1, hn⟩ (ix2 q ch) := dif_pos hn
    rw [Finset.sum_range_succ _ (n + 1), Finset.sum_range_succ _ (n + 1), hr, hs, ← ih0, ← ih1]
    rw [show outsAt1 V c (n + 1) hn = outsAt1 V c (⟨n + 1, hn⟩ : Fin cfg1.N).val (⟨n + 1, hn⟩ : Fin cfg1.N).isLt from rfl]
    by_cases h1 : (n + 1) % 16 = 15
    · rw [outsAt1_C V c ⟨n + 1, hn⟩ (Nat.succ_ne_zero n) h1]
      dsimp only
      exact ⟨piece1_C_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) _ _ (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) _ ch,
        piece1_C_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) _ _ (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) _ ch⟩
    · rw [outsAt1_B V c ⟨n + 1, hn⟩ (Nat.succ_ne_zero n) h1]
      dsimp only
      exact ⟨piece1_B_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) _ _ (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) _ ch,
        piece1_B_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) _ _ (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) _ ch⟩

theorem lastlt1 : 15 < cfg1.N := by rw [show cfg1.N = 16 from N_1]; decide
abbrev tl1 : Fin cfg1.N := ⟨15, lastlt1⟩

theorem rsum1_eq (c : Dev nD) (ch : Fin 128) :
    ∑ s ∈ Finset.range 16, rsum1 V c ch s = ∑ r : Fin 8192, ∑ n : Fin 16, conv1 V c r n ch := by
  rw [Finset.sum_range, ← sum_rows1 (fun r => ∑ n : Fin 16, conv1 V c r n ch)]
  refine Finset.sum_congr rfl fun s _ => ?_
  have hs : s.val < cfg1.N := by rw [show cfg1.N = 16 from N_1]; exact s.isLt
  rw [show rsum1 V c ch s.val = ∑ q : Fin 8192, blkP1 V c ⟨s.val, hs⟩ (ix2 q ch) from dif_pos hs, sum_flat1]
  refine Finset.sum_congr rfl fun p _ => Finset.sum_congr rfl fun n _ => ?_
  exact blkP1_apply V c ⟨s.val, hs⟩ p n _ rfl ch

theorem rsq1_eq (c : Dev nD) (ch : Fin 128) :
    ∑ s ∈ Finset.range 16, rsq1 V c ch s = ∑ r : Fin 8192, ∑ n : Fin 16, conv1 V c r n ch * conv1 V c r n ch := by
  rw [Finset.sum_range, ← sum_rows1 (fun r => ∑ n : Fin 16, conv1 V c r n ch * conv1 V c r n ch)]
  refine Finset.sum_congr rfl fun s _ => ?_
  have hs : s.val < cfg1.N := by rw [show cfg1.N = 16 from N_1]; exact s.isLt
  rw [show rsq1 V c ch s.val = ∑ q : Fin 8192, blkP1 V c ⟨s.val, hs⟩ (ix2 q ch) * blkP1 V c ⟨s.val, hs⟩ (ix2 q ch) from dif_pos hs,
    sum_flat1 (fun q => blkP1 V c ⟨s.val, hs⟩ (ix2 q ch) * blkP1 V c ⟨s.val, hs⟩ (ix2 q ch))]
  refine Finset.sum_congr rfl fun p _ => Finset.sum_congr rfl fun n _ => ?_
  exact congrArg₂ (· * ·) (blkP1_apply V c ⟨s.val, hs⟩ p n _ rfl ch) (blkP1_apply V c ⟨s.val, hs⟩ p n _ rfl ch)

theorem stat1_7 (c : Dev nD) (ch : Fin 128) :
    (outsAt1 V c tl1.val tl1.isLt).2.1 (ix2 0 ch) = ∑ s ∈ Finset.range 16, rsum1 V c ch s := by
  have a := (acc1_eq V c ch 15 lastlt1).1
  rw [show outsAt1 V c 15 lastlt1 = outsAt1 V c tl1.val tl1.isLt from rfl] at a
  rw [outsAt1_C V c tl1 (by decide) (by decide)] at a ⊢
  dsimp only at a ⊢
  exact (piece1_C_7 c (grid1.coords tl1) (ms1_0 tl1) (hs1_0 tl1) (ms1_1 tl1) (hs1_1 tl1) (ms1_2 tl1) (hs1_2 tl1) (ms1_3 tl1) (hs1_3 tl1) (ms1_4 tl1) (hs1_4 tl1) (ms1_5 tl1) (hs1_5 tl1) (ms1_6 tl1) (hs1_6 tl1) (ms1_7 tl1) (hs1_7 tl1) (ms1_8 tl1) (hs1_8 tl1) scM1 (Memref.isWhole_whole _) _ _ (iblk1 V c 0 tl1) (iblk1 V c 1 tl1) (iblk1 V c 2 tl1) (iblk1 V c 3 tl1) (iblk1 V c 4 tl1) (iblk1 V c 5 tl1) _ ch).trans a

theorem stat1_8 (c : Dev nD) (ch : Fin 128) :
    (outsAt1 V c tl1.val tl1.isLt).2.2.1 (ix2 0 ch) = ∑ s ∈ Finset.range 16, rsq1 V c ch s := by
  have a := (acc1_eq V c ch 15 lastlt1).2
  rw [show outsAt1 V c 15 lastlt1 = outsAt1 V c tl1.val tl1.isLt from rfl] at a
  rw [outsAt1_C V c tl1 (by decide) (by decide)] at a ⊢
  dsimp only at a ⊢
  exact (piece1_C_8 c (grid1.coords tl1) (ms1_0 tl1) (hs1_0 tl1) (ms1_1 tl1) (hs1_1 tl1) (ms1_2 tl1) (hs1_2 tl1) (ms1_3 tl1) (hs1_3 tl1) (ms1_4 tl1) (hs1_4 tl1) (ms1_5 tl1) (hs1_5 tl1) (ms1_6 tl1) (hs1_6 tl1) (ms1_7 tl1) (hs1_7 tl1) (ms1_8 tl1) (hs1_8 tl1) scM1 (Memref.isWhole_whole _) _ _ (iblk1 V c 0 tl1) (iblk1 V c 1 tl1) (iblk1 V c 2 tl1) (iblk1 V c 3 tl1) (iblk1 V c 4 tl1) (iblk1 V c 5 tl1) _ ch).trans a

abbrev G1_7 (c : Dev nD) : S1x128.Idx → EReal := fun j => ∑ r : Fin 8192, ∑ n : Fin 16, conv1 V c r n (j 1)
abbrev G1_8 (c : Dev nD) : S1x128.Idx → EReal := fun j => ∑ r : Fin 8192, ∑ n : Fin 16, conv1 V c r n (j 1) * conv1 V c r n (j 1)

theorem flushed1_7 (c : Dev nD) (t : Fin cfg1.N) (hf : (cfg1.win 7).flush t = true) :
    (dat1 (F := Ideal) V c).flushed 7 t = ((cfg1.win 7).blk t).view.read (Elt Ideal) (G1_7 V c) := by
  have h15 : t.val = 15 := by have := (flush1_7 t).mp hf; have := tlt1 t; omega
  obtain rfl : t = tl1 := Fin.ext h15
  show (cfg1.win 7).cut (grid1.coords tl1) ((dat1 (F := Ideal) V c).after 7 tl1) = _
  rw [after1_7]
  refine funext fun (y : S1x128.Idx) => ?_
  rw [View.read_apply]
  obtain ⟨ch, rfl⟩ : ∃ ch : Fin 128, y = ix2 0 ch :=
    ⟨y 1, (eq_ix2 y).trans (congrArg (fun a => ix2 a (y 1)) (Fin.ext (by have h : (y 0).val < 1 := (y 0).isLt; show (y 0).val = 0; omega)))⟩
  refine (stat1_7 V c ch).trans ((rsum1_eq V c ch).trans ?_)
  have e1 : ((((cfg1.win 7).blk tl1).view.emb (ix2 0 ch)) 1 : Fin 128) = ch := Fin.ext (by
    show win1_7.index tl1 1 * 128 + 1 * ch.val = ch.val
    rw [(idx1_7 tl1).2]; omega)
  show _ = G1_7 V c _
  dsimp only [G1_7]
  rw [e1]

theorem cov1_7 (c : Dev nD) (i : ((cfg1.win 7).arr.view.loc (c.tc : Thread nD τ)).2.ty.Idx) : ∃ t : Fin cfg1.N, (cfg1.win 7).flush t = true ∧ i ∈ ((cfg1.win 7).blk t).view.set :=
  ⟨tl1, (flush1_7 tl1).mpr rfl, by
    show i ∈ ((View.whole main_v66_1).slice (win1_7.rect tl1)).set
    rw [View.set_slice_whole, Rect.mem_set_unit]
    intro a
    have h0 : (i 0 : Nat) < 1 := (i 0).isLt
    have h1 : (i 1 : Nat) < 128 := (i 1).isLt
    match a with
    | ⟨0, _⟩ =>
      show win1_7.index tl1 0 * win1_7.size 0 ≤ (i 0 : Nat) ∧ (i 0 : Nat) < win1_7.index tl1 0 * win1_7.size 0 + win1_7.xsize (grid1.coords tl1) 0
      rw [show win1_7.index tl1 0 * win1_7.size 0 = 0 from by decide +kernel, show win1_7.xsize (grid1.coords tl1) 0 = 1 from by decide +kernel]; omega
    | ⟨1, _⟩ =>
      show win1_7.index tl1 1 * win1_7.size 1 ≤ (i 1 : Nat) ∧ (i 1 : Nat) < win1_7.index tl1 1 * win1_7.size 1 + win1_7.xsize (grid1.coords tl1) 1
      rw [show win1_7.index tl1 1 * win1_7.size 1 = 0 from by decide +kernel, show win1_7.xsize (grid1.coords tl1) 1 = 128 from by decide +kernel]; omega⟩

theorem flushed1_8 (c : Dev nD) (t : Fin cfg1.N) (hf : (cfg1.win 8).flush t = true) :
    (dat1 (F := Ideal) V c).flushed 8 t = ((cfg1.win 8).blk t).view.read (Elt Ideal) (G1_8 V c) := by
  have h15 : t.val = 15 := by have := (flush1_8 t).mp hf; have := tlt1 t; omega
  obtain rfl : t = tl1 := Fin.ext h15
  show (cfg1.win 8).cut (grid1.coords tl1) ((dat1 (F := Ideal) V c).after 8 tl1) = _
  rw [after1_8]
  refine funext fun (y : S1x128.Idx) => ?_
  rw [View.read_apply]
  obtain ⟨ch, rfl⟩ : ∃ ch : Fin 128, y = ix2 0 ch :=
    ⟨y 1, (eq_ix2 y).trans (congrArg (fun a => ix2 a (y 1)) (Fin.ext (by have h : (y 0).val < 1 := (y 0).isLt; show (y 0).val = 0; omega)))⟩
  refine (stat1_8 V c ch).trans ((rsq1_eq V c ch).trans ?_)
  have e1 : ((((cfg1.win 8).blk tl1).view.emb (ix2 0 ch)) 1 : Fin 128) = ch := Fin.ext (by
    show win1_8.index tl1 1 * 128 + 1 * ch.val = ch.val
    rw [(idx1_8 tl1).2]; omega)
  show _ = G1_8 V c _
  dsimp only [G1_8]
  rw [e1]

theorem cov1_8 (c : Dev nD) (i : ((cfg1.win 8).arr.view.loc (c.tc : Thread nD τ)).2.ty.Idx) : ∃ t : Fin cfg1.N, (cfg1.win 8).flush t = true ∧ i ∈ ((cfg1.win 8).blk t).view.set :=
  ⟨tl1, (flush1_8 tl1).mpr rfl, by
    show i ∈ ((View.whole main_v66_2).slice (win1_8.rect tl1)).set
    rw [View.set_slice_whole, Rect.mem_set_unit]
    intro a
    have h0 : (i 0 : Nat) < 1 := (i 0).isLt
    have h1 : (i 1 : Nat) < 128 := (i 1).isLt
    match a with
    | ⟨0, _⟩ =>
      show win1_8.index tl1 0 * win1_8.size 0 ≤ (i 0 : Nat) ∧ (i 0 : Nat) < win1_8.index tl1 0 * win1_8.size 0 + win1_8.xsize (grid1.coords tl1) 0
      rw [show win1_8.index tl1 0 * win1_8.size 0 = 0 from by decide +kernel, show win1_8.xsize (grid1.coords tl1) 0 = 1 from by decide +kernel]; omega
    | ⟨1, _⟩ =>
      show win1_8.index tl1 1 * win1_8.size 1 ≤ (i 1 : Nat) ∧ (i 1 : Nat) < win1_8.index tl1 1 * win1_8.size 1 + win1_8.xsize (grid1.coords tl1) 1
      rw [show win1_8.index tl1 1 * win1_8.size 1 = 0 from by decide +kernel, show win1_8.xsize (grid1.coords tl1) 1 = 128 from by decide +kernel]; omega⟩

theorem val1_6 (c : Dev nD) (r : Fin 8192) (n : Fin 16) (ch : Fin 128) :
    (dat1 (F := Ideal) V c).arrAt 6 cfg1.N (ix3 r n ch) = conv1 V c r n ch :=
  congrFun ((dat1 (F := Ideal) V c).arrAt_eq_of_cover 6 (G1_6 V c) (flushed1_6 V c) (cov1_6 c)) (ix3 r n ch)

theorem val1_7 (c : Dev nD) (ch : Fin 128) :
    (dat1 (F := Ideal) V c).arrAt 7 cfg1.N (ix2 0 ch) = ∑ r : Fin 8192, ∑ n : Fin 16, conv1 V c r n ch :=
  congrFun ((dat1 (F := Ideal) V c).arrAt_eq_of_cover 7 (G1_7 V c) (flushed1_7 V c) (cov1_7 c)) (ix2 0 ch)

theorem val1_8 (c : Dev nD) (ch : Fin 128) :
    (dat1 (F := Ideal) V c).arrAt 8 cfg1.N (ix2 0 ch) = ∑ r : Fin 8192, ∑ n : Fin 16, conv1 V c r n ch * conv1 V c r n ch :=
  congrFun ((dat1 (F := Ideal) V c).arrAt_eq_of_cover 8 (G1_8 V c) (flushed1_8 V c) (cov1_8 c)) (ix2 0 ch)

theorem val1_in (c : Dev nD) (w : Fin cfg1.W) (hw : (cfg1.win w).isOut = false) (n : ℕ) :
    (dat1 (F := Ideal) V c).arrAt w n = V c (Pipeline.arrRef spec1 w) :=
  ((dat1 (F := Ideal) V c).arrAt_in w hw n).trans (A_eq1 V c w)

end Cert.KernelIdeal.HandVal
end
-- ==== Proof.LibBatchNormReal.lean ====
import Idealize.ShloMosaic.PureOps.Ideal
import Idealize.ShloMosaic.PureOps.Ideal.Laws
import Mathlib.Data.EReal.Operations
import Mathlib.Data.EReal.Inv
import Mathlib.Analysis.Real.Sqrt
import Mathlib.Algebra.BigOperators.Fin
import Mathlib.Algebra.BigOperators.Group.Finset.Basic
import Mathlib.Algebra.BigOperators.Ring.Finset
import Mathlib.Algebra.Order.BigOperators.Group.Finset
import Mathlib.Data.Finset.Fold
import Mathlib.Data.Fintype.Basic
import Mathlib.Logic.Equiv.Fin.Basic
import Mathlib.Tactic.Ring
import Mathlib.Tactic.FieldSimp

namespace Cert.Lib

open Idealize.ShloMosaic
open scoped BigOperators

theorem coe_finset_sum {ι : Type*} (s : Finset ι) (x : ι → ℝ) :
    ((∑ i ∈ s, x i : ℝ) : EReal) = ∑ i ∈ s, (x i : EReal) := by
  classical
  induction s using Finset.induction_on with
  | empty => simp
  | insert a s ha ih => rw [Finset.sum_insert ha, Finset.sum_insert ha, EReal.coe_add, ih]

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy
  exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (EReal.coe_strictMono.monotone.map_max).symm⟩

theorem real_sum {ι : Type*} [Fintype ι] (X : ι → EReal) (hX : ∀ i, ∃ r : ℝ, X i = (r : EReal)) :
    ∃ r : ℝ, ∑ i, X i = (r : EReal) := by
  choose x hx using hX
  exact ⟨∑ i, x i, by rw [coe_finset_sum, funext hx]⟩

theorem div_coe_coe (a : ℝ) {N : ℝ} (h0 : N ≠ 0) : Ideal.div (a : EReal) (N : EReal) = ((a / N : ℝ) : EReal) := by
  rw [Ideal.div_coe h0, ← EReal.coe_mul, mul_one_div]

theorem real_div {x : EReal} (hx : ∃ r : ℝ, x = (r : EReal)) {N : ℝ} (h0 : N ≠ 0) :
    ∃ r : ℝ, Ideal.div x (N : EReal) = (r : EReal) := by
  obtain ⟨a, rfl⟩ := hx
  exact ⟨a / N, div_coe_coe a h0⟩

-- The sum is a positive real, where the reciprocal square root is the real one.
theorem rsqrt_coe_add_coe {v ε : ℝ} (hv : 0 ≤ v) (hε : 0 < ε) :
    ∃ r : ℝ, Ideal.rsqrt ((v : EReal) + (ε : EReal)) = (r : EReal) := by
  have h := add_pos_of_nonneg_of_pos hv hε
  exact ⟨_, by rw [← EReal.coe_add, Ideal.rsqrt_coe, if_neg (not_lt.mpr h.le), if_neg h.ne']⟩

section Variance

variable {ι : Type*} [Fintype ι] (x : ι → ℝ) (N : ℝ) (hN : (Fintype.card ι : ℝ) = N) (h0 : N ≠ 0)
include hN h0

-- Expand the squared deviation; the cross term sums to twice the squared mean times the number of terms.
theorem real_variance :
    (∑ i, x i * x i) / N - (∑ i, x i) / N * ((∑ i, x i) / N)
      = (∑ i, (x i - (∑ j, x j) / N) * (x i - (∑ j, x j) / N)) / N := by
  have hexp : ∀ i, (x i - (∑ j, x j) / N) * (x i - (∑ j, x j) / N)
      = x i * x i - 2 * ((∑ j, x j) / N) * x i + (∑ j, x j) / N * ((∑ j, x j) / N) := fun i => by ring
  simp only [hexp, Finset.sum_add_distrib, Finset.sum_sub_distrib, ← Finset.mul_sum, Finset.sum_const,
    Finset.card_univ, nsmul_eq_mul, hN]
  field_simp
  ring

theorem div_sum_coe : Ideal.div (∑ i, (x i : EReal)) (N : EReal) = (((∑ i, x i) / N : ℝ) : EReal) := by
  rw [← coe_finset_sum, div_coe_coe _ h0]

-- Mean of squares minus squared mean, and mean of squared deviations, are one non-negative real.
theorem variance_real :
    ∃ v : ℝ, 0 ≤ v ∧
      Ideal.div (∑ i, (x i : EReal) * (x i : EReal)) (N : EReal)
        - Ideal.div (∑ i, (x i : EReal)) (N : EReal) * Ideal.div (∑ i, (x i : EReal)) (N : EReal) = (v : EReal) ∧
      Ideal.div (∑ i, ((x i : EReal) - Ideal.div (∑ j, (x j : EReal)) (N : EReal))
          * ((x i : EReal) - Ideal.div (∑ j, (x j : EReal)) (N : EReal))) (N : EReal) = (v : EReal) := by
  refine ⟨(∑ i, (x i - (∑ j, x j) / N) * (x i - (∑ j, x j) / N)) / N,
    div_nonneg (Finset.sum_nonneg fun i _ => mul_self_nonneg _) (hN ▸ Nat.cast_nonneg _), ?_, ?_⟩ <;>
    rw [div_sum_coe x N hN h0]
  · simp only [← EReal.coe_mul]
    rw [div_sum_coe _ N hN h0, ← EReal.coe_sub, real_variance x N hN h0]
  · simp only [← EReal.coe_sub, ← EReal.coe_mul]
    rw [div_sum_coe _ N hN h0]

end Variance

-- On reals both sides are one polynomial identity.
theorem relu_affine_fold_of_real {X M R G B : EReal} (hX : ∃ r : ℝ, X = (r : EReal)) (hM : ∃ r : ℝ, M = (r : EReal))
    (hR : ∃ r : ℝ, R = (r : EReal)) (hG : ∃ r : ℝ, G = (r : EReal)) (hB : ∃ r : ℝ, B = (r : EReal)) :
    max ((X - M) * R * G + B) 0 = max (X * (G * R) + (B - M * (G * R))) 0 := by
  obtain ⟨x, rfl⟩ := hX; obtain ⟨m, rfl⟩ := hM; obtain ⟨r, rfl⟩ := hR; obtain ⟨g, rfl⟩ := hG; obtain ⟨b, rfl⟩ := hB
  refine congrArg (max · 0) ?_
  rw [← EReal.coe_sub, ← EReal.coe_mul, ← EReal.coe_mul, ← EReal.coe_add, ← EReal.coe_mul, ← EReal.coe_mul,
    ← EReal.coe_mul, ← EReal.coe_sub, ← EReal.coe_add]
  congr 1
  ring

theorem fold_max_eq_sup {α : Type*} [LinearOrder α] [OrderBot α] {ι : Type*} (s : Finset ι) (y : ι → α) :
    s.fold max ⊥ y = s.sup y := rfl

theorem ofBits_neg_inf_f32 : Ideal.ofBits .f32 0xFF800000#32 = ⊥ := by simp [Ideal.ofBits, Ideal.ieee]

end Cert.Lib
-- ==== Proof.LibBridgeStages.lean ====
import proofs.«157081_j85761906966880_1_alg».proof.Proof.LibBatchNormReal
import Mathlib.Data.Fintype.BigOperators
import Mathlib.Data.Fintype.Prod
import Mathlib.Data.Fintype.Card
import Mathlib.Data.Nat.Cast.Basic
import Mathlib.Tactic.NormNum

namespace Cert.Lib

open Idealize.ShloMosaic
open scoped BigOperators

section Stats

variable {M N : ℕ} (h : Fin M → Fin N → EReal) (hh : ∀ m n, ∃ r : ℝ, h m n = (r : EReal)) (Nr : ℝ)
include hh

theorem stats_mean_real (h0 : Nr ≠ 0) :
    ∃ μ : ℝ, Ideal.div (∑ m, ∑ n, h m n) (Nr : EReal) = (μ : EReal) :=
  real_div (real_sum _ fun m => real_sum _ fun n => hh m n) h0

-- A double sum is a single sum over the pairs, where the variance of a family of reals is known.
theorem stats_var_real (hNr : (M : ℝ) * (N : ℝ) = Nr) (h0 : Nr ≠ 0) :
    ∃ v : ℝ, 0 ≤ v ∧
      Ideal.div (∑ m, ∑ n, h m n * h m n) (Nr : EReal)
          - Ideal.div (∑ m, ∑ n, h m n) (Nr : EReal) * Ideal.div (∑ m, ∑ n, h m n) (Nr : EReal) = (v : EReal) ∧
      Ideal.div (∑ m, ∑ n, (h m n - Ideal.div (∑ m', ∑ n', h m' n') (Nr : EReal))
          * (h m n - Ideal.div (∑ m', ∑ n', h m' n') (Nr : EReal))) (Nr : EReal) = (v : EReal) := by
  have hc : (Fintype.card (Fin M × Fin N) : ℝ) = Nr := by
    rw [Fintype.card_prod, Fintype.card_fin, Fintype.card_fin, Nat.cast_mul, hNr]
  choose x hx using hh
  obtain rfl : h = fun m n => (x m n : EReal) := funext fun m => funext fun n => hx m n
  simpa only [Fintype.sum_prod_type] using variance_real (ι := Fin M × Fin N) (fun p => x p.1 p.2) Nr hc h0

end Stats

section Act

variable {x mean gamma beta var : EReal} {v ε : ℝ} (hx : ∃ r : ℝ, x = (r : EReal))
  (hmean : ∃ r : ℝ, mean = (r : EReal)) (hgamma : ∃ r : ℝ, gamma = (r : EReal)) (hbeta : ∃ r : ℝ, beta = (r : EReal))
  (hvar : var = (v : EReal)) (hv : 0 ≤ v) (hε : 0 < ε)
include hx hmean hgamma hbeta hvar hv hε

-- With s the reciprocal square root of var + ε, a real: x·(γ·s) + (β − mean·(γ·s)) = ((x − mean)·s)·γ + β.
theorem act_bridge :
    max (x * (gamma * Ideal.rsqrt (var + (ε : EReal))) + (beta - mean * (gamma * Ideal.rsqrt (var + (ε : EReal))))) 0
      = max ((x - mean) * Ideal.rsqrt (var + (ε : EReal)) * gamma + beta) 0 := by
  subst hvar
  exact (relu_affine_fold_of_real hx hmean (rsqrt_coe_add_coe hv hε) hgamma hbeta).symm

theorem act_ref_real :
    ∃ r : ℝ, max ((x - mean) * Ideal.rsqrt (var + (ε : EReal)) * gamma + beta) 0 = (r : EReal) := by
  subst hvar
  exact real_max (real_add (real_mul (real_mul (real_sub hx hmean) (rsqrt_coe_add_coe hv hε)) hgamma) hbeta) ⟨0, rfl⟩

end Act

theorem conv_real {κ : Type*} [Fintype κ] (x w : κ → EReal) (hx : ∀ c, ∃ r : ℝ, x c = (r : EReal))
    (hw : ∀ c, ∃ r : ℝ, w c = (r : EReal)) : ∃ r : ℝ, ∑ c, x c * w c = (r : EReal) :=
  real_sum _ fun c => real_mul (hx c) (hw c)

end Cert.Lib
-- ==== Proof.Bridge0Act.lean ====
import proofs.«157081_j85761906966880_1_alg».proof.Proof.RefApply0
import proofs.«157081_j85761906966880_1_alg».proof.Proof.LibBridgeStages
import proofs.«157081_j85761906966880_1_alg».proof.Proof.LibConsts
import Idealize.ShloMosaic.Lib.ValueIdx
import Idealize.ShloMosaic.PureOps.Ideal.Laws
import Mathlib.Tactic.NormNum
import Mathlib.Tactic.DefEqTransformations

open scoped BigOperators

noncomputable section

namespace Cert.Bridge

open Idealize.ShloMosaic Idealize.ShloMosaic.ValueIdx
open Cert.ReferenceIdeal Cert.ReferenceIdeal.Hand

variable [Cert.ReferenceIdeal.Facts]

-- Both spellings of the channel's variance are one non-negative real, so the folded affine map is the reference's.
theorem act0_eq (h : FVec Ideal S8192x16x128 .f32) (gamma beta : FVec Ideal S128 .f32)
    (hh : ∀ i, ∃ r : ℝ, h i = (r : EReal)) (hgamma : ∀ i, ∃ r : ℝ, gamma i = (r : EReal))
    (hbeta : ∀ i, ∃ r : ℝ, beta i = (r : EReal))
    (H : S8192x16x128.Idx → EReal) (Mn Vr Gm Bt : S1x1x128.Idx → EReal)
    (hH : H = h)
    (hMn : ∀ b : Fin 128, Mn (ix3 0 0 b)
      = Ideal.div (∑ p : Fin 8192, ∑ j : Fin 16, h (ix3 p j b)) ((131072 : ℝ) : EReal))
    (hVr : ∀ b : Fin 128, Vr (ix3 0 0 b)
      = Ideal.div (∑ p : Fin 8192, ∑ j : Fin 16, h (ix3 p j b) * h (ix3 p j b)) ((131072 : ℝ) : EReal)
        - Ideal.div (∑ p : Fin 8192, ∑ j : Fin 16, h (ix3 p j b)) ((131072 : ℝ) : EReal)
          * Ideal.div (∑ p : Fin 8192, ∑ j : Fin 16, h (ix3 p j b)) ((131072 : ℝ) : EReal))
    (hGm : ∀ b : Fin 128, Gm (ix3 0 0 b) = gamma (ix1 b))
    (hBt : ∀ b : Fin 128, Bt (ix3 0 0 b) = beta (ix1 b))
    (a : Fin 8192) (j : Fin 16) (b : Fin 128) :
    max (H (ix3 a j b) * (Gm (ix3 0 0 b) * Ideal.rsqrt (Vr (ix3 0 0 b) + Ideal.ofBits .f32 0x3727C5AC#32))
          + (Bt (ix3 0 0 b) - Mn (ix3 0 0 b) * (Gm (ix3 0 0 b) * Ideal.rsqrt (Vr (ix3 0 0 b) + Ideal.ofBits .f32 0x3727C5AC#32))))
        (Ideal.ofBits .f32 0x00000000#32)
      = r_bn_0 h gamma beta (ix3 a j b) := by
  obtain ⟨ε, hε, he⟩ := Cert.Lib.ofBits_f32_eps_pos
  obtain ⟨v, hv, hk, hr⟩ := Cert.Lib.stats_var_real (M := 8192) (N := 16) (fun m n => h (ix3 m n b)) (fun _ _ => hh _)
    131072 (by norm_num) (by norm_num)
  rw [r_bn_0_eq, r_act_0_apply, r_var_0_apply, r_mean_0_apply, hH, hMn b, hVr b, hGm b, hBt b,
    Ideal.ofBits_zero_f32, he, hk, hr]
  exact Cert.Lib.act_bridge (hh _) (Cert.Lib.stats_mean_real _ (fun _ _ => hh _) _ (by norm_num)) (hgamma _) (hbeta _)
    rfl hv hε

end Cert.Bridge

end
-- ==== Proof.Bridge0R1.lean ====
import proofs.«157081_j85761906966880_1_alg».proof.Proof.KiVal1
import proofs.«157081_j85761906966880_1_alg».proof.Proof.Bridge0Act
import proofs.«157081_j85761906966880_1_alg».proof.Proof.RefApply0
import Idealize.ShloMosaic.Lib.ValueIdx
open scoped BigOperators
noncomputable section

namespace Cert.Bridge

open Cert.KernelIdeal Cert.KernelIdeal.Hand Cert.KernelIdeal.HandVal
open Idealize.ShloMosaic Idealize.ShloMosaic.TcCoe
open Idealize.ShloMosaic.ValueIdx
open Cert.ReferenceIdeal.Hand

variable [Cert.ReferenceIdeal.Facts]
variable (V : (c : Dev nD) → (b : Ref sig .tc) → Buf (Elt Ideal) ((c : Thread nD τ).loc b))
  (c : Dev nD) (h : FVec Ideal S8192x16x128 .f32) (gamma beta : FVec Ideal S128 .f32)
  (hh : ∀ i, ∃ r : ℝ, h i = (r : EReal)) (hgamma : ∀ i, ∃ r : ℝ, gamma i = (r : EReal))
  (hbeta : ∀ i, ∃ r : ℝ, beta i = (r : EReal))
  (hH : V c main_v55_0 = h)
  (hMn : ∀ k : Fin 128, V c main_v62 (ix3 0 0 k)
    = Ideal.div (∑ p : Fin 8192, ∑ j : Fin 16, h (ix3 p j k)) ((131072 : ℝ) : EReal))
  (hVr : ∀ k : Fin 128, V c main_v63 (ix3 0 0 k)
    = Ideal.div (∑ p : Fin 8192, ∑ j : Fin 16, h (ix3 p j k) * h (ix3 p j k)) ((131072 : ℝ) : EReal)
      - Ideal.div (∑ p : Fin 8192, ∑ j : Fin 16, h (ix3 p j k)) ((131072 : ℝ) : EReal)
        * Ideal.div (∑ p : Fin 8192, ∑ j : Fin 16, h (ix3 p j k)) ((131072 : ℝ) : EReal))
  (hGm : ∀ k : Fin 128, V c main_v64 (ix3 0 0 k) = gamma (ix1 k))
  (hBt : ∀ k : Fin 128, V c main_v65 (ix3 0 0 k) = beta (ix1 k))
  (w : FVec Ideal S128x128 .f32)
  (hW : ∀ (k ch : Fin 128), V c main_v54 (ix2 k ch) = w (ix2 ch k))
include hh hgamma hbeta hH hMn hVr hGm hBt hW

-- Each term of the contraction is the reference's activation times the same weight entry.
theorem r1_conv_eq (r : Fin 8192) (n : Fin 16) (ch : Fin 128) :
    conv1 V c r n ch = r_h2_0 (r_bn_0 h gamma beta) w (ix3 r n ch) := by
  rw [r_h2_0_apply]
  exact Finset.sum_congr rfl fun k _ => congrArg₂ _
    (act0_eq h gamma beta hh hgamma hbeta _ _ _ _ _ hH hMn hVr hGm hBt r n k) (hW k ch)

theorem bridge0_r1_h (r : Fin 8192) (n : Fin 16) (ch : Fin 128) :
    (dat1 (F := Ideal) V c).arrAt 6 cfg1.N (ix3 r n ch) = r_h2_0 (r_bn_0 h gamma beta) w (ix3 r n ch) :=
  (val1_6 V c r n ch).trans (r1_conv_eq V c h gamma beta hh hgamma hbeta hH hMn hVr hGm hBt w hW r n ch)

theorem bridge0_r1_sum (ch : Fin 128) :
    (dat1 (F := Ideal) V c).arrAt 7 cfg1.N (ix2 0 ch)
      = ∑ r : Fin 8192, ∑ n : Fin 16, r_h2_0 (r_bn_0 h gamma beta) w (ix3 r n ch) := by
  rw [val1_7]; simp only [r1_conv_eq V c h gamma beta hh hgamma hbeta hH hMn hVr hGm hBt w hW]

theorem bridge0_r1_sumsq (ch : Fin 128) :
    (dat1 (F := Ideal) V c).arrAt 8 cfg1.N (ix2 0 ch)
      = ∑ r : Fin 8192, ∑ n : Fin 16,
          r_h2_0 (r_bn_0 h gamma beta) w (ix3 r n ch) * r_h2_0 (r_bn_0 h gamma beta) w (ix3 r n ch) := by
  rw [val1_8]; simp only [r1_conv_eq V c h gamma beta hh hgamma hbeta hH hMn hVr hGm hBt w hW]

end Cert.Bridge

end
-- ==== Proof.KiVal2.lean ====
import proofs.«157081_j85761906966880_1_alg».proof.Proof.KiR2
import Idealize.ShloMosaic.Lib.ValueLayout
import Idealize.ShloMosaic.PureOps.Ideal.Laws
noncomputable section
namespace Cert.KernelIdeal.HandVal
open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

def nestMax2 : (n : Nat) → (Fin (n + 1) → EReal) → EReal
  | 0, f => f 0
  | n + 1, f => max (nestMax2 n fun k => f k.castSucc) (f (Fin.last (n + 1)))

-- The supremum of a family is the supremum of all but its last member, joined with the last.
theorem sup_eq_nestMax2 : ∀ (n : Nat) (f : Fin (n + 1) → EReal), Finset.univ.sup f = nestMax2 n f
  | 0, f => by show (Finset.univ : Finset (Fin 1)).sup f = f 0; rw [Finset.univ_unique, Finset.sup_singleton]; rfl
  | n + 1, f => by
    rw [Fin.univ_castSuccEmb, Finset.sup_cons, Finset.sup_map, sup_comm, sup_eq_nestMax2 n]; rfl

theorem rsqrt_apply2 {s : Shape} {φ : FTy} (a : FVec Ideal s φ) (i : s.Idx) : rsqrt a i = Ideal.rsqrt (a i) := rfl

theorem bcast2 {α : Type} {n0 n1 : Nat} (x : S1x1x128.Idx → α) (h : S1x1x128.Broadcasts ⟨3, ![n0, n1, 128]⟩)
    (r : Fin n0) (j : Fin n1) (b : Fin 128) : broadcastTo ⟨3, ![n0, n1, 128]⟩ x h (ix3 r j b) = x (ix3 0 0 b) :=
  broadcastTo_apply x h (ix3 r j b) (ix3 0 0 b) fun a => match a with | ⟨0, _⟩ => rfl | ⟨1, _⟩ => rfl | ⟨2, _⟩ => rfl

-- Dropping the unit neighbour axis keeps an element's position in the row-major order.
theorem cast2 {α : Type} {n0 : Nat} (x : (⟨3, ![n0, 1, 128]⟩ : Shape).Idx → α)
    (h : (⟨3, ![n0, 1, 128]⟩ : Shape).ShapeCasts ⟨2, ![n0, 128]⟩) (r : Fin n0) (b : Fin 128) :
    shapeCast ⟨2, ![n0, 128]⟩ x h (ix2 r b) = x (ix3 r 0 b) :=
  shapeCast_apply x h (ix2 r b) (ix3 r 0 b) (by
    rw [Shape.rowMajor_val_three, Shape.rowMajor_val_two]
    show (r.val * 1 + 0) * 128 + b.val = r.val * 128 + b.val
    omega)

theorem hz2_2 : (![0, 0] : Fin 2 → Nat) = fun _ => 0 := funext fun a => by fin_cases a <;> rfl
theorem hz2_3 : (![0, 0, 0] : Fin 3 → Nat) = fun _ => 0 := funext fun a => by fin_cases a <;> rfl

def scaleOf2 (Vr Gm : S1x1x128.Idx → EReal) (b : Fin 128) : EReal :=
  Gm (ix3 0 0 b) * Ideal.rsqrt (Vr (ix3 0 0 b) + Ideal.ofBits .f32 0x3727C5AC#32)

def shiftOf2 (Mn Vr Gm Bt : S1x1x128.Idx → EReal) (b : Fin 128) : EReal :=
  Bt (ix3 0 0 b) - Mn (ix3 0 0 b) * scaleOf2 Vr Gm b

def actOf2 (H : S8192x16x128.Idx → EReal) (Mn Vr Gm Bt : S1x1x128.Idx → EReal) (a : Fin 8192) (j : Fin 16) (b : Fin 128) : EReal :=
  max (H (ix3 a j b) * scaleOf2 Vr Gm b + shiftOf2 Mn Vr Gm Bt b) (Ideal.ofBits .f32 0x00000000#32)

def G2_5 (H : S8192x16x128.Idx → EReal) (Mn Vr Gm Bt : S1x1x128.Idx → EReal) : S8192x128.Idx → EReal :=
  fun i => Finset.univ.sup fun j : Fin 16 => actOf2 H Mn Vr Gm Bt (i 0) j (i 1)

theorem G2_5_apply (H : S8192x16x128.Idx → EReal) (Mn Vr Gm Bt : S1x1x128.Idx → EReal) (a : Fin 8192) (b : Fin 128) :
    G2_5 H Mn Vr Gm Bt (ix2 a b) = Finset.univ.sup fun j : Fin 16 => actOf2 H Mn Vr Gm Bt a j b := rfl

theorem pay2_apply2 (x0 : Vec Ideal S512x16x128 .f32) (vr gm bt mn : Vec Ideal S1x1x128 .f32) (r : Fin 512) (j : Fin 16) (b : Fin 128) :
    k2_pay2 x0 vr gm bt mn (ix3 r j b)
      = max (x0 (ix3 r j b) * scaleOf2 vr gm b + shiftOf2 mn vr gm bt b) (Ideal.ofBits .f32 0x00000000#32) := by
  unfold k2_pay2
  simp only [shapeCast_self, maximumf_apply, addf_apply, mulf_apply, subf_apply, bcast2, rsqrt_apply2, broadcast_apply]
  rfl

-- A maximum taken one neighbour at a time, from neighbour 0 on, is the supremum over the neighbours.
theorem out2_5_apply (x0 : Vec Ideal S512x16x128 .f32) (x1 x2 x3 x4 : Vec Ideal S1x1x128 .f32) (r : Fin 512) (b : Fin 128) :
    out2_5 x0 x1 x2 x3 x4 (ix2 r b)
      = Finset.univ.sup fun j : Fin 16 => max (x0 (ix3 r j b) * scaleOf2 x2 x3 b + shiftOf2 x1 x2 x3 x4 b) (Ideal.ofBits .f32 0x00000000#32) := by
  unfold out2_5 k2_pay1 k2_pay3
  rw [View.canon_unit_zero hz2_2]
  simp only [View.ld_unit_zero (S := S512x16x128) hz2_3, View.ld_unit_zero (S := S1x1x128) hz2_3, maximumf_apply, cast2,
    slice3_axis1_eq, pay2_apply2]
  rw [sup_eq_nestMax2 15]
  rfl

theorem idx_facts2 : ∀ t : Fin cfg2.N,
    win2_0.index t (0 : Fin 3) = win2_5.index t (0 : Fin 2) ∧ win2_0.index t (1 : Fin 3) = 0 ∧ win2_0.index t (2 : Fin 3) = 0
    ∧ win2_5.index t (1 : Fin 2) = 0
    ∧ (∀ a : Fin 3, win2_1.index t a = 0) ∧ (∀ a : Fin 3, win2_2.index t a = 0)
    ∧ (∀ a : Fin 3, win2_3.index t a = 0) ∧ (∀ a : Fin 3, win2_4.index t a = 0) :=
  (by decide +kernel : ∀ t : Fin grid2.N, _)

theorem idx_onto2 : ∀ q0 : Fin 16, ∃ t : Fin cfg2.N, win2_5.index t = ![q0.val, 0] :=
  (by decide +kernel : ∀ q0 : Fin 16, ∃ t : Fin grid2.N, win2_5.index t = ![q0.val, 0])

variable (V : (c : Dev nD) → (b : Ref sig .tc) → Buf (Elt Ideal) ((c : Thread nD τ).loc b))

theorem iblk2_0_apply (c : Dev nD) (t : Fin cfg2.N) (r : Fin 512) (k : Fin 16) (b : Fin 128) :
    iblk2 V c 0 t (ix3 r k b)
      = V c main_v66_0 (ix3 ((((cfg2.win 5).blk t).view.emb (ix2 r b) : S8192x128.Idx) 0) k b) := by
  obtain ⟨e0, e1, e2, -⟩ := idx_facts2 t
  refine congrArg (V c main_v66_0) (funext fun a => Fin.ext ?_)
  match a with
  | ⟨0, _⟩ => show win2_0.index t (0 : Fin 3) * 512 + 1 * r.val = win2_5.index t (0 : Fin 2) * 512 + 1 * r.val; rw [e0]
  | ⟨1, _⟩ => show win2_0.index t (1 : Fin 3) * 16 + 1 * k.val = k.val; rw [e1]; omega
  | ⟨2, _⟩ => show win2_0.index t (2 : Fin 3) * 128 + 1 * b.val = b.val; rw [e2]; omega

theorem iblk2_1 (c : Dev nD) (t : Fin cfg2.N) : iblk2 V c 1 t = V c main_v73 :=
  funext fun y => congrArg (V c main_v73) (funext fun a => Fin.ext (win2_1.rect_emb_val_of_index_zero t a ((idx_facts2 t).2.2.2.2.1 a) y))
theorem iblk2_2 (c : Dev nD) (t : Fin cfg2.N) : iblk2 V c 2 t = V c main_v74 :=
  funext fun y => congrArg (V c main_v74) (funext fun a => Fin.ext (win2_2.rect_emb_val_of_index_zero t a ((idx_facts2 t).2.2.2.2.2.1 a) y))
theorem iblk2_3 (c : Dev nD) (t : Fin cfg2.N) : iblk2 V c 3 t = V c main_v75 :=
  funext fun y => congrArg (V c main_v75) (funext fun a => Fin.ext (win2_3.rect_emb_val_of_index_zero t a ((idx_facts2 t).2.2.2.2.2.2.1 a) y))
theorem iblk2_4 (c : Dev nD) (t : Fin cfg2.N) : iblk2 V c 4 t = V c main_v76 :=
  funext fun y => congrArg (V c main_v76) (funext fun a => Fin.ext (win2_4.rect_emb_val_of_index_zero t a ((idx_facts2 t).2.2.2.2.2.2.2 a) y))

theorem emb2 (t : Fin cfg2.N) (r : Fin 512) (b : Fin 128) :
    (((cfg2.win 5).blk t).view.emb (ix2 r b) : S8192x128.Idx) = ix2 (n0 := 8192) ((((cfg2.win 5).blk t).view.emb (ix2 r b) : S8192x128.Idx) 0) b :=
  (eq_ix2 _).trans (congrArg (ix2 (n0 := 8192) _) (Fin.ext (by
    show win2_5.index t (1 : Fin 2) * 128 + 1 * b.val = b.val
    rw [(idx_facts2 t).2.2.2.1]; omega)))

theorem flushed2_5_eq (c : Dev nD) (t : Fin cfg2.N) :
    (dat2 (F := Ideal) V c).flushed 5 t
      = ((cfg2.win 5).blk t).view.read (Elt Ideal) (G2_5 (V c main_v66_0) (V c main_v73) (V c main_v74) (V c main_v75) (V c main_v76)) := by
  show (cfg2.win 5).cut (grid2.coords t) ((dat2 V c).after 5 t) = _
  rw [after2_5, iblk2_1, iblk2_2, iblk2_3, iblk2_4]
  funext y
  obtain ⟨r, b, rfl⟩ : ∃ r b, y = ix2 r b := ⟨y 0, y 1, eq_ix2 y⟩
  refine (out2_5_apply _ _ _ _ _ r b).trans ?_
  rw [View.read_apply, emb2 t r b]
  simp only [iblk2_0_apply V c t r _ b]
  rfl

theorem covered2_5 (i : S8192x128.Idx) :
    ∃ t : Fin cfg2.N, (cfg2.win 5).flush t = true ∧ i ∈ ((cfg2.win 5).blk t).view.set := by
  have hi0 : (i 0).val < 8192 := (i 0).isLt
  have hi1 : (i 1).val < 128 := (i 1).isLt
  obtain ⟨t, ht⟩ := idx_onto2 ⟨(i 0).val / 512, by omega⟩
  have q0 : win2_5.index t (0 : Fin 2) = (i 0).val / 512 := congrFun ht 0
  have q1 : win2_5.index t (1 : Fin 2) = 0 := congrFun ht 1
  refine ⟨t, flush2_5 t, ?_⟩
  show i ∈ ((View.whole main_v77).slice (win2_5.rect t)).set
  rw [View.set_slice_whole, Rect.mem_set_unit]
  intro a
  match a with
  | ⟨0, _⟩ => show win2_5.index t (0 : Fin 2) * 512 ≤ (i 0).val ∧ (i 0).val < win2_5.index t (0 : Fin 2) * 512 + 512; omega
  | ⟨1, _⟩ => show win2_5.index t (1 : Fin 2) * 128 ≤ (i 1).val ∧ (i 1).val < win2_5.index t (1 : Fin 2) * 128 + 128; omega

theorem val2_5 (c : Dev nD) :
    (dat2 (F := Ideal) V c).arrAt 5 cfg2.N
      = G2_5 (V c main_v66_0) (V c main_v73) (V c main_v74) (V c main_v75) (V c main_v76) :=
  (dat2 V c).arrAt_eq_of_cover 5 _ (fun t _ => flushed2_5_eq V c t) (covered2_5)

end Cert.KernelIdeal.HandVal
end
-- ==== Proof.Bridge0R2.lean ====
import proofs.«157081_j85761906966880_1_alg».proof.Proof.KiVal2
import proofs.«157081_j85761906966880_1_alg».proof.Proof.Bridge0Act
import proofs.«157081_j85761906966880_1_alg».proof.Proof.RefApply0
import Idealize.ShloMosaic.Lib.ValueIdx
open scoped BigOperators
noncomputable section

namespace Cert.Bridge

open Cert.KernelIdeal Cert.KernelIdeal.Hand Cert.KernelIdeal.HandVal
open Idealize.ShloMosaic Idealize.ShloMosaic.TcCoe
open Idealize.ShloMosaic.ValueIdx
open Cert.ReferenceIdeal.Hand

variable [Cert.ReferenceIdeal.Facts]
variable (V : (c : Dev nD) → (b : Ref sig .tc) → Buf (Elt Ideal) ((c : Thread nD τ).loc b))

-- Neighbour by neighbour the pooled entries are the reference's activations, so their suprema agree.
theorem bridge0_r2 (c : Dev nD) (h : FVec Ideal S8192x16x128 .f32) (gamma beta : FVec Ideal S128 .f32)
    (hh : ∀ i, ∃ r : ℝ, h i = (r : EReal)) (hgamma : ∀ i, ∃ r : ℝ, gamma i = (r : EReal))
    (hbeta : ∀ i, ∃ r : ℝ, beta i = (r : EReal))
    (hH : V c main_v66_0 = h)
    (hMn : ∀ b : Fin 128, V c main_v73 (ix3 0 0 b)
      = Ideal.div (∑ p : Fin 8192, ∑ j : Fin 16, h (ix3 p j b)) ((131072 : ℝ) : EReal))
    (hVr : ∀ b : Fin 128, V c main_v74 (ix3 0 0 b)
      = Ideal.div (∑ p : Fin 8192, ∑ j : Fin 16, h (ix3 p j b) * h (ix3 p j b)) ((131072 : ℝ) : EReal)
        - Ideal.div (∑ p : Fin 8192, ∑ j : Fin 16, h (ix3 p j b)) ((131072 : ℝ) : EReal)
          * Ideal.div (∑ p : Fin 8192, ∑ j : Fin 16, h (ix3 p j b)) ((131072 : ℝ) : EReal))
    (hGm : ∀ b : Fin 128, V c main_v75 (ix3 0 0 b) = gamma (ix1 b))
    (hBt : ∀ b : Fin 128, V c main_v76 (ix3 0 0 b) = beta (ix1 b))
    (a : Fin 8192) (b : Fin 128) :
    (dat2 (F := Ideal) V c).arrAt 5 cfg2.N (ix2 a b) = r_out_0 (r_bn_0 h gamma beta) (ix2 a b) := by
  rw [val2_5, G2_5_apply, r_out_0_apply, Cert.Lib.ofBits_neg_inf_f32, Cert.Lib.fold_max_eq_sup]
  exact congrArg _ (funext fun j => act0_eq h gamma beta hh hgamma hbeta _ _ _ _ _ hH hMn hVr hGm hBt a j b)

end Cert.Bridge

end
-- ==== Proof.RefApply1.lean ====
import proofs.«157081_j85761906966880_1_alg».proof.Proof.RefStages1
import proofs.«157081_j85761906966880_1_alg».proof.Proof.RefIdx

open scoped BigOperators

noncomputable section

namespace Cert.ReferenceIdeal.Hand

open Idealize.ShloMosaic Idealize.ShloMosaic.ValueIdx
open Cert.ReferenceIdeal Cert.ReferenceIdeal.Facts₀ Cert.ReferenceIdeal.Facts

variable [Facts]

theorem r_cnt_1 : Ideal.ofBits .f32 0x48800000#32 = ((262144 : ℝ) : EReal) := by
  simp [Ideal.ofBits, Ideal.ieee, -EReal.coe_mul]; norm_num

theorem r_h1_1_apply (g : FVec Ideal S8192x32x67 .f32) (w : FVec Ideal S128x67 .f32) (m : Fin 8192) (n : Fin 32) (o : Fin 128) :
    r_h1_1 g w (ix3 m n o) = ∑ c : Fin 67, g (ix3 m n c) * w (ix2 o c) :=
  dot_mnc_oc_apply _ none g w m n o

theorem r_h2_1_apply (a : FVec Ideal S8192x32x128 .f32) (w : FVec Ideal S128x128 .f32) (m : Fin 8192) (n : Fin 32) (o : Fin 128) :
    r_h2_1 a w (ix3 m n o) = ∑ c : Fin 128, a (ix3 m n c) * w (ix2 o c) :=
  dot_mnc_oc_apply _ none a w m n o

theorem r_mean_1_apply (h : FVec Ideal S8192x32x128 .f32) (o : Fin 128) :
    r_mean_1 h (ix1 o) = Ideal.div (∑ m : Fin 8192, ∑ n : Fin 32, h (ix3 m n o)) ((262144 : ℝ) : EReal) := by
  rw [r_mean_1, hostDivf_apply, hostReduceAdd_01_apply, broadcastInDim_scalar_apply, constant_apply, r_cnt_1]

theorem r_var_1_apply (h : FVec Ideal S8192x32x128 .f32) (o : Fin 128) :
    r_var_1 h (ix1 o)
      = Ideal.div (∑ m : Fin 8192, ∑ n : Fin 32,
          (h (ix3 m n o) - r_mean_1 h (ix1 o)) * (h (ix3 m n o) - r_mean_1 h (ix1 o))) ((262144 : ℝ) : EReal) := by
  obtain ⟨hg, hd⟩ := ddof_guard 0x48800000#32 262144 (by norm_num) r_cnt_1
  show select _ _ _ (ix1 o) = _
  rw [select_apply, broadcastInDim_scalar_apply, hg, select_one, hostDivf_apply, broadcastInDim_scalar_apply, hd,
    hostReduceAdd_01_apply]
  refine congrArg (fun s => Ideal.div s ((262144 : ℝ) : EReal)) ?_
  refine Finset.sum_congr rfl fun m _ => Finset.sum_congr rfl fun n _ => ?_
  rw [mulf_apply, subf_apply, bcast_111_apply, hostDivf_apply, bcast_2_apply, broadcastInDim_scalar_apply]
  rfl

theorem r_act_1_apply (h : FVec Ideal S8192x32x128 .f32) (mean var gamma beta : FVec Ideal S128 .f32)
    (m : Fin 8192) (n : Fin 32) (o : Fin 128) :
    r_act_1 h mean var gamma beta (ix3 m n o)
      = max ((h (ix3 m n o) - mean (ix1 o)) * Ideal.rsqrt (var (ix1 o) + Ideal.ofBits .f32 0x3727C5AC#32) * gamma (ix1 o)
          + beta (ix1 o)) 0 := by
  show maximumf _ _ (ix3 m n o) = _
  rw [maximumf_apply, addf_apply, mulf_apply, mulf_apply, subf_apply, bcast_chan_apply, bcast_chan_apply, bcast_chan_apply,
    bcast_chan_apply, broadcastInDim_scalar_apply, constant_apply, Ideal.ofBits_zero_f32]
  rfl

theorem r_out_1_apply (a : FVec Ideal S8192x32x128 .f32) (m : Fin 8192) (o : Fin 128) :
    r_out_1 a (ix2 m o)
      = (Finset.univ : Finset (Fin 32)).fold max (Ideal.ofBits .f32 0xFF800000#32) (fun n => a (ix3 m n o)) :=
  hostReduce_max_1_apply _ (by decide) _ a _ m o

theorem r_bn_1_eq (h : FVec Ideal S8192x32x128 .f32) (gamma beta : FVec Ideal S128 .f32) :
    r_bn_1 h gamma beta = r_act_1 h (r_mean_1 h) (r_var_1 h) gamma beta := rfl

theorem r_tail_1_eq (g : FVec Ideal S8192x32x67 .f32) (w0 : FVec Ideal S128x67 .f32) (g0 b0 : FVec Ideal S128 .f32)
    (w1 : FVec Ideal S128x128 .f32) (g1 b1 : FVec Ideal S128 .f32) :
    r_tail_1 g w0 g0 b0 w1 g1 b1 = r_out_1 (r_bn_1 (r_h2_1 (r_bn_1 (r_h1_1 g w0) g0 b0) w1) g1 b1) := rfl

end Cert.ReferenceIdeal.Hand

end
-- ==== Proof.RefFinite.lean ====
import proofs.«157081_j85761906966880_1_alg».proof.Proof.RefApply0
import proofs.«157081_j85761906966880_1_alg».proof.Proof.RefApply1
import proofs.«157081_j85761906966880_1_alg».proof.Proof.LibBridgeStages
import proofs.«157081_j85761906966880_1_alg».proof.Proof.LibConsts

open scoped BigOperators

noncomputable section

namespace Cert.ReferenceIdeal.Hand

open Idealize.ShloMosaic Idealize.ShloMosaic.ValueIdx
open Cert.ReferenceIdeal Cert.ReferenceIdeal.Facts₀ Cert.ReferenceIdeal.Facts Cert.Lib

-- every rank-3 index is a triple of coordinates
theorem forall_ix3 {n0 n1 n2 : Nat} {P : (⟨3, ![n0, n1, n2]⟩ : Shape).Idx → Prop} (h : ∀ a b c, P (ix3 a b c)) :
    ∀ i, P i := fun i => eq_ix3 i ▸ h _ _ _

variable [Facts]

theorem r_h1_0_finite (g : FVec Ideal S8192x16x67 .f32) (w : FVec Ideal S128x67 .f32)
    (hg : ∀ i, ∃ r : ℝ, g i = (r : EReal)) (hw : ∀ i, ∃ r : ℝ, w i = (r : EReal)) :
    ∀ i, ∃ r : ℝ, r_h1_0 g w i = (r : EReal) := forall_ix3 fun m n o => by
  rw [r_h1_0_apply]
  exact conv_real _ _ (fun _ => hg _) (fun _ => hw _)

theorem r_h2_0_finite (a : FVec Ideal S8192x16x128 .f32) (w : FVec Ideal S128x128 .f32)
    (ha : ∀ i, ∃ r : ℝ, a i = (r : EReal)) (hw : ∀ i, ∃ r : ℝ, w i = (r : EReal)) :
    ∀ i, ∃ r : ℝ, r_h2_0 a w i = (r : EReal) := forall_ix3 fun m n o => by
  rw [r_h2_0_apply]
  exact conv_real _ _ (fun _ => ha _) (fun _ => hw _)

-- the variance of real entries is a non-negative real, so the reciprocal square root of it plus the positive ε is real
theorem r_bn_0_finite (h : FVec Ideal S8192x16x128 .f32) (gamma beta : FVec Ideal S128 .f32)
    (hh : ∀ i, ∃ r : ℝ, h i = (r : EReal)) (hgamma : ∀ i, ∃ r : ℝ, gamma i = (r : EReal))
    (hbeta : ∀ i, ∃ r : ℝ, beta i = (r : EReal)) :
    ∀ i, ∃ r : ℝ, r_bn_0 h gamma beta i = (r : EReal) := forall_ix3 fun m n o => by
  obtain ⟨ε, hε, he⟩ := ofBits_f32_eps_pos
  obtain ⟨v, hv, -, h2⟩ := stats_var_real (fun m n => h (ix3 m n o)) (fun _ _ => hh _) 131072
    (by norm_num) (by norm_num)
  rw [r_bn_0_eq, r_act_0_apply, r_var_0_apply, r_mean_0_apply, he]
  exact act_ref_real (hh _) (stats_mean_real _ (fun _ _ => hh _) _ (by norm_num)) (hgamma _) (hbeta _) h2 hv hε

theorem r_h1_1_finite (g : FVec Ideal S8192x32x67 .f32) (w : FVec Ideal S128x67 .f32)
    (hg : ∀ i, ∃ r : ℝ, g i = (r : EReal)) (hw : ∀ i, ∃ r : ℝ, w i = (r : EReal)) :
    ∀ i, ∃ r : ℝ, r_h1_1 g w i = (r : EReal) := forall_ix3 fun m n o => by
  rw [r_h1_1_apply]
  exact conv_real _ _ (fun _ => hg _) (fun _ => hw _)

theorem r_h2_1_finite (a : FVec Ideal S8192x32x128 .f32) (w : FVec Ideal S128x128 .f32)
    (ha : ∀ i, ∃ r : ℝ, a i = (r : EReal)) (hw : ∀ i, ∃ r : ℝ, w i = (r : EReal)) :
    ∀ i, ∃ r : ℝ, r_h2_1 a w i = (r : EReal) := forall_ix3 fun m n o => by
  rw [r_h2_1_apply]
  exact conv_real _ _ (fun _ => ha _) (fun _ => hw _)

theorem r_bn_1_finite (h : FVec Ideal S8192x32x128 .f32) (gamma beta : FVec Ideal S128 .f32)
    (hh : ∀ i, ∃ r : ℝ, h i = (r : EReal)) (hgamma : ∀ i, ∃ r : ℝ, gamma i = (r : EReal))
    (hbeta : ∀ i, ∃ r : ℝ, beta i = (r : EReal)) :
    ∀ i, ∃ r : ℝ, r_bn_1 h gamma beta i = (r : EReal) := forall_ix3 fun m n o => by
  obtain ⟨ε, hε, he⟩ := ofBits_f32_eps_pos
  obtain ⟨v, hv, -, h2⟩ := stats_var_real (fun m n => h (ix3 m n o)) (fun _ _ => hh _) 262144
    (by norm_num) (by norm_num)
  rw [r_bn_1_eq, r_act_1_apply, r_var_1_apply, r_mean_1_apply, he]
  exact act_ref_real (hh _) (stats_mean_real _ (fun _ _ => hh _) _ (by norm_num)) (hgamma _) (hbeta _) h2 hv hε

end Cert.ReferenceIdeal.Hand

end
-- ==== Proof.RefGFinite.lean ====
import proofs.«157081_j85761906966880_1_alg».proof.Proof.RefStages0
import proofs.«157081_j85761906966880_1_alg».proof.Proof.RefStages1
import Idealize.ShloMosaic.PureOps.Ideal.Laws

noncomputable section

namespace Cert.ReferenceIdeal.Hand

open Idealize.ShloMosaic
open Cert.ReferenceIdeal Cert.ReferenceIdeal.Facts₀ Cert.ReferenceIdeal.Facts

section Entries

variable {s t : Shape}

-- every entry is a real number
def AllReal (x : s.Idx → EReal) : Prop := ∀ k, ∃ r : ℝ, x k = (r : EReal)

theorem real_shapeCast {x : s.Idx → EReal} {h : s.ShapeCasts t} (hx : AllReal x) : AllReal (shapeCast t x h) :=
  fun _ => hx _

theorem real_broadcastInDim {dims : Fin s.rank → Fin t.rank} {h : s.BroadcastsInDim t dims} {x : s.Idx → EReal}
    (hx : AllReal x) : AllReal (broadcastInDim t dims h x) := fun _ => hx _

theorem real_gather {si : Shape} {w : Nat} {d : GatherDims s si t} {x : s.Idx → EReal} {idx : IVec si w}
    (hx : AllReal x) : AllReal (Host.gather d x idx) := fun _ => hx _

theorem real_select {c : IVec s 1} {a b : s.Idx → EReal} (ha : AllReal a) (hb : AllReal b) :
    AllReal (select c a b) := fun j => by
  show ∃ r : ℝ, (if c j = 1 then a j else b j) = (r : EReal)
  split
  exacts [ha j, hb j]

theorem real_subf {a b : FVec Ideal s .f32} (ha : AllReal a) (hb : AllReal b) : AllReal (subf a b) := fun j => by
  obtain ⟨p, hp⟩ := ha j
  obtain ⟨q, hq⟩ := hb j
  exact ⟨p - q, by show a j - b j = _; rw [hp, hq, EReal.coe_sub]⟩

theorem real_concatenate {a : Fin t.rank} {xs : List ((s : Shape) × (s.Idx → EReal))}
    {h : Shape.Concatenates (xs.map (·.1)) t a} (hx : ∀ p ∈ xs, AllReal p.2) : AllReal (concatenate t a xs h) :=
  fun _ => by
    unfold concatenate
    exact hx _ (List.getElem_mem _) _

theorem real_zero : AllReal (constant (F := Ideal) S_ .f32 0x00000000#32) := fun _ => ⟨0, Ideal.ofBits_zero_f32⟩

end Entries

variable [Facts] (xyz : FVec Ideal S32768x3 .f32) (feat : FVec Ideal S32768x64 .f32) (nw : FVec Ideal S8192x3 .f32)
    (hx : ∀ i, ∃ r : ℝ, xyz i = (r : EReal)) (hf : ∀ i, ∃ r : ℝ, feat i = (r : EReal))
    (hn : ∀ i, ∃ r : ℝ, nw i = (r : EReal))
include hx hf hn

-- a grouped input is a reshape of a select between zero and gathered entries, which only re-read real entries
theorem r_g0_finite : ∀ i, ∃ r : ℝ, r_g0 (F := Ideal) xyz feat nw i = (r : EReal) := by
  dsimp only [r_g0, r_group_0]
  refine real_shapeCast (real_select (real_broadcastInDim real_zero) (real_concatenate fun p hp => ?_))
  rcases List.mem_pair.1 hp with rfl | rfl
  exacts [real_subf (real_gather (real_shapeCast hx)) (real_broadcastInDim (real_broadcastInDim (real_shapeCast hn))),
    real_gather (real_shapeCast hf)]

theorem r_g1_finite : ∀ i, ∃ r : ℝ, r_g1 (F := Ideal) xyz feat nw i = (r : EReal) := by
  dsimp only [r_g1, r_group_1]
  refine real_shapeCast (real_select (real_broadcastInDim real_zero) (real_concatenate fun p hp => ?_))
  rcases List.mem_pair.1 hp with rfl | rfl
  exacts [real_subf (real_gather (real_shapeCast hx)) (real_broadcastInDim (real_broadcastInDim (real_shapeCast hn))),
    real_gather (real_shapeCast hf)]

end Cert.ReferenceIdeal.Hand

end
-- ==== Proof.PreFinite.lean ====
import proofs.«157081_j85761906966880_1_alg».proof.Pre_finite_inputs
import proofs.«157081_j85761906966880_1_alg».proof.Proof.Gen.Pre_finite_inputs
import Idealize.ShloMosaic.Lib.ReduceAll
import Idealize.ShloMosaic.Lib.ValueIdx
import Idealize.ShloMosaic.PureOps.Ideal.Laws

noncomputable section

namespace Cert.Lib.PreFinite

open Idealize.ShloMosaic Idealize.ShloMosaic.ValueIdx
open Cert.Pre_finite_inputs

theorem real_of_abs_lt_top (x : EReal)
    (h : Ideal.cmp .olt (max x (-x)) (Ideal.ofBits .f32 0x7F800000#32) = 1#1) : ∃ r : ℝ, x = (r : EReal) := by
  induction x using EReal.rec with
  | coe r => exact ⟨r, rfl⟩
  | _ => simp [Ideal.cmp, Ideal.ofBits, Ideal.ieee] at h

instance subsingleton_scalar_idx : Subsingleton (⟨0, ![]⟩ : Shape).Idx := ⟨fun a b => funext fun d => d.elim0⟩

theorem all_real {s : Shape} {axes : List (Fin s.rank)} {x : FVec Ideal s .f32} {hb} {hr : s.ReducesTo axes ⟨0, ![]⟩} {hu}
    (h : Host.reduce IntOp.andi
          (cmpf .olt (Host.absf x) (broadcastInDim s ![] hb (constant (F := Ideal) ⟨0, ![]⟩ .f32 0x7F800000#32)))
          (constantI ⟨0, ![]⟩ 1 1#1) hr hu ix0 = 1#1) (i : s.Idx) : ∃ r : ℝ, x i = (r : EReal) :=
  real_of_abs_lt_top (x i) (Host.reduce_andi_all _ _ hr hu ix0 h i)

theorem andi_one {a b : IVec S_ 1} : andi a b ix0 = 1#1 ↔ a ix0 = 1#1 ∧ b ix0 = 1#1 :=
  IntOp.andi_eq_one

structure InputsReal (x0 : FVec Ideal S32768x3 .f32) (x1 : FVec Ideal S32768x64 .f32) (x2 : FVec Ideal S8192x3 .f32)
    (x5 : FVec Ideal S128x67 .f32) (x6 x7 : FVec Ideal S128 .f32) (x8 : FVec Ideal S128x128 .f32)
    (x9 x10 : FVec Ideal S128 .f32) (x11 : FVec Ideal S128x67 .f32) (x12 x13 : FVec Ideal S128 .f32)
    (x14 : FVec Ideal S128x128 .f32) (x15 x16 : FVec Ideal S128 .f32) : Prop where
  arg0 : ∀ i, ∃ r : ℝ, x0 i = (r : EReal)
  arg1 : ∀ i, ∃ r : ℝ, x1 i = (r : EReal)
  arg2 : ∀ i, ∃ r : ℝ, x2 i = (r : EReal)
  arg5 : ∀ i, ∃ r : ℝ, x5 i = (r : EReal)
  arg6 : ∀ i, ∃ r : ℝ, x6 i = (r : EReal)
  arg7 : ∀ i, ∃ r : ℝ, x7 i = (r : EReal)
  arg8 : ∀ i, ∃ r : ℝ, x8 i = (r : EReal)
  arg9 : ∀ i, ∃ r : ℝ, x9 i = (r : EReal)
  arg10 : ∀ i, ∃ r : ℝ, x10 i = (r : EReal)
  arg11 : ∀ i, ∃ r : ℝ, x11 i = (r : EReal)
  arg12 : ∀ i, ∃ r : ℝ, x12 i = (r : EReal)
  arg13 : ∀ i, ∃ r : ℝ, x13 i = (r : EReal)
  arg14 : ∀ i, ∃ r : ℝ, x14 i = (r : EReal)
  arg15 : ∀ i, ∃ r : ℝ, x15 i = (r : EReal)
  arg16 : ∀ i, ∃ r : ℝ, x16 i = (r : EReal)

variable [Cert.Pre_finite_inputs.Facts]
open Cert.Pre_finite_inputs.Facts

theorem inputs_real (x0 : FVec Ideal S32768x3 .f32) (x1 : FVec Ideal S32768x64 .f32) (x2 : FVec Ideal S8192x3 .f32)
    (x3 x4 : IVec S4 32)
    (x5 : FVec Ideal S128x67 .f32) (x6 x7 : FVec Ideal S128 .f32) (x8 : FVec Ideal S128x128 .f32)
    (x9 x10 : FVec Ideal S128 .f32) (x11 : FVec Ideal S128x67 .f32) (x12 x13 : FVec Ideal S128 .f32)
    (x14 : FVec Ideal S128x128 .f32) (x15 x16 : FVec Ideal S128 .f32)
    (h : Cert.Pre_finite_inputs.fn (F := Ideal) x0 x1 x2 x3 x4 x5 x6 x7 x8 x9 x10 x11 x12 x13 x14 x15 x16
      = (fun _ => 1#1)) :
    InputsReal x0 x1 x2 x5 x6 x7 x8 x9 x10 x11 x12 x13 x14 x15 x16 := by
  have h0 := congrFun h ix0
  dsimp only [fn, fn_part1, fn_part2, fn_part3, fn_part4] at h0
  simp only [andi_one] at h0
  obtain ⟨⟨⟨⟨⟨⟨⟨⟨⟨⟨⟨⟨⟨⟨h0, h1⟩, h2⟩, h5⟩, h6⟩, h7⟩, h8⟩, h9⟩, h10⟩, h11⟩, h12⟩, h13⟩, h14⟩, h15⟩, h16⟩ := h0
  exact ⟨all_real h0, all_real h1, all_real h2, all_real h5, all_real h6, all_real h7, all_real h8, all_real h9,
    all_real h10, all_real h11, all_real h12, all_real h13, all_real h14, all_real h15, all_real h16⟩

end Cert.Lib.PreFinite

end
-- ==== Proof.KiChain0.lean ====
import proofs.«157081_j85761906966880_1_alg».proof.Proof.KiReg
import proofs.«157081_j85761906966880_1_alg».proof.Proof.KiHostApply
import proofs.«157081_j85761906966880_1_alg».proof.Proof.SharedChain
import proofs.«157081_j85761906966880_1_alg».proof.Proof.Bridge0R0
import proofs.«157081_j85761906966880_1_alg».proof.Proof.Bridge0R1
import proofs.«157081_j85761906966880_1_alg».proof.Proof.Bridge0R2
import proofs.«157081_j85761906966880_1_alg».proof.Proof.RefFinite
import proofs.«157081_j85761906966880_1_alg».proof.Proof.RefGFinite
import proofs.«157081_j85761906966880_1_alg».proof.Proof.PreFinite
import Idealize.ShloMosaic.Lib.ValueIdx
open scoped BigOperators
noncomputable section

namespace Cert.Bridge

open Cert.KernelIdeal Cert.KernelIdeal.Gen Cert.KernelIdeal.Hand Cert.KernelIdeal.HandVal
open Idealize.ShloMosaic Idealize.ShloMosaic.TcCoe Idealize.SL.Sem
open Idealize.ShloMosaic.Pipeline (Dat)
open Idealize.ShloMosaic.ValueIdx
open Cert.ReferenceIdeal.Hand

variable [Cert.ReferenceIdeal.Facts]
variable (m : (ℓ : Loc nD τ sig) → Buf (Elt Ideal) ℓ) (c : Dev nD)

set_option quotPrecheck false in
local notation "A0" => m ((c : Thread nD τ).loc main_arg0)
set_option quotPrecheck false in
local notation "A1" => m ((c : Thread nD τ).loc main_arg1)
set_option quotPrecheck false in
local notation "A2" => m ((c : Thread nD τ).loc main_arg2)
set_option quotPrecheck false in
local notation "Wa" => m ((c : Thread nD τ).loc main_arg5)
set_option quotPrecheck false in
local notation "Ga" => m ((c : Thread nD τ).loc main_arg6)
set_option quotPrecheck false in
local notation "Ba" => m ((c : Thread nD τ).loc main_arg7)
set_option quotPrecheck false in
local notation "Wb" => m ((c : Thread nD τ).loc main_arg8)
set_option quotPrecheck false in
local notation "Gb" => m ((c : Thread nD τ).loc main_arg9)
set_option quotPrecheck false in
local notation "Bb" => m ((c : Thread nD τ).loc main_arg10)
set_option quotPrecheck false in
local notation "G0" => r_g0 (F := Ideal) A0 A1 A2
set_option quotPrecheck false in
local notation "H1" => r_h1_0 (F := Ideal) G0 Wa
set_option quotPrecheck false in
local notation "H2" => r_h2_0 (F := Ideal) (r_bn_0 (F := Ideal) H1 Ga Ba) Wb

theorem stageA_eq (r : Ref sig .tc) : outsA m 11 r c = X11 m c (Proc.devRef .tc r) := by
  simp only [outsA, Nat.reduceEqDiff, ↓reduceIte]

theorem stageB_eq (r : Ref sig .tc) : outsB m 13 r c = X13 m c (Proc.devRef .tc r) := by
  simp only [outsB, Nat.reduceEqDiff, ↓reduceIte]

variable (I : Cert.Lib.PreFinite.InputsReal (m ((c : Thread nD τ).loc main_arg0)) (m ((c : Thread nD τ).loc main_arg1))
      (m ((c : Thread nD τ).loc main_arg2)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12))
      (m ((c : Thread nD τ).loc main_arg13)) (m ((c : Thread nD τ).loc main_arg14)) (m ((c : Thread nD τ).loc main_arg15))
      (m ((c : Thread nD τ).loc main_arg16)))
include I

theorem chain0_r0 :
    (∀ (p : Fin 8192) (j : Fin 16) (o : Fin 128),
        ((dat0 (F := Ideal) (rd (V10 m)) c).arrAt 2 cfg0.N : Vec Ideal S8192x16x128 .f32) (ix3 p j o)
          = H1 (ix3 p j o))
    ∧ (∀ o : Fin 128, ((dat0 (F := Ideal) (rd (V10 m)) c).arrAt 3 cfg0.N : Vec Ideal S1x128 .f32) (ix2 0 o)
          = ∑ p : Fin 8192, ∑ j : Fin 16, H1 (ix3 p j o))
    ∧ (∀ o : Fin 128, ((dat0 (F := Ideal) (rd (V10 m)) c).arrAt 4 cfg0.N : Vec Ideal S1x128 .f32) (ix2 0 o)
          = ∑ p : Fin 8192, ∑ j : Fin 16, H1 (ix3 p j o) * H1 (ix3 p j o)) := by
  have hg : rd (V10 m) c main_v52 = G0 := (V10_v52 m c).trans (g0_eq _ _ _)
  have hw : ∀ (k : Fin 67) (o : Fin 128),
      (rd (V10 m) c main_v53 : Vec Ideal S67x128 .f32) (ix2 k o) = (Wa : FVec Ideal S128x67 .f32) (ix2 o k) :=
    fun k o => (congrFun (V10_v53 m c) _).trans (transpose_ix2_apply _ _ k o)
  exact ⟨bridge0_r0_h (rd (V10 m)) c _ _ hg hw, bridge0_r0_sum (rd (V10 m)) c _ _ hg hw,
    bridge0_r0_sumsq (rd (V10 m)) c _ _ hg hw⟩

theorem chain0_fH1 : ∀ i, ∃ r : ℝ, H1 i = (r : EReal) :=
  r_h1_0_finite G0 Wa (r_g0_finite A0 A1 A2 I.arg0 I.arg1 I.arg2) I.arg5

theorem chain0_r1 :
    (∀ (p : Fin 8192) (j : Fin 16) (o : Fin 128),
        (dat1 (F := Ideal) (rd (V12 m (outsA m))) c).arrAt 6 cfg1.N (ix3 p j o) = H2 (ix3 p j o))
    ∧ (∀ o : Fin 128, (dat1 (F := Ideal) (rd (V12 m (outsA m))) c).arrAt 7 cfg1.N (ix2 0 o)
          = ∑ p : Fin 8192, ∑ j : Fin 16, H2 (ix3 p j o))
    ∧ (∀ o : Fin 128, (dat1 (F := Ideal) (rd (V12 m (outsA m))) c).arrAt 8 cfg1.N (ix2 0 o)
          = ∑ p : Fin 8192, ∑ j : Fin 16, H2 (ix3 p j o) * H2 (ix3 p j o)) := by
  obtain ⟨R0h, R0s, R0q⟩ := chain0_r0 m c I
  have hH : rd (V12 m (outsA m)) c main_v55_0 = H1 := by
    funext i
    obtain ⟨p, j, o, rfl⟩ : ∃ p j o, i = ix3 p j o := ⟨_, _, _, eq_ix3 i⟩
    show (V12 m (outsA m) c main_v55_0 : FVec Ideal S8192x16x128 .f32) (ix3 p j o) = _
    rw [V12_v55_0 m (outsA m) c, stageA_eq m c main_v55_0, X11_main_v55_0 m c]
    exact R0h p j o
  have hMn : ∀ k : Fin 128, rd (V12 m (outsA m)) c main_v62 (ix3 0 0 k)
      = Ideal.div (∑ p : Fin 8192, ∑ j : Fin 16, H1 (ix3 p j k)) ((131072 : ℝ) : EReal) := by
    intro k
    refine ((congrFun (V12_v62 m (outsA m) c) _).trans (k_mean_apply _ _ cnt_0 _ k)).trans ?_
    rw [stageA_eq m c main_v55_1, X11_main_v55_1 m c, R0s k]
  have hVr : ∀ k : Fin 128, rd (V12 m (outsA m)) c main_v63 (ix3 0 0 k)
      = Ideal.div (∑ p : Fin 8192, ∑ j : Fin 16, H1 (ix3 p j k) * H1 (ix3 p j k)) ((131072 : ℝ) : EReal)
        - Ideal.div (∑ p : Fin 8192, ∑ j : Fin 16, H1 (ix3 p j k)) ((131072 : ℝ) : EReal)
          * Ideal.div (∑ p : Fin 8192, ∑ j : Fin 16, H1 (ix3 p j k)) ((131072 : ℝ) : EReal) := by
    intro k
    refine ((congrFun (V12_v63 m (outsA m) c) _).trans (k_var_apply _ _ cnt_0 _ _ k)).trans ?_
    rw [stageA_eq m c main_v55_1, stageA_eq m c main_v55_2, X11_main_v55_1 m c, X11_main_v55_2 m c, R0s k, R0q k]
  have hGm : ∀ k : Fin 128, rd (V12 m (outsA m)) c main_v64 (ix3 0 0 k) = (Ga : FVec Ideal S128 .f32) (ix1 k) :=
    fun k => (congrFun (V12_v64 m (outsA m) c) _).trans (shapeCast_a_11a_apply _ _ 0 0 k)
  have hBt : ∀ k : Fin 128, rd (V12 m (outsA m)) c main_v65 (ix3 0 0 k) = (Ba : FVec Ideal S128 .f32) (ix1 k) :=
    fun k => (congrFun (V12_v65 m (outsA m) c) _).trans (shapeCast_a_11a_apply _ _ 0 0 k)
  have hW : ∀ (k ch : Fin 128), rd (V12 m (outsA m)) c main_v54 (ix2 k ch) = (Wb : FVec Ideal S128x128 .f32) (ix2 ch k) :=
    fun k ch => (congrFun (V12_v54 m (outsA m) c) _).trans (transpose_ix2_apply _ _ k ch)
  have fH := chain0_fH1 m c I
  exact ⟨bridge0_r1_h (rd (V12 m (outsA m))) c H1 Ga Ba fH I.arg6 I.arg7 hH hMn hVr hGm hBt Wb hW,
    bridge0_r1_sum (rd (V12 m (outsA m))) c H1 Ga Ba fH I.arg6 I.arg7 hH hMn hVr hGm hBt Wb hW,
    bridge0_r1_sumsq (rd (V12 m (outsA m))) c H1 Ga Ba fH I.arg6 I.arg7 hH hMn hVr hGm hBt Wb hW⟩

theorem chain0_fH2 : ∀ i, ∃ r : ℝ, H2 i = (r : EReal) :=
  r_h2_0_finite (r_bn_0 (F := Ideal) H1 Ga Ba) Wb (r_bn_0_finite H1 Ga Ba (chain0_fH1 m c I) I.arg6 I.arg7) I.arg8

theorem chain0 (a : Fin 8192) (b : Fin 128) :
    (X15 m c (Proc.devRef .tc main_v77) : FVec Ideal S8192x128 .f32) (ix2 a b)
      = r_tail_0 (F := Ideal) G0 Wa Ga Ba Wb Gb Bb (ix2 a b) := by
  obtain ⟨R1h, R1s, R1q⟩ := chain0_r1 m c I
  have hH : rd (V14 m (outsB m)) c main_v66_0 = H2 := by
    funext i
    obtain ⟨p, j, o, rfl⟩ : ∃ p j o, i = ix3 p j o := ⟨_, _, _, eq_ix3 i⟩
    show (V14 m (outsB m) c main_v66_0 : FVec Ideal S8192x16x128 .f32) (ix3 p j o) = _
    rw [V14_v66_0 m (outsB m) c, stageB_eq m c main_v66_0, X13_main_v66_0 m c]
    exact R1h p j o
  have hMn : ∀ k : Fin 128, rd (V14 m (outsB m)) c main_v73 (ix3 0 0 k)
      = Ideal.div (∑ p : Fin 8192, ∑ j : Fin 16, H2 (ix3 p j k)) ((131072 : ℝ) : EReal) := by
    intro k
    refine ((congrFun (V14_v73 m (outsB m) c) _).trans (k_mean_apply _ _ cnt_0 _ k)).trans ?_
    rw [stageB_eq m c main_v66_1, X13_main_v66_1 m c, R1s k]
  have hVr : ∀ k : Fin 128, rd (V14 m (outsB m)) c main_v74 (ix3 0 0 k)
      = Ideal.div (∑ p : Fin 8192, ∑ j : Fin 16, H2 (ix3 p j k) * H2 (ix3 p j k)) ((131072 : ℝ) : EReal)
        - Ideal.div (∑ p : Fin 8192, ∑ j : Fin 16, H2 (ix3 p j k)) ((131072 : ℝ) : EReal)
          * Ideal.div (∑ p : Fin 8192, ∑ j : Fin 16, H2 (ix3 p j k)) ((131072 : ℝ) : EReal) := by
    intro k
    refine ((congrFun (V14_v74 m (outsB m) c) _).trans (k_var_apply _ _ cnt_0 _ _ k)).trans ?_
    rw [stageB_eq m c main_v66_1, stageB_eq m c main_v66_2, X13_main_v66_1 m c, X13_main_v66_2 m c, R1s k, R1q k]
  have hGm : ∀ k : Fin 128, rd (V14 m (outsB m)) c main_v75 (ix3 0 0 k) = (Gb : FVec Ideal S128 .f32) (ix1 k) :=
    fun k => (congrFun (V14_v75 m (outsB m) c) _).trans (shapeCast_a_11a_apply _ _ 0 0 k)
  have hBt : ∀ k : Fin 128, rd (V14 m (outsB m)) c main_v76 (ix3 0 0 k) = (Bb : FVec Ideal S128 .f32) (ix1 k) :=
    fun k => (congrFun (V14_v76 m (outsB m) c) _).trans (shapeCast_a_11a_apply _ _ 0 0 k)
  rw [X15_main_v77 m c, r_tail_0_eq]
  exact bridge0_r2 (rd (V14 m (outsB m))) c H2 Gb Bb (chain0_fH2 m c I) I.arg9 I.arg10 hH hMn hVr hGm hBt a b

end Cert.Bridge

end
-- ==== Proof.KiVal3.lean ====
import proofs.«157081_j85761906966880_1_alg».proof.Proof.KiR3
import Idealize.ShloMosaic.Lib.Pipeline.Value
import Idealize.ShloMosaic.Lib.ValueIdx
import Idealize.ShloMosaic.PureOps.Ideal.Laws

set_option maxRecDepth 16384

noncomputable section
namespace Cert.KernelIdeal.HandVal
open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx
open scoped BigOperators

abbrev r3_D := dot_S8192x67_S67x128_S8192x128_1_0_0_1_n_n

theorem r3_lhs0 (y : S8192x128.Idx) (q : r3_D.contr.Idx) : (r3_D.lhsIdx y q 0 : ℕ) = y 0 := by
  simp [DotDims.lhsIdx, r3_D, dot_S8192x67_S67x128_S8192x128_1_0_0_1_n_n]; rfl
theorem r3_lhs1 (y : S8192x128.Idx) (q : r3_D.contr.Idx) : (r3_D.lhsIdx y q 1 : ℕ) = q ⟨0, by decide⟩ := by
  simp [DotDims.lhsIdx, r3_D, dot_S8192x67_S67x128_S8192x128_1_0_0_1_n_n]; rfl
theorem r3_rhs0 (y : S8192x128.Idx) (q : r3_D.contr.Idx) : (r3_D.rhsIdx y q 0 : ℕ) = q ⟨0, by decide⟩ := by
  simp [DotDims.rhsIdx, r3_D, dot_S8192x67_S67x128_S8192x128_1_0_0_1_n_n]; rfl
theorem r3_rhs1 (y : S8192x128.Idx) (q : r3_D.contr.Idx) : (r3_D.rhsIdx y q 1 : ℕ) = y 1 := by
  simp [DotDims.rhsIdx, r3_D, dot_S8192x67_S67x128_S8192x128_1_0_0_1_n_n]; rfl

def r3_contr : r3_D.contr.Idx ≃ Fin 67 := contrEquiv1 r3_D 67 (by decide) (by decide)
theorem r3_contr_val (q : r3_D.contr.Idx) : (r3_contr q).val = (q ⟨0, by decide⟩).val := rfl

theorem r3_pay2_apply (x0 : Vec Ideal S256x32x67 .f32) (x1 : Vec Ideal S67x128 .f32) (a : Fin 256) (j : Fin 32) (o : Fin 128)
    (r : Fin 8192) (hr : r.val = 32 * a.val + j.val) :
    k3_pay2 x0 x1 (ix2 r o) = ∑ k : Fin 67, x0 (ix3 a j k) * x1 (ix2 k o) := by
  unfold k3_pay2
  refine (Ideal.matmul_constant_zero_apply r3_D none _ _ (ix2 r o)).trans ?_
  refine Fintype.sum_equiv r3_contr _ _ fun q => ?_
  have e0 : (truncf .bf16 (shapeCast S8192x67 (shapeCast S256x32x67 x0 shapeCasts_S256x32x67_S256x32x67) shapeCasts_S256x32x67_S8192x67) bitsLt_bf16_f32 : FVec Ideal S8192x67 .bf16)
      (r3_D.lhsIdx (ix2 r o) q) = x0 (ix3 a j (r3_contr q)) := by
    show shapeCast S8192x67 (shapeCast S256x32x67 x0 shapeCasts_S256x32x67_S256x32x67) shapeCasts_S256x32x67_S8192x67 (r3_D.lhsIdx (ix2 r o) q) = _
    rw [shapeCast_self]
    refine shapeCast_apply x0 _ _ (ix3 a j (r3_contr q)) ?_
    rw [Shape.rowMajor_val_three, Shape.rowMajor_val_two, r3_lhs0, r3_lhs1, r3_contr_val]
    show (a.val * 32 + j.val) * 67 + _ = r.val * 67 + _
    rw [hr]; ring
  have e1 : (truncf .bf16 (shapeCast S67x128 x1 shapeCasts_S67x128_S67x128) bitsLt_bf16_f32 : FVec Ideal S67x128 .bf16)
      (r3_D.rhsIdx (ix2 r o) q) = x1 (ix2 (r3_contr q) o) := by
    show shapeCast S67x128 x1 shapeCasts_S67x128_S67x128 (r3_D.rhsIdx (ix2 r o) q) = _
    rw [shapeCast_self]
    exact congrArg x1 (Shape.idx_ext₂ (by rw [r3_rhs0, r3_contr_val]) (by rw [r3_rhs1]))
  exact congrArg₂ (· * ·) e0 e1

theorem r3_pay4_apply (x0 : Vec Ideal S256x32x67 .f32) (x1 : Vec Ideal S67x128 .f32) (v : Vec Ideal S1x128 .f32) (o : Fin 128) :
    k3_pay4 x0 x1 v (ix2 0 o) = v (ix2 0 o) + ∑ r : Fin 8192, k3_pay2 x0 x1 (ix2 r o) := by
  unfold k3_pay4
  rw [shapeCast_self]
  show v (ix2 0 o) + shapeCast S1x128 (multiReduction .add [0] S128 (k3_pay2 x0 x1) 0x00000000#32 reduces_S8192x128_S128 (.inl rfl) rfl) shapeCasts_S128_S1x128 (ix2 0 o) = _
  congr 1
  refine (shapeCast_apply _ shapeCasts_S128_S1x128 (ix2 0 o) (ix1 o) (by rw [Shape.rowMajor_val_one, Shape.rowMajor_val_two]; simp)).trans ?_
  exact Ideal.multiReduction_add_single (k3_pay2 x0 x1) _ reduces_S8192x128_S128 (.inl rfl) rfl (ix1 o)

theorem r3_pay5_apply (x0 : Vec Ideal S256x32x67 .f32) (x1 : Vec Ideal S67x128 .f32) (v : Vec Ideal S1x128 .f32) (o : Fin 128) :
    k3_pay5 x0 x1 v (ix2 0 o) = v (ix2 0 o) + ∑ r : Fin 8192, k3_pay2 x0 x1 (ix2 r o) * k3_pay2 x0 x1 (ix2 r o) := by
  unfold k3_pay5
  rw [shapeCast_self]
  show v (ix2 0 o) + shapeCast S1x128 (multiReduction .add [0] S128 (mulf (k3_pay2 x0 x1) (k3_pay2 x0 x1)) 0x00000000#32 reduces_S8192x128_S128 (.inl rfl) rfl) shapeCasts_S128_S1x128 (ix2 0 o) = _
  congr 1
  refine (shapeCast_apply _ shapeCasts_S128_S1x128 (ix2 0 o) (ix1 o) (by rw [Shape.rowMajor_val_one, Shape.rowMajor_val_two]; simp)).trans ?_
  exact Ideal.multiReduction_add_single (mulf (k3_pay2 x0 x1) (k3_pay2 x0 x1)) _ reduces_S8192x128_S128 (.inl rfl) rfl (ix1 o)

theorem r3_pay1_apply (y : S2x128.Idx) : (k3_pay1 : FVec Ideal S2x128 .f32) y = 0 := by
  unfold k3_pay1
  rw [shapeCast_self]
  show Ideal.ofBits .f32 0x00000000#32 = 0
  exact Ideal.ofBits_zero_f32

section Rows
variable {Val : EltTy → Type} [∀ e, Nonempty (Val e)]

abbrev r3_row0 : Rect S2x128 := Rect.unit (s := S2x128) ![0, 0] S1x128.size inb_S2x128_S1x128_0_0
abbrev r3_row1 : Rect S2x128 := Rect.unit (s := S2x128) ![1, 0] S1x128.size inb_S2x128_S1x128_1_0

theorem r3_row0_idx (o : Fin 128) : r3_row0.idx (ix2 0 o) = ix2 0 o :=
  Shape.idx_ext₂ (by simp [Rect.unit]) (by simp [Rect.unit])
theorem r3_row1_idx (o : Fin 128) : r3_row1.idx (ix2 0 o) = ix2 1 o :=
  Shape.idx_ext₂ (by simp [Rect.unit]) (by simp [Rect.unit])

theorem r3_canon_at1 (w1 : r3_row1.shape.Idx → Val .f32) (L : List (View.Piece Val S2x128 .f32)) (o : Fin 128) :
    View.canon (⟨r3_row1, w1⟩ :: L) (ix2 1 o) = w1 (ix2 0 o) := by
  rw [← r3_row1_idx o]; exact View.canon_cons_emb r3_row1 w1 L (ix2 0 o)

theorem r3_not_mem_row1 (o : Fin 128) :
    (ix2 0 o : S2x128.Idx) ∉ (Rect.unit (s := S2x128) ![1, 0] S1x128.size inb_S2x128_S1x128_1_0).set := by
  intro h
  have h0 : (1 : ℕ) ≤ 0 := (Rect.mem_set_unit.mp h 0).1
  omega
theorem r3_not_mem_row0 (o : Fin 128) :
    (ix2 1 o : S2x128.Idx) ∉ (Rect.unit (s := S2x128) ![0, 0] S1x128.size inb_S2x128_S1x128_0_0).set := by
  intro h
  have h0 : (1 : ℕ) < 0 + 1 := (Rect.mem_set_unit.mp h 0).2
  omega

theorem r3_canon_at0 (w1 : r3_row1.shape.Idx → Val .f32) (w0 : r3_row0.shape.Idx → Val .f32) (L : List (View.Piece Val S2x128 .f32)) (o : Fin 128) :
    View.canon (⟨r3_row1, w1⟩ :: ⟨r3_row0, w0⟩ :: L) (ix2 0 o) = w0 (ix2 0 o) := by
  rw [View.canon_cons_of_not_mem (⟨r3_row1, w1⟩ : View.Piece Val S2x128 .f32) (⟨r3_row0, w0⟩ :: L) (r3_not_mem_row1 o)]
  rw [← r3_row0_idx o]; exact View.canon_cons_emb r3_row0 w0 L (ix2 0 o)

theorem r3_canon_skip0 (w0 : r3_row0.shape.Idx → Val .f32) (L : List (View.Piece Val S2x128 .f32)) (o : Fin 128) :
    View.canon (⟨r3_row0, w0⟩ :: L) (ix2 1 o) = View.canon L (ix2 1 o) :=
  View.canon_cons_of_not_mem (⟨r3_row0, w0⟩ : View.Piece Val S2x128 .f32) L (r3_not_mem_row0 o)
end Rows

theorem r3_hz3 : (![0, 0, 0] : Fin 3 → Nat) = fun _ => 0 := funext fun a => by fin_cases a <;> rfl
theorem r3_hz2 : (![0, 0] : Fin 2 → Nat) = fun _ => 0 := funext fun a => by fin_cases a <;> rfl

section AnyFloat
variable {F : FTy → Type} [FloatOps F]

section
variable (c : Dev nD) (i : grid3.Coords) (arg1 : Memref sig .tc .vmem S256x32x67 .f32) (harg1 : arg1.IsWhole) (arg2 : Memref sig .tc .vmem S67x128 .f32) (harg2 : arg2.IsWhole) (arg3 : Memref sig .tc .vmem S256x32x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2x128 .f32) (harg6 : arg6.IsWhole)
theorem r3_out2_A_eq (hc0 : r3_condFirst i) (hc1 : ¬r3_condLast i) (x0 : Vec F S256x32x67 .f32) (x1 : Vec F S67x128 .f32) :
    r3_out2_A c i arg1 harg1 arg2 harg2 arg3 harg3 arg4 harg4 arg5 harg5 arg6 harg6 hc0 hc1 x0 x1 = k3_pay3 x0 x1 := by
  unfold r3_out2_A
  rw [View.read_writes_eq_canon _ _ _ (r3_cover2_A c i arg1 harg1 arg2 harg2 arg3 harg3 arg4 harg4 arg5 harg5 arg6 harg6 hc0 hc1 x0 x1)]
  unfold r3_runA
  dsimp only
  sl_unfold_words
  rw [View.canon_unit_zero r3_hz3]
  simp only [View.readAt_eq_ld, harg1.read_unread, harg2.read_unread, harg6.read_unread, View.ld_unit_zero (S := S256x32x67) r3_hz3, View.ld_unit_zero (S := S67x128) r3_hz2]

theorem r3_out2_B_eq (hc0 : ¬r3_condFirst i) (hc1 : ¬r3_condLast i) (x0 : Vec F S256x32x67 .f32) (x1 : Vec F S67x128 .f32) (xs : Vec F S2x128 .f32) :
    r3_out2_B c i arg1 harg1 arg2 harg2 arg3 harg3 arg4 harg4 arg5 harg5 arg6 harg6 hc0 hc1 x0 x1 xs = k3_pay3 x0 x1 := by
  unfold r3_out2_B
  rw [View.read_writes_eq_canon _ _ _ (r3_cover2_B c i arg1 harg1 arg2 harg2 arg3 harg3 arg4 harg4 arg5 harg5 arg6 harg6 hc0 hc1 x0 x1 xs)]
  unfold r3_runB
  dsimp only
  sl_unfold_words
  rw [View.canon_unit_zero r3_hz3]
  simp only [View.readAt_eq_ld, harg1.read_unread, harg2.read_unread, harg6.read_unread, View.ld_unit_zero (S := S256x32x67) r3_hz3, View.ld_unit_zero (S := S67x128) r3_hz2]

theorem r3_out2_C_eq (hc0 : ¬r3_condFirst i) (hc1 : r3_condLast i) (x0 : Vec F S256x32x67 .f32) (x1 : Vec F S67x128 .f32) (xs : Vec F S2x128 .f32) :
    r3_out2_C c i arg1 harg1 arg2 harg2 arg3 harg3 arg4 harg4 arg5 harg5 arg6 harg6 hc0 hc1 x0 x1 xs = k3_pay3 x0 x1 := by
  unfold r3_out2_C
  rw [View.read_writes_eq_canon _ _ _ (r3_cover2_C c i arg1 harg1 arg2 harg2 arg3 harg3 arg4 harg4 arg5 harg5 arg6 harg6 hc0 hc1 x0 x1 xs)]
  unfold r3_runC
  dsimp only
  sl_unfold_words
  rw [View.canon_unit_zero r3_hz3]
  simp only [View.readAt_eq_ld, harg1.read_unread, harg2.read_unread, harg6.read_unread, View.ld_unit_zero (S := S256x32x67) r3_hz3, View.ld_unit_zero (S := S67x128) r3_hz2]
end

end AnyFloat

section
variable (c : Dev nD) (i : grid3.Coords) (arg1 : Memref sig .tc .vmem S256x32x67 .f32) (harg1 : arg1.IsWhole) (arg2 : Memref sig .tc .vmem S67x128 .f32) (harg2 : arg2.IsWhole) (arg3 : Memref sig .tc .vmem S256x32x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2x128 .f32) (harg6 : arg6.IsWhole)
theorem r3_sout_A_at0 (hc0 : r3_condFirst i) (hc1 : ¬r3_condLast i) (x0 : Vec Ideal S256x32x67 .f32) (x1 : Vec Ideal S67x128 .f32) (o : Fin 128) :
    r3_sout_A c i arg1 harg1 arg2 harg2 arg3 harg3 arg4 harg4 arg5 harg5 arg6 harg6 hc0 hc1 x0 x1 (ix2 0 o) = ∑ r : Fin 8192, k3_pay2 x0 x1 (ix2 r o) := by
  unfold r3_sout_A
  rw [View.read_writes_eq_canon _ _ _ (r3_scover_A c i arg1 harg1 arg2 harg2 arg3 harg3 arg4 harg4 arg5 harg5 arg6 harg6 hc0 hc1 x0 x1)]
  unfold r3_runA
  dsimp only
  sl_unfold_words
  simp only [View.readAt_eq_ld, harg1.read_unread, harg2.read_unread, harg6.read_unread, View.ld_unit_zero (S := S256x32x67) r3_hz3, View.ld_unit_zero (S := S67x128) r3_hz2]
  refine (r3_canon_at0 _ _ _ o).trans ?_
  refine (r3_pay4_apply x0 x1 _ o).trans ?_
  rw [View.readCov_eq_canon']
  show View.canon _ (r3_row0.idx (ix2 0 o)) + _ = _
  rw [r3_row0_idx, View.canon_unit_zero r3_hz2, r3_pay1_apply, zero_add]

theorem r3_sout_A_at1 (hc0 : r3_condFirst i) (hc1 : ¬r3_condLast i) (x0 : Vec Ideal S256x32x67 .f32) (x1 : Vec Ideal S67x128 .f32) (o : Fin 128) :
    r3_sout_A c i arg1 harg1 arg2 harg2 arg3 harg3 arg4 harg4 arg5 harg5 arg6 harg6 hc0 hc1 x0 x1 (ix2 1 o) = ∑ r : Fin 8192, k3_pay2 x0 x1 (ix2 r o) * k3_pay2 x0 x1 (ix2 r o) := by
  unfold r3_sout_A
  rw [View.read_writes_eq_canon _ _ _ (r3_scover_A c i arg1 harg1 arg2 harg2 arg3 harg3 arg4 harg4 arg5 harg5 arg6 harg6 hc0 hc1 x0 x1)]
  unfold r3_runA
  dsimp only
  sl_unfold_words
  simp only [View.readAt_eq_ld, harg1.read_unread, harg2.read_unread, harg6.read_unread, View.ld_unit_zero (S := S256x32x67) r3_hz3, View.ld_unit_zero (S := S67x128) r3_hz2]
  refine (r3_canon_at1 _ _ o).trans ?_
  refine (r3_pay5_apply x0 x1 _ o).trans ?_
  rw [View.readCov_eq_canon']
  show View.canon _ (r3_row1.idx (ix2 0 o)) + _ = _
  rw [r3_row1_idx, r3_canon_skip0, View.canon_unit_zero r3_hz2, r3_pay1_apply, zero_add]

theorem r3_sout_B_at0 (hc0 : ¬r3_condFirst i) (hc1 : ¬r3_condLast i) (x0 : Vec Ideal S256x32x67 .f32) (x1 : Vec Ideal S67x128 .f32) (xs : Vec Ideal S2x128 .f32) (o : Fin 128) :
    r3_sout_B c i arg1 harg1 arg2 harg2 arg3 harg3 arg4 harg4 arg5 harg5 arg6 harg6 hc0 hc1 x0 x1 xs (ix2 0 o) = xs (ix2 0 o) + ∑ r : Fin 8192, k3_pay2 x0 x1 (ix2 r o) := by
  unfold r3_sout_B
  rw [View.read_writes_eq_canon _ _ _ (r3_scover_B c i arg1 harg1 arg2 harg2 arg3 harg3 arg4 harg4 arg5 harg5 arg6 harg6 hc0 hc1 x0 x1 xs)]
  unfold r3_runB
  dsimp only
  sl_unfold_words
  simp only [View.readAt_eq_ld, harg1.read_unread, harg2.read_unread, harg6.read_unread, View.ld_unit_zero (S := S256x32x67) r3_hz3, View.ld_unit_zero (S := S67x128) r3_hz2]
  refine (r3_canon_at0 _ _ _ o).trans ?_
  refine (r3_pay4_apply x0 x1 _ o).trans ?_
  show xs (r3_row0.idx (ix2 0 o)) + _ = _
  rw [r3_row0_idx]

theorem r3_sout_B_at1 (hc0 : ¬r3_condFirst i) (hc1 : ¬r3_condLast i) (x0 : Vec Ideal S256x32x67 .f32) (x1 : Vec Ideal S67x128 .f32) (xs : Vec Ideal S2x128 .f32) (o : Fin 128) :
    r3_sout_B c i arg1 harg1 arg2 harg2 arg3 harg3 arg4 harg4 arg5 harg5 arg6 harg6 hc0 hc1 x0 x1 xs (ix2 1 o) = xs (ix2 1 o) + ∑ r : Fin 8192, k3_pay2 x0 x1 (ix2 r o) * k3_pay2 x0 x1 (ix2 r o) := by
  unfold r3_sout_B
  rw [View.read_writes_eq_canon _ _ _ (r3_scover_B c i arg1 harg1 arg2 harg2 arg3 harg3 arg4 harg4 arg5 harg5 arg6 harg6 hc0 hc1 x0 x1 xs)]
  unfold r3_runB
  dsimp only
  sl_unfold_words
  simp only [View.readAt_eq_ld, harg1.read_unread, harg2.read_unread, harg6.read_unread, View.ld_unit_zero (S := S256x32x67) r3_hz3, View.ld_unit_zero (S := S67x128) r3_hz2]
  refine (r3_canon_at1 _ _ o).trans ?_
  refine (r3_pay5_apply x0 x1 _ o).trans ?_
  show xs (r3_row1.idx (ix2 0 o)) + _ = _
  rw [r3_row1_idx]

theorem r3_sout_C_at0 (hc0 : ¬r3_condFirst i) (hc1 : r3_condLast i) (x0 : Vec Ideal S256x32x67 .f32) (x1 : Vec Ideal S67x128 .f32) (xs : Vec Ideal S2x128 .f32) (o : Fin 128) :
    r3_sout_C c i arg1 harg1 arg2 harg2 arg3 harg3 arg4 harg4 arg5 harg5 arg6 harg6 hc0 hc1 x0 x1 xs (ix2 0 o) = xs (ix2 0 o) + ∑ r : Fin 8192, k3_pay2 x0 x1 (ix2 r o) := by
  unfold r3_sout_C
  rw [View.read_writes_eq_canon _ _ _ (r3_scover_C c i arg1 harg1 arg2 harg2 arg3 harg3 arg4 harg4 arg5 harg5 arg6 harg6 hc0 hc1 x0 x1 xs)]
  unfold r3_runC
  dsimp only
  sl_unfold_words
  simp only [View.readAt_eq_ld, harg1.read_unread, harg2.read_unread, harg6.read_unread, View.ld_unit_zero (S := S256x32x67) r3_hz3, View.ld_unit_zero (S := S67x128) r3_hz2]
  refine (r3_canon_at0 _ _ _ o).trans ?_
  refine (r3_pay4_apply x0 x1 _ o).trans ?_
  show xs (r3_row0.idx (ix2 0 o)) + _ = _
  rw [r3_row0_idx]

theorem r3_sout_C_at1 (hc0 : ¬r3_condFirst i) (hc1 : r3_condLast i) (x0 : Vec Ideal S256x32x67 .f32) (x1 : Vec Ideal S67x128 .f32) (xs : Vec Ideal S2x128 .f32) (o : Fin 128) :
    r3_sout_C c i arg1 harg1 arg2 harg2 arg3 harg3 arg4 harg4 arg5 harg5 arg6 harg6 hc0 hc1 x0 x1 xs (ix2 1 o) = xs (ix2 1 o) + ∑ r : Fin 8192, k3_pay2 x0 x1 (ix2 r o) * k3_pay2 x0 x1 (ix2 r o) := by
  unfold r3_sout_C
  rw [View.read_writes_eq_canon _ _ _ (r3_scover_C c i arg1 harg1 arg2 harg2 arg3 harg3 arg4 harg4 arg5 harg5 arg6 harg6 hc0 hc1 x0 x1 xs)]
  unfold r3_runC
  dsimp only
  sl_unfold_words
  simp only [View.readAt_eq_ld, harg1.read_unread, harg2.read_unread, harg6.read_unread, View.ld_unit_zero (S := S256x32x67) r3_hz3, View.ld_unit_zero (S := S67x128) r3_hz2]
  refine (r3_canon_at1 _ _ o).trans ?_
  refine (r3_pay5_apply x0 x1 _ o).trans ?_
  show xs (r3_row1.idx (ix2 0 o)) + _ = _
  rw [r3_row1_idx]

theorem r3_out3_C_at (hc0 : ¬r3_condFirst i) (hc1 : r3_condLast i) (x0 : Vec Ideal S256x32x67 .f32) (x1 : Vec Ideal S67x128 .f32) (xs : Vec Ideal S2x128 .f32) (o : Fin 128) :
    r3_out3_C c i arg1 harg1 arg2 harg2 arg3 harg3 arg4 harg4 arg5 harg5 arg6 harg6 hc0 hc1 x0 x1 xs (ix2 0 o) = xs (ix2 0 o) + ∑ r : Fin 8192, k3_pay2 x0 x1 (ix2 r o) := by
  unfold r3_out3_C
  rw [View.read_writes_eq_canon _ _ _ (r3_cover3_C c i arg1 harg1 arg2 harg2 arg3 harg3 arg4 harg4 arg5 harg5 arg6 harg6 hc0 hc1 x0 x1 xs)]
  unfold r3_runC
  dsimp only
  sl_unfold_words
  simp only [View.readAt_eq_ld, harg1.read_unread, harg2.read_unread, harg6.read_unread, View.ld_unit_zero (S := S256x32x67) r3_hz3, View.ld_unit_zero (S := S67x128) r3_hz2]
  rw [View.canon_unit_zero r3_hz2, View.readCov_eq_canon']
  show View.canon _ (r3_row0.idx (ix2 0 o)) = _
  rw [r3_row0_idx]
  refine (r3_canon_at0 _ _ _ o).trans ?_
  refine (r3_pay4_apply x0 x1 _ o).trans ?_
  show xs (r3_row0.idx (ix2 0 o)) + _ = _
  rw [r3_row0_idx]

theorem r3_out4_C_at (hc0 : ¬r3_condFirst i) (hc1 : r3_condLast i) (x0 : Vec Ideal S256x32x67 .f32) (x1 : Vec Ideal S67x128 .f32) (xs : Vec Ideal S2x128 .f32) (o : Fin 128) :
    r3_out4_C c i arg1 harg1 arg2 harg2 arg3 harg3 arg4 harg4 arg5 harg5 arg6 harg6 hc0 hc1 x0 x1 xs (ix2 0 o) = xs (ix2 1 o) + ∑ r : Fin 8192, k3_pay2 x0 x1 (ix2 r o) * k3_pay2 x0 x1 (ix2 r o) := by
  unfold r3_out4_C
  rw [View.read_writes_eq_canon _ _ _ (r3_cover4_C c i arg1 harg1 arg2 harg2 arg3 harg3 arg4 harg4 arg5 harg5 arg6 harg6 hc0 hc1 x0 x1 xs)]
  unfold r3_runC
  dsimp only
  sl_unfold_words
  simp only [View.readAt_eq_ld, harg1.read_unread, harg2.read_unread, harg6.read_unread, View.ld_unit_zero (S := S256x32x67) r3_hz3, View.ld_unit_zero (S := S67x128) r3_hz2]
  rw [View.canon_unit_zero r3_hz2, View.readCov_eq_canon']
  show View.canon _ (r3_row1.idx (ix2 0 o)) = _
  rw [r3_row1_idx]
  refine (r3_canon_at1 _ _ o).trans ?_
  refine (r3_pay5_apply x0 x1 _ o).trans ?_
  show xs (r3_row1.idx (ix2 0 o)) + _ = _
  rw [r3_row1_idx]
end

section Value
variable (V : (c : Dev nD) → (b : Ref sig .tc) → Buf (Elt Ideal) ((c : Thread nD τ).loc b))

abbrev r3_gArr (c : Dev nD) : Vec Ideal S8192x32x67 .f32 := V c main_v127
abbrev r3_wArr (c : Dev nD) : Vec Ideal S67x128 .f32 := V c main_v128
def r3_conv (c : Dev nD) (p : Fin 8192) (j : Fin 32) (o : Fin 128) : EReal :=
  ∑ k : Fin 67, r3_gArr V c (ix3 p j k) * r3_wArr V c (ix2 k o)

abbrev r3_gBlk (c : Dev nD) (t : Fin cfg3.N) : Vec Ideal S256x32x67 .f32 := r3_blk V c 0 t
abbrev r3_wBlk (c : Dev nD) (t : Fin cfg3.N) : Vec Ideal S67x128 .f32 := r3_blk V c 1 t

theorem r3_index0 : ∀ t : Fin grid3.N, win3_0.index t 0 = t.val ∧ win3_0.index t 1 = 0 ∧ win3_0.index t 2 = 0 := by decide +kernel
theorem r3_index1 : ∀ t : Fin grid3.N, win3_1.index t 0 = 0 ∧ win3_1.index t 1 = 0 := by decide +kernel
theorem r3_index2 : ∀ t : Fin grid3.N, win3_2.index t 0 = t.val ∧ win3_2.index t 1 = 0 ∧ win3_2.index t 2 = 0 := by decide +kernel
theorem r3_index3 : ∀ t : Fin grid3.N, win3_3.index t 0 = 0 ∧ win3_3.index t 1 = 0 := by decide +kernel
theorem r3_index4 : ∀ t : Fin grid3.N, win3_4.index t 0 = 0 ∧ win3_4.index t 1 = 0 := by decide +kernel

theorem r3_gBlk_apply (c : Dev nD) (t : Fin cfg3.N) (a : Fin 256) (j : Fin 32) (k : Fin 67) (p : Fin 8192)
    (hp : p.val = 256 * t.val + a.val) : r3_gBlk V c t (ix3 a j k) = r3_gArr V c (ix3 p j k) := by
  have hi := r3_index0 t
  unfold r3_gBlk r3_blk
  rw [View.read_apply]
  show V c main_v127 _ = V c main_v127 _
  congr 1
  funext x
  apply Fin.ext
  match x with
  | ⟨0, _⟩ => show win3_0.index t 0 * 256 + 1 * a.val = p.val; rw [hi.1, hp]; omega
  | ⟨1, _⟩ => show win3_0.index t 1 * 32 + 1 * j.val = j.val; rw [hi.2.1]; omega
  | ⟨2, _⟩ => show win3_0.index t 2 * 67 + 1 * k.val = k.val; rw [hi.2.2]; omega

theorem r3_wBlk_apply (c : Dev nD) (t : Fin cfg3.N) (k : Fin 67) (o : Fin 128) :
    r3_wBlk V c t (ix2 k o) = r3_wArr V c (ix2 k o) := by
  have hi := r3_index1 t
  unfold r3_wBlk r3_blk
  rw [View.read_apply]
  show V c main_v128 _ = V c main_v128 _
  congr 1
  funext x
  apply Fin.ext
  match x with
  | ⟨0, _⟩ => show win3_1.index t 0 * 67 + 1 * k.val = k.val; rw [hi.1]; omega
  | ⟨1, _⟩ => show win3_1.index t 1 * 128 + 1 * o.val = o.val; rw [hi.2]; omega

theorem r3_prod_apply (c : Dev nD) (t : Fin cfg3.N) (a : Fin 256) (j : Fin 32) (o : Fin 128) (r : Fin 8192) (p : Fin 8192)
    (hr : r.val = 32 * a.val + j.val) (hp : p.val = 256 * t.val + a.val) :
    k3_pay2 (r3_gBlk V c t) (r3_wBlk V c t) (ix2 r o) = r3_conv V c p j o := by
  rw [r3_pay2_apply (r3_gBlk V c t) (r3_wBlk V c t) a j o r hr]
  unfold r3_conv
  exact Finset.sum_congr rfl fun k _ => by rw [r3_gBlk_apply V c t a j k p hp, r3_wBlk_apply V c t k o]

def r3_S (c : Dev nD) (n : ℕ) (o : Fin 128) : EReal :=
  if h : n < cfg3.N then ∑ r : Fin 8192, k3_pay2 (r3_gBlk V c ⟨n, h⟩) (r3_wBlk V c ⟨n, h⟩) (ix2 r o) else 0
def r3_Q (c : Dev nD) (n : ℕ) (o : Fin 128) : EReal :=
  if h : n < cfg3.N then ∑ r : Fin 8192, k3_pay2 (r3_gBlk V c ⟨n, h⟩) (r3_wBlk V c ⟨n, h⟩) (ix2 r o) * k3_pay2 (r3_gBlk V c ⟨n, h⟩) (r3_wBlk V c ⟨n, h⟩) (ix2 r o) else 0

theorem r3_S_at (c : Dev nD) (t : Fin cfg3.N) (o : Fin 128) :
    r3_S V c t.val o = ∑ r : Fin 8192, k3_pay2 (r3_gBlk V c t) (r3_wBlk V c t) (ix2 r o) := by
  unfold r3_S; rw [dif_pos t.isLt]
theorem r3_Q_at (c : Dev nD) (t : Fin cfg3.N) (o : Fin 128) :
    r3_Q V c t.val o = ∑ r : Fin 8192, k3_pay2 (r3_gBlk V c t) (r3_wBlk V c t) (ix2 r o) * k3_pay2 (r3_gBlk V c t) (r3_wBlk V c t) (ix2 r o) := by
  unfold r3_Q; rw [dif_pos t.isLt]

theorem r3_acc_first (c : Dev nD) (t : Fin cfg3.N) (h0 : t.val % 32 = 0) (h1 : ¬t.val % 32 = 31) (o : Fin 128) :
    (r3_outsAt V c t.val t.isLt).2.2.2 (ix2 0 o) = r3_S V c t.val o
    ∧ (r3_outsAt V c t.val t.isLt).2.2.2 (ix2 1 o) = r3_Q V c t.val o := by
  rw [r3_outsAt_A V c t h0 h1, r3_S_at, r3_Q_at]
  dsimp only
  exact ⟨r3_sout_A_at0 c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) ((r3_hFirst t).mpr h0) (fun h => h1 ((r3_hLast t).mp h)) (r3_gBlk V c t) (r3_wBlk V c t) o,
    r3_sout_A_at1 c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) ((r3_hFirst t).mpr h0) (fun h => h1 ((r3_hLast t).mp h)) (r3_gBlk V c t) (r3_wBlk V c t) o⟩

theorem r3_acc_mid (c : Dev nD) (t : Fin cfg3.N) (h0 : ¬t.val % 32 = 0) (h1 : ¬t.val % 32 = 31) (o : Fin 128) :
    (r3_outsAt V c t.val t.isLt).2.2.2 (ix2 0 o) = (r3_outsAt V c (t.val - 1) (Nat.lt_of_le_of_lt (Nat.sub_le _ _) t.isLt)).2.2.2 (ix2 0 o) + r3_S V c t.val o
    ∧ (r3_outsAt V c t.val t.isLt).2.2.2 (ix2 1 o) = (r3_outsAt V c (t.val - 1) (Nat.lt_of_le_of_lt (Nat.sub_le _ _) t.isLt)).2.2.2 (ix2 1 o) + r3_Q V c t.val o := by
  rw [r3_outsAt_B V c t h0 h1, r3_S_at, r3_Q_at]
  dsimp only
  exact ⟨r3_sout_B_at0 c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) (fun h => h1 ((r3_hLast t).mp h)) (r3_gBlk V c t) (r3_wBlk V c t) (r3_outsAt V c (t.val - 1) (Nat.lt_of_le_of_lt (Nat.sub_le _ _) t.isLt)).2.2.2 o,
    r3_sout_B_at1 c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) (fun h => h1 ((r3_hLast t).mp h)) (r3_gBlk V c t) (r3_wBlk V c t) (r3_outsAt V c (t.val - 1) (Nat.lt_of_le_of_lt (Nat.sub_le _ _) t.isLt)).2.2.2 o⟩

theorem r3_acc_last (c : Dev nD) (t : Fin cfg3.N) (h0 : ¬t.val % 32 = 0) (h1 : t.val % 32 = 31) (o : Fin 128) :
    ((r3_outsAt V c t.val t.isLt).2.2.2 (ix2 0 o) = (r3_outsAt V c (t.val - 1) (Nat.lt_of_le_of_lt (Nat.sub_le _ _) t.isLt)).2.2.2 (ix2 0 o) + r3_S V c t.val o
    ∧ (r3_outsAt V c t.val t.isLt).2.2.2 (ix2 1 o) = (r3_outsAt V c (t.val - 1) (Nat.lt_of_le_of_lt (Nat.sub_le _ _) t.isLt)).2.2.2 (ix2 1 o) + r3_Q V c t.val o)
    ∧ ((r3_outsAt V c t.val t.isLt).2.1 (ix2 0 o) = (r3_outsAt V c (t.val - 1) (Nat.lt_of_le_of_lt (Nat.sub_le _ _) t.isLt)).2.2.2 (ix2 0 o) + r3_S V c t.val o
    ∧ (r3_outsAt V c t.val t.isLt).2.2.1 (ix2 0 o) = (r3_outsAt V c (t.val - 1) (Nat.lt_of_le_of_lt (Nat.sub_le _ _) t.isLt)).2.2.2 (ix2 1 o) + r3_Q V c t.val o) := by
  rw [r3_outsAt_C V c t h0 h1, r3_S_at, r3_Q_at]
  dsimp only
  exact ⟨⟨r3_sout_C_at0 c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) ((r3_hLast t).mpr h1) (r3_gBlk V c t) (r3_wBlk V c t) (r3_outsAt V c (t.val - 1) (Nat.lt_of_le_of_lt (Nat.sub_le _ _) t.isLt)).2.2.2 o,
    r3_sout_C_at1 c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) ((r3_hLast t).mpr h1) (r3_gBlk V c t) (r3_wBlk V c t) (r3_outsAt V c (t.val - 1) (Nat.lt_of_le_of_lt (Nat.sub_le _ _) t.isLt)).2.2.2 o⟩,
    r3_out3_C_at c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) ((r3_hLast t).mpr h1) (r3_gBlk V c t) (r3_wBlk V c t) (r3_outsAt V c (t.val - 1) (Nat.lt_of_le_of_lt (Nat.sub_le _ _) t.isLt)).2.2.2 o,
    r3_out4_C_at c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) ((r3_hLast t).mpr h1) (r3_gBlk V c t) (r3_wBlk V c t) (r3_outsAt V c (t.val - 1) (Nat.lt_of_le_of_lt (Nat.sub_le _ _) t.isLt)).2.2.2 o⟩

theorem r3_acc_eq (c : Dev nD) (o : Fin 128) : ∀ (n : ℕ) (hn : n < cfg3.N),
    (r3_outsAt V c n hn).2.2.2 (ix2 0 o) = ∑ m ∈ Finset.range (n + 1), r3_S V c m o
    ∧ (r3_outsAt V c n hn).2.2.2 (ix2 1 o) = ∑ m ∈ Finset.range (n + 1), r3_Q V c m o
  | 0, hn => by
    have h := r3_acc_first V c ⟨0, hn⟩ (Nat.zero_mod _) (by show ¬0 % 32 = 31; decide) o
    rw [Finset.sum_range_one, Finset.sum_range_one]
    exact h
  | n + 1, hn => by
    have hN : n + 1 < 32 := lt_of_lt_of_eq hn (show cfg3.N = 32 from N_3)
    have ih := r3_acc_eq c o n (Nat.lt_of_succ_lt hn)
    have h0 : ¬(⟨n + 1, hn⟩ : Fin cfg3.N).val % 32 = 0 := by dsimp only; omega
    rw [Finset.sum_range_succ _ (n + 1), Finset.sum_range_succ _ (n + 1), ← ih.1, ← ih.2]
    by_cases h1 : (n + 1) % 32 = 31
    · exact (r3_acc_last V c ⟨n + 1, hn⟩ h0 h1 o).1
    · exact r3_acc_mid V c ⟨n + 1, hn⟩ h0 h1 o

theorem r3_sum_rows (f : Fin 8192 → EReal) :
    ∑ r : Fin 8192, f r = ∑ a : Fin 256, ∑ j : Fin 32, f ⟨32 * a.val + j.val, by have := a.isLt; have := j.isLt; omega⟩ := by
  refine (Equiv.sum_comp (finProdFinEquiv : Fin 256 × Fin 32 ≃ Fin (256 * 32)) (fun r => f r)).symm.trans ?_
  rw [Fintype.sum_prod_type]
  refine Finset.sum_congr rfl fun a _ => Finset.sum_congr rfl fun j _ => congrArg f (Fin.ext ?_)
  show j.val + 32 * a.val = 32 * a.val + j.val
  omega

theorem r3_sum_points (f : Fin 8192 → EReal) :
    ∑ p : Fin 8192, f p = ∑ t : Fin 32, ∑ a : Fin 256, f ⟨256 * t.val + a.val, by have := t.isLt; have := a.isLt; omega⟩ := by
  refine (Equiv.sum_comp (finProdFinEquiv : Fin 32 × Fin 256 ≃ Fin (32 * 256)) (fun p => f p)).symm.trans ?_
  rw [Fintype.sum_prod_type]
  refine Finset.sum_congr rfl fun t _ => Finset.sum_congr rfl fun a _ => congrArg f (Fin.ext ?_)
  show a.val + 256 * t.val = 256 * t.val + a.val
  omega

theorem r3_S_conv (c : Dev nD) (m : ℕ) (hm : m < 32) (o : Fin 128) :
    r3_S V c m o = ∑ a : Fin 256, ∑ j : Fin 32, r3_conv V c ⟨256 * m + a.val, by have := a.isLt; omega⟩ j o := by
  have hm' : m < cfg3.N := lt_of_lt_of_eq hm (show cfg3.N = 32 from N_3).symm
  rw [r3_S_at V c ⟨m, hm'⟩ o, r3_sum_rows]
  exact Finset.sum_congr rfl fun a _ => Finset.sum_congr rfl fun j _ =>
    r3_prod_apply V c ⟨m, hm'⟩ a j o ⟨32 * a.val + j.val, by have := a.isLt; have := j.isLt; omega⟩
      ⟨256 * m + a.val, by have := a.isLt; omega⟩ rfl rfl
theorem r3_Q_conv (c : Dev nD) (m : ℕ) (hm : m < 32) (o : Fin 128) :
    r3_Q V c m o = ∑ a : Fin 256, ∑ j : Fin 32,
      r3_conv V c ⟨256 * m + a.val, by have := a.isLt; omega⟩ j o * r3_conv V c ⟨256 * m + a.val, by have := a.isLt; omega⟩ j o := by
  have hm' : m < cfg3.N := lt_of_lt_of_eq hm (show cfg3.N = 32 from N_3).symm
  rw [r3_Q_at V c ⟨m, hm'⟩ o, r3_sum_rows]
  exact Finset.sum_congr rfl fun a _ => Finset.sum_congr rfl fun j _ => by
    rw [r3_prod_apply V c ⟨m, hm'⟩ a j o ⟨32 * a.val + j.val, by have := a.isLt; have := j.isLt; omega⟩
      ⟨256 * m + a.val, by have := a.isLt; omega⟩ rfl rfl]

theorem r3_total_S (c : Dev nD) (o : Fin 128) :
    ∑ m ∈ Finset.range 32, r3_S V c m o = ∑ p : Fin 8192, ∑ j : Fin 32, r3_conv V c p j o := by
  rw [r3_sum_points (fun p => ∑ j : Fin 32, r3_conv V c p j o), Finset.sum_range]
  exact Finset.sum_congr rfl fun t _ => r3_S_conv V c t.val t.isLt o
theorem r3_total_Q (c : Dev nD) (o : Fin 128) :
    ∑ m ∈ Finset.range 32, r3_Q V c m o = ∑ p : Fin 8192, ∑ j : Fin 32, r3_conv V c p j o * r3_conv V c p j o := by
  rw [r3_sum_points (fun p => ∑ j : Fin 32, r3_conv V c p j o * r3_conv V c p j o), Finset.sum_range]
  exact Finset.sum_congr rfl fun t _ => r3_Q_conv V c t.val t.isLt o

theorem r3_last_rows (c : Dev nD) (t : Fin cfg3.N) (h1 : t.val % 32 = 31) (o : Fin 128) :
    (r3_outsAt V c t.val t.isLt).2.1 (ix2 0 o) = ∑ p : Fin 8192, ∑ j : Fin 32, r3_conv V c p j o
    ∧ (r3_outsAt V c t.val t.isLt).2.2.1 (ix2 0 o) = ∑ p : Fin 8192, ∑ j : Fin 32, r3_conv V c p j o * r3_conv V c p j o := by
  have hN : t.val < 32 := lt_of_lt_of_eq t.isLt (show cfg3.N = 32 from N_3)
  have h15 : t.val = 31 := by omega
  have h0 : ¬t.val % 32 = 0 := by omega
  have hl := (r3_acc_last V c t h0 h1 o).2
  have ih := r3_acc_eq V c o (t.val - 1) (Nat.lt_of_le_of_lt (Nat.sub_le _ _) t.isLt)
  rw [hl.1, hl.2, ih.1, ih.2, ← r3_total_S, ← r3_total_Q]
  rw [show t.val - 1 + 1 = 31 from by omega, h15]
  exact ⟨(Finset.sum_range_succ _ 31).symm, (Finset.sum_range_succ _ 31).symm⟩

theorem r3_block_rows (c : Dev nD) (t : Fin cfg3.N) (a : Fin 256) (j : Fin 32) (o : Fin 128) (p : Fin 8192)
    (hp : p.val = 256 * t.val + a.val) : (r3_outsAt V c t.val t.isLt).1 (ix3 a j o) = r3_conv V c p j o := by
  have hN : t.val < 32 := lt_of_lt_of_eq t.isLt (show cfg3.N = 32 from N_3)
  have key : ∀ X : Vec Ideal S256x32x128 .f32, X = k3_pay3 (r3_gBlk V c t) (r3_wBlk V c t) → X (ix3 a j o) = r3_conv V c p j o := by
    intro X hX
    rw [hX]
    unfold k3_pay3
    refine (shapeCast_apply (k3_pay2 (r3_gBlk V c t) (r3_wBlk V c t)) shapeCasts_S8192x128_S256x32x128 (ix3 a j o)
      (ix2 ⟨32 * a.val + j.val, by have := a.isLt; have := j.isLt; omega⟩ o)
      (by rw [Shape.rowMajor_val_two, Shape.rowMajor_val_three]; show (32 * a.val + j.val) * 128 + o.val = (a.val * 32 + j.val) * 128 + o.val; ring)).trans ?_
    exact r3_prod_apply V c t a j o _ p rfl hp
  by_cases h0 : t.val % 32 = 0
  · have h1 : ¬t.val % 32 = 31 := by omega
    rw [r3_outsAt_A V c t h0 h1]; dsimp only
    exact key _ (r3_out2_A_eq c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) ((r3_hFirst t).mpr h0) (fun h => h1 ((r3_hLast t).mp h)) (r3_gBlk V c t) (r3_wBlk V c t))
  · by_cases h1 : t.val % 32 = 31
    · rw [r3_outsAt_C V c t h0 h1]; dsimp only
      exact key _ (r3_out2_C_eq c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) ((r3_hLast t).mpr h1) (r3_gBlk V c t) (r3_wBlk V c t) (r3_outsAt V c (t.val - 1) (Nat.lt_of_le_of_lt (Nat.sub_le _ _) t.isLt)).2.2.2)
    · rw [r3_outsAt_B V c t h0 h1]; dsimp only
      exact key _ (r3_out2_B_eq c (grid3.coords t) (r3_ms0 t) (r3_hs0 t) (r3_ms1 t) (r3_hs1 t) (r3_ms2 t) (r3_hs2 t) (r3_ms3 t) (r3_hs3 t) (r3_ms4 t) (r3_hs4 t) r3_scM (Memref.isWhole_whole _) (fun h => h0 ((r3_hFirst t).mp h)) (fun h => h1 ((r3_hLast t).mp h)) (r3_gBlk V c t) (r3_wBlk V c t) (r3_outsAt V c (t.val - 1) (Nat.lt_of_le_of_lt (Nat.sub_le _ _) t.isLt)).2.2.2)

theorem val3_in0 (c : Dev nD) : (dat3 (F := Ideal) V c).arrAt 0 cfg3.N = V c main_v127 :=
  ((dat3 V c).arrAt_in 0 rfl _).trans (A_eq3 V c 0)
theorem val3_in1 (c : Dev nD) : (dat3 (F := Ideal) V c).arrAt 1 cfg3.N = V c main_v128 :=
  ((dat3 V c).arrAt_in 1 rfl _).trans (A_eq3 V c 1)

def r3_G2 (c : Dev nD) : Vec Ideal S8192x32x128 .f32 := fun i => r3_conv V c (i 0) (i 1) (i 2)
def r3_G3 (c : Dev nD) : Vec Ideal S1x128 .f32 := fun i => ∑ p : Fin 8192, ∑ j : Fin 32, r3_conv V c p j (i 1)
def r3_G4 (c : Dev nD) : Vec Ideal S1x128 .f32 := fun i => ∑ p : Fin 8192, ∑ j : Fin 32, r3_conv V c p j (i 1) * r3_conv V c p j (i 1)

theorem r3_xsize2 : ∀ t : Fin grid3.N, win3_2.xsize (grid3.coords t) 0 = 256 ∧ win3_2.xsize (grid3.coords t) 1 = 32 ∧ win3_2.xsize (grid3.coords t) 2 = 128 := by decide +kernel
theorem r3_xsize3 : ∀ t : Fin grid3.N, win3_3.xsize (grid3.coords t) 0 = 1 ∧ win3_3.xsize (grid3.coords t) 1 = 128 := by decide +kernel
theorem r3_xsize4 : ∀ t : Fin grid3.N, win3_4.xsize (grid3.coords t) 0 = 1 ∧ win3_4.xsize (grid3.coords t) 1 = 128 := by decide +kernel

theorem r3_G2_at (c : Dev nD) (t : Fin cfg3.N) (a : Fin 256) (j : Fin 32) (o : Fin 128) (i : S8192x32x128.Idx)
    (h0 : (i 0).val = 256 * t.val + a.val) (h1 : (i 1).val = j.val) (h2 : (i 2).val = o.val) :
    (r3_outsAt V c t.val t.isLt).1 (ix3 a j o) = r3_G2 V c i := by
  unfold r3_G2
  rw [r3_block_rows V c t a j o (i 0) h0, show i 1 = j from Fin.ext h1, show i 2 = o from Fin.ext h2]
theorem r3_G3_at (c : Dev nD) (t : Fin cfg3.N) (h : t.val % 32 = 31) (o : Fin 128) (i : S1x128.Idx) (h1 : (i 1).val = o.val) :
    (r3_outsAt V c t.val t.isLt).2.1 (ix2 0 o) = r3_G3 V c i := by
  unfold r3_G3
  rw [(r3_last_rows V c t h o).1, show i 1 = o from Fin.ext h1]
theorem r3_G4_at (c : Dev nD) (t : Fin cfg3.N) (h : t.val % 32 = 31) (o : Fin 128) (i : S1x128.Idx) (h1 : (i 1).val = o.val) :
    (r3_outsAt V c t.val t.isLt).2.2.1 (ix2 0 o) = r3_G4 V c i := by
  unfold r3_G4
  rw [(r3_last_rows V c t h o).2, show i 1 = o from Fin.ext h1]

theorem r3_flushed2 (c : Dev nD) (t : Fin cfg3.N) (hf : (cfg3.win 2).flush t = true) :
    (dat3 V c).flushed 2 t = ((cfg3.win 2).blk t).view.read (Elt Ideal) (r3_G2 V c) := by
  have hi := r3_index2 t
  show (cfg3.win 2).cut (grid3.coords t) ((dat3 V c).after 2 t) = _
  rw [r3_after2]
  refine funext fun (y : S256x32x128.Idx) => ?_
  rw [View.read_apply]
  obtain ⟨a, j, o, rfl⟩ : ∃ (a : Fin 256) (j : Fin 32) (o : Fin 128), y = ix3 a j o := ⟨y 0, y 1, y 2, eq_ix3 y⟩
  show (r3_outsAt V c t.val t.isLt).1 (ix3 a j o) = r3_G2 V c _
  exact r3_G2_at V c t a j o _
    (by show win3_2.index t 0 * 256 + 1 * a.val = 256 * t.val + a.val; rw [hi.1]; omega)
    (by show win3_2.index t 1 * 32 + 1 * j.val = j.val; rw [hi.2.1]; omega)
    (by show win3_2.index t 2 * 128 + 1 * o.val = o.val; rw [hi.2.2]; omega)

theorem r3_mem2 (c : Dev nD) (i : ((cfg3.win 2).arr.view.loc (c.tc : Thread nD τ)).2.ty.Idx) (t : Fin cfg3.N)
    (ht : 256 * t.val ≤ (i 0 : Nat) ∧ (i 0 : Nat) < 256 * t.val + 256) : i ∈ ((cfg3.win 2).blk t).view.set := by
  have h1 : (i 1 : Nat) < 32 := (i 1).isLt
  have h2 : (i 2 : Nat) < 128 := (i 2).isLt
  have hi := r3_index2 t
  have hx := r3_xsize2 t
  show i ∈ ((View.whole main_v130_0).slice (win3_2.rect t)).set
  rw [View.set_slice_whole, Rect.mem_set_unit]
  intro x
  match x with
  | ⟨0, _⟩ => show win3_2.index t 0 * win3_2.size 0 ≤ (i 0 : Nat) ∧ (i 0 : Nat) < win3_2.index t 0 * win3_2.size 0 + win3_2.xsize (grid3.coords t) 0
              rw [hi.1, hx.1, show win3_2.size 0 = 256 from rfl]; omega
  | ⟨1, _⟩ => show win3_2.index t 1 * win3_2.size 1 ≤ (i 1 : Nat) ∧ (i 1 : Nat) < win3_2.index t 1 * win3_2.size 1 + win3_2.xsize (grid3.coords t) 1
              rw [hi.2.1, hx.2.1]; omega
  | ⟨2, _⟩ => show win3_2.index t 2 * win3_2.size 2 ≤ (i 2 : Nat) ∧ (i 2 : Nat) < win3_2.index t 2 * win3_2.size 2 + win3_2.xsize (grid3.coords t) 2
              rw [hi.2.2, hx.2.2]; omega
theorem r3_cover2 (c : Dev nD) (i : ((cfg3.win 2).arr.view.loc (c.tc : Thread nD τ)).2.ty.Idx) :
    ∃ t : Fin cfg3.N, (cfg3.win 2).flush t = true ∧ i ∈ ((cfg3.win 2).blk t).view.set := by
  have h0 : (i 0 : Nat) < 8192 := (i 0).isLt
  exact ⟨⟨(i 0 : Nat) / 256, by have hN : cfg3.N = 32 := N_3; omega⟩, flush3_2 _, r3_mem2 c i ⟨(i 0 : Nat) / 256, by have hN : cfg3.N = 32 := N_3; omega⟩ (by dsimp only; omega)⟩

theorem val3_h (c : Dev nD) (p : Fin 8192) (j : Fin 32) (o : Fin 128) :
    ((dat3 (F := Ideal) V c).arrAt 2 cfg3.N : Vec Ideal S8192x32x128 .f32) (ix3 p j o) = r3_conv V c p j o := by
  rw [(dat3 V c).arrAt_eq_of_cover 2 (r3_G2 V c) (r3_flushed2 V c) (r3_cover2 c)]
  rfl

theorem r3_flushed3 (c : Dev nD) (t : Fin cfg3.N) (hf : (cfg3.win 3).flush t = true) :
    (dat3 V c).flushed 3 t = ((cfg3.win 3).blk t).view.read (Elt Ideal) (r3_G3 V c) := by
  have hi := r3_index3 t
  have h15 := (flush3_3 t).mp hf
  show (cfg3.win 3).cut (grid3.coords t) ((dat3 V c).after 3 t) = _
  rw [r3_after3]
  refine funext fun (y : S1x128.Idx) => ?_
  rw [View.read_apply]
  obtain ⟨y0, o, rfl⟩ : ∃ (y0 : Fin 1) (o : Fin 128), y = ix2 y0 o := ⟨y 0, y 1, eq_ix2 y⟩
  obtain rfl : y0 = 0 := Subsingleton.elim _ _
  show (r3_outsAt V c t.val t.isLt).2.1 (ix2 0 o) = r3_G3 V c _
  exact r3_G3_at V c t h15 o _ (by show win3_3.index t 1 * 128 + 1 * o.val = o.val; rw [hi.2]; omega)
theorem r3_flushed4 (c : Dev nD) (t : Fin cfg3.N) (hf : (cfg3.win 4).flush t = true) :
    (dat3 V c).flushed 4 t = ((cfg3.win 4).blk t).view.read (Elt Ideal) (r3_G4 V c) := by
  have hi := r3_index4 t
  have h15 := (flush3_4 t).mp hf
  show (cfg3.win 4).cut (grid3.coords t) ((dat3 V c).after 4 t) = _
  rw [r3_after4]
  refine funext fun (y : S1x128.Idx) => ?_
  rw [View.read_apply]
  obtain ⟨y0, o, rfl⟩ : ∃ (y0 : Fin 1) (o : Fin 128), y = ix2 y0 o := ⟨y 0, y 1, eq_ix2 y⟩
  obtain rfl : y0 = 0 := Subsingleton.elim _ _
  show (r3_outsAt V c t.val t.isLt).2.2.1 (ix2 0 o) = r3_G4 V c _
  exact r3_G4_at V c t h15 o _ (by show win3_4.index t 1 * 128 + 1 * o.val = o.val; rw [hi.2]; omega)

theorem r3_mem3 (c : Dev nD) (i : ((cfg3.win 3).arr.view.loc (c.tc : Thread nD τ)).2.ty.Idx) (t : Fin cfg3.N) :
    i ∈ ((cfg3.win 3).blk t).view.set := by
  have h0 : (i 0 : Nat) < 1 := (i 0).isLt
  have h1 : (i 1 : Nat) < 128 := (i 1).isLt
  have hi := r3_index3 t
  have hx := r3_xsize3 t
  show i ∈ ((View.whole main_v130_1).slice (win3_3.rect t)).set
  rw [View.set_slice_whole, Rect.mem_set_unit]
  intro x
  match x with
  | ⟨0, _⟩ => show win3_3.index t 0 * win3_3.size 0 ≤ (i 0 : Nat) ∧ (i 0 : Nat) < win3_3.index t 0 * win3_3.size 0 + win3_3.xsize (grid3.coords t) 0
              rw [hi.1, hx.1]; omega
  | ⟨1, _⟩ => show win3_3.index t 1 * win3_3.size 1 ≤ (i 1 : Nat) ∧ (i 1 : Nat) < win3_3.index t 1 * win3_3.size 1 + win3_3.xsize (grid3.coords t) 1
              rw [hi.2, hx.2]; omega
theorem r3_cover3 (c : Dev nD) (i : ((cfg3.win 3).arr.view.loc (c.tc : Thread nD τ)).2.ty.Idx) :
    ∃ t : Fin cfg3.N, (cfg3.win 3).flush t = true ∧ i ∈ ((cfg3.win 3).blk t).view.set :=
  ⟨⟨31, by have hN : cfg3.N = 32 := N_3; omega⟩, (flush3_3 _).mpr rfl, r3_mem3 c i _⟩
theorem r3_mem4 (c : Dev nD) (i : ((cfg3.win 4).arr.view.loc (c.tc : Thread nD τ)).2.ty.Idx) (t : Fin cfg3.N) :
    i ∈ ((cfg3.win 4).blk t).view.set := by
  have h0 : (i 0 : Nat) < 1 := (i 0).isLt
  have h1 : (i 1 : Nat) < 128 := (i 1).isLt
  have hi := r3_index4 t
  have hx := r3_xsize4 t
  show i ∈ ((View.whole main_v130_2).slice (win3_4.rect t)).set
  rw [View.set_slice_whole, Rect.mem_set_unit]
  intro x
  match x with
  | ⟨0, _⟩ => show win3_4.index t 0 * win3_4.size 0 ≤ (i 0 : Nat) ∧ (i 0 : Nat) < win3_4.index t 0 * win3_4.size 0 + win3_4.xsize (grid3.coords t) 0
              rw [hi.1, hx.1]; omega
  | ⟨1, _⟩ => show win3_4.index t 1 * win3_4.size 1 ≤ (i 1 : Nat) ∧ (i 1 : Nat) < win3_4.index t 1 * win3_4.size 1 + win3_4.xsize (grid3.coords t) 1
              rw [hi.2, hx.2]; omega
theorem r3_cover4 (c : Dev nD) (i : ((cfg3.win 4).arr.view.loc (c.tc : Thread nD τ)).2.ty.Idx) :
    ∃ t : Fin cfg3.N, (cfg3.win 4).flush t = true ∧ i ∈ ((cfg3.win 4).blk t).view.set :=
  ⟨⟨31, by have hN : cfg3.N = 32 := N_3; omega⟩, (flush3_4 _).mpr rfl, r3_mem4 c i _⟩

theorem val3_sum (c : Dev nD) (o : Fin 128) :
    ((dat3 (F := Ideal) V c).arrAt 3 cfg3.N : Vec Ideal S1x128 .f32) (ix2 0 o) = ∑ p : Fin 8192, ∑ j : Fin 32, r3_conv V c p j o := by
  rw [(dat3 V c).arrAt_eq_of_cover 3 (r3_G3 V c) (r3_flushed3 V c) (r3_cover3 c)]
  rfl
theorem val3_sumsq (c : Dev nD) (o : Fin 128) :
    ((dat3 (F := Ideal) V c).arrAt 4 cfg3.N : Vec Ideal S1x128 .f32) (ix2 0 o) = ∑ p : Fin 8192, ∑ j : Fin 32, r3_conv V c p j o * r3_conv V c p j o := by
  rw [(dat3 V c).arrAt_eq_of_cover 4 (r3_G4 V c) (r3_flushed4 V c) (r3_cover4 c)]
  rfl

end Value

end Cert.KernelIdeal.HandVal
end
-- ==== Proof.Bridge1R0.lean ====
import proofs.«157081_j85761906966880_1_alg».proof.Proof.KiVal3
import proofs.«157081_j85761906966880_1_alg».proof.Proof.RefApply1
import Idealize.ShloMosaic.Lib.ValueIdx
open scoped BigOperators
noncomputable section

namespace Cert.Bridge

open Cert.KernelIdeal Cert.KernelIdeal.Hand Cert.KernelIdeal.HandVal
open Idealize.ShloMosaic Idealize.ShloMosaic.TcCoe
open Idealize.ShloMosaic.ValueIdx
open Cert.ReferenceIdeal.Hand

variable [Cert.ReferenceIdeal.Facts]
variable (V : (c : Dev nD) → (b : Ref sig .tc) → Buf (Elt Ideal) ((c : Thread nD τ).loc b))
  (c : Dev nD) (g : FVec Ideal S8192x32x67 .f32) (w : FVec Ideal S128x67 .f32)
  (hg : V c main_v127 = g)
  (hw : ∀ (k : Fin 67) (o : Fin 128), (V c main_v128 : Vec Ideal S67x128 .f32) (ix2 k o) = w (ix2 o k))
include hg hw

-- Term by term over the 67 features the two contractions read the same entries.
theorem r3_conv_eq (p : Fin 8192) (j : Fin 32) (o : Fin 128) :
    r3_conv V c p j o = r_h1_1 g w (ix3 p j o) := by
  subst hg
  rw [r_h1_1_apply]
  exact Finset.sum_congr rfl fun k _ => by rw [← hw]

theorem bridge1_r0_h (p : Fin 8192) (j : Fin 32) (o : Fin 128) :
    ((dat3 (F := Ideal) V c).arrAt 2 cfg3.N : Vec Ideal S8192x32x128 .f32) (ix3 p j o) = r_h1_1 g w (ix3 p j o) :=
  (val3_h V c p j o).trans (r3_conv_eq V c g w hg hw p j o)

theorem bridge1_r0_sum (o : Fin 128) :
    ((dat3 (F := Ideal) V c).arrAt 3 cfg3.N : Vec Ideal S1x128 .f32) (ix2 0 o)
      = ∑ p : Fin 8192, ∑ j : Fin 32, r_h1_1 g w (ix3 p j o) := by
  rw [val3_sum]; simp only [r3_conv_eq V c g w hg hw]

theorem bridge1_r0_sumsq (o : Fin 128) :
    ((dat3 (F := Ideal) V c).arrAt 4 cfg3.N : Vec Ideal S1x128 .f32) (ix2 0 o)
      = ∑ p : Fin 8192, ∑ j : Fin 32, r_h1_1 g w (ix3 p j o) * r_h1_1 g w (ix3 p j o) := by
  rw [val3_sumsq]; simp only [r3_conv_eq V c g w hg hw]

end Cert.Bridge

end
-- ==== Proof.KiVal4.lean ====
import proofs.«157081_j85761906966880_1_alg».proof.Proof.KiR4
import Idealize.ShloMosaic.Lib.Pipeline.Value
import Idealize.ShloMosaic.Lib.ValueIdx
import Idealize.ShloMosaic.PureOps.Ideal.Laws
set_option maxRecDepth 16384
noncomputable section
namespace Cert.KernelIdeal.HandVal
open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

abbrev hact4 (c : Dev nD) : S8192x32x128.Idx → EReal := V c main_v130_0
abbrev mean4 (c : Dev nD) : S1x1x128.Idx → EReal := V c main_v137
abbrev var4 (c : Dev nD) : S1x1x128.Idx → EReal := V c main_v138
abbrev gamma4 (c : Dev nD) : S1x1x128.Idx → EReal := V c main_v139
abbrev beta4 (c : Dev nD) : S1x1x128.Idx → EReal := V c main_v140
abbrev wgt4 (c : Dev nD) : S128x128.Idx → EReal := V c main_v129

def scale4 (c : Dev nD) (k : Fin 128) : EReal :=
  gamma4 V c (ix3 0 0 k) * Ideal.rsqrt (var4 V c (ix3 0 0 k) + Ideal.ofBits .f32 0x3727C5AC#32)
def shift4 (c : Dev nD) (k : Fin 128) : EReal :=
  beta4 V c (ix3 0 0 k) - mean4 V c (ix3 0 0 k) * scale4 V c k
def act4 (c : Dev nD) (r : Fin 8192) (n : Fin 32) (k : Fin 128) : EReal :=
  max (hact4 V c (ix3 r n k) * scale4 V c k + shift4 V c k) (Ideal.ofBits .f32 0x00000000#32)
def conv4 (c : Dev nD) (r : Fin 8192) (n : Fin 32) (ch : Fin 128) : EReal :=
  ∑ k : Fin 128, act4 V c r n k * wgt4 V c (ix2 k ch)

theorem mm4_apply (A : FVec Ideal S8192x128 .bf16) (B : FVec Ideal S128x128 .bf16) (a : Fin 8192) (b : Fin 128) :
    matmul dot_S8192x128_S128x128_S8192x128_1_0_0_1_n_n none A B (constant S8192x128 .f32 0x00000000#32) (ix2 a b)
      = ∑ k : Fin 128, A (ix2 a k) * B (ix2 k b) := by
  show FloatOps.matmul dot_S8192x128_S128x128_S8192x128_1_0_0_1_n_n none A B (constant S8192x128 .f32 0x00000000#32) (ix2 a b) = _
  rw [Ideal.matmul_constant_zero_apply,
    ← Equiv.sum_comp (contrEquiv1 dot_S8192x128_S128x128_S8192x128_1_0_0_1_n_n 128 rfl rfl).symm]
  refine Finset.sum_congr rfl fun k _ => ?_
  have c2 := contrEquiv1_symm_val dot_S8192x128_S128x128_S8192x128_1_0_0_1_n_n 128 rfl rfl k
  have l2 : dot_S8192x128_S128x128_S8192x128_1_0_0_1_n_n.lhsIdx (ix2 a b) ((contrEquiv1 _ 128 rfl rfl).symm k) = ix2 a k := by
    funext ax; apply Fin.ext
    match ax with
    | ⟨0, _⟩ => simp [DotDims.lhsIdx, dot_S8192x128_S128x128_S8192x128_1_0_0_1_n_n]; rfl
    | ⟨1, _⟩ => simp [DotDims.lhsIdx, dot_S8192x128_S128x128_S8192x128_1_0_0_1_n_n]; exact c2
  have r2 : dot_S8192x128_S128x128_S8192x128_1_0_0_1_n_n.rhsIdx (ix2 a b) ((contrEquiv1 _ 128 rfl rfl).symm k) = ix2 k b := by
    funext ax; apply Fin.ext
    match ax with
    | ⟨0, _⟩ => simp [DotDims.rhsIdx, dot_S8192x128_S128x128_S8192x128_1_0_0_1_n_n]; exact c2
    | ⟨1, _⟩ => simp [DotDims.rhsIdx, dot_S8192x128_S128x128_S8192x128_1_0_0_1_n_n]; rfl
  rw [l2, r2]

def sc4 (x2 x3 : Vec Ideal S1x1x128 .f32) (k : Fin 128) : EReal :=
  x3 (ix3 0 0 k) * Ideal.rsqrt (x2 (ix3 0 0 k) + Ideal.ofBits .f32 0x3727C5AC#32)
def sh4 (x1 x2 x3 x4 : Vec Ideal S1x1x128 .f32) (k : Fin 128) : EReal :=
  x4 (ix3 0 0 k) - x1 (ix3 0 0 k) * sc4 x2 x3 k

theorem pay4_4_apply (x0 : Vec Ideal S256x32x128 .f32) (x1 x2 x3 x4 : Vec Ideal S1x1x128 .f32) (x5 : Vec Ideal S128x128 .f32)
    (p : Fin 256) (n : Fin 32) (q : Fin 8192) (hq : q.val = 32 * p.val + n.val) (ch : Fin 128) :
    k4_pay4 x0 x2 x3 x4 x1 x5 (ix2 q ch)
      = ∑ k : Fin 128, max (x0 (ix3 p n k) * sc4 x2 x3 k + sh4 x1 x2 x3 x4 k) (Ideal.ofBits .f32 0x00000000#32) * x5 (ix2 k ch) := by
  unfold k4_pay4
  simp only [shapeCast_self]
  refine (mm4_apply _ _ q ch).trans ?_
  refine Finset.sum_congr rfl fun k _ => ?_
  refine congrArg₂ (· * ·) ?_ rfl
  refine (truncf_apply _ bitsLt_bf16_f32 (ix2 q k)).trans ?_
  refine (shapeCast_apply _ shapeCasts_S256x32x128_S8192x128 (ix2 q k) (ix3 p n k) ?_).trans ?_
  · rw [Shape.rowMajor_val_three, Shape.rowMajor_val_two]
    show (p.val * 32 + n.val) * 128 + k.val = q.val * 128 + k.val
    rw [hq]; ring
  · have b1 : ∀ (v : Vec Ideal S1x1x128 .f32), broadcastTo S256x32x128 v broadcasts_S1x1x128_S256x32x128 (ix3 p n k) = v (ix3 0 0 k) := fun v =>
      broadcastTo_apply v broadcasts_S1x1x128_S256x32x128 (ix3 p n k) (ix3 0 0 k) (fun a => by
        match a with
        | ⟨0, _⟩ => rfl
        | ⟨1, _⟩ => rfl
        | ⟨2, _⟩ => rfl)
    simp only [maximumf_apply, addf_apply, mulf_apply, subf_apply]
    rw [b1, b1]
    rfl

theorem pay4_5_apply (x0 : Vec Ideal S256x32x128 .f32) (x1 x2 x3 x4 : Vec Ideal S1x1x128 .f32) (x5 : Vec Ideal S128x128 .f32)
    (p : Fin 256) (n : Fin 32) (ch : Fin 128) :
    k4_pay5 x0 x2 x3 x4 x1 x5 (ix3 p n ch)
      = ∑ k : Fin 128, max (x0 (ix3 p n k) * sc4 x2 x3 k + sh4 x1 x2 x3 x4 k) (Ideal.ofBits .f32 0x00000000#32) * x5 (ix2 k ch) := by
  unfold k4_pay5
  refine (shapeCast_apply _ shapeCasts_S8192x128_S256x32x128 (ix3 p n ch)
    (ix2 (⟨32 * p.val + n.val, by have := p.isLt; have := n.isLt; omega⟩ : Fin 8192) ch) ?_).trans ?_
  · rw [Shape.rowMajor_val_two, Shape.rowMajor_val_three]
    show (32 * p.val + n.val) * 128 + ch.val = (p.val * 32 + n.val) * 128 + ch.val
    ring
  · exact pay4_4_apply x0 x1 x2 x3 x4 x5 p n _ rfl ch

theorem lift4_eq (ch : Fin 128) (q : Fin 8192) :
    reduces_S8192x128_S128.lift (ix1 ch) q = ix2 q ch := by
  funext a; apply Fin.ext
  match a with
  | ⟨0, _⟩ => rfl
  | ⟨1, _⟩ => rfl

theorem pay4_1_apply (P : FVec Ideal S8192x128 .f32) (v : Vec Ideal S1x128 .f32) (ch : Fin 128) :
    k4_pay1 P v (ix2 0 ch) = v (ix2 0 ch) + ∑ q : Fin 8192, P (ix2 q ch) := by
  unfold k4_pay1
  simp only [shapeCast_self]
  refine (addf_apply _ _ _).trans ?_
  refine congrArg (v (ix2 0 ch) + ·) ?_
  refine (shapeCast_apply _ shapeCasts_S128_S1x128 (ix2 0 ch) (ix1 ch) ?_).trans ?_
  · rw [Shape.rowMajor_val_one, Shape.rowMajor_val_two]
    show ch.val = 0 * 128 + ch.val
    omega
  · refine (Ideal.multiReduction_add_single P _ reduces_S8192x128_S128 _ _ (ix1 ch)).trans ?_
    exact Finset.sum_congr rfl fun q _ => congrArg P (lift4_eq ch q)

theorem pay4_2_apply (P : FVec Ideal S8192x128 .f32) (v : Vec Ideal S1x128 .f32) (ch : Fin 128) :
    k4_pay2 P v (ix2 0 ch) = v (ix2 0 ch) + ∑ q : Fin 8192, P (ix2 q ch) * P (ix2 q ch) := by
  unfold k4_pay2
  simp only [shapeCast_self]
  refine (addf_apply _ _ _).trans ?_
  refine congrArg (v (ix2 0 ch) + ·) ?_
  refine (shapeCast_apply _ shapeCasts_S128_S1x128 (ix2 0 ch) (ix1 ch) ?_).trans ?_
  · rw [Shape.rowMajor_val_one, Shape.rowMajor_val_two]
    show ch.val = 0 * 128 + ch.val
    omega
  · refine (Ideal.multiReduction_add_single (mulf P P) _ reduces_S8192x128_S128 _ _ (ix1 ch)).trans ?_
    exact Finset.sum_congr rfl fun q _ => (congrArg (mulf P P) (lift4_eq ch q)).trans (mulf_apply P P (ix2 q ch))

theorem sum_flat4 (G : Fin 8192 → EReal) :
    ∑ q : Fin 8192, G q = ∑ p : Fin 256, ∑ n : Fin 32, G ⟨32 * p.val + n.val, by have := p.isLt; have := n.isLt; omega⟩ := by
  rw [← (finProdFinEquiv (m := 256) (n := 32)).sum_comp G, Fintype.sum_prod_type]
  refine Finset.sum_congr rfl fun p _ => Finset.sum_congr rfl fun n _ => congrArg G (Fin.ext ?_)
  show n.val + 32 * p.val = 32 * p.val + n.val
  omega

theorem sum_rows4 (H : Fin 8192 → EReal) :
    ∑ t : Fin 32, ∑ p : Fin 256, H ⟨256 * t.val + p.val, by have := t.isLt; have := p.isLt; omega⟩ = ∑ r : Fin 8192, H r := by
  rw [← (finProdFinEquiv (m := 32) (n := 256)).sum_comp H, Fintype.sum_prod_type]
  refine Finset.sum_congr rfl fun t _ => Finset.sum_congr rfl fun p _ => congrArg H (Fin.ext ?_)
  show 256 * t.val + p.val = p.val + 256 * t.val
  omega

variable {Val : EltTy → Type}

abbrev rect4_r0 : Rect S2x128 := Rect.unit (s := S2x128) ![0, 0] S1x128.size inb_S2x128_S1x128_0_0
abbrev rect4_r1 : Rect S2x128 := Rect.unit (s := S2x128) ![1, 0] S1x128.size inb_S2x128_S1x128_1_0

theorem emb4_r0 (ch : Fin 128) : rect4_r0.emb (ix2 0 ch) = ix2 0 ch := by
  funext a; apply Fin.ext
  match a with
  | ⟨0, _⟩ => rfl
  | ⟨1, _⟩ => show 0 + 1 * ch.val = ch.val; omega
theorem emb4_r1 (ch : Fin 128) : rect4_r1.emb (ix2 0 ch) = ix2 1 ch := by
  funext a; apply Fin.ext
  match a with
  | ⟨0, _⟩ => rfl
  | ⟨1, _⟩ => show 0 + 1 * ch.val = ch.val; omega
theorem nmem4_r1 (ch : Fin 128) : (ix2 0 ch : S2x128.Idx) ∉ rect4_r1.set := by
  rw [Rect.mem_set_unit]
  intro h
  exact absurd (h 0).1 (show ¬((1 : ℕ) ≤ 0) from by decide)
theorem nmem4_r0 (ch : Fin 128) : (ix2 1 ch : S2x128.Idx) ∉ rect4_r0.set := by
  rw [Rect.mem_set_unit]
  intro h
  exact absurd (h 0).2 (show ¬((1 : ℕ) < 0 + 1) from by decide)
theorem ld4_r0 (X : S2x128.Idx → Val .f32) (ch : Fin 128) : View.ld X rect4_r0 (ix2 0 ch) = X (ix2 0 ch) :=
  congrArg X (emb4_r0 ch)
theorem ld4_r1 (X : S2x128.Idx → Val .f32) (ch : Fin 128) : View.ld X rect4_r1 (ix2 0 ch) = X (ix2 1 ch) :=
  congrArg X (emb4_r1 ch)

theorem hz4_2 : (![0, 0] : Fin 2 → Nat) = fun _ => 0 := funext fun a => by fin_cases a <;> rfl
theorem hz4_3 : (![0, 0, 0] : Fin 3 → Nat) = fun _ => 0 := funext fun a => by fin_cases a <;> rfl

theorem canon4_rows_0 (w1 w0 : S1x128.Idx → Elt Ideal .f32) (L : List (View.Piece (Elt Ideal) S2x128 .f32)) (ch : Fin 128) :
    View.canon ((⟨rect4_r1, w1⟩ : View.Piece (Elt Ideal) S2x128 .f32) :: ⟨rect4_r0, w0⟩ :: L) (ix2 0 ch) = w0 (ix2 0 ch) := by
  refine (View.canon_cons_of_not_mem (⟨rect4_r1, w1⟩ : View.Piece (Elt Ideal) S2x128 .f32) (⟨rect4_r0, w0⟩ :: L) (nmem4_r1 ch)).trans ?_
  exact (congrArg (View.canon ((⟨rect4_r0, w0⟩ : View.Piece (Elt Ideal) S2x128 .f32) :: L)) (emb4_r0 ch).symm).trans
    (View.canon_cons_emb (Val := Elt Ideal) rect4_r0 w0 L (ix2 0 ch))
theorem canon4_rows_1 (w1 w0 : S1x128.Idx → Elt Ideal .f32) (L : List (View.Piece (Elt Ideal) S2x128 .f32)) (ch : Fin 128) :
    View.canon ((⟨rect4_r1, w1⟩ : View.Piece (Elt Ideal) S2x128 .f32) :: ⟨rect4_r0, w0⟩ :: L) (ix2 1 ch) = w1 (ix2 0 ch) := by
  exact (congrArg (View.canon ((⟨rect4_r1, w1⟩ : View.Piece (Elt Ideal) S2x128 .f32) :: ⟨rect4_r0, w0⟩ :: L)) (emb4_r1 ch).symm).trans
    (View.canon_cons_emb (Val := Elt Ideal) rect4_r1 w1 (⟨rect4_r0, w0⟩ :: L) (ix2 0 ch))

section
variable (c : Dev nD) (i : grid4.Coords) (arg1 : Memref sig .tc .vmem S256x32x128 .f32) (harg1 : arg1.IsWhole) (arg2 : Memref sig .tc .vmem S1x1x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128x128 .f32) (harg6 : arg6.IsWhole) (arg7 : Memref sig .tc .vmem S256x32x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2x128 .f32) (harg10 : arg10.IsWhole)
theorem piece4_A_6 (hc0 : cond4_0 i) (hc1 : ¬cond4_1 i) (x0 : Vec Ideal S256x32x128 .f32) (x1 x2 x3 x4 : Vec Ideal S1x1x128 .f32) (x5 : Vec Ideal S128x128 .f32) : out4_A_6 c i arg1 harg1 arg2 harg2 arg3 harg3 arg4 harg4 arg5 harg5 arg6 harg6 arg7 harg7 arg8 harg8 arg9 harg9 arg10 harg10 hc0 hc1 x0 x1 x2 x3 x4 x5 = k4_pay5 x0 x2 x3 x4 x1 x5 := by
  unfold out4_A_6 kernelRun4_A
  dsimp only
  sl_unfold_words
  rw [View.canon_unit_zero hz4_3]
  simp only [View.readAt_eq_ld, harg1.read_unread, harg2.read_unread, harg3.read_unread, harg4.read_unread, harg5.read_unread, harg6.read_unread,
    View.ld_unit_zero (S := S256x32x128) hz4_3, View.ld_unit_zero (S := S1x1x128) hz4_3, View.ld_unit_zero (S := S128x128) hz4_2]
theorem piece4_B_6 (hc0 : ¬cond4_0 i) (hc1 : ¬cond4_1 i) (x0 : Vec Ideal S256x32x128 .f32) (x1 x2 x3 x4 : Vec Ideal S1x1x128 .f32) (x5 : Vec Ideal S128x128 .f32) (xs0 : Vec Ideal S2x128 .f32) : out4_B_6 c i arg1 harg1 arg2 harg2 arg3 harg3 arg4 harg4 arg5 harg5 arg6 harg6 arg7 harg7 arg8 harg8 arg9 harg9 arg10 harg10 hc0 hc1 x0 x1 x2 x3 x4 x5 xs0 = k4_pay5 x0 x2 x3 x4 x1 x5 := by
  unfold out4_B_6 kernelRun4_B
  dsimp only
  sl_unfold_words
  rw [View.canon_unit_zero hz4_3]
  simp only [View.readAt_eq_ld, harg1.read_unread, harg2.read_unread, harg3.read_unread, harg4.read_unread, harg5.read_unread, harg6.read_unread,
    View.ld_unit_zero (S := S256x32x128) hz4_3, View.ld_unit_zero (S := S1x1x128) hz4_3, View.ld_unit_zero (S := S128x128) hz4_2]
theorem piece4_C_6 (hc0 : ¬cond4_0 i) (hc1 : cond4_1 i) (x0 : Vec Ideal S256x32x128 .f32) (x1 x2 x3 x4 : Vec Ideal S1x1x128 .f32) (x5 : Vec Ideal S128x128 .f32) (xs0 : Vec Ideal S2x128 .f32) : out4_C_6 c i arg1 harg1 arg2 harg2 arg3 harg3 arg4 harg4 arg5 harg5 arg6 harg6 arg7 harg7 arg8 harg8 arg9 harg9 arg10 harg10 hc0 hc1 x0 x1 x2 x3 x4 x5 xs0 = k4_pay5 x0 x2 x3 x4 x1 x5 := by
  unfold out4_C_6 kernelRun4_C
  dsimp only
  sl_unfold_words
  rw [View.canon_unit_zero hz4_3]
  simp only [View.readAt_eq_ld, harg1.read_unread, harg2.read_unread, harg3.read_unread, harg4.read_unread, harg5.read_unread, harg6.read_unread,
    View.ld_unit_zero (S := S256x32x128) hz4_3, View.ld_unit_zero (S := S1x1x128) hz4_3, View.ld_unit_zero (S := S128x128) hz4_2]

section
variable (hc0 : ¬cond4_0 i) (hc1 : ¬cond4_1 i) (x0 : Vec Ideal S256x32x128 .f32) (x1 x2 x3 x4 : Vec Ideal S1x1x128 .f32) (x5 : Vec Ideal S128x128 .f32) (xs0 : Vec Ideal S2x128 .f32)
include hc0 hc1
theorem piece4_B_s0 (ch : Fin 128) :
    sout4_B c i arg1 harg1 arg2 harg2 arg3 harg3 arg4 harg4 arg5 harg5 arg6 harg6 arg7 harg7 arg8 harg8 arg9 harg9 arg10 harg10 hc0 hc1 x0 x1 x2 x3 x4 x5 xs0 (ix2 0 ch) = xs0 (ix2 0 ch) + ∑ q : Fin 8192, k4_pay4 x0 x2 x3 x4 x1 x5 (ix2 q ch) := by
  unfold sout4_B kernelRun4_B
  dsimp only
  sl_unfold_words
  refine (canon4_rows_0 _ _ _ ch).trans ?_
  refine (pay4_1_apply _ _ ch).trans ?_
  simp only [View.readAt_eq_ld, harg1.read_unread, harg2.read_unread, harg3.read_unread, harg4.read_unread, harg5.read_unread, harg6.read_unread, harg10.read_unread,
    View.ld_unit_zero (S := S256x32x128) hz4_3, View.ld_unit_zero (S := S1x1x128) hz4_3, View.ld_unit_zero (S := S128x128) hz4_2]
  rw [ld4_r0]
theorem piece4_B_s1 (ch : Fin 128) :
    sout4_B c i arg1 harg1 arg2 harg2 arg3 harg3 arg4 harg4 arg5 harg5 arg6 harg6 arg7 harg7 arg8 harg8 arg9 harg9 arg10 harg10 hc0 hc1 x0 x1 x2 x3 x4 x5 xs0 (ix2 1 ch) = xs0 (ix2 1 ch) + ∑ q : Fin 8192, k4_pay4 x0 x2 x3 x4 x1 x5 (ix2 q ch) * k4_pay4 x0 x2 x3 x4 x1 x5 (ix2 q ch) := by
  unfold sout4_B kernelRun4_B
  dsimp only
  sl_unfold_words
  refine (canon4_rows_1 _ _ _ ch).trans ?_
  refine (pay4_2_apply _ _ ch).trans ?_
  simp only [View.readAt_eq_ld, harg1.read_unread, harg2.read_unread, harg3.read_unread, harg4.read_unread, harg5.read_unread, harg6.read_unread, harg10.read_unread,
    View.ld_unit_zero (S := S256x32x128) hz4_3, View.ld_unit_zero (S := S1x1x128) hz4_3, View.ld_unit_zero (S := S128x128) hz4_2]
  rw [ld4_r1]
end
section
variable (hc0 : ¬cond4_0 i) (hc1 : cond4_1 i) (x0 : Vec Ideal S256x32x128 .f32) (x1 x2 x3 x4 : Vec Ideal S1x1x128 .f32) (x5 : Vec Ideal S128x128 .f32) (xs0 : Vec Ideal S2x128 .f32)
include hc0 hc1
theorem piece4_C_s0 (ch : Fin 128) :
    sout4_C c i arg1 harg1 arg2 harg2 arg3 harg3 arg4 harg4 arg5 harg5 arg6 harg6 arg7 harg7 arg8 harg8 arg9 harg9 arg10 harg10 hc0 hc1 x0 x1 x2 x3 x4 x5 xs0 (ix2 0 ch) = xs0 (ix2 0 ch) + ∑ q : Fin 8192, k4_pay4 x0 x2 x3 x4 x1 x5 (ix2 q ch) := by
  unfold sout4_C kernelRun4_C
  dsimp only
  sl_unfold_words
  refine (canon4_rows_0 _ _ _ ch).trans ?_
  refine (pay4_1_apply _ _ ch).trans ?_
  simp only [View.readAt_eq_ld, harg1.read_unread, harg2.read_unread, harg3.read_unread, harg4.read_unread, harg5.read_unread, harg6.read_unread, harg10.read_unread,
    View.ld_unit_zero (S := S256x32x128) hz4_3, View.ld_unit_zero (S := S1x1x128) hz4_3, View.ld_unit_zero (S := S128x128) hz4_2]
  rw [ld4_r0]
theorem piece4_C_s1 (ch : Fin 128) :
    sout4_C c i arg1 harg1 arg2 harg2 arg3 harg3 arg4 harg4 arg5 harg5 arg6 harg6 arg7 harg7 arg8 harg8 arg9 harg9 arg10 harg10 hc0 hc1 x0 x1 x2 x3 x4 x5 xs0 (ix2 1 ch) = xs0 (ix2 1 ch) + ∑ q : Fin 8192, k4_pay4 x0 x2 x3 x4 x1 x5 (ix2 q ch) * k4_pay4 x0 x2 x3 x4 x1 x5 (ix2 q ch) := by
  unfold sout4_C kernelRun4_C
  dsimp only
  sl_unfold_words
  refine (canon4_rows_1 _ _ _ ch).trans ?_
  refine (pay4_2_apply _ _ ch).trans ?_
  simp only [View.readAt_eq_ld, harg1.read_unread, harg2.read_unread, harg3.read_unread, harg4.read_unread, harg5.read_unread, harg6.read_unread, harg10.read_unread,
    View.ld_unit_zero (S := S256x32x128) hz4_3, View.ld_unit_zero (S := S1x1x128) hz4_3, View.ld_unit_zero (S := S128x128) hz4_2]
  rw [ld4_r1]

theorem piece4_C_7 (ch : Fin 128) : out4_C_7 c i arg1 harg1 arg2 harg2 arg3 harg3 arg4 harg4 arg5 harg5 arg6 harg6 arg7 harg7 arg8 harg8 arg9 harg9 arg10 harg10 hc0 hc1 x0 x1 x2 x3 x4 x5 xs0 (ix2 0 ch) = sout4_C c i arg1 harg1 arg2 harg2 arg3 harg3 arg4 harg4 arg5 harg5 arg6 harg6 arg7 harg7 arg8 harg8 arg9 harg9 arg10 harg10 hc0 hc1 x0 x1 x2 x3 x4 x5 xs0 (ix2 0 ch) := by
  unfold out4_C_7 sout4_C kernelRun4_C
  dsimp only
  sl_unfold_words
  refine (congrFun (View.canon_unit_zero (S := S1x128) hz4_2 _ _) (ix2 0 ch)).trans ?_
  refine (congrFun (View.readCov_eq_canon' _ _ _) _).trans ?_
  exact congrArg _ (emb4_r0 ch)
theorem piece4_C_8 (ch : Fin 128) : out4_C_8 c i arg1 harg1 arg2 harg2 arg3 harg3 arg4 harg4 arg5 harg5 arg6 harg6 arg7 harg7 arg8 harg8 arg9 harg9 arg10 harg10 hc0 hc1 x0 x1 x2 x3 x4 x5 xs0 (ix2 0 ch) = sout4_C c i arg1 harg1 arg2 harg2 arg3 harg3 arg4 harg4 arg5 harg5 arg6 harg6 arg7 harg7 arg8 harg8 arg9 harg9 arg10 harg10 hc0 hc1 x0 x1 x2 x3 x4 x5 xs0 (ix2 1 ch) := by
  unfold out4_C_8 sout4_C kernelRun4_C
  dsimp only
  sl_unfold_words
  refine (congrFun (View.canon_unit_zero (S := S1x128) hz4_2 _ _) (ix2 0 ch)).trans ?_
  refine (congrFun (View.readCov_eq_canon' _ _ _) _).trans ?_
  exact congrArg _ (emb4_r1 ch)

end
theorem pay4_3_apply (j : S2x128.Idx) : k4_pay3 (F := Ideal) j = Ideal.ofBits .f32 0x00000000#32 := by
  unfold k4_pay3
  simp only [shapeCast_self]
  rfl

section
variable (hc0 : cond4_0 i) (hc1 : ¬cond4_1 i) (x0 : Vec Ideal S256x32x128 .f32) (x1 x2 x3 x4 : Vec Ideal S1x1x128 .f32) (x5 : Vec Ideal S128x128 .f32)
include hc0 hc1
theorem piece4_A_s0 (ch : Fin 128) :
    sout4_A c i arg1 harg1 arg2 harg2 arg3 harg3 arg4 harg4 arg5 harg5 arg6 harg6 arg7 harg7 arg8 harg8 arg9 harg9 arg10 harg10 hc0 hc1 x0 x1 x2 x3 x4 x5 (ix2 0 ch) = Ideal.ofBits .f32 0x00000000#32 + ∑ q : Fin 8192, k4_pay4 x0 x2 x3 x4 x1 x5 (ix2 q ch) := by
  unfold sout4_A kernelRun4_A
  dsimp only
  sl_unfold_words
  refine (canon4_rows_0 _ _ _ ch).trans ?_
  refine (pay4_1_apply _ _ ch).trans ?_
  simp only [View.readAt_eq_ld, harg1.read_unread, harg2.read_unread, harg3.read_unread, harg4.read_unread, harg5.read_unread, harg6.read_unread,
    View.ld_unit_zero (S := S256x32x128) hz4_3, View.ld_unit_zero (S := S1x1x128) hz4_3, View.ld_unit_zero (S := S128x128) hz4_2]
  refine congrArg (· + _) ?_
  refine (congrFun (View.readCov_eq_canon' _ _ _) _).trans ?_
  refine (congrFun (View.canon_unit_zero (S := S2x128) hz4_2 _ _) _).trans ?_
  exact pay4_3_apply _
theorem piece4_A_s1 (ch : Fin 128) :
    sout4_A c i arg1 harg1 arg2 harg2 arg3 harg3 arg4 harg4 arg5 harg5 arg6 harg6 arg7 harg7 arg8 harg8 arg9 harg9 arg10 harg10 hc0 hc1 x0 x1 x2 x3 x4 x5 (ix2 1 ch) = Ideal.ofBits .f32 0x00000000#32 + ∑ q : Fin 8192, k4_pay4 x0 x2 x3 x4 x1 x5 (ix2 q ch) * k4_pay4 x0 x2 x3 x4 x1 x5 (ix2 q ch) := by
  unfold sout4_A kernelRun4_A
  dsimp only
  sl_unfold_words
  refine (canon4_rows_1 _ _ _ ch).trans ?_
  refine (pay4_2_apply _ _ ch).trans ?_
  simp only [View.readAt_eq_ld, harg1.read_unread, harg2.read_unread, harg3.read_unread, harg4.read_unread, harg5.read_unread, harg6.read_unread,
    View.ld_unit_zero (S := S256x32x128) hz4_3, View.ld_unit_zero (S := S1x1x128) hz4_3, View.ld_unit_zero (S := S128x128) hz4_2]
  refine congrArg (· + _) ?_
  refine (congrFun (View.readCov_eq_canon' _ _ _) _).trans ?_
  refine (congrArg _ (emb4_r1 ch)).trans ?_
  refine (View.canon_cons_of_not_mem _ _ (nmem4_r0 ch)).trans ?_
  refine (congrFun (View.canon_unit_zero (S := S2x128) hz4_2 _ _) _).trans ?_
  exact pay4_3_apply _
end
end

abbrev xb4_0 (c : Dev nD) (t : Fin cfg4.N) : Vec Ideal S256x32x128 .f32 := iblk4 V c 0 t
abbrev xb4_1 (c : Dev nD) (t : Fin cfg4.N) : Vec Ideal S1x1x128 .f32 := iblk4 V c 1 t
abbrev xb4_2 (c : Dev nD) (t : Fin cfg4.N) : Vec Ideal S1x1x128 .f32 := iblk4 V c 2 t
abbrev xb4_3 (c : Dev nD) (t : Fin cfg4.N) : Vec Ideal S1x1x128 .f32 := iblk4 V c 3 t
abbrev xb4_4 (c : Dev nD) (t : Fin cfg4.N) : Vec Ideal S1x1x128 .f32 := iblk4 V c 4 t
abbrev xb4_5 (c : Dev nD) (t : Fin cfg4.N) : Vec Ideal S128x128 .f32 := iblk4 V c 5 t

theorem idx4_0 : ∀ t : Fin cfg4.N, win4_0.index t 0 = t.val ∧ win4_0.index t 1 = 0 ∧ win4_0.index t 2 = 0 := by decide +kernel
theorem idx4_1 : ∀ t : Fin cfg4.N, win4_1.index t 0 = 0 ∧ win4_1.index t 1 = 0 ∧ win4_1.index t 2 = 0 := by decide +kernel
theorem idx4_2 : ∀ t : Fin cfg4.N, win4_2.index t 0 = 0 ∧ win4_2.index t 1 = 0 ∧ win4_2.index t 2 = 0 := by decide +kernel
theorem idx4_3 : ∀ t : Fin cfg4.N, win4_3.index t 0 = 0 ∧ win4_3.index t 1 = 0 ∧ win4_3.index t 2 = 0 := by decide +kernel
theorem idx4_4 : ∀ t : Fin cfg4.N, win4_4.index t 0 = 0 ∧ win4_4.index t 1 = 0 ∧ win4_4.index t 2 = 0 := by decide +kernel
theorem idx4_5 : ∀ t : Fin cfg4.N, win4_5.index t 0 = 0 ∧ win4_5.index t 1 = 0 := by decide +kernel
theorem idx4_6 : ∀ t : Fin cfg4.N, win4_6.index t 0 = t.val ∧ win4_6.index t 1 = 0 ∧ win4_6.index t 2 = 0 := by decide +kernel
theorem idx4_7 : ∀ t : Fin cfg4.N, win4_7.index t 0 = 0 ∧ win4_7.index t 1 = 0 := by decide +kernel
theorem idx4_8 : ∀ t : Fin cfg4.N, win4_8.index t 0 = 0 ∧ win4_8.index t 1 = 0 := by decide +kernel

theorem tlt4 (t : Fin cfg4.N) : t.val < 32 := lt_of_lt_of_eq t.isLt (show cfg4.N = 32 from N_4)

abbrev row4 (t : Fin cfg4.N) (p : Fin 256) : Fin 8192 := ⟨256 * t.val + p.val, by have := tlt4 t; have := p.isLt; omega⟩

theorem xb4_0_apply (c : Dev nD) (t : Fin cfg4.N) (p : Fin 256) (n : Fin 32) (k : Fin 128) :
    xb4_0 V c t (ix3 p n k) = hact4 V c (ix3 (row4 t p) n k) := by
  show iblk4 V c 0 t (ix3 p n k) = _
  unfold iblk4
  rw [View.read_apply]
  show V c main_v130_0 _ = V c main_v130_0 _
  congr 1
  funext a
  apply Fin.ext
  match a with
  | ⟨0, _⟩ => show win4_0.index t 0 * 256 + 1 * p.val = 256 * t.val + p.val; rw [(idx4_0 t).1]; omega
  | ⟨1, _⟩ => show win4_0.index t 1 * 32 + 1 * n.val = n.val; rw [(idx4_0 t).2.1]; omega
  | ⟨2, _⟩ => show win4_0.index t 2 * 128 + 1 * k.val = k.val; rw [(idx4_0 t).2.2]; omega

theorem xb4_1_eq (c : Dev nD) (t : Fin cfg4.N) : xb4_1 V c t = mean4 V c := by
  funext j
  show iblk4 V c 1 t j = _
  unfold iblk4
  rw [View.read_apply]
  show V c main_v137 _ = V c main_v137 _
  congr 1
  funext a
  apply Fin.ext
  match a with
  | ⟨0, _⟩ => show win4_1.index t 0 * 1 + 1 * (j 0).val = (j 0).val; rw [(idx4_1 t).1]; omega
  | ⟨1, _⟩ => show win4_1.index t 1 * 1 + 1 * (j 1).val = (j 1).val; rw [(idx4_1 t).2.1]; omega
  | ⟨2, _⟩ => show win4_1.index t 2 * 128 + 1 * (j 2).val = (j 2).val; rw [(idx4_1 t).2.2]; omega
theorem xb4_2_eq (c : Dev nD) (t : Fin cfg4.N) : xb4_2 V c t = var4 V c := by
  funext j
  show iblk4 V c 2 t j = _
  unfold iblk4
  rw [View.read_apply]
  show V c main_v138 _ = V c main_v138 _
  congr 1
  funext a
  apply Fin.ext
  match a with
  | ⟨0, _⟩ => show win4_2.index t 0 * 1 + 1 * (j 0).val = (j 0).val; rw [(idx4_2 t).1]; omega
  | ⟨1, _⟩ => show win4_2.index t 1 * 1 + 1 * (j 1).val = (j 1).val; rw [(idx4_2 t).2.1]; omega
  | ⟨2, _⟩ => show win4_2.index t 2 * 128 + 1 * (j 2).val = (j 2).val; rw [(idx4_2 t).2.2]; omega
theorem xb4_3_eq (c : Dev nD) (t : Fin cfg4.N) : xb4_3 V c t = gamma4 V c := by
  funext j
  show iblk4 V c 3 t j = _
  unfold iblk4
  rw [View.read_apply]
  show V c main_v139 _ = V c main_v139 _
  congr 1
  funext a
  apply Fin.ext
  match a with
  | ⟨0, _⟩ => show win4_3.index t 0 * 1 + 1 * (j 0).val = (j 0).val; rw [(idx4_3 t).1]; omega
  | ⟨1, _⟩ => show win4_3.index t 1 * 1 + 1 * (j 1).val = (j 1).val; rw [(idx4_3 t).2.1]; omega
  | ⟨2, _⟩ => show win4_3.index t 2 * 128 + 1 * (j 2).val = (j 2).val; rw [(idx4_3 t).2.2]; omega
theorem xb4_4_eq (c : Dev nD) (t : Fin cfg4.N) : xb4_4 V c t = beta4 V c := by
  funext j
  show iblk4 V c 4 t j = _
  unfold iblk4
  rw [View.read_apply]
  show V c main_v140 _ = V c main_v140 _
  congr 1
  funext a
  apply Fin.ext
  match a with
  | ⟨0, _⟩ => show win4_4.index t 0 * 1 + 1 * (j 0).val = (j 0).val; rw [(idx4_4 t).1]; omega
  | ⟨1, _⟩ => show win4_4.index t 1 * 1 + 1 * (j 1).val = (j 1).val; rw [(idx4_4 t).2.1]; omega
  | ⟨2, _⟩ => show win4_4.index t 2 * 128 + 1 * (j 2).val = (j 2).val; rw [(idx4_4 t).2.2]; omega
theorem xb4_5_eq (c : Dev nD) (t : Fin cfg4.N) : xb4_5 V c t = wgt4 V c := by
  funext j
  show iblk4 V c 5 t j = _
  unfold iblk4
  rw [View.read_apply]
  show V c main_v129 _ = V c main_v129 _
  congr 1
  funext a
  apply Fin.ext
  match a with
  | ⟨0, _⟩ => show win4_5.index t 0 * 128 + 1 * (j 0).val = (j 0).val; rw [(idx4_5 t).1]; omega
  | ⟨1, _⟩ => show win4_5.index t 1 * 128 + 1 * (j 1).val = (j 1).val; rw [(idx4_5 t).2]; omega

abbrev blkP4 (c : Dev nD) (t : Fin cfg4.N) : FVec Ideal S8192x128 .f32 :=
  k4_pay4 (xb4_0 V c t) (xb4_2 V c t) (xb4_3 V c t) (xb4_4 V c t) (xb4_1 V c t) (xb4_5 V c t)

theorem blkP4_apply (c : Dev nD) (t : Fin cfg4.N) (p : Fin 256) (n : Fin 32) (q : Fin 8192) (hq : q.val = 32 * p.val + n.val) (ch : Fin 128) :
    blkP4 V c t (ix2 q ch) = conv4 V c (row4 t p) n ch := by
  refine (pay4_4_apply _ _ _ _ _ _ p n q hq ch).trans ?_
  unfold conv4 act4 shift4 scale4 sh4 sc4
  refine Finset.sum_congr rfl fun k _ => ?_
  rw [xb4_0_apply, xb4_1_eq, xb4_2_eq, xb4_3_eq, xb4_4_eq, xb4_5_eq]

theorem blk4_5_apply (c : Dev nD) (t : Fin cfg4.N) (p : Fin 256) (n : Fin 32) (ch : Fin 128) :
    k4_pay5 (xb4_0 V c t) (xb4_2 V c t) (xb4_3 V c t) (xb4_4 V c t) (xb4_1 V c t) (xb4_5 V c t) (ix3 p n ch)
      = conv4 V c (row4 t p) n ch := by
  refine (pay4_5_apply _ _ _ _ _ _ p n ch).trans ?_
  unfold conv4 act4 shift4 scale4 sh4 sc4
  refine Finset.sum_congr rfl fun k _ => ?_
  rw [xb4_0_apply, xb4_1_eq, xb4_2_eq, xb4_3_eq, xb4_4_eq, xb4_5_eq]

theorem out4_6_eq (c : Dev nD) (t : Fin cfg4.N) :
    (outsAt4 V c t.val t.isLt).1
      = k4_pay5 (xb4_0 V c t) (xb4_2 V c t) (xb4_3 V c t) (xb4_4 V c t) (xb4_1 V c t) (xb4_5 V c t) := by
  have hN := tlt4 t
  by_cases h0 : t.val = 0
  · have h1 : ¬t.val % 32 = 31 := by omega
    rw [outsAt4_A V c t h0 h1]; dsimp only
    exact piece4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (cond4_0_of t h0) (ncond4_1_of t h1) (iblk4 V c 0 t) (iblk4 V c 1 t) (iblk4 V c 2 t) (iblk4 V c 3 t) (iblk4 V c 4 t) (iblk4 V c 5 t)
  · by_cases h1 : t.val % 32 = 31
    · rw [outsAt4_C V c t h0 h1]; dsimp only
      exact piece4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (cond4_1_of t h1) (iblk4 V c 0 t) (iblk4 V c 1 t) (iblk4 V c 2 t) (iblk4 V c 3 t) (iblk4 V c 4 t) (iblk4 V c 5 t) _
    · rw [outsAt4_B V c t h0 h1]; dsimp only
      exact piece4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4 (Memref.isWhole_whole _) (ncond4_0_of t h0) (ncond4_1_of t h1) (iblk4 V c 0 t) (iblk4 V c 1 t) (iblk4 V c 2 t) (iblk4 V c 3 t) (iblk4 V c 4 t) (iblk4 V c 5 t) _

abbrev G4_6 (c : Dev nD) : S8192x32x128.Idx → EReal := fun i => conv4 V c (i 0) (i 1) (i 2)

theorem xsz4_6 : ∀ t : Fin cfg4.N, win4_6.xsize (grid4.coords t) 0 = 256 ∧ win4_6.xsize (grid4.coords t) 1 = 32 ∧ win4_6.xsize (grid4.coords t) 2 = 128 := by decide +kernel

theorem flushed4_6 (c : Dev nD) (t : Fin cfg4.N) (hf : (cfg4.win 6).flush t = true) :
    (dat4 (F := Ideal) V c).flushed 6 t = ((cfg4.win 6).blk t).view.read (Elt Ideal) (G4_6 V c) := by
  show (cfg4.win 6).cut (grid4.coords t) ((dat4 (F := Ideal) V c).after 6 t) = _
  rw [after4_6, out4_6_eq]
  refine funext fun (y : S256x32x128.Idx) => ?_
  rw [View.read_apply]
  refine ((congrArg _ (eq_ix3 y)).trans (blk4_5_apply V c t (y 0) (y 1) (y 2))).trans ?_
  show conv4 V c _ _ _ = conv4 V c _ _ _
  congr 1
  · apply Fin.ext
    show 256 * t.val + (y 0).val = win4_6.index t 0 * 256 + 1 * (y 0).val
    rw [(idx4_6 t).1]; omega
  · apply Fin.ext
    show (y 1).val = win4_6.index t 1 * 32 + 1 * (y 1).val
    rw [(idx4_6 t).2.1]; omega
  · apply Fin.ext
    show (y 2).val = win4_6.index t 2 * 128 + 1 * (y 2).val
    rw [(idx4_6 t).2.2]; omega

theorem cov4_6 (c : Dev nD) (i : ((cfg4.win 6).arr.view.loc (c.tc : Thread nD τ)).2.ty.Idx) : ∃ t : Fin cfg4.N, (cfg4.win 6).flush t = true ∧ i ∈ ((cfg4.win 6).blk t).view.set := by
  have h0 : (i 0 : Nat) < 8192 := (i 0).isLt
  have h1 : (i 1 : Nat) < 32 := (i 1).isLt
  have h2 : (i 2 : Nat) < 128 := (i 2).isLt
  have hlt : (i 0 : Nat) / 256 < cfg4.N := by rw [show cfg4.N = 32 from N_4]; omega
  refine ⟨⟨(i 0 : Nat) / 256, hlt⟩, flush4_6 _, ?_⟩
  show i ∈ ((View.whole main_v141_0).slice (win4_6.rect ⟨(i 0 : Nat) / 256, hlt⟩)).set
  rw [View.set_slice_whole, Rect.mem_set_unit]
  intro a
  match a with
  | ⟨0, _⟩ =>
    show win4_6.index _ 0 * win4_6.size 0 ≤ (i 0 : Nat) ∧ (i 0 : Nat) < win4_6.index _ 0 * win4_6.size 0 + win4_6.xsize (grid4.coords _) 0
    rw [(idx4_6 _).1, (xsz4_6 _).1, show win4_6.size 0 = 256 from rfl]; dsimp only; omega
  | ⟨1, _⟩ =>
    show win4_6.index _ 1 * win4_6.size 1 ≤ (i 1 : Nat) ∧ (i 1 : Nat) < win4_6.index _ 1 * win4_6.size 1 + win4_6.xsize (grid4.coords _) 1
    rw [(idx4_6 _).2.1, (xsz4_6 _).2.1]; omega
  | ⟨2, _⟩ =>
    show win4_6.index _ 2 * win4_6.size 2 ≤ (i 2 : Nat) ∧ (i 2 : Nat) < win4_6.index _ 2 * win4_6.size 2 + win4_6.xsize (grid4.coords _) 2
    rw [(idx4_6 _).2.2, (xsz4_6 _).2.2]; omega

def rsum4 (c : Dev nD) (ch : Fin 128) (s : ℕ) : EReal :=
  if h : s < cfg4.N then ∑ q : Fin 8192, blkP4 V c ⟨s, h⟩ (ix2 q ch) else 0
def rsq4 (c : Dev nD) (ch : Fin 128) (s : ℕ) : EReal :=
  if h : s < cfg4.N then ∑ q : Fin 8192, blkP4 V c ⟨s, h⟩ (ix2 q ch) * blkP4 V c ⟨s, h⟩ (ix2 q ch) else 0

theorem acc4_eq (c : Dev nD) (ch : Fin 128) : ∀ (n : ℕ) (hn : n < cfg4.N),
    (outsAt4 V c n hn).2.2.2 (ix2 0 ch) = ∑ s ∈ Finset.range (n + 1), rsum4 V c ch s
    ∧ (outsAt4 V c n hn).2.2.2 (ix2 1 ch) = ∑ s ∈ Finset.range (n + 1), rsq4 V c ch s
  | 0, hn => by
    have e := outsAt4_A V c ⟨0, hn⟩ rfl (show ¬(0 % 32 = 31) from by decide)
    rw [show outsAt4 V c 0 hn = outsAt4 V c (⟨0, hn⟩ : Fin cfg4.N).val (⟨0, hn⟩ : Fin cfg4.N).isLt from rfl, e]
    dsimp only
    rw [Finset.sum_range_one, Finset.sum_range_one,
      show rsum4 V c ch 0 = ∑ q : Fin 8192, blkP4 V c ⟨0, hn⟩ (ix2 q ch) from dif_pos hn,
      show rsq4 V c ch 0 = ∑ q : Fin 8192, blkP4 V c ⟨0, hn⟩ (ix2 q ch) * blkP4 V c ⟨0, hn⟩ (ix2 q ch) from dif_pos hn]
    refine ⟨?_, ?_⟩
    · refine (piece4_A_s0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4 (Memref.isWhole_whole _) _ _ (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) ch).trans ?_
      exact (congrArg (· + _) Ideal.ofBits_zero_f32).trans (zero_add _)
    · refine (piece4_A_s1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4 (Memref.isWhole_whole _) _ _ (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) ch).trans ?_
      exact (congrArg (· + _) Ideal.ofBits_zero_f32).trans (zero_add _)
  | n + 1, hn => by
    obtain ⟨ih0, ih1⟩ := acc4_eq c ch n (Nat.lt_of_succ_lt hn)
    have hr : rsum4 V c ch (n + 1) = ∑ q : Fin 8192, blkP4 V c ⟨n + 1, hn⟩ (ix2 q ch) := dif_pos hn
    have hs : rsq4 V c ch (n + 1) = ∑ q : Fin 8192, blkP4 V c ⟨n + 1, hn⟩ (ix2 q ch) * blkP4 V c ⟨n + 1, hn⟩ (ix2 q ch) := dif_pos hn
    rw [Finset.sum_range_succ _ (n + 1), Finset.sum_range_succ _ (n + 1), hr, hs, ← ih0, ← ih1]
    rw [show outsAt4 V c (n + 1) hn = outsAt4 V c (⟨n + 1, hn⟩ : Fin cfg4.N).val (⟨n + 1, hn⟩ : Fin cfg4.N).isLt from rfl]
    by_cases h1 : (n + 1) % 32 = 31
    · rw [outsAt4_C V c ⟨n + 1, hn⟩ (Nat.succ_ne_zero n) h1]
      dsimp only
      exact ⟨piece4_C_s0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) _ _ (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) _ ch,
        piece4_C_s1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) _ _ (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) _ ch⟩
    · rw [outsAt4_B V c ⟨n + 1, hn⟩ (Nat.succ_ne_zero n) h1]
      dsimp only
      exact ⟨piece4_B_s0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) _ _ (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) _ ch,
        piece4_B_s1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4 (Memref.isWhole_whole _) _ _ (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) _ ch⟩

theorem lastlt4 : 31 < cfg4.N := by rw [show cfg4.N = 32 from N_4]; decide
abbrev tl4 : Fin cfg4.N := ⟨31, lastlt4⟩

theorem rsum4_eq (c : Dev nD) (ch : Fin 128) :
    ∑ s ∈ Finset.range 32, rsum4 V c ch s = ∑ r : Fin 8192, ∑ n : Fin 32, conv4 V c r n ch := by
  rw [Finset.sum_range, ← sum_rows4 (fun r => ∑ n : Fin 32, conv4 V c r n ch)]
  refine Finset.sum_congr rfl fun s _ => ?_
  have hs : s.val < cfg4.N := by rw [show cfg4.N = 32 from N_4]; exact s.isLt
  rw [show rsum4 V c ch s.val = ∑ q : Fin 8192, blkP4 V c ⟨s.val, hs⟩ (ix2 q ch) from dif_pos hs, sum_flat4]
  refine Finset.sum_congr rfl fun p _ => Finset.sum_congr rfl fun n _ => ?_
  exact blkP4_apply V c ⟨s.val, hs⟩ p n _ rfl ch

theorem rsq4_eq (c : Dev nD) (ch : Fin 128) :
    ∑ s ∈ Finset.range 32, rsq4 V c ch s = ∑ r : Fin 8192, ∑ n : Fin 32, conv4 V c r n ch * conv4 V c r n ch := by
  rw [Finset.sum_range, ← sum_rows4 (fun r => ∑ n : Fin 32, conv4 V c r n ch * conv4 V c r n ch)]
  refine Finset.sum_congr rfl fun s _ => ?_
  have hs : s.val < cfg4.N := by rw [show cfg4.N = 32 from N_4]; exact s.isLt
  rw [show rsq4 V c ch s.val = ∑ q : Fin 8192, blkP4 V c ⟨s.val, hs⟩ (ix2 q ch) * blkP4 V c ⟨s.val, hs⟩ (ix2 q ch) from dif_pos hs,
    sum_flat4 (fun q => blkP4 V c ⟨s.val, hs⟩ (ix2 q ch) * blkP4 V c ⟨s.val, hs⟩ (ix2 q ch))]
  refine Finset.sum_congr rfl fun p _ => Finset.sum_congr rfl fun n _ => ?_
  exact congrArg₂ (· * ·) (blkP4_apply V c ⟨s.val, hs⟩ p n _ rfl ch) (blkP4_apply V c ⟨s.val, hs⟩ p n _ rfl ch)

theorem stat4_7 (c : Dev nD) (ch : Fin 128) :
    (outsAt4 V c tl4.val tl4.isLt).2.1 (ix2 0 ch) = ∑ s ∈ Finset.range 32, rsum4 V c ch s := by
  have a := (acc4_eq V c ch 31 lastlt4).1
  rw [show outsAt4 V c 31 lastlt4 = outsAt4 V c tl4.val tl4.isLt from rfl] at a
  rw [outsAt4_C V c tl4 (by decide) (by decide)] at a ⊢
  dsimp only at a ⊢
  exact (piece4_C_7 c (grid4.coords tl4) (ms4_0 tl4) (hs4_0 tl4) (ms4_1 tl4) (hs4_1 tl4) (ms4_2 tl4) (hs4_2 tl4) (ms4_3 tl4) (hs4_3 tl4) (ms4_4 tl4) (hs4_4 tl4) (ms4_5 tl4) (hs4_5 tl4) (ms4_6 tl4) (hs4_6 tl4) (ms4_7 tl4) (hs4_7 tl4) (ms4_8 tl4) (hs4_8 tl4) scM4 (Memref.isWhole_whole _) _ _ (iblk4 V c 0 tl4) (iblk4 V c 1 tl4) (iblk4 V c 2 tl4) (iblk4 V c 3 tl4) (iblk4 V c 4 tl4) (iblk4 V c 5 tl4) _ ch).trans a

theorem stat4_8 (c : Dev nD) (ch : Fin 128) :
    (outsAt4 V c tl4.val tl4.isLt).2.2.1 (ix2 0 ch) = ∑ s ∈ Finset.range 32, rsq4 V c ch s := by
  have a := (acc4_eq V c ch 31 lastlt4).2
  rw [show outsAt4 V c 31 lastlt4 = outsAt4 V c tl4.val tl4.isLt from rfl] at a
  rw [outsAt4_C V c tl4 (by decide) (by decide)] at a ⊢
  dsimp only at a ⊢
  exact (piece4_C_8 c (grid4.coords tl4) (ms4_0 tl4) (hs4_0 tl4) (ms4_1 tl4) (hs4_1 tl4) (ms4_2 tl4) (hs4_2 tl4) (ms4_3 tl4) (hs4_3 tl4) (ms4_4 tl4) (hs4_4 tl4) (ms4_5 tl4) (hs4_5 tl4) (ms4_6 tl4) (hs4_6 tl4) (ms4_7 tl4) (hs4_7 tl4) (ms4_8 tl4) (hs4_8 tl4) scM4 (Memref.isWhole_whole _) _ _ (iblk4 V c 0 tl4) (iblk4 V c 1 tl4) (iblk4 V c 2 tl4) (iblk4 V c 3 tl4) (iblk4 V c 4 tl4) (iblk4 V c 5 tl4) _ ch).trans a

abbrev G4_7 (c : Dev nD) : S1x128.Idx → EReal := fun j => ∑ r : Fin 8192, ∑ n : Fin 32, conv4 V c r n (j 1)
abbrev G4_8 (c : Dev nD) : S1x128.Idx → EReal := fun j => ∑ r : Fin 8192, ∑ n : Fin 32, conv4 V c r n (j 1) * conv4 V c r n (j 1)

theorem flushed4_7 (c : Dev nD) (t : Fin cfg4.N) (hf : (cfg4.win 7).flush t = true) :
    (dat4 (F := Ideal) V c).flushed 7 t = ((cfg4.win 7).blk t).view.read (Elt Ideal) (G4_7 V c) := by
  have h15 : t.val = 31 := by have := (flush4_7 t).mp hf; have := tlt4 t; omega
  obtain rfl : t = tl4 := Fin.ext h15
  show (cfg4.win 7).cut (grid4.coords tl4) ((dat4 (F := Ideal) V c).after 7 tl4) = _
  rw [after4_7]
  refine funext fun (y : S1x128.Idx) => ?_
  rw [View.read_apply]
  obtain ⟨ch, rfl⟩ : ∃ ch : Fin 128, y = ix2 0 ch :=
    ⟨y 1, (eq_ix2 y).trans (congrArg (fun a => ix2 a (y 1)) (Fin.ext (by have h : (y 0).val < 1 := (y 0).isLt; show (y 0).val = 0; omega)))⟩
  refine (stat4_7 V c ch).trans ((rsum4_eq V c ch).trans ?_)
  have e1 : ((((cfg4.win 7).blk tl4).view.emb (ix2 0 ch)) 1 : Fin 128) = ch := Fin.ext (by
    show win4_7.index tl4 1 * 128 + 1 * ch.val = ch.val
    rw [(idx4_7 tl4).2]; omega)
  show _ = G4_7 V c _
  dsimp only [G4_7]
  rw [e1]

theorem cov4_7 (c : Dev nD) (i : ((cfg4.win 7).arr.view.loc (c.tc : Thread nD τ)).2.ty.Idx) : ∃ t : Fin cfg4.N, (cfg4.win 7).flush t = true ∧ i ∈ ((cfg4.win 7).blk t).view.set :=
  ⟨tl4, (flush4_7 tl4).mpr rfl, by
    show i ∈ ((View.whole main_v141_1).slice (win4_7.rect tl4)).set
    rw [View.set_slice_whole, Rect.mem_set_unit]
    intro a
    have h0 : (i 0 : Nat) < 1 := (i 0).isLt
    have h1 : (i 1 : Nat) < 128 := (i 1).isLt
    match a with
    | ⟨0, _⟩ =>
      show win4_7.index tl4 0 * win4_7.size 0 ≤ (i 0 : Nat) ∧ (i 0 : Nat) < win4_7.index tl4 0 * win4_7.size 0 + win4_7.xsize (grid4.coords tl4) 0
      rw [show win4_7.index tl4 0 * win4_7.size 0 = 0 from by decide +kernel, show win4_7.xsize (grid4.coords tl4) 0 = 1 from by decide +kernel]; omega
    | ⟨1, _⟩ =>
      show win4_7.index tl4 1 * win4_7.size 1 ≤ (i 1 : Nat) ∧ (i 1 : Nat) < win4_7.index tl4 1 * win4_7.size 1 + win4_7.xsize (grid4.coords tl4) 1
      rw [show win4_7.index tl4 1 * win4_7.size 1 = 0 from by decide +kernel, show win4_7.xsize (grid4.coords tl4) 1 = 128 from by decide +kernel]; omega⟩

theorem flushed4_8 (c : Dev nD) (t : Fin cfg4.N) (hf : (cfg4.win 8).flush t = true) :
    (dat4 (F := Ideal) V c).flushed 8 t = ((cfg4.win 8).blk t).view.read (Elt Ideal) (G4_8 V c) := by
  have h15 : t.val = 31 := by have := (flush4_8 t).mp hf; have := tlt4 t; omega
  obtain rfl : t = tl4 := Fin.ext h15
  show (cfg4.win 8).cut (grid4.coords tl4) ((dat4 (F := Ideal) V c).after 8 tl4) = _
  rw [after4_8]
  refine funext fun (y : S1x128.Idx) => ?_
  rw [View.read_apply]
  obtain ⟨ch, rfl⟩ : ∃ ch : Fin 128, y = ix2 0 ch :=
    ⟨y 1, (eq_ix2 y).trans (congrArg (fun a => ix2 a (y 1)) (Fin.ext (by have h : (y 0).val < 1 := (y 0).isLt; show (y 0).val = 0; omega)))⟩
  refine (stat4_8 V c ch).trans ((rsq4_eq V c ch).trans ?_)
  have e1 : ((((cfg4.win 8).blk tl4).view.emb (ix2 0 ch)) 1 : Fin 128) = ch := Fin.ext (by
    show win4_8.index tl4 1 * 128 + 1 * ch.val = ch.val
    rw [(idx4_8 tl4).2]; omega)
  show _ = G4_8 V c _
  dsimp only [G4_8]
  rw [e1]

theorem cov4_8 (c : Dev nD) (i : ((cfg4.win 8).arr.view.loc (c.tc : Thread nD τ)).2.ty.Idx) : ∃ t : Fin cfg4.N, (cfg4.win 8).flush t = true ∧ i ∈ ((cfg4.win 8).blk t).view.set :=
  ⟨tl4, (flush4_8 tl4).mpr rfl, by
    show i ∈ ((View.whole main_v141_2).slice (win4_8.rect tl4)).set
    rw [View.set_slice_whole, Rect.mem_set_unit]
    intro a
    have h0 : (i 0 : Nat) < 1 := (i 0).isLt
    have h1 : (i 1 : Nat) < 128 := (i 1).isLt
    match a with
    | ⟨0, _⟩ =>
      show win4_8.index tl4 0 * win4_8.size 0 ≤ (i 0 : Nat) ∧ (i 0 : Nat) < win4_8.index tl4 0 * win4_8.size 0 + win4_8.xsize (grid4.coords tl4) 0
      rw [show win4_8.index tl4 0 * win4_8.size 0 = 0 from by decide +kernel, show win4_8.xsize (grid4.coords tl4) 0 = 1 from by decide +kernel]; omega
    | ⟨1, _⟩ =>
      show win4_8.index tl4 1 * win4_8.size 1 ≤ (i 1 : Nat) ∧ (i 1 : Nat) < win4_8.index tl4 1 * win4_8.size 1 + win4_8.xsize (grid4.coords tl4) 1
      rw [show win4_8.index tl4 1 * win4_8.size 1 = 0 from by decide +kernel, show win4_8.xsize (grid4.coords tl4) 1 = 128 from by decide +kernel]; omega⟩

theorem val4_6 (c : Dev nD) (r : Fin 8192) (n : Fin 32) (ch : Fin 128) :
    (dat4 (F := Ideal) V c).arrAt 6 cfg4.N (ix3 r n ch) = conv4 V c r n ch :=
  congrFun ((dat4 (F := Ideal) V c).arrAt_eq_of_cover 6 (G4_6 V c) (flushed4_6 V c) (cov4_6 c)) (ix3 r n ch)

theorem val4_7 (c : Dev nD) (ch : Fin 128) :
    (dat4 (F := Ideal) V c).arrAt 7 cfg4.N (ix2 0 ch) = ∑ r : Fin 8192, ∑ n : Fin 32, conv4 V c r n ch :=
  congrFun ((dat4 (F := Ideal) V c).arrAt_eq_of_cover 7 (G4_7 V c) (flushed4_7 V c) (cov4_7 c)) (ix2 0 ch)

theorem val4_8 (c : Dev nD) (ch : Fin 128) :
    (dat4 (F := Ideal) V c).arrAt 8 cfg4.N (ix2 0 ch) = ∑ r : Fin 8192, ∑ n : Fin 32, conv4 V c r n ch * conv4 V c r n ch :=
  congrFun ((dat4 (F := Ideal) V c).arrAt_eq_of_cover 8 (G4_8 V c) (flushed4_8 V c) (cov4_8 c)) (ix2 0 ch)

theorem val4_in (c : Dev nD) (w : Fin cfg4.W) (hw : (cfg4.win w).isOut = false) (n : ℕ) :
    (dat4 (F := Ideal) V c).arrAt w n = V c (Pipeline.arrRef spec4 w) :=
  ((dat4 (F := Ideal) V c).arrAt_in w hw n).trans (A_eq4 V c w)

end Cert.KernelIdeal.HandVal
end
-- ==== Proof.Bridge1Act.lean ====
import proofs.«157081_j85761906966880_1_alg».proof.Proof.RefApply1
import proofs.«157081_j85761906966880_1_alg».proof.Proof.LibBridgeStages
import proofs.«157081_j85761906966880_1_alg».proof.Proof.LibConsts
import Idealize.ShloMosaic.Lib.ValueIdx
import Idealize.ShloMosaic.PureOps.Ideal.Laws
import Mathlib.Tactic.NormNum
import Mathlib.Tactic.DefEqTransformations

open scoped BigOperators

noncomputable section

namespace Cert.Bridge

open Idealize.ShloMosaic Idealize.ShloMosaic.ValueIdx
open Cert.ReferenceIdeal Cert.ReferenceIdeal.Hand

variable [Cert.ReferenceIdeal.Facts]

-- Both spellings of the channel's variance are one non-negative real, so the folded affine map is the reference's.
theorem act1_eq (h : FVec Ideal S8192x32x128 .f32) (gamma beta : FVec Ideal S128 .f32)
    (hh : ∀ i, ∃ r : ℝ, h i = (r : EReal)) (hgamma : ∀ i, ∃ r : ℝ, gamma i = (r : EReal))
    (hbeta : ∀ i, ∃ r : ℝ, beta i = (r : EReal))
    (H : S8192x32x128.Idx → EReal) (Mn Vr Gm Bt : S1x1x128.Idx → EReal)
    (hH : H = h)
    (hMn : ∀ b : Fin 128, Mn (ix3 0 0 b)
      = Ideal.div (∑ p : Fin 8192, ∑ j : Fin 32, h (ix3 p j b)) ((262144 : ℝ) : EReal))
    (hVr : ∀ b : Fin 128, Vr (ix3 0 0 b)
      = Ideal.div (∑ p : Fin 8192, ∑ j : Fin 32, h (ix3 p j b) * h (ix3 p j b)) ((262144 : ℝ) : EReal)
        - Ideal.div (∑ p : Fin 8192, ∑ j : Fin 32, h (ix3 p j b)) ((262144 : ℝ) : EReal)
          * Ideal.div (∑ p : Fin 8192, ∑ j : Fin 32, h (ix3 p j b)) ((262144 : ℝ) : EReal))
    (hGm : ∀ b : Fin 128, Gm (ix3 0 0 b) = gamma (ix1 b))
    (hBt : ∀ b : Fin 128, Bt (ix3 0 0 b) = beta (ix1 b))
    (a : Fin 8192) (j : Fin 32) (b : Fin 128) :
    max (H (ix3 a j b) * (Gm (ix3 0 0 b) * Ideal.rsqrt (Vr (ix3 0 0 b) + Ideal.ofBits .f32 0x3727C5AC#32))
          + (Bt (ix3 0 0 b) - Mn (ix3 0 0 b) * (Gm (ix3 0 0 b) * Ideal.rsqrt (Vr (ix3 0 0 b) + Ideal.ofBits .f32 0x3727C5AC#32))))
        (Ideal.ofBits .f32 0x00000000#32)
      = r_bn_1 h gamma beta (ix3 a j b) := by
  obtain ⟨ε, hε, he⟩ := Cert.Lib.ofBits_f32_eps_pos
  obtain ⟨v, hv, hk, hr⟩ := Cert.Lib.stats_var_real (M := 8192) (N := 32) (fun m n => h (ix3 m n b)) (fun _ _ => hh _)
    262144 (by norm_num) (by norm_num)
  rw [r_bn_1_eq, r_act_1_apply, r_var_1_apply, r_mean_1_apply, hH, hMn b, hVr b, hGm b, hBt b,
    Ideal.ofBits_zero_f32, he, hk, hr]
  exact Cert.Lib.act_bridge (hh _) (Cert.Lib.stats_mean_real _ (fun _ _ => hh _) _ (by norm_num)) (hgamma _) (hbeta _)
    rfl hv hε

end Cert.Bridge

end
-- ==== Proof.Bridge1R1.lean ====
import proofs.«157081_j85761906966880_1_alg».proof.Proof.KiVal4
import proofs.«157081_j85761906966880_1_alg».proof.Proof.Bridge1Act
import proofs.«157081_j85761906966880_1_alg».proof.Proof.RefApply1
import Idealize.ShloMosaic.Lib.ValueIdx
open scoped BigOperators
noncomputable section

namespace Cert.Bridge

open Cert.KernelIdeal Cert.KernelIdeal.Hand Cert.KernelIdeal.HandVal
open Idealize.ShloMosaic Idealize.ShloMosaic.TcCoe
open Idealize.ShloMosaic.ValueIdx
open Cert.ReferenceIdeal.Hand

variable [Cert.ReferenceIdeal.Facts]
variable (V : (c : Dev nD) → (b : Ref sig .tc) → Buf (Elt Ideal) ((c : Thread nD τ).loc b))
  (c : Dev nD) (h : FVec Ideal S8192x32x128 .f32) (gamma beta : FVec Ideal S128 .f32)
  (hh : ∀ i, ∃ r : ℝ, h i = (r : EReal)) (hgamma : ∀ i, ∃ r : ℝ, gamma i = (r : EReal))
  (hbeta : ∀ i, ∃ r : ℝ, beta i = (r : EReal))
  (hH : V c main_v130_0 = h)
  (hMn : ∀ k : Fin 128, V c main_v137 (ix3 0 0 k)
    = Ideal.div (∑ p : Fin 8192, ∑ j : Fin 32, h (ix3 p j k)) ((262144 : ℝ) : EReal))
  (hVr : ∀ k : Fin 128, V c main_v138 (ix3 0 0 k)
    = Ideal.div (∑ p : Fin 8192, ∑ j : Fin 32, h (ix3 p j k) * h (ix3 p j k)) ((262144 : ℝ) : EReal)
      - Ideal.div (∑ p : Fin 8192, ∑ j : Fin 32, h (ix3 p j k)) ((262144 : ℝ) : EReal)
        * Ideal.div (∑ p : Fin 8192, ∑ j : Fin 32, h (ix3 p j k)) ((262144 : ℝ) : EReal))
  (hGm : ∀ k : Fin 128, V c main_v139 (ix3 0 0 k) = gamma (ix1 k))
  (hBt : ∀ k : Fin 128, V c main_v140 (ix3 0 0 k) = beta (ix1 k))
  (w : FVec Ideal S128x128 .f32)
  (hW : ∀ (k ch : Fin 128), V c main_v129 (ix2 k ch) = w (ix2 ch k))
include hh hgamma hbeta hH hMn hVr hGm hBt hW

-- Each term of the contraction is the reference's activation times the same weight entry.
theorem r4_conv_eq (r : Fin 8192) (n : Fin 32) (ch : Fin 128) :
    conv4 V c r n ch = r_h2_1 (r_bn_1 h gamma beta) w (ix3 r n ch) := by
  rw [r_h2_1_apply]
  exact Finset.sum_congr rfl fun k _ => congrArg₂ _
    (act1_eq h gamma beta hh hgamma hbeta _ _ _ _ _ hH hMn hVr hGm hBt r n k) (hW k ch)

theorem bridge1_r1_h (r : Fin 8192) (n : Fin 32) (ch : Fin 128) :
    (dat4 (F := Ideal) V c).arrAt 6 cfg4.N (ix3 r n ch) = r_h2_1 (r_bn_1 h gamma beta) w (ix3 r n ch) :=
  (val4_6 V c r n ch).trans (r4_conv_eq V c h gamma beta hh hgamma hbeta hH hMn hVr hGm hBt w hW r n ch)

theorem bridge1_r1_sum (ch : Fin 128) :
    (dat4 (F := Ideal) V c).arrAt 7 cfg4.N (ix2 0 ch)
      = ∑ r : Fin 8192, ∑ n : Fin 32, r_h2_1 (r_bn_1 h gamma beta) w (ix3 r n ch) := by
  rw [val4_7]; simp only [r4_conv_eq V c h gamma beta hh hgamma hbeta hH hMn hVr hGm hBt w hW]

theorem bridge1_r1_sumsq (ch : Fin 128) :
    (dat4 (F := Ideal) V c).arrAt 8 cfg4.N (ix2 0 ch)
      = ∑ r : Fin 8192, ∑ n : Fin 32,
          r_h2_1 (r_bn_1 h gamma beta) w (ix3 r n ch) * r_h2_1 (r_bn_1 h gamma beta) w (ix3 r n ch) := by
  rw [val4_8]; simp only [r4_conv_eq V c h gamma beta hh hgamma hbeta hH hMn hVr hGm hBt w hW]

end Cert.Bridge

end
-- ==== Proof.KiVal5.lean ====
import proofs.«157081_j85761906966880_1_alg».proof.Proof.KiR5
import proofs.«157081_j85761906966880_1_alg».proof.Proof.KiVal2
noncomputable section
namespace Cert.KernelIdeal.HandVal
open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

def scaleOf5 (Vr Gm : S1x1x128.Idx → EReal) (b : Fin 128) : EReal :=
  Gm (ix3 0 0 b) * Ideal.rsqrt (Vr (ix3 0 0 b) + Ideal.ofBits .f32 0x3727C5AC#32)

def shiftOf5 (Mn Vr Gm Bt : S1x1x128.Idx → EReal) (b : Fin 128) : EReal :=
  Bt (ix3 0 0 b) - Mn (ix3 0 0 b) * scaleOf5 Vr Gm b

def actOf5 (H : S8192x32x128.Idx → EReal) (Mn Vr Gm Bt : S1x1x128.Idx → EReal) (a : Fin 8192) (j : Fin 32) (b : Fin 128) : EReal :=
  max (H (ix3 a j b) * scaleOf5 Vr Gm b + shiftOf5 Mn Vr Gm Bt b) (Ideal.ofBits .f32 0x00000000#32)

def G5_5 (H : S8192x32x128.Idx → EReal) (Mn Vr Gm Bt : S1x1x128.Idx → EReal) : S8192x128.Idx → EReal :=
  fun i => Finset.univ.sup fun j : Fin 32 => actOf5 H Mn Vr Gm Bt (i 0) j (i 1)

theorem G5_5_apply (H : S8192x32x128.Idx → EReal) (Mn Vr Gm Bt : S1x1x128.Idx → EReal) (a : Fin 8192) (b : Fin 128) :
    G5_5 H Mn Vr Gm Bt (ix2 a b) = Finset.univ.sup fun j : Fin 32 => actOf5 H Mn Vr Gm Bt a j b := rfl

theorem pay2_apply5 (x0 : Vec Ideal S256x32x128 .f32) (vr gm bt mn : Vec Ideal S1x1x128 .f32) (r : Fin 256) (j : Fin 32) (b : Fin 128) :
    k5_pay2 x0 vr gm bt mn (ix3 r j b)
      = max (x0 (ix3 r j b) * scaleOf5 vr gm b + shiftOf5 mn vr gm bt b) (Ideal.ofBits .f32 0x00000000#32) := by
  unfold k5_pay2
  simp only [shapeCast_self, maximumf_apply, addf_apply, mulf_apply, subf_apply, bcast2, rsqrt_apply2, broadcast_apply]
  rfl

theorem out5_5_apply (x0 : Vec Ideal S256x32x128 .f32) (x1 x2 x3 x4 : Vec Ideal S1x1x128 .f32) (r : Fin 256) (b : Fin 128) :
    out5_5 x0 x1 x2 x3 x4 (ix2 r b)
      = Finset.univ.sup fun j : Fin 32 => max (x0 (ix3 r j b) * scaleOf5 x2 x3 b + shiftOf5 x1 x2 x3 x4 b) (Ideal.ofBits .f32 0x00000000#32) := by
  unfold out5_5 k5_pay1 k5_pay4 k5_pay3
  rw [View.canon_unit_zero hz2_2]
  simp only [View.ld_unit_zero (S := S256x32x128) hz2_3, View.ld_unit_zero (S := S1x1x128) hz2_3, maximumf_apply, cast2,
    slice3_axis1_eq, pay2_apply5]
  rw [sup_eq_nestMax2 31]
  rfl

theorem idx_facts5 : ∀ t : Fin cfg5.N,
    win5_0.index t (0 : Fin 3) = win5_5.index t (0 : Fin 2) ∧ win5_0.index t (1 : Fin 3) = 0 ∧ win5_0.index t (2 : Fin 3) = 0
    ∧ win5_5.index t (1 : Fin 2) = 0
    ∧ (∀ a : Fin 3, win5_1.index t a = 0) ∧ (∀ a : Fin 3, win5_2.index t a = 0)
    ∧ (∀ a : Fin 3, win5_3.index t a = 0) ∧ (∀ a : Fin 3, win5_4.index t a = 0) :=
  (by decide +kernel : ∀ t : Fin grid5.N, _)

theorem idx_onto5 : ∀ q0 : Fin 32, ∃ t : Fin cfg5.N, win5_5.index t = ![q0.val, 0] :=
  (by decide +kernel : ∀ q0 : Fin 32, ∃ t : Fin grid5.N, win5_5.index t = ![q0.val, 0])

variable (V : (c : Dev nD) → (b : Ref sig .tc) → Buf (Elt Ideal) ((c : Thread nD τ).loc b))

theorem iblk5_0_apply (c : Dev nD) (t : Fin cfg5.N) (r : Fin 256) (k : Fin 32) (b : Fin 128) :
    iblk5 V c 0 t (ix3 r k b)
      = V c main_v141_0 (ix3 ((((cfg5.win 5).blk t).view.emb (ix2 r b) : S8192x128.Idx) 0) k b) := by
  obtain ⟨e0, e1, e2, -⟩ := idx_facts5 t
  refine congrArg (V c main_v141_0) (funext fun a => Fin.ext ?_)
  match a with
  | ⟨0, _⟩ => show win5_0.index t (0 : Fin 3) * 256 + 1 * r.val = win5_5.index t (0 : Fin 2) * 256 + 1 * r.val; rw [e0]
  | ⟨1, _⟩ => show win5_0.index t (1 : Fin 3) * 32 + 1 * k.val = k.val; rw [e1]; omega
  | ⟨2, _⟩ => show win5_0.index t (2 : Fin 3) * 128 + 1 * b.val = b.val; rw [e2]; omega

theorem iblk5_1 (c : Dev nD) (t : Fin cfg5.N) : iblk5 V c 1 t = V c main_v148 :=
  funext fun y => congrArg (V c main_v148) (funext fun a => Fin.ext (win5_1.rect_emb_val_of_index_zero t a ((idx_facts5 t).2.2.2.2.1 a) y))
theorem iblk5_2 (c : Dev nD) (t : Fin cfg5.N) : iblk5 V c 2 t = V c main_v149 :=
  funext fun y => congrArg (V c main_v149) (funext fun a => Fin.ext (win5_2.rect_emb_val_of_index_zero t a ((idx_facts5 t).2.2.2.2.2.1 a) y))
theorem iblk5_3 (c : Dev nD) (t : Fin cfg5.N) : iblk5 V c 3 t = V c main_v150 :=
  funext fun y => congrArg (V c main_v150) (funext fun a => Fin.ext (win5_3.rect_emb_val_of_index_zero t a ((idx_facts5 t).2.2.2.2.2.2.1 a) y))
theorem iblk5_4 (c : Dev nD) (t : Fin cfg5.N) : iblk5 V c 4 t = V c main_v151 :=
  funext fun y => congrArg (V c main_v151) (funext fun a => Fin.ext (win5_4.rect_emb_val_of_index_zero t a ((idx_facts5 t).2.2.2.2.2.2.2 a) y))

theorem emb5 (t : Fin cfg5.N) (r : Fin 256) (b : Fin 128) :
    (((cfg5.win 5).blk t).view.emb (ix2 r b) : S8192x128.Idx) = ix2 (n0 := 8192) ((((cfg5.win 5).blk t).view.emb (ix2 r b) : S8192x128.Idx) 0) b :=
  (eq_ix2 _).trans (congrArg (ix2 (n0 := 8192) _) (Fin.ext (by
    show win5_5.index t (1 : Fin 2) * 128 + 1 * b.val = b.val
    rw [(idx_facts5 t).2.2.2.1]; omega)))

theorem flushed5_5_eq (c : Dev nD) (t : Fin cfg5.N) :
    (dat5 (F := Ideal) V c).flushed 5 t
      = ((cfg5.win 5).blk t).view.read (Elt Ideal) (G5_5 (V c main_v141_0) (V c main_v148) (V c main_v149) (V c main_v150) (V c main_v151)) := by
  show (cfg5.win 5).cut (grid5.coords t) ((dat5 V c).after 5 t) = _
  rw [after5_5, iblk5_1, iblk5_2, iblk5_3, iblk5_4]
  funext y
  obtain ⟨r, b, rfl⟩ : ∃ r b, y = ix2 r b := ⟨y 0, y 1, eq_ix2 y⟩
  refine (out5_5_apply _ _ _ _ _ r b).trans ?_
  rw [View.read_apply, emb5 t r b]
  simp only [iblk5_0_apply V c t r _ b]
  rfl

theorem covered5_5 (i : S8192x128.Idx) :
    ∃ t : Fin cfg5.N, (cfg5.win 5).flush t = true ∧ i ∈ ((cfg5.win 5).blk t).view.set := by
  have hi0 : (i 0).val < 8192 := (i 0).isLt
  have hi1 : (i 1).val < 128 := (i 1).isLt
  obtain ⟨t, ht⟩ := idx_onto5 ⟨(i 0).val / 256, by omega⟩
  have q0 : win5_5.index t (0 : Fin 2) = (i 0).val / 256 := congrFun ht 0
  have q1 : win5_5.index t (1 : Fin 2) = 0 := congrFun ht 1
  refine ⟨t, flush5_5 t, ?_⟩
  show i ∈ ((View.whole main_v152).slice (win5_5.rect t)).set
  rw [View.set_slice_whole, Rect.mem_set_unit]
  intro a
  match a with
  | ⟨0, _⟩ => show win5_5.index t (0 : Fin 2) * 256 ≤ (i 0).val ∧ (i 0).val < win5_5.index t (0 : Fin 2) * 256 + 256; omega
  | ⟨1, _⟩ => show win5_5.index t (1 : Fin 2) * 128 ≤ (i 1).val ∧ (i 1).val < win5_5.index t (1 : Fin 2) * 128 + 128; omega

theorem val5_5 (c : Dev nD) :
    (dat5 (F := Ideal) V c).arrAt 5 cfg5.N
      = G5_5 (V c main_v141_0) (V c main_v148) (V c main_v149) (V c main_v150) (V c main_v151) :=
  (dat5 V c).arrAt_eq_of_cover 5 _ (fun t _ => flushed5_5_eq V c t) (covered5_5)

end Cert.KernelIdeal.HandVal
end
-- ==== Proof.Bridge1R2.lean ====
import proofs.«157081_j85761906966880_1_alg».proof.Proof.KiVal5
import proofs.«157081_j85761906966880_1_alg».proof.Proof.Bridge1Act
import proofs.«157081_j85761906966880_1_alg».proof.Proof.RefApply1
import Idealize.ShloMosaic.Lib.ValueIdx
open scoped BigOperators
noncomputable section

namespace Cert.Bridge

open Cert.KernelIdeal Cert.KernelIdeal.Hand Cert.KernelIdeal.HandVal
open Idealize.ShloMosaic Idealize.ShloMosaic.TcCoe
open Idealize.ShloMosaic.ValueIdx
open Cert.ReferenceIdeal.Hand

variable [Cert.ReferenceIdeal.Facts]
variable (V : (c : Dev nD) → (b : Ref sig .tc) → Buf (Elt Ideal) ((c : Thread nD τ).loc b))

-- Neighbour by neighbour the pooled entries are the reference's activations, so their suprema agree.
theorem bridge1_r2 (c : Dev nD) (h : FVec Ideal S8192x32x128 .f32) (gamma beta : FVec Ideal S128 .f32)
    (hh : ∀ i, ∃ r : ℝ, h i = (r : EReal)) (hgamma : ∀ i, ∃ r : ℝ, gamma i = (r : EReal))
    (hbeta : ∀ i, ∃ r : ℝ, beta i = (r : EReal))
    (hH : V c main_v141_0 = h)
    (hMn : ∀ b : Fin 128, V c main_v148 (ix3 0 0 b)
      = Ideal.div (∑ p : Fin 8192, ∑ j : Fin 32, h (ix3 p j b)) ((262144 : ℝ) : EReal))
    (hVr : ∀ b : Fin 128, V c main_v149 (ix3 0 0 b)
      = Ideal.div (∑ p : Fin 8192, ∑ j : Fin 32, h (ix3 p j b) * h (ix3 p j b)) ((262144 : ℝ) : EReal)
        - Ideal.div (∑ p : Fin 8192, ∑ j : Fin 32, h (ix3 p j b)) ((262144 : ℝ) : EReal)
          * Ideal.div (∑ p : Fin 8192, ∑ j : Fin 32, h (ix3 p j b)) ((262144 : ℝ) : EReal))
    (hGm : ∀ b : Fin 128, V c main_v150 (ix3 0 0 b) = gamma (ix1 b))
    (hBt : ∀ b : Fin 128, V c main_v151 (ix3 0 0 b) = beta (ix1 b))
    (a : Fin 8192) (b : Fin 128) :
    (dat5 (F := Ideal) V c).arrAt 5 cfg5.N (ix2 a b) = r_out_1 (r_bn_1 h gamma beta) (ix2 a b) := by
  rw [val5_5, G5_5_apply, r_out_1_apply, Cert.Lib.ofBits_neg_inf_f32, Cert.Lib.fold_max_eq_sup]
  exact congrArg _ (funext fun j => act1_eq h gamma beta hh hgamma hbeta _ _ _ _ _ hH hMn hVr hGm hBt a j b)

end Cert.Bridge

end
-- ==== Proof.KiChain1.lean ====
import proofs.«157081_j85761906966880_1_alg».proof.Proof.KiReg
import proofs.«157081_j85761906966880_1_alg».proof.Proof.KiHostApply
import proofs.«157081_j85761906966880_1_alg».proof.Proof.SharedChain
import proofs.«157081_j85761906966880_1_alg».proof.Proof.Bridge1R0
import proofs.«157081_j85761906966880_1_alg».proof.Proof.Bridge1R1
import proofs.«157081_j85761906966880_1_alg».proof.Proof.Bridge1R2
import proofs.«157081_j85761906966880_1_alg».proof.Proof.RefFinite
import proofs.«157081_j85761906966880_1_alg».proof.Proof.RefGFinite
import proofs.«157081_j85761906966880_1_alg».proof.Proof.PreFinite
import Idealize.ShloMosaic.Lib.ValueIdx
open scoped BigOperators
noncomputable section

namespace Cert.Bridge

open Cert.KernelIdeal Cert.KernelIdeal.Gen Cert.KernelIdeal.Hand Cert.KernelIdeal.HandVal
open Idealize.ShloMosaic Idealize.ShloMosaic.TcCoe Idealize.SL.Sem
open Idealize.ShloMosaic.Pipeline (Dat)
open Idealize.ShloMosaic.ValueIdx
open Cert.ReferenceIdeal.Hand

variable [Cert.ReferenceIdeal.Facts]
variable (m : (ℓ : Loc nD τ sig) → Buf (Elt Ideal) ℓ) (c : Dev nD)

set_option quotPrecheck false in
local notation "A0" => m ((c : Thread nD τ).loc main_arg0)
set_option quotPrecheck false in
local notation "A1" => m ((c : Thread nD τ).loc main_arg1)
set_option quotPrecheck false in
local notation "A2" => m ((c : Thread nD τ).loc main_arg2)
set_option quotPrecheck false in
local notation "Wa" => m ((c : Thread nD τ).loc main_arg11)
set_option quotPrecheck false in
local notation "Ga" => m ((c : Thread nD τ).loc main_arg12)
set_option quotPrecheck false in
local notation "Ba" => m ((c : Thread nD τ).loc main_arg13)
set_option quotPrecheck false in
local notation "Wb" => m ((c : Thread nD τ).loc main_arg14)
set_option quotPrecheck false in
local notation "Gb" => m ((c : Thread nD τ).loc main_arg15)
set_option quotPrecheck false in
local notation "Bb" => m ((c : Thread nD τ).loc main_arg16)
set_option quotPrecheck false in
local notation "G1" => r_g1 (F := Ideal) A0 A1 A2
set_option quotPrecheck false in
local notation "H1" => r_h1_1 (F := Ideal) G1 Wa
set_option quotPrecheck false in
local notation "H2" => r_h2_1 (F := Ideal) (r_bn_1 (F := Ideal) H1 Ga Ba) Wb

theorem stageD_eq (r : Ref sig .tc) : outsD m 26 r c = X26 m c (Proc.devRef .tc r) := by
  simp only [outsD, Nat.reduceEqDiff, ↓reduceIte]

theorem stageE_eq (r : Ref sig .tc) : outsE m 28 r c = X28 m c (Proc.devRef .tc r) := by
  simp only [outsE, Nat.reduceEqDiff, ↓reduceIte]

variable (I : Cert.Lib.PreFinite.InputsReal (m ((c : Thread nD τ).loc main_arg0)) (m ((c : Thread nD τ).loc main_arg1))
      (m ((c : Thread nD τ).loc main_arg2)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12))
      (m ((c : Thread nD τ).loc main_arg13)) (m ((c : Thread nD τ).loc main_arg14)) (m ((c : Thread nD τ).loc main_arg15))
      (m ((c : Thread nD τ).loc main_arg16)))
include I

theorem chain1_r0 :
    (∀ (p : Fin 8192) (j : Fin 32) (o : Fin 128),
        ((dat3 (F := Ideal) (rd (V25 m (outsC m))) c).arrAt 2 cfg3.N : Vec Ideal S8192x32x128 .f32) (ix3 p j o)
          = H1 (ix3 p j o))
    ∧ (∀ o : Fin 128, ((dat3 (F := Ideal) (rd (V25 m (outsC m))) c).arrAt 3 cfg3.N : Vec Ideal S1x128 .f32) (ix2 0 o)
          = ∑ p : Fin 8192, ∑ j : Fin 32, H1 (ix3 p j o))
    ∧ (∀ o : Fin 128, ((dat3 (F := Ideal) (rd (V25 m (outsC m))) c).arrAt 4 cfg3.N : Vec Ideal S1x128 .f32) (ix2 0 o)
          = ∑ p : Fin 8192, ∑ j : Fin 32, H1 (ix3 p j o) * H1 (ix3 p j o)) := by
  have hg : rd (V25 m (outsC m)) c main_v127 = G1 := (V25_v127 m (outsC m) c).trans (g1_eq _ _ _)
  have hw : ∀ (k : Fin 67) (o : Fin 128),
      (rd (V25 m (outsC m)) c main_v128 : Vec Ideal S67x128 .f32) (ix2 k o) = (Wa : FVec Ideal S128x67 .f32) (ix2 o k) :=
    fun k o => (congrFun (V25_v128 m (outsC m) c) _).trans (transpose_ix2_apply _ _ k o)
  exact ⟨bridge1_r0_h (rd (V25 m (outsC m))) c _ _ hg hw, bridge1_r0_sum (rd (V25 m (outsC m))) c _ _ hg hw,
    bridge1_r0_sumsq (rd (V25 m (outsC m))) c _ _ hg hw⟩

theorem chain1_fH1 : ∀ i, ∃ r : ℝ, H1 i = (r : EReal) :=
  r_h1_1_finite G1 Wa (r_g1_finite A0 A1 A2 I.arg0 I.arg1 I.arg2) I.arg11

theorem chain1_r1 :
    (∀ (p : Fin 8192) (j : Fin 32) (o : Fin 128),
        (dat4 (F := Ideal) (rd (V27 m (outsD m))) c).arrAt 6 cfg4.N (ix3 p j o) = H2 (ix3 p j o))
    ∧ (∀ o : Fin 128, (dat4 (F := Ideal) (rd (V27 m (outsD m))) c).arrAt 7 cfg4.N (ix2 0 o)
          = ∑ p : Fin 8192, ∑ j : Fin 32, H2 (ix3 p j o))
    ∧ (∀ o : Fin 128, (dat4 (F := Ideal) (rd (V27 m (outsD m))) c).arrAt 8 cfg4.N (ix2 0 o)
          = ∑ p : Fin 8192, ∑ j : Fin 32, H2 (ix3 p j o) * H2 (ix3 p j o)) := by
  obtain ⟨R0h, R0s, R0q⟩ := chain1_r0 m c I
  have hH : rd (V27 m (outsD m)) c main_v130_0 = H1 := by
    funext i
    obtain ⟨p, j, o, rfl⟩ : ∃ p j o, i = ix3 p j o := ⟨_, _, _, eq_ix3 i⟩
    show (V27 m (outsD m) c main_v130_0 : FVec Ideal S8192x32x128 .f32) (ix3 p j o) = _
    rw [V27_v130_0 m (outsD m) c, stageD_eq m c main_v130_0, X26_main_v130_0 m c]
    exact R0h p j o
  have hMn : ∀ k : Fin 128, rd (V27 m (outsD m)) c main_v137 (ix3 0 0 k)
      = Ideal.div (∑ p : Fin 8192, ∑ j : Fin 32, H1 (ix3 p j k)) ((262144 : ℝ) : EReal) := by
    intro k
    refine ((congrFun (V27_v137 m (outsD m) c) _).trans (k_mean_apply _ _ cnt_1 _ k)).trans ?_
    rw [stageD_eq m c main_v130_1, X26_main_v130_1 m c, R0s k]
  have hVr : ∀ k : Fin 128, rd (V27 m (outsD m)) c main_v138 (ix3 0 0 k)
      = Ideal.div (∑ p : Fin 8192, ∑ j : Fin 32, H1 (ix3 p j k) * H1 (ix3 p j k)) ((262144 : ℝ) : EReal)
        - Ideal.div (∑ p : Fin 8192, ∑ j : Fin 32, H1 (ix3 p j k)) ((262144 : ℝ) : EReal)
          * Ideal.div (∑ p : Fin 8192, ∑ j : Fin 32, H1 (ix3 p j k)) ((262144 : ℝ) : EReal) := by
    intro k
    refine ((congrFun (V27_v138 m (outsD m) c) _).trans (k_var_apply _ _ cnt_1 _ _ k)).trans ?_
    rw [stageD_eq m c main_v130_1, stageD_eq m c main_v130_2, X26_main_v130_1 m c, X26_main_v130_2 m c, R0s k, R0q k]
  have hGm : ∀ k : Fin 128, rd (V27 m (outsD m)) c main_v139 (ix3 0 0 k) = (Ga : FVec Ideal S128 .f32) (ix1 k) :=
    fun k => (congrFun (V27_v139 m (outsD m) c) _).trans (shapeCast_a_11a_apply _ _ 0 0 k)
  have hBt : ∀ k : Fin 128, rd (V27 m (outsD m)) c main_v140 (ix3 0 0 k) = (Ba : FVec Ideal S128 .f32) (ix1 k) :=
    fun k => (congrFun (V27_v140 m (outsD m) c) _).trans (shapeCast_a_11a_apply _ _ 0 0 k)
  have hW : ∀ (k ch : Fin 128), rd (V27 m (outsD m)) c main_v129 (ix2 k ch) = (Wb : FVec Ideal S128x128 .f32) (ix2 ch k) :=
    fun k ch => (congrFun (V27_v129 m (outsD m) c) _).trans (transpose_ix2_apply _ _ k ch)
  have fH := chain1_fH1 m c I
  exact ⟨bridge1_r1_h (rd (V27 m (outsD m))) c H1 Ga Ba fH I.arg12 I.arg13 hH hMn hVr hGm hBt Wb hW,
    bridge1_r1_sum (rd (V27 m (outsD m))) c H1 Ga Ba fH I.arg12 I.arg13 hH hMn hVr hGm hBt Wb hW,
    bridge1_r1_sumsq (rd (V27 m (outsD m))) c H1 Ga Ba fH I.arg12 I.arg13 hH hMn hVr hGm hBt Wb hW⟩

theorem chain1_fH2 : ∀ i, ∃ r : ℝ, H2 i = (r : EReal) :=
  r_h2_1_finite (r_bn_1 (F := Ideal) H1 Ga Ba) Wb (r_bn_1_finite H1 Ga Ba (chain1_fH1 m c I) I.arg12 I.arg13) I.arg14

theorem chain1 (a : Fin 8192) (b : Fin 128) :
    (X30 m c (Proc.devRef .tc main_v152) : FVec Ideal S8192x128 .f32) (ix2 a b)
      = r_tail_1 (F := Ideal) G1 Wa Ga Ba Wb Gb Bb (ix2 a b) := by
  obtain ⟨R1h, R1s, R1q⟩ := chain1_r1 m c I
  have hH : rd (V29 m (outsE m)) c main_v141_0 = H2 := by
    funext i
    obtain ⟨p, j, o, rfl⟩ : ∃ p j o, i = ix3 p j o := ⟨_, _, _, eq_ix3 i⟩
    show (V29 m (outsE m) c main_v141_0 : FVec Ideal S8192x32x128 .f32) (ix3 p j o) = _
    rw [V29_v141_0 m (outsE m) c, stageE_eq m c main_v141_0, X28_main_v141_0 m c]
    exact R1h p j o
  have hMn : ∀ k : Fin 128, rd (V29 m (outsE m)) c main_v148 (ix3 0 0 k)
      = Ideal.div (∑ p : Fin 8192, ∑ j : Fin 32, H2 (ix3 p j k)) ((262144 : ℝ) : EReal) := by
    intro k
    refine ((congrFun (V29_v148 m (outsE m) c) _).trans (k_mean_apply _ _ cnt_1 _ k)).trans ?_
    rw [stageE_eq m c main_v141_1, X28_main_v141_1 m c, R1s k]
  have hVr : ∀ k : Fin 128, rd (V29 m (outsE m)) c main_v149 (ix3 0 0 k)
      = Ideal.div (∑ p : Fin 8192, ∑ j : Fin 32, H2 (ix3 p j k) * H2 (ix3 p j k)) ((262144 : ℝ) : EReal)
        - Ideal.div (∑ p : Fin 8192, ∑ j : Fin 32, H2 (ix3 p j k)) ((262144 : ℝ) : EReal)
          * Ideal.div (∑ p : Fin 8192, ∑ j : Fin 32, H2 (ix3 p j k)) ((262144 : ℝ) : EReal) := by
    intro k
    refine ((congrFun (V29_v149 m (outsE m) c) _).trans (k_var_apply _ _ cnt_1 _ _ k)).trans ?_
    rw [stageE_eq m c main_v141_1, stageE_eq m c main_v141_2, X28_main_v141_1 m c, X28_main_v141_2 m c, R1s k, R1q k]
  have hGm : ∀ k : Fin 128, rd (V29 m (outsE m)) c main_v150 (ix3 0 0 k) = (Gb : FVec Ideal S128 .f32) (ix1 k) :=
    fun k => (congrFun (V29_v150 m (outsE m) c) _).trans (shapeCast_a_11a_apply _ _ 0 0 k)
  have hBt : ∀ k : Fin 128, rd (V29 m (outsE m)) c main_v151 (ix3 0 0 k) = (Bb : FVec Ideal S128 .f32) (ix1 k) :=
    fun k => (congrFun (V29_v151 m (outsE m) c) _).trans (shapeCast_a_11a_apply _ _ 0 0 k)
  rw [X30_main_v152 m c, r_tail_1_eq]
  exact bridge1_r2 (rd (V29 m (outsE m))) c H2 Gb Bb (chain1_fH2 m c I) I.arg15 I.arg16 hH hMn hVr hGm hBt a b

end Cert.Bridge

end
-- ==== Proof.RefStages.lean ====
import proofs.«157081_j85761906966880_1_alg».proof.Proof.RefStages0
import proofs.«157081_j85761906966880_1_alg».proof.Proof.RefStages1

noncomputable section

namespace Cert.ReferenceIdeal.Hand

open Idealize.ShloMosaic
open Cert.ReferenceIdeal Cert.ReferenceIdeal.Facts₀ Cert.ReferenceIdeal.Facts

variable {F : FTy → Type} [FloatOps F] [Facts]

def r_final (xyz : FVec F S32768x3 .f32) (feat : FVec F S32768x64 .f32) (nw : FVec F S8192x3 .f32)
    (w00 : FVec F S128x67 .f32) (g00 b00 : FVec F S128 .f32) (w01 : FVec F S128x128 .f32) (g01 b01 : FVec F S128 .f32)
    (w10 : FVec F S128x67 .f32) (g10 b10 : FVec F S128 .f32) (w11 : FVec F S128x128 .f32) (g11 b11 : FVec F S128 .f32) :
    FVec F S8192x256 .f32 :=
  concatenate S8192x256 1
    [⟨S8192x128, r_tail_0 (r_g0 xyz feat nw) w00 g00 b00 w01 g01 b01⟩,
     ⟨S8192x128, r_tail_1 (r_g1 xyz feat nw) w10 g10 b10 w11 g11 b11⟩]
    concatenates_S8192x128_S8192x128_S8192x256_d1

end Cert.ReferenceIdeal.Hand

end
-- ==== Proof.RefApply.lean ====
import proofs.«157081_j85761906966880_1_alg».proof.Proof.RefStages
import proofs.«157081_j85761906966880_1_alg».proof.Proof.RefApply0
import proofs.«157081_j85761906966880_1_alg».proof.Proof.RefApply1

noncomputable section

namespace Cert.ReferenceIdeal.Hand

open Idealize.ShloMosaic Idealize.ShloMosaic.ValueIdx
open Cert.ReferenceIdeal Cert.ReferenceIdeal.Facts₀ Cert.ReferenceIdeal.Facts

variable [Facts] (xyz : FVec Ideal S32768x3 .f32) (feat : FVec Ideal S32768x64 .f32) (nw : FVec Ideal S8192x3 .f32)
    (w00 : FVec Ideal S128x67 .f32) (g00 b00 : FVec Ideal S128 .f32) (w01 : FVec Ideal S128x128 .f32) (g01 b01 : FVec Ideal S128 .f32)
    (w10 : FVec Ideal S128x67 .f32) (g10 b10 : FVec Ideal S128 .f32) (w11 : FVec Ideal S128x128 .f32) (g11 b11 : FVec Ideal S128 .f32)
    (m : Fin 8192) (o : Fin 128)

theorem r_final_apply_left :
    r_final xyz feat nw w00 g00 b00 w01 g01 b01 w10 g10 b10 w11 g11 b11 (ix2 m (⟨o.val, by omega⟩ : Fin 256))
      = r_tail_0 (r_g0 xyz feat nw) w00 g00 b00 w01 g01 b01 (ix2 m o) :=
  concatenate_pair_apply_left (t := S8192x256) (s₁ := S8192x128) (s₂ := S8192x128) 1 _ _
    concatenates_S8192x128_S8192x128_S8192x256_d1 _ rfl (ix2 m o) fun b =>
    match b with
    | ⟨0, _⟩ => rfl
    | ⟨1, _⟩ => rfl

theorem r_final_apply_right :
    r_final xyz feat nw w00 g00 b00 w01 g01 b01 w10 g10 b10 w11 g11 b11 (ix2 m (⟨o.val + 128, by omega⟩ : Fin 256))
      = r_tail_1 (r_g1 xyz feat nw) w10 g10 b10 w11 g11 b11 (ix2 m o) :=
  concatenate_pair_apply_right (t := S8192x256) (s₁ := S8192x128) (s₂ := S8192x128) 1 _ _
    concatenates_S8192x128_S8192x128_S8192x256_d1 _ rfl rfl (ix2 m o)
    (fun b hb =>
      match b with
      | ⟨0, _⟩ => rfl
      | ⟨1, _⟩ => absurd rfl hb) rfl

end Cert.ReferenceIdeal.Hand

end
-- ==== Proof.KiValue.lean ====
import proofs.«157081_j85761906966880_1_alg».proof.Proof.KiChain0
import proofs.«157081_j85761906966880_1_alg».proof.Proof.KiChain1
import proofs.«157081_j85761906966880_1_alg».proof.Proof.RefApply
import Idealize.ShloMosaic.Lib.ValueIdx
open scoped BigOperators
noncomputable section

namespace Cert.Bridge

open Cert.KernelIdeal Cert.KernelIdeal.Gen Cert.KernelIdeal.Hand Cert.KernelIdeal.HandVal
open Idealize.ShloMosaic Idealize.ShloMosaic.TcCoe Idealize.SL.Sem
open Idealize.ShloMosaic.ValueIdx
open Cert.ReferenceIdeal.Hand

variable [Cert.ReferenceIdeal.Facts]
variable (m : (ℓ : Loc nD τ sig) → Buf (Elt Ideal) ℓ) (c : Dev nD)

theorem kernel_value (I : Cert.Lib.PreFinite.InputsReal (m ((c : Thread nD τ).loc main_arg0)) (m ((c : Thread nD τ).loc main_arg1))
      (m ((c : Thread nD τ).loc main_arg2)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12))
      (m ((c : Thread nD τ).loc main_arg13)) (m ((c : Thread nD τ).loc main_arg14)) (m ((c : Thread nD τ).loc main_arg15))
      (m ((c : Thread nD τ).loc main_arg16))) :
    (V31 m (outs m) c (Proc.devRef .tc main_v153) : FVec Ideal S8192x256 .f32)
      = r_final (F := Ideal) (m ((c : Thread nD τ).loc main_arg0)) (m ((c : Thread nD τ).loc main_arg1))
          (m ((c : Thread nD τ).loc main_arg2)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15))
          (m ((c : Thread nD τ).loc main_arg16)) := by
  funext i
  obtain ⟨a, b, rfl⟩ : ∃ (a : Fin 8192) (b : Fin 256), i = ix2 a b := ⟨_, _, eq_ix2 i⟩
  obtain ⟨bv, hbv⟩ := b
  by_cases h : bv < 128
  · refine ((congrFun (V31_v153 m (outs m) c) _).trans (concat_cols_left _ _ _ a ⟨bv, h⟩)).trans ?_
    rw [outs_15 m main_v77 c]
    refine (chain0 m c I a ⟨bv, h⟩).trans ?_
    exact (r_final_apply_left _ _ _ _ _ _ _ _ _ _ _ _ _ _ _ a ⟨bv, h⟩).symm
  · obtain ⟨k, rfl⟩ : ∃ k, bv = k + 128 := ⟨bv - 128, by omega⟩
    have hk : k < 128 := by omega
    refine ((congrFun (V31_v153 m (outs m) c) _).trans (concat_cols_right _ _ _ a ⟨k, hk⟩)).trans ?_
    rw [outs_30 m main_v152 c]
    refine (chain1 m c I a ⟨k, hk⟩).trans ?_
    exact (r_final_apply_right _ _ _ _ _ _ _ _ _ _ _ _ _ _ _ a ⟨k, hk⟩).symm

end Cert.Bridge

end
-- ==== Proof.RefTab0.lean ====
import proofs.«157081_j85761906966880_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.reshape main_arg0 main_v0 rfl shapeCasts_S32768x3_S4x8192x3,
    StableHlo.reshape main_arg1 main_v1 rfl shapeCasts_S32768x64_S4x8192x64,
    StableHlo.reshape main_arg2 main_v2 rfl shapeCasts_S8192x3_S4x2048x3,
    StableHlo.binary main_v2 main_v2 main_v3 (mulf : (⟨S4x2048x3, .f32⟩ : BufTy).Contents (Elt F) → (⟨S4x2048x3, .f32⟩ : BufTy).Contents (Elt F) → (⟨S4x2048x3, .f32⟩ : BufTy).Contents (Elt F)),
    StableHlo.nullary main_cst (constant S_ .f32 0x00000000#32),
    StableHlo.binary main_v3 main_cst main_v4 ((fun x v => Host.reduceAdd x v reducesTo_S4x2048x3_S4x2048_d2 h_S_) : (⟨S4x2048x3, .f32⟩ : BufTy).Contents (Elt F) → (⟨S_, .f32⟩ : BufTy).Contents (Elt F) → (⟨S4x2048, .f32⟩ : BufTy).Contents (Elt F)),
    StableHlo.unary main_v4 main_v5 (broadcastInDim S4x2048x1 ![0, 1] bcast_S4x2048_S4x2048x1_0_1 : (⟨S4x2048, .f32⟩ : BufTy).Contents (Elt F) → (⟨S4x2048x1, .f32⟩ : BufTy).Contents (Elt F)),
    StableHlo.binary main_v0 main_v0 main_v6 (mulf : (⟨S4x8192x3, .f32⟩ : BufTy).Contents (Elt F) → (⟨S4x8192x3, .f32⟩ : BufTy).Contents (Elt F) → (⟨S4x8192x3, .f32⟩ : BufTy).Contents (Elt F)),
    StableHlo.nullary main_cst_0 (constant S_ .f32 0x00000000#32),
    StableHlo.binary main_v6 main_cst_0 main_v7 ((fun x v => Host.reduceAdd x v reducesTo_S4x8192x3_S4x8192_d2 h_S_) : (⟨S4x8192x3, .f32⟩ : BufTy).Contents (Elt F) → (⟨S_, .f32⟩ : BufTy).Contents (Elt F) → (⟨S4x8192, .f32⟩ : BufTy).Contents (Elt F)),
    StableHlo.unary main_v7 main_v8 (broadcastInDim S4x1x8192 ![0, 2] bcast_S4x8192_S4x1x8192_0_2 : (⟨S4x8192, .f32⟩ : BufTy).Contents (Elt F) → (⟨S4x1x8192, .f32⟩ : BufTy).Contents (Elt F)),
    StableHlo.unary main_v5 main_v9 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    StableHlo.unary main_v8 main_v10 (broadcastInDim S4x2048x8192 ![0, 1, 2] bcast_S4x1x8192_S4x2048x8192_0_1_2 : (⟨S4x1x8192, .f32⟩ : BufTy).Contents (Elt F) → (⟨S4x2048x8192, .f32⟩ : BufTy).Contents (Elt F)),
    StableHlo.binary main_v9 main_v10 main_v11 (addf : (⟨S4x2048x8192, .f32⟩ : BufTy).Contents (Elt F) → (⟨S4x2048x8192, .f32⟩ : BufTy).Contents (Elt F) → (⟨S4x2048x8192, .f32⟩ : BufTy).Contents (Elt F)),
    StableHlo.binary main_v2 main_v0 main_v12 ((fun l r => Host.dotGeneral dot_S4x2048x3_S4x8192x3_S4x2048x8192_2_2_1_1_0_0 none l r) : (⟨S4x2048x3, .f32⟩ : BufTy).Contents (Elt F) → (⟨S4x8192x3, .f32⟩ : BufTy).Contents (Elt F) → (⟨S4x2048x8192, .f32⟩ : BufTy).Contents (Elt F)),
    StableHlo.nullary main_cst_1 (constant S_ .f32 0x40000000#32),
    StableHlo.unary main_cst_1 main_v13 (broadcastInDim S4x2048x8192 ![] bcast_S_S4x2048x8192 : (⟨S_, .f32⟩ : BufTy).Contents (Elt F) → (⟨S4x2048x8192, .f32⟩ : BufTy).Contents (Elt F)),
    StableHlo.binary main_v13 main_v12 main_v14 (mulf : (⟨S4x2048x8192, .f32⟩ : BufTy).Contents (Elt F) → (⟨S4x2048x8192, .f32⟩ : BufTy).Contents (Elt F) → (⟨S4x2048x8192, .f32⟩ : BufTy).Contents (Elt F)),
    StableHlo.binary main_v11 main_v14 main_v15 (subf : (⟨S4x2048x8192, .f32⟩ : BufTy).Contents (Elt F) → (⟨S4x2048x8192, .f32⟩ : BufTy).Contents (Elt F) → (⟨S4x2048x8192, .f32⟩ : BufTy).Contents (Elt F)),
    StableHlo.nullary main_cst_2 (constant S_ .f32 0x3D23D70A#32),
    StableHlo.unary main_cst_2 main_v16 (broadcastInDim S4x2048x8192 ![] bcast_S_S4x2048x8192 : (⟨S_, .f32⟩ : BufTy).Contents (Elt F) → (⟨S4x2048x8192, .f32⟩ : BufTy).Contents (Elt F)),
    StableHlo.binary main_v15 main_v16 main_v17 (cmpf .olt : (⟨S4x2048x8192, .f32⟩ : BufTy).Contents (Elt F) → (⟨S4x2048x8192, .f32⟩ : BufTy).Contents (Elt F) → (⟨S4x2048x8192, .i1⟩ : BufTy).Contents (Elt F)) ]

abbrev ops1 : List (HloOp τ sig (Elt F)) :=
  [ StableHlo.nullary main_v18 (iotaInDim S8192 32 0),
    StableHlo.unary main_v18 main_v19 (broadcastInDim S1x1x8192 ![2] bcast_S8192_S1x1x8192_2 : (⟨S8192, .i32⟩ : BufTy).Contents (Elt F) → (⟨S1x1x8192, .i32⟩ : BufTy).Contents (Elt F)),
    StableHlo.nullary main_c (constantI S_ 32 8192#32) ]

abbrev ops2 : List (HloOp τ sig (Elt F)) :=
  [ StableHlo.TRef.unary (.of main_c : StableHlo.TRef sig ⟨S_, .i32⟩) (.of main_call0_v0 : StableHlo.TRef sig ⟨S_, .i32⟩) id,
    StableHlo.TRef.unary (.of main_v19 : StableHlo.TRef sig ⟨S1x1x8192, .i32⟩) (.of main_call0_v1 : StableHlo.TRef sig ⟨S4x2048x8192, .i32⟩) (broadcastInDim S4x2048x8192 ![0, 1, 2] bcast_S1x1x8192_S4x2048x8192_0_1_2),
    StableHlo.TRef.unary (.of main_call0_v0 : StableHlo.TRef sig ⟨S_, .i32⟩) (.of main_call0_v2 : StableHlo.TRef sig ⟨S4x2048x8192, .i32⟩) (broadcastInDim S4x2048x8192 ![] bcast_S_S4x2048x8192),
    StableHlo.TRef.ternary (.of main_v17 : StableHlo.TRef sig ⟨S4x2048x8192, .i1⟩) (.of main_call0_v1 : StableHlo.TRef sig ⟨S4x2048x8192, .i32⟩) (.of main_call0_v2 : StableHlo.TRef sig ⟨S4x2048x8192, .i32⟩) (.of main_v20 : StableHlo.TRef sig ⟨S4x2048x8192, .i32⟩) select ]

abbrev ops3 : List (HloOp τ sig (Elt F)) :=
  [ StableHlo.TRef.unary (.of main_v20 : StableHlo.TRef sig ⟨S4x2048x8192, .i32⟩) (.of main_v21 : StableHlo.TRef sig ⟨S4x2048x8192, .i32⟩) (fun x => Host.sort S4x2048x8192 2 comparator_i32_d2 x) ]

abbrev ops4 : List (HloOp τ sig (Elt F)) :=
  [ StableHlo.unary main_v21 main_v22 ((extractStridedSlice S4x2048x16 ![0, 0, 0] · slices_S4x2048x8192_S4x2048x16_0_0_0) : (⟨S4x2048x8192, .i32⟩ : BufTy).Contents (Elt F) → (⟨S4x2048x16, .i32⟩ : BufTy).Contents (Elt F)) ]

abbrev ops5 : List (HloOp τ sig (Elt F)) :=
  [ StableHlo.nullary main_c_3 (constantI S_ 32 8192#32),
    StableHlo.unary main_c_3 main_v23 (broadcastInDim S4x2048x16 ![] bcast_S_S4x2048x16 : (⟨S_, .i32⟩ : BufTy).Contents (Elt F) → (⟨S4x2048x16, .i32⟩ : BufTy).Contents (Elt F)),
    StableHlo.binary main_v22 main_v23 main_v24 (cmpi .slt : (⟨S4x2048x16, .i32⟩ : BufTy).Contents (Elt F) → (⟨S4x2048x16, .i32⟩ : BufTy).Contents (Elt F) → (⟨S4x2048x16, .i1⟩ : BufTy).Contents (Elt F)),
    StableHlo.unary main_v22 main_v25 ((extractStridedSlice S4x2048x1 ![0, 0, 0] · slices_S4x2048x16_S4x2048x1_0_0_0) : (⟨S4x2048x16, .i32⟩ : BufTy).Contents (Elt F) → (⟨S4x2048x1, .i32⟩ : BufTy).Contents (Elt F)) ]

abbrev ops6 : List (HloOp τ sig (Elt F)) :=
  [ StableHlo.TRef.unary (.of main_v25 : StableHlo.TRef sig ⟨S4x2048x1, .i32⟩) (.of main_call2_v0 : StableHlo.TRef sig ⟨S4x2048x16, .i32⟩) (broadcastInDim S4x2048x16 ![0, 1, 2] bcast_S4x2048x1_S4x2048x16_0_1_2),
    StableHlo.TRef.ternary (.of main_v24 : StableHlo.TRef sig ⟨S4x2048x16, .i1⟩) (.of main_v22 : StableHlo.TRef sig ⟨S4x2048x16, .i32⟩) (.of main_call2_v0 : StableHlo.TRef sig ⟨S4x2048x16, .i32⟩) (.of main_v26 : StableHlo.TRef sig ⟨S4x2048x16, .i32⟩) select ]

abbrev ops7 : List (HloOp τ sig (Elt F)) :=
  [ StableHlo.unary main_v24 main_v27 ((extractStridedSlice S4x2048x1 ![0, 0, 0] · slices_S4x2048x16_S4x2048x1_0_0_0) : (⟨S4x2048x16, .i1⟩ : BufTy).Contents (Elt F) → (⟨S4x2048x1, .i1⟩ : BufTy).Contents (Elt F)),
    StableHlo.reshape main_v27 main_v28 rfl shapeCasts_S4x2048x1_S4x2048,
    StableHlo.unary main_v28 main_v29 (noti : (⟨S4x2048, .i1⟩ : BufTy).Contents (Elt F) → (⟨S4x2048, .i1⟩ : BufTy).Contents (Elt F)),
    StableHlo.unary main_v29 main_v30 (broadcastInDim S4x2048x1 ![0, 1] bcast_S4x2048_S4x2048x1_0_1 : (⟨S4x2048, .i1⟩ : BufTy).Contents (Elt F) → (⟨S4x2048x1, .i1⟩ : BufTy).Contents (Elt F)),
    StableHlo.nullary main_c_4 (constantI S_ 32 0#32) ]

abbrev ops8 : List (HloOp τ sig (Elt F)) :=
  [ StableHlo.TRef.unary (.of main_c_4 : StableHlo.TRef sig ⟨S_, .i32⟩) (.of main_call3_v0 : StableHlo.TRef sig ⟨S_, .i32⟩) id,
    StableHlo.TRef.unary (.of main_v30 : StableHlo.TRef sig ⟨S4x2048x1, .i1⟩) (.of main_call3_v1 : StableHlo.TRef sig ⟨S4x2048x16, .i1⟩) (broadcastInDim S4x2048x16 ![0, 1, 2] bcast_S4x2048x1_S4x2048x16_0_1_2),
    StableHlo.TRef.unary (.of main_call3_v0 : StableHlo.TRef sig ⟨S_, .i32⟩) (.of main_call3_v2 : StableHlo.TRef sig ⟨S4x2048x16, .i32⟩) (broadcastInDim S4x2048x16 ![] bcast_S_S4x2048x16),
    StableHlo.TRef.ternary (.of main_call3_v1 : StableHlo.TRef sig ⟨S4x2048x16, .i1⟩) (.of main_call3_v2 : StableHlo.TRef sig ⟨S4x2048x16, .i32⟩) (.of main_v26 : StableHlo.TRef sig ⟨S4x2048x16, .i32⟩) (.of main_v31 : StableHlo.TRef sig ⟨S4x2048x16, .i32⟩) select ]

end Cert.ReferenceIdeal.Hand

end
-- ==== Proof.RefLine.lean ====
import proofs.«157081_j85761906966880_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def Good (n : Nat) (op : HloOp τ sig (Elt F)) : Prop :=
  op.bufs ⊆ tcRefs τ sig ∧ op.fresh = ∅ ∧ ∀ r : Ref sig .tc, Proc.devRef (τ := τ) .tc r ∈ op.writes → n ≤ r.idx.val

theorem good_of_writes {n : Nat} {op : HloOp τ sig (Elt F)} {y : Ref sig .tc} (hb : op.bufs ⊆ tcRefs τ sig) (hf : op.fresh = ∅)
    (hw : op.writes = {Proc.devRef (τ := τ) .tc y}) (hy : n ≤ y.idx.val) : Good n op :=
  ⟨hb, hf, fun r h => by
    rw [hw, Finset.mem_singleton] at h
    exact (Proc.devRef_injective _ h) ▸ hy⟩

theorem Good.nullary {n : Nat} (y : Ref sig .tc) (v : y.ty.Contents (Elt F)) (hy) (h : n ≤ y.idx.val := by decide) :
    Good n (StableHlo.nullary (τ := τ) y v hy) :=
  good_of_writes (nullary_bufs_sub ..) rfl rfl h
theorem Good.unary {n : Nat} (x y : Ref sig .tc) (f : x.ty.Contents (Elt F) → y.ty.Contents (Elt F)) (hx hy)
    (h : n ≤ y.idx.val := by decide) : Good n (StableHlo.unary (τ := τ) x y f hx hy) :=
  good_of_writes (unary_bufs_sub ..) rfl rfl h
theorem Good.binary {n : Nat} (a b y : Ref sig .tc) (f : a.ty.Contents (Elt F) → b.ty.Contents (Elt F) → y.ty.Contents (Elt F))
    (ha hb hy) (h : n ≤ y.idx.val := by decide) : Good n (StableHlo.binary (τ := τ) a b y f ha hb hy) :=
  good_of_writes (binary_bufs_sub ..) rfl rfl h
theorem Good.ternary {n : Nat} (c a b y : Ref sig .tc)
    (f : c.ty.Contents (Elt F) → a.ty.Contents (Elt F) → b.ty.Contents (Elt F) → y.ty.Contents (Elt F)) (hc ha hb hy)
    (h : n ≤ y.idx.val := by decide) : Good n (StableHlo.ternary (τ := τ) c a b y f hc ha hb hy) :=
  good_of_writes (ternary_bufs_sub ..) rfl rfl h
theorem Good.reshape {n : Nat} (x y : Ref sig .tc) (he hn hx hy) (h : n ≤ y.idx.val := by decide) :
    Good n (StableHlo.reshape (τ := τ) (Val := Elt F) x y he hn hx hy) :=
  good_of_writes (reshape_bufs_sub ..) rfl rfl h

theorem Good.mono {n n' : Nat} (h : n' ≤ n) {op : HloOp τ sig (Elt F)} (g : Good n op) : Good n' op :=
  ⟨g.1, g.2.1, fun r hr => h.trans (g.2.2 r hr)⟩

structure Line (n : Nat) (l : List (HloOp τ sig (Elt F))) : Prop where
  all : l.Forall (Good n)

theorem Line.mem {n : Nat} {l : List (HloOp τ sig (Elt F))} (h : Line n l) : ∀ op ∈ l, Good n op :=
  List.forall_iff_forall_mem.mp h.all

theorem Line.of_mem {n : Nat} {l : List (HloOp τ sig (Elt F))} (h : ∀ op ∈ l, Good n op) : Line n l :=
  ⟨List.forall_iff_forall_mem.mpr h⟩

theorem Line.mono {n n' : Nat} (h : n' ≤ n) {l : List (HloOp τ sig (Elt F))} (hl : Line n l) : Line n' l :=
  .of_mem fun op ho => (hl.mem op ho).mono h

theorem Line.append {n : Nat} {l₁ l₂ : List (HloOp τ sig (Elt F))} (h₁ : Line n l₁) (h₂ : Line n l₂) : Line n (l₁ ++ l₂) :=
  .of_mem fun op h => (List.mem_append.mp h).elim (h₁.mem op) (h₂.mem op)

theorem Line.append_le {n n' : Nat} {l₁ l₂ : List (HloOp τ sig (Elt F))} (h₁ : Line n l₁) (h₂ : Line n' l₂) (h : n ≤ n') :
    Line n (l₁ ++ l₂) :=
  h₁.append (h₂.mono h)

theorem Line.sub {n : Nat} {l : List (HloOp τ sig (Elt F))} (h : Line n l) : l.Forall fun op => op.bufs ⊆ tcRefs τ sig :=
  List.forall_iff_forall_mem.mpr fun op ho => (h.mem op ho).1

theorem Line.after_kept {n : Nat} {l : List (HloOp τ sig (Elt F))} (h : Line n l) (V : Valuation τ sig (Elt F))
    {r : Ref sig .tc} (hr : r.idx.val < n) : after l V (Proc.devRef .tc r) = V (Proc.devRef .tc r) :=
  after_of_forall_not_mem l V fun op ho hm => absurd ((h.mem op ho).2.2 r hm) (Nat.not_le.mpr hr)

end Cert.ReferenceIdeal.Hand

end
-- ==== Proof.RefOps0.lean ====
import proofs.«157081_j85761906966880_1_alg».proof.Proof.RefTab0
import proofs.«157081_j85761906966880_1_alg».proof.Proof.RefLine

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ops0_ok : Line 17 (ops0 : List (HloOp τ sig (Elt F))) :=
  Line.mk ⟨.reshape .., .reshape .., .reshape .., .binary .., .nullary .., .binary .., .unary .., .binary .., .nullary .., .binary .., .unary .., .unary .., .unary .., .binary .., .binary .., .nullary .., .unary .., .binary .., .binary .., .nullary .., .unary .., .binary ..⟩

theorem ops1_ok : Line 39 (ops1 : List (HloOp τ sig (Elt F))) :=
  Line.mk ⟨.nullary .., .unary .., .nullary ..⟩

theorem ops2_ok : Line 42 (ops2 : List (HloOp τ sig (Elt F))) :=
  Line.mk ⟨.unary .., .unary .., .unary .., .ternary ..⟩

theorem ops3_ok : Line 46 (ops3 : List (HloOp τ sig (Elt F))) :=
  Line.mk (.unary ..)

theorem ops4_ok : Line 47 (ops4 : List (HloOp τ sig (Elt F))) :=
  Line.mk (.unary ..)

theorem ops5_ok : Line 48 (ops5 : List (HloOp τ sig (Elt F))) :=
  Line.mk ⟨.nullary .., .unary .., .binary .., .unary ..⟩

theorem ops6_ok : Line 52 (ops6 : List (HloOp τ sig (Elt F))) :=
  Line.mk ⟨.unary .., .ternary ..⟩

theorem ops7_ok : Line 54 (ops7 : List (HloOp τ sig (Elt F))) :=
  Line.mk ⟨.unary .., .reshape .., .unary .., .unary .., .nullary ..⟩

theorem ops8_ok : Line 59 (ops8 : List (HloOp τ sig (Elt F))) :=
  Line.mk ⟨.unary .., .unary .., .unary .., .ternary ..⟩

end Cert.ReferenceIdeal.Hand

end
-- ==== Proof.RefTab1.lean ====
import proofs.«157081_j85761906966880_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops9 : List (HloOp τ sig (Elt F)) :=
  [ StableHlo.nullary main_c_5 (constantI S_ 32 0#32),
    StableHlo.unary main_c_5 main_v32 (broadcastInDim S4x2048x16 ![] bcast_S_S4x2048x16 : (⟨S_, .i32⟩ : BufTy).Contents (Elt F) → (⟨S4x2048x16, .i32⟩ : BufTy).Contents (Elt F)),
    StableHlo.binary main_v31 main_v32 main_v33 (cmpi .slt : (⟨S4x2048x16, .i32⟩ : BufTy).Contents (Elt F) → (⟨S4x2048x16, .i32⟩ : BufTy).Contents (Elt F) → (⟨S4x2048x16, .i1⟩ : BufTy).Contents (Elt F)),
    StableHlo.nullary main_c_6 (constantI S_ 32 8192#32),
    StableHlo.unary main_c_6 main_v34 (broadcastInDim S4x2048x16 ![] bcast_S_S4x2048x16 : (⟨S_, .i32⟩ : BufTy).Contents (Elt F) → (⟨S4x2048x16, .i32⟩ : BufTy).Contents (Elt F)),
    StableHlo.binary main_v31 main_v34 main_v35 (addi : (⟨S4x2048x16, .i32⟩ : BufTy).Contents (Elt F) → (⟨S4x2048x16, .i32⟩ : BufTy).Contents (Elt F) → (⟨S4x2048x16, .i32⟩ : BufTy).Contents (Elt F)),
    StableHlo.ternary main_v33 main_v35 main_v31 main_v36 (select : (⟨S4x2048x16, .i1⟩ : BufTy).Contents (Elt F) → (⟨S4x2048x16, .i32⟩ : BufTy).Contents (Elt F) → (⟨S4x2048x16, .i32⟩ : BufTy).Contents (Elt F) → (⟨S4x2048x16, .i32⟩ : BufTy).Contents (Elt F)),
    StableHlo.unary main_v36 main_v37 (broadcastInDim S4x2048x16x1 ![0, 1, 2] bcast_S4x2048x16_S4x2048x16x1_0_1_2 : (⟨S4x2048x16, .i32⟩ : BufTy).Contents (Elt F) → (⟨S4x2048x16x1, .i32⟩ : BufTy).Contents (Elt F)),
    StableHlo.binary main_v0 main_v37 main_v38 ((fun x i => Host.gather gather_S4x8192x3_S4x2048x16x1_S4x2048x16x3_3_1_0_0_1_3_113 x i) : (⟨S4x8192x3, .f32⟩ : BufTy).Contents (Elt F) → (⟨S4x2048x16x1, .i32⟩ : BufTy).Contents (Elt F) → (⟨S4x2048x16x3, .f32⟩ : BufTy).Contents (Elt F)),
    StableHlo.unary main_v2 main_v39 (broadcastInDim S4x2048x1x3 ![0, 1, 3] bcast_S4x2048x3_S4x2048x1x3_0_1_3 : (⟨S4x2048x3, .f32⟩ : BufTy).Contents (Elt F) → (⟨S4x2048x1x3, .f32⟩ : BufTy).Contents (Elt F)),
    StableHlo.unary main_v39 main_v40 (broadcastInDim S4x2048x16x3 ![0, 1, 2, 3] bcast_S4x2048x1x3_S4x2048x16x3_0_1_2_3 : (⟨S4x2048x1x3, .f32⟩ : BufTy).Contents (Elt F) → (⟨S4x2048x16x3, .f32⟩ : BufTy).Contents (Elt F)),
    StableHlo.binary main_v38 main_v40 main_v41 (subf : (⟨S4x2048x16x3, .f32⟩ : BufTy).Contents (Elt F) → (⟨S4x2048x16x3, .f32⟩ : BufTy).Contents (Elt F) → (⟨S4x2048x16x3, .f32⟩ : BufTy).Contents (Elt F)),
    StableHlo.nullary main_c_7 (constantI S_ 32 0#32),
    StableHlo.unary main_c_7 main_v42 (broadcastInDim S4x2048x16 ![] bcast_S_S4x2048x16 : (⟨S_, .i32⟩ : BufTy).Contents (Elt F) → (⟨S4x2048x16, .i32⟩ : BufTy).Contents (Elt F)),
    StableHlo.binary main_v31 main_v42 main_v43 (cmpi .slt : (⟨S4x2048x16, .i32⟩ : BufTy).Contents (Elt F) → (⟨S4x2048x16, .i32⟩ : BufTy).Contents (Elt F) → (⟨S4x2048x16, .i1⟩ : BufTy).Contents (Elt F)),
    StableHlo.nullary main_c_8 (constantI S_ 32 8192#32),
    StableHlo.unary main_c_8 main_v44 (broadcastInDim S4x2048x16 ![] bcast_S_S4x2048x16 : (⟨S_, .i32⟩ : BufTy).Contents (Elt F) → (⟨S4x2048x16, .i32⟩ : BufTy).Contents (Elt F)),
    StableHlo.binary main_v31 main_v44 main_v45 (addi : (⟨S4x2048x16, .i32⟩ : BufTy).Contents (Elt F) → (⟨S4x2048x16, .i32⟩ : BufTy).Contents (Elt F) → (⟨S4x2048x16, .i32⟩ : BufTy).Contents (Elt F)),
    StableHlo.ternary main_v43 main_v45 main_v31 main_v46 (select : (⟨S4x2048x16, .i1⟩ : BufTy).Contents (Elt F) → (⟨S4x2048x16, .i32⟩ : BufTy).Contents (Elt F) → (⟨S4x2048x16, .i32⟩ : BufTy).Contents (Elt F) → (⟨S4x2048x16, .i32⟩ : BufTy).Contents (Elt F)),
    StableHlo.unary main_v46 main_v47 (broadcastInDim S4x2048x16x1 ![0, 1, 2] bcast_S4x2048x16_S4x2048x16x1_0_1_2 : (⟨S4x2048x16, .i32⟩ : BufTy).Contents (Elt F) → (⟨S4x2048x16x1, .i32⟩ : BufTy).Contents (Elt F)),
    StableHlo.binary main_v1 main_v47 main_v48 ((fun x i => Host.gather gather_S4x8192x64_S4x2048x16x1_S4x2048x16x64_3_1_0_0_1_3_1164 x i) : (⟨S4x8192x64, .f32⟩ : BufTy).Contents (Elt F) → (⟨S4x2048x16x1, .i32⟩ : BufTy).Contents (Elt F) → (⟨S4x2048x16x64, .f32⟩ : BufTy).Contents (Elt F)) ]

end Cert.ReferenceIdeal.Hand

end
-- ==== Proof.RefOps1.lean ====
import proofs.«157081_j85761906966880_1_alg».proof.Proof.RefTab1
import proofs.«157081_j85761906966880_1_alg».proof.Proof.RefLine

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ops9_ok : Line 63 (ops9 : List (HloOp τ sig (Elt F))) :=
  Line.mk ⟨.nullary .., .unary .., .binary .., .nullary .., .unary .., .binary .., .ternary .., .unary .., .binary .., .unary .., .unary .., .binary .., .nullary .., .unary .., .binary .., .nullary .., .unary .., .binary .., .ternary .., .unary .., .binary ..⟩

end Cert.ReferenceIdeal.Hand

end
-- ==== Proof.RefTab2.lean ====
import proofs.«157081_j85761906966880_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops10 : List (HloOp τ sig (Elt F)) :=
  [ StableHlo.binary main_v41 main_v48 main_v49 ((fun a b => concatenate S4x2048x16x67 3 [⟨S4x2048x16x3, a⟩, ⟨S4x2048x16x64, b⟩] concatenates_S4x2048x16x3_S4x2048x16x64_S4x2048x16x67_d3) : (⟨S4x2048x16x3, .f32⟩ : BufTy).Contents (Elt F) → (⟨S4x2048x16x64, .f32⟩ : BufTy).Contents (Elt F) → (⟨S4x2048x16x67, .f32⟩ : BufTy).Contents (Elt F)),
    StableHlo.unary main_v29 main_v50 (broadcastInDim S4x2048x1x1 ![0, 1] bcast_S4x2048_S4x2048x1x1_0_1 : (⟨S4x2048, .i1⟩ : BufTy).Contents (Elt F) → (⟨S4x2048x1x1, .i1⟩ : BufTy).Contents (Elt F)),
    StableHlo.nullary main_cst_9 (constant S_ .f32 0x00000000#32) ]

abbrev ops11 : List (HloOp τ sig (Elt F)) :=
  [ StableHlo.TRef.unary (.of main_cst_9 : StableHlo.TRef sig ⟨S_, .f32⟩) (.of main_call4_v0 : StableHlo.TRef sig ⟨S_, .f32⟩) id,
    StableHlo.TRef.unary (.of main_v50 : StableHlo.TRef sig ⟨S4x2048x1x1, .i1⟩) (.of main_call4_v1 : StableHlo.TRef sig ⟨S4x2048x16x67, .i1⟩) (broadcastInDim S4x2048x16x67 ![0, 1, 2, 3] bcast_S4x2048x1x1_S4x2048x16x67_0_1_2_3),
    StableHlo.TRef.unary (.of main_call4_v0 : StableHlo.TRef sig ⟨S_, .f32⟩) (.of main_call4_v2 : StableHlo.TRef sig ⟨S4x2048x16x67, .f32⟩) (broadcastInDim S4x2048x16x67 ![] bcast_S_S4x2048x16x67),
    StableHlo.TRef.ternary (.of main_call4_v1 : StableHlo.TRef sig ⟨S4x2048x16x67, .i1⟩) (.of main_call4_v2 : StableHlo.TRef sig ⟨S4x2048x16x67, .f32⟩) (.of main_v49 : StableHlo.TRef sig ⟨S4x2048x16x67, .f32⟩) (.of main_v51 : StableHlo.TRef sig ⟨S4x2048x16x67, .f32⟩) select ]

abbrev ops12 : List (HloOp τ sig (Elt F)) :=
  [ StableHlo.reshape main_v51 main_v52 rfl shapeCasts_S4x2048x16x67_S8192x16x67 ]

abbrev ops13 : List (HloOp τ sig (Elt F)) :=
  [ StableHlo.binary main_v52 main_arg5 main_v53 ((fun l r => Host.dotGeneral dot_S8192x16x67_S128x67_S8192x16x128_2_1_01_0_n_n none l r) : (⟨S8192x16x67, .f32⟩ : BufTy).Contents (Elt F) → (⟨S128x67, .f32⟩ : BufTy).Contents (Elt F) → (⟨S8192x16x128, .f32⟩ : BufTy).Contents (Elt F)),
    StableHlo.nullary main_cst_10 (constant S_ .f32 0x00000000#32),
    StableHlo.binary main_v53 main_cst_10 main_v54 ((fun x v => Host.reduceAdd x v reducesTo_S8192x16x128_S128_d0_1 h_S_) : (⟨S8192x16x128, .f32⟩ : BufTy).Contents (Elt F) → (⟨S_, .f32⟩ : BufTy).Contents (Elt F) → (⟨S128, .f32⟩ : BufTy).Contents (Elt F)),
    StableHlo.nullary main_cst_11 (constant S_ .f32 0x48000000#32),
    StableHlo.unary main_cst_11 main_v55 (broadcastInDim S128 ![] bcast_S_S128 : (⟨S_, .f32⟩ : BufTy).Contents (Elt F) → (⟨S128, .f32⟩ : BufTy).Contents (Elt F)),
    StableHlo.binary main_v54 main_v55 main_v56 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32) ]

abbrev ops14 : List (HloOp τ sig (Elt F)) :=
  [ StableHlo.TRef.nullary (.of main_call5_cst : StableHlo.TRef sig ⟨S_, .f32⟩) (constant S_ .f32 0x00000000#32),
    StableHlo.TRef.binary (.of main_v53 : StableHlo.TRef sig ⟨S8192x16x128, .f32⟩) (.of main_call5_cst : StableHlo.TRef sig ⟨S_, .f32⟩) (.of main_call5_v0 : StableHlo.TRef sig ⟨S128, .f32⟩) (fun x v => Host.reduceAdd x v reducesTo_S8192x16x128_S128_d0_1 h_S_),
    StableHlo.TRef.unary (.of main_call5_v0 : StableHlo.TRef sig ⟨S128, .f32⟩) (.of main_call5_v1 : StableHlo.TRef sig ⟨S1x1x128, .f32⟩) (broadcastInDim S1x1x128 ![2] bcast_S128_S1x1x128_2),
    StableHlo.TRef.nullary (.of main_call5_cst_0 : StableHlo.TRef sig ⟨S_, .f32⟩) (constant S_ .f32 0x48000000#32),
    StableHlo.TRef.unary (.of main_call5_cst_0 : StableHlo.TRef sig ⟨S_, .f32⟩) (.of main_call5_v2 : StableHlo.TRef sig ⟨S1x1x128, .f32⟩) (broadcastInDim S1x1x128 ![] bcast_S_S1x1x128),
    StableHlo.TRef.binary (.of main_call5_v1 : StableHlo.TRef sig ⟨S1x1x128, .f32⟩) (.of main_call5_v2 : StableHlo.TRef sig ⟨S1x1x128, .f32⟩) (.of main_call5_v3 : StableHlo.TRef sig ⟨S1x1x128, .f32⟩) Host.divf,
    StableHlo.TRef.unary (.of main_call5_v3 : StableHlo.TRef sig ⟨S1x1x128, .f32⟩) (.of main_call5_v4 : StableHlo.TRef sig ⟨S8192x16x128, .f32⟩) (broadcastInDim S8192x16x128 ![0, 1, 2] bcast_S1x1x128_S8192x16x128_0_1_2),
    StableHlo.TRef.binary (.of main_v53 : StableHlo.TRef sig ⟨S8192x16x128, .f32⟩) (.of main_call5_v4 : StableHlo.TRef sig ⟨S8192x16x128, .f32⟩) (.of main_call5_v5 : StableHlo.TRef sig ⟨S8192x16x128, .f32⟩) subf,
    StableHlo.TRef.binary (.of main_call5_v5 : StableHlo.TRef sig ⟨S8192x16x128, .f32⟩) (.of main_call5_v5 : StableHlo.TRef sig ⟨S8192x16x128, .f32⟩) (.of main_call5_v6 : StableHlo.TRef sig ⟨S8192x16x128, .f32⟩) mulf,
    StableHlo.TRef.unary (.of main_c_12 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x48000000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
    StableHlo.TRef.nullary (.of main_call5_cst_2 : StableHlo.TRef sig ⟨S_, .f32⟩) (constant S_ .f32 0x00000000#32),
    StableHlo.TRef.binary (.of main_call5_v6 : StableHlo.TRef sig ⟨S8192x16x128, .f32⟩) (.of main_call5_cst_2 : StableHlo.TRef sig ⟨S_, .f32⟩) (.of main_call5_v9 : StableHlo.TRef sig ⟨S128, .f32⟩) (fun x v => Host.reduceAdd x v reducesTo_S8192x16x128_S128_d0_1 h_S_),
    StableHlo.TRef.unary (.of main_call5_v8 : StableHlo.TRef sig ⟨S_, .f32⟩) (.of main_call5_v10 : StableHlo.TRef sig ⟨S128, .f32⟩) (broadcastInDim S128 ![] bcast_S_S128),
    StableHlo.TRef.binary (.of main_call5_v9 : StableHlo.TRef sig ⟨S128, .f32⟩) (.of main_call5_v10 : StableHlo.TRef sig ⟨S128, .f32⟩) (.of main_call5_v11 : StableHlo.TRef sig ⟨S128, .f32⟩) Host.divf,
    StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v12 : StableHlo.TRef sig ⟨S_, .i1⟩) (cmpf .ogt),
    StableHlo.TRef.nullary (.of main_call5_cst_4 : StableHlo.TRef sig ⟨S_, .f32⟩) (constant S_ .f32 0x7FC00000#32),
    StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S128, .f32⟩) (broadcastInDim S128 ![] bcast_S_S128),
    StableHlo.TRef.ternary (.of main_call5_v12 : StableHlo.TRef sig ⟨S_, .i1⟩) (.of main_call5_v11 : StableHlo.TRef sig ⟨S128, .f32⟩) (.of main_call5_call0_v1 : StableHlo.TRef sig ⟨S128, .f32⟩) (.of main_v57 : StableHlo.TRef sig ⟨S128, .f32⟩) (fun p a b => select (broadcastInDim S128 ![] bcast_S_S128 p) a b) ]

end Cert.ReferenceIdeal.Hand

end
-- ==== Proof.RefOps2.lean ====
import proofs.«157081_j85761906966880_1_alg».proof.Proof.RefTab2
import proofs.«157081_j85761906966880_1_alg».proof.Proof.RefLine

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ops10_ok : Line 84 (ops10 : List (HloOp τ sig (Elt F))) :=
  Line.mk ⟨.binary .., .unary .., .nullary ..⟩

theorem ops11_ok : Line 87 (ops11 : List (HloOp τ sig (Elt F))) :=
  Line.mk ⟨.unary .., .unary .., .unary .., .ternary ..⟩

theorem ops12_ok : Line 91 (ops12 : List (HloOp τ sig (Elt F))) :=
  Line.mk (.reshape ..)

theorem ops13_ok : Line 92 (ops13 : List (HloOp τ sig (Elt F))) :=
  Line.mk ⟨.binary .., .nullary .., .binary .., .nullary .., .unary .., .binary .., .nullary ..⟩

theorem ops14_ok : Line 99 (ops14 : List (HloOp τ sig (Elt F))) :=
  Line.mk ⟨.nullary .., .binary .., .unary .., .nullary .., .unary .., .binary .., .unary .., .binary .., .binary .., .unary .., .nullary .., .binary .., .nullary .., .binary .., .unary .., .binary .., .nullary .., .binary .., .nullary .., .unary .., .unary .., .ternary ..⟩

end Cert.ReferenceIdeal.Hand

end
-- ==== Proof.RefTab3.lean ====
import proofs.«157081_j85761906966880_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops15 : List (HloOp τ sig (Elt F)) :=
  [ StableHlo.unary main_v56 main_v58 (broadcastInDim S1x1x128 ![2] bcast_S128_S1x1x128_2 : (⟨S128, .f32⟩ : BufTy).Contents (Elt F) → (⟨S1x1x128, .f32⟩ : BufTy).Contents (Elt F)),
    StableHlo.unary main_v58 main_v59 (broadcastInDim S8192x16x128 ![0, 1, 2] bcast_S1x1x128_S8192x16x128_0_1_2 : (⟨S1x1x128, .f32⟩ : BufTy).Contents (Elt F) → (⟨S8192x16x128, .f32⟩ : BufTy).Contents (Elt F)),
    StableHlo.binary main_v53 main_v59 main_v60 (subf : (⟨S8192x16x128, .f32⟩ : BufTy).Contents (Elt F) → (⟨S8192x16x128, .f32⟩ : BufTy).Contents (Elt F) → (⟨S8192x16x128, .f32⟩ : BufTy).Contents (Elt F)),
    StableHlo.nullary main_cst_13 (constant S_ .f32 0x3727C5AC#32),
    StableHlo.unary main_cst_13 main_v61 (broadcastInDim S128 ![] bcast_S_S128 : (⟨S_, .f32⟩ : BufTy).Contents (Elt F) → (⟨S128, .f32⟩ : BufTy).Contents (Elt F)),
    StableHlo.binary main_v57 main_v61 main_v62 (addf : (⟨S128, .f32⟩ : BufTy).Contents (Elt F) → (⟨S128, .f32⟩ : BufTy).Contents (Elt F) → (⟨S128, .f32⟩ : BufTy).Contents (Elt F)),
    StableHlo.unary main_v62 main_v63 (Host.rsqrt : (⟨S128, .f32⟩ : BufTy).Contents (Elt F) → (⟨S128, .f32⟩ : BufTy).Contents (Elt F)),
    StableHlo.unary main_v63 main_v64 (broadcastInDim S1x1x128 ![2] bcast_S128_S1x1x128_2 : (⟨S128, .f32⟩ : BufTy).Contents (Elt F) → (⟨S1x1x128, .f32⟩ : BufTy).Contents (Elt F)),
    StableHlo.unary main_v64 main_v65 (broadcastInDim S8192x16x128 ![0, 1, 2] bcast_S1x1x128_S8192x16x128_0_1_2 : (⟨S1x1x128, .f32⟩ : BufTy).Contents (Elt F) → (⟨S8192x16x128, .f32⟩ : BufTy).Contents (Elt F)),
    StableHlo.binary main_v60 main_v65 main_v66 (mulf : (⟨S8192x16x128, .f32⟩ : BufTy).Contents (Elt F) → (⟨S8192x16x128, .f32⟩ : BufTy).Contents (Elt F) → (⟨S8192x16x128, .f32⟩ : BufTy).Contents (Elt F)),
    StableHlo.unary main_arg6 main_v67 (broadcastInDim S1x1x128 ![2] bcast_S128_S1x1x128_2 : (⟨S128, .f32⟩ : BufTy).Contents (Elt F) → (⟨S1x1x128, .f32⟩ : BufTy).Contents (Elt F)),
    StableHlo.unary main_v67 main_v68 (broadcastInDim S8192x16x128 ![0, 1, 2] bcast_S1x1x128_S8192x16x128_0_1_2 : (⟨S1x1x128, .f32⟩ : BufTy).Contents (Elt F) → (⟨S8192x16x128, .f32⟩ : BufTy).Contents (Elt F)),
    StableHlo.binary main_v66 main_v68 main_v69 (mulf : (⟨S8192x16x128, .f32⟩ : BufTy).Contents (Elt F) → (⟨S8192x16x128, .f32⟩ : BufTy).Contents (Elt F) → (⟨S8192x16x128, .f32⟩ : BufTy).Contents (Elt F)),
    StableHlo.unary main_arg7 main_v70 (broadcastInDim S1x1x128 ![2] bcast_S128_S1x1x128_2 : (⟨S128, .f32⟩ : BufTy).Contents (Elt F) → (⟨S1x1x128, .f32⟩ : BufTy).Contents (Elt F)),
    StableHlo.unary main_v70 main_v71 (broadcastInDim S8192x16x128 ![0, 1, 2] bcast_S1x1x128_S8192x16x128_0_1_2 : (⟨S1x1x128, .f32⟩ : BufTy).Contents (Elt F) → (⟨S8192x16x128, .f32⟩ : BufTy).Contents (Elt F)),
    StableHlo.binary main_v69 main_v71 main_v72 (addf : (⟨S8192x16x128, .f32⟩ : BufTy).Contents (Elt F) → (⟨S8192x16x128, .f32⟩ : BufTy).Contents (Elt F) → (⟨S8192x16x128, .f32⟩ : BufTy).Contents (Elt F)) ]

abbrev ops16 : List (HloOp τ sig (Elt F)) :=
  [ StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S8192x16x128, .f32⟩) (broadcastInDim S8192x16x128 ![] bcast_S_S8192x16x128),
    StableHlo.TRef.binary (.of main_v72 : StableHlo.TRef sig ⟨S8192x16x128, .f32⟩) (.of main_call6_v0 : StableHlo.TRef sig ⟨S8192x16x128, .f32⟩) (.of main_v73 : StableHlo.TRef sig ⟨S8192x16x128, .f32⟩) maximumf ]

abbrev ops17 : List (HloOp τ sig (Elt F)) :=
  [ StableHlo.binary main_v73 main_arg8 main_v74 ((fun l r => Host.dotGeneral dot_S8192x16x128_S128x128_S8192x16x128_2_1_01_0_n_n none l r) : (⟨S8192x16x128, .f32⟩ : BufTy).Contents (Elt F) → (⟨S128x128, .f32⟩ : BufTy).Contents (Elt F) → (⟨S8192x16x128, .f32⟩ : BufTy).Contents (Elt F)),
    StableHlo.nullary main_cst_14 (constant S_ .f32 0x00000000#32),
    StableHlo.binary main_v74 main_cst_14 main_v75 ((fun x v => Host.reduceAdd x v reducesTo_S8192x16x128_S128_d0_1 h_S_) : (⟨S8192x16x128, .f32⟩ : BufTy).Contents (Elt F) → (⟨S_, .f32⟩ : BufTy).Contents (Elt F) → (⟨S128, .f32⟩ : BufTy).Contents (Elt F)),
    StableHlo.nullary main_cst_15 (constant S_ .f32 0x48000000#32),
    StableHlo.unary main_cst_15 main_v76 (broadcastInDim S128 ![] bcast_S_S128 : (⟨S_, .f32⟩ : BufTy).Contents (Elt F) → (⟨S128, .f32⟩ : BufTy).Contents (Elt F)),
    StableHlo.binary main_v75 main_v76 main_v77 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32) ]

abbrev ops18 : List (HloOp τ sig (Elt F)) :=
  [ StableHlo.TRef.nullary (.of main_call7_cst : StableHlo.TRef sig ⟨S_, .f32⟩) (constant S_ .f32 0x00000000#32),
    StableHlo.TRef.binary (.of main_v74 : StableHlo.TRef sig ⟨S8192x16x128, .f32⟩) (.of main_call7_cst : StableHlo.TRef sig ⟨S_, .f32⟩) (.of main_call7_v0 : StableHlo.TRef sig ⟨S128, .f32⟩) (fun x v => Host.reduceAdd x v reducesTo_S8192x16x128_S128_d0_1 h_S_),
    StableHlo.TRef.unary (.of main_call7_v0 : StableHlo.TRef sig ⟨S128, .f32⟩) (.of main_call7_v1 : StableHlo.TRef sig ⟨S1x1x128, .f32⟩) (broadcastInDim S1x1x128 ![2] bcast_S128_S1x1x128_2),
    StableHlo.TRef.nullary (.of main_call7_cst_0 : StableHlo.TRef sig ⟨S_, .f32⟩) (constant S_ .f32 0x48000000#32),
    StableHlo.TRef.unary (.of main_call7_cst_0 : StableHlo.TRef sig ⟨S_, .f32⟩) (.of main_call7_v2 : StableHlo.TRef sig ⟨S1x1x128, .f32⟩) (broadcastInDim S1x1x128 ![] bcast_S_S1x1x128),
    StableHlo.TRef.binary (.of main_call7_v1 : StableHlo.TRef sig ⟨S1x1x128, .f32⟩) (.of main_call7_v2 : StableHlo.TRef sig ⟨S1x1x128, .f32⟩) (.of main_call7_v3 : StableHlo.TRef sig ⟨S1x1x128, .f32⟩) Host.divf,
    StableHlo.TRef.unary (.of main_call7_v3 : StableHlo.TRef sig ⟨S1x1x128, .f32⟩) (.of main_call7_v4 : StableHlo.TRef sig ⟨S8192x16x128, .f32⟩) (broadcastInDim S8192x16x128 ![0, 1, 2] bcast_S1x1x128_S8192x16x128_0_1_2),
    StableHlo.TRef.binary (.of main_v74 : StableHlo.TRef sig ⟨S8192x16x128, .f32⟩) (.of main_call7_v4 : StableHlo.TRef sig ⟨S8192x16x128, .f32⟩) (.of main_call7_v5 : StableHlo.TRef sig ⟨S8192x16x128, .f32⟩) subf,
    StableHlo.TRef.binary (.of main_call7_v5 : StableHlo.TRef sig ⟨S8192x16x128, .f32⟩) (.of main_call7_v5 : StableHlo.TRef sig ⟨S8192x16x128, .f32⟩) (.of main_call7_v6 : StableHlo.TRef sig ⟨S8192x16x128, .f32⟩) mulf,
    StableHlo.TRef.unary (.of main_c_16 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x48000000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S8192x16x128, .f32⟩) (.of main_call7_cst_2 : StableHlo.TRef sig ⟨S_, .f32⟩) (.of main_call7_v9 : StableHlo.TRef sig ⟨S128, .f32⟩) (fun x v => Host.reduceAdd x v reducesTo_S8192x16x128_S128_d0_1 h_S_),
    StableHlo.TRef.unary (.of main_call7_v8 : StableHlo.TRef sig ⟨S_, .f32⟩) (.of main_call7_v10 : StableHlo.TRef sig ⟨S128, .f32⟩) (broadcastInDim S128 ![] bcast_S_S128),
    StableHlo.TRef.binary (.of main_call7_v9 : StableHlo.TRef sig ⟨S128, .f32⟩) (.of main_call7_v10 : StableHlo.TRef sig ⟨S128, .f32⟩) (.of main_call7_v11 : StableHlo.TRef sig ⟨S128, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v12 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S128, .f32⟩) (broadcastInDim S128 ![] bcast_S_S128),
    StableHlo.TRef.ternary (.of main_call7_v12 : StableHlo.TRef sig ⟨S_, .i1⟩) (.of main_call7_v11 : StableHlo.TRef sig ⟨S128, .f32⟩) (.of main_call7_call0_v1 : StableHlo.TRef sig ⟨S128, .f32⟩) (.of main_v78 : StableHlo.TRef sig ⟨S128, .f32⟩) (fun p a b => select (broadcastInDim S128 ![] bcast_S_S128 p) a b) ]

end Cert.ReferenceIdeal.Hand

end
-- ==== Proof.RefOps3.lean ====
import proofs.«157081_j85761906966880_1_alg».proof.Proof.RefTab3
import proofs.«157081_j85761906966880_1_alg».proof.Proof.RefLine

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ops15_ok : Line 121 (ops15 : List (HloOp τ sig (Elt F))) :=
  Line.mk ⟨.unary .., .unary .., .binary .., .nullary .., .unary .., .binary .., .unary .., .unary .., .unary .., .binary .., .unary .., .unary .., .binary .., .unary .., .unary .., .binary ..⟩

theorem ops16_ok : Line 137 (ops16 : List (HloOp τ sig (Elt F))) :=
  Line.mk ⟨.nullary .., .unary .., .binary ..⟩

theorem ops17_ok : Line 140 (ops17 : List (HloOp τ sig (Elt F))) :=
  Line.mk ⟨.binary .., .nullary .., .binary .., .nullary .., .unary .., .binary .., .nullary ..⟩

theorem ops18_ok : Line 147 (ops18 : List (HloOp τ sig (Elt F))) :=
  Line.mk ⟨.nullary .., .binary .., .unary .., .nullary .., .unary .., .binary .., .unary .., .binary .., .binary .., .unary .., .nullary .., .binary .., .nullary .., .binary .., .unary .., .binary .., .nullary .., .binary .., .nullary .., .unary .., .unary .., .ternary ..⟩

end Cert.ReferenceIdeal.Hand

end
-- ==== Proof.RefTab4.lean ====
import proofs.«157081_j85761906966880_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops19 : List (HloOp τ sig (Elt F)) :=
  [ StableHlo.unary main_v77 main_v79 (broadcastInDim S1x1x128 ![2] bcast_S128_S1x1x128_2 : (⟨S128, .f32⟩ : BufTy).Contents (Elt F) → (⟨S1x1x128, .f32⟩ : BufTy).Contents (Elt F)),
    StableHlo.unary main_v79 main_v80 (broadcastInDim S8192x16x128 ![0, 1, 2] bcast_S1x1x128_S8192x16x128_0_1_2 : (⟨S1x1x128, .f32⟩ : BufTy).Contents (Elt F) → (⟨S8192x16x128, .f32⟩ : BufTy).Contents (Elt F)),
    StableHlo.binary main_v74 main_v80 main_v81 (subf : (⟨S8192x16x128, .f32⟩ : BufTy).Contents (Elt F) → (⟨S8192x16x128, .f32⟩ : BufTy).Contents (Elt F) → (⟨S8192x16x128, .f32⟩ : BufTy).Contents (Elt F)),
    StableHlo.nullary main_cst_17 (constant S_ .f32 0x3727C5AC#32),
    StableHlo.unary main_cst_17 main_v82 (broadcastInDim S128 ![] bcast_S_S128 : (⟨S_, .f32⟩ : BufTy).Contents (Elt F) → (⟨S128, .f32⟩ : BufTy).Contents (Elt F)),
    StableHlo.binary main_v78 main_v82 main_v83 (addf : (⟨S128, .f32⟩ : BufTy).Contents (Elt F) → (⟨S128, .f32⟩ : BufTy).Contents (Elt F) → (⟨S128, .f32⟩ : BufTy).Contents (Elt F)),
    StableHlo.unary main_v83 main_v84 (Host.rsqrt : (⟨S128, .f32⟩ : BufTy).Contents (Elt F) → (⟨S128, .f32⟩ : BufTy).Contents (Elt F)),
    StableHlo.unary main_v84 main_v85 (broadcastInDim S1x1x128 ![2] bcast_S128_S1x1x128_2 : (⟨S128, .f32⟩ : BufTy).Contents (Elt F) → (⟨S1x1x128, .f32⟩ : BufTy).Contents (Elt F)),
    StableHlo.unary main_v85 main_v86 (broadcastInDim S8192x16x128 ![0, 1, 2] bcast_S1x1x128_S8192x16x128_0_1_2 : (⟨S1x1x128, .f32⟩ : BufTy).Contents (Elt F) → (⟨S8192x16x128, .f32⟩ : BufTy).Contents (Elt F)),
    StableHlo.binary main_v81 main_v86 main_v87 (mulf : (⟨S8192x16x128, .f32⟩ : BufTy).Contents (Elt F) → (⟨S8192x16x128, .f32⟩ : BufTy).Contents (Elt F) → (⟨S8192x16x128, .f32⟩ : BufTy).Contents (Elt F)),
    StableHlo.unary main_arg9 main_v88 (broadcastInDim S1x1x128 ![2] bcast_S128_S1x1x128_2 : (⟨S128, .f32⟩ : BufTy).Contents (Elt F) → (⟨S1x1x128, .f32⟩ : BufTy).Contents (Elt F)),
    StableHlo.unary main_v88 main_v89 (broadcastInDim S8192x16x128 ![0, 1, 2] bcast_S1x1x128_S8192x16x128_0_1_2 : (⟨S1x1x128, .f32⟩ : BufTy).Contents (Elt F) → (⟨S8192x16x128, .f32⟩ : BufTy).Contents (Elt F)),
    StableHlo.binary main_v87 main_v89 main_v90 (mulf : (⟨S8192x16x128, .f32⟩ : BufTy).Contents (Elt F) → (⟨S8192x16x128, .f32⟩ : BufTy).Contents (Elt F) → (⟨S8192x16x128, .f32⟩ : BufTy).Contents (Elt F)),
    StableHlo.unary main_arg10 main_v91 (broadcastInDim S1x1x128 ![2] bcast_S128_S1x1x128_2 : (⟨S128, .f32⟩ : BufTy).Contents (Elt F) → (⟨S1x1x128, .f32⟩ : BufTy).Contents (Elt F)),
    StableHlo.unary main_v91 main_v92 (broadcastInDim S8192x16x128 ![0, 1, 2] bcast_S1x1x128_S8192x16x128_0_1_2 : (⟨S1x1x128, .f32⟩ : BufTy).Contents (Elt F) → (⟨S8192x16x128, .f32⟩ : BufTy).Contents (Elt F)),
    StableHlo.binary main_v90 main_v92 main_v93 (addf : (⟨S8192x16x128, .f32⟩ : BufTy).Contents (Elt F) → (⟨S8192x16x128, .f32⟩ : BufTy).Contents (Elt F) → (⟨S8192x16x128, .f32⟩ : BufTy).Contents (Elt F)) ]

abbrev ops20 : List (HloOp τ sig (Elt F)) :=
  [ StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S8192x16x128, .f32⟩) (broadcastInDim S8192x16x128 ![] bcast_S_S8192x16x128),
    StableHlo.TRef.binary (.of main_v93 : StableHlo.TRef sig ⟨S8192x16x128, .f32⟩) (.of main_call8_v0 : StableHlo.TRef sig ⟨S8192x16x128, .f32⟩) (.of main_v94 : StableHlo.TRef sig ⟨S8192x16x128, .f32⟩) maximumf ]

abbrev ops21 : List (HloOp τ sig (Elt F)) :=
  [ StableHlo.nullary main_cst_18 (constant S_ .f32 0xFF800000#32),
    StableHlo.binary main_v94 main_cst_18 main_v95 ((fun x v => Host.reduce FloatOps.maximumf x v reducesTo_S8192x16x128_S8192x128_d1 h_S_) : (⟨S8192x16x128, .f32⟩ : BufTy).Contents (Elt F) → (⟨S_, .f32⟩ : BufTy).Contents (Elt F) → (⟨S8192x128, .f32⟩ : BufTy).Contents (Elt F)) ]

abbrev ops22 : List (HloOp τ sig (Elt F)) :=
  [ StableHlo.binary main_v2 main_v2 main_v96 (mulf : (⟨S4x2048x3, .f32⟩ : BufTy).Contents (Elt F) → (⟨S4x2048x3, .f32⟩ : BufTy).Contents (Elt F) → (⟨S4x2048x3, .f32⟩ : BufTy).Contents (Elt F)),
    StableHlo.nullary main_cst_19 (constant S_ .f32 0x00000000#32),
    StableHlo.binary main_v96 main_cst_19 main_v97 ((fun x v => Host.reduceAdd x v reducesTo_S4x2048x3_S4x2048_d2 h_S_) : (⟨S4x2048x3, .f32⟩ : BufTy).Contents (Elt F) → (⟨S_, .f32⟩ : BufTy).Contents (Elt F) → (⟨S4x2048, .f32⟩ : BufTy).Contents (Elt F)) ]

end Cert.ReferenceIdeal.Hand

end
-- ==== Proof.RefOps4.lean ====
import proofs.«157081_j85761906966880_1_alg».proof.Proof.RefTab4
import proofs.«157081_j85761906966880_1_alg».proof.Proof.RefLine

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ops19_ok : Line 169 (ops19 : List (HloOp τ sig (Elt F))) :=
  Line.mk ⟨.unary .., .unary .., .binary .., .nullary .., .unary .., .binary .., .unary .., .unary .., .unary .., .binary .., .unary .., .unary .., .binary .., .unary .., .unary .., .binary ..⟩

theorem ops20_ok : Line 185 (ops20 : List (HloOp τ sig (Elt F))) :=
  Line.mk ⟨.nullary .., .unary .., .binary ..⟩

theorem ops21_ok : Line 188 (ops21 : List (HloOp τ sig (Elt F))) :=
  Line.mk ⟨.nullary .., .binary ..⟩

theorem ops22_ok : Line 190 (ops22 : List (HloOp τ sig (Elt F))) :=
  Line.mk ⟨.binary .., .nullary .., .binary ..⟩

end Cert.ReferenceIdeal.Hand

end
-- ==== Proof.RefTab5.lean ====
import proofs.«157081_j85761906966880_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops23 : List (HloOp τ sig (Elt F)) :=
  [ StableHlo.unary main_v97 main_v98 (broadcastInDim S4x2048x1 ![0, 1] bcast_S4x2048_S4x2048x1_0_1 : (⟨S4x2048, .f32⟩ : BufTy).Contents (Elt F) → (⟨S4x2048x1, .f32⟩ : BufTy).Contents (Elt F)),
    StableHlo.binary main_v0 main_v0 main_v99 (mulf : (⟨S4x8192x3, .f32⟩ : BufTy).Contents (Elt F) → (⟨S4x8192x3, .f32⟩ : BufTy).Contents (Elt F) → (⟨S4x8192x3, .f32⟩ : BufTy).Contents (Elt F)),
    StableHlo.nullary main_cst_20 (constant S_ .f32 0x00000000#32),
    StableHlo.binary main_v99 main_cst_20 main_v100 ((fun x v => Host.reduceAdd x v reducesTo_S4x8192x3_S4x8192_d2 h_S_) : (⟨S4x8192x3, .f32⟩ : BufTy).Contents (Elt F) → (⟨S_, .f32⟩ : BufTy).Contents (Elt F) → (⟨S4x8192, .f32⟩ : BufTy).Contents (Elt F)),
    StableHlo.unary main_v100 main_v101 (broadcastInDim S4x1x8192 ![0, 2] bcast_S4x8192_S4x1x8192_0_2 : (⟨S4x8192, .f32⟩ : BufTy).Contents (Elt F) → (⟨S4x1x8192, .f32⟩ : BufTy).Contents (Elt F)),
    StableHlo.unary main_v98 main_v102 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    StableHlo.unary main_v101 main_v103 (broadcastInDim S4x2048x8192 ![0, 1, 2] bcast_S4x1x8192_S4x2048x8192_0_1_2 : (⟨S4x1x8192, .f32⟩ : BufTy).Contents (Elt F) → (⟨S4x2048x8192, .f32⟩ : BufTy).Contents (Elt F)),
    StableHlo.binary main_v102 main_v103 main_v104 (addf : (⟨S4x2048x8192, .f32⟩ : BufTy).Contents (Elt F) → (⟨S4x2048x8192, .f32⟩ : BufTy).Contents (Elt F) → (⟨S4x2048x8192, .f32⟩ : BufTy).Contents (Elt F)),
    StableHlo.binary main_v2 main_v0 main_v105 ((fun l r => Host.dotGeneral dot_S4x2048x3_S4x8192x3_S4x2048x8192_2_2_1_1_0_0 none l r) : (⟨S4x2048x3, .f32⟩ : BufTy).Contents (Elt F) → (⟨S4x8192x3, .f32⟩ : BufTy).Contents (Elt F) → (⟨S4x2048x8192, .f32⟩ : BufTy).Contents (Elt F)),
    StableHlo.nullary main_cst_21 (constant S_ .f32 0x40000000#32),
    StableHlo.unary main_cst_21 main_v106 (broadcastInDim S4x2048x8192 ![] bcast_S_S4x2048x8192 : (⟨S_, .f32⟩ : BufTy).Contents (Elt F) → (⟨S4x2048x8192, .f32⟩ : BufTy).Contents (Elt F)),
    StableHlo.binary main_v106 main_v105 main_v107 (mulf : (⟨S4x2048x8192, .f32⟩ : BufTy).Contents (Elt F) → (⟨S4x2048x8192, .f32⟩ : BufTy).Contents (Elt F) → (⟨S4x2048x8192, .f32⟩ : BufTy).Contents (Elt F)),
    StableHlo.binary main_v104 main_v107 main_v108 (subf : (⟨S4x2048x8192, .f32⟩ : BufTy).Contents (Elt F) → (⟨S4x2048x8192, .f32⟩ : BufTy).Contents (Elt F) → (⟨S4x2048x8192, .f32⟩ : BufTy).Contents (Elt F)),
    StableHlo.nullary main_cst_22 (constant S_ .f32 0x3E23D70A#32),
    StableHlo.unary main_cst_22 main_v109 (broadcastInDim S4x2048x8192 ![] bcast_S_S4x2048x8192 : (⟨S_, .f32⟩ : BufTy).Contents (Elt F) → (⟨S4x2048x8192, .f32⟩ : BufTy).Contents (Elt F)),
    StableHlo.binary main_v108 main_v109 main_v110 (cmpf .olt : (⟨S4x2048x8192, .f32⟩ : BufTy).Contents (Elt F) → (⟨S4x2048x8192, .f32⟩ : BufTy).Contents (Elt F) → (⟨S4x2048x8192, .i1⟩ : BufTy).Contents (Elt F)) ]

abbrev ops24 : List (HloOp τ sig (Elt F)) :=
  [ StableHlo.nullary main_v111 (iotaInDim S8192 32 0),
    StableHlo.unary main_v111 main_v112 (broadcastInDim S1x1x8192 ![2] bcast_S8192_S1x1x8192_2 : (⟨S8192, .i32⟩ : BufTy).Contents (Elt F) → (⟨S1x1x8192, .i32⟩ : BufTy).Contents (Elt F)),
    StableHlo.nullary main_c_23 (constantI S_ 32 8192#32) ]

abbrev ops25 : List (HloOp τ sig (Elt F)) :=
  [ StableHlo.TRef.unary (.of main_c_23 : StableHlo.TRef sig ⟨S_, .i32⟩) (.of main_call9_v0 : StableHlo.TRef sig ⟨S_, .i32⟩) id,
    StableHlo.TRef.unary (.of main_v112 : StableHlo.TRef sig ⟨S1x1x8192, .i32⟩) (.of main_call9_v1 : StableHlo.TRef sig ⟨S4x2048x8192, .i32⟩) (broadcastInDim S4x2048x8192 ![0, 1, 2] bcast_S1x1x8192_S4x2048x8192_0_1_2),
    StableHlo.TRef.unary (.of main_call9_v0 : StableHlo.TRef sig ⟨S_, .i32⟩) (.of main_call9_v2 : StableHlo.TRef sig ⟨S4x2048x8192, .i32⟩) (broadcastInDim S4x2048x8192 ![] bcast_S_S4x2048x8192),
    StableHlo.TRef.ternary (.of main_v110 : StableHlo.TRef sig ⟨S4x2048x8192, .i1⟩) (.of main_call9_v1 : StableHlo.TRef sig ⟨S4x2048x8192, .i32⟩) (.of main_call9_v2 : StableHlo.TRef sig ⟨S4x2048x8192, .i32⟩) (.of main_v113 : StableHlo.TRef sig ⟨S4x2048x8192, .i32⟩) select ]

abbrev ops26 : List (HloOp τ sig (Elt F)) :=
  [ StableHlo.TRef.unary (.of main_v113 : StableHlo.TRef sig ⟨S4x2048x8192, .i32⟩) (.of main_v114 : StableHlo.TRef sig ⟨S4x2048x8192, .i32⟩) (fun x => Host.sort S4x2048x8192 2 comparator_i32_d2 x) ]

abbrev ops27 : List (HloOp τ sig (Elt F)) :=
  [ StableHlo.unary main_v114 main_v115 ((extractStridedSlice S4x2048x32 ![0, 0, 0] · slices_S4x2048x8192_S4x2048x32_0_0_0) : (⟨S4x2048x8192, .i32⟩ : BufTy).Contents (Elt F) → (⟨S4x2048x32, .i32⟩ : BufTy).Contents (Elt F)) ]

abbrev ops28 : List (HloOp τ sig (Elt F)) :=
  [ StableHlo.nullary main_c_24 (constantI S_ 32 8192#32),
    StableHlo.unary main_c_24 main_v116 (broadcastInDim S4x2048x32 ![] bcast_S_S4x2048x32 : (⟨S_, .i32⟩ : BufTy).Contents (Elt F) → (⟨S4x2048x32, .i32⟩ : BufTy).Contents (Elt F)),
    StableHlo.binary main_v115 main_v116 main_v117 (cmpi .slt : (⟨S4x2048x32, .i32⟩ : BufTy).Contents (Elt F) → (⟨S4x2048x32, .i32⟩ : BufTy).Contents (Elt F) → (⟨S4x2048x32, .i1⟩ : BufTy).Contents (Elt F)),
    StableHlo.unary main_v115 main_v118 ((extractStridedSlice S4x2048x1 ![0, 0, 0] · slices_S4x2048x32_S4x2048x1_0_0_0) : (⟨S4x2048x32, .i32⟩ : BufTy).Contents (Elt F) → (⟨S4x2048x1, .i32⟩ : BufTy).Contents (Elt F)) ]

abbrev ops29 : List (HloOp τ sig (Elt F)) :=
  [ StableHlo.TRef.unary (.of main_v118 : StableHlo.TRef sig ⟨S4x2048x1, .i32⟩) (.of main_call11_v0 : StableHlo.TRef sig ⟨S4x2048x32, .i32⟩) (broadcastInDim S4x2048x32 ![0, 1, 2] bcast_S4x2048x1_S4x2048x32_0_1_2),
    StableHlo.TRef.ternary (.of main_v117 : StableHlo.TRef sig ⟨S4x2048x32, .i1⟩) (.of main_v115 : StableHlo.TRef sig ⟨S4x2048x32, .i32⟩) (.of main_call11_v0 : StableHlo.TRef sig ⟨S4x2048x32, .i32⟩) (.of main_v119 : StableHlo.TRef sig ⟨S4x2048x32, .i32⟩) select ]

abbrev ops30 : List (HloOp τ sig (Elt F)) :=
  [ StableHlo.unary main_v117 main_v120 ((extractStridedSlice S4x2048x1 ![0, 0, 0] · slices_S4x2048x32_S4x2048x1_0_0_0) : (⟨S4x2048x32, .i1⟩ : BufTy).Contents (Elt F) → (⟨S4x2048x1, .i1⟩ : BufTy).Contents (Elt F)),
    StableHlo.reshape main_v120 main_v121 rfl shapeCasts_S4x2048x1_S4x2048,
    StableHlo.unary main_v121 main_v122 (noti : (⟨S4x2048, .i1⟩ : BufTy).Contents (Elt F) → (⟨S4x2048, .i1⟩ : BufTy).Contents (Elt F)),
    StableHlo.unary main_v122 main_v123 (broadcastInDim S4x2048x1 ![0, 1] bcast_S4x2048_S4x2048x1_0_1 : (⟨S4x2048, .i1⟩ : BufTy).Contents (Elt F) → (⟨S4x2048x1, .i1⟩ : BufTy).Contents (Elt F)),
    StableHlo.nullary main_c_25 (constantI S_ 32 0#32) ]

abbrev ops31 : List (HloOp τ sig (Elt F)) :=
  [ StableHlo.TRef.unary (.of main_c_25 : StableHlo.TRef sig ⟨S_, .i32⟩) (.of main_call12_v0 : StableHlo.TRef sig ⟨S_, .i32⟩) id,
    StableHlo.TRef.unary (.of main_v123 : StableHlo.TRef sig ⟨S4x2048x1, .i1⟩) (.of main_call12_v1 : StableHlo.TRef sig ⟨S4x2048x32, .i1⟩) (broadcastInDim S4x2048x32 ![0, 1, 2] bcast_S4x2048x1_S4x2048x32_0_1_2),
    StableHlo.TRef.unary (.of main_call12_v0 : StableHlo.TRef sig ⟨S_, .i32⟩) (.of main_call12_v2 : StableHlo.TRef sig ⟨S4x2048x32, .i32⟩) (broadcastInDim S4x2048x32 ![] bcast_S_S4x2048x32),
    StableHlo.TRef.ternary (.of main_call12_v1 : StableHlo.TRef sig ⟨S4x2048x32, .i1⟩) (.of main_call12_v2 : StableHlo.TRef sig ⟨S4x2048x32, .i32⟩) (.of main_v119 : StableHlo.TRef sig ⟨S4x2048x32, .i32⟩) (.of main_v124 : StableHlo.TRef sig ⟨S4x2048x32, .i32⟩) select ]

end Cert.ReferenceIdeal.Hand

end
-- ==== Proof.RefOps5.lean ====
import proofs.«157081_j85761906966880_1_alg».proof.Proof.RefTab5
import proofs.«157081_j85761906966880_1_alg».proof.Proof.RefLine

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ops23_ok : Line 193 (ops23 : List (HloOp τ sig (Elt F))) :=
  Line.mk ⟨.unary .., .binary .., .nullary .., .binary .., .unary .., .unary .., .unary .., .binary .., .binary .., .nullary .., .unary .., .binary .., .binary .., .nullary .., .unary .., .binary ..⟩

theorem ops24_ok : Line 209 (ops24 : List (HloOp τ sig (Elt F))) :=
  Line.mk ⟨.nullary .., .unary .., .nullary ..⟩

theorem ops25_ok : Line 212 (ops25 : List (HloOp τ sig (Elt F))) :=
  Line.mk ⟨.unary .., .unary .., .unary .., .ternary ..⟩

theorem ops26_ok : Line 216 (ops26 : List (HloOp τ sig (Elt F))) :=
  Line.mk (.unary ..)

theorem ops27_ok : Line 217 (ops27 : List (HloOp τ sig (Elt F))) :=
  Line.mk (.unary ..)

theorem ops28_ok : Line 218 (ops28 : List (HloOp τ sig (Elt F))) :=
  Line.mk ⟨.nullary .., .unary .., .binary .., .unary ..⟩

theorem ops29_ok : Line 222 (ops29 : List (HloOp τ sig (Elt F))) :=
  Line.mk ⟨.unary .., .ternary ..⟩

theorem ops30_ok : Line 224 (ops30 : List (HloOp τ sig (Elt F))) :=
  Line.mk ⟨.unary .., .reshape .., .unary .., .unary .., .nullary ..⟩

theorem ops31_ok : Line 229 (ops31 : List (HloOp τ sig (Elt F))) :=
  Line.mk ⟨.unary .., .unary .., .unary .., .ternary ..⟩

end Cert.ReferenceIdeal.Hand

end
-- ==== Proof.RefTab6.lean ====
import proofs.«157081_j85761906966880_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops32 : List (HloOp τ sig (Elt F)) :=
  [ StableHlo.nullary main_c_26 (constantI S_ 32 0#32),
    StableHlo.unary main_c_26 main_v125 (broadcastInDim S4x2048x32 ![] bcast_S_S4x2048x32 : (⟨S_, .i32⟩ : BufTy).Contents (Elt F) → (⟨S4x2048x32, .i32⟩ : BufTy).Contents (Elt F)),
    StableHlo.binary main_v124 main_v125 main_v126 (cmpi .slt : (⟨S4x2048x32, .i32⟩ : BufTy).Contents (Elt F) → (⟨S4x2048x32, .i32⟩ : BufTy).Contents (Elt F) → (⟨S4x2048x32, .i1⟩ : BufTy).Contents (Elt F)),
    StableHlo.nullary main_c_27 (constantI S_ 32 8192#32),
    StableHlo.unary main_c_27 main_v127 (broadcastInDim S4x2048x32 ![] bcast_S_S4x2048x32 : (⟨S_, .i32⟩ : BufTy).Contents (Elt F) → (⟨S4x2048x32, .i32⟩ : BufTy).Contents (Elt F)),
    StableHlo.binary main_v124 main_v127 main_v128 (addi : (⟨S4x2048x32, .i32⟩ : BufTy).Contents (Elt F) → (⟨S4x2048x32, .i32⟩ : BufTy).Contents (Elt F) → (⟨S4x2048x32, .i32⟩ : BufTy).Contents (Elt F)),
    StableHlo.ternary main_v126 main_v128 main_v124 main_v129 (select : (⟨S4x2048x32, .i1⟩ : BufTy).Contents (Elt F) → (⟨S4x2048x32, .i32⟩ : BufTy).Contents (Elt F) → (⟨S4x2048x32, .i32⟩ : BufTy).Contents (Elt F) → (⟨S4x2048x32, .i32⟩ : BufTy).Contents (Elt F)),
    StableHlo.unary main_v129 main_v130 (broadcastInDim S4x2048x32x1 ![0, 1, 2] bcast_S4x2048x32_S4x2048x32x1_0_1_2 : (⟨S4x2048x32, .i32⟩ : BufTy).Contents (Elt F) → (⟨S4x2048x32x1, .i32⟩ : BufTy).Contents (Elt F)),
    StableHlo.binary main_v0 main_v130 main_v131 ((fun x i => Host.gather gather_S4x8192x3_S4x2048x32x1_S4x2048x32x3_3_1_0_0_1_3_113 x i) : (⟨S4x8192x3, .f32⟩ : BufTy).Contents (Elt F) → (⟨S4x2048x32x1, .i32⟩ : BufTy).Contents (Elt F) → (⟨S4x2048x32x3, .f32⟩ : BufTy).Contents (Elt F)),
    StableHlo.unary main_v2 main_v132 (broadcastInDim S4x2048x1x3 ![0, 1, 3] bcast_S4x2048x3_S4x2048x1x3_0_1_3 : (⟨S4x2048x3, .f32⟩ : BufTy).Contents (Elt F) → (⟨S4x2048x1x3, .f32⟩ : BufTy).Contents (Elt F)),
    StableHlo.unary main_v132 main_v133 (broadcastInDim S4x2048x32x3 ![0, 1, 2, 3] bcast_S4x2048x1x3_S4x2048x32x3_0_1_2_3 : (⟨S4x2048x1x3, .f32⟩ : BufTy).Contents (Elt F) → (⟨S4x2048x32x3, .f32⟩ : BufTy).Contents (Elt F)),
    StableHlo.binary main_v131 main_v133 main_v134 (subf : (⟨S4x2048x32x3, .f32⟩ : BufTy).Contents (Elt F) → (⟨S4x2048x32x3, .f32⟩ : BufTy).Contents (Elt F) → (⟨S4x2048x32x3, .f32⟩ : BufTy).Contents (Elt F)),
    StableHlo.nullary main_c_28 (constantI S_ 32 0#32),
    StableHlo.unary main_c_28 main_v135 (broadcastInDim S4x2048x32 ![] bcast_S_S4x2048x32 : (⟨S_, .i32⟩ : BufTy).Contents (Elt F) → (⟨S4x2048x32, .i32⟩ : BufTy).Contents (Elt F)),
    StableHlo.binary main_v124 main_v135 main_v136 (cmpi .slt : (⟨S4x2048x32, .i32⟩ : BufTy).Contents (Elt F) → (⟨S4x2048x32, .i32⟩ : BufTy).Contents (Elt F) → (⟨S4x2048x32, .i1⟩ : BufTy).Contents (Elt F)),
    StableHlo.nullary main_c_29 (constantI S_ 32 8192#32),
    StableHlo.unary main_c_29 main_v137 (broadcastInDim S4x2048x32 ![] bcast_S_S4x2048x32 : (⟨S_, .i32⟩ : BufTy).Contents (Elt F) → (⟨S4x2048x32, .i32⟩ : BufTy).Contents (Elt F)),
    StableHlo.binary main_v124 main_v137 main_v138 (addi : (⟨S4x2048x32, .i32⟩ : BufTy).Contents (Elt F) → (⟨S4x2048x32, .i32⟩ : BufTy).Contents (Elt F) → (⟨S4x2048x32, .i32⟩ : BufTy).Contents (Elt F)),
    StableHlo.ternary main_v136 main_v138 main_v124 main_v139 (select : (⟨S4x2048x32, .i1⟩ : BufTy).Contents (Elt F) → (⟨S4x2048x32, .i32⟩ : BufTy).Contents (Elt F) → (⟨S4x2048x32, .i32⟩ : BufTy).Contents (Elt F) → (⟨S4x2048x32, .i32⟩ : BufTy).Contents (Elt F)),
    StableHlo.unary main_v139 main_v140 (broadcastInDim S4x2048x32x1 ![0, 1, 2] bcast_S4x2048x32_S4x2048x32x1_0_1_2 : (⟨S4x2048x32, .i32⟩ : BufTy).Contents (Elt F) → (⟨S4x2048x32x1, .i32⟩ : BufTy).Contents (Elt F)),
    StableHlo.binary main_v1 main_v140 main_v141 ((fun x i => Host.gather gather_S4x8192x64_S4x2048x32x1_S4x2048x32x64_3_1_0_0_1_3_1164 x i) : (⟨S4x8192x64, .f32⟩ : BufTy).Contents (Elt F) → (⟨S4x2048x32x1, .i32⟩ : BufTy).Contents (Elt F) → (⟨S4x2048x32x64, .f32⟩ : BufTy).Contents (Elt F)) ]

abbrev ops33 : List (HloOp τ sig (Elt F)) :=
  [ StableHlo.binary main_v134 main_v141 main_v142 ((fun a b => concatenate S4x2048x32x67 3 [⟨S4x2048x32x3, a⟩, ⟨S4x2048x32x64, b⟩] concatenates_S4x2048x32x3_S4x2048x32x64_S4x2048x32x67_d3) : (⟨S4x2048x32x3, .f32⟩ : BufTy).Contents (Elt F) → (⟨S4x2048x32x64, .f32⟩ : BufTy).Contents (Elt F) → (⟨S4x2048x32x67, .f32⟩ : BufTy).Contents (Elt F)),
    StableHlo.unary main_v122 main_v143 (broadcastInDim S4x2048x1x1 ![0, 1] bcast_S4x2048_S4x2048x1x1_0_1 : (⟨S4x2048, .i1⟩ : BufTy).Contents (Elt F) → (⟨S4x2048x1x1, .i1⟩ : BufTy).Contents (Elt F)),
    StableHlo.nullary main_cst_30 (constant S_ .f32 0x00000000#32) ]

abbrev ops34 : List (HloOp τ sig (Elt F)) :=
  [ StableHlo.TRef.unary (.of main_cst_30 : StableHlo.TRef sig ⟨S_, .f32⟩) (.of main_call13_v0 : StableHlo.TRef sig ⟨S_, .f32⟩) id,
    StableHlo.TRef.unary (.of main_v143 : StableHlo.TRef sig ⟨S4x2048x1x1, .i1⟩) (.of main_call13_v1 : StableHlo.TRef sig ⟨S4x2048x32x67, .i1⟩) (broadcastInDim S4x2048x32x67 ![0, 1, 2, 3] bcast_S4x2048x1x1_S4x2048x32x67_0_1_2_3),
    StableHlo.TRef.unary (.of main_call13_v0 : StableHlo.TRef sig ⟨S_, .f32⟩) (.of main_call13_v2 : StableHlo.TRef sig ⟨S4x2048x32x67, .f32⟩) (broadcastInDim S4x2048x32x67 ![] bcast_S_S4x2048x32x67),
    StableHlo.TRef.ternary (.of main_call13_v1 : StableHlo.TRef sig ⟨S4x2048x32x67, .i1⟩) (.of main_call13_v2 : StableHlo.TRef sig ⟨S4x2048x32x67, .f32⟩) (.of main_v142 : StableHlo.TRef sig ⟨S4x2048x32x67, .f32⟩) (.of main_v144 : StableHlo.TRef sig ⟨S4x2048x32x67, .f32⟩) select ]

abbrev ops35 : List (HloOp τ sig (Elt F)) :=
  [ StableHlo.reshape main_v144 main_v145 rfl shapeCasts_S4x2048x32x67_S8192x32x67 ]

abbrev ops36 : List (HloOp τ sig (Elt F)) :=
  [ StableHlo.binary main_v145 main_arg11 main_v146 ((fun l r => Host.dotGeneral dot_S8192x32x67_S128x67_S8192x32x128_2_1_01_0_n_n none l r) : (⟨S8192x32x67, .f32⟩ : BufTy).Contents (Elt F) → (⟨S128x67, .f32⟩ : BufTy).Contents (Elt F) → (⟨S8192x32x128, .f32⟩ : BufTy).Contents (Elt F)) ]

end Cert.ReferenceIdeal.Hand

end
-- ==== Proof.RefOps6.lean ====
import proofs.«157081_j85761906966880_1_alg».proof.Proof.RefTab6
import proofs.«157081_j85761906966880_1_alg».proof.Proof.RefLine

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ops32_ok : Line 233 (ops32 : List (HloOp τ sig (Elt F))) :=
  Line.mk ⟨.nullary .., .unary .., .binary .., .nullary .., .unary .., .binary .., .ternary .., .unary .., .binary .., .unary .., .unary .., .binary .., .nullary .., .unary .., .binary .., .nullary .., .unary .., .binary .., .ternary .., .unary .., .binary ..⟩

theorem ops33_ok : Line 254 (ops33 : List (HloOp τ sig (Elt F))) :=
  Line.mk ⟨.binary .., .unary .., .nullary ..⟩

theorem ops34_ok : Line 257 (ops34 : List (HloOp τ sig (Elt F))) :=
  Line.mk ⟨.unary .., .unary .., .unary .., .ternary ..⟩

theorem ops35_ok : Line 261 (ops35 : List (HloOp τ sig (Elt F))) :=
  Line.mk (.reshape ..)

theorem ops36_ok : Line 262 (ops36 : List (HloOp τ sig (Elt F))) :=
  Line.mk (.binary ..)

end Cert.ReferenceIdeal.Hand

end
-- ==== Proof.RefTab7.lean ====
import proofs.«157081_j85761906966880_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops37 : List (HloOp τ sig (Elt F)) :=
  [ StableHlo.nullary main_cst_31 (constant S_ .f32 0x00000000#32),
    StableHlo.binary main_v146 main_cst_31 main_v147 ((fun x v => Host.reduceAdd x v reducesTo_S8192x32x128_S128_d0_1 h_S_) : (⟨S8192x32x128, .f32⟩ : BufTy).Contents (Elt F) → (⟨S_, .f32⟩ : BufTy).Contents (Elt F) → (⟨S128, .f32⟩ : BufTy).Contents (Elt F)),
    StableHlo.nullary main_cst_32 (constant S_ .f32 0x48800000#32),
    StableHlo.unary main_cst_32 main_v148 (broadcastInDim S128 ![] bcast_S_S128 : (⟨S_, .f32⟩ : BufTy).Contents (Elt F) → (⟨S128, .f32⟩ : BufTy).Contents (Elt F)),
    StableHlo.binary main_v147 main_v148 main_v149 (Host.divf : (⟨S128, .f32⟩ : BufTy).Contents (Elt F) → (⟨S128, .f32⟩ : BufTy).Contents (Elt F) → (⟨S128, .f32⟩ : BufTy).Contents (Elt F)),
    StableHlo.nullary main_c_33 (constantI S_ 32 0#32) ]

abbrev ops38 : List (HloOp τ sig (Elt F)) :=
  [ StableHlo.TRef.nullary (.of main_call14_cst : StableHlo.TRef sig ⟨S_, .f32⟩) (constant S_ .f32 0x00000000#32),
    StableHlo.TRef.binary (.of main_v146 : StableHlo.TRef sig ⟨S8192x32x128, .f32⟩) (.of main_call14_cst : StableHlo.TRef sig ⟨S_, .f32⟩) (.of main_call14_v0 : StableHlo.TRef sig ⟨S128, .f32⟩) (fun x v => Host.reduceAdd x v reducesTo_S8192x32x128_S128_d0_1 h_S_),
    StableHlo.TRef.unary (.of main_call14_v0 : StableHlo.TRef sig ⟨S128, .f32⟩) (.of main_call14_v1 : StableHlo.TRef sig ⟨S1x1x128, .f32⟩) (broadcastInDim S1x1x128 ![2] bcast_S128_S1x1x128_2),
    StableHlo.TRef.nullary (.of main_call14_cst_0 : StableHlo.TRef sig ⟨S_, .f32⟩) (constant S_ .f32 0x48800000#32),
    StableHlo.TRef.unary (.of main_call14_cst_0 : StableHlo.TRef sig ⟨S_, .f32⟩) (.of main_call14_v2 : StableHlo.TRef sig ⟨S1x1x128, .f32⟩) (broadcastInDim S1x1x128 ![] bcast_S_S1x1x128),
    StableHlo.TRef.binary (.of main_call14_v1 : StableHlo.TRef sig ⟨S1x1x128, .f32⟩) (.of main_call14_v2 : StableHlo.TRef sig ⟨S1x1x128, .f32⟩) (.of main_call14_v3 : StableHlo.TRef sig ⟨S1x1x128, .f32⟩) Host.divf,
    StableHlo.TRef.unary (.of main_call14_v3 : StableHlo.TRef sig ⟨S1x1x128, .f32⟩) (.of main_call14_v4 : StableHlo.TRef sig ⟨S8192x32x128, .f32⟩) (broadcastInDim S8192x32x128 ![0, 1, 2] bcast_S1x1x128_S8192x32x128_0_1_2),
    StableHlo.TRef.binary (.of main_v146 : StableHlo.TRef sig ⟨S8192x32x128, .f32⟩) (.of main_call14_v4 : StableHlo.TRef sig ⟨S8192x32x128, .f32⟩) (.of main_call14_v5 : StableHlo.TRef sig ⟨S8192x32x128, .f32⟩) subf,
    StableHlo.TRef.binary (.of main_call14_v5 : StableHlo.TRef sig ⟨S8192x32x128, .f32⟩) (.of main_call14_v5 : StableHlo.TRef sig ⟨S8192x32x128, .f32⟩) (.of main_call14_v6 : StableHlo.TRef sig ⟨S8192x32x128, .f32⟩) mulf,
    StableHlo.TRef.unary (.of main_c_33 : StableHlo.TRef sig ⟨S_, .i32⟩) (.of main_call14_v7 : StableHlo.TRef sig ⟨S_, .f32⟩) (sitofp .f32),
    StableHlo.TRef.nullary (.of main_call14_cst_1 : StableHlo.TRef sig ⟨S_, .f32⟩) (constant S_ .f32 0x48800000#32),
    StableHlo.TRef.binary (.of main_call14_cst_1 : StableHlo.TRef sig ⟨S_, .f32⟩) (.of main_call14_v7 : StableHlo.TRef sig ⟨S_, .f32⟩) (.of main_call14_v8 : StableHlo.TRef sig ⟨S_, .f32⟩) subf,
    StableHlo.TRef.nullary (.of main_call14_cst_2 : StableHlo.TRef sig ⟨S_, .f32⟩) (constant S_ .f32 0x00000000#32),
    StableHlo.TRef.binary (.of main_call14_v6 : StableHlo.TRef sig ⟨S8192x32x128, .f32⟩) (.of main_call14_cst_2 : StableHlo.TRef sig ⟨S_, .f32⟩) (.of main_call14_v9 : StableHlo.TRef sig ⟨S128, .f32⟩) (fun x v => Host.reduceAdd x v reducesTo_S8192x32x128_S128_d0_1 h_S_),
    StableHlo.TRef.unary (.of main_call14_v8 : StableHlo.TRef sig ⟨S_, .f32⟩) (.of main_call14_v10 : StableHlo.TRef sig ⟨S128, .f32⟩) (broadcastInDim S128 ![] bcast_S_S128),
    StableHlo.TRef.binary (.of main_call14_v9 : StableHlo.TRef sig ⟨S128, .f32⟩) (.of main_call14_v10 : StableHlo.TRef sig ⟨S128, .f32⟩) (.of main_call14_v11 : StableHlo.TRef sig ⟨S128, .f32⟩) Host.divf,
    StableHlo.TRef.nullary (.of main_call14_cst_3 : StableHlo.TRef sig ⟨S_, .f32⟩) (constant S_ .f32 0x00000000#32),
    StableHlo.TRef.binary (.of main_call14_v8 : StableHlo.TRef sig ⟨S_, .f32⟩) (.of main_call14_cst_3 : StableHlo.TRef sig ⟨S_, .f32⟩) (.of main_call14_v12 : StableHlo.TRef sig ⟨S_, .i1⟩) (cmpf .ogt),
    StableHlo.TRef.nullary (.of main_call14_cst_4 : StableHlo.TRef sig ⟨S_, .f32⟩) (constant S_ .f32 0x7FC00000#32),
    StableHlo.TRef.unary (.of main_call14_cst_4 : StableHlo.TRef sig ⟨S_, .f32⟩) (.of main_call14_call0_v0 : StableHlo.TRef sig ⟨S_, .f32⟩) id,
    StableHlo.TRef.unary (.of main_call14_call0_v0 : StableHlo.TRef sig ⟨S_, .f32⟩) (.of main_call14_call0_v1 : StableHlo.TRef sig ⟨S128, .f32⟩) (broadcastInDim S128 ![] bcast_S_S128),
    StableHlo.TRef.ternary (.of main_call14_v12 : StableHlo.TRef sig ⟨S_, .i1⟩) (.of main_call14_v11 : StableHlo.TRef sig ⟨S128, .f32⟩) (.of main_call14_call0_v1 : StableHlo.TRef sig ⟨S128, .f32⟩) (.of main_v150 : StableHlo.TRef sig ⟨S128, .f32⟩) (fun p a b => select (broadcastInDim S128 ![] bcast_S_S128 p) a b) ]

abbrev ops39 : List (HloOp τ sig (Elt F)) :=
  [ StableHlo.unary main_v149 main_v151 (broadcastInDim S1x1x128 ![2] bcast_S128_S1x1x128_2 : (⟨S128, .f32⟩ : BufTy).Contents (Elt F) → (⟨S1x1x128, .f32⟩ : BufTy).Contents (Elt F)),
    StableHlo.unary main_v151 main_v152 (broadcastInDim S8192x32x128 ![0, 1, 2] bcast_S1x1x128_S8192x32x128_0_1_2 : (⟨S1x1x128, .f32⟩ : BufTy).Contents (Elt F) → (⟨S8192x32x128, .f32⟩ : BufTy).Contents (Elt F)),
    StableHlo.binary main_v146 main_v152 main_v153 (subf : (⟨S8192x32x128, .f32⟩ : BufTy).Contents (Elt F) → (⟨S8192x32x128, .f32⟩ : BufTy).Contents (Elt F) → (⟨S8192x32x128, .f32⟩ : BufTy).Contents (Elt F)),
    StableHlo.nullary main_cst_34 (constant S_ .f32 0x3727C5AC#32),
    StableHlo.unary main_cst_34 main_v154 (broadcastInDim S128 ![] bcast_S_S128 : (⟨S_, .f32⟩ : BufTy).Contents (Elt F) → (⟨S128, .f32⟩ : BufTy).Contents (Elt F)),
    StableHlo.binary main_v150 main_v154 main_v155 (addf : (⟨S128, .f32⟩ : BufTy).Contents (Elt F) → (⟨S128, .f32⟩ : BufTy).Contents (Elt F) → (⟨S128, .f32⟩ : BufTy).Contents (Elt F)),
    StableHlo.unary main_v155 main_v156 (Host.rsqrt : (⟨S128, .f32⟩ : BufTy).Contents (Elt F) → (⟨S128, .f32⟩ : BufTy).Contents (Elt F)),
    StableHlo.unary main_v156 main_v157 (broadcastInDim S1x1x128 ![2] bcast_S128_S1x1x128_2 : (⟨S128, .f32⟩ : BufTy).Contents (Elt F) → (⟨S1x1x128, .f32⟩ : BufTy).Contents (Elt F)),
    StableHlo.unary main_v157 main_v158 (broadcastInDim S8192x32x128 ![0, 1, 2] bcast_S1x1x128_S8192x32x128_0_1_2 : (⟨S1x1x128, .f32⟩ : BufTy).Contents (Elt F) → (⟨S8192x32x128, .f32⟩ : BufTy).Contents (Elt F)),
    StableHlo.binary main_v153 main_v158 main_v159 (mulf : (⟨S8192x32x128, .f32⟩ : BufTy).Contents (Elt F) → (⟨S8192x32x128, .f32⟩ : BufTy).Contents (Elt F) → (⟨S8192x32x128, .f32⟩ : BufTy).Contents (Elt F)),
    StableHlo.unary main_arg12 main_v160 (broadcastInDim S1x1x128 ![2] bcast_S128_S1x1x128_2 : (⟨S128, .f32⟩ : BufTy).Contents (Elt F) → (⟨S1x1x128, .f32⟩ : BufTy).Contents (Elt F)),
    StableHlo.unary main_v160 main_v161 (broadcastInDim S8192x32x128 ![0, 1, 2] bcast_S1x1x128_S8192x32x128_0_1_2 : (⟨S1x1x128, .f32⟩ : BufTy).Contents (Elt F) → (⟨S8192x32x128, .f32⟩ : BufTy).Contents (Elt F)),
    StableHlo.binary main_v159 main_v161 main_v162 (mulf : (⟨S8192x32x128, .f32⟩ : BufTy).Contents (Elt F) → (⟨S8192x32x128, .f32⟩ : BufTy).Contents (Elt F) → (⟨S8192x32x128, .f32⟩ : BufTy).Contents (Elt F)),
    StableHlo.unary main_arg13 main_v163 (broadcastInDim S1x1x128 ![2] bcast_S128_S1x1x128_2 : (⟨S128, .f32⟩ : BufTy).Contents (Elt F) → (⟨S1x1x128, .f32⟩ : BufTy).Contents (Elt F)),
    StableHlo.unary main_v163 main_v164 (broadcastInDim S8192x32x128 ![0, 1, 2] bcast_S1x1x128_S8192x32x128_0_1_2 : (⟨S1x1x128, .f32⟩ : BufTy).Contents (Elt F) → (⟨S8192x32x128, .f32⟩ : BufTy).Contents (Elt F)),
    StableHlo.binary main_v162 main_v164 main_v165 (addf : (⟨S8192x32x128, .f32⟩ : BufTy).Contents (Elt F) → (⟨S8192x32x128, .f32⟩ : BufTy).Contents (Elt F) → (⟨S8192x32x128, .f32⟩ : BufTy).Contents (Elt F)) ]

abbrev ops40 : List (HloOp τ sig (Elt F)) :=
  [ StableHlo.TRef.nullary (.of main_call15_cst : StableHlo.TRef sig ⟨S_, .f32⟩) (constant S_ .f32 0x00000000#32),
    StableHlo.TRef.unary (.of main_call15_cst : StableHlo.TRef sig ⟨S_, .f32⟩) (.of main_call15_v0 : StableHlo.TRef sig ⟨S8192x32x128, .f32⟩) (broadcastInDim S8192x32x128 ![] bcast_S_S8192x32x128),
    StableHlo.TRef.binary (.of main_v165 : StableHlo.TRef sig ⟨S8192x32x128, .f32⟩) (.of main_call15_v0 : StableHlo.TRef sig ⟨S8192x32x128, .f32⟩) (.of main_v166 : StableHlo.TRef sig ⟨S8192x32x128, .f32⟩) maximumf ]

end Cert.ReferenceIdeal.Hand

end
-- ==== Proof.RefOps7.lean ====
import proofs.«157081_j85761906966880_1_alg».proof.Proof.RefTab7
import proofs.«157081_j85761906966880_1_alg».proof.Proof.RefLine

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ops37_ok : Line 263 (ops37 : List (HloOp τ sig (Elt F))) :=
  Line.mk ⟨.nullary .., .binary .., .nullary .., .unary .., .binary .., .nullary ..⟩

theorem ops38_ok : Line 269 (ops38 : List (HloOp τ sig (Elt F))) :=
  Line.mk ⟨.nullary .., .binary .., .unary .., .nullary .., .unary .., .binary .., .unary .., .binary .., .binary .., .unary .., .nullary .., .binary .., .nullary .., .binary .., .unary .., .binary .., .nullary .., .binary .., .nullary .., .unary .., .unary .., .ternary ..⟩

theorem ops39_ok : Line 291 (ops39 : List (HloOp τ sig (Elt F))) :=
  Line.mk ⟨.unary .., .unary .., .binary .., .nullary .., .unary .., .binary .., .unary .., .unary .., .unary .., .binary .., .unary .., .unary .., .binary .., .unary .., .unary .., .binary ..⟩

theorem ops40_ok : Line 307 (ops40 : List (HloOp τ sig (Elt F))) :=
  Line.mk ⟨.nullary .., .unary .., .binary ..⟩

end Cert.ReferenceIdeal.Hand

end
-- ==== Proof.RefTab8.lean ====
import proofs.«157081_j85761906966880_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops41 : List (HloOp τ sig (Elt F)) :=
  [ StableHlo.binary main_v166 main_arg14 main_v167 ((fun l r => Host.dotGeneral dot_S8192x32x128_S128x128_S8192x32x128_2_1_01_0_n_n none l r) : (⟨S8192x32x128, .f32⟩ : BufTy).Contents (Elt F) → (⟨S128x128, .f32⟩ : BufTy).Contents (Elt F) → (⟨S8192x32x128, .f32⟩ : BufTy).Contents (Elt F)),
    StableHlo.nullary main_cst_35 (constant S_ .f32 0x00000000#32),
    StableHlo.binary main_v167 main_cst_35 main_v168 ((fun x v => Host.reduceAdd x v reducesTo_S8192x32x128_S128_d0_1 h_S_) : (⟨S8192x32x128, .f32⟩ : BufTy).Contents (Elt F) → (⟨S_, .f32⟩ : BufTy).Contents (Elt F) → (⟨S128, .f32⟩ : BufTy).Contents (Elt F)),
    StableHlo.nullary main_cst_36 (constant S_ .f32 0x48800000#32),
    StableHlo.unary main_cst_36 main_v169 (broadcastInDim S128 ![] bcast_S_S128 : (⟨S_, .f32⟩ : BufTy).Contents (Elt F) → (⟨S128, .f32⟩ : BufTy).Contents (Elt F)),
    StableHlo.binary main_v168 main_v169 main_v170 (Host.divf : (⟨S128, .f32⟩ : BufTy).Contents (Elt F) → (⟨S128, .f32⟩ : BufTy).Contents (Elt F) → (⟨S128, .f32⟩ : BufTy).Contents (Elt F)),
    StableHlo.nullary main_c_37 (constantI S_ 32 0#32) ]

abbrev ops42 : List (HloOp τ sig (Elt F)) :=
  [ StableHlo.TRef.nullary (.of main_call16_cst : StableHlo.TRef sig ⟨S_, .f32⟩) (constant S_ .f32 0x00000000#32),
    StableHlo.TRef.binary (.of main_v167 : StableHlo.TRef sig ⟨S8192x32x128, .f32⟩) (.of main_call16_cst : StableHlo.TRef sig ⟨S_, .f32⟩) (.of main_call16_v0 : StableHlo.TRef sig ⟨S128, .f32⟩) (fun x v => Host.reduceAdd x v reducesTo_S8192x32x128_S128_d0_1 h_S_),
    StableHlo.TRef.unary (.of main_call16_v0 : StableHlo.TRef sig ⟨S128, .f32⟩) (.of main_call16_v1 : StableHlo.TRef sig ⟨S1x1x128, .f32⟩) (broadcastInDim S1x1x128 ![2] bcast_S128_S1x1x128_2),
    StableHlo.TRef.nullary (.of main_call16_cst_0 : StableHlo.TRef sig ⟨S_, .f32⟩) (constant S_ .f32 0x48800000#32),
    StableHlo.TRef.unary (.of main_call16_cst_0 : StableHlo.TRef sig ⟨S_, .f32⟩) (.of main_call16_v2 : StableHlo.TRef sig ⟨S1x1x128, .f32⟩) (broadcastInDim S1x1x128 ![] bcast_S_S1x1x128),
    StableHlo.TRef.binary (.of main_call16_v1 : StableHlo.TRef sig ⟨S1x1x128, .f32⟩) (.of main_call16_v2 : StableHlo.TRef sig ⟨S1x1x128, .f32⟩) (.of main_call16_v3 : StableHlo.TRef sig ⟨S1x1x128, .f32⟩) Host.divf,
    StableHlo.TRef.unary (.of main_call16_v3 : StableHlo.TRef sig ⟨S1x1x128, .f32⟩) (.of main_call16_v4 : StableHlo.TRef sig ⟨S8192x32x128, .f32⟩) (broadcastInDim S8192x32x128 ![0, 1, 2] bcast_S1x1x128_S8192x32x128_0_1_2),
    StableHlo.TRef.binary (.of main_v167 : StableHlo.TRef sig ⟨S8192x32x128, .f32⟩) (.of main_call16_v4 : StableHlo.TRef sig ⟨S8192x32x128, .f32⟩) (.of main_call16_v5 : StableHlo.TRef sig ⟨S8192x32x128, .f32⟩) subf,
    StableHlo.TRef.binary (.of main_call16_v5 : StableHlo.TRef sig ⟨S8192x32x128, .f32⟩) (.of main_call16_v5 : StableHlo.TRef sig ⟨S8192x32x128, .f32⟩) (.of main_call16_v6 : StableHlo.TRef sig ⟨S8192x32x128, .f32⟩) mulf,
    StableHlo.TRef.unary (.of main_c_37 : StableHlo.TRef sig ⟨S_, .i32⟩) (.of main_call16_v7 : StableHlo.TRef sig ⟨S_, .f32⟩) (sitofp .f32),
    StableHlo.TRef.nullary (.of main_call16_cst_1 : StableHlo.TRef sig ⟨S_, .f32⟩) (constant S_ .f32 0x48800000#32),
    StableHlo.TRef.binary (.of main_call16_cst_1 : StableHlo.TRef sig ⟨S_, .f32⟩) (.of main_call16_v7 : StableHlo.TRef sig ⟨S_, .f32⟩) (.of main_call16_v8 : StableHlo.TRef sig ⟨S_, .f32⟩) subf,
    StableHlo.TRef.nullary (.of main_call16_cst_2 : StableHlo.TRef sig ⟨S_, .f32⟩) (constant S_ .f32 0x00000000#32),
    StableHlo.TRef.binary (.of main_call16_v6 : StableHlo.TRef sig ⟨S8192x32x128, .f32⟩) (.of main_call16_cst_2 : StableHlo.TRef sig ⟨S_, .f32⟩) (.of main_call16_v9 : StableHlo.TRef sig ⟨S128, .f32⟩) (fun x v => Host.reduceAdd x v reducesTo_S8192x32x128_S128_d0_1 h_S_),
    StableHlo.TRef.unary (.of main_call16_v8 : StableHlo.TRef sig ⟨S_, .f32⟩) (.of main_call16_v10 : StableHlo.TRef sig ⟨S128, .f32⟩) (broadcastInDim S128 ![] bcast_S_S128),
    StableHlo.TRef.binary (.of main_call16_v9 : StableHlo.TRef sig ⟨S128, .f32⟩) (.of main_call16_v10 : StableHlo.TRef sig ⟨S128, .f32⟩) (.of main_call16_v11 : StableHlo.TRef sig ⟨S128, .f32⟩) Host.divf,
    StableHlo.TRef.nullary (.of main_call16_cst_3 : StableHlo.TRef sig ⟨S_, .f32⟩) (constant S_ .f32 0x00000000#32),
    StableHlo.TRef.binary (.of main_call16_v8 : StableHlo.TRef sig ⟨S_, .f32⟩) (.of main_call16_cst_3 : StableHlo.TRef sig ⟨S_, .f32⟩) (.of main_call16_v12 : StableHlo.TRef sig ⟨S_, .i1⟩) (cmpf .ogt),
    StableHlo.TRef.nullary (.of main_call16_cst_4 : StableHlo.TRef sig ⟨S_, .f32⟩) (constant S_ .f32 0x7FC00000#32),
    StableHlo.TRef.unary (.of main_call16_cst_4 : StableHlo.TRef sig ⟨S_, .f32⟩) (.of main_call16_call0_v0 : StableHlo.TRef sig ⟨S_, .f32⟩) id,
    StableHlo.TRef.unary (.of main_call16_call0_v0 : StableHlo.TRef sig ⟨S_, .f32⟩) (.of main_call16_call0_v1 : StableHlo.TRef sig ⟨S128, .f32⟩) (broadcastInDim S128 ![] bcast_S_S128),
    StableHlo.TRef.ternary (.of main_call16_v12 : StableHlo.TRef sig ⟨S_, .i1⟩) (.of main_call16_v11 : StableHlo.TRef sig ⟨S128, .f32⟩) (.of main_call16_call0_v1 : StableHlo.TRef sig ⟨S128, .f32⟩) (.of main_v171 : StableHlo.TRef sig ⟨S128, .f32⟩) (fun p a b => select (broadcastInDim S128 ![] bcast_S_S128 p) a b) ]

abbrev ops43 : List (HloOp τ sig (Elt F)) :=
  [ StableHlo.unary main_v170 main_v172 (broadcastInDim S1x1x128 ![2] bcast_S128_S1x1x128_2 : (⟨S128, .f32⟩ : BufTy).Contents (Elt F) → (⟨S1x1x128, .f32⟩ : BufTy).Contents (Elt F)),
    StableHlo.unary main_v172 main_v173 (broadcastInDim S8192x32x128 ![0, 1, 2] bcast_S1x1x128_S8192x32x128_0_1_2 : (⟨S1x1x128, .f32⟩ : BufTy).Contents (Elt F) → (⟨S8192x32x128, .f32⟩ : BufTy).Contents (Elt F)),
    StableHlo.binary main_v167 main_v173 main_v174 (subf : (⟨S8192x32x128, .f32⟩ : BufTy).Contents (Elt F) → (⟨S8192x32x128, .f32⟩ : BufTy).Contents (Elt F) → (⟨S8192x32x128, .f32⟩ : BufTy).Contents (Elt F)),
    StableHlo.nullary main_cst_38 (constant S_ .f32 0x3727C5AC#32),
    StableHlo.unary main_cst_38 main_v175 (broadcastInDim S128 ![] bcast_S_S128 : (⟨S_, .f32⟩ : BufTy).Contents (Elt F) → (⟨S128, .f32⟩ : BufTy).Contents (Elt F)),
    StableHlo.binary main_v171 main_v175 main_v176 (addf : (⟨S128, .f32⟩ : BufTy).Contents (Elt F) → (⟨S128, .f32⟩ : BufTy).Contents (Elt F) → (⟨S128, .f32⟩ : BufTy).Contents (Elt F)),
    StableHlo.unary main_v176 main_v177 (Host.rsqrt : (⟨S128, .f32⟩ : BufTy).Contents (Elt F) → (⟨S128, .f32⟩ : BufTy).Contents (Elt F)),
    StableHlo.unary main_v177 main_v178 (broadcastInDim S1x1x128 ![2] bcast_S128_S1x1x128_2 : (⟨S128, .f32⟩ : BufTy).Contents (Elt F) → (⟨S1x1x128, .f32⟩ : BufTy).Contents (Elt F)),
    StableHlo.unary main_v178 main_v179 (broadcastInDim S8192x32x128 ![0, 1, 2] bcast_S1x1x128_S8192x32x128_0_1_2 : (⟨S1x1x128, .f32⟩ : BufTy).Contents (Elt F) → (⟨S8192x32x128, .f32⟩ : BufTy).Contents (Elt F)),
    StableHlo.binary main_v174 main_v179 main_v180 (mulf : (⟨S8192x32x128, .f32⟩ : BufTy).Contents (Elt F) → (⟨S8192x32x128, .f32⟩ : BufTy).Contents (Elt F) → (⟨S8192x32x128, .f32⟩ : BufTy).Contents (Elt F)),
    StableHlo.unary main_arg15 main_v181 (broadcastInDim S1x1x128 ![2] bcast_S128_S1x1x128_2 : (⟨S128, .f32⟩ : BufTy).Contents (Elt F) → (⟨S1x1x128, .f32⟩ : BufTy).Contents (Elt F)),
    StableHlo.unary main_v181 main_v182 (broadcastInDim S8192x32x128 ![0, 1, 2] bcast_S1x1x128_S8192x32x128_0_1_2 : (⟨S1x1x128, .f32⟩ : BufTy).Contents (Elt F) → (⟨S8192x32x128, .f32⟩ : BufTy).Contents (Elt F)),
    StableHlo.binary main_v180 main_v182 main_v183 (mulf : (⟨S8192x32x128, .f32⟩ : BufTy).Contents (Elt F) → (⟨S8192x32x128, .f32⟩ : BufTy).Contents (Elt F) → (⟨S8192x32x128, .f32⟩ : BufTy).Contents (Elt F)),
    StableHlo.unary main_arg16 main_v184 (broadcastInDim S1x1x128 ![2] bcast_S128_S1x1x128_2 : (⟨S128, .f32⟩ : BufTy).Contents (Elt F) → (⟨S1x1x128, .f32⟩ : BufTy).Contents (Elt F)),
    StableHlo.unary main_v184 main_v185 (broadcastInDim S8192x32x128 ![0, 1, 2] bcast_S1x1x128_S8192x32x128_0_1_2 : (⟨S1x1x128, .f32⟩ : BufTy).Contents (Elt F) → (⟨S8192x32x128, .f32⟩ : BufTy).Contents (Elt F)),
    StableHlo.binary main_v183 main_v185 main_v186 (addf : (⟨S8192x32x128, .f32⟩ : BufTy).Contents (Elt F) → (⟨S8192x32x128, .f32⟩ : BufTy).Contents (Elt F) → (⟨S8192x32x128, .f32⟩ : BufTy).Contents (Elt F)) ]

abbrev ops44 : List (HloOp τ sig (Elt F)) :=
  [ StableHlo.TRef.nullary (.of main_call17_cst : StableHlo.TRef sig ⟨S_, .f32⟩) (constant S_ .f32 0x00000000#32),
    StableHlo.TRef.unary (.of main_call17_cst : StableHlo.TRef sig ⟨S_, .f32⟩) (.of main_call17_v0 : StableHlo.TRef sig ⟨S8192x32x128, .f32⟩) (broadcastInDim S8192x32x128 ![] bcast_S_S8192x32x128),
    StableHlo.TRef.binary (.of main_v186 : StableHlo.TRef sig ⟨S8192x32x128, .f32⟩) (.of main_call17_v0 : StableHlo.TRef sig ⟨S8192x32x128, .f32⟩) (.of main_v187 : StableHlo.TRef sig ⟨S8192x32x128, .f32⟩) maximumf ]

end Cert.ReferenceIdeal.Hand

end
-- ==== Proof.RefOps8.lean ====
import proofs.«157081_j85761906966880_1_alg».proof.Proof.RefTab8
import proofs.«157081_j85761906966880_1_alg».proof.Proof.RefLine

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ops41_ok : Line 310 (ops41 : List (HloOp τ sig (Elt F))) :=
  Line.mk ⟨.binary .., .nullary .., .binary .., .nullary .., .unary .., .binary .., .nullary ..⟩

theorem ops42_ok : Line 317 (ops42 : List (HloOp τ sig (Elt F))) :=
  Line.mk ⟨.nullary .., .binary .., .unary .., .nullary .., .unary .., .binary .., .unary .., .binary .., .binary .., .unary .., .nullary .., .binary .., .nullary .., .binary .., .unary .., .binary .., .nullary .., .binary .., .nullary .., .unary .., .unary .., .ternary ..⟩

theorem ops43_ok : Line 339 (ops43 : List (HloOp τ sig (Elt F))) :=
  Line.mk ⟨.unary .., .unary .., .binary .., .nullary .., .unary .., .binary .., .unary .., .unary .., .unary .., .binary .., .unary .., .unary .., .binary .., .unary .., .unary .., .binary ..⟩

theorem ops44_ok : Line 355 (ops44 : List (HloOp τ sig (Elt F))) :=
  Line.mk ⟨.nullary .., .unary .., .binary ..⟩

end Cert.ReferenceIdeal.Hand

end
-- ==== Proof.RefTab9.lean ====
import proofs.«157081_j85761906966880_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops45 : List (HloOp τ sig (Elt F)) :=
  [ StableHlo.nullary main_cst_39 (constant S_ .f32 0xFF800000#32),
    StableHlo.binary main_v187 main_cst_39 main_v188 ((fun x v => Host.reduce FloatOps.maximumf x v reducesTo_S8192x32x128_S8192x128_d1 h_S_) : (⟨S8192x32x128, .f32⟩ : BufTy).Contents (Elt F) → (⟨S_, .f32⟩ : BufTy).Contents (Elt F) → (⟨S8192x128, .f32⟩ : BufTy).Contents (Elt F)) ]

abbrev ops46 : List (HloOp τ sig (Elt F)) :=
  [ StableHlo.binary main_v95 main_v188 main_v189 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)) ]

end Cert.ReferenceIdeal.Hand

end
-- ==== Proof.RefOps9.lean ====
import proofs.«157081_j85761906966880_1_alg».proof.Proof.RefTab9
import proofs.«157081_j85761906966880_1_alg».proof.Proof.RefLine

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ops45_ok : Line 358 (ops45 : List (HloOp τ sig (Elt F))) :=
  Line.mk ⟨.nullary .., .binary ..⟩

theorem ops46_ok : Line 360 (ops46 : List (HloOp τ sig (Elt F))) :=
  Line.mk (.binary ..)

end Cert.ReferenceIdeal.Hand

end
-- ==== Proof.RefRun.lean ====
import proofs.«157081_j85761906966880_1_alg».proof.Proof.RefOps0
import proofs.«157081_j85761906966880_1_alg».proof.Proof.RefOps1
import proofs.«157081_j85761906966880_1_alg».proof.Proof.RefOps2
import proofs.«157081_j85761906966880_1_alg».proof.Proof.RefOps3
import proofs.«157081_j85761906966880_1_alg».proof.Proof.RefOps4
import proofs.«157081_j85761906966880_1_alg».proof.Proof.RefOps5
import proofs.«157081_j85761906966880_1_alg».proof.Proof.RefOps6
import proofs.«157081_j85761906966880_1_alg».proof.Proof.RefOps7
import proofs.«157081_j85761906966880_1_alg».proof.Proof.RefOps8
import proofs.«157081_j85761906966880_1_alg».proof.Proof.RefOps9

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

noncomputable abbrev ops : List (HloOp τ sig (Elt F)) :=
  ops0 ++ ops1 ++ ops2 ++ ops3 ++ ops4 ++ ops5 ++ ops6 ++ ops7 ++ ops8 ++ ops9 ++ ops10 ++ ops11 ++ ops12 ++ ops13
    ++ ops14 ++ ops15 ++ ops16 ++ ops17 ++ ops18 ++ ops19 ++ ops20 ++ ops21 ++ ops22 ++ ops23 ++ ops24 ++ ops25 ++ ops26
    ++ ops27 ++ ops28 ++ ops29 ++ ops30 ++ ops31 ++ ops32 ++ ops33 ++ ops34 ++ ops35 ++ ops36 ++ ops37 ++ ops38 ++ ops39
    ++ ops40 ++ ops41 ++ ops42 ++ ops43 ++ ops44 ++ ops45 ++ ops46

noncomputable abbrev win0 : List (HloOp τ sig (Elt F)) :=
  ops0 ++ ops1 ++ ops2 ++ ops3 ++ ops4 ++ ops5 ++ ops6 ++ ops7 ++ ops8 ++ ops9
noncomputable abbrev win1 : List (HloOp τ sig (Elt F)) :=
  ops10 ++ ops11 ++ ops12 ++ ops13 ++ ops14 ++ ops15 ++ ops16 ++ ops17 ++ ops18 ++ ops19 ++ ops20 ++ ops21 ++ ops22
noncomputable abbrev win2 : List (HloOp τ sig (Elt F)) :=
  ops23 ++ ops24 ++ ops25 ++ ops26 ++ ops27 ++ ops28 ++ ops29 ++ ops30 ++ ops31 ++ ops32 ++ ops33 ++ ops34 ++ ops35 ++ ops36
noncomputable abbrev win3 : List (HloOp τ sig (Elt F)) :=
  ops37 ++ ops38 ++ ops39 ++ ops40 ++ ops41 ++ ops42 ++ ops43 ++ ops44 ++ ops45 ++ ops46

theorem main_part0_eq (c : Dev nD) : main_part0 (F := F) c = seq win0 := by
  chain_rfl
theorem main_part1_eq (c : Dev nD) : main_part1 (F := F) c = seq win1 := by
  chain_rfl
theorem main_part2_eq (c : Dev nD) : main_part2 (F := F) c = seq win2 := by
  chain_rfl
theorem main_part3_eq (c : Dev nD) : main_part3 (F := F) c = seq win3 := by
  chain_rfl

theorem ops_eq : (ops : List (HloOp τ sig (Elt F))) = win0 ++ (win1 ++ (win2 ++ win3)) := by
  simp only [ops, win0, win1, win2, win3, List.append_assoc]

theorem main_eq (c : Dev nD) : main (F := F) c = StableHlo.seq ops := by
  show (main_part0 (F := F) c >>= fun _ => main_part1 (F := F) c >>= fun _ => main_part2 (F := F) c >>= fun _ => main_part3 (F := F) c) = _
  rw [main_part0_eq, main_part1_eq, main_part2_eq, main_part3_eq, ← seq_append, ← seq_append, ← seq_append, ← ops_eq]

theorem ops_ok : Line 17 (ops : List (HloOp τ sig (Elt F))) :=
  ops0_ok |>.append_le ops1_ok (by decide) |>.append_le ops2_ok (by decide) |>.append_le ops3_ok (by decide)
    |>.append_le ops4_ok (by decide) |>.append_le ops5_ok (by decide) |>.append_le ops6_ok (by decide)
    |>.append_le ops7_ok (by decide) |>.append_le ops8_ok (by decide) |>.append_le ops9_ok (by decide)
    |>.append_le ops10_ok (by decide) |>.append_le ops11_ok (by decide) |>.append_le ops12_ok (by decide)
    |>.append_le ops13_ok (by decide) |>.append_le ops14_ok (by decide) |>.append_le ops15_ok (by decide)
    |>.append_le ops16_ok (by decide) |>.append_le ops17_ok (by decide) |>.append_le ops18_ok (by decide)
    |>.append_le ops19_ok (by decide) |>.append_le ops20_ok (by decide) |>.append_le ops21_ok (by decide)
    |>.append_le ops22_ok (by decide) |>.append_le ops23_ok (by decide) |>.append_le ops24_ok (by decide)
    |>.append_le ops25_ok (by decide) |>.append_le ops26_ok (by decide) |>.append_le ops27_ok (by decide)
    |>.append_le ops28_ok (by decide) |>.append_le ops29_ok (by decide) |>.append_le ops30_ok (by decide)
    |>.append_le ops31_ok (by decide) |>.append_le ops32_ok (by decide) |>.append_le ops33_ok (by decide)
    |>.append_le ops34_ok (by decide) |>.append_le ops35_ok (by decide) |>.append_le ops36_ok (by decide)
    |>.append_le ops37_ok (by decide) |>.append_le ops38_ok (by decide) |>.append_le ops39_ok (by decide)
    |>.append_le ops40_ok (by decide) |>.append_le ops41_ok (by decide) |>.append_le ops42_ok (by decide)
    |>.append_le ops43_ok (by decide) |>.append_le ops44_ok (by decide) |>.append_le ops45_ok (by decide)
    |>.append_le ops46_ok (by decide)

theorem scopedRefs_eq : (Finset.univ.filter fun b : Ref sig .tc => b.isScoped) = ∅ := by decide

theorem arg_kept (V : Valuation τ sig (Elt F)) {r : Ref sig .tc} (hr : r.idx.val < 17) :
    StableHlo.after ops V (Proc.devRef .tc r) = V (Proc.devRef .tc r) :=
  ops_ok.after_kept V hr

end Cert.ReferenceIdeal.Hand

end
-- ==== Proof.RefFrame.lean ====
import proofs.«157081_j85761906966880_1_alg».proof.Proof.RefRun
import proofs.«157081_j85761906966880_1_alg».proof.Proof.RefLine
import Idealize.ShloMosaic.Lib.Pipeline.Frame
import Idealize.ShloMosaic.Lib.Pipeline.Regions

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

abbrev adm : (p : Fin 0) → (pcfgs (F := F) p).Adm := fun p => p.elim0
abbrev pdats : (p : Fin 0) → (c : Dev nD) → Dat τ (Elt F) Unit ℕ (UR sig nD τ) ℕ (cfgs p) c := fun p => p.elim0
theorem cellOf_inj : Function.Injective (Pipeline.cellOf (nD := nD) (τ := τ) cfgs) := fun k => k.1.elim0

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem last_chain (V : Valuation τ sig (Elt F)) (c : Dev nD) :
    (iprop(StableHlo.held (c : Thread nD τ) (Pipeline.ucRefs τ sig) V ∗ R c) : sProp 𝕄)
      ⊢ iprop(iprop(StableHlo.held (c : Thread nD τ) (Pipeline.ucRefs τ sig) V ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

def lineSeg (m : (ℓ : Loc nD τ sig) → Buf (Elt F) ℓ) {n : Nat} (l : List (HloOp τ sig (Elt F))) (hl : Line n l) :
    HostSeg (Ix := Unit) (Name := ℕ) (U := UR sig nD τ) (Lvl := ℕ) (pcfgs (F := F)) defs₀ 𝒱₀ L lv :=
  HostSeg.ofOps _ _ _ _ _ (Pipeline.ucRefs τ sig) l
    (fun op h => Pipeline.sub_ucRefs op (hl.mem op h).1)
    (fun op h => (hl.mem op h).2.1) (fun c => StableHlo.launchContents m c) (fun c => R c)

set_option backward.isDefEq.respectTransparency.types false in
theorem run_line {n : Nat} (l : List (HloOp τ sig (Elt F))) (hl : Line n l)
    (hR : ∀ b : Ref sig .tc, ¬ (Proc.devRef .tc b : DevRef τ sig).isScoped)
    (main : Dev nD → Prog (TpuEff nD τ sig (Elt F) (Pipeline.Sig Λ₀ (Fin 0) fun p => (pcfgs (F := F) p).Adm) .tc) PUnit)
    (hmain : ∀ c, main c = StableHlo.seq l)
    (m : (ℓ : Loc nD τ sig) → Buf (Elt F) ℓ) (ρ : Dev nD → PrngReg) :
    θ_run defs (onTc (τ := τ) main) ⟨m, fun _ => 0, ρ⟩ (fun r => ∀ (d : Dev nD) (b : Ref sig .tc),
      r.2.mem ((d.tc : Thread nD τ).loc b) = StableHlo.after l (StableHlo.launchContents m d) (Proc.devRef .tc b)) := by
  refine Pipeline.θ_run_regions_kit_dev (pcfgs (F := F)) adm pdats () cellOf_inj emb₁ defs₀ 𝒱₀ L lv m ρ main
    (fun _ => [Seg.host (lineSeg m l hl)])
    (fun c Q => by
      rw [hmain c]
      have e : (Seg.run [Seg.host (pcs := pcfgs (F := F)) (a := adm) (pdats := pdats) (ι := ()) (lineSeg m l hl)]
          : Prog (TpuEff nD τ sig (Elt F) (Pipeline.Sig Λ₀ (Fin 0) fun p => (pcfgs (F := F) p).Adm) .tc) PUnit)
          = StableHlo.seq l := Prog.bind_pure (StableHlo.seq l)
      rw [e])
    (fun c => List.nodup_nil)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (StableHlo.launchContents m c) ∗ R c))
    (Tₙ := fun c => iprop(StableHlo.held (c : Thread nD τ) (Pipeline.ucRefs τ sig) (StableHlo.after l (StableHlo.launchContents m c)) ∗ ∃ r, prngReg c r))
    (hch := fun c => ⟨.rfl, last_chain _ c⟩)
    (hinit := by
      refine Pipeline.initEach L lv fun c => ?_
      rw [show unscopedBufs c (fun b => m ((c : Thread nD τ).loc b)) = StableHlo.held (c : Thread nD τ) (Pipeline.ucRefs τ sig) (StableHlo.launchContents m c)
        from Pipeline.unscopedBufs_held c (StableHlo.launchContents m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = StableHlo.after l (StableHlo.launchContents m c) b)
    (hfin := fun c s' => by
      iintro ⟨⟨Hh, -⟩, HSI⟩
      unfold StableHlo.held
      imodintro
      iapply (pointsTo_read_all (Pipeline.ucRefs τ sig) (fun b => (((c : Thread nD τ)).1, b)) (StableHlo.after l (StableHlo.launchContents m c)) s')
      isplitl [Hh] <;> iassumption)
    (hQ := fun s h d b => h d _ (mem_uc b (hR b)))

theorem not_scoped (b : Ref sig .tc) : ¬ (Proc.devRef .tc b : DevRef τ sig).isScoped := fun hs => by
  have hm : b ∈ (Finset.univ.filter fun b : Ref sig .tc => b.isScoped) := Finset.mem_filter.mpr ⟨Finset.mem_univ b, hs⟩
  rw [scopedRefs_eq] at hm
  exact absurd hm (Finset.notMem_empty _)

theorem run_all (m : (ℓ : Loc nD τ sig) → Buf (Elt F) ℓ) (ρ : Dev nD → PrngReg) :
    θ_run defs (onTc (τ := τ) (main (F := F))) ⟨m, fun _ => 0, ρ⟩ (fun r => ∀ (d : Dev nD) (b : Ref sig .tc),
      r.2.mem ((d.tc : Thread nD τ).loc b) = StableHlo.after ops (StableHlo.launchContents m d) (Proc.devRef .tc b)) :=
  run_line ops ops_ok not_scoped main main_eq m ρ

theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v189) = StableHlo.after ops (StableHlo.launchContents m c) (Proc.devRef .tc main_v189)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => by
    refine ⟨h c _, ?_⟩
    repeat' apply And.intro
    all_goals exact (h c _).trans (arg_kept _ (by decide)))
    (run_all m ρ)

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2) (run_value m ρ)

end Cert.ReferenceIdeal.Hand

end
-- ==== Proof.RefGather0.lean ====
import proofs.«157081_j85761906966880_1_alg».proof.Proof.RefTab1
import proofs.«157081_j85761906966880_1_alg».proof.Proof.RefTab2
import proofs.«157081_j85761906966880_1_alg».proof.Proof.RefStages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def gx_0 (v0 : FVec F S4x8192x3 .f32) (v2 : FVec F S4x2048x3 .f32) (idx : IVec S4x2048x16 32) : FVec F S4x2048x16x3 .f32 :=
  let v32 : IVec S4x2048x16 32 := broadcastInDim S4x2048x16 ![] bcast_S_S4x2048x16 (constantI S_ 32 0#32)
  let v33 : IVec S4x2048x16 1 := cmpi .slt idx v32
  let v34 : IVec S4x2048x16 32 := broadcastInDim S4x2048x16 ![] bcast_S_S4x2048x16 (constantI S_ 32 8192#32)
  let v35 : IVec S4x2048x16 32 := addi idx v34
  let v36 : IVec S4x2048x16 32 := select v33 v35 idx
  let v37 : IVec S4x2048x16x1 32 := broadcastInDim S4x2048x16x1 ![0, 1, 2] bcast_S4x2048x16_S4x2048x16x1_0_1_2 v36
  let v38 : FVec F S4x2048x16x3 .f32 := Host.gather gather_S4x8192x3_S4x2048x16x1_S4x2048x16x3_3_1_0_0_1_3_113 v0 v37
  let v39 : FVec F S4x2048x1x3 .f32 := broadcastInDim S4x2048x1x3 ![0, 1, 3] bcast_S4x2048x3_S4x2048x1x3_0_1_3 v2
  let v40 : FVec F S4x2048x16x3 .f32 := broadcastInDim S4x2048x16x3 ![0, 1, 2, 3] bcast_S4x2048x1x3_S4x2048x16x3_0_1_2_3 v39
  subf v38 v40

def gf_0 (v1 : FVec F S4x8192x64 .f32) (idx : IVec S4x2048x16 32) : FVec F S4x2048x16x64 .f32 :=
  let v42 : IVec S4x2048x16 32 := broadcastInDim S4x2048x16 ![] bcast_S_S4x2048x16 (constantI S_ 32 0#32)
  let v43 : IVec S4x2048x16 1 := cmpi .slt idx v42
  let v44 : IVec S4x2048x16 32 := broadcastInDim S4x2048x16 ![] bcast_S_S4x2048x16 (constantI S_ 32 8192#32)
  let v45 : IVec S4x2048x16 32 := addi idx v44
  let v46 : IVec S4x2048x16 32 := select v43 v45 idx
  let v47 : IVec S4x2048x16x1 32 := broadcastInDim S4x2048x16x1 ![0, 1, 2] bcast_S4x2048x16_S4x2048x16x1_0_1_2 v46
  Host.gather gather_S4x8192x64_S4x2048x16x1_S4x2048x16x64_3_1_0_0_1_3_1164 v1 v47

def gcat_0 (gx : FVec F S4x2048x16x3 .f32) (gf : FVec F S4x2048x16x64 .f32) (empty : IVec S4x2048 1) :
    FVec F S8192x16x67 .f32 :=
  let v49 : FVec F S4x2048x16x67 .f32 :=
    concatenate S4x2048x16x67 3 [⟨S4x2048x16x3, gx⟩, ⟨S4x2048x16x64, gf⟩] concatenates_S4x2048x16x3_S4x2048x16x64_S4x2048x16x67_d3
  let v50 : IVec S4x2048x1x1 1 := broadcastInDim S4x2048x1x1 ![0, 1] bcast_S4x2048_S4x2048x1x1_0_1 empty
  let v51 : FVec F S4x2048x16x67 .f32 :=
    select (broadcastInDim S4x2048x16x67 ![0, 1, 2, 3] bcast_S4x2048x1x1_S4x2048x16x67_0_1_2_3 v50)
      (broadcastInDim S4x2048x16x67 ![] bcast_S_S4x2048x16x67 (constant S_ .f32 0x00000000#32)) v49
  shapeCast S8192x16x67 v51 shapeCasts_S4x2048x16x67_S8192x16x67

theorem r_group_0_eq (xyz : FVec F S32768x3 .f32) (feat : FVec F S32768x64 .f32) (nw : FVec F S8192x3 .f32)
    (idx : IVec S4x2048x16 32) (empty : IVec S4x2048 1) :
    r_group_0 xyz feat nw idx empty
      = gcat_0 (gx_0 (shapeCast S4x8192x3 xyz shapeCasts_S32768x3_S4x8192x3) (shapeCast S4x2048x3 nw shapeCasts_S8192x3_S4x2048x3) idx)
          (gf_0 (shapeCast S4x8192x64 feat shapeCasts_S32768x64_S4x8192x64) idx) empty := rfl

theorem back_gx_0 (X : Valuation τ sig (Elt F)) :
    StableHlo.after ops9 X (Proc.devRef .tc main_v41)
      = gx_0 (X (Proc.devRef .tc main_v0)) (X (Proc.devRef .tc main_v2)) (X (Proc.devRef .tc main_v31)) := by
  dsimp only [ops9]
  after_results_simp
  all_goals rfl

theorem back_gf_0 (X : Valuation τ sig (Elt F)) :
    StableHlo.after ops9 X (Proc.devRef .tc main_v48) = gf_0 (X (Proc.devRef .tc main_v1)) (X (Proc.devRef .tc main_v31)) := by
  dsimp only [ops9]
  after_results_simp
  all_goals rfl

theorem back_gcat_0 (Y : Valuation τ sig (Elt F)) (gx : FVec F S4x2048x16x3 .f32) (gf : FVec F S4x2048x16x64 .f32)
    (empty : IVec S4x2048 1)
    (hx : Y (Proc.devRef .tc main_v41) = gx) (hf : Y (Proc.devRef .tc main_v48) = gf) (he : Y (Proc.devRef .tc main_v29) = empty) :
    StableHlo.after ops12 (StableHlo.after ops11 (StableHlo.after ops10 Y)) (Proc.devRef .tc main_v52) = gcat_0 gx gf empty := by
  subst hx hf he
  dsimp only [ops10, ops11, ops12]
  after_results_simp
  all_goals rfl

end Cert.ReferenceIdeal.Hand

end
-- ==== Proof.RefBack0.lean ====
import proofs.«157081_j85761906966880_1_alg».proof.Proof.RefOps0
import proofs.«157081_j85761906966880_1_alg».proof.Proof.RefOps1
import proofs.«157081_j85761906966880_1_alg».proof.Proof.RefOps2
import proofs.«157081_j85761906966880_1_alg».proof.Proof.RefOps3
import proofs.«157081_j85761906966880_1_alg».proof.Proof.RefOps4
import proofs.«157081_j85761906966880_1_alg».proof.Proof.RefStages
import proofs.«157081_j85761906966880_1_alg».proof.Proof.RefGather0
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section
variable (X : Valuation τ sig (Elt F))

theorem back_r0 :
    StableHlo.after ops0 X (Proc.devRef .tc main_v0)
      = shapeCast S4x8192x3 (X (Proc.devRef .tc main_arg0)) shapeCasts_S32768x3_S4x8192x3 := by
  dsimp only [ops0]
  after_results_simp
  all_goals rfl

theorem back_r1 :
    StableHlo.after ops0 X (Proc.devRef .tc main_v1)
      = shapeCast S4x8192x64 (X (Proc.devRef .tc main_arg1)) shapeCasts_S32768x64_S4x8192x64 := by
  dsimp only [ops0]
  after_results_simp
  all_goals rfl

theorem back_r2 :
    StableHlo.after ops0 X (Proc.devRef .tc main_v2)
      = shapeCast S4x2048x3 (X (Proc.devRef .tc main_arg2)) shapeCasts_S8192x3_S4x2048x3 := by
  dsimp only [ops0]
  after_results_simp
  all_goals rfl

theorem back_ball_0 :
    StableHlo.after ops0 X (Proc.devRef .tc main_v17)
      = r_ball_0 (X (Proc.devRef .tc main_arg0)) (X (Proc.devRef .tc main_arg2)) := by
  dsimp only [ops0]
  after_results_simp
  all_goals rfl

theorem back_near_0 :
    StableHlo.after ops4 (StableHlo.after ops3 (StableHlo.after ops2 (StableHlo.after ops1 X))) (Proc.devRef .tc main_v22)
      = r_near_0 (X (Proc.devRef .tc main_v17)) := by
  dsimp only [ops1, ops2, ops3, ops4]
  after_results
  all_goals rfl

theorem back_empty_0 :
    StableHlo.after ops7 (StableHlo.after ops6 (StableHlo.after ops5 X)) (Proc.devRef .tc main_v29)
      = r_empty_0 (X (Proc.devRef .tc main_v22)) := by
  dsimp only [ops5, ops6, ops7]
  after_results_simp
  all_goals rfl

theorem back_idx_0 :
    StableHlo.after ops8 (StableHlo.after ops7 (StableHlo.after ops6 (StableHlo.after ops5 X))) (Proc.devRef .tc main_v31)
      = r_idx_0 (X (Proc.devRef .tc main_v22)) := by
  dsimp only [ops5, ops6, ops7, ops8]
  after_results_simp
  all_goals rfl

theorem back_h1_0 :
    StableHlo.after ops13 X (Proc.devRef .tc main_v53)
      = r_h1_0 (X (Proc.devRef .tc main_v52)) (X (Proc.devRef .tc main_arg5)) := by
  dsimp only [ops13]
  after_results
  all_goals rfl

theorem back_mean_0a :
    StableHlo.after ops13 X (Proc.devRef .tc main_v56)
      = r_mean_0 (r_h1_0 (X (Proc.devRef .tc main_v52)) (X (Proc.devRef .tc main_arg5))) := by
  dsimp only [ops13]
  after_results
  all_goals rfl

theorem back_var_0a :
    StableHlo.after ops14 (StableHlo.after ops13 X) (Proc.devRef .tc main_v57)
      = r_var_0 (r_h1_0 (X (Proc.devRef .tc main_v52)) (X (Proc.devRef .tc main_arg5))) := by
  dsimp only [ops13, ops14]
  after_results_simp
  all_goals rfl

theorem back_act_0a :
    StableHlo.after ops16 (StableHlo.after ops15 X) (Proc.devRef .tc main_v73)
      = r_act_0 (X (Proc.devRef .tc main_v53)) (X (Proc.devRef .tc main_v56)) (X (Proc.devRef .tc main_v57)) (X (Proc.devRef .tc main_arg6)) (X (Proc.devRef .tc main_arg7)) := by
  dsimp only [ops15, ops16]
  after_results_simp
  all_goals rfl

theorem back_h2_0 :
    StableHlo.after ops17 X (Proc.devRef .tc main_v74)
      = r_h2_0 (X (Proc.devRef .tc main_v73)) (X (Proc.devRef .tc main_arg8)) := by
  dsimp only [ops17]
  after_results
  all_goals rfl

theorem back_mean_0b :
    StableHlo.after ops17 X (Proc.devRef .tc main_v77)
      = r_mean_0 (r_h2_0 (X (Proc.devRef .tc main_v73)) (X (Proc.devRef .tc main_arg8))) := by
  dsimp only [ops17]
  after_results
  all_goals rfl

theorem back_var_0b :
    StableHlo.after ops18 (StableHlo.after ops17 X) (Proc.devRef .tc main_v78)
      = r_var_0 (r_h2_0 (X (Proc.devRef .tc main_v73)) (X (Proc.devRef .tc main_arg8))) := by
  dsimp only [ops17, ops18]
  after_results_simp
  all_goals rfl

theorem back_act_0b :
    StableHlo.after ops20 (StableHlo.after ops19 X) (Proc.devRef .tc main_v94)
      = r_act_0 (X (Proc.devRef .tc main_v74)) (X (Proc.devRef .tc main_v77)) (X (Proc.devRef .tc main_v78)) (X (Proc.devRef .tc main_arg9)) (X (Proc.devRef .tc main_arg10)) := by
  dsimp only [ops19, ops20]
  after_results_simp
  all_goals rfl

theorem back_out_0 :
    StableHlo.after ops21 X (Proc.devRef .tc main_v95)
      = r_out_0 (X (Proc.devRef .tc main_v94)) := by
  dsimp only [ops21]
  after_results
  all_goals rfl

end

noncomputable abbrev opsA : List (HloOp τ sig (Elt F)) :=
  ops0 ++ ops1 ++ ops2 ++ ops3 ++ ops4 ++ ops5 ++ ops6 ++ ops7 ++ ops8 ++ ops9 ++ ops10 ++ ops11 ++ ops12 ++ ops13 ++ ops14 ++ ops15 ++ ops16 ++ ops17 ++ ops18 ++ ops19 ++ ops20 ++ ops21

-- Each list's result buffer is a stage of what the list reads, and a list keeps every buffer it does not write.
theorem back_scale_0 (W : Valuation τ sig (Elt F)) :
    after opsA W (Proc.devRef .tc main_v95)
        = r_tail_0 (r_g0 (W (Proc.devRef .tc main_arg0)) (W (Proc.devRef .tc main_arg1)) (W (Proc.devRef .tc main_arg2))) (W (Proc.devRef .tc main_arg5)) (W (Proc.devRef .tc main_arg6)) (W (Proc.devRef .tc main_arg7)) (W (Proc.devRef .tc main_arg8)) (W (Proc.devRef .tc main_arg9)) (W (Proc.devRef .tc main_arg10))
      ∧ after opsA W (Proc.devRef .tc main_v0) = shapeCast S4x8192x3 (W (Proc.devRef .tc main_arg0)) shapeCasts_S32768x3_S4x8192x3
      ∧ after opsA W (Proc.devRef .tc main_v1) = shapeCast S4x8192x64 (W (Proc.devRef .tc main_arg1)) shapeCasts_S32768x64_S4x8192x64
      ∧ after opsA W (Proc.devRef .tc main_v2) = shapeCast S4x2048x3 (W (Proc.devRef .tc main_arg2)) shapeCasts_S8192x3_S4x2048x3 := by
  simp only [after_append]
  refine ⟨?_, ?_, ?_, ?_⟩ <;>
    simp (disch := decide) only [back_r0 _, back_r1 _, back_r2 _, back_ball_0 _, back_near_0 _, back_empty_0 _, back_idx_0 _, back_gx_0 _, back_gf_0 _,
      back_gcat_0 _ _ _ _ rfl rfl rfl, back_h1_0 _, back_mean_0a _, back_var_0a _, back_act_0a _, back_h2_0 _, back_mean_0b _,
      back_var_0b _, back_act_0b _, back_out_0 _, ops0_ok.after_kept, ops1_ok.after_kept, ops2_ok.after_kept, ops3_ok.after_kept, ops4_ok.after_kept, ops5_ok.after_kept, ops6_ok.after_kept, ops7_ok.after_kept, ops8_ok.after_kept, ops9_ok.after_kept, ops10_ok.after_kept, ops11_ok.after_kept, ops12_ok.after_kept, ops13_ok.after_kept, ops14_ok.after_kept, ops15_ok.after_kept, ops16_ok.after_kept, ops17_ok.after_kept, ops18_ok.after_kept, ops19_ok.after_kept, ops20_ok.after_kept, ops21_ok.after_kept]
  rfl

end Cert.ReferenceIdeal.Hand

end
-- ==== Proof.RefGather1.lean ====
import proofs.«157081_j85761906966880_1_alg».proof.Proof.RefTab5
import proofs.«157081_j85761906966880_1_alg».proof.Proof.RefTab6
import proofs.«157081_j85761906966880_1_alg».proof.Proof.RefStages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def gx_1 (v0 : FVec F S4x8192x3 .f32) (v2 : FVec F S4x2048x3 .f32) (idx : IVec S4x2048x32 32) : FVec F S4x2048x32x3 .f32 :=
  let v32 : IVec S4x2048x32 32 := broadcastInDim S4x2048x32 ![] bcast_S_S4x2048x32 (constantI S_ 32 0#32)
  let v33 : IVec S4x2048x32 1 := cmpi .slt idx v32
  let v34 : IVec S4x2048x32 32 := broadcastInDim S4x2048x32 ![] bcast_S_S4x2048x32 (constantI S_ 32 8192#32)
  let v35 : IVec S4x2048x32 32 := addi idx v34
  let v36 : IVec S4x2048x32 32 := select v33 v35 idx
  let v37 : IVec S4x2048x32x1 32 := broadcastInDim S4x2048x32x1 ![0, 1, 2] bcast_S4x2048x32_S4x2048x32x1_0_1_2 v36
  let v38 : FVec F S4x2048x32x3 .f32 := Host.gather gather_S4x8192x3_S4x2048x32x1_S4x2048x32x3_3_1_0_0_1_3_113 v0 v37
  let v39 : FVec F S4x2048x1x3 .f32 := broadcastInDim S4x2048x1x3 ![0, 1, 3] bcast_S4x2048x3_S4x2048x1x3_0_1_3 v2
  let v40 : FVec F S4x2048x32x3 .f32 := broadcastInDim S4x2048x32x3 ![0, 1, 2, 3] bcast_S4x2048x1x3_S4x2048x32x3_0_1_2_3 v39
  subf v38 v40

def gf_1 (v1 : FVec F S4x8192x64 .f32) (idx : IVec S4x2048x32 32) : FVec F S4x2048x32x64 .f32 :=
  let v42 : IVec S4x2048x32 32 := broadcastInDim S4x2048x32 ![] bcast_S_S4x2048x32 (constantI S_ 32 0#32)
  let v43 : IVec S4x2048x32 1 := cmpi .slt idx v42
  let v44 : IVec S4x2048x32 32 := broadcastInDim S4x2048x32 ![] bcast_S_S4x2048x32 (constantI S_ 32 8192#32)
  let v45 : IVec S4x2048x32 32 := addi idx v44
  let v46 : IVec S4x2048x32 32 := select v43 v45 idx
  let v47 : IVec S4x2048x32x1 32 := broadcastInDim S4x2048x32x1 ![0, 1, 2] bcast_S4x2048x32_S4x2048x32x1_0_1_2 v46
  Host.gather gather_S4x8192x64_S4x2048x32x1_S4x2048x32x64_3_1_0_0_1_3_1164 v1 v47

def gcat_1 (gx : FVec F S4x2048x32x3 .f32) (gf : FVec F S4x2048x32x64 .f32) (empty : IVec S4x2048 1) :
    FVec F S8192x32x67 .f32 :=
  let v49 : FVec F S4x2048x32x67 .f32 :=
    concatenate S4x2048x32x67 3 [⟨S4x2048x32x3, gx⟩, ⟨S4x2048x32x64, gf⟩] concatenates_S4x2048x32x3_S4x2048x32x64_S4x2048x32x67_d3
  let v50 : IVec S4x2048x1x1 1 := broadcastInDim S4x2048x1x1 ![0, 1] bcast_S4x2048_S4x2048x1x1_0_1 empty
  let v51 : FVec F S4x2048x32x67 .f32 :=
    select (broadcastInDim S4x2048x32x67 ![0, 1, 2, 3] bcast_S4x2048x1x1_S4x2048x32x67_0_1_2_3 v50)
      (broadcastInDim S4x2048x32x67 ![] bcast_S_S4x2048x32x67 (constant S_ .f32 0x00000000#32)) v49
  shapeCast S8192x32x67 v51 shapeCasts_S4x2048x32x67_S8192x32x67

theorem r_group_1_eq (xyz : FVec F S32768x3 .f32) (feat : FVec F S32768x64 .f32) (nw : FVec F S8192x3 .f32)
    (idx : IVec S4x2048x32 32) (empty : IVec S4x2048 1) :
    r_group_1 xyz feat nw idx empty
      = gcat_1 (gx_1 (shapeCast S4x8192x3 xyz shapeCasts_S32768x3_S4x8192x3) (shapeCast S4x2048x3 nw shapeCasts_S8192x3_S4x2048x3) idx)
          (gf_1 (shapeCast S4x8192x64 feat shapeCasts_S32768x64_S4x8192x64) idx) empty := rfl

theorem back_gx_1 (X : Valuation τ sig (Elt F)) :
    StableHlo.after ops32 X (Proc.devRef .tc main_v134)
      = gx_1 (X (Proc.devRef .tc main_v0)) (X (Proc.devRef .tc main_v2)) (X (Proc.devRef .tc main_v124)) := by
  dsimp only [ops32]
  after_results_simp
  all_goals rfl

theorem back_gf_1 (X : Valuation τ sig (Elt F)) :
    StableHlo.after ops32 X (Proc.devRef .tc main_v141) = gf_1 (X (Proc.devRef .tc main_v1)) (X (Proc.devRef .tc main_v124)) := by
  dsimp only [ops32]
  after_results_simp
  all_goals rfl

theorem back_gcat_1 (Y : Valuation τ sig (Elt F)) (gx : FVec F S4x2048x32x3 .f32) (gf : FVec F S4x2048x32x64 .f32)
    (empty : IVec S4x2048 1)
    (hx : Y (Proc.devRef .tc main_v134) = gx) (hf : Y (Proc.devRef .tc main_v141) = gf) (he : Y (Proc.devRef .tc main_v122) = empty) :
    StableHlo.after ops35 (StableHlo.after ops34 (StableHlo.after ops33 Y)) (Proc.devRef .tc main_v145) = gcat_1 gx gf empty := by
  subst hx hf he
  dsimp only [ops33, ops34, ops35]
  after_results_simp
  all_goals rfl

end Cert.ReferenceIdeal.Hand

end
-- ==== Proof.RefBack1.lean ====
import proofs.«157081_j85761906966880_1_alg».proof.Proof.RefOps4
import proofs.«157081_j85761906966880_1_alg».proof.Proof.RefOps5
import proofs.«157081_j85761906966880_1_alg».proof.Proof.RefOps6
import proofs.«157081_j85761906966880_1_alg».proof.Proof.RefOps7
import proofs.«157081_j85761906966880_1_alg».proof.Proof.RefOps8
import proofs.«157081_j85761906966880_1_alg».proof.Proof.RefOps9
import proofs.«157081_j85761906966880_1_alg».proof.Proof.RefStages
import proofs.«157081_j85761906966880_1_alg».proof.Proof.RefGather1
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section
variable (X : Valuation τ sig (Elt F))

theorem back_out_1 :
    StableHlo.after ops45 X (Proc.devRef .tc main_v188) = r_out_1 (X (Proc.devRef .tc main_v187)) := by
  dsimp only [ops45]
  after_results
  all_goals rfl

theorem back_final :
    StableHlo.after ops46 X (Proc.devRef .tc main_v189)
      = concatenate S8192x256 1 [⟨S8192x128, X (Proc.devRef .tc main_v95)⟩, ⟨S8192x128, X (Proc.devRef .tc main_v188)⟩]
          concatenates_S8192x128_S8192x128_S8192x256_d1 := by
  dsimp only [ops46]
  after_results
  all_goals rfl

theorem back_h1_1 :
    StableHlo.after ops36 X (Proc.devRef .tc main_v146) = r_h1_1 (X (Proc.devRef .tc main_v145)) (X (Proc.devRef .tc main_arg11)) := by
  dsimp only [ops36]
  after_results
  all_goals rfl

theorem back_mean_1a :
    StableHlo.after ops37 X (Proc.devRef .tc main_v149) = r_mean_1 (X (Proc.devRef .tc main_v146)) := by
  dsimp only [ops37]
  after_results
  all_goals rfl

theorem back_var_1a :
    StableHlo.after ops38 (StableHlo.after ops37 X) (Proc.devRef .tc main_v150) = r_var_1 (X (Proc.devRef .tc main_v146)) := by
  dsimp only [ops37, ops38]
  after_results_simp
  all_goals rfl

theorem back_near_1 :
    StableHlo.after ops27 (StableHlo.after ops26 (StableHlo.after ops25 (StableHlo.after ops24 X))) (Proc.devRef .tc main_v115)
      = r_near_1 (X (Proc.devRef .tc main_v110)) := by
  dsimp only [ops24, ops25, ops26, ops27]
  after_results
  all_goals rfl

theorem back_ball_1 (p : FVec F S32768x3 .f32) (q : FVec F S8192x3 .f32)
    (h0 : X (Proc.devRef .tc main_v0) = shapeCast S4x8192x3 p shapeCasts_S32768x3_S4x8192x3)
    (h2 : X (Proc.devRef .tc main_v2) = shapeCast S4x2048x3 q shapeCasts_S8192x3_S4x2048x3) :
    StableHlo.after ops23 (StableHlo.after ops22 X) (Proc.devRef .tc main_v110) = r_ball_1 p q := by
  dsimp only [ops22, ops23]
  after_results_simp
  rw [h0, h2]
  all_goals rfl

theorem back_empty_1 :
    StableHlo.after ops30 (StableHlo.after ops29 (StableHlo.after ops28 X)) (Proc.devRef .tc main_v122)
      = r_empty_1 (X (Proc.devRef .tc main_v115)) := by
  dsimp only [ops28, ops29, ops30]
  after_results_simp
  all_goals rfl

theorem back_idx_1 :
    StableHlo.after ops31 (StableHlo.after ops30 (StableHlo.after ops29 (StableHlo.after ops28 X))) (Proc.devRef .tc main_v124)
      = r_idx_1 (X (Proc.devRef .tc main_v115)) := by
  dsimp only [ops28, ops29, ops30, ops31]
  after_results_simp
  all_goals rfl

theorem back_act_1a :
    StableHlo.after ops40 (StableHlo.after ops39 X) (Proc.devRef .tc main_v166)
      = r_act_1 (X (Proc.devRef .tc main_v146)) (X (Proc.devRef .tc main_v149)) (X (Proc.devRef .tc main_v150)) (X (Proc.devRef .tc main_arg12)) (X (Proc.devRef .tc main_arg13)) := by
  dsimp only [ops39, ops40]
  after_results_simp
  all_goals rfl

theorem back_h2_1 :
    StableHlo.after ops41 X (Proc.devRef .tc main_v167) = r_h2_1 (X (Proc.devRef .tc main_v166)) (X (Proc.devRef .tc main_arg14)) := by
  dsimp only [ops41]
  after_results
  all_goals rfl

theorem back_mean_1b :
    StableHlo.after ops41 X (Proc.devRef .tc main_v170) = r_mean_1 (r_h2_1 (X (Proc.devRef .tc main_v166)) (X (Proc.devRef .tc main_arg14))) := by
  dsimp only [ops41]
  after_results
  all_goals rfl

theorem back_var_1b :
    StableHlo.after ops42 (StableHlo.after ops41 X) (Proc.devRef .tc main_v171)
      = r_var_1 (r_h2_1 (X (Proc.devRef .tc main_v166)) (X (Proc.devRef .tc main_arg14))) := by
  dsimp only [ops41, ops42]
  after_results_simp
  all_goals rfl

theorem back_act_1b :
    StableHlo.after ops44 (StableHlo.after ops43 X) (Proc.devRef .tc main_v187)
      = r_act_1 (X (Proc.devRef .tc main_v167)) (X (Proc.devRef .tc main_v170)) (X (Proc.devRef .tc main_v171)) (X (Proc.devRef .tc main_arg15)) (X (Proc.devRef .tc main_arg16)) := by
  dsimp only [ops43, ops44]
  after_results_simp
  all_goals rfl

end

noncomputable abbrev opsB : List (HloOp τ sig (Elt F)) :=
  ops22 ++ ops23 ++ ops24 ++ ops25 ++ ops26 ++ ops27 ++ ops28 ++ ops29 ++ ops30 ++ ops31 ++ ops32 ++ ops33 ++ ops34 ++ ops35 ++ ops36 ++ ops37 ++ ops38 ++ ops39 ++ ops40 ++ ops41 ++ ops42 ++ ops43 ++ ops44 ++ ops45

-- As for the first scale; the three reshapes are read where the first scale left them, and its maximum is kept.
theorem back_scale_1 (W : Valuation τ sig (Elt F)) (p : FVec F S32768x3 .f32) (f : FVec F S32768x64 .f32) (q : FVec F S8192x3 .f32)
    (h0 : W (Proc.devRef .tc main_v0) = shapeCast S4x8192x3 p shapeCasts_S32768x3_S4x8192x3)
    (h1 : W (Proc.devRef .tc main_v1) = shapeCast S4x8192x64 f shapeCasts_S32768x64_S4x8192x64)
    (h2 : W (Proc.devRef .tc main_v2) = shapeCast S4x2048x3 q shapeCasts_S8192x3_S4x2048x3) :
    after opsB W (Proc.devRef .tc main_v188)
        = r_tail_1 (r_g1 p f q) (W (Proc.devRef .tc main_arg11)) (W (Proc.devRef .tc main_arg12)) (W (Proc.devRef .tc main_arg13)) (W (Proc.devRef .tc main_arg14)) (W (Proc.devRef .tc main_arg15)) (W (Proc.devRef .tc main_arg16))
      ∧ after opsB W (Proc.devRef .tc main_v95) = W (Proc.devRef .tc main_v95) := by
  simp only [after_append]
  constructor <;>
    simp (disch := decide) only [back_out_1 _, back_act_1b _, back_var_1b _, back_mean_1b _, back_h2_1 _, back_act_1a _, back_var_1a _, back_mean_1a _,
      back_h1_1 _, back_gcat_1 _ _ _ _ rfl rfl rfl, back_gf_1 _, back_gx_1 _, back_idx_1 _, back_empty_1 _, back_near_1 _,
      back_ball_1 W p q h0 h2, h0, h1, h2, r_tail_1, r_bn_1, r_g1, r_group_1_eq, ops22_ok.after_kept, ops23_ok.after_kept, ops24_ok.after_kept, ops25_ok.after_kept, ops26_ok.after_kept, ops27_ok.after_kept, ops28_ok.after_kept, ops29_ok.after_kept, ops30_ok.after_kept, ops31_ok.after_kept, ops32_ok.after_kept, ops33_ok.after_kept, ops34_ok.after_kept, ops35_ok.after_kept, ops36_ok.after_kept, ops37_ok.after_kept, ops38_ok.after_kept, ops39_ok.after_kept, ops40_ok.after_kept, ops41_ok.after_kept, ops42_ok.after_kept, ops43_ok.after_kept, ops44_ok.after_kept, ops45_ok.after_kept]

end Cert.ReferenceIdeal.Hand

end
-- ==== Proof.RefBack.lean ====
import proofs.«157081_j85761906966880_1_alg».proof.Proof.RefRun
import proofs.«157081_j85761906966880_1_alg».proof.Proof.RefBack0
import proofs.«157081_j85761906966880_1_alg».proof.Proof.RefBack1

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- The first scale's operations, then the second scale's and the concatenate; the first scale writes no argument.
theorem result_eq (m : (ℓ : Loc nD τ sig) → Buf (Elt F) ℓ) (d : Dev nD) :
    StableHlo.after ops (StableHlo.launchContents m d) (Proc.devRef .tc main_v189)
      = r_final (m ((d.tc : Thread nD τ).loc main_arg0)) (m ((d.tc : Thread nD τ).loc main_arg1)) (m ((d.tc : Thread nD τ).loc main_arg2)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10))
          (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) := by
  have e : (ops : List (HloOp τ sig (Elt F))) = opsA ++ (opsB ++ ops46) := by simp only [ops, opsA, opsB, List.append_assoc]
  have k : Line 17 (opsA : List (HloOp τ sig (Elt F))) := .of_mem fun op ho => ops_ok.mem op (e ▸ List.mem_append_left _ ho)
  obtain ⟨e95, e0, e1, e2⟩ := back_scale_0 (StableHlo.launchContents m d)
  obtain ⟨e188, k95⟩ := back_scale_1 _ _ _ _ e0 e1 e2
  simp (disch := decide) only [k.after_kept] at e188
  rw [e, after_append, after_append, back_final, k95, e95, e188]
  rfl

end Cert.ReferenceIdeal.Hand

end
-- ==== Proof.lean ====
import proofs.«157081_j85761906966880_1_alg».proof.Defs
import proofs.«157081_j85761906966880_1_alg».proof.Proof.Gen.Kernel
import proofs.«157081_j85761906966880_1_alg».proof.Proof.Gen.KernelIdeal
import proofs.«157081_j85761906966880_1_alg».proof.Proof.Gen.ReferenceIdeal
import proofs.«157081_j85761906966880_1_alg».proof.Proof.Gen.Pre_finite_inputs
import proofs.«157081_j85761906966880_1_alg».proof.Proof.KbRun
import proofs.«157081_j85761906966880_1_alg».proof.Proof.KiRun
import proofs.«157081_j85761906966880_1_alg».proof.Proof.KiValue
import proofs.«157081_j85761906966880_1_alg».proof.Proof.RefFrame
import proofs.«157081_j85761906966880_1_alg».proof.Proof.RefBack
import proofs.«157081_j85761906966880_1_alg».proof.Proof.PreFinite
import Idealize.ShloMosaic.Adequacy
import Idealize.ShloMosaic.Init

noncomputable section

namespace Cert.Proof

open Idealize.ShloMosaic Idealize.ShloMosaic.TcCoe Idealize.SL.Sem

/-- Buffer `b` of the kernel program on core `c`, in the memory `m`. -/
abbrev kbuf (m : (ℓ : Loc Cert.KernelIdeal.nD Cert.KernelIdeal.τ Cert.KernelIdeal.sig) → Buf (Elt Ideal) ℓ) (c : Dev Cert.KernelIdeal.nD)
    (b : Ref Cert.KernelIdeal.sig .tc) := m ((c.tc : Thread Cert.KernelIdeal.nD Cert.KernelIdeal.τ).loc b)

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => Cert.ReferenceIdeal.Hand.frame (F := Ideal) m ρ

theorem preserves : Cert.preserves_Kernel_KernelIdeal := trivial

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => kbuf m c Cert.KernelIdeal.main_arg2,
    fun c => Cert.ReferenceIdeal.Hand.r_final (F := Ideal) (kbuf m c Cert.KernelIdeal.main_arg0) (kbuf m c Cert.KernelIdeal.main_arg1) (kbuf m c Cert.KernelIdeal.main_arg2) (kbuf m c Cert.KernelIdeal.main_arg5) (kbuf m c Cert.KernelIdeal.main_arg6) (kbuf m c Cert.KernelIdeal.main_arg7) (kbuf m c Cert.KernelIdeal.main_arg8) (kbuf m c Cert.KernelIdeal.main_arg9) (kbuf m c Cert.KernelIdeal.main_arg10) (kbuf m c Cert.KernelIdeal.main_arg11) (kbuf m c Cert.KernelIdeal.main_arg12) (kbuf m c Cert.KernelIdeal.main_arg13) (kbuf m c Cert.KernelIdeal.main_arg14) (kbuf m c Cert.KernelIdeal.main_arg15) (kbuf m c Cert.KernelIdeal.main_arg16), ?_, ?_⟩
  · refine (θ_run (Cert.KernelIdeal.defs (F := Ideal)) _ _).mono (fun r h c => ?_) (Cert.KernelIdeal.Hand.run_all (F := Ideal) m ρ)
    have I := Cert.Lib.PreFinite.inputs_real (kbuf m c Cert.KernelIdeal.main_arg0) (kbuf m c Cert.KernelIdeal.main_arg1) (kbuf m c Cert.KernelIdeal.main_arg2) (kbuf m c Cert.KernelIdeal.main_arg3) (kbuf m c Cert.KernelIdeal.main_arg4) (kbuf m c Cert.KernelIdeal.main_arg5) (kbuf m c Cert.KernelIdeal.main_arg6) (kbuf m c Cert.KernelIdeal.main_arg7) (kbuf m c Cert.KernelIdeal.main_arg8) (kbuf m c Cert.KernelIdeal.main_arg9) (kbuf m c Cert.KernelIdeal.main_arg10) (kbuf m c Cert.KernelIdeal.main_arg11) (kbuf m c Cert.KernelIdeal.main_arg12) (kbuf m c Cert.KernelIdeal.main_arg13) (kbuf m c Cert.KernelIdeal.main_arg14) (kbuf m c Cert.KernelIdeal.main_arg15) (kbuf m c Cert.KernelIdeal.main_arg16) (hpre c)
    exact ⟨(h c _ (Cert.KernelIdeal.Hand.mem_uc Cert.KernelIdeal.main_arg2 (by decide))).trans (Cert.KernelIdeal.Gen.V31_main_arg2 m (Cert.KernelIdeal.Hand.outs m) c),
      (h c _ (Cert.KernelIdeal.Hand.mem_uc Cert.KernelIdeal.main_v153 (by decide))).trans (Cert.Bridge.kernel_value m c I),
      (h c _ (Cert.KernelIdeal.Hand.mem_uc Cert.KernelIdeal.main_arg0 (by decide))).trans (Cert.KernelIdeal.Gen.V31_main_arg0 m (Cert.KernelIdeal.Hand.outs m) c),
      (h c _ (Cert.KernelIdeal.Hand.mem_uc Cert.KernelIdeal.main_arg1 (by decide))).trans (Cert.KernelIdeal.Gen.V31_main_arg1 m (Cert.KernelIdeal.Hand.outs m) c),
      (h c _ (Cert.KernelIdeal.Hand.mem_uc Cert.KernelIdeal.main_arg2 (by decide))).trans (Cert.KernelIdeal.Gen.V31_main_arg2 m (Cert.KernelIdeal.Hand.outs m) c),
      (h c _ (Cert.KernelIdeal.Hand.mem_uc Cert.KernelIdeal.main_arg3 (by decide))).trans (Cert.KernelIdeal.Gen.V31_main_arg3 m (Cert.KernelIdeal.Hand.outs m) c),
      (h c _ (Cert.KernelIdeal.Hand.mem_uc Cert.KernelIdeal.main_arg4 (by decide))).trans (Cert.KernelIdeal.Gen.V31_main_arg4 m (Cert.KernelIdeal.Hand.outs m) c),
      (h c _ (Cert.KernelIdeal.Hand.mem_uc Cert.KernelIdeal.main_arg5 (by decide))).trans (Cert.KernelIdeal.Gen.V31_main_arg5 m (Cert.KernelIdeal.Hand.outs m) c),
      (h c _ (Cert.KernelIdeal.Hand.mem_uc Cert.KernelIdeal.main_arg6 (by decide))).trans (Cert.KernelIdeal.Gen.V31_main_arg6 m (Cert.KernelIdeal.Hand.outs m) c),
      (h c _ (Cert.KernelIdeal.Hand.mem_uc Cert.KernelIdeal.main_arg7 (by decide))).trans (Cert.KernelIdeal.Gen.V31_main_arg7 m (Cert.KernelIdeal.Hand.outs m) c),
      (h c _ (Cert.KernelIdeal.Hand.mem_uc Cert.KernelIdeal.main_arg8 (by decide))).trans (Cert.KernelIdeal.Gen.V31_main_arg8 m (Cert.KernelIdeal.Hand.outs m) c),
      (h c _ (Cert.KernelIdeal.Hand.mem_uc Cert.KernelIdeal.main_arg9 (by decide))).trans (Cert.KernelIdeal.Gen.V31_main_arg9 m (Cert.KernelIdeal.Hand.outs m) c),
      (h c _ (Cert.KernelIdeal.Hand.mem_uc Cert.KernelIdeal.main_arg10 (by decide))).trans (Cert.KernelIdeal.Gen.V31_main_arg10 m (Cert.KernelIdeal.Hand.outs m) c),
      (h c _ (Cert.KernelIdeal.Hand.mem_uc Cert.KernelIdeal.main_arg11 (by decide))).trans (Cert.KernelIdeal.Gen.V31_main_arg11 m (Cert.KernelIdeal.Hand.outs m) c),
      (h c _ (Cert.KernelIdeal.Hand.mem_uc Cert.KernelIdeal.main_arg12 (by decide))).trans (Cert.KernelIdeal.Gen.V31_main_arg12 m (Cert.KernelIdeal.Hand.outs m) c),
      (h c _ (Cert.KernelIdeal.Hand.mem_uc Cert.KernelIdeal.main_arg13 (by decide))).trans (Cert.KernelIdeal.Gen.V31_main_arg13 m (Cert.KernelIdeal.Hand.outs m) c),
      (h c _ (Cert.KernelIdeal.Hand.mem_uc Cert.KernelIdeal.main_arg14 (by decide))).trans (Cert.KernelIdeal.Gen.V31_main_arg14 m (Cert.KernelIdeal.Hand.outs m) c),
      (h c _ (Cert.KernelIdeal.Hand.mem_uc Cert.KernelIdeal.main_arg15 (by decide))).trans (Cert.KernelIdeal.Gen.V31_main_arg15 m (Cert.KernelIdeal.Hand.outs m) c),
      (h c _ (Cert.KernelIdeal.Hand.mem_uc Cert.KernelIdeal.main_arg16 (by decide))).trans (Cert.KernelIdeal.Gen.V31_main_arg16 m (Cert.KernelIdeal.Hand.outs m) c)⟩
  · refine (θ_run (Cert.ReferenceIdeal.defs (F := Ideal)) _ _).mono (fun r h c => ?_) (Cert.ReferenceIdeal.Hand.run_value (F := Ideal) m' ρ')
    obtain ⟨hv, k0, k1, k2, k3, k4, k5, k6, k7, k8, k9, k10, k11, k12, k13, k14, k15, k16⟩ := h c
    obtain ⟨e0, e1, e2, e3, e4, e5, e6, e7, e8, e9, e10, e11, e12, e13, e14, e15, e16⟩ := hagree c
    refine ⟨k2.trans e2, ?_, k0, k1, k2, k3, k4, k5, k6, k7, k8, k9, k10, k11, k12, k13, k14, k15, k16⟩
    rw [hv, Cert.ReferenceIdeal.Hand.result_eq m' c, e0, e1, e2, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
